-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v265)) (v1 : (c : Dev Cert.KernelIdeal.nD) → Buf (Elt Ideal) ((c.tc : Thread Cert.KernelIdeal.nD Cert.KernelIdeal.τ).loc Cert.KernelIdeal.main_v268)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v265) = v0 c
          ∧ r.2.mem ((c.tc : Thread Cert.KernelIdeal.nD Cert.KernelIdeal.τ).loc Cert.KernelIdeal.main_v268) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_v199) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x32x24x24 : Shape := ⟨5, ![32, 8, 32, 24, 24]⟩
abbrev S2x192x1160 : Shape := ⟨3, ![2, 192, 1160]⟩
abbrev S2x64x576 : Shape := ⟨3, ![2, 64, 576]⟩
abbrev S_ : Shape := ⟨0, ![]⟩

class Facts : Prop where
  bcast_S_S32x8x32x24x24 : S_.BroadcastsInDim S32x8x32x24x24 (![] : Fin 0 → Fin S32x8x32x24x24.rank)
  reducesTo_S32x8x32x24x24_S_d0_1_2_3_4 : S32x8x32x24x24.ReducesTo [0, 1, 2, 3, 4] S_
  h_S_ : 0 < S_.numel
  bcast_S_S2x192x1160 : S_.BroadcastsInDim S2x192x1160 (![] : Fin 0 → Fin S2x192x1160.rank)
  reducesTo_S2x192x1160_S_d0_1_2 : S2x192x1160.ReducesTo [0, 1, 2] S_
  bcast_S_S2x64x576 : S_.BroadcastsInDim S2x64x576 (![] : Fin 0 → Fin S2x64x576.rank)
  reducesTo_S2x64x576_S_d0_1_2 : S2x64x576.ReducesTo [0, 1, 2] S_

variable [Facts]

def fn {F : FTy → Type} [FloatOps F] (main_arg0 : FVec F S32x8x32x24x24 .f32) (main_arg1 : FVec F S2x192x1160 .f32) (main_arg2 : FVec F S2x64x576 .f32) : IVec S_ 1 :=
  let main_v0 : FVec F S32x8x32x24x24 .f32 := Host.absf main_arg0
  let main_cst : FVec F S_ .f32 := constant S_ .f32 0x7F800000#32
  let main_v1 : FVec F S32x8x32x24x24 .f32 := broadcastInDim S32x8x32x24x24 ![] bcast_S_S32x8x32x24x24 main_cst
  let main_v2 : IVec S32x8x32x24x24 1 := cmpf .olt main_v0 main_v1
  let main_c : IVec S_ 1 := constantI S_ 1 1#1
  let main_v3 : IVec S_ 1 := (fun x v => Host.reduce IntOp.andi x v reducesTo_S32x8x32x24x24_S_d0_1_2_3_4 h_S_) main_v2 main_c
  let main_v4 : FVec F S2x192x1160 .f32 := Host.absf main_arg1
  let main_cst_0 : FVec F S_ .f32 := constant S_ .f32 0x7F800000#32
  let main_v5 : FVec F S2x192x1160 .f32 := broadcastInDim S2x192x1160 ![] bcast_S_S2x192x1160 main_cst_0
  let main_v6 : IVec S2x192x1160 1 := cmpf .olt main_v4 main_v5
  let main_c_1 : IVec S_ 1 := constantI S_ 1 1#1
  let main_v7 : IVec S_ 1 := (fun x v => Host.reduce IntOp.andi x v reducesTo_S2x192x1160_S_d0_1_2 h_S_) main_v6 main_c_1
  let main_v8 : IVec S_ 1 := andi main_v3 main_v7
  let main_v9 : FVec F S2x64x576 .f32 := Host.absf main_arg2
  let main_cst_2 : FVec F S_ .f32 := constant S_ .f32 0x7F800000#32
  let main_v10 : FVec F S2x64x576 .f32 := broadcastInDim S2x64x576 ![] bcast_S_S2x64x576 main_cst_2
  let main_v11 : IVec S2x64x576 1 := cmpf .olt main_v9 main_v10
  let main_c_3 : IVec S_ 1 := constantI S_ 1 1#1
  let main_v12 : IVec S_ 1 := (fun x v => Host.reduce IntOp.andi x v reducesTo_S2x64x576_S_d0_1_2 h_S_) main_v11 main_c_3
  let main_v13 : IVec S_ 1 := andi main_v8 main_v12
  main_v13
-- ==== Kernel.lean ====
abbrev S32x8x32x24x24 : Shape := ⟨5, ![32, 8, 32, 24, 24]⟩
abbrev S2x192x1160 : Shape := ⟨3, ![2, 192, 1160]⟩
abbrev S2x64x576 : Shape := ⟨3, ![2, 64, 576]⟩
abbrev S1x192x1160 : Shape := ⟨3, ![1, 192, 1160]⟩
abbrev S192x1160 : Shape := ⟨2, ![192, 1160]⟩
abbrev S192x32 : Shape := ⟨2, ![192, 32]⟩
abbrev S192x64 : Shape := ⟨2, ![192, 64]⟩
abbrev S192x96 : Shape := ⟨2, ![192, 96]⟩
abbrev S192x1 : Shape := ⟨2, ![192, 1]⟩
abbrev S_ : Shape := ⟨0, ![]⟩
abbrev S192x15 : Shape := ⟨2, ![192, 15]⟩
abbrev S192x880 : Shape := ⟨2, ![192, 880]⟩
abbrev S192x128 : Shape := ⟨2, ![192, 128]⟩
abbrev S192x1168 : Shape := ⟨2, ![192, 1168]⟩
abbrev S576 : Shape := ⟨1, ![576]⟩
abbrev S1x576 : Shape := ⟨2, ![1, 576]⟩
abbrev S9x576 : Shape := ⟨2, ![9, 576]⟩
abbrev S1x9x1x576 : Shape := ⟨4, ![1, 9, 1, 576]⟩
abbrev S1x9x4x576 : Shape := ⟨4, ![1, 9, 4, 576]⟩
abbrev S9x2304 : Shape := ⟨2, ![9, 2304]⟩
abbrev S7x2304 : Shape := ⟨2, ![7, 2304]⟩
abbrev S16x2304 : Shape := ⟨2, ![16, 2304]⟩
abbrev S8x32x32x24x24 : Shape := ⟨5, ![8, 32, 32, 24, 24]⟩
abbrev S2x4x32x32x576 : Shape := ⟨5, ![2, 4, 32, 32, 576]⟩
abbrev S2x32x32x4x576 : Shape := ⟨5, ![2, 32, 32, 4, 576]⟩
abbrev S2x32x32x2304 : Shape := ⟨4, ![2, 32, 32, 2304]⟩
abbrev S2x32x64x2304 : Shape := ⟨4, ![2, 32, 64, 2304]⟩
abbrev S2x2x64x2304 : Shape := ⟨4, ![2, 2, 64, 2304]⟩
abbrev S1x1x32x2304 : Shape := ⟨4, ![1, 1, 32, 2304]⟩
abbrev S1x1x64x2304 : Shape := ⟨4, ![1, 1, 64, 2304]⟩
abbrev S1x2x64x2304 : Shape := ⟨4, ![1, 2, 64, 2304]⟩
abbrev S2x64x2304 : Shape := ⟨3, ![2, 64, 2304]⟩
abbrev S1168x2304 : Shape := ⟨2, ![1168, 2304]⟩
abbrev S576x2304 : Shape := ⟨2, ![576, 2304]⟩
abbrev S1x2304 : Shape := ⟨2, ![1, 2304]⟩
abbrev S2x2304 : Shape := ⟨2, ![2, 2304]⟩
abbrev S32x2304 : Shape := ⟨2, ![32, 2304]⟩
abbrev S1x64x2304 : Shape := ⟨3, ![1, 64, 2304]⟩
abbrev S64x2304 : Shape := ⟨2, ![64, 2304]⟩
abbrev S96x2304 : Shape := ⟨2, ![96, 2304]⟩
abbrev S1x64x576 : Shape := ⟨3, ![1, 64, 576]⟩
abbrev S64x576 : Shape := ⟨2, ![64, 576]⟩
abbrev S880x2304 : Shape := ⟨2, ![880, 2304]⟩
abbrev S192x2304 : Shape := ⟨2, ![192, 2304]⟩
abbrev S128x2304 : Shape := ⟨2, ![128, 2304]⟩
abbrev S2x32x64x4x576 : Shape := ⟨5, ![2, 32, 64, 4, 576]⟩
abbrev S32x2x4x64x576 : Shape := ⟨5, ![32, 2, 4, 64, 576]⟩
abbrev S32x8x64x24x24 : Shape := ⟨5, ![32, 8, 64, 24, 24]⟩
abbrev S2x2x64x4x576 : Shape := ⟨5, ![2, 2, 64, 4, 576]⟩
abbrev S2x4x2x64x576 : Shape := ⟨5, ![2, 4, 2, 64, 576]⟩
abbrev S8x2x64x24x24 : Shape := ⟨5, ![8, 2, 64, 24, 24]⟩

abbrev nBuf : Space → Nat
  | .hbm => 386
  | .vmem => 13
  | .smem => 0
  | _ => 0

abbrev hbmTy0_0 (i : Nat) : BufTy := match i % 128 with
  | 0 => ⟨S32x8x32x24x24, .f32⟩
  | 1 => ⟨S2x192x1160, .f32⟩
  | 2 => ⟨S2x64x576, .f32⟩
  | 3 => ⟨S1x192x1160, .f32⟩
  | 4 => ⟨S192x1160, .f32⟩
  | 5 => ⟨S192x32, .f32⟩
  | 6 => ⟨S192x64, .f32⟩
  | 7 => ⟨S192x96, .f32⟩
  | 8 => ⟨S192x32, .f32⟩
  | 9 => ⟨S192x64, .f32⟩
  | 10 => ⟨S192x96, .f32⟩
  | 11 => ⟨S192x32, .f32⟩
  | 12 => ⟨S192x64, .f32⟩
  | 13 => ⟨S192x96, .f32⟩
  | 14 => ⟨S192x32, .f32⟩
  | 15 => ⟨S192x64, .f32⟩
  | 16 => ⟨S192x96, .f32⟩
  | 17 => ⟨S192x32, .f32⟩
  | 18 => ⟨S192x64, .f32⟩
  | 19 => ⟨S192x96, .f32⟩
  | 20 => ⟨S192x32, .f32⟩
  | 21 => ⟨S192x64, .f32⟩
  | 22 => ⟨S192x96, .f32⟩
  | 23 => ⟨S192x32, .f32⟩
  | 24 => ⟨S192x64, .f32⟩
  | 25 => ⟨S192x96, .f32⟩
  | 26 => ⟨S192x32, .f32⟩
  | 27 => ⟨S192x64, .f32⟩
  | 28 => ⟨S192x96, .f32⟩
  | 29 => ⟨S192x32, .f32⟩
  | 30 => ⟨S192x64, .f32⟩
  | 31 => ⟨S192x96, .f32⟩
  | 32 => ⟨S192x1, .f32⟩
  | 33 => ⟨S_, .f32⟩
  | 34 => ⟨S192x15, .f32⟩
  | 35 => ⟨S192x880, .f32⟩
  | 36 => ⟨S192x880, .bf16⟩
  | 37 => ⟨S1x192x1160, .f32⟩
  | 38 => ⟨S192x1160, .f32⟩
  | 39 => ⟨S192x64, .f32⟩
  | 40 => ⟨S192x64, .f32⟩
  | 41 => ⟨S192x128, .f32⟩
  | 42 => ⟨S192x64, .f32⟩
  | 43 => ⟨S192x64, .f32⟩
  | 44 => ⟨S192x128, .f32⟩
  | 45 => ⟨S192x64, .f32⟩
  | 46 => ⟨S192x64, .f32⟩
  | 47 => ⟨S192x128, .f32⟩
  | 48 => ⟨S192x64, .f32⟩
  | 49 => ⟨S192x64, .f32⟩
  | 50 => ⟨S192x128, .f32⟩
  | 51 => ⟨S192x64, .f32⟩
  | 52 => ⟨S192x64, .f32⟩
  | 53 => ⟨S192x128, .f32⟩
  | 54 => ⟨S192x64, .f32⟩
  | 55 => ⟨S192x64, .f32⟩
  | 56 => ⟨S192x128, .f32⟩
  | 57 => ⟨S192x64, .f32⟩
  | 58 => ⟨S192x64, .f32⟩
  | 59 => ⟨S192x128, .f32⟩
  | 60 => ⟨S192x64, .f32⟩
  | 61 => ⟨S192x64, .f32⟩
  | 62 => ⟨S192x128, .f32⟩
  | 63 => ⟨S192x64, .f32⟩
  | 64 => ⟨S192x64, .f32⟩
  | 65 => ⟨S192x128, .f32⟩
  | 66 => ⟨S192x1, .f32⟩
  | 67 => ⟨S_, .f32⟩
  | 68 => ⟨S192x15, .f32⟩
  | 69 => ⟨S192x1168, .f32⟩
  | 70 => ⟨S192x1168, .bf16⟩
  | 71 => ⟨S2x64x576, .bf16⟩
  | 72 => ⟨S576, .i32⟩
  | 73 => ⟨S_, .i32⟩
  | 74 => ⟨S_, .i32⟩
  | 75 => ⟨S576, .i32⟩
  | 76 => ⟨S576, .i32⟩
  | 77 => ⟨S576, .i32⟩
  | 78 => ⟨S_, .i32⟩
  | 79 => ⟨S576, .i32⟩
  | 80 => ⟨S576, .i1⟩
  | 81 => ⟨S576, .i32⟩
  | 82 => ⟨S576, .i32⟩
  | 83 => ⟨S_, .i32⟩
  | 84 => ⟨S576, .i32⟩
  | 85 => ⟨S576, .i1⟩
  | 86 => ⟨S576, .i1⟩
  | 87 => ⟨S_, .i32⟩
  | 88 => ⟨S576, .i32⟩
  | 89 => ⟨S576, .i32⟩
  | 90 => ⟨S576, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S576, .i32⟩
  | 98 => ⟨S576, .i32⟩
  | 99 => ⟨S_, .i32⟩
  | 100 => ⟨S576, .i32⟩
  | 101 => ⟨S576, .i1⟩
  | 102 => ⟨S_, .i32⟩
  | 103 => ⟨S576, .i32⟩
  | 104 => ⟨S576, .i1⟩
  | 105 => ⟨S_, .i32⟩
  | 106 => ⟨S_, .i1⟩
  | 107 => ⟨S576, .i1⟩
  | 108 => ⟨S576, .i1⟩
  | 109 => ⟨S576, .i1⟩
  | 110 => ⟨S576, .i32⟩
  | 111 => ⟨S576, .i32⟩
  | 112 => ⟨S576, .i32⟩
  | 113 => ⟨S_, .i32⟩
  | 114 => ⟨S576, .i32⟩
  | 115 => ⟨S576, .i32⟩
  | 116 => ⟨S_, .i32⟩
  | 117 => ⟨S576, .i32⟩
  | 118 => ⟨S576, .i1⟩
  | 119 => ⟨S_, .i32⟩
  | 120 => ⟨S576, .i32⟩
  | 121 => ⟨S576, .i32⟩
  | 122 => ⟨S_, .i32⟩
  | 123 => ⟨S576, .i32⟩
  | 124 => ⟨S576, .i1⟩
  | 125 => ⟨S576, .i1⟩
  | 126 => ⟨S_, .i32⟩
  | 127 => ⟨S576, .i32⟩
  | _ => ⟨S32x8x32x24x24, .f32⟩

abbrev hbmTy0_1 (i : Nat) : BufTy := match i % 128 with
  | 0 => ⟨S576, .i32⟩
  | 1 => ⟨S_, .i32⟩
  | 2 => ⟨S576, .i32⟩
  | 3 => ⟨S576, .i1⟩
  | 4 => ⟨S576, .i1⟩
  | 5 => ⟨S_, .i32⟩
  | 6 => ⟨S576, .i32⟩
  | 7 => ⟨S576, .i32⟩
  | 8 => ⟨S_, .i32⟩
  | 9 => ⟨S576, .i32⟩
  | 10 => ⟨S576, .i1⟩
  | 11 => ⟨S576, .i1⟩
  | 12 => ⟨S_, .i32⟩
  | 13 => ⟨S576, .i32⟩
  | 14 => ⟨S576, .i32⟩
  | 15 => ⟨S_, .i32⟩
  | 16 => ⟨S576, .i32⟩
  | 17 => ⟨S576, .i1⟩
  | 18 => ⟨S_, .i32⟩
  | 19 => ⟨S576, .i32⟩
  | 20 => ⟨S576, .i32⟩
  | 21 => ⟨S_, .i32⟩
  | 22 => ⟨S576, .i32⟩
  | 23 => ⟨S576, .i1⟩
  | 24 => ⟨S576, .i1⟩
  | 25 => ⟨S_, .i32⟩
  | 26 => ⟨S576, .i32⟩
  | 27 => ⟨S576, .i32⟩
  | 28 => ⟨S_, .i32⟩
  | 29 => ⟨S576, .i32⟩
  | 30 => ⟨S576, .i1⟩
  | 31 => ⟨S576, .i1⟩
  | 32 => ⟨S_, .i32⟩
  | 33 => ⟨S576, .i32⟩
  | 34 => ⟨S576, .i32⟩
  | 35 => ⟨S_, .i32⟩
  | 36 => ⟨S576, .i32⟩
  | 37 => ⟨S576, .i1⟩
  | 38 => ⟨S576, .i1⟩
  | 39 => ⟨S_, .i32⟩
  | 40 => ⟨S576, .i32⟩
  | 41 => ⟨S576, .i32⟩
  | 42 => ⟨S_, .i32⟩
  | 43 => ⟨S576, .i32⟩
  | 44 => ⟨S576, .i1⟩
  | 45 => ⟨S_, .i32⟩
  | 46 => ⟨S576, .i32⟩
  | 47 => ⟨S576, .i32⟩
  | 48 => ⟨S_, .i32⟩
  | 49 => ⟨S576, .i32⟩
  | 50 => ⟨S576, .i1⟩
  | 51 => ⟨S576, .i1⟩
  | 52 => ⟨S_, .i32⟩
  | 53 => ⟨S576, .i32⟩
  | 54 => ⟨S576, .i32⟩
  | 55 => ⟨S_, .i32⟩
  | 56 => ⟨S576, .i32⟩
  | 57 => ⟨S576, .i1⟩
  | 58 => ⟨S576, .i1⟩
  | 59 => ⟨S_, .i32⟩
  | 60 => ⟨S576, .i32⟩
  | 61 => ⟨S576, .i32⟩
  | 62 => ⟨S_, .i32⟩
  | 63 => ⟨S576, .i32⟩
  | 64 => ⟨S576, .i1⟩
  | 65 => ⟨S576, .i1⟩
  | 66 => ⟨S_, .i32⟩
  | 67 => ⟨S576, .i32⟩
  | 68 => ⟨S576, .i32⟩
  | 69 => ⟨S_, .i32⟩
  | 70 => ⟨S576, .i32⟩
  | 71 => ⟨S576, .i1⟩
  | 72 => ⟨S_, .i32⟩
  | 73 => ⟨S576, .i32⟩
  | 74 => ⟨S576, .i32⟩
  | 75 => ⟨S_, .i32⟩
  | 76 => ⟨S576, .i32⟩
  | 77 => ⟨S576, .i1⟩
  | 78 => ⟨S576, .i1⟩
  | 79 => ⟨S_, .i32⟩
  | 80 => ⟨S576, .i32⟩
  | 81 => ⟨S576, .i32⟩
  | 82 => ⟨S_, .i32⟩
  | 83 => ⟨S576, .i32⟩
  | 84 => ⟨S576, .i1⟩
  | 85 => ⟨S576, .i1⟩
  | 86 => ⟨S_, .i32⟩
  | 87 => ⟨S576, .i32⟩
  | 88 => ⟨S576, .i32⟩
  | 89 => ⟨S_, .i32⟩
  | 90 => ⟨S576, .i32⟩
  | 91 => ⟨S576, .i1⟩
  | 92 => ⟨S576, .i1⟩
  | 93 => ⟨S_, .i32⟩
  | 94 => ⟨S576, .i32⟩
  | 95 => ⟨S576, .i32⟩
  | 96 => ⟨S_, .i32⟩
  | 97 => ⟨S576, .i32⟩
  | 98 => ⟨S576, .i1⟩
  | 99 => ⟨S_, .i32⟩
  | 100 => ⟨S576, .i32⟩
  | 101 => ⟨S576, .i32⟩
  | 102 => ⟨S_, .i32⟩
  | 103 => ⟨S576, .i32⟩
  | 104 => ⟨S576, .i1⟩
  | 105 => ⟨S576, .i1⟩
  | 106 => ⟨S_, .i32⟩
  | 107 => ⟨S576, .i32⟩
  | 108 => ⟨S576, .i32⟩
  | 109 => ⟨S_, .i32⟩
  | 110 => ⟨S576, .i32⟩
  | 111 => ⟨S576, .i1⟩
  | 112 => ⟨S576, .i1⟩
  | 113 => ⟨S_, .i32⟩
  | 114 => ⟨S576, .i32⟩
  | 115 => ⟨S576, .i32⟩
  | 116 => ⟨S_, .i32⟩
  | 117 => ⟨S576, .i32⟩
  | 118 => ⟨S576, .i1⟩
  | 119 => ⟨S576, .i1⟩
  | 120 => ⟨S_, .i32⟩
  | 121 => ⟨S576, .i32⟩
  | 122 => ⟨S576, .i32⟩
  | 123 => ⟨S_, .i32⟩
  | 124 => ⟨S576, .i32⟩
  | 125 => ⟨S576, .i1⟩
  | 126 => ⟨S_, .i32⟩
  | 127 => ⟨S576, .i32⟩
  | _ => ⟨S32x8x32x24x24, .f32⟩

abbrev hbmTy0_2 (i : Nat) : BufTy := match i % 128 with
  | 0 => ⟨S576, .i32⟩
  | 1 => ⟨S_, .i32⟩
  | 2 => ⟨S576, .i32⟩
  | 3 => ⟨S576, .i1⟩
  | 4 => ⟨S576, .i1⟩
  | 5 => ⟨S_, .i32⟩
  | 6 => ⟨S576, .i32⟩
  | 7 => ⟨S576, .i32⟩
  | 8 => ⟨S_, .i32⟩
  | 9 => ⟨S576, .i32⟩
  | 10 => ⟨S576, .i1⟩
  | 11 => ⟨S576, .i1⟩
  | 12 => ⟨S_, .i32⟩
  | 13 => ⟨S576, .i32⟩
  | 14 => ⟨S576, .i32⟩
  | 15 => ⟨S_, .i32⟩
  | 16 => ⟨S576, .i32⟩
  | 17 => ⟨S576, .i1⟩
  | 18 => ⟨S576, .i1⟩
  | 19 => ⟨S_, .i32⟩
  | 20 => ⟨S576, .i32⟩
  | 21 => ⟨S576, .i32⟩
  | 22 => ⟨S_, .i32⟩
  | 23 => ⟨S576, .i32⟩
  | 24 => ⟨S576, .i1⟩
  | 25 => ⟨S_, .i32⟩
  | 26 => ⟨S576, .i32⟩
  | 27 => ⟨S576, .i32⟩
  | 28 => ⟨S_, .i32⟩
  | 29 => ⟨S576, .i32⟩
  | 30 => ⟨S576, .i1⟩
  | 31 => ⟨S576, .i1⟩
  | 32 => ⟨S_, .i32⟩
  | 33 => ⟨S576, .i32⟩
  | 34 => ⟨S576, .i32⟩
  | 35 => ⟨S_, .i32⟩
  | 36 => ⟨S576, .i32⟩
  | 37 => ⟨S576, .i1⟩
  | 38 => ⟨S576, .i1⟩
  | 39 => ⟨S_, .i32⟩
  | 40 => ⟨S576, .i32⟩
  | 41 => ⟨S576, .i32⟩
  | 42 => ⟨S_, .i32⟩
  | 43 => ⟨S576, .i32⟩
  | 44 => ⟨S576, .i1⟩
  | 45 => ⟨S576, .i1⟩
  | 46 => ⟨S_, .i32⟩
  | 47 => ⟨S576, .i32⟩
  | 48 => ⟨S576, .i32⟩
  | 49 => ⟨S_, .i32⟩
  | 50 => ⟨S576, .i32⟩
  | 51 => ⟨S576, .i1⟩
  | 52 => ⟨S_, .i32⟩
  | 53 => ⟨S576, .i32⟩
  | 54 => ⟨S576, .i32⟩
  | 55 => ⟨S_, .i32⟩
  | 56 => ⟨S576, .i32⟩
  | 57 => ⟨S576, .i1⟩
  | 58 => ⟨S576, .i1⟩
  | 59 => ⟨S_, .i32⟩
  | 60 => ⟨S576, .i32⟩
  | 61 => ⟨S576, .i32⟩
  | 62 => ⟨S_, .i32⟩
  | 63 => ⟨S576, .i32⟩
  | 64 => ⟨S576, .i1⟩
  | 65 => ⟨S576, .i1⟩
  | 66 => ⟨S_, .i32⟩
  | 67 => ⟨S576, .i32⟩
  | 68 => ⟨S576, .i32⟩
  | 69 => ⟨S_, .i32⟩
  | 70 => ⟨S576, .i32⟩
  | 71 => ⟨S576, .i1⟩
  | 72 => ⟨S576, .i1⟩
  | 73 => ⟨S_, .i32⟩
  | 74 => ⟨S576, .i32⟩
  | 75 => ⟨S576, .i32⟩
  | 76 => ⟨S_, .i32⟩
  | 77 => ⟨S576, .i32⟩
  | 78 => ⟨S576, .i1⟩
  | 79 => ⟨S_, .i32⟩
  | 80 => ⟨S576, .i32⟩
  | 81 => ⟨S576, .i32⟩
  | 82 => ⟨S_, .i32⟩
  | 83 => ⟨S576, .i32⟩
  | 84 => ⟨S576, .i1⟩
  | 85 => ⟨S576, .i1⟩
  | 86 => ⟨S_, .i32⟩
  | 87 => ⟨S576, .i32⟩
  | 88 => ⟨S576, .i32⟩
  | 89 => ⟨S_, .i32⟩
  | 90 => ⟨S576, .i32⟩
  | 91 => ⟨S576, .i1⟩
  | 92 => ⟨S576, .i1⟩
  | 93 => ⟨S_, .i32⟩
  | 94 => ⟨S576, .i32⟩
  | 95 => ⟨S576, .i32⟩
  | 96 => ⟨S_, .i32⟩
  | 97 => ⟨S576, .i32⟩
  | 98 => ⟨S576, .i1⟩
  | 99 => ⟨S576, .i1⟩
  | 100 => ⟨S1x576, .i1⟩
  | 101 => ⟨S1x576, .i1⟩
  | 102 => ⟨S1x576, .i1⟩
  | 103 => ⟨S1x576, .i1⟩
  | 104 => ⟨S1x576, .i1⟩
  | 105 => ⟨S1x576, .i1⟩
  | 106 => ⟨S1x576, .i1⟩
  | 107 => ⟨S1x576, .i1⟩
  | 108 => ⟨S1x576, .i1⟩
  | 109 => ⟨S9x576, .i1⟩
  | 110 => ⟨S1x9x1x576, .i1⟩
  | 111 => ⟨S1x9x4x576, .i1⟩
  | 112 => ⟨S9x2304, .i1⟩
  | 113 => ⟨S_, .i1⟩
  | 114 => ⟨S7x2304, .i1⟩
  | 115 => ⟨S16x2304, .i1⟩
  | 116 => ⟨S16x2304, .bf16⟩
  | 117 => ⟨S8x32x32x24x24, .f32⟩
  | 118 => ⟨S2x4x32x32x576, .f32⟩
  | 119 => ⟨S2x32x32x4x576, .f32⟩
  | 120 => ⟨S2x32x32x2304, .f32⟩
  | 121 => ⟨S2x32x32x2304, .bf16⟩
  | 122 => ⟨S2x32x64x2304, .f32⟩
  | 123 => ⟨S2x2x64x2304, .f32⟩
  | 124 => ⟨S2x32x64x4x576, .f32⟩
  | 125 => ⟨S32x2x4x64x576, .f32⟩
  | 126 => ⟨S32x8x64x24x24, .f32⟩
  | 127 => ⟨S2x2x64x4x576, .f32⟩
  | _ => ⟨S32x8x32x24x24, .f32⟩

abbrev hbmTy0_3 (i : Nat) : BufTy := match i % 128 with
  | 0 => ⟨S2x4x2x64x576, .f32⟩
  | 1 => ⟨S8x2x64x24x24, .f32⟩
  | _ => ⟨S32x8x32x24x24, .f32⟩

abbrev hbmTy (i : Nat) : BufTy := match i / 128 with
  | 0 => hbmTy0_0 i
  | 1 => hbmTy0_1 i
  | 2 => hbmTy0_2 i
  | 3 => hbmTy0_3 i
  | _ => ⟨S32x8x32x24x24, .f32⟩

abbrev bufTy : (tb : Table) → Fin (tcTables nBuf tb) → BufTy
  | .hbm, ⟨i, _⟩ => hbmTy i
  | .local _ .vmem, ⟨0, _⟩ => ⟨S16x2304, .bf16⟩
  | .local _ .vmem, ⟨1, _⟩ => ⟨S1x1x32x2304, .bf16⟩
  | .local _ .vmem, ⟨2, _⟩ => ⟨S1x1x32x2304, .bf16⟩
  | .local _ .vmem, ⟨3, _⟩ => ⟨S192x880, .bf16⟩
  | .local _ .vmem, ⟨4, _⟩ => ⟨S192x1168, .bf16⟩
  | .local _ .vmem, ⟨5, _⟩ => ⟨S2x64x576, .bf16⟩
  | .local _ .vmem, ⟨6, _⟩ => ⟨S1x1x64x2304, .f32⟩
  | .local _ .vmem, ⟨7, _⟩ => ⟨S1x1x64x2304, .f32⟩
  | .local _ .vmem, ⟨8, _⟩ => ⟨S1x2x64x2304, .f32⟩
  | .local _ .vmem, ⟨9, _⟩ => ⟨S1x2x64x2304, .f32⟩
  | .local _ .vmem, ⟨10, _⟩ => ⟨S2x64x2304, .f32⟩
  | .local _ .vmem, ⟨11, _⟩ => ⟨S1168x2304, .bf16⟩
  | .local _ .vmem, ⟨12, _⟩ => ⟨S576x2304, .bf16⟩
  | _, _ => ⟨S32x8x32x24x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_cst : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_cst_0 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_c : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_v5 : Ref sig .tc := ⟨.hbm, 79, rfl⟩
abbrev main_call0_v6 : Ref sig .tc := ⟨.hbm, 80, rfl⟩
abbrev main_call0_v7 : Ref sig .tc := ⟨.hbm, 81, rfl⟩
abbrev main_call0_v8 : Ref sig .tc := ⟨.hbm, 82, rfl⟩
abbrev main_call0_c : Ref sig .tc := ⟨.hbm, 83, rfl⟩
abbrev main_call0_v9 : Ref sig .tc := ⟨.hbm, 84, rfl⟩
abbrev main_call0_v10 : Ref sig .tc := ⟨.hbm, 85, rfl⟩
abbrev main_call0_v11 : Ref sig .tc := ⟨.hbm, 86, rfl⟩
abbrev main_call0_c_0 : Ref sig .tc := ⟨.hbm, 87, rfl⟩
abbrev main_call0_v12 : Ref sig .tc := ⟨.hbm, 88, rfl⟩
abbrev main_call0_v13 : Ref sig .tc := ⟨.hbm, 89, rfl⟩
abbrev main_v68 : Ref sig .tc := ⟨.hbm, 90, rfl⟩
abbrev main_c_1 : Ref sig .tc := ⟨.hbm, 91, rfl⟩
abbrev main_call1_v0 : Ref sig .tc := ⟨.hbm, 92, rfl⟩
abbrev main_call1_c : Ref sig .tc := ⟨.hbm, 93, rfl⟩
abbrev main_call1_v1 : Ref sig .tc := ⟨.hbm, 94, rfl⟩
abbrev main_call1_c_0 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_call1_c_1 : Ref sig .tc := ⟨.hbm, 99, rfl⟩
abbrev main_call1_v5 : Ref sig .tc := ⟨.hbm, 100, rfl⟩
abbrev main_call1_v6 : Ref sig .tc := ⟨.hbm, 101, rfl⟩
abbrev main_call1_c_2 : Ref sig .tc := ⟨.hbm, 102, rfl⟩
abbrev main_call1_v7 : Ref sig .tc := ⟨.hbm, 103, rfl⟩
abbrev main_call1_v8 : Ref sig .tc := ⟨.hbm, 104, rfl⟩
abbrev main_call1_c_3 : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_call1_v12 : Ref sig .tc := ⟨.hbm, 109, rfl⟩
abbrev main_call1_v13 : Ref sig .tc := ⟨.hbm, 110, rfl⟩
abbrev main_call1_v14 : Ref sig .tc := ⟨.hbm, 111, rfl⟩
abbrev main_v69 : Ref sig .tc := ⟨.hbm, 112, rfl⟩
abbrev main_c_2 : Ref sig .tc := ⟨.hbm, 113, rfl⟩
abbrev main_v70 : Ref sig .tc := ⟨.hbm, 114, rfl⟩
abbrev main_v71 : Ref sig .tc := ⟨.hbm, 115, rfl⟩
abbrev main_c_3 : Ref sig .tc := ⟨.hbm, 116, rfl⟩
abbrev main_v72 : Ref sig .tc := ⟨.hbm, 117, rfl⟩
abbrev main_v73 : Ref sig .tc := ⟨.hbm, 118, rfl⟩
abbrev main_c_4 : Ref sig .tc := ⟨.hbm, 119, rfl⟩
abbrev main_v74 : Ref sig .tc := ⟨.hbm, 120, rfl⟩
abbrev main_v75 : Ref sig .tc := ⟨.hbm, 121, rfl⟩
abbrev main_c_5 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_c_6 : Ref sig .tc := ⟨.hbm, 126, rfl⟩
abbrev main_v79 : Ref sig .tc := ⟨.hbm, 127, rfl⟩
abbrev main_v80 : Ref sig .tc := ⟨.hbm, 128, rfl⟩
abbrev main_c_7 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_c_8 : Ref sig .tc := ⟨.hbm, 133, rfl⟩
abbrev main_v84 : Ref sig .tc := ⟨.hbm, 134, rfl⟩
abbrev main_v85 : Ref sig .tc := ⟨.hbm, 135, rfl⟩
abbrev main_c_9 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_c_10 : Ref sig .tc := ⟨.hbm, 140, rfl⟩
abbrev main_v89 : Ref sig .tc := ⟨.hbm, 141, rfl⟩
abbrev main_v90 : Ref sig .tc := ⟨.hbm, 142, rfl⟩
abbrev main_c_11 : Ref sig .tc := ⟨.hbm, 143, rfl⟩
abbrev main_v91 : Ref sig .tc := ⟨.hbm, 144, rfl⟩
abbrev main_v92 : Ref sig .tc := ⟨.hbm, 145, rfl⟩
abbrev main_c_12 : Ref sig .tc := ⟨.hbm, 146, rfl⟩
abbrev main_v93 : Ref sig .tc := ⟨.hbm, 147, rfl⟩
abbrev main_v94 : Ref sig .tc := ⟨.hbm, 148, rfl⟩
abbrev main_c_13 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_c_14 : Ref sig .tc := ⟨.hbm, 153, rfl⟩
abbrev main_v98 : Ref sig .tc := ⟨.hbm, 154, rfl⟩
abbrev main_v99 : Ref sig .tc := ⟨.hbm, 155, rfl⟩
abbrev main_c_15 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_c_16 : Ref sig .tc := ⟨.hbm, 160, rfl⟩
abbrev main_v103 : Ref sig .tc := ⟨.hbm, 161, rfl⟩
abbrev main_v104 : Ref sig .tc := ⟨.hbm, 162, rfl⟩
abbrev main_c_17 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_c_18 : Ref sig .tc := ⟨.hbm, 167, rfl⟩
abbrev main_v108 : Ref sig .tc := ⟨.hbm, 168, rfl⟩
abbrev main_v109 : Ref sig .tc := ⟨.hbm, 169, rfl⟩
abbrev main_c_19 : Ref sig .tc := ⟨.hbm, 170, rfl⟩
abbrev main_v110 : Ref sig .tc := ⟨.hbm, 171, rfl⟩
abbrev main_v111 : Ref sig .tc := ⟨.hbm, 172, rfl⟩
abbrev main_c_20 : Ref sig .tc := ⟨.hbm, 173, rfl⟩
abbrev main_v112 : Ref sig .tc := ⟨.hbm, 174, rfl⟩
abbrev main_v113 : Ref sig .tc := ⟨.hbm, 175, rfl⟩
abbrev main_c_21 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_c_22 : Ref sig .tc := ⟨.hbm, 180, rfl⟩
abbrev main_v117 : Ref sig .tc := ⟨.hbm, 181, rfl⟩
abbrev main_v118 : Ref sig .tc := ⟨.hbm, 182, rfl⟩
abbrev main_c_23 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_c_24 : Ref sig .tc := ⟨.hbm, 187, rfl⟩
abbrev main_v122 : Ref sig .tc := ⟨.hbm, 188, rfl⟩
abbrev main_v123 : Ref sig .tc := ⟨.hbm, 189, rfl⟩
abbrev main_c_25 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_c_26 : Ref sig .tc := ⟨.hbm, 194, rfl⟩
abbrev main_v127 : Ref sig .tc := ⟨.hbm, 195, rfl⟩
abbrev main_v128 : Ref sig .tc := ⟨.hbm, 196, rfl⟩
abbrev main_c_27 : Ref sig .tc := ⟨.hbm, 197, rfl⟩
abbrev main_v129 : Ref sig .tc := ⟨.hbm, 198, rfl⟩
abbrev main_v130 : Ref sig .tc := ⟨.hbm, 199, rfl⟩
abbrev main_c_28 : Ref sig .tc := ⟨.hbm, 200, rfl⟩
abbrev main_v131 : Ref sig .tc := ⟨.hbm, 201, rfl⟩
abbrev main_v132 : Ref sig .tc := ⟨.hbm, 202, rfl⟩
abbrev main_c_29 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_c_30 : Ref sig .tc := ⟨.hbm, 207, rfl⟩
abbrev main_v136 : Ref sig .tc := ⟨.hbm, 208, rfl⟩
abbrev main_v137 : Ref sig .tc := ⟨.hbm, 209, rfl⟩
abbrev main_c_31 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_c_32 : Ref sig .tc := ⟨.hbm, 214, rfl⟩
abbrev main_v141 : Ref sig .tc := ⟨.hbm, 215, rfl⟩
abbrev main_v142 : Ref sig .tc := ⟨.hbm, 216, rfl⟩
abbrev main_c_33 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_c_34 : Ref sig .tc := ⟨.hbm, 221, rfl⟩
abbrev main_v146 : Ref sig .tc := ⟨.hbm, 222, rfl⟩
abbrev main_v147 : Ref sig .tc := ⟨.hbm, 223, rfl⟩
abbrev main_c_35 : Ref sig .tc := ⟨.hbm, 224, rfl⟩
abbrev main_v148 : Ref sig .tc := ⟨.hbm, 225, rfl⟩
abbrev main_v149 : Ref sig .tc := ⟨.hbm, 226, rfl⟩
abbrev main_c_36 : Ref sig .tc := ⟨.hbm, 227, rfl⟩
abbrev main_v150 : Ref sig .tc := ⟨.hbm, 228, rfl⟩
abbrev main_v151 : Ref sig .tc := ⟨.hbm, 229, rfl⟩
abbrev main_c_37 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_c_38 : Ref sig .tc := ⟨.hbm, 234, rfl⟩
abbrev main_v155 : Ref sig .tc := ⟨.hbm, 235, rfl⟩
abbrev main_v156 : Ref sig .tc := ⟨.hbm, 236, rfl⟩
abbrev main_c_39 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_c_40 : Ref sig .tc := ⟨.hbm, 241, rfl⟩
abbrev main_v160 : Ref sig .tc := ⟨.hbm, 242, rfl⟩
abbrev main_v161 : Ref sig .tc := ⟨.hbm, 243, rfl⟩
abbrev main_c_41 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_c_42 : Ref sig .tc := ⟨.hbm, 248, rfl⟩
abbrev main_v165 : Ref sig .tc := ⟨.hbm, 249, rfl⟩
abbrev main_v166 : Ref sig .tc := ⟨.hbm, 250, rfl⟩
abbrev main_c_43 : Ref sig .tc := ⟨.hbm, 251, rfl⟩
abbrev main_v167 : Ref sig .tc := ⟨.hbm, 252, rfl⟩
abbrev main_v168 : Ref sig .tc := ⟨.hbm, 253, rfl⟩
abbrev main_c_44 : Ref sig .tc := ⟨.hbm, 254, rfl⟩
abbrev main_v169 : Ref sig .tc := ⟨.hbm, 255, rfl⟩
abbrev main_v170 : Ref sig .tc := ⟨.hbm, 256, rfl⟩
abbrev main_c_45 : Ref sig .tc := ⟨.hbm, 257, rfl⟩
abbrev main_v171 : Ref sig .tc := ⟨.hbm, 258, rfl⟩
abbrev main_v172 : Ref sig .tc := ⟨.hbm, 259, rfl⟩
abbrev main_v173 : Ref sig .tc := ⟨.hbm, 260, rfl⟩
abbrev main_c_46 : Ref sig .tc := ⟨.hbm, 261, rfl⟩
abbrev main_v174 : Ref sig .tc := ⟨.hbm, 262, rfl⟩
abbrev main_v175 : Ref sig .tc := ⟨.hbm, 263, rfl⟩
abbrev main_c_47 : Ref sig .tc := ⟨.hbm, 264, rfl⟩
abbrev main_v176 : Ref sig .tc := ⟨.hbm, 265, rfl⟩
abbrev main_v177 : Ref sig .tc := ⟨.hbm, 266, rfl⟩
abbrev main_v178 : Ref sig .tc := ⟨.hbm, 267, rfl⟩
abbrev main_c_48 : Ref sig .tc := ⟨.hbm, 268, rfl⟩
abbrev main_v179 : Ref sig .tc := ⟨.hbm, 269, rfl⟩
abbrev main_v180 : Ref sig .tc := ⟨.hbm, 270, rfl⟩
abbrev main_c_49 : Ref sig .tc := ⟨.hbm, 271, rfl⟩
abbrev main_v181 : Ref sig .tc := ⟨.hbm, 272, rfl⟩
abbrev main_v182 : Ref sig .tc := ⟨.hbm, 273, rfl⟩
abbrev main_v183 : Ref sig .tc := ⟨.hbm, 274, rfl⟩
abbrev main_c_50 : Ref sig .tc := ⟨.hbm, 275, rfl⟩
abbrev main_v184 : Ref sig .tc := ⟨.hbm, 276, rfl⟩
abbrev main_v185 : Ref sig .tc := ⟨.hbm, 277, rfl⟩
abbrev main_c_51 : Ref sig .tc := ⟨.hbm, 278, rfl⟩
abbrev main_v186 : Ref sig .tc := ⟨.hbm, 279, rfl⟩
abbrev main_v187 : Ref sig .tc := ⟨.hbm, 280, rfl⟩
abbrev main_c_52 : Ref sig .tc := ⟨.hbm, 281, rfl⟩
abbrev main_v188 : Ref sig .tc := ⟨.hbm, 282, rfl⟩
abbrev main_v189 : Ref sig .tc := ⟨.hbm, 283, rfl⟩
abbrev main_c_53 : Ref sig .tc := ⟨.hbm, 284, rfl⟩
abbrev main_v190 : Ref sig .tc := ⟨.hbm, 285, rfl⟩
abbrev main_v191 : Ref sig .tc := ⟨.hbm, 286, rfl⟩
abbrev main_v192 : Ref sig .tc := ⟨.hbm, 287, rfl⟩
abbrev main_c_54 : Ref sig .tc := ⟨.hbm, 288, rfl⟩
abbrev main_v193 : Ref sig .tc := ⟨.hbm, 289, rfl⟩
abbrev main_v194 : Ref sig .tc := ⟨.hbm, 290, rfl⟩
abbrev main_c_55 : Ref sig .tc := ⟨.hbm, 291, rfl⟩
abbrev main_v195 : Ref sig .tc := ⟨.hbm, 292, rfl⟩
abbrev main_v196 : Ref sig .tc := ⟨.hbm, 293, rfl⟩
abbrev main_v197 : Ref sig .tc := ⟨.hbm, 294, rfl⟩
abbrev main_c_56 : Ref sig .tc := ⟨.hbm, 295, rfl⟩
abbrev main_v198 : Ref sig .tc := ⟨.hbm, 296, rfl⟩
abbrev main_v199 : Ref sig .tc := ⟨.hbm, 297, rfl⟩
abbrev main_c_57 : Ref sig .tc := ⟨.hbm, 298, rfl⟩
abbrev main_v200 : Ref sig .tc := ⟨.hbm, 299, rfl⟩
abbrev main_v201 : Ref sig .tc := ⟨.hbm, 300, rfl⟩
abbrev main_v202 : Ref sig .tc := ⟨.hbm, 301, rfl⟩
abbrev main_c_58 : Ref sig .tc := ⟨.hbm, 302, rfl⟩
abbrev main_v203 : Ref sig .tc := ⟨.hbm, 303, rfl⟩
abbrev main_v204 : Ref sig .tc := ⟨.hbm, 304, rfl⟩
abbrev main_c_59 : Ref sig .tc := ⟨.hbm, 305, rfl⟩
abbrev main_v205 : Ref sig .tc := ⟨.hbm, 306, rfl⟩
abbrev main_v206 : Ref sig .tc := ⟨.hbm, 307, rfl⟩
abbrev main_c_60 : Ref sig .tc := ⟨.hbm, 308, rfl⟩
abbrev main_v207 : Ref sig .tc := ⟨.hbm, 309, rfl⟩
abbrev main_v208 : Ref sig .tc := ⟨.hbm, 310, rfl⟩
abbrev main_c_61 : Ref sig .tc := ⟨.hbm, 311, rfl⟩
abbrev main_v209 : Ref sig .tc := ⟨.hbm, 312, rfl⟩
abbrev main_v210 : Ref sig .tc := ⟨.hbm, 313, rfl⟩
abbrev main_v211 : Ref sig .tc := ⟨.hbm, 314, rfl⟩
abbrev main_c_62 : Ref sig .tc := ⟨.hbm, 315, rfl⟩
abbrev main_v212 : Ref sig .tc := ⟨.hbm, 316, rfl⟩
abbrev main_v213 : Ref sig .tc := ⟨.hbm, 317, rfl⟩
abbrev main_c_63 : Ref sig .tc := ⟨.hbm, 318, rfl⟩
abbrev main_v214 : Ref sig .tc := ⟨.hbm, 319, rfl⟩
abbrev main_v215 : Ref sig .tc := ⟨.hbm, 320, rfl⟩
abbrev main_v216 : Ref sig .tc := ⟨.hbm, 321, rfl⟩
abbrev main_c_64 : Ref sig .tc := ⟨.hbm, 322, rfl⟩
abbrev main_v217 : Ref sig .tc := ⟨.hbm, 323, rfl⟩
abbrev main_v218 : Ref sig .tc := ⟨.hbm, 324, rfl⟩
abbrev main_c_65 : Ref sig .tc := ⟨.hbm, 325, rfl⟩
abbrev main_v219 : Ref sig .tc := ⟨.hbm, 326, rfl⟩
abbrev main_v220 : Ref sig .tc := ⟨.hbm, 327, rfl⟩
abbrev main_v221 : Ref sig .tc := ⟨.hbm, 328, rfl⟩
abbrev main_c_66 : Ref sig .tc := ⟨.hbm, 329, rfl⟩
abbrev main_v222 : Ref sig .tc := ⟨.hbm, 330, rfl⟩
abbrev main_v223 : Ref sig .tc := ⟨.hbm, 331, rfl⟩
abbrev main_c_67 : Ref sig .tc := ⟨.hbm, 332, rfl⟩
abbrev main_v224 : Ref sig .tc := ⟨.hbm, 333, rfl⟩
abbrev main_v225 : Ref sig .tc := ⟨.hbm, 334, rfl⟩
abbrev main_c_68 : Ref sig .tc := ⟨.hbm, 335, rfl⟩
abbrev main_v226 : Ref sig .tc := ⟨.hbm, 336, rfl⟩
abbrev main_v227 : Ref sig .tc := ⟨.hbm, 337, rfl⟩
abbrev main_c_69 : Ref sig .tc := ⟨.hbm, 338, rfl⟩
abbrev main_v228 : Ref sig .tc := ⟨.hbm, 339, rfl⟩
abbrev main_v229 : Ref sig .tc := ⟨.hbm, 340, rfl⟩
abbrev main_v230 : Ref sig .tc := ⟨.hbm, 341, rfl⟩
abbrev main_c_70 : Ref sig .tc := ⟨.hbm, 342, rfl⟩
abbrev main_v231 : Ref sig .tc := ⟨.hbm, 343, rfl⟩
abbrev main_v232 : Ref sig .tc := ⟨.hbm, 344, rfl⟩
abbrev main_c_71 : Ref sig .tc := ⟨.hbm, 345, rfl⟩
abbrev main_v233 : Ref sig .tc := ⟨.hbm, 346, rfl⟩
abbrev main_v234 : Ref sig .tc := ⟨.hbm, 347, rfl⟩
abbrev main_v235 : Ref sig .tc := ⟨.hbm, 348, rfl⟩
abbrev main_c_72 : Ref sig .tc := ⟨.hbm, 349, rfl⟩
abbrev main_v236 : Ref sig .tc := ⟨.hbm, 350, rfl⟩
abbrev main_v237 : Ref sig .tc := ⟨.hbm, 351, rfl⟩
abbrev main_c_73 : Ref sig .tc := ⟨.hbm, 352, rfl⟩
abbrev main_v238 : Ref sig .tc := ⟨.hbm, 353, rfl⟩
abbrev main_v239 : Ref sig .tc := ⟨.hbm, 354, rfl⟩
abbrev main_v240 : Ref sig .tc := ⟨.hbm, 355, rfl⟩
abbrev main_v241 : Ref sig .tc := ⟨.hbm, 356, rfl⟩
abbrev main_v242 : Ref sig .tc := ⟨.hbm, 357, rfl⟩
abbrev main_v243 : Ref sig .tc := ⟨.hbm, 358, rfl⟩
abbrev main_v244 : Ref sig .tc := ⟨.hbm, 359, rfl⟩
abbrev main_v245 : Ref sig .tc := ⟨.hbm, 360, rfl⟩
abbrev main_v246 : Ref sig .tc := ⟨.hbm, 361, rfl⟩
abbrev main_v247 : Ref sig .tc := ⟨.hbm, 362, rfl⟩
abbrev main_v248 : Ref sig .tc := ⟨.hbm, 363, rfl⟩
abbrev main_v249 : Ref sig .tc := ⟨.hbm, 364, rfl⟩
abbrev main_v250 : Ref sig .tc := ⟨.hbm, 365, rfl⟩
abbrev main_v251 : Ref sig .tc := ⟨.hbm, 366, rfl⟩
abbrev main_v252 : Ref sig .tc := ⟨.hbm, 367, rfl⟩
abbrev main_v253 : Ref sig .tc := ⟨.hbm, 368, rfl⟩
abbrev main_c_74 : Ref sig .tc := ⟨.hbm, 369, rfl⟩
abbrev main_v254 : Ref sig .tc := ⟨.hbm, 370, rfl⟩
abbrev main_v255 : Ref sig .tc := ⟨.hbm, 371, rfl⟩
abbrev main_v256 : Ref sig .tc := ⟨.hbm, 372, rfl⟩
abbrev main_v257 : Ref sig .tc := ⟨.hbm, 373, rfl⟩
abbrev main_v258 : Ref sig .tc := ⟨.hbm, 374, rfl⟩
abbrev main_v259 : Ref sig .tc := ⟨.hbm, 375, rfl⟩
abbrev main_v260 : Ref sig .tc := ⟨.hbm, 376, rfl⟩
abbrev main_v261 : Ref sig .tc := ⟨.hbm, 377, rfl⟩
abbrev main_v262_0 : Ref sig .tc := ⟨.hbm, 378, rfl⟩
abbrev main_v262_1 : Ref sig .tc := ⟨.hbm, 379, rfl⟩
abbrev main_v263 : Ref sig .tc := ⟨.hbm, 380, rfl⟩
abbrev main_v264 : Ref sig .tc := ⟨.hbm, 381, rfl⟩
abbrev main_v265 : Ref sig .tc := ⟨.hbm, 382, rfl⟩
abbrev main_v266 : Ref sig .tc := ⟨.hbm, 383, rfl⟩
abbrev main_v267 : Ref sig .tc := ⟨.hbm, 384, rfl⟩
abbrev main_v268 : Ref sig .tc := ⟨.hbm, 385, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v347 : BitVec 1 := Scalar.cmpi .eq arg1 c31_i32
  let v348 : BitVec 32 := Scalar.extui v347
  let c0_i32_178 : BitVec 32 := 0#32
  let v349 : BitVec 1 := Scalar.cmpi .ne v348 c0_i32_178
  v349

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S16x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x32x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S192x880 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S192x1168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x64x576 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x64x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x64x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S2x192x1160_S1x192x1160_0_0_0 : S2x192x1160.Slices ![0, 0, 0] S1x192x1160
  shapeCasts_S1x192x1160_S192x1160 : S1x192x1160.ShapeCasts S192x1160
  slices_S192x1160_S192x32_0_0 : S192x1160.Slices ![0, 0] S192x32
  slices_S192x1160_S192x64_0_64 : S192x1160.Slices ![0, 64] S192x64
  concatenates_S192x32_S192x64_S192x96_d1 : Shape.Concatenates [S192x32, S192x64] S192x96 1
  slices_S192x1160_S192x32_0_128 : S192x1160.Slices ![0, 128] S192x32
  slices_S192x1160_S192x64_0_192 : S192x1160.Slices ![0, 192] S192x64
  slices_S192x1160_S192x32_0_256 : S192x1160.Slices ![0, 256] S192x32
  slices_S192x1160_S192x64_0_320 : S192x1160.Slices ![0, 320] S192x64
  slices_S192x1160_S192x32_0_384 : S192x1160.Slices ![0, 384] S192x32
  slices_S192x1160_S192x64_0_448 : S192x1160.Slices ![0, 448] S192x64
  slices_S192x1160_S192x32_0_512 : S192x1160.Slices ![0, 512] S192x32
  slices_S192x1160_S192x64_0_576 : S192x1160.Slices ![0, 576] S192x64
  slices_S192x1160_S192x32_0_640 : S192x1160.Slices ![0, 640] S192x32
  slices_S192x1160_S192x64_0_704 : S192x1160.Slices ![0, 704] S192x64
  slices_S192x1160_S192x32_0_768 : S192x1160.Slices ![0, 768] S192x32
  slices_S192x1160_S192x64_0_832 : S192x1160.Slices ![0, 832] S192x64
  slices_S192x1160_S192x32_0_896 : S192x1160.Slices ![0, 896] S192x32
  slices_S192x1160_S192x64_0_960 : S192x1160.Slices ![0, 960] S192x64
  slices_S192x1160_S192x32_0_1024 : S192x1160.Slices ![0, 1024] S192x32
  slices_S192x1160_S192x64_0_1088 : S192x1160.Slices ![0, 1088] S192x64
  slices_S192x1160_S192x1_0_1152 : S192x1160.Slices ![0, 1152] S192x1
  bcast_S_S192x15 : S_.BroadcastsInDim S192x15 (![] : Fin 0 → Fin S192x15.rank)
  concatenates_S192x1_S192x15_S192x96_S192x96_S192x96_S192x96_S192x96_S192x96_S192x96_S192x96_S192x96_S192x880_d1 : Shape.Concatenates [S192x1, S192x15, S192x96, S192x96, S192x96, S192x96, S192x96, S192x96, S192x96, S192x96, S192x96] S192x880 1
  bitsLt_bf16_f32 : FTy.bits .bf16 < FTy.bits .f32
  slices_S2x192x1160_S1x192x1160_1_0_0 : S2x192x1160.Slices ![1, 0, 0] S1x192x1160
  slices_S192x1160_S192x64_0_0 : S192x1160.Slices ![0, 0] S192x64
  concatenates_S192x64_S192x64_S192x128_d1 : Shape.Concatenates [S192x64, S192x64] S192x128 1
  slices_S192x1160_S192x64_0_128 : S192x1160.Slices ![0, 128] S192x64
  slices_S192x1160_S192x64_0_256 : S192x1160.Slices ![0, 256] S192x64
  slices_S192x1160_S192x64_0_384 : S192x1160.Slices ![0, 384] S192x64
  slices_S192x1160_S192x64_0_512 : S192x1160.Slices ![0, 512] S192x64
  slices_S192x1160_S192x64_0_640 : S192x1160.Slices ![0, 640] S192x64
  slices_S192x1160_S192x64_0_768 : S192x1160.Slices ![0, 768] S192x64
  slices_S192x1160_S192x64_0_896 : S192x1160.Slices ![0, 896] S192x64
  slices_S192x1160_S192x64_0_1024 : S192x1160.Slices ![0, 1024] S192x64
  concatenates_S192x1_S192x15_S192x128_S192x128_S192x128_S192x128_S192x128_S192x128_S192x128_S192x128_S192x128_S192x1168_d1 : Shape.Concatenates [S192x1, S192x15, S192x128, S192x128, S192x128, S192x128, S192x128, S192x128, S192x128, S192x128, S192x128] S192x1168 1
  bcast_S_S576 : S_.BroadcastsInDim S576 (![] : Fin 0 → Fin S576.rank)
  bcast_S576_S1x576_1 : S576.BroadcastsInDim S1x576 (![1] : Fin 1 → Fin S1x576.rank)
  concatenates_S1x576_S1x576_S1x576_S1x576_S1x576_S1x576_S1x576_S1x576_S1x576_S9x576_d0 : Shape.Concatenates [S1x576, S1x576, S1x576, S1x576, S1x576, S1x576, S1x576, S1x576, S1x576] S9x576 0
  shapeCasts_S9x576_S1x9x1x576 : S9x576.ShapeCasts S1x9x1x576
  bcast_S1x9x1x576_S1x9x4x576_0_1_2_3 : S1x9x1x576.BroadcastsInDim S1x9x4x576 (![0, 1, 2, 3] : Fin 4 → Fin S1x9x4x576.rank)
  shapeCasts_S1x9x4x576_S9x2304 : S1x9x4x576.ShapeCasts S9x2304
  bcast_S_S7x2304 : S_.BroadcastsInDim S7x2304 (![] : Fin 0 → Fin S7x2304.rank)
  concatenates_S9x2304_S7x2304_S16x2304_d0 : Shape.Concatenates [S9x2304, S7x2304] S16x2304 0
  transposes_S32x8x32x24x24_S8x32x32x24x24_1_0_2_3_4 : S32x8x32x24x24.Transposes [1, 0, 2, 3, 4] S8x32x32x24x24
  shapeCasts_S8x32x32x24x24_S2x4x32x32x576 : S8x32x32x24x24.ShapeCasts S2x4x32x32x576
  transposes_S2x4x32x32x576_S2x32x32x4x576_0_2_3_1_4 : S2x4x32x32x576.Transposes [0, 2, 3, 1, 4] S2x32x32x4x576
  shapeCasts_S2x32x32x4x576_S2x32x32x2304 : S2x32x32x4x576.ShapeCasts S2x32x32x2304
  inb_S2x64x2304_S2x64x2304_0_0_0 : ∀ a, (![0, 0, 0] : Fin 3 → Nat) a + S2x64x2304.size a ≤ S2x64x2304.size a
  h_S2x64x2304 : 0 < S2x64x2304.numel
  shapeCasts_S2x64x2304_S2x64x2304 : S2x64x2304.ShapeCasts S2x64x2304
  inb_S1168x2304_S1168x2304_0_0 : ∀ a, (![0, 0] : Fin 2 → Nat) a + S1168x2304.size a ≤ S1168x2304.size a
  h_S1168x2304 : 0 < S1168x2304.numel
  shapeCasts_S1168x2304_S1168x2304 : S1168x2304.ShapeCasts S1168x2304
  packedbf16_S1168x2304_S1168x2304_0_0 : (Rect.unit (s := S1168x2304) ![0, 0] S1168x2304.size inb_S1168x2304_S1168x2304_0_0).PackedRows (EltTy.packing .bf16)
  inb_S576x2304_S576x2304_0_0 : ∀ a, (![0, 0] : Fin 2 → Nat) a + S576x2304.size a ≤ S576x2304.size a
  h_S576x2304 : 0 < S576x2304.numel
  shapeCasts_S576x2304_S576x2304 : S576x2304.ShapeCasts S576x2304
  packedbf16_S576x2304_S576x2304_0_0 : (Rect.unit (s := S576x2304) ![0, 0] S576x2304.size inb_S576x2304_S576x2304_0_0).PackedRows (EltTy.packing .bf16)
  inb_S1168x2304_S1x2304_0_0 : ∀ a, (![0, 0] : Fin 2 → Nat) a + S1x2304.size a ≤ S1168x2304.size a
  h_S1x2304 : 0 < S1x2304.numel
  shapeCasts_S1x2304_S1x2304 : S1x2304.ShapeCasts S1x2304
  inb_S1168x2304_S2x2304_0_0 : ∀ a, (![0, 0] : Fin 2 → Nat) a + S2x2304.size a ≤ S1168x2304.size a
  h_S2x2304 : 0 < S2x2304.numel
  slices_S2x2304_S1x2304_0_0 : S2x2304.Slices ![0, 0] S1x2304
  packedbf16_S1168x2304_S2x2304_0_0 : (Rect.unit (s := S1168x2304) ![0, 0] S2x2304.size inb_S1168x2304_S2x2304_0_0).PackedRows (EltTy.packing .bf16)
  inb_S1x1x32x2304_S1x1x32x2304_0_0_0_0 : ∀ a, (![0, 0, 0, 0] : Fin 4 → Nat) a + S1x1x32x2304.size a ≤ S1x1x32x2304.size a
  h_S1x1x32x2304 : 0 < S1x1x32x2304.numel
  shapeCasts_S1x1x32x2304_S32x2304 : S1x1x32x2304.ShapeCasts S32x2304
  inb_S2x64x2304_S1x64x2304_0_0_0 : ∀ a, (![0, 0, 0] : Fin 3 → Nat) a + S1x64x2304.size a ≤ S2x64x2304.size a
  h_S1x64x2304 : 0 < S1x64x2304.numel
  shapeCasts_S1x64x2304_S64x2304 : S1x64x2304.ShapeCasts S64x2304
  concatenates_S32x2304_S64x2304_S96x2304_d0 : Shape.Concatenates [S32x2304, S64x2304] S96x2304 0
  inb_S2x64x576_S1x64x576_0_0_0 : ∀ a, (![0, 0, 0] : Fin 3 → Nat) a + S1x64x576.size a ≤ S2x64x576.size a
  h_S1x64x576 : 0 < S1x64x576.numel
  shapeCasts_S1x64x576_S64x576 : S1x64x576.ShapeCasts S64x576
  rotates_S96x2304_d1 : S96x2304.Rotates 1 none
  inb_S16x2304_S1x2304_0_0 : ∀ a, (![0, 0] : Fin 2 → Nat) a + S1x2304.size a ≤ S16x2304.size a
  broadcasts_S1x2304_S96x2304 : S1x2304.Broadcasts S96x2304
  inb_S1168x2304_S96x2304_16_0 : ∀ a, (![16, 0] : Fin 2 → Nat) a + S96x2304.size a ≤ S1168x2304.size a
  h_S96x2304 : 0 < S96x2304.numel
  shapeCasts_S96x2304_S96x2304 : S96x2304.ShapeCasts S96x2304
  packedbf16_S1168x2304_S96x2304_16_0 : (Rect.unit (s := S1168x2304) ![16, 0] S96x2304.size inb_S1168x2304_S96x2304_16_0).PackedRows (EltTy.packing .bf16)
  inb_S16x2304_S1x2304_1_0 : ∀ a, (![1, 0] : Fin 2 → Nat) a + S1x2304.size a ≤ S16x2304.size a
  inb_S1168x2304_S96x2304_112_0 : ∀ a, (![112, 0] : Fin 2 → Nat) a + S96x2304.size a ≤ S1168x2304.size a
  packedbf16_S1168x2304_S96x2304_112_0 : (Rect.unit (s := S1168x2304) ![112, 0] S96x2304.size inb_S1168x2304_S96x2304_112_0).PackedRows (EltTy.packing .bf16)
  inb_S16x2304_S1x2304_2_0 : ∀ a, (![2, 0] : Fin 2 → Nat) a + S1x2304.size a ≤ S16x2304.size a
  inb_S1168x2304_S96x2304_208_0 : ∀ a, (![208, 0] : Fin 2 → Nat) a + S96x2304.size a ≤ S1168x2304.size a
  packedbf16_S1168x2304_S96x2304_208_0 : (Rect.unit (s := S1168x2304) ![208, 0] S96x2304.size inb_S1168x2304_S96x2304_208_0).PackedRows (EltTy.packing .bf16)
  inb_S16x2304_S1x2304_3_0 : ∀ a, (![3, 0] : Fin 2 → Nat) a + S1x2304.size a ≤ S16x2304.size a
  inb_S1168x2304_S96x2304_304_0 : ∀ a, (![304, 0] : Fin 2 → Nat) a + S96x2304.size a ≤ S1168x2304.size a
  packedbf16_S1168x2304_S96x2304_304_0 : (Rect.unit (s := S1168x2304) ![304, 0] S96x2304.size inb_S1168x2304_S96x2304_304_0).PackedRows (EltTy.packing .bf16)
  inb_S16x2304_S1x2304_4_0 : ∀ a, (![4, 0] : Fin 2 → Nat) a + S1x2304.size a ≤ S16x2304.size a
  inb_S1168x2304_S96x2304_400_0 : ∀ a, (![400, 0] : Fin 2 → Nat) a + S96x2304.size a ≤ S1168x2304.size a
  packedbf16_S1168x2304_S96x2304_400_0 : (Rect.unit (s := S1168x2304) ![400, 0] S96x2304.size inb_S1168x2304_S96x2304_400_0).PackedRows (EltTy.packing .bf16)
  inb_S16x2304_S1x2304_5_0 : ∀ a, (![5, 0] : Fin 2 → Nat) a + S1x2304.size a ≤ S16x2304.size a
  inb_S1168x2304_S96x2304_496_0 : ∀ a, (![496, 0] : Fin 2 → Nat) a + S96x2304.size a ≤ S1168x2304.size a
  packedbf16_S1168x2304_S96x2304_496_0 : (Rect.unit (s := S1168x2304) ![496, 0] S96x2304.size inb_S1168x2304_S96x2304_496_0).PackedRows (EltTy.packing .bf16)
  inb_S16x2304_S1x2304_6_0 : ∀ a, (![6, 0] : Fin 2 → Nat) a + S1x2304.size a ≤ S16x2304.size a
  inb_S1168x2304_S96x2304_592_0 : ∀ a, (![592, 0] : Fin 2 → Nat) a + S96x2304.size a ≤ S1168x2304.size a
  packedbf16_S1168x2304_S96x2304_592_0 : (Rect.unit (s := S1168x2304) ![592, 0] S96x2304.size inb_S1168x2304_S96x2304_592_0).PackedRows (EltTy.packing .bf16)
  inb_S16x2304_S1x2304_7_0 : ∀ a, (![7, 0] : Fin 2 → Nat) a + S1x2304.size a ≤ S16x2304.size a
  inb_S1168x2304_S96x2304_688_0 : ∀ a, (![688, 0] : Fin 2 → Nat) a + S96x2304.size a ≤ S1168x2304.size a
  packedbf16_S1168x2304_S96x2304_688_0 : (Rect.unit (s := S1168x2304) ![688, 0] S96x2304.size inb_S1168x2304_S96x2304_688_0).PackedRows (EltTy.packing .bf16)
  inb_S16x2304_S1x2304_8_0 : ∀ a, (![8, 0] : Fin 2 → Nat) a + S1x2304.size a ≤ S16x2304.size a
  inb_S1168x2304_S96x2304_784_0 : ∀ a, (![784, 0] : Fin 2 → Nat) a + S96x2304.size a ≤ S1168x2304.size a
  packedbf16_S1168x2304_S96x2304_784_0 : (Rect.unit (s := S1168x2304) ![784, 0] S96x2304.size inb_S1168x2304_S96x2304_784_0).PackedRows (EltTy.packing .bf16)
  inb_S192x880_S192x880_0_0 : ∀ a, (![0, 0] : Fin 2 → Nat) a + S192x880.size a ≤ S192x880.size a
  h_S192x880 : 0 < S192x880.numel
  shapeCasts_S192x880_S192x880 : S192x880.ShapeCasts S192x880
  inb_S1168x2304_S880x2304_0_0 : ∀ a, (![0, 0] : Fin 2 → Nat) a + S880x2304.size a ≤ S1168x2304.size a
  h_S880x2304 : 0 < S880x2304.numel
  slices_S192x2304_o0_0_S64x2304 : S192x2304.Slices ![0, 0] S64x2304
  slices_S192x2304_o64_0_S64x2304 : S192x2304.Slices ![64, 0] S64x2304
  slices_S192x2304_o128_0_S64x2304 : S192x2304.Slices ![128, 0] S64x2304
  rotates_S64x2304_d1 : S64x2304.Rotates 1 none
  broadcasts_S1x2304_S64x2304 : S1x2304.Broadcasts S64x2304
  inb_S576x2304_S64x2304_0_0 : ∀ a, (![0, 0] : Fin 2 → Nat) a + S64x2304.size a ≤ S576x2304.size a
  h_S64x2304 : 0 < S64x2304.numel
  shapeCasts_S64x2304_S64x2304 : S64x2304.ShapeCasts S64x2304
  packedbf16_S576x2304_S64x2304_0_0 : (Rect.unit (s := S576x2304) ![0, 0] S64x2304.size inb_S576x2304_S64x2304_0_0).PackedRows (EltTy.packing .bf16)
  inb_S576x2304_S64x2304_64_0 : ∀ a, (![64, 0] : Fin 2 → Nat) a + S64x2304.size a ≤ S576x2304.size a
  packedbf16_S576x2304_S64x2304_64_0 : (Rect.unit (s := S576x2304) ![64, 0] S64x2304.size inb_S576x2304_S64x2304_64_0).PackedRows (EltTy.packing .bf16)
  inb_S576x2304_S64x2304_128_0 : ∀ a, (![128, 0] : Fin 2 → Nat) a + S64x2304.size a ≤ S576x2304.size a
  packedbf16_S576x2304_S64x2304_128_0 : (Rect.unit (s := S576x2304) ![128, 0] S64x2304.size inb_S576x2304_S64x2304_128_0).PackedRows (EltTy.packing .bf16)
  inb_S576x2304_S64x2304_192_0 : ∀ a, (![192, 0] : Fin 2 → Nat) a + S64x2304.size a ≤ S576x2304.size a
  packedbf16_S576x2304_S64x2304_192_0 : (Rect.unit (s := S576x2304) ![192, 0] S64x2304.size inb_S576x2304_S64x2304_192_0).PackedRows (EltTy.packing .bf16)
  inb_S576x2304_S64x2304_256_0 : ∀ a, (![256, 0] : Fin 2 → Nat) a + S64x2304.size a ≤ S576x2304.size a
  packedbf16_S576x2304_S64x2304_256_0 : (Rect.unit (s := S576x2304) ![256, 0] S64x2304.size inb_S576x2304_S64x2304_256_0).PackedRows (EltTy.packing .bf16)
  inb_S576x2304_S64x2304_320_0 : ∀ a, (![320, 0] : Fin 2 → Nat) a + S64x2304.size a ≤ S576x2304.size a
  packedbf16_S576x2304_S64x2304_320_0 : (Rect.unit (s := S576x2304) ![320, 0] S64x2304.size inb_S576x2304_S64x2304_320_0).PackedRows (EltTy.packing .bf16)
  inb_S576x2304_S64x2304_384_0 : ∀ a, (![384, 0] : Fin 2 → Nat) a + S64x2304.size a ≤ S576x2304.size a
  packedbf16_S576x2304_S64x2304_384_0 : (Rect.unit (s := S576x2304) ![384, 0] S64x2304.size inb_S576x2304_S64x2304_384_0).PackedRows (EltTy.packing .bf16)
  inb_S576x2304_S64x2304_448_0 : ∀ a, (![448, 0] : Fin 2 → Nat) a + S64x2304.size a ≤ S576x2304.size a
  packedbf16_S576x2304_S64x2304_448_0 : (Rect.unit (s := S576x2304) ![448, 0] S64x2304.size inb_S576x2304_S64x2304_448_0).PackedRows (EltTy.packing .bf16)
  inb_S576x2304_S64x2304_512_0 : ∀ a, (![512, 0] : Fin 2 → Nat) a + S64x2304.size a ≤ S576x2304.size a
  packedbf16_S576x2304_S64x2304_512_0 : (Rect.unit (s := S576x2304) ![512, 0] S64x2304.size inb_S576x2304_S64x2304_512_0).PackedRows (EltTy.packing .bf16)
  shapeCasts_S64x2304_S1x64x2304 : S64x2304.ShapeCasts S1x64x2304
  inb_S2x64x2304_S1x64x2304_1_0_0 : ∀ a, (![1, 0, 0] : Fin 3 → Nat) a + S1x64x2304.size a ≤ S2x64x2304.size a
  concatenates_S64x2304_S64x2304_S128x2304_d0 : Shape.Concatenates [S64x2304, S64x2304] S128x2304 0
  inb_S2x64x576_S1x64x576_1_0_0 : ∀ a, (![1, 0, 0] : Fin 3 → Nat) a + S1x64x576.size a ≤ S2x64x576.size a
  rotates_S128x2304_d1 : S128x2304.Rotates 1 none
  broadcasts_S1x2304_S128x2304 : S1x2304.Broadcasts S128x2304
  inb_S1168x2304_S128x2304_16_0 : ∀ a, (![16, 0] : Fin 2 → Nat) a + S128x2304.size a ≤ S1168x2304.size a
  h_S128x2304 : 0 < S128x2304.numel
  shapeCasts_S128x2304_S128x2304 : S128x2304.ShapeCasts S128x2304
  packedbf16_S1168x2304_S128x2304_16_0 : (Rect.unit (s := S1168x2304) ![16, 0] S128x2304.size inb_S1168x2304_S128x2304_16_0).PackedRows (EltTy.packing .bf16)
  inb_S1168x2304_S128x2304_144_0 : ∀ a, (![144, 0] : Fin 2 → Nat) a + S128x2304.size a ≤ S1168x2304.size a
  packedbf16_S1168x2304_S128x2304_144_0 : (Rect.unit (s := S1168x2304) ![144, 0] S128x2304.size inb_S1168x2304_S128x2304_144_0).PackedRows (EltTy.packing .bf16)
  inb_S1168x2304_S128x2304_272_0 : ∀ a, (![272, 0] : Fin 2 → Nat) a + S128x2304.size a ≤ S1168x2304.size a
  packedbf16_S1168x2304_S128x2304_272_0 : (Rect.unit (s := S1168x2304) ![272, 0] S128x2304.size inb_S1168x2304_S128x2304_272_0).PackedRows (EltTy.packing .bf16)
  inb_S1168x2304_S128x2304_400_0 : ∀ a, (![400, 0] : Fin 2 → Nat) a + S128x2304.size a ≤ S1168x2304.size a
  packedbf16_S1168x2304_S128x2304_400_0 : (Rect.unit (s := S1168x2304) ![400, 0] S128x2304.size inb_S1168x2304_S128x2304_400_0).PackedRows (EltTy.packing .bf16)
  inb_S1168x2304_S128x2304_528_0 : ∀ a, (![528, 0] : Fin 2 → Nat) a + S128x2304.size a ≤ S1168x2304.size a
  packedbf16_S1168x2304_S128x2304_528_0 : (Rect.unit (s := S1168x2304) ![528, 0] S128x2304.size inb_S1168x2304_S128x2304_528_0).PackedRows (EltTy.packing .bf16)
  inb_S1168x2304_S128x2304_656_0 : ∀ a, (![656, 0] : Fin 2 → Nat) a + S128x2304.size a ≤ S1168x2304.size a
  packedbf16_S1168x2304_S128x2304_656_0 : (Rect.unit (s := S1168x2304) ![656, 0] S128x2304.size inb_S1168x2304_S128x2304_656_0).PackedRows (EltTy.packing .bf16)
  inb_S1168x2304_S128x2304_784_0 : ∀ a, (![784, 0] : Fin 2 → Nat) a + S128x2304.size a ≤ S1168x2304.size a
  packedbf16_S1168x2304_S128x2304_784_0 : (Rect.unit (s := S1168x2304) ![784, 0] S128x2304.size inb_S1168x2304_S128x2304_784_0).PackedRows (EltTy.packing .bf16)
  inb_S1168x2304_S128x2304_912_0 : ∀ a, (![912, 0] : Fin 2 → Nat) a + S128x2304.size a ≤ S1168x2304.size a
  packedbf16_S1168x2304_S128x2304_912_0 : (Rect.unit (s := S1168x2304) ![912, 0] S128x2304.size inb_S1168x2304_S128x2304_912_0).PackedRows (EltTy.packing .bf16)
  inb_S1168x2304_S128x2304_1040_0 : ∀ a, (![1040, 0] : Fin 2 → Nat) a + S128x2304.size a ≤ S1168x2304.size a
  packedbf16_S1168x2304_S128x2304_1040_0 : (Rect.unit (s := S1168x2304) ![1040, 0] S128x2304.size inb_S1168x2304_S128x2304_1040_0).PackedRows (EltTy.packing .bf16)
  inb_S192x1168_S192x1168_0_0 : ∀ a, (![0, 0] : Fin 2 → Nat) a + S192x1168.size a ≤ S192x1168.size a
  h_S192x1168 : 0 < S192x1168.numel
  shapeCasts_S192x1168_S192x1168 : S192x1168.ShapeCasts S192x1168
  inb_S1x1x64x2304_S1x1x64x2304_0_0_0_0 : ∀ a, (![0, 0, 0, 0] : Fin 4 → Nat) a + S1x1x64x2304.size a ≤ S1x1x64x2304.size a
  h_S1x1x64x2304 : 0 < S1x1x64x2304.numel
  shapeCasts_S1x1x64x2304_S64x2304 : S1x1x64x2304.ShapeCasts S64x2304
  shapeCasts_S64x2304_S1x1x64x2304 : S64x2304.ShapeCasts S1x1x64x2304
  inb_S1x2x64x2304_S1x1x64x2304_0_0_0_0 : ∀ a, (![0, 0, 0, 0] : Fin 4 → Nat) a + S1x1x64x2304.size a ≤ S1x2x64x2304.size a
  inb_S1x2x64x2304_S1x1x64x2304_0_1_0_0 : ∀ a, (![0, 1, 0, 0] : Fin 4 → Nat) a + S1x1x64x2304.size a ≤ S1x2x64x2304.size a
  shapeCasts_S2x32x64x2304_S2x32x64x4x576 : S2x32x64x2304.ShapeCasts S2x32x64x4x576
  transposes_S2x32x64x4x576_S32x2x4x64x576_1_0_3_2_4 : S2x32x64x4x576.Transposes [1, 0, 3, 2, 4] S32x2x4x64x576
  shapeCasts_S32x2x4x64x576_S32x8x64x24x24 : S32x2x4x64x576.ShapeCasts S32x8x64x24x24
  shapeCasts_S2x2x64x2304_S2x2x64x4x576 : S2x2x64x2304.ShapeCasts S2x2x64x4x576
  transposes_S2x2x64x4x576_S2x4x2x64x576_0_3_1_2_4 : S2x2x64x4x576.Transposes [0, 3, 1, 2, 4] S2x4x2x64x576
  shapeCasts_S2x4x2x64x576_S8x2x64x24x24 : S2x4x2x64x576.ShapeCasts S8x2x64x24x24
  dot_S192x880_S880x2304_S192x2304_1_0_0_1_n_n_wf : DotDims.WF S192x880 S880x2304 S192x2304 [1] [0] [0] [1] [] []
  dot_S64x576_S576x2304_S64x2304_1_0_0_1_n_n_wf : DotDims.WF S64x576 S576x2304 S64x2304 [1] [0] [0] [1] [] []
  dot_S192x1168_S1168x2304_S192x2304_1_0_0_1_n_n_wf : DotDims.WF S192x1168 S1168x2304 S192x2304 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x2304.size a ≤ S16x2304.size a
  hwx0_0 : ∀ i : grid0.Coords, EltTy.bits .bf16 = 32 ∨ (Rect.block (s := S16x2304) S16x2304.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x32x2304.size a ≤ S2x32x32x2304.size a
  hwx0_1 : ∀ i : grid0.Coords, EltTy.bits .bf16 = 32 ∨ (Rect.block (s := S2x32x32x2304) S1x1x32x2304.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x880.size a ≤ S192x880.size a
  hwx0_2 : ∀ i : grid0.Coords, EltTy.bits .bf16 = 32 ∨ (Rect.block (s := S192x880) S192x880.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x1168.size a ≤ S192x1168.size a
  hwx0_3 : ∀ i : grid0.Coords, EltTy.bits .bf16 = 32 ∨ (Rect.block (s := S192x1168) S192x1168.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x64x576.size a ≤ S2x64x576.size a
  hwx0_4 : ∀ i : grid0.Coords, EltTy.bits .bf16 = 32 ∨ (Rect.block (s := S2x64x576) S2x64x576.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x64x2304.size a ≤ S2x32x64x2304.size a
  hwx0_5 : ∀ i : grid0.Coords, EltTy.bits .f32 = 32 ∨ (Rect.block (s := S2x32x64x2304) S1x1x64x2304.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2x64x2304.size a ≤ S2x2x64x2304.size a
  hwx0_6 : ∀ i : grid0.Coords, EltTy.bits .f32 = 32 ∨ (Rect.block (s := S2x2x64x2304) S1x2x64x2304.size (cc0_transform_6 i) (hinb0_6 i)).WholeWords (EltTy.packing .f32)

variable [Facts₀]

def dot_S192x880_S880x2304_S192x2304_1_0_0_1_n_n : DotDims S192x880 S880x2304 S192x2304 where
  lhsContracting := [1]
  rhsContracting := [0]
  lhsNonContracting := [0]
  rhsNonContracting := [1]
  lhsBatch := []
  rhsBatch := []
  wf := dot_S192x880_S880x2304_S192x2304_1_0_0_1_n_n_wf
def dot_S64x576_S576x2304_S64x2304_1_0_0_1_n_n : DotDims S64x576 S576x2304 S64x2304 where
  lhsContracting := [1]
  rhsContracting := [0]
  lhsNonContracting := [0]
  rhsNonContracting := [1]
  lhsBatch := []
  rhsBatch := []
  wf := dot_S64x576_S576x2304_S64x2304_1_0_0_1_n_n_wf
def dot_S192x1168_S1168x2304_S192x2304_1_0_0_1_n_n : DotDims S192x1168 S1168x2304 S192x2304 where
  lhsContracting := [1]
  rhsContracting := [0]
  lhsNonContracting := [0]
  rhsNonContracting := [1]
  lhsBatch := []
  rhsBatch := []
  wf := dot_S192x1168_S1168x2304_S192x2304_1_0_0_1_n_n_wf

abbrev win0_0 : Pipeline.Window sig grid0 :=
  Pipeline.Window.ofSpec (Memref.whole main_v256) S16x2304.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v261) S1x1x32x2304.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S192x880.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v65) S192x1168.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v66) S2x64x576.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v262_0) S1x1x64x2304.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v262_1) S1x2x64x2304.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S32x8x32x24x24 : Shape := ⟨5, ![32, 8, 32, 24, 24]⟩
abbrev S2x192x1160 : Shape := ⟨3, ![2, 192, 1160]⟩
abbrev S2x64x576 : Shape := ⟨3, ![2, 64, 576]⟩
abbrev S576 : Shape := ⟨1, ![576]⟩
abbrev S_ : Shape := ⟨0, ![]⟩
abbrev S1x576 : Shape := ⟨2, ![1, 576]⟩
abbrev S9x576 : Shape := ⟨2, ![9, 576]⟩
abbrev S1x9x1x576 : Shape := ⟨4, ![1, 9, 1, 576]⟩
abbrev S1x9x4x576 : Shape := ⟨4, ![1, 9, 4, 576]⟩
abbrev S9x2304 : Shape := ⟨2, ![9, 2304]⟩
abbrev S8x32x32x24x24 : Shape := ⟨5, ![8, 32, 32, 24, 24]⟩
abbrev S2x4x32x32x576 : Shape := ⟨5, ![2, 4, 32, 32, 576]⟩
abbrev S2x4x32x64x576 : Shape := ⟨5, ![2, 4, 32, 64, 576]⟩
abbrev S2x32x64x4x576 : Shape := ⟨5, ![2, 32, 64, 4, 576]⟩
abbrev S2x32x64x2304 : Shape := ⟨4, ![2, 32, 64, 2304]⟩
abbrev S2x2x64x2304 : Shape := ⟨4, ![2, 2, 64, 2304]⟩
abbrev S1x1x64x2304 : Shape := ⟨4, ![1, 1, 64, 2304]⟩
abbrev S1x2x64x2304 : Shape := ⟨4, ![1, 2, 64, 2304]⟩
abbrev S2x64x2304 : Shape := ⟨3, ![2, 64, 2304]⟩
abbrev S1160x2304 : Shape := ⟨2, ![1160, 2304]⟩
abbrev S576x2304 : Shape := ⟨2, ![576, 2304]⟩
abbrev S1x2304 : Shape := ⟨2, ![1, 2304]⟩
abbrev S64x2304 : Shape := ⟨2, ![64, 2304]⟩
abbrev S1x64x2304 : Shape := ⟨3, ![1, 64, 2304]⟩
abbrev S1x192x1160 : Shape := ⟨3, ![1, 192, 1160]⟩
abbrev S192x1160 : Shape := ⟨2, ![192, 1160]⟩
abbrev S192x2304 : Shape := ⟨2, ![192, 2304]⟩
abbrev S1x64x576 : Shape := ⟨3, ![1, 64, 576]⟩
abbrev S64x576 : Shape := ⟨2, ![64, 576]⟩
abbrev S32x2x4x64x576 : Shape := ⟨5, ![32, 2, 4, 64, 576]⟩
abbrev S32x8x64x24x24 : Shape := ⟨5, ![32, 8, 64, 24, 24]⟩
abbrev S2x2x64x4x576 : Shape := ⟨5, ![2, 2, 64, 4, 576]⟩
abbrev S2x4x2x64x576 : Shape := ⟨5, ![2, 4, 2, 64, 576]⟩
abbrev S8x2x64x24x24 : Shape := ⟨5, ![8, 2, 64, 24, 24]⟩

abbrev nBuf : Space → Nat
  | .hbm => 316
  | .vmem => 12
  | .smem => 0
  | _ => 0

abbrev hbmTy0_0 (i : Nat) : BufTy := match i % 128 with
  | 0 => ⟨S32x8x32x24x24, .f32⟩
  | 1 => ⟨S2x192x1160, .f32⟩
  | 2 => ⟨S2x64x576, .f32⟩
  | 3 => ⟨S576, .i32⟩
  | 4 => ⟨S_, .i32⟩
  | 5 => ⟨S_, .i32⟩
  | 6 => ⟨S576, .i32⟩
  | 7 => ⟨S576, .i32⟩
  | 8 => ⟨S576, .i32⟩
  | 9 => ⟨S_, .i32⟩
  | 10 => ⟨S576, .i32⟩
  | 11 => ⟨S576, .i1⟩
  | 12 => ⟨S576, .i32⟩
  | 13 => ⟨S576, .i32⟩
  | 14 => ⟨S_, .i32⟩
  | 15 => ⟨S576, .i32⟩
  | 16 => ⟨S576, .i1⟩
  | 17 => ⟨S576, .i1⟩
  | 18 => ⟨S_, .i32⟩
  | 19 => ⟨S576, .i32⟩
  | 20 => ⟨S576, .i32⟩
  | 21 => ⟨S576, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S576, .i32⟩
  | 29 => ⟨S576, .i32⟩
  | 30 => ⟨S_, .i32⟩
  | 31 => ⟨S576, .i32⟩
  | 32 => ⟨S576, .i1⟩
  | 33 => ⟨S_, .i32⟩
  | 34 => ⟨S576, .i32⟩
  | 35 => ⟨S576, .i1⟩
  | 36 => ⟨S_, .i32⟩
  | 37 => ⟨S_, .i1⟩
  | 38 => ⟨S576, .i1⟩
  | 39 => ⟨S576, .i1⟩
  | 40 => ⟨S576, .i1⟩
  | 41 => ⟨S576, .i32⟩
  | 42 => ⟨S576, .i32⟩
  | 43 => ⟨S576, .i32⟩
  | 44 => ⟨S_, .i32⟩
  | 45 => ⟨S576, .i32⟩
  | 46 => ⟨S576, .i32⟩
  | 47 => ⟨S_, .i32⟩
  | 48 => ⟨S576, .i32⟩
  | 49 => ⟨S576, .i1⟩
  | 50 => ⟨S_, .i32⟩
  | 51 => ⟨S576, .i32⟩
  | 52 => ⟨S576, .i32⟩
  | 53 => ⟨S_, .i32⟩
  | 54 => ⟨S576, .i32⟩
  | 55 => ⟨S576, .i1⟩
  | 56 => ⟨S576, .i1⟩
  | 57 => ⟨S_, .i32⟩
  | 58 => ⟨S576, .i32⟩
  | 59 => ⟨S576, .i32⟩
  | 60 => ⟨S_, .i32⟩
  | 61 => ⟨S576, .i32⟩
  | 62 => ⟨S576, .i1⟩
  | 63 => ⟨S576, .i1⟩
  | 64 => ⟨S_, .i32⟩
  | 65 => ⟨S576, .i32⟩
  | 66 => ⟨S576, .i32⟩
  | 67 => ⟨S_, .i32⟩
  | 68 => ⟨S576, .i32⟩
  | 69 => ⟨S576, .i1⟩
  | 70 => ⟨S576, .i1⟩
  | 71 => ⟨S_, .i32⟩
  | 72 => ⟨S576, .i32⟩
  | 73 => ⟨S576, .i32⟩
  | 74 => ⟨S_, .i32⟩
  | 75 => ⟨S576, .i32⟩
  | 76 => ⟨S576, .i1⟩
  | 77 => ⟨S_, .i32⟩
  | 78 => ⟨S576, .i32⟩
  | 79 => ⟨S576, .i32⟩
  | 80 => ⟨S_, .i32⟩
  | 81 => ⟨S576, .i32⟩
  | 82 => ⟨S576, .i1⟩
  | 83 => ⟨S576, .i1⟩
  | 84 => ⟨S_, .i32⟩
  | 85 => ⟨S576, .i32⟩
  | 86 => ⟨S576, .i32⟩
  | 87 => ⟨S_, .i32⟩
  | 88 => ⟨S576, .i32⟩
  | 89 => ⟨S576, .i1⟩
  | 90 => ⟨S576, .i1⟩
  | 91 => ⟨S_, .i32⟩
  | 92 => ⟨S576, .i32⟩
  | 93 => ⟨S576, .i32⟩
  | 94 => ⟨S_, .i32⟩
  | 95 => ⟨S576, .i32⟩
  | 96 => ⟨S576, .i1⟩
  | 97 => ⟨S576, .i1⟩
  | 98 => ⟨S_, .i32⟩
  | 99 => ⟨S576, .i32⟩
  | 100 => ⟨S576, .i32⟩
  | 101 => ⟨S_, .i32⟩
  | 102 => ⟨S576, .i32⟩
  | 103 => ⟨S576, .i1⟩
  | 104 => ⟨S_, .i32⟩
  | 105 => ⟨S576, .i32⟩
  | 106 => ⟨S576, .i32⟩
  | 107 => ⟨S_, .i32⟩
  | 108 => ⟨S576, .i32⟩
  | 109 => ⟨S576, .i1⟩
  | 110 => ⟨S576, .i1⟩
  | 111 => ⟨S_, .i32⟩
  | 112 => ⟨S576, .i32⟩
  | 113 => ⟨S576, .i32⟩
  | 114 => ⟨S_, .i32⟩
  | 115 => ⟨S576, .i32⟩
  | 116 => ⟨S576, .i1⟩
  | 117 => ⟨S576, .i1⟩
  | 118 => ⟨S_, .i32⟩
  | 119 => ⟨S576, .i32⟩
  | 120 => ⟨S576, .i32⟩
  | 121 => ⟨S_, .i32⟩
  | 122 => ⟨S576, .i32⟩
  | 123 => ⟨S576, .i1⟩
  | 124 => ⟨S576, .i1⟩
  | 125 => ⟨S_, .i32⟩
  | 126 => ⟨S576, .i32⟩
  | 127 => ⟨S576, .i32⟩
  | _ => ⟨S32x8x32x24x24, .f32⟩

abbrev hbmTy0_1 (i : Nat) : BufTy := match i % 128 with
  | 0 => ⟨S_, .i32⟩
  | 1 => ⟨S576, .i32⟩
  | 2 => ⟨S576, .i1⟩
  | 3 => ⟨S_, .i32⟩
  | 4 => ⟨S576, .i32⟩
  | 5 => ⟨S576, .i32⟩
  | 6 => ⟨S_, .i32⟩
  | 7 => ⟨S576, .i32⟩
  | 8 => ⟨S576, .i1⟩
  | 9 => ⟨S576, .i1⟩
  | 10 => ⟨S_, .i32⟩
  | 11 => ⟨S576, .i32⟩
  | 12 => ⟨S576, .i32⟩
  | 13 => ⟨S_, .i32⟩
  | 14 => ⟨S576, .i32⟩
  | 15 => ⟨S576, .i1⟩
  | 16 => ⟨S576, .i1⟩
  | 17 => ⟨S_, .i32⟩
  | 18 => ⟨S576, .i32⟩
  | 19 => ⟨S576, .i32⟩
  | 20 => ⟨S_, .i32⟩
  | 21 => ⟨S576, .i32⟩
  | 22 => ⟨S576, .i1⟩
  | 23 => ⟨S576, .i1⟩
  | 24 => ⟨S_, .i32⟩
  | 25 => ⟨S576, .i32⟩
  | 26 => ⟨S576, .i32⟩
  | 27 => ⟨S_, .i32⟩
  | 28 => ⟨S576, .i32⟩
  | 29 => ⟨S576, .i1⟩
  | 30 => ⟨S_, .i32⟩
  | 31 => ⟨S576, .i32⟩
  | 32 => ⟨S576, .i32⟩
  | 33 => ⟨S_, .i32⟩
  | 34 => ⟨S576, .i32⟩
  | 35 => ⟨S576, .i1⟩
  | 36 => ⟨S576, .i1⟩
  | 37 => ⟨S_, .i32⟩
  | 38 => ⟨S576, .i32⟩
  | 39 => ⟨S576, .i32⟩
  | 40 => ⟨S_, .i32⟩
  | 41 => ⟨S576, .i32⟩
  | 42 => ⟨S576, .i1⟩
  | 43 => ⟨S576, .i1⟩
  | 44 => ⟨S_, .i32⟩
  | 45 => ⟨S576, .i32⟩
  | 46 => ⟨S576, .i32⟩
  | 47 => ⟨S_, .i32⟩
  | 48 => ⟨S576, .i32⟩
  | 49 => ⟨S576, .i1⟩
  | 50 => ⟨S576, .i1⟩
  | 51 => ⟨S_, .i32⟩
  | 52 => ⟨S576, .i32⟩
  | 53 => ⟨S576, .i32⟩
  | 54 => ⟨S_, .i32⟩
  | 55 => ⟨S576, .i32⟩
  | 56 => ⟨S576, .i1⟩
  | 57 => ⟨S_, .i32⟩
  | 58 => ⟨S576, .i32⟩
  | 59 => ⟨S576, .i32⟩
  | 60 => ⟨S_, .i32⟩
  | 61 => ⟨S576, .i32⟩
  | 62 => ⟨S576, .i1⟩
  | 63 => ⟨S576, .i1⟩
  | 64 => ⟨S_, .i32⟩
  | 65 => ⟨S576, .i32⟩
  | 66 => ⟨S576, .i32⟩
  | 67 => ⟨S_, .i32⟩
  | 68 => ⟨S576, .i32⟩
  | 69 => ⟨S576, .i1⟩
  | 70 => ⟨S576, .i1⟩
  | 71 => ⟨S_, .i32⟩
  | 72 => ⟨S576, .i32⟩
  | 73 => ⟨S576, .i32⟩
  | 74 => ⟨S_, .i32⟩
  | 75 => ⟨S576, .i32⟩
  | 76 => ⟨S576, .i1⟩
  | 77 => ⟨S576, .i1⟩
  | 78 => ⟨S_, .i32⟩
  | 79 => ⟨S576, .i32⟩
  | 80 => ⟨S576, .i32⟩
  | 81 => ⟨S_, .i32⟩
  | 82 => ⟨S576, .i32⟩
  | 83 => ⟨S576, .i1⟩
  | 84 => ⟨S_, .i32⟩
  | 85 => ⟨S576, .i32⟩
  | 86 => ⟨S576, .i32⟩
  | 87 => ⟨S_, .i32⟩
  | 88 => ⟨S576, .i32⟩
  | 89 => ⟨S576, .i1⟩
  | 90 => ⟨S576, .i1⟩
  | 91 => ⟨S_, .i32⟩
  | 92 => ⟨S576, .i32⟩
  | 93 => ⟨S576, .i32⟩
  | 94 => ⟨S_, .i32⟩
  | 95 => ⟨S576, .i32⟩
  | 96 => ⟨S576, .i1⟩
  | 97 => ⟨S576, .i1⟩
  | 98 => ⟨S_, .i32⟩
  | 99 => ⟨S576, .i32⟩
  | 100 => ⟨S576, .i32⟩
  | 101 => ⟨S_, .i32⟩
  | 102 => ⟨S576, .i32⟩
  | 103 => ⟨S576, .i1⟩
  | 104 => ⟨S576, .i1⟩
  | 105 => ⟨S_, .i32⟩
  | 106 => ⟨S576, .i32⟩
  | 107 => ⟨S576, .i32⟩
  | 108 => ⟨S_, .i32⟩
  | 109 => ⟨S576, .i32⟩
  | 110 => ⟨S576, .i1⟩
  | 111 => ⟨S_, .i32⟩
  | 112 => ⟨S576, .i32⟩
  | 113 => ⟨S576, .i32⟩
  | 114 => ⟨S_, .i32⟩
  | 115 => ⟨S576, .i32⟩
  | 116 => ⟨S576, .i1⟩
  | 117 => ⟨S576, .i1⟩
  | 118 => ⟨S_, .i32⟩
  | 119 => ⟨S576, .i32⟩
  | 120 => ⟨S576, .i32⟩
  | 121 => ⟨S_, .i32⟩
  | 122 => ⟨S576, .i32⟩
  | 123 => ⟨S576, .i1⟩
  | 124 => ⟨S576, .i1⟩
  | 125 => ⟨S_, .i32⟩
  | 126 => ⟨S576, .i32⟩
  | 127 => ⟨S576, .i32⟩
  | _ => ⟨S32x8x32x24x24, .f32⟩

abbrev hbmTy0_2 (i : Nat) : BufTy := match i % 128 with
  | 0 => ⟨S_, .i32⟩
  | 1 => ⟨S576, .i32⟩
  | 2 => ⟨S576, .i1⟩
  | 3 => ⟨S576, .i1⟩
  | 4 => ⟨S_, .i32⟩
  | 5 => ⟨S576, .i32⟩
  | 6 => ⟨S576, .i32⟩
  | 7 => ⟨S_, .i32⟩
  | 8 => ⟨S576, .i32⟩
  | 9 => ⟨S576, .i1⟩
  | 10 => ⟨S_, .i32⟩
  | 11 => ⟨S576, .i32⟩
  | 12 => ⟨S576, .i32⟩
  | 13 => ⟨S_, .i32⟩
  | 14 => ⟨S576, .i32⟩
  | 15 => ⟨S576, .i1⟩
  | 16 => ⟨S576, .i1⟩
  | 17 => ⟨S_, .i32⟩
  | 18 => ⟨S576, .i32⟩
  | 19 => ⟨S576, .i32⟩
  | 20 => ⟨S_, .i32⟩
  | 21 => ⟨S576, .i32⟩
  | 22 => ⟨S576, .i1⟩
  | 23 => ⟨S576, .i1⟩
  | 24 => ⟨S_, .i32⟩
  | 25 => ⟨S576, .i32⟩
  | 26 => ⟨S576, .i32⟩
  | 27 => ⟨S_, .i32⟩
  | 28 => ⟨S576, .i32⟩
  | 29 => ⟨S576, .i1⟩
  | 30 => ⟨S576, .i1⟩
  | 31 => ⟨S1x576, .i1⟩
  | 32 => ⟨S1x576, .i1⟩
  | 33 => ⟨S1x576, .i1⟩
  | 34 => ⟨S1x576, .i1⟩
  | 35 => ⟨S1x576, .i1⟩
  | 36 => ⟨S1x576, .i1⟩
  | 37 => ⟨S1x576, .i1⟩
  | 38 => ⟨S1x576, .i1⟩
  | 39 => ⟨S1x576, .i1⟩
  | 40 => ⟨S9x576, .i1⟩
  | 41 => ⟨S9x576, .f32⟩
  | 42 => ⟨S1x9x1x576, .f32⟩
  | 43 => ⟨S1x9x4x576, .f32⟩
  | 44 => ⟨S9x2304, .f32⟩
  | 45 => ⟨S8x32x32x24x24, .f32⟩
  | 46 => ⟨S2x4x32x32x576, .f32⟩
  | 47 => ⟨S_, .i32⟩
  | 48 => ⟨S_, .f32⟩
  | 49 => ⟨S2x4x32x64x576, .f32⟩
  | 50 => ⟨S2x32x64x4x576, .f32⟩
  | 51 => ⟨S2x32x64x2304, .f32⟩
  | 52 => ⟨S2x32x64x2304, .f32⟩
  | 53 => ⟨S2x2x64x2304, .f32⟩
  | 54 => ⟨S2x32x64x4x576, .f32⟩
  | 55 => ⟨S32x2x4x64x576, .f32⟩
  | 56 => ⟨S32x8x64x24x24, .f32⟩
  | 57 => ⟨S2x2x64x4x576, .f32⟩
  | 58 => ⟨S2x4x2x64x576, .f32⟩
  | 59 => ⟨S8x2x64x24x24, .f32⟩
  | _ => ⟨S32x8x32x24x24, .f32⟩

abbrev hbmTy (i : Nat) : BufTy := match i / 128 with
  | 0 => hbmTy0_0 i
  | 1 => hbmTy0_1 i
  | 2 => hbmTy0_2 i
  | _ => ⟨S32x8x32x24x24, .f32⟩

abbrev bufTy : (tb : Table) → Fin (tcTables nBuf tb) → BufTy
  | .hbm, ⟨i, _⟩ => hbmTy i
  | .local _ .vmem, ⟨0, _⟩ => ⟨S9x2304, .f32⟩
  | .local _ .vmem, ⟨1, _⟩ => ⟨S1x1x64x2304, .f32⟩
  | .local _ .vmem, ⟨2, _⟩ => ⟨S1x1x64x2304, .f32⟩
  | .local _ .vmem, ⟨3, _⟩ => ⟨S2x192x1160, .f32⟩
  | .local _ .vmem, ⟨4, _⟩ => ⟨S2x64x576, .f32⟩
  | .local _ .vmem, ⟨5, _⟩ => ⟨S1x1x64x2304, .f32⟩
  | .local _ .vmem, ⟨6, _⟩ => ⟨S1x1x64x2304, .f32⟩
  | .local _ .vmem, ⟨7, _⟩ => ⟨S1x2x64x2304, .f32⟩
  | .local _ .vmem, ⟨8, _⟩ => ⟨S1x2x64x2304, .f32⟩
  | .local _ .vmem, ⟨9, _⟩ => ⟨S2x64x2304, .f32⟩
  | .local _ .vmem, ⟨10, _⟩ => ⟨S1160x2304, .f32⟩
  | .local _ .vmem, ⟨11, _⟩ => ⟨S576x2304, .f32⟩
  | _, _ => ⟨S32x8x32x24x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_c_0 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_v5 : Ref sig .tc := ⟨.hbm, 31, rfl⟩
abbrev main_call1_v6 : Ref sig .tc := ⟨.hbm, 32, rfl⟩
abbrev main_call1_c_2 : Ref sig .tc := ⟨.hbm, 33, rfl⟩
abbrev main_call1_v7 : Ref sig .tc := ⟨.hbm, 34, rfl⟩
abbrev main_call1_v8 : Ref sig .tc := ⟨.hbm, 35, rfl⟩
abbrev main_call1_c_3 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_v2 : Ref sig .tc := ⟨.hbm, 43, rfl⟩
abbrev main_c_1 : Ref sig .tc := ⟨.hbm, 44, rfl⟩
abbrev main_v3 : Ref sig .tc := ⟨.hbm, 45, rfl⟩
abbrev main_v4 : Ref sig .tc := ⟨.hbm, 46, rfl⟩
abbrev main_c_2 : Ref sig .tc := ⟨.hbm, 47, rfl⟩
abbrev main_v5 : Ref sig .tc := ⟨.hbm, 48, rfl⟩
abbrev main_v6 : Ref sig .tc := ⟨.hbm, 49, rfl⟩
abbrev main_c_3 : Ref sig .tc := ⟨.hbm, 50, rfl⟩
abbrev main_v7 : Ref sig .tc := ⟨.hbm, 51, rfl⟩
abbrev main_v8 : Ref sig .tc := ⟨.hbm, 52, rfl⟩
abbrev main_c_4 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_c_5 : Ref sig .tc := ⟨.hbm, 57, rfl⟩
abbrev main_v12 : Ref sig .tc := ⟨.hbm, 58, rfl⟩
abbrev main_v13 : Ref sig .tc := ⟨.hbm, 59, rfl⟩
abbrev main_c_6 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_c_7 : Ref sig .tc := ⟨.hbm, 64, rfl⟩
abbrev main_v17 : Ref sig .tc := ⟨.hbm, 65, rfl⟩
abbrev main_v18 : Ref sig .tc := ⟨.hbm, 66, rfl⟩
abbrev main_c_8 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_c_9 : Ref sig .tc := ⟨.hbm, 71, rfl⟩
abbrev main_v22 : Ref sig .tc := ⟨.hbm, 72, rfl⟩
abbrev main_v23 : Ref sig .tc := ⟨.hbm, 73, rfl⟩
abbrev main_c_10 : Ref sig .tc := ⟨.hbm, 74, rfl⟩
abbrev main_v24 : Ref sig .tc := ⟨.hbm, 75, rfl⟩
abbrev main_v25 : Ref sig .tc := ⟨.hbm, 76, rfl⟩
abbrev main_c_11 : Ref sig .tc := ⟨.hbm, 77, rfl⟩
abbrev main_v26 : Ref sig .tc := ⟨.hbm, 78, rfl⟩
abbrev main_v27 : Ref sig .tc := ⟨.hbm, 79, rfl⟩
abbrev main_c_12 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_c_13 : Ref sig .tc := ⟨.hbm, 84, rfl⟩
abbrev main_v31 : Ref sig .tc := ⟨.hbm, 85, rfl⟩
abbrev main_v32 : Ref sig .tc := ⟨.hbm, 86, rfl⟩
abbrev main_c_14 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_c_15 : Ref sig .tc := ⟨.hbm, 91, rfl⟩
abbrev main_v36 : Ref sig .tc := ⟨.hbm, 92, rfl⟩
abbrev main_v37 : Ref sig .tc := ⟨.hbm, 93, rfl⟩
abbrev main_c_16 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_c_17 : Ref sig .tc := ⟨.hbm, 98, rfl⟩
abbrev main_v41 : Ref sig .tc := ⟨.hbm, 99, rfl⟩
abbrev main_v42 : Ref sig .tc := ⟨.hbm, 100, rfl⟩
abbrev main_c_18 : Ref sig .tc := ⟨.hbm, 101, rfl⟩
abbrev main_v43 : Ref sig .tc := ⟨.hbm, 102, rfl⟩
abbrev main_v44 : Ref sig .tc := ⟨.hbm, 103, rfl⟩
abbrev main_c_19 : Ref sig .tc := ⟨.hbm, 104, rfl⟩
abbrev main_v45 : Ref sig .tc := ⟨.hbm, 105, rfl⟩
abbrev main_v46 : Ref sig .tc := ⟨.hbm, 106, rfl⟩
abbrev main_c_20 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_c_21 : Ref sig .tc := ⟨.hbm, 111, rfl⟩
abbrev main_v50 : Ref sig .tc := ⟨.hbm, 112, rfl⟩
abbrev main_v51 : Ref sig .tc := ⟨.hbm, 113, rfl⟩
abbrev main_c_22 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_c_23 : Ref sig .tc := ⟨.hbm, 118, rfl⟩
abbrev main_v55 : Ref sig .tc := ⟨.hbm, 119, rfl⟩
abbrev main_v56 : Ref sig .tc := ⟨.hbm, 120, rfl⟩
abbrev main_c_24 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_c_25 : Ref sig .tc := ⟨.hbm, 125, rfl⟩
abbrev main_v60 : Ref sig .tc := ⟨.hbm, 126, rfl⟩
abbrev main_v61 : Ref sig .tc := ⟨.hbm, 127, rfl⟩
abbrev main_c_26 : Ref sig .tc := ⟨.hbm, 128, rfl⟩
abbrev main_v62 : Ref sig .tc := ⟨.hbm, 129, rfl⟩
abbrev main_v63 : Ref sig .tc := ⟨.hbm, 130, rfl⟩
abbrev main_c_27 : Ref sig .tc := ⟨.hbm, 131, rfl⟩
abbrev main_v64 : Ref sig .tc := ⟨.hbm, 132, rfl⟩
abbrev main_v65 : Ref sig .tc := ⟨.hbm, 133, rfl⟩
abbrev main_c_28 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_c_29 : Ref sig .tc := ⟨.hbm, 138, rfl⟩
abbrev main_v69 : Ref sig .tc := ⟨.hbm, 139, rfl⟩
abbrev main_v70 : Ref sig .tc := ⟨.hbm, 140, rfl⟩
abbrev main_c_30 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_c_31 : Ref sig .tc := ⟨.hbm, 145, rfl⟩
abbrev main_v74 : Ref sig .tc := ⟨.hbm, 146, rfl⟩
abbrev main_v75 : Ref sig .tc := ⟨.hbm, 147, rfl⟩
abbrev main_c_32 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_c_33 : Ref sig .tc := ⟨.hbm, 152, rfl⟩
abbrev main_v79 : Ref sig .tc := ⟨.hbm, 153, rfl⟩
abbrev main_v80 : Ref sig .tc := ⟨.hbm, 154, rfl⟩
abbrev main_c_34 : Ref sig .tc := ⟨.hbm, 155, rfl⟩
abbrev main_v81 : Ref sig .tc := ⟨.hbm, 156, rfl⟩
abbrev main_v82 : Ref sig .tc := ⟨.hbm, 157, rfl⟩
abbrev main_c_35 : Ref sig .tc := ⟨.hbm, 158, rfl⟩
abbrev main_v83 : Ref sig .tc := ⟨.hbm, 159, rfl⟩
abbrev main_v84 : Ref sig .tc := ⟨.hbm, 160, rfl⟩
abbrev main_c_36 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_c_37 : Ref sig .tc := ⟨.hbm, 165, rfl⟩
abbrev main_v88 : Ref sig .tc := ⟨.hbm, 166, rfl⟩
abbrev main_v89 : Ref sig .tc := ⟨.hbm, 167, rfl⟩
abbrev main_c_38 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_c_39 : Ref sig .tc := ⟨.hbm, 172, rfl⟩
abbrev main_v93 : Ref sig .tc := ⟨.hbm, 173, rfl⟩
abbrev main_v94 : Ref sig .tc := ⟨.hbm, 174, rfl⟩
abbrev main_c_40 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_c_41 : Ref sig .tc := ⟨.hbm, 179, rfl⟩
abbrev main_v98 : Ref sig .tc := ⟨.hbm, 180, rfl⟩
abbrev main_v99 : Ref sig .tc := ⟨.hbm, 181, rfl⟩
abbrev main_c_42 : Ref sig .tc := ⟨.hbm, 182, rfl⟩
abbrev main_v100 : Ref sig .tc := ⟨.hbm, 183, rfl⟩
abbrev main_v101 : Ref sig .tc := ⟨.hbm, 184, rfl⟩
abbrev main_c_43 : Ref sig .tc := ⟨.hbm, 185, rfl⟩
abbrev main_v102 : Ref sig .tc := ⟨.hbm, 186, rfl⟩
abbrev main_v103 : Ref sig .tc := ⟨.hbm, 187, rfl⟩
abbrev main_c_44 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_c_45 : Ref sig .tc := ⟨.hbm, 192, rfl⟩
abbrev main_v107 : Ref sig .tc := ⟨.hbm, 193, rfl⟩
abbrev main_v108 : Ref sig .tc := ⟨.hbm, 194, rfl⟩
abbrev main_c_46 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_c_47 : Ref sig .tc := ⟨.hbm, 199, rfl⟩
abbrev main_v112 : Ref sig .tc := ⟨.hbm, 200, rfl⟩
abbrev main_v113 : Ref sig .tc := ⟨.hbm, 201, rfl⟩
abbrev main_c_48 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_c_49 : Ref sig .tc := ⟨.hbm, 206, rfl⟩
abbrev main_v117 : Ref sig .tc := ⟨.hbm, 207, rfl⟩
abbrev main_v118 : Ref sig .tc := ⟨.hbm, 208, rfl⟩
abbrev main_c_50 : Ref sig .tc := ⟨.hbm, 209, rfl⟩
abbrev main_v119 : Ref sig .tc := ⟨.hbm, 210, rfl⟩
abbrev main_v120 : Ref sig .tc := ⟨.hbm, 211, rfl⟩
abbrev main_c_51 : Ref sig .tc := ⟨.hbm, 212, rfl⟩
abbrev main_v121 : Ref sig .tc := ⟨.hbm, 213, rfl⟩
abbrev main_v122 : Ref sig .tc := ⟨.hbm, 214, rfl⟩
abbrev main_c_52 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_c_53 : Ref sig .tc := ⟨.hbm, 219, rfl⟩
abbrev main_v126 : Ref sig .tc := ⟨.hbm, 220, rfl⟩
abbrev main_v127 : Ref sig .tc := ⟨.hbm, 221, rfl⟩
abbrev main_c_54 : Ref sig .tc := ⟨.hbm, 222, rfl⟩
abbrev main_v128 : Ref sig .tc := ⟨.hbm, 223, rfl⟩
abbrev main_v129 : Ref sig .tc := ⟨.hbm, 224, rfl⟩
abbrev main_v130 : Ref sig .tc := ⟨.hbm, 225, rfl⟩
abbrev main_c_55 : Ref sig .tc := ⟨.hbm, 226, rfl⟩
abbrev main_v131 : Ref sig .tc := ⟨.hbm, 227, rfl⟩
abbrev main_v132 : Ref sig .tc := ⟨.hbm, 228, rfl⟩
abbrev main_c_56 : Ref sig .tc := ⟨.hbm, 229, rfl⟩
abbrev main_v133 : Ref sig .tc := ⟨.hbm, 230, rfl⟩
abbrev main_v134 : Ref sig .tc := ⟨.hbm, 231, rfl⟩
abbrev main_v135 : Ref sig .tc := ⟨.hbm, 232, rfl⟩
abbrev main_c_57 : Ref sig .tc := ⟨.hbm, 233, rfl⟩
abbrev main_v136 : Ref sig .tc := ⟨.hbm, 234, rfl⟩
abbrev main_v137 : Ref sig .tc := ⟨.hbm, 235, rfl⟩
abbrev main_c_58 : Ref sig .tc := ⟨.hbm, 236, rfl⟩
abbrev main_v138 : Ref sig .tc := ⟨.hbm, 237, rfl⟩
abbrev main_v139 : Ref sig .tc := ⟨.hbm, 238, rfl⟩
abbrev main_c_59 : Ref sig .tc := ⟨.hbm, 239, rfl⟩
abbrev main_v140 : Ref sig .tc := ⟨.hbm, 240, rfl⟩
abbrev main_v141 : Ref sig .tc := ⟨.hbm, 241, rfl⟩
abbrev main_c_60 : Ref sig .tc := ⟨.hbm, 242, rfl⟩
abbrev main_v142 : Ref sig .tc := ⟨.hbm, 243, rfl⟩
abbrev main_v143 : Ref sig .tc := ⟨.hbm, 244, rfl⟩
abbrev main_v144 : Ref sig .tc := ⟨.hbm, 245, rfl⟩
abbrev main_c_61 : Ref sig .tc := ⟨.hbm, 246, rfl⟩
abbrev main_v145 : Ref sig .tc := ⟨.hbm, 247, rfl⟩
abbrev main_v146 : Ref sig .tc := ⟨.hbm, 248, rfl⟩
abbrev main_c_62 : Ref sig .tc := ⟨.hbm, 249, rfl⟩
abbrev main_v147 : Ref sig .tc := ⟨.hbm, 250, rfl⟩
abbrev main_v148 : Ref sig .tc := ⟨.hbm, 251, rfl⟩
abbrev main_v149 : Ref sig .tc := ⟨.hbm, 252, rfl⟩
abbrev main_c_63 : Ref sig .tc := ⟨.hbm, 253, rfl⟩
abbrev main_v150 : Ref sig .tc := ⟨.hbm, 254, rfl⟩
abbrev main_v151 : Ref sig .tc := ⟨.hbm, 255, rfl⟩
abbrev main_c_64 : Ref sig .tc := ⟨.hbm, 256, rfl⟩
abbrev main_v152 : Ref sig .tc := ⟨.hbm, 257, rfl⟩
abbrev main_v153 : Ref sig .tc := ⟨.hbm, 258, rfl⟩
abbrev main_v154 : Ref sig .tc := ⟨.hbm, 259, rfl⟩
abbrev main_c_65 : Ref sig .tc := ⟨.hbm, 260, rfl⟩
abbrev main_v155 : Ref sig .tc := ⟨.hbm, 261, rfl⟩
abbrev main_v156 : Ref sig .tc := ⟨.hbm, 262, rfl⟩
abbrev main_c_66 : Ref sig .tc := ⟨.hbm, 263, rfl⟩
abbrev main_v157 : Ref sig .tc := ⟨.hbm, 264, rfl⟩
abbrev main_v158 : Ref sig .tc := ⟨.hbm, 265, rfl⟩
abbrev main_c_67 : Ref sig .tc := ⟨.hbm, 266, rfl⟩
abbrev main_v159 : Ref sig .tc := ⟨.hbm, 267, rfl⟩
abbrev main_v160 : Ref sig .tc := ⟨.hbm, 268, rfl⟩
abbrev main_c_68 : Ref sig .tc := ⟨.hbm, 269, rfl⟩
abbrev main_v161 : Ref sig .tc := ⟨.hbm, 270, rfl⟩
abbrev main_v162 : Ref sig .tc := ⟨.hbm, 271, rfl⟩
abbrev main_v163 : Ref sig .tc := ⟨.hbm, 272, rfl⟩
abbrev main_c_69 : Ref sig .tc := ⟨.hbm, 273, rfl⟩
abbrev main_v164 : Ref sig .tc := ⟨.hbm, 274, rfl⟩
abbrev main_v165 : Ref sig .tc := ⟨.hbm, 275, rfl⟩
abbrev main_c_70 : Ref sig .tc := ⟨.hbm, 276, rfl⟩
abbrev main_v166 : Ref sig .tc := ⟨.hbm, 277, rfl⟩
abbrev main_v167 : Ref sig .tc := ⟨.hbm, 278, rfl⟩
abbrev main_v168 : Ref sig .tc := ⟨.hbm, 279, rfl⟩
abbrev main_c_71 : Ref sig .tc := ⟨.hbm, 280, rfl⟩
abbrev main_v169 : Ref sig .tc := ⟨.hbm, 281, rfl⟩
abbrev main_v170 : Ref sig .tc := ⟨.hbm, 282, rfl⟩
abbrev main_c_72 : Ref sig .tc := ⟨.hbm, 283, rfl⟩
abbrev main_v171 : Ref sig .tc := ⟨.hbm, 284, rfl⟩
abbrev main_v172 : Ref sig .tc := ⟨.hbm, 285, rfl⟩
abbrev main_v173 : Ref sig .tc := ⟨.hbm, 286, rfl⟩
abbrev main_v174 : Ref sig .tc := ⟨.hbm, 287, rfl⟩
abbrev main_v175 : Ref sig .tc := ⟨.hbm, 288, rfl⟩
abbrev main_v176 : Ref sig .tc := ⟨.hbm, 289, rfl⟩
abbrev main_v177 : Ref sig .tc := ⟨.hbm, 290, rfl⟩
abbrev main_v178 : Ref sig .tc := ⟨.hbm, 291, rfl⟩
abbrev main_v179 : Ref sig .tc := ⟨.hbm, 292, rfl⟩
abbrev main_v180 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_v184 : Ref sig .tc := ⟨.hbm, 297, rfl⟩
abbrev main_v185 : Ref sig .tc := ⟨.hbm, 298, rfl⟩
abbrev main_v186 : Ref sig .tc := ⟨.hbm, 299, rfl⟩
abbrev main_v187 : Ref sig .tc := ⟨.hbm, 300, rfl⟩
abbrev main_v188 : Ref sig .tc := ⟨.hbm, 301, rfl⟩
abbrev main_v189 : Ref sig .tc := ⟨.hbm, 302, rfl⟩
abbrev main_c_73 : Ref sig .tc := ⟨.hbm, 303, rfl⟩
abbrev main_call2_v0 : Ref sig .tc := ⟨.hbm, 304, rfl⟩
abbrev main_v190 : Ref sig .tc := ⟨.hbm, 305, rfl⟩
abbrev main_v191 : Ref sig .tc := ⟨.hbm, 306, rfl⟩
abbrev main_v192 : Ref sig .tc := ⟨.hbm, 307, rfl⟩
abbrev main_v193_0 : Ref sig .tc := ⟨.hbm, 308, rfl⟩
abbrev main_v193_1 : Ref sig .tc := ⟨.hbm, 309, rfl⟩
abbrev main_v194 : Ref sig .tc := ⟨.hbm, 310, rfl⟩
abbrev main_v195 : Ref sig .tc := ⟨.hbm, 311, rfl⟩
abbrev main_v196 : Ref sig .tc := ⟨.hbm, 312, rfl⟩
abbrev main_v197 : Ref sig .tc := ⟨.hbm, 313, rfl⟩
abbrev main_v198 : Ref sig .tc := ⟨.hbm, 314, rfl⟩
abbrev main_v199 : Ref sig .tc := ⟨.hbm, 315, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v486 : BitVec 1 := Scalar.cmpi .eq arg1 c31_i32
  let v487 : BitVec 32 := Scalar.extui v486
  let c0_i32_276 : BitVec 32 := 0#32
  let v488 : BitVec 1 := Scalar.cmpi .ne v487 c0_i32_276
  v488

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S9x2304 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x64x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2x192x1160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x64x576 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x64x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x64x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S576 : S_.BroadcastsInDim S576 (![] : Fin 0 → Fin S576.rank)
  bcast_S576_S1x576_1 : S576.BroadcastsInDim S1x576 (![1] : Fin 1 → Fin S1x576.rank)
  concatenates_S1x576_S1x576_S1x576_S1x576_S1x576_S1x576_S1x576_S1x576_S1x576_S9x576_d0 : Shape.Concatenates [S1x576, S1x576, S1x576, S1x576, S1x576, S1x576, S1x576, S1x576, S1x576] S9x576 0
  shapeCasts_S9x576_S1x9x1x576 : S9x576.ShapeCasts S1x9x1x576
  bcast_S1x9x1x576_S1x9x4x576_0_1_2_3 : S1x9x1x576.BroadcastsInDim S1x9x4x576 (![0, 1, 2, 3] : Fin 4 → Fin S1x9x4x576.rank)
  shapeCasts_S1x9x4x576_S9x2304 : S1x9x4x576.ShapeCasts S9x2304
  transposes_S32x8x32x24x24_S8x32x32x24x24_1_0_2_3_4 : S32x8x32x24x24.Transposes [1, 0, 2, 3, 4] S8x32x32x24x24
  shapeCasts_S8x32x32x24x24_S2x4x32x32x576 : S8x32x32x24x24.ShapeCasts S2x4x32x32x576
  pads_S2x4x32x32x576_S2x4x32x64x576_000_000_000_0320_000 : S2x4x32x32x576.Pads (![0, 0, 0, 0, 0] : Fin 5 → Nat) ![0, 0, 0, 32, 0] ![0, 0, 0, 0, 0] S2x4x32x64x576
  h_S_ : 0 < S_.numel
  transposes_S2x4x32x64x576_S2x32x64x4x576_0_2_3_1_4 : S2x4x32x64x576.Transposes [0, 2, 3, 1, 4] S2x32x64x4x576
  shapeCasts_S2x32x64x4x576_S2x32x64x2304 : S2x32x64x4x576.ShapeCasts S2x32x64x2304
  inb_S2x64x2304_S2x64x2304_0_0_0 : ∀ a, (![0, 0, 0] : Fin 3 → Nat) a + S2x64x2304.size a ≤ S2x64x2304.size a
  h_S2x64x2304 : 0 < S2x64x2304.numel
  shapeCasts_S2x64x2304_S2x64x2304 : S2x64x2304.ShapeCasts S2x64x2304
  inb_S1160x2304_S1160x2304_0_0 : ∀ a, (![0, 0] : Fin 2 → Nat) a + S1160x2304.size a ≤ S1160x2304.size a
  h_S1160x2304 : 0 < S1160x2304.numel
  shapeCasts_S1160x2304_S1160x2304 : S1160x2304.ShapeCasts S1160x2304
  inb_S576x2304_S576x2304_0_0 : ∀ a, (![0, 0] : Fin 2 → Nat) a + S576x2304.size a ≤ S576x2304.size a
  h_S576x2304 : 0 < S576x2304.numel
  shapeCasts_S576x2304_S576x2304 : S576x2304.ShapeCasts S576x2304
  inb_S1160x2304_S1x2304_1152_0 : ∀ a, (![1152, 0] : Fin 2 → Nat) a + S1x2304.size a ≤ S1160x2304.size a
  h_S1x2304 : 0 < S1x2304.numel
  shapeCasts_S1x2304_S1x2304 : S1x2304.ShapeCasts S1x2304
  inb_S1x1x64x2304_S1x1x64x2304_0_0_0_0 : ∀ a, (![0, 0, 0, 0] : Fin 4 → Nat) a + S1x1x64x2304.size a ≤ S1x1x64x2304.size a
  h_S1x1x64x2304 : 0 < S1x1x64x2304.numel
  shapeCasts_S1x1x64x2304_S64x2304 : S1x1x64x2304.ShapeCasts S64x2304
  inb_S2x64x2304_S1x64x2304_0_0_0 : ∀ a, (![0, 0, 0] : Fin 3 → Nat) a + S1x64x2304.size a ≤ S2x64x2304.size a
  h_S1x64x2304 : 0 < S1x64x2304.numel
  shapeCasts_S1x64x2304_S64x2304 : S1x64x2304.ShapeCasts S64x2304
  rotates_S64x2304_d1 : S64x2304.Rotates 1 none
  inb_S9x2304_S1x2304_0_0 : ∀ a, (![0, 0] : Fin 2 → Nat) a + S1x2304.size a ≤ S9x2304.size a
  broadcasts_S1x2304_S64x2304 : S1x2304.Broadcasts S64x2304
  inb_S1160x2304_S64x2304_0_0 : ∀ a, (![0, 0] : Fin 2 → Nat) a + S64x2304.size a ≤ S1160x2304.size a
  h_S64x2304 : 0 < S64x2304.numel
  shapeCasts_S64x2304_S64x2304 : S64x2304.ShapeCasts S64x2304
  inb_S1160x2304_S64x2304_64_0 : ∀ a, (![64, 0] : Fin 2 → Nat) a + S64x2304.size a ≤ S1160x2304.size a
  inb_S9x2304_S1x2304_1_0 : ∀ a, (![1, 0] : Fin 2 → Nat) a + S1x2304.size a ≤ S9x2304.size a
  inb_S1160x2304_S64x2304_128_0 : ∀ a, (![128, 0] : Fin 2 → Nat) a + S64x2304.size a ≤ S1160x2304.size a
  inb_S1160x2304_S64x2304_192_0 : ∀ a, (![192, 0] : Fin 2 → Nat) a + S64x2304.size a ≤ S1160x2304.size a
  inb_S9x2304_S1x2304_2_0 : ∀ a, (![2, 0] : Fin 2 → Nat) a + S1x2304.size a ≤ S9x2304.size a
  inb_S1160x2304_S64x2304_256_0 : ∀ a, (![256, 0] : Fin 2 → Nat) a + S64x2304.size a ≤ S1160x2304.size a
  inb_S1160x2304_S64x2304_320_0 : ∀ a, (![320, 0] : Fin 2 → Nat) a + S64x2304.size a ≤ S1160x2304.size a
  inb_S9x2304_S1x2304_3_0 : ∀ a, (![3, 0] : Fin 2 → Nat) a + S1x2304.size a ≤ S9x2304.size a
  inb_S1160x2304_S64x2304_384_0 : ∀ a, (![384, 0] : Fin 2 → Nat) a + S64x2304.size a ≤ S1160x2304.size a
  inb_S1160x2304_S64x2304_448_0 : ∀ a, (![448, 0] : Fin 2 → Nat) a + S64x2304.size a ≤ S1160x2304.size a
  inb_S9x2304_S1x2304_4_0 : ∀ a, (![4, 0] : Fin 2 → Nat) a + S1x2304.size a ≤ S9x2304.size a
  inb_S1160x2304_S64x2304_512_0 : ∀ a, (![512, 0] : Fin 2 → Nat) a + S64x2304.size a ≤ S1160x2304.size a
  inb_S1160x2304_S64x2304_576_0 : ∀ a, (![576, 0] : Fin 2 → Nat) a + S64x2304.size a ≤ S1160x2304.size a
  inb_S9x2304_S1x2304_5_0 : ∀ a, (![5, 0] : Fin 2 → Nat) a + S1x2304.size a ≤ S9x2304.size a
  inb_S1160x2304_S64x2304_640_0 : ∀ a, (![640, 0] : Fin 2 → Nat) a + S64x2304.size a ≤ S1160x2304.size a
  inb_S1160x2304_S64x2304_704_0 : ∀ a, (![704, 0] : Fin 2 → Nat) a + S64x2304.size a ≤ S1160x2304.size a
  inb_S9x2304_S1x2304_6_0 : ∀ a, (![6, 0] : Fin 2 → Nat) a + S1x2304.size a ≤ S9x2304.size a
  inb_S1160x2304_S64x2304_768_0 : ∀ a, (![768, 0] : Fin 2 → Nat) a + S64x2304.size a ≤ S1160x2304.size a
  inb_S1160x2304_S64x2304_832_0 : ∀ a, (![832, 0] : Fin 2 → Nat) a + S64x2304.size a ≤ S1160x2304.size a
  inb_S9x2304_S1x2304_7_0 : ∀ a, (![7, 0] : Fin 2 → Nat) a + S1x2304.size a ≤ S9x2304.size a
  inb_S1160x2304_S64x2304_896_0 : ∀ a, (![896, 0] : Fin 2 → Nat) a + S64x2304.size a ≤ S1160x2304.size a
  inb_S1160x2304_S64x2304_960_0 : ∀ a, (![960, 0] : Fin 2 → Nat) a + S64x2304.size a ≤ S1160x2304.size a
  inb_S9x2304_S1x2304_8_0 : ∀ a, (![8, 0] : Fin 2 → Nat) a + S1x2304.size a ≤ S9x2304.size a
  inb_S1160x2304_S64x2304_1024_0 : ∀ a, (![1024, 0] : Fin 2 → Nat) a + S64x2304.size a ≤ S1160x2304.size a
  inb_S1160x2304_S64x2304_1088_0 : ∀ a, (![1088, 0] : Fin 2 → Nat) a + S64x2304.size a ≤ S1160x2304.size a
  inb_S2x192x1160_S1x192x1160_0_0_0 : ∀ a, (![0, 0, 0] : Fin 3 → Nat) a + S1x192x1160.size a ≤ S2x192x1160.size a
  h_S1x192x1160 : 0 < S1x192x1160.numel
  shapeCasts_S1x192x1160_S192x1160 : S1x192x1160.ShapeCasts S192x1160
  slices_S192x2304_o0_0_S64x2304 : S192x2304.Slices ![0, 0] S64x2304
  slices_S192x2304_o64_0_S64x2304 : S192x2304.Slices ![64, 0] S64x2304
  slices_S192x2304_o128_0_S64x2304 : S192x2304.Slices ![128, 0] S64x2304
  inb_S576x2304_S64x2304_0_0 : ∀ a, (![0, 0] : Fin 2 → Nat) a + S64x2304.size a ≤ S576x2304.size a
  inb_S576x2304_S64x2304_64_0 : ∀ a, (![64, 0] : Fin 2 → Nat) a + S64x2304.size a ≤ S576x2304.size a
  inb_S576x2304_S64x2304_128_0 : ∀ a, (![128, 0] : Fin 2 → Nat) a + S64x2304.size a ≤ S576x2304.size a
  inb_S576x2304_S64x2304_192_0 : ∀ a, (![192, 0] : Fin 2 → Nat) a + S64x2304.size a ≤ S576x2304.size a
  inb_S576x2304_S64x2304_256_0 : ∀ a, (![256, 0] : Fin 2 → Nat) a + S64x2304.size a ≤ S576x2304.size a
  inb_S576x2304_S64x2304_320_0 : ∀ a, (![320, 0] : Fin 2 → Nat) a + S64x2304.size a ≤ S576x2304.size a
  inb_S576x2304_S64x2304_384_0 : ∀ a, (![384, 0] : Fin 2 → Nat) a + S64x2304.size a ≤ S576x2304.size a
  inb_S576x2304_S64x2304_448_0 : ∀ a, (![448, 0] : Fin 2 → Nat) a + S64x2304.size a ≤ S576x2304.size a
  inb_S576x2304_S64x2304_512_0 : ∀ a, (![512, 0] : Fin 2 → Nat) a + S64x2304.size a ≤ S576x2304.size a
  inb_S2x64x576_S1x64x576_0_0_0 : ∀ a, (![0, 0, 0] : Fin 3 → Nat) a + S1x64x576.size a ≤ S2x64x576.size a
  h_S1x64x576 : 0 < S1x64x576.numel
  shapeCasts_S1x64x576_S64x576 : S1x64x576.ShapeCasts S64x576
  shapeCasts_S64x2304_S1x64x2304 : S64x2304.ShapeCasts S1x64x2304
  inb_S2x64x2304_S1x64x2304_1_0_0 : ∀ a, (![1, 0, 0] : Fin 3 → Nat) a + S1x64x2304.size a ≤ S2x64x2304.size a
  inb_S2x192x1160_S1x192x1160_1_0_0 : ∀ a, (![1, 0, 0] : Fin 3 → Nat) a + S1x192x1160.size a ≤ S2x192x1160.size a
  inb_S2x64x576_S1x64x576_1_0_0 : ∀ a, (![1, 0, 0] : Fin 3 → Nat) a + S1x64x576.size a ≤ S2x64x576.size a
  shapeCasts_S64x2304_S1x1x64x2304 : S64x2304.ShapeCasts S1x1x64x2304
  inb_S1x2x64x2304_S1x1x64x2304_0_0_0_0 : ∀ a, (![0, 0, 0, 0] : Fin 4 → Nat) a + S1x1x64x2304.size a ≤ S1x2x64x2304.size a
  inb_S1x2x64x2304_S1x1x64x2304_0_1_0_0 : ∀ a, (![0, 1, 0, 0] : Fin 4 → Nat) a + S1x1x64x2304.size a ≤ S1x2x64x2304.size a
  shapeCasts_S2x32x64x2304_S2x32x64x4x576 : S2x32x64x2304.ShapeCasts S2x32x64x4x576
  transposes_S2x32x64x4x576_S32x2x4x64x576_1_0_3_2_4 : S2x32x64x4x576.Transposes [1, 0, 3, 2, 4] S32x2x4x64x576
  shapeCasts_S32x2x4x64x576_S32x8x64x24x24 : S32x2x4x64x576.ShapeCasts S32x8x64x24x24
  shapeCasts_S2x2x64x2304_S2x2x64x4x576 : S2x2x64x2304.ShapeCasts S2x2x64x4x576
  transposes_S2x2x64x4x576_S2x4x2x64x576_0_3_1_2_4 : S2x2x64x4x576.Transposes [0, 3, 1, 2, 4] S2x4x2x64x576
  shapeCasts_S2x4x2x64x576_S8x2x64x24x24 : S2x4x2x64x576.ShapeCasts S8x2x64x24x24
  dot_S192x1160_S1160x2304_S192x2304_1_0_0_1_n_n_wf : DotDims.WF S192x1160 S1160x2304 S192x2304 [1] [0] [0] [1] [] []
  dot_S64x576_S576x2304_S64x2304_1_0_0_1_n_n_wf : DotDims.WF S64x576 S576x2304 S64x2304 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S9x2304.size a ≤ S9x2304.size a
  hwx0_0 : ∀ i : grid0.Coords, EltTy.bits .f32 = 32 ∨ (Rect.block (s := S9x2304) S9x2304.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64x2304.size a ≤ S2x32x64x2304.size a
  hwx0_1 : ∀ i : grid0.Coords, EltTy.bits .f32 = 32 ∨ (Rect.block (s := S2x32x64x2304) S1x1x64x2304.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x192x1160.size a ≤ S2x192x1160.size a
  hwx0_2 : ∀ i : grid0.Coords, EltTy.bits .f32 = 32 ∨ (Rect.block (s := S2x192x1160) S2x192x1160.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x64x576.size a ≤ S2x64x576.size a
  hwx0_3 : ∀ i : grid0.Coords, EltTy.bits .f32 = 32 ∨ (Rect.block (s := S2x64x576) S2x64x576.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64x2304.size a ≤ S2x32x64x2304.size a
  hwx0_4 : ∀ i : grid0.Coords, EltTy.bits .f32 = 32 ∨ (Rect.block (s := S2x32x64x2304) S1x1x64x2304.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2x64x2304.size a ≤ S2x2x64x2304.size a
  hwx0_5 : ∀ i : grid0.Coords, EltTy.bits .f32 = 32 ∨ (Rect.block (s := S2x2x64x2304) S1x2x64x2304.size (cc0_transform_5 i) (hinb0_5 i)).WholeWords (EltTy.packing .f32)

variable [Facts₀]

def dot_S192x1160_S1160x2304_S192x2304_1_0_0_1_n_n : DotDims S192x1160 S1160x2304 S192x2304 where
  lhsContracting := [1]
  rhsContracting := [0]
  lhsNonContracting := [0]
  rhsNonContracting := [1]
  lhsBatch := []
  rhsBatch := []
  wf := dot_S192x1160_S1160x2304_S192x2304_1_0_0_1_n_n_wf
def dot_S64x576_S576x2304_S64x2304_1_0_0_1_n_n : DotDims S64x576 S576x2304 S64x2304 where
  lhsContracting := [1]
  rhsContracting := [0]
  lhsNonContracting := [0]
  rhsNonContracting := [1]
  lhsBatch := []
  rhsBatch := []
  wf := dot_S64x576_S576x2304_S64x2304_1_0_0_1_n_n_wf

abbrev win0_0 : Pipeline.Window sig grid0 :=
  Pipeline.Window.ofSpec (Memref.whole main_v187) S9x2304.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v192) S1x1x64x2304.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2x192x1160.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2x64x576.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v193_0) S1x1x64x2304.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v193_1) S1x2x64x2304.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== Proof.KB.Base.lean ====
import proofs.«130420_g2000206920649175_pallasbulk_1279_2_alg».proof.Proof.Gen.Kernel.Launch
import proofs.«130420_g2000206920649175_pallasbulk_1279_2_alg».proof.Proof.Gen.Kernel.Skeleton
import proofs.«130420_g2000206920649175_pallasbulk_1279_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev preOps : List (List (HloOp τ sig (Elt F))) := [hostOps0, hostOps0_1, hostOps0_2, hostOps0_3, hostOps0_4]

abbrev V0 (c : Dev nD) : Valuation τ sig (Elt F) := StableHlo.after (List.flatten (preOps (F := F))) (fun b => m (c, b))

abbrev V (c : Dev nD) (b : Ref sig .tc) : Buf (Elt F) ((c : Thread nD τ).loc b) := V0 m c (Proc.devRef .tc b)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

theorem N64 : cfg0.N = 64 := N_0

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

abbrev VO0_5 : View sig .tc .vmem S1x1x64x2304 .f32 := (Memref.whole cc0_stg5_0 : Memref sig .tc .vmem S1x1x64x2304 .f32).view
abbrev VO0_6 : View sig .tc .vmem S1x2x64x2304 .f32 := (Memref.whole cc0_stg6_0 : Memref sig .tc .vmem S1x2x64x2304 .f32).view
abbrev ms0_0 (t : Fin cfg0.N) : Memref sig .tc .vmem S16x2304 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x32x2304 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S192x880 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S192x1168 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x64x576 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x64x2304 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x64x2304 .f32 := win0_6.stage (cfg0.slots t 6)
abbrev hs0_6 (t : Fin cfg0.N) : (ms0_6 t).IsWhole := hstage0_6 ((cfg0.slots t 6).cast nbuf0_6)
abbrev scM0_0 : Memref sig .tc .vmem S2x64x2304 .f32 := Memref.whole cc0_scratch0
abbrev VS0_0 : View sig .tc .vmem S2x64x2304 .f32 := scM0_0.view
abbrev scM0_1 : Memref sig .tc .vmem S1168x2304 .bf16 := Memref.whole cc0_scratch1
abbrev VS0_1 : View sig .tc .vmem S1168x2304 .bf16 := scM0_1.view
abbrev scM0_2 : Memref sig .tc .vmem S576x2304 .bf16 := Memref.whole cc0_scratch2
abbrev VS0_2 : View sig .tc .vmem S576x2304 .bf16 := scM0_2.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.KB.RunA.lean ====
import proofs.«130420_g2000206920649175_pallasbulk_1279_2_alg».proof.Proof.KB.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S16x2304 .bf16) (harg2 : arg2.IsWhole) (arg3 : Memref sig .tc .vmem S1x1x32x2304 .bf16) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x64x2304 .f32) (harg7 : arg7.IsWhole) (arg8 : Memref sig .tc .vmem S1x2x64x2304 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : cond0_0 i) (hc1 : ¬cond0_1 i) (x0 : Vec F S16x2304 .bf16) (x1 : Vec F S1x1x32x2304 .bf16) (x2 : Vec F S192x880 .bf16) (x3 : Vec F S192x1168 .bf16) (x4 : Vec F S2x64x576 .bf16) :
    Σ' (L5 : List (View.Piece (Elt F) S1x1x64x2304 .f32)) (LS0 : List (View.Piece (Elt F) S2x64x2304 .f32)) (LS1 : List (View.Piece (Elt F) S1168x2304 .bf16)), { LS2 : List (View.Piece (Elt F) S576x2304 .bf16) //
      ∀ (xi6 : Vec F S1x2x64x2304 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__step_kernel i arg2 harg2 arg3 harg3 arg4 harg4 arg5 harg5 arg6 harg6 arg7 harg7 arg8 harg8 arg9 harg9 arg10 harg10 arg11 harg11) K } := by
  refine ⟨?_, ?_, ?_, ?_, fun xi6 E K => ?run⟩
  case run =>
    simp only [cc0__step_kernel_eq_skeleton]; unfold cc0__step_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hf6
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; isplitr; · ipureintro; exact harg8.read_unread _
      iexact H6
    isplitl [HS0]
    · iexists _; iexact HS0
    isplitl [HS1]
    · iexists _; iexact HS1
    iexists _; iexact HS2

end Cert.Kernel.Hand

end
-- ==== Proof.KB.RunB.lean ====
import proofs.«130420_g2000206920649175_pallasbulk_1279_2_alg».proof.Proof.KB.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S16x2304 .bf16) (harg2 : arg2.IsWhole) (arg3 : Memref sig .tc .vmem S1x1x32x2304 .bf16) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x64x2304 .f32) (harg7 : arg7.IsWhole) (arg8 : Memref sig .tc .vmem S1x2x64x2304 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : ¬cond0_1 i) (x0 : Vec F S16x2304 .bf16) (x1 : Vec F S1x1x32x2304 .bf16) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) :
    Σ' (L5 : List (View.Piece (Elt F) S1x1x64x2304 .f32)) (LS0 : List (View.Piece (Elt F) S2x64x2304 .f32)) (LS1 : List (View.Piece (Elt F) S1168x2304 .bf16)), { LS2 : List (View.Piece (Elt F) S576x2304 .bf16) //
      ∀ (xi6 : Vec F S1x2x64x2304 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2)) -∗ K ⟨⟩))
          ⊢ wp frame (wpE (defs₀ (F := F)) Variants.none c none) E (cc0__step_kernel i arg2 harg2 arg3 harg3 arg4 harg4 arg5 harg5 arg6 harg6 arg7 harg7 arg8 harg8 arg9 harg9 arg10 harg10 arg11 harg11) K } := by
  refine ⟨?_, ?_, ?_, ?_, fun xi6 E K => ?run⟩
  case run =>
    simp only [cc0__step_kernel_eq_skeleton]; unfold cc0__step_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hf6
    obtain rfl := harg9.eq_unread hfs0; obtain rfl := harg10.eq_unread hfs1; obtain rfl := harg11.eq_unread hfs2
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; isplitr; · ipureintro; exact harg8.read_unread _
      iexact H6
    isplitl [HS0]
    · iexact HS0
    isplitl [HS1]
    · iexact HS1
    iexact HS2

end Cert.Kernel.Hand

end
-- ==== Proof.KB.RunC.lean ====
import proofs.«130420_g2000206920649175_pallasbulk_1279_2_alg».proof.Proof.KB.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S16x2304 .bf16) (harg2 : arg2.IsWhole) (arg3 : Memref sig .tc .vmem S1x1x32x2304 .bf16) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x64x2304 .f32) (harg7 : arg7.IsWhole) (arg8 : Memref sig .tc .vmem S1x2x64x2304 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i) (x0 : Vec F S16x2304 .bf16) (x1 : Vec F S1x1x32x2304 .bf16) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) :
    Σ' (L5 : List (View.Piece (Elt F) S1x1x64x2304 .f32)) (L6 : List (View.Piece (Elt F) S1x2x64x2304 .f32)) (LS0 : List (View.Piece (Elt F) S2x64x2304 .f32)) (LS1 : List (View.Piece (Elt F) S1168x2304 .bf16)), { LS2 : List (View.Piece (Elt F) S576x2304 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2)) -∗ K ⟨⟩))
          ⊢ wp frame (wpE (defs₀ (F := F)) Variants.none c none) E (cc0__step_kernel i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__step_kernel_eq_skeleton]; unfold cc0__step_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg9.eq_unread hfs0; obtain rfl := harg10.eq_unread hfs1; obtain rfl := harg11.eq_unread hfs2
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; iexact H6
    isplitl [HS0]
    · iexact HS0
    isplitl [HS1]
    · iexact HS1
    iexact HS2

end Cert.Kernel.Hand

end
-- ==== Proof.KB.Main.lean ====
import proofs.«130420_g2000206920649175_pallasbulk_1279_2_alg».proof.Proof.KB.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
theorem hostOps0_fresh : (hostOps0 : List (HloOp τ sig (Elt F))).Forall fun op => op.fresh = ∅ :=
  by repeat' (first | exact rfl | refine ⟨rfl, ?_⟩)
theorem hostOps0_1_fresh : (hostOps0_1 : List (HloOp τ sig (Elt F))).Forall fun op => op.fresh = ∅ :=
  by repeat' (first | exact rfl | refine ⟨rfl, ?_⟩)
theorem hostOps0_2_fresh : (hostOps0_2 : List (HloOp τ sig (Elt F))).Forall fun op => op.fresh = ∅ :=
  rfl
theorem hostOps0_3_fresh : (hostOps0_3 : List (HloOp τ sig (Elt F))).Forall fun op => op.fresh = ∅ :=
  by repeat' (first | exact rfl | refine ⟨rfl, ?_⟩)
set_option maxHeartbeats 40000000 in
theorem hostOps0_4_fresh : (hostOps0_4 : List (HloOp τ sig (Elt F))).Forall fun op => op.fresh = ∅ :=
  by repeat' (first | exact rfl | refine ⟨rfl, ?_⟩)
theorem hostOps1_fresh : (hostOps1 : List (HloOp τ sig (Elt F))).Forall fun op => op.fresh = ∅ :=
  by repeat' (first | exact rfl | refine ⟨rfl, ?_⟩)
abbrev mainArgs : List (Ref sig .tc) := [main_arg0, main_arg1, main_arg2]

theorem keeps_of {op : HloOp τ sig (Elt F)} {y : Ref sig .tc} (hw : op.writes = {Proc.devRef .tc y}) (hy : y ∉ mainArgs) :
    ∀ r ∈ mainArgs, Proc.devRef (τ := τ) .tc r ∉ op.writes := by
  intro r hr
  rw [hw, Finset.mem_singleton]
  exact StableHlo.devRef_ne_of_ne (fun e => hy (e ▸ hr))

set_option maxHeartbeats 40000000 in
theorem hostOps0_keeps : (hostOps0 : List (HloOp τ sig (Elt F))).Forall fun op => ∀ r ∈ mainArgs, Proc.devRef (τ := τ) .tc r ∉ op.writes :=
  by repeat' (first | exact keeps_of rfl (by decide) | refine ⟨keeps_of rfl (by decide), ?_⟩)
theorem hostOps0_1_keeps : (hostOps0_1 : List (HloOp τ sig (Elt F))).Forall fun op => ∀ r ∈ mainArgs, Proc.devRef (τ := τ) .tc r ∉ op.writes :=
  by repeat' (first | exact keeps_of rfl (by decide) | refine ⟨keeps_of rfl (by decide), ?_⟩)
theorem hostOps0_2_keeps : (hostOps0_2 : List (HloOp τ sig (Elt F))).Forall fun op => ∀ r ∈ mainArgs, Proc.devRef (τ := τ) .tc r ∉ op.writes :=
  keeps_of rfl (by decide)
theorem hostOps0_3_keeps : (hostOps0_3 : List (HloOp τ sig (Elt F))).Forall fun op => ∀ r ∈ mainArgs, Proc.devRef (τ := τ) .tc r ∉ op.writes :=
  by repeat' (first | exact keeps_of rfl (by decide) | refine ⟨keeps_of rfl (by decide), ?_⟩)
set_option maxHeartbeats 40000000 in
theorem hostOps0_4_keeps : (hostOps0_4 : List (HloOp τ sig (Elt F))).Forall fun op => ∀ r ∈ mainArgs, Proc.devRef (τ := τ) .tc r ∉ op.writes :=
  by repeat' (first | exact keeps_of rfl (by decide) | refine ⟨keeps_of rfl (by decide), ?_⟩)
theorem hostOps1_keeps : (hostOps1 : List (HloOp τ sig (Elt F))).Forall fun op => ∀ r ∈ mainArgs, Proc.devRef (τ := τ) .tc r ∉ op.writes :=
  by repeat' (first | exact keeps_of rfl (by decide) | refine ⟨keeps_of rfl (by decide), ?_⟩)
theorem pre_keeps : ∀ op ∈ List.flatten (preOps (F := F)), ∀ r ∈ mainArgs, Proc.devRef (τ := τ) .tc r ∉ op.writes := by
  intro op hop
  obtain ⟨ops, hops, hop⟩ := List.mem_flatten.mp hop
  simp only [preOps, List.mem_cons, List.mem_nil_iff, or_false] at hops
  rcases hops with rfl | rfl | rfl | rfl | rfl
  · exact List.forall_iff_forall_mem.mp hostOps0_keeps op hop
  · exact List.forall_iff_forall_mem.mp hostOps0_1_keeps op hop
  · exact List.forall_iff_forall_mem.mp hostOps0_2_keeps op hop
  · exact List.forall_iff_forall_mem.mp hostOps0_3_keeps op hop
  · exact List.forall_iff_forall_mem.mp hostOps0_4_keeps op hop

theorem V_main_arg (c : Dev nD) (r : Ref sig .tc) (hr : r ∈ mainArgs) : V m c r = m ((c : Thread nD τ).loc r) :=
  StableHlo.after_of_forall_not_mem (b := Proc.devRef .tc r) _ _ (fun op hop => pre_keeps op hop r hr)

theorem V_main_arg0 (c : Dev nD) : V m c main_arg0 = m ((c : Thread nD τ).loc main_arg0) := V_main_arg m c main_arg0 (by decide)
theorem V_main_arg1 (c : Dev nD) : V m c main_arg1 = m ((c : Thread nD τ).loc main_arg1) := V_main_arg m c main_arg1 (by decide)
theorem V_main_arg2 (c : Dev nD) : V m c main_arg2 = m ((c : Thread nD τ).loc main_arg2) := V_main_arg m c main_arg2 (by decide)

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1]
    ⟨hostOps0_sub, hostOps0_1_sub, hostOps0_2_sub, hostOps0_3_sub, hostOps0_4_sub⟩
    ⟨hostOps0_fresh, hostOps0_1_fresh, hostOps0_2_fresh, hostOps0_3_fresh, hostOps0_4_fresh⟩ main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem W_main_arg (dats : (p : Fin 1) → (c : Dev nD) → Dat τ (Elt F) Unit ℕ (UR sig nD τ) ℕ (cfgs p) c) (c : Dev nD) (r : Ref sig .tc) (hr : r ∈ mainArgs) (hne : ∀ w, Pipeline.arrRef spec0 w ≠ r) :
    Pipeline.afterTail₀ cfgs dats 0 (V0 m) [hostOps1] c r = m ((c : Thread nD τ).loc r) := by
  unfold Pipeline.afterTail₀
  rw [StableHlo.after_of_forall_not_mem (b := Proc.devRef .tc r) _ _ (fun op hop => by
      simp only [List.flatten_cons, List.flatten_nil, List.append_nil] at hop
      exact List.forall_iff_forall_mem.mp hostOps1_keeps op hop r hr),
    Pipeline.withArrays_of_ne _ c (V0 m c) _ r hne]
  exact V_main_arg m c r hr

theorem before0_0_of {c : Dev nD} (dat : Dat τ (Elt F) Unit ℕ (UR sig nD τ) ℕ cfg0 c) (hA : dat.A 0 = V m c (Pipeline.arrRef spec0 0)) (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1)) (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2)) (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3)) (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4)) (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c) (hA : ∀ c w, (dats 0 c).A w = V m c (Pipeline.arrRef spec0 w)) (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg m dats c main_arg0 (by decide) (by decide)),
     ((h c).2 main_arg1 (Pipeline.mem_restRefs_of main_arg1 (by decide) (by decide))).trans (W_main_arg m dats c main_arg1 (by decide) (by decide)),
     ((h c).2 main_arg2 (Pipeline.mem_restRefs_of main_arg2 (by decide) (by decide))).trans (W_main_arg m dats c main_arg2 (by decide) (by decide))⟩) h

end Cert.Kernel.Hand

end
-- ==== Proof.KB.Frame.lean ====
import proofs.«130420_g2000206920649175_pallasbulk_1279_2_alg».proof.Proof.KB.RunC
import proofs.«130420_g2000206920649175_pallasbulk_1279_2_alg».proof.Proof.KB.Main

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg2 : Memref sig .tc .vmem S16x2304 .bf16) (harg2 : arg2.IsWhole) (arg3 : Memref sig .tc .vmem S1x1x32x2304 .bf16) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x64x2304 .f32) (harg7 : arg7.IsWhole) (arg8 : Memref sig .tc .vmem S1x2x64x2304 .f32) (harg8 : arg8.IsWhole)
include c i arg2 harg2 arg3 harg3 arg4 harg4 arg5 harg5 arg6 harg6 arg7 harg7 arg8 harg8

section
variable (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole)
include arg9 harg9 arg10 harg10 arg11 harg11

section
variable (hc0 : cond0_0 i) (hc1 : ¬cond0_1 i) (x0 : Vec F S16x2304 .bf16) (x1 : Vec F S1x1x32x2304 .bf16) (x2 : Vec F S192x880 .bf16) (x3 : Vec F S192x1168 .bf16) (x4 : Vec F S2x64x576 .bf16)
include hc0 hc1 x0 x1 x2 x3 x4

theorem cover0_A_5 (y : S1x1x64x2304.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).1, y ∈ pc.1.set :=
  View.cover_of_wholeMem (kernelRun0_A c i arg2 harg2 arg3 harg3 arg4 harg4 arg5 harg5 arg6 harg6 arg7 harg7 arg8 harg8 arg9 harg9 arg10 harg10 arg11 harg11 hc0 hc1 x0 x1 x2 x3 x4).1 (by sl_whole_mem) y

def out0_A_5  : Vec F S1x1x64x2304 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 hc1 x0 x1 x2 x3 x4).1)

theorem scover0_A_0 (y : S2x64x2304.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.1, y ∈ pc.1.set :=
  View.cover_of_wholeMem (kernelRun0_A c i arg2 harg2 arg3 harg3 arg4 harg4 arg5 harg5 arg6 harg6 arg7 harg7 arg8 harg8 arg9 harg9 arg10 harg10 arg11 harg11 hc0 hc1 x0 x1 x2 x3 x4).2.1 (by sl_whole_mem) y

def sout0_A_0  : Vec F S2x64x2304 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4).2.1)

theorem scover0_A_1 (y : S1168x2304.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.2.1, y ∈ pc.1.set :=
  View.cover_of_wholeMem (kernelRun0_A c i arg2 harg2 arg3 harg3 arg4 harg4 arg5 harg5 arg6 harg6 arg7 harg7 arg8 harg8 arg9 harg9 arg10 harg10 arg11 harg11 hc0 hc1 x0 x1 x2 x3 x4).2.2.1 (by sl_whole_mem) y

def sout0_A_1  : Vec F S1168x2304 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3 x4).2.2.1)

theorem scover0_A_2 (y : S576x2304.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 hc0 hc1 x0 x1 x2 x3 x4).2.2.2.1 (by sl_whole_mem) y

def sout0_A_2  : Vec F S576x2304 .bf16 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 hc0 hc1 x0 x1 x2 x3 x4).2.2.2.1)

end

section
variable (hc0 : ¬cond0_0 i) (hc1 : ¬cond0_1 i) (x0 : Vec F S16x2304 .bf16) (x1 : Vec F S1x1x32x2304 .bf16) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16)
include hc0 hc1 x0 x1 x2 x3 x4 xs0 xs1 xs2

theorem cover0_B_5 (y : S1x1x64x2304.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).1, y ∈ pc.1.set :=
  View.cover_of_wholeMem (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).1 (by sl_whole_mem) y

def out0_B_5  : Vec F S1x1x64x2304 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).1)

end

end

section
variable (hc0 : ¬cond0_0 i) (hc1 : ¬cond0_1 i) (x0 : Vec F S16x2304 .bf16) (x1 : Vec F S1x1x32x2304 .bf16) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16)
include hc0 hc1 x0 x1 x2 x3 x4 xs0 xs1 xs2

def sout0_B_0  : Vec F S2x64x2304 .f32 :=
  scM0_0.view.read (Elt F) (scM0_0.view.writes (Elt F) ((Memref.isWhole_whole _).unread xs0) (kernelRun0_B c i arg2 harg2 arg3 harg3 arg4 harg4 arg5 harg5 arg6 harg6 arg7 harg7 arg8 harg8 scM0_0 (Memref.isWhole_whole _) scM0_1 (Memref.isWhole_whole _) scM0_2 (Memref.isWhole_whole _) hc0 hc1 x0 x1 x2 x3 x4 xs0 xs1 xs2).2.1)

def sout0_B_1  : Vec F S1168x2304 .bf16 :=
  scM0_1.view.read (Elt F) (scM0_1.view.writes (Elt F) ((Memref.isWhole_whole _).unread xs1) (kernelRun0_B c i arg2 harg2 arg3 harg3 arg4 harg4 arg5 harg5 arg6 harg6 arg7 harg7 arg8 harg8 scM0_0 (Memref.isWhole_whole _) scM0_1 (Memref.isWhole_whole _) scM0_2 (Memref.isWhole_whole _) hc0 hc1 x0 x1 x2 x3 x4 xs0 xs1 xs2).2.2.1)

def sout0_B_2  : Vec F S576x2304 .bf16 :=
  scM0_2.view.read (Elt F) (scM0_2.view.writes (Elt F) ((Memref.isWhole_whole _).unread xs2) (kernelRun0_B c i arg2 harg2 arg3 harg3 arg4 harg4 arg5 harg5 arg6 harg6 arg7 harg7 arg8 harg8 scM0_0 (Memref.isWhole_whole _) scM0_1 (Memref.isWhole_whole _) scM0_2 (Memref.isWhole_whole _) hc0 hc1 x0 x1 x2 x3 x4 xs0 xs1 xs2).2.2.2.1)

end

section
variable (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i) (x0 : Vec F S16x2304 .bf16) (x1 : Vec F S1x1x32x2304 .bf16) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16)
include arg9 harg9 arg10 harg10 arg11 harg11 hc0 hc1 x0 x1 x2 x3 x4 xs0 xs1 xs2

theorem cover0_C_5 (y : S1x1x64x2304.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).1, y ∈ pc.1.set :=
  View.cover_of_wholeMem (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).1 (by sl_whole_mem) y

def out0_C_5  : Vec F S1x1x64x2304 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).1)

theorem cover0_C_6 (y : S1x2x64x2304.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.1 S1x1x64x2304.size (by sl_kernel_rfl) y

def out0_C_6  : Vec F S1x2x64x2304 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.1)

end

section
variable (hc0 : ¬cond0_0 i) (hc1 : cond0_1 i) (x0 : Vec F S16x2304 .bf16) (x1 : Vec F S1x1x32x2304 .bf16) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16)
include hc0 hc1 x0 x1 x2 x3 x4 xs0 xs1 xs2

def sout0_C_0  : Vec F S2x64x2304 .f32 :=
  scM0_0.view.read (Elt F) (scM0_0.view.writes (Elt F) ((Memref.isWhole_whole _).unread xs0) (kernelRun0_C c i arg2 harg2 arg3 harg3 arg4 harg4 arg5 harg5 arg6 harg6 arg7 harg7 arg8 harg8 scM0_0 (Memref.isWhole_whole _) scM0_1 (Memref.isWhole_whole _) scM0_2 (Memref.isWhole_whole _) hc0 hc1 x0 x1 x2 x3 x4 xs0 xs1 xs2).2.2.1)

def sout0_C_1  : Vec F S1168x2304 .bf16 :=
  scM0_1.view.read (Elt F) (scM0_1.view.writes (Elt F) ((Memref.isWhole_whole _).unread xs1) (kernelRun0_C c i arg2 harg2 arg3 harg3 arg4 harg4 arg5 harg5 arg6 harg6 arg7 harg7 arg8 harg8 scM0_0 (Memref.isWhole_whole _) scM0_1 (Memref.isWhole_whole _) scM0_2 (Memref.isWhole_whole _) hc0 hc1 x0 x1 x2 x3 x4 xs0 xs1 xs2).2.2.2.1)

def sout0_C_2  : Vec F S576x2304 .bf16 :=
  scM0_2.view.read (Elt F) (scM0_2.view.writes (Elt F) ((Memref.isWhole_whole _).unread xs2) (kernelRun0_C c i arg2 harg2 arg3 harg3 arg4 harg4 arg5 harg5 arg6 harg6 arg7 harg7 arg8 harg8 scM0_0 (Memref.isWhole_whole _) scM0_1 (Memref.isWhole_whole _) scM0_2 (Memref.isWhole_whole _) hc0 hc1 x0 x1 x2 x3 x4 xs0 xs1 xs2).2.2.2.2.1)

end

end

def idle0_6 : Vec F S1x2x64x2304 .f32 := VO0_6.read (Elt F) VO0_6.junk

def outsAt0 (c : Dev nD) : (n : ℕ) → n < cfg0.N → Vec F S1x1x64x2304 .f32 × Vec F S1x2x64x2304 .f32 × Vec F S2x64x2304 .f32 × Vec F S1168x2304 .bf16 × Vec F S576x2304 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), idle0_6, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 32 = 0 then
      if h1 : (n + 1) % 32 = 31 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), idle0_6, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 32 = 31 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2, idle0_6, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2)

theorem outsAt0_A (c : Dev nD) (t : Fin cfg0.N) (h0 : t.val % 32 = 0) (h1 : ¬t.val % 32 = 31) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), idle0_6, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, idle0_6, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare (outsAt0 m c n hn).2.2.1 ∗ owns (c : Thread nD τ) scM0_1 fullShare (outsAt0 m c n hn).2.2.2.1 ∗ owns (c : Thread nD τ) scM0_2 fullShare (outsAt0 m c n hn).2.2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (outsAt0 m c n hn).2.2.1 ∗ owns (c : Thread nD τ) scM0_1 fullShare (outsAt0 m c n hn).2.2.2.1 ∗ owns (c : Thread nD τ) scM0_2 fullShare (outsAt0 m c n hn).2.2.2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (outsAt0 m c (n - 1) (by omega)).2.2.1 ∗ owns (c : Thread nD τ) scM0_1 fullShare (outsAt0 m c (n - 1) (by omega)).2.2.2.1 ∗ owns (c : Thread nD τ) scM0_2 fullShare (outsAt0 m c (n - 1) (by omega)).2.2.2.2) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

end Cert.Kernel.Hand

end
-- ==== Proof.KB.Body.lean ====
import proofs.«130420_g2000206920649175_pallasbulk_1279_2_alg».proof.Proof.KB.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
        unfold Dat.leavesExact; rw [liveAt0_0 t], after0_0]
  rw [show (dats m 0 c).leavesExact 1 t = owns (c : Thread nD τ) (ms0_1 t) fullShare ((dats m 0 c).after 1 t) from by
        unfold Dat.leavesExact; rw [liveAt0_1 t], after0_1]
  rw [show (dats m 0 c).leavesExact 2 t = owns (c : Thread nD τ) (ms0_2 t) fullShare ((dats m 0 c).after 2 t) from by
        unfold Dat.leavesExact; rw [liveAt0_2 t], after0_2]
  rw [show (dats m 0 c).leavesExact 3 t = owns (c : Thread nD τ) (ms0_3 t) fullShare ((dats m 0 c).after 3 t) from by
        unfold Dat.leavesExact; rw [liveAt0_3 t], after0_3]
  rw [show (dats m 0 c).leavesExact 4 t = owns (c : Thread nD τ) (ms0_4 t) fullShare ((dats m 0 c).after 4 t) from by
        unfold Dat.leavesExact; rw [liveAt0_4 t], after0_4]
  rw [show (dats m 0 c).leavesExact 5 t = owns (c : Thread nD τ) (ms0_5 t) fullShare ((dats m 0 c).after 5 t) from by
        unfold Dat.leavesExact; rw [liveAt0_5 t], after0_5]
  by_cases h0 : t.val % 32 = 0
  · by_cases h1 : t.val % 32 = 31
    · exfalso; omega
    · rw [Dat.leavesExact_idle (dats m 0 c) 6 t (idleAt0_6 t (fun h => h1 ((hcond0_1 t).mp h))) (noFlush0_6 t (fun h => h1 ((hcond0_1 t).mp h)))]
      rw [outsAt0_A m c t h0 h1]
      unfold out0_A_5 sout0_A_0 sout0_A_1 sout0_A_2; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS0]; · iexact HS0
        isplitl [HS1]; · iexact HS1
        isplitl [HS2]; · iexact HS2
        iintro ⟨H0, H1, H2, H3, H4, ⟨%e5, H5⟩, H6, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_A_5 _ _ _ _ _ _ _ _ _ _ _ _ _ _ _ _ _ _ _ _ _ _ _ _ _ _ _ _ _)
        iexists _; iexact H6
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS0]; · iexists _; iexact HS0
        isplitl [HS1]; · iexists _; iexact HS1
        isplitl [HS2]; · iexists _; iexact HS2
        iintro ⟨H0, H1, H2, H3, H4, ⟨%e5, H5⟩, H6, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_A_5 _ _ _ _ _ _ _ _ _ _ _ _ _ _ _ _ _ _ _ _ _ _ _ _ _ _ _ _ _)
        iexists _; iexact H6
  · have hz : t.val ≠ 0 := fun hz => h0 (by rw [hz])
    by_cases h1 : t.val % 32 = 31
    · rw [show (dats m 0 c).leavesExact 6 t = owns (c : Thread nD τ) (ms0_6 t) fullShare ((dats m 0 c).after 6 t) from by
        unfold Dat.leavesExact; rw [liveAt0_6 t ((hcond0_1 t).mpr h1)], after0_6]
      rw [outsAt0_C m c t h0 h1]
      unfold out0_C_5 out0_C_6 sout0_C_0 sout0_C_1 sout0_C_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, ⟨%e5, H5⟩, ⟨%e6, H6⟩, HS0, HS1, HS2⟩
      isplitl [HS0 HS1 HS2 Hg]
      · isplitl [HS0 HS1 HS2]
        · isplitl [HS0]
          · unfold owns; iexists _; isplitr
            swap; · iexact HS0
            ipureintro; rfl
          isplitl [HS1]
          · unfold owns; iexists _; isplitr
            swap; · iexact HS1
            ipureintro; rfl
          unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 _ _ _ _ _ _ _ _ _ _ _ _ _ _ _ _ _ _ _ _ _ _ _ _ _ _ _ _ _ _ _ _)
      unfold owns; iexists _; isplitr
      swap; · iexact H6
      ipureintro; exact View.read_writes_of_cover _ _ _ _ _ (cover0_C_6 _ _ _ _ _ _ _ _ _ _ _ _ _ _ _ _ _ _ _ _ _ _ _ _ _ _ _ _ _ _ _ _)
    · rw [Dat.leavesExact_idle (dats m 0 c) 6 t (idleAt0_6 t (fun h => h1 ((hcond0_1 t).mp h))) (noFlush0_6 t (fun h => h1 ((hcond0_1 t).mp h)))]
      rw [outsAt0_B m c t h0 h1]
      unfold out0_B_5 sout0_B_0 sout0_B_1 sout0_B_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _ _).2.2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      isplitl [HS2]; · iexact HS2
      iintro ⟨H0, H1, H2, H3, H4, ⟨%e5, H5⟩, H6, HS0, HS1, HS2⟩
      isplitl [HS0 HS1 HS2 Hg]
      · isplitl [HS0 HS1 HS2]
        · isplitl [HS0]
          · unfold owns; iexists _; isplitr
            swap; · iexact HS0
            ipureintro; rfl
          isplitl [HS1]
          · unfold owns; iexists _; isplitr
            swap; · iexact HS1
            ipureintro; rfl
          unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 _ _ _ _ _ _ _ _ _ _ _ _ _ _ _ _ _ _ _ _ _ _ _ _ _ _ _ _ _ _ _ _)
      iexists _; iexact H6

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 64 := N64; omega)

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KI.Base.lean ====
import proofs.«130420_g2000206920649175_pallasbulk_1279_2_alg».proof.Proof.Gen.KernelIdeal.Launch
import proofs.«130420_g2000206920649175_pallasbulk_1279_2_alg».proof.Proof.Gen.KernelIdeal.Skeleton
import proofs.«130420_g2000206920649175_pallasbulk_1279_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev preOps : List (List (HloOp τ sig (Elt F))) := [hostOps0, hostOps0_1, hostOps0_2, hostOps0_3, hostOps0_4]

abbrev V0 (c : Dev nD) : Valuation τ sig (Elt F) := StableHlo.after (List.flatten (preOps (F := F))) (fun b => m (c, b))

abbrev V (c : Dev nD) (b : Ref sig .tc) : Buf (Elt F) ((c : Thread nD τ).loc b) := V0 m c (Proc.devRef .tc b)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

theorem N64 : cfg0.N = 64 := N_0

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

abbrev VO0_5 : View sig .tc .vmem S1x1x64x2304 .f32 := (Memref.whole cc0_stg5_0 : Memref sig .tc .vmem S1x1x64x2304 .f32).view
abbrev VO0_6 : View sig .tc .vmem S1x2x64x2304 .f32 := (Memref.whole cc0_stg6_0 : Memref sig .tc .vmem S1x2x64x2304 .f32).view
abbrev ms0_0 (t : Fin cfg0.N) : Memref sig .tc .vmem S16x2304 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x32x2304 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S192x880 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S192x1168 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x64x576 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x64x2304 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x64x2304 .f32 := win0_6.stage (cfg0.slots t 6)
abbrev hs0_6 (t : Fin cfg0.N) : (ms0_6 t).IsWhole := hstage0_6 ((cfg0.slots t 6).cast nbuf0_6)
abbrev scM0_0 : Memref sig .tc .vmem S2x64x2304 .f32 := Memref.whole cc0_scratch0
abbrev VS0_0 : View sig .tc .vmem S2x64x2304 .f32 := scM0_0.view
abbrev scM0_1 : Memref sig .tc .vmem S1168x2304 .bf16 := Memref.whole cc0_scratch1
abbrev VS0_1 : View sig .tc .vmem S1168x2304 .bf16 := scM0_1.view
abbrev scM0_2 : Memref sig .tc .vmem S576x2304 .bf16 := Memref.whole cc0_scratch2
abbrev VS0_2 : View sig .tc .vmem S576x2304 .bf16 := scM0_2.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.KI.RunA.lean ====
import proofs.«130420_g2000206920649175_pallasbulk_1279_2_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S16x2304 .bf16) (harg2 : arg2.IsWhole) (arg3 : Memref sig .tc .vmem S1x1x32x2304 .bf16) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x64x2304 .f32) (harg7 : arg7.IsWhole) (arg8 : Memref sig .tc .vmem S1x2x64x2304 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : cond0_0 i) (hc1 : ¬cond0_1 i) (x0 : Vec F S16x2304 .bf16) (x1 : Vec F S1x1x32x2304 .bf16) (x2 : Vec F S192x880 .bf16) (x3 : Vec F S192x1168 .bf16) (x4 : Vec F S2x64x576 .bf16) :
    Σ' (L5 : List (View.Piece (Elt F) S1x1x64x2304 .f32)) (LS0 : List (View.Piece (Elt F) S2x64x2304 .f32)) (LS1 : List (View.Piece (Elt F) S1168x2304 .bf16)), { LS2 : List (View.Piece (Elt F) S576x2304 .bf16) //
      ∀ (xi6 : Vec F S1x2x64x2304 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__step_kernel i arg2 harg2 arg3 harg3 arg4 harg4 arg5 harg5 arg6 harg6 arg7 harg7 arg8 harg8 arg9 harg9 arg10 harg10 arg11 harg11) K } := by
  refine ⟨?_, ?_, ?_, ?_, fun xi6 E K => ?run⟩
  case run =>
    simp only [cc0__step_kernel_eq_skeleton]; unfold cc0__step_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hf6
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; isplitr; · ipureintro; exact harg8.read_unread _
      iexact H6
    isplitl [HS0]
    · iexists _; iexact HS0
    isplitl [HS1]
    · iexists _; iexact HS1
    iexists _; iexact HS2

end Cert.KernelIdeal.Hand

end
-- ==== Proof.KI.RunB.lean ====
import proofs.«130420_g2000206920649175_pallasbulk_1279_2_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S16x2304 .bf16) (harg2 : arg2.IsWhole) (arg3 : Memref sig .tc .vmem S1x1x32x2304 .bf16) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x64x2304 .f32) (harg7 : arg7.IsWhole) (arg8 : Memref sig .tc .vmem S1x2x64x2304 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : ¬cond0_1 i) (x0 : Vec F S16x2304 .bf16) (x1 : Vec F S1x1x32x2304 .bf16) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) :
    Σ' (L5 : List (View.Piece (Elt F) S1x1x64x2304 .f32)) (LS0 : List (View.Piece (Elt F) S2x64x2304 .f32)) (LS1 : List (View.Piece (Elt F) S1168x2304 .bf16)), { LS2 : List (View.Piece (Elt F) S576x2304 .bf16) //
      ∀ (xi6 : Vec F S1x2x64x2304 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2)) -∗ K ⟨⟩))
          ⊢ wp frame (wpE (defs₀ (F := F)) Variants.none c none) E (cc0__step_kernel i arg2 harg2 arg3 harg3 arg4 harg4 arg5 harg5 arg6 harg6 arg7 harg7 arg8 harg8 arg9 harg9 arg10 harg10 arg11 harg11) K } := by
  refine ⟨?_, ?_, ?_, ?_, fun xi6 E K => ?run⟩
  case run =>
    simp only [cc0__step_kernel_eq_skeleton]; unfold cc0__step_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hf6
    obtain rfl := harg9.eq_unread hfs0; obtain rfl := harg10.eq_unread hfs1; obtain rfl := harg11.eq_unread hfs2
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; isplitr; · ipureintro; exact harg8.read_unread _
      iexact H6
    isplitl [HS0]
    · iexact HS0
    isplitl [HS1]
    · iexact HS1
    iexact HS2

end Cert.KernelIdeal.Hand

end
-- ==== Proof.KI.RunC.lean ====
import proofs.«130420_g2000206920649175_pallasbulk_1279_2_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S16x2304 .bf16) (harg2 : arg2.IsWhole) (arg3 : Memref sig .tc .vmem S1x1x32x2304 .bf16) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x64x2304 .f32) (harg7 : arg7.IsWhole) (arg8 : Memref sig .tc .vmem S1x2x64x2304 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i) (x0 : Vec F S16x2304 .bf16) (x1 : Vec F S1x1x32x2304 .bf16) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) :
    Σ' (L5 : List (View.Piece (Elt F) S1x1x64x2304 .f32)) (L6 : List (View.Piece (Elt F) S1x2x64x2304 .f32)) (LS0 : List (View.Piece (Elt F) S2x64x2304 .f32)) (LS1 : List (View.Piece (Elt F) S1168x2304 .bf16)), { LS2 : List (View.Piece (Elt F) S576x2304 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2)) -∗ K ⟨⟩))
          ⊢ wp frame (wpE (defs₀ (F := F)) Variants.none c none) E (cc0__step_kernel i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__step_kernel_eq_skeleton]; unfold cc0__step_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg9.eq_unread hfs0; obtain rfl := harg10.eq_unread hfs1; obtain rfl := harg11.eq_unread hfs2
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; iexact H6
    isplitl [HS0]
    · iexact HS0
    isplitl [HS1]
    · iexact HS1
    iexact HS2

end Cert.KernelIdeal.Hand

end
-- ==== Proof.KI.Main.lean ====
import proofs.«130420_g2000206920649175_pallasbulk_1279_2_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
theorem hostOps0_fresh : (hostOps0 : List (HloOp τ sig (Elt F))).Forall fun op => op.fresh = ∅ :=
  by repeat' (first | exact rfl | refine ⟨rfl, ?_⟩)
theorem hostOps0_1_fresh : (hostOps0_1 : List (HloOp τ sig (Elt F))).Forall fun op => op.fresh = ∅ :=
  by repeat' (first | exact rfl | refine ⟨rfl, ?_⟩)
theorem hostOps0_2_fresh : (hostOps0_2 : List (HloOp τ sig (Elt F))).Forall fun op => op.fresh = ∅ :=
  rfl
theorem hostOps0_3_fresh : (hostOps0_3 : List (HloOp τ sig (Elt F))).Forall fun op => op.fresh = ∅ :=
  by repeat' (first | exact rfl | refine ⟨rfl, ?_⟩)
set_option maxHeartbeats 40000000 in
theorem hostOps0_4_fresh : (hostOps0_4 : List (HloOp τ sig (Elt F))).Forall fun op => op.fresh = ∅ :=
  by repeat' (first | exact rfl | refine ⟨rfl, ?_⟩)
theorem hostOps1_fresh : (hostOps1 : List (HloOp τ sig (Elt F))).Forall fun op => op.fresh = ∅ :=
  by repeat' (first | exact rfl | refine ⟨rfl, ?_⟩)
abbrev mainArgs : List (Ref sig .tc) := [main_arg0, main_arg1, main_arg2]

theorem keeps_of {op : HloOp τ sig (Elt F)} {y : Ref sig .tc} (hw : op.writes = {Proc.devRef .tc y}) (hy : y ∉ mainArgs) :
    ∀ r ∈ mainArgs, Proc.devRef (τ := τ) .tc r ∉ op.writes := by
  intro r hr
  rw [hw, Finset.mem_singleton]
  exact StableHlo.devRef_ne_of_ne (fun e => hy (e ▸ hr))

set_option maxHeartbeats 40000000 in
theorem hostOps0_keeps : (hostOps0 : List (HloOp τ sig (Elt F))).Forall fun op => ∀ r ∈ mainArgs, Proc.devRef (τ := τ) .tc r ∉ op.writes :=
  by repeat' (first | exact keeps_of rfl (by decide) | refine ⟨keeps_of rfl (by decide), ?_⟩)
theorem hostOps0_1_keeps : (hostOps0_1 : List (HloOp τ sig (Elt F))).Forall fun op => ∀ r ∈ mainArgs, Proc.devRef (τ := τ) .tc r ∉ op.writes :=
  by repeat' (first | exact keeps_of rfl (by decide) | refine ⟨keeps_of rfl (by decide), ?_⟩)
theorem hostOps0_2_keeps : (hostOps0_2 : List (HloOp τ sig (Elt F))).Forall fun op => ∀ r ∈ mainArgs, Proc.devRef (τ := τ) .tc r ∉ op.writes :=
  keeps_of rfl (by decide)
theorem hostOps0_3_keeps : (hostOps0_3 : List (HloOp τ sig (Elt F))).Forall fun op => ∀ r ∈ mainArgs, Proc.devRef (τ := τ) .tc r ∉ op.writes :=
  by repeat' (first | exact keeps_of rfl (by decide) | refine ⟨keeps_of rfl (by decide), ?_⟩)
set_option maxHeartbeats 40000000 in
theorem hostOps0_4_keeps : (hostOps0_4 : List (HloOp τ sig (Elt F))).Forall fun op => ∀ r ∈ mainArgs, Proc.devRef (τ := τ) .tc r ∉ op.writes :=
  by repeat' (first | exact keeps_of rfl (by decide) | refine ⟨keeps_of rfl (by decide), ?_⟩)
theorem hostOps1_keeps : (hostOps1 : List (HloOp τ sig (Elt F))).Forall fun op => ∀ r ∈ mainArgs, Proc.devRef (τ := τ) .tc r ∉ op.writes :=
  by repeat' (first | exact keeps_of rfl (by decide) | refine ⟨keeps_of rfl (by decide), ?_⟩)
theorem pre_keeps : ∀ op ∈ List.flatten (preOps (F := F)), ∀ r ∈ mainArgs, Proc.devRef (τ := τ) .tc r ∉ op.writes := by
  intro op hop
  obtain ⟨ops, hops, hop⟩ := List.mem_flatten.mp hop
  simp only [preOps, List.mem_cons, List.mem_nil_iff, or_false] at hops
  rcases hops with rfl | rfl | rfl | rfl | rfl
  · exact List.forall_iff_forall_mem.mp hostOps0_keeps op hop
  · exact List.forall_iff_forall_mem.mp hostOps0_1_keeps op hop
  · exact List.forall_iff_forall_mem.mp hostOps0_2_keeps op hop
  · exact List.forall_iff_forall_mem.mp hostOps0_3_keeps op hop
  · exact List.forall_iff_forall_mem.mp hostOps0_4_keeps op hop

theorem V_main_arg (c : Dev nD) (r : Ref sig .tc) (hr : r ∈ mainArgs) : V m c r = m ((c : Thread nD τ).loc r) :=
  StableHlo.after_of_forall_not_mem (b := Proc.devRef .tc r) _ _ (fun op hop => pre_keeps op hop r hr)

theorem V_main_arg0 (c : Dev nD) : V m c main_arg0 = m ((c : Thread nD τ).loc main_arg0) := V_main_arg m c main_arg0 (by decide)
theorem V_main_arg1 (c : Dev nD) : V m c main_arg1 = m ((c : Thread nD τ).loc main_arg1) := V_main_arg m c main_arg1 (by decide)
theorem V_main_arg2 (c : Dev nD) : V m c main_arg2 = m ((c : Thread nD τ).loc main_arg2) := V_main_arg m c main_arg2 (by decide)

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1]
    ⟨hostOps0_sub, hostOps0_1_sub, hostOps0_2_sub, hostOps0_3_sub, hostOps0_4_sub⟩
    ⟨hostOps0_fresh, hostOps0_1_fresh, hostOps0_2_fresh, hostOps0_3_fresh, hostOps0_4_fresh⟩ main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem W_main_arg (dats : (p : Fin 1) → (c : Dev nD) → Dat τ (Elt F) Unit ℕ (UR sig nD τ) ℕ (cfgs p) c) (c : Dev nD) (r : Ref sig .tc) (hr : r ∈ mainArgs) (hne : ∀ w, Pipeline.arrRef spec0 w ≠ r) :
    Pipeline.afterTail₀ cfgs dats 0 (V0 m) [hostOps1] c r = m ((c : Thread nD τ).loc r) := by
  unfold Pipeline.afterTail₀
  rw [StableHlo.after_of_forall_not_mem (b := Proc.devRef .tc r) _ _ (fun op hop => by
      simp only [List.flatten_cons, List.flatten_nil, List.append_nil] at hop
      exact List.forall_iff_forall_mem.mp hostOps1_keeps op hop r hr),
    Pipeline.withArrays_of_ne _ c (V0 m c) _ r hne]
  exact V_main_arg m c r hr

theorem before0_0_of {c : Dev nD} (dat : Dat τ (Elt F) Unit ℕ (UR sig nD τ) ℕ cfg0 c) (hA : dat.A 0 = V m c (Pipeline.arrRef spec0 0)) (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1)) (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2)) (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3)) (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4)) (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c) (hA : ∀ c w, (dats 0 c).A w = V m c (Pipeline.arrRef spec0 w)) (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg m dats c main_arg0 (by decide) (by decide)),
     ((h c).2 main_arg1 (Pipeline.mem_restRefs_of main_arg1 (by decide) (by decide))).trans (W_main_arg m dats c main_arg1 (by decide) (by decide)),
     ((h c).2 main_arg2 (Pipeline.mem_restRefs_of main_arg2 (by decide) (by decide))).trans (W_main_arg m dats c main_arg2 (by decide) (by decide))⟩) h

end Cert.KernelIdeal.Hand

end
-- ==== Proof.KI.Frame.lean ====
import proofs.«130420_g2000206920649175_pallasbulk_1279_2_alg».proof.Proof.KI.RunC
import proofs.«130420_g2000206920649175_pallasbulk_1279_2_alg».proof.Proof.KI.Main

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg2 : Memref sig .tc .vmem S16x2304 .bf16) (harg2 : arg2.IsWhole) (arg3 : Memref sig .tc .vmem S1x1x32x2304 .bf16) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x64x2304 .f32) (harg7 : arg7.IsWhole) (arg8 : Memref sig .tc .vmem S1x2x64x2304 .f32) (harg8 : arg8.IsWhole)
include c i arg2 harg2 arg3 harg3 arg4 harg4 arg5 harg5 arg6 harg6 arg7 harg7 arg8 harg8

section
variable (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole)
include arg9 harg9 arg10 harg10 arg11 harg11

section
variable (hc0 : cond0_0 i) (hc1 : ¬cond0_1 i) (x0 : Vec F S16x2304 .bf16) (x1 : Vec F S1x1x32x2304 .bf16) (x2 : Vec F S192x880 .bf16) (x3 : Vec F S192x1168 .bf16) (x4 : Vec F S2x64x576 .bf16)
include hc0 hc1 x0 x1 x2 x3 x4

theorem cover0_A_5 (y : S1x1x64x2304.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).1, y ∈ pc.1.set :=
  View.cover_of_wholeMem (kernelRun0_A c i arg2 harg2 arg3 harg3 arg4 harg4 arg5 harg5 arg6 harg6 arg7 harg7 arg8 harg8 arg9 harg9 arg10 harg10 arg11 harg11 hc0 hc1 x0 x1 x2 x3 x4).1 (by sl_whole_mem) y

def out0_A_5  : Vec F S1x1x64x2304 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 hc1 x0 x1 x2 x3 x4).1)

theorem scover0_A_0 (y : S2x64x2304.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.1, y ∈ pc.1.set :=
  View.cover_of_wholeMem (kernelRun0_A c i arg2 harg2 arg3 harg3 arg4 harg4 arg5 harg5 arg6 harg6 arg7 harg7 arg8 harg8 arg9 harg9 arg10 harg10 arg11 harg11 hc0 hc1 x0 x1 x2 x3 x4).2.1 (by sl_whole_mem) y

def sout0_A_0  : Vec F S2x64x2304 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4).2.1)

theorem scover0_A_1 (y : S1168x2304.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.2.1, y ∈ pc.1.set :=
  View.cover_of_wholeMem (kernelRun0_A c i arg2 harg2 arg3 harg3 arg4 harg4 arg5 harg5 arg6 harg6 arg7 harg7 arg8 harg8 arg9 harg9 arg10 harg10 arg11 harg11 hc0 hc1 x0 x1 x2 x3 x4).2.2.1 (by sl_whole_mem) y

def sout0_A_1  : Vec F S1168x2304 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3 x4).2.2.1)

theorem scover0_A_2 (y : S576x2304.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 hc0 hc1 x0 x1 x2 x3 x4).2.2.2.1 (by sl_whole_mem) y

def sout0_A_2  : Vec F S576x2304 .bf16 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 hc0 hc1 x0 x1 x2 x3 x4).2.2.2.1)

end

section
variable (hc0 : ¬cond0_0 i) (hc1 : ¬cond0_1 i) (x0 : Vec F S16x2304 .bf16) (x1 : Vec F S1x1x32x2304 .bf16) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16)
include hc0 hc1 x0 x1 x2 x3 x4 xs0 xs1 xs2

theorem cover0_B_5 (y : S1x1x64x2304.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).1, y ∈ pc.1.set :=
  View.cover_of_wholeMem (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).1 (by sl_whole_mem) y

def out0_B_5  : Vec F S1x1x64x2304 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).1)

end

end

section
variable (hc0 : ¬cond0_0 i) (hc1 : ¬cond0_1 i) (x0 : Vec F S16x2304 .bf16) (x1 : Vec F S1x1x32x2304 .bf16) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16)
include hc0 hc1 x0 x1 x2 x3 x4 xs0 xs1 xs2

def sout0_B_0  : Vec F S2x64x2304 .f32 :=
  scM0_0.view.read (Elt F) (scM0_0.view.writes (Elt F) ((Memref.isWhole_whole _).unread xs0) (kernelRun0_B c i arg2 harg2 arg3 harg3 arg4 harg4 arg5 harg5 arg6 harg6 arg7 harg7 arg8 harg8 scM0_0 (Memref.isWhole_whole _) scM0_1 (Memref.isWhole_whole _) scM0_2 (Memref.isWhole_whole _) hc0 hc1 x0 x1 x2 x3 x4 xs0 xs1 xs2).2.1)

def sout0_B_1  : Vec F S1168x2304 .bf16 :=
  scM0_1.view.read (Elt F) (scM0_1.view.writes (Elt F) ((Memref.isWhole_whole _).unread xs1) (kernelRun0_B c i arg2 harg2 arg3 harg3 arg4 harg4 arg5 harg5 arg6 harg6 arg7 harg7 arg8 harg8 scM0_0 (Memref.isWhole_whole _) scM0_1 (Memref.isWhole_whole _) scM0_2 (Memref.isWhole_whole _) hc0 hc1 x0 x1 x2 x3 x4 xs0 xs1 xs2).2.2.1)

def sout0_B_2  : Vec F S576x2304 .bf16 :=
  scM0_2.view.read (Elt F) (scM0_2.view.writes (Elt F) ((Memref.isWhole_whole _).unread xs2) (kernelRun0_B c i arg2 harg2 arg3 harg3 arg4 harg4 arg5 harg5 arg6 harg6 arg7 harg7 arg8 harg8 scM0_0 (Memref.isWhole_whole _) scM0_1 (Memref.isWhole_whole _) scM0_2 (Memref.isWhole_whole _) hc0 hc1 x0 x1 x2 x3 x4 xs0 xs1 xs2).2.2.2.1)

end

section
variable (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i) (x0 : Vec F S16x2304 .bf16) (x1 : Vec F S1x1x32x2304 .bf16) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16)
include arg9 harg9 arg10 harg10 arg11 harg11 hc0 hc1 x0 x1 x2 x3 x4 xs0 xs1 xs2

theorem cover0_C_5 (y : S1x1x64x2304.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).1, y ∈ pc.1.set :=
  View.cover_of_wholeMem (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).1 (by sl_whole_mem) y

def out0_C_5  : Vec F S1x1x64x2304 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).1)

theorem cover0_C_6 (y : S1x2x64x2304.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.1 S1x1x64x2304.size (by sl_kernel_rfl) y

def out0_C_6  : Vec F S1x2x64x2304 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.1)

end

section
variable (hc0 : ¬cond0_0 i) (hc1 : cond0_1 i) (x0 : Vec F S16x2304 .bf16) (x1 : Vec F S1x1x32x2304 .bf16) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16)
include hc0 hc1 x0 x1 x2 x3 x4 xs0 xs1 xs2

def sout0_C_0  : Vec F S2x64x2304 .f32 :=
  scM0_0.view.read (Elt F) (scM0_0.view.writes (Elt F) ((Memref.isWhole_whole _).unread xs0) (kernelRun0_C c i arg2 harg2 arg3 harg3 arg4 harg4 arg5 harg5 arg6 harg6 arg7 harg7 arg8 harg8 scM0_0 (Memref.isWhole_whole _) scM0_1 (Memref.isWhole_whole _) scM0_2 (Memref.isWhole_whole _) hc0 hc1 x0 x1 x2 x3 x4 xs0 xs1 xs2).2.2.1)

def sout0_C_1  : Vec F S1168x2304 .bf16 :=
  scM0_1.view.read (Elt F) (scM0_1.view.writes (Elt F) ((Memref.isWhole_whole _).unread xs1) (kernelRun0_C c i arg2 harg2 arg3 harg3 arg4 harg4 arg5 harg5 arg6 harg6 arg7 harg7 arg8 harg8 scM0_0 (Memref.isWhole_whole _) scM0_1 (Memref.isWhole_whole _) scM0_2 (Memref.isWhole_whole _) hc0 hc1 x0 x1 x2 x3 x4 xs0 xs1 xs2).2.2.2.1)

def sout0_C_2  : Vec F S576x2304 .bf16 :=
  scM0_2.view.read (Elt F) (scM0_2.view.writes (Elt F) ((Memref.isWhole_whole _).unread xs2) (kernelRun0_C c i arg2 harg2 arg3 harg3 arg4 harg4 arg5 harg5 arg6 harg6 arg7 harg7 arg8 harg8 scM0_0 (Memref.isWhole_whole _) scM0_1 (Memref.isWhole_whole _) scM0_2 (Memref.isWhole_whole _) hc0 hc1 x0 x1 x2 x3 x4 xs0 xs1 xs2).2.2.2.2.1)

end

end

def idle0_6 : Vec F S1x2x64x2304 .f32 := VO0_6.read (Elt F) VO0_6.junk

def outsAt0 (c : Dev nD) : (n : ℕ) → n < cfg0.N → Vec F S1x1x64x2304 .f32 × Vec F S1x2x64x2304 .f32 × Vec F S2x64x2304 .f32 × Vec F S1168x2304 .bf16 × Vec F S576x2304 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), idle0_6, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 32 = 0 then
      if h1 : (n + 1) % 32 = 31 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), idle0_6, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 32 = 31 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2, idle0_6, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2)

theorem outsAt0_A (c : Dev nD) (t : Fin cfg0.N) (h0 : t.val % 32 = 0) (h1 : ¬t.val % 32 = 31) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), idle0_6, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, idle0_6, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare (outsAt0 m c n hn).2.2.1 ∗ owns (c : Thread nD τ) scM0_1 fullShare (outsAt0 m c n hn).2.2.2.1 ∗ owns (c : Thread nD τ) scM0_2 fullShare (outsAt0 m c n hn).2.2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (outsAt0 m c n hn).2.2.1 ∗ owns (c : Thread nD τ) scM0_1 fullShare (outsAt0 m c n hn).2.2.2.1 ∗ owns (c : Thread nD τ) scM0_2 fullShare (outsAt0 m c n hn).2.2.2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (outsAt0 m c (n - 1) (by omega)).2.2.1 ∗ owns (c : Thread nD τ) scM0_1 fullShare (outsAt0 m c (n - 1) (by omega)).2.2.2.1 ∗ owns (c : Thread nD τ) scM0_2 fullShare (outsAt0 m c (n - 1) (by omega)).2.2.2.2) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

end Cert.KernelIdeal.Hand

end
-- ==== Proof.KI.Body.lean ====
import proofs.«130420_g2000206920649175_pallasbulk_1279_2_alg».proof.Proof.KI.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
        unfold Dat.leavesExact; rw [liveAt0_0 t], after0_0]
  rw [show (dats m 0 c).leavesExact 1 t = owns (c : Thread nD τ) (ms0_1 t) fullShare ((dats m 0 c).after 1 t) from by
        unfold Dat.leavesExact; rw [liveAt0_1 t], after0_1]
  rw [show (dats m 0 c).leavesExact 2 t = owns (c : Thread nD τ) (ms0_2 t) fullShare ((dats m 0 c).after 2 t) from by
        unfold Dat.leavesExact; rw [liveAt0_2 t], after0_2]
  rw [show (dats m 0 c).leavesExact 3 t = owns (c : Thread nD τ) (ms0_3 t) fullShare ((dats m 0 c).after 3 t) from by
        unfold Dat.leavesExact; rw [liveAt0_3 t], after0_3]
  rw [show (dats m 0 c).leavesExact 4 t = owns (c : Thread nD τ) (ms0_4 t) fullShare ((dats m 0 c).after 4 t) from by
        unfold Dat.leavesExact; rw [liveAt0_4 t], after0_4]
  rw [show (dats m 0 c).leavesExact 5 t = owns (c : Thread nD τ) (ms0_5 t) fullShare ((dats m 0 c).after 5 t) from by
        unfold Dat.leavesExact; rw [liveAt0_5 t], after0_5]
  by_cases h0 : t.val % 32 = 0
  · by_cases h1 : t.val % 32 = 31
    · exfalso; omega
    · rw [Dat.leavesExact_idle (dats m 0 c) 6 t (idleAt0_6 t (fun h => h1 ((hcond0_1 t).mp h))) (noFlush0_6 t (fun h => h1 ((hcond0_1 t).mp h)))]
      rw [outsAt0_A m c t h0 h1]
      unfold out0_A_5 sout0_A_0 sout0_A_1 sout0_A_2; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS0]; · iexact HS0
        isplitl [HS1]; · iexact HS1
        isplitl [HS2]; · iexact HS2
        iintro ⟨H0, H1, H2, H3, H4, ⟨%e5, H5⟩, H6, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_A_5 _ _ _ _ _ _ _ _ _ _ _ _ _ _ _ _ _ _ _ _ _ _ _ _ _ _ _ _ _)
        iexists _; iexact H6
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS0]; · iexists _; iexact HS0
        isplitl [HS1]; · iexists _; iexact HS1
        isplitl [HS2]; · iexists _; iexact HS2
        iintro ⟨H0, H1, H2, H3, H4, ⟨%e5, H5⟩, H6, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_A_5 _ _ _ _ _ _ _ _ _ _ _ _ _ _ _ _ _ _ _ _ _ _ _ _ _ _ _ _ _)
        iexists _; iexact H6
  · have hz : t.val ≠ 0 := fun hz => h0 (by rw [hz])
    by_cases h1 : t.val % 32 = 31
    · rw [show (dats m 0 c).leavesExact 6 t = owns (c : Thread nD τ) (ms0_6 t) fullShare ((dats m 0 c).after 6 t) from by
        unfold Dat.leavesExact; rw [liveAt0_6 t ((hcond0_1 t).mpr h1)], after0_6]
      rw [outsAt0_C m c t h0 h1]
      unfold out0_C_5 out0_C_6 sout0_C_0 sout0_C_1 sout0_C_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, ⟨%e5, H5⟩, ⟨%e6, H6⟩, HS0, HS1, HS2⟩
      isplitl [HS0 HS1 HS2 Hg]
      · isplitl [HS0 HS1 HS2]
        · isplitl [HS0]
          · unfold owns; iexists _; isplitr
            swap; · iexact HS0
            ipureintro; rfl
          isplitl [HS1]
          · unfold owns; iexists _; isplitr
            swap; · iexact HS1
            ipureintro; rfl
          unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 _ _ _ _ _ _ _ _ _ _ _ _ _ _ _ _ _ _ _ _ _ _ _ _ _ _ _ _ _ _ _ _)
      unfold owns; iexists _; isplitr
      swap; · iexact H6
      ipureintro; exact View.read_writes_of_cover _ _ _ _ _ (cover0_C_6 _ _ _ _ _ _ _ _ _ _ _ _ _ _ _ _ _ _ _ _ _ _ _ _ _ _ _ _ _ _ _ _)
    · rw [Dat.leavesExact_idle (dats m 0 c) 6 t (idleAt0_6 t (fun h => h1 ((hcond0_1 t).mp h))) (noFlush0_6 t (fun h => h1 ((hcond0_1 t).mp h)))]
      rw [outsAt0_B m c t h0 h1]
      unfold out0_B_5 sout0_B_0 sout0_B_1 sout0_B_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _ _).2.2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      isplitl [HS2]; · iexact HS2
      iintro ⟨H0, H1, H2, H3, H4, ⟨%e5, H5⟩, H6, HS0, HS1, HS2⟩
      isplitl [HS0 HS1 HS2 Hg]
      · isplitl [HS0 HS1 HS2]
        · isplitl [HS0]
          · unfold owns; iexists _; isplitr
            swap; · iexact HS0
            ipureintro; rfl
          isplitl [HS1]
          · unfold owns; iexists _; isplitr
            swap; · iexact HS1
            ipureintro; rfl
          unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 _ _ _ _ _ _ _ _ _ _ _ _ _ _ _ _ _ _ _ _ _ _ _ _ _ _ _ _ _ _ _ _)
      iexists _; iexact H6

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 64 := N64; omega)

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.RI.Base.lean ====
import proofs.«130420_g2000206920649175_pallasbulk_1279_2_alg».proof.Proof.Gen.ReferenceIdeal.Launch
import proofs.«130420_g2000206920649175_pallasbulk_1279_2_alg».proof.Proof.Gen.ReferenceIdeal.Skeleton
import proofs.«130420_g2000206920649175_pallasbulk_1279_2_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev preOps : List (List (HloOp τ sig (Elt F))) := [hostOps0, hostOps0_1, hostOps0_2, hostOps0_3, hostOps0_4, hostOps0_5, hostOps0_6]

abbrev V0 (c : Dev nD) : Valuation τ sig (Elt F) := StableHlo.after (List.flatten (preOps (F := F))) (fun b => m (c, b))

abbrev V (c : Dev nD) (b : Ref sig .tc) : Buf (Elt F) ((c : Thread nD τ).loc b) := V0 m c (Proc.devRef .tc b)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

theorem N64 : cfg0.N = 64 := N_0

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

abbrev VO0_4 : View sig .tc .vmem S1x1x64x2304 .f32 := (Memref.whole cc0_stg4_0 : Memref sig .tc .vmem S1x1x64x2304 .f32).view
abbrev VO0_5 : View sig .tc .vmem S1x2x64x2304 .f32 := (Memref.whole cc0_stg5_0 : Memref sig .tc .vmem S1x2x64x2304 .f32).view
abbrev ms0_0 (t : Fin cfg0.N) : Memref sig .tc .vmem S9x2304 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x64x2304 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x192x1160 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x64x576 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x64x2304 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x64x2304 .f32 := win0_5.stage (cfg0.slots t 5)
abbrev hs0_5 (t : Fin cfg0.N) : (ms0_5 t).IsWhole := hstage0_5 ((cfg0.slots t 5).cast nbuf0_5)
abbrev scM0_0 : Memref sig .tc .vmem S2x64x2304 .f32 := Memref.whole cc0_scratch0
abbrev VS0_0 : View sig .tc .vmem S2x64x2304 .f32 := scM0_0.view
abbrev scM0_1 : Memref sig .tc .vmem S1160x2304 .f32 := Memref.whole cc0_scratch1
abbrev VS0_1 : View sig .tc .vmem S1160x2304 .f32 := scM0_1.view
abbrev scM0_2 : Memref sig .tc .vmem S576x2304 .f32 := Memref.whole cc0_scratch2
abbrev VS0_2 : View sig .tc .vmem S576x2304 .f32 := scM0_2.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.ReferenceIdeal.Hand

end
-- ==== Proof.RI.RunA.lean ====
import proofs.«130420_g2000206920649175_pallasbulk_1279_2_alg».proof.Proof.RI.Base

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i) (x0 : Vec F S9x2304 .f32) (x1 : Vec F S1x1x64x2304 .f32) (x2 : Vec F S2x192x1160 .f32) (x3 : Vec F S2x64x576 .f32) :
    Σ' (L4 : List (View.Piece (Elt F) S1x1x64x2304 .f32)) (LS0 : List (View.Piece (Elt F) S2x64x2304 .f32)) (LS1 : List (View.Piece (Elt F) S1160x2304 .f32)), { LS2 : List (View.Piece (Elt F) S576x2304 .f32) //
      ∀ (xi5 : Vec F S1x2x64x2304 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__convgru_step_kernel i arg2 harg2 arg3 harg3 arg4 harg4 arg5 harg5 arg6 harg6 arg7 harg7 arg8 harg8 arg9 harg9 arg10 harg10) K } := by
  refine ⟨?_, ?_, ?_, ?_, fun xi5 E K => ?run⟩
  case run =>
    simp only [cc0__convgru_step_kernel_eq_skeleton]; unfold cc0__convgru_step_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    obtain rfl := harg7.eq_unread hf5
    sl_exec (disch := first | sl_exact hc0 | sl_exact hc1 | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [HS0]; · iexists _; iexact HS0
    isplitl [HS1]; · iexists _; iexact HS1
    iexists _; iexact HS2

end Cert.ReferenceIdeal.Hand

end
-- ==== Proof.RI.RunB.lean ====
import proofs.«130420_g2000206920649175_pallasbulk_1279_2_alg».proof.Proof.RI.RunA

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : ¬cond0_1 i) (x0 : Vec F S9x2304 .f32) (x1 : Vec F S1x1x64x2304 .f32) (x2 : Vec F S2x192x1160 .f32) (x3 : Vec F S2x64x576 .f32) (xs0 : Vec F S2x64x2304 .f32) (xs1 : Vec F S1160x2304 .f32) (xs2 : Vec F S576x2304 .f32) :
    Σ' (L4 : List (View.Piece (Elt F) S1x1x64x2304 .f32)) (LS0 : List (View.Piece (Elt F) S2x64x2304 .f32)) (LS1 : List (View.Piece (Elt F) S1160x2304 .f32)), { LS2 : List (View.Piece (Elt F) S576x2304 .f32) //
      ∀ (xi5 : Vec F S1x2x64x2304 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (arg8.view.loc (c : Thread nD τ) ↦[arg8.view.set]{fullShare} arg8.view.writes (Elt F) (harg8.unread xs0) LS0) ∗ (arg9.view.loc (c : Thread nD τ) ↦[arg9.view.set]{fullShare} arg9.view.writes (Elt F) (harg9.unread xs1) LS1) ∗ (arg10.view.loc (c : Thread nD τ) ↦[arg10.view.set]{fullShare} arg10.view.writes (Elt F) (harg10.unread xs2) LS2)) -∗ K ⟨⟩))
          ⊢ wp frame (wpE (defs₀ (F := F)) Variants.none c none) E (cc0__convgru_step_kernel i arg2 harg2 arg3 harg3 arg4 harg4 arg5 harg5 arg6 harg6 arg7 harg7 arg8 harg8 arg9 harg9 arg10 harg10) K } := by
  refine ⟨?_, ?_, ?_, ?_, fun xi5 E K => ?run⟩
  case run =>
    simp only [cc0__convgru_step_kernel_eq_skeleton]; unfold cc0__convgru_step_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hf5
    obtain rfl := harg8.eq_unread hfs0; obtain rfl := harg9.eq_unread hfs1; obtain rfl := harg10.eq_unread hfs2
    sl_exec (disch := first | sl_exact hc0 | sl_exact hc1 | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [HS0]; · iexact HS0
    isplitl [HS1]; · iexact HS1
    iexact HS2

end Cert.ReferenceIdeal.Hand

end
-- ==== Proof.RI.RunC.lean ====
import proofs.«130420_g2000206920649175_pallasbulk_1279_2_alg».proof.Proof.RI.RunB

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i) (x0 : Vec F S9x2304 .f32) (x1 : Vec F S1x1x64x2304 .f32) (x2 : Vec F S2x192x1160 .f32) (x3 : Vec F S2x64x576 .f32) (xs0 : Vec F S2x64x2304 .f32) (xs1 : Vec F S1160x2304 .f32) (xs2 : Vec F S576x2304 .f32) :
    Σ' (L4 : List (View.Piece (Elt F) S1x1x64x2304 .f32)) (L5 : List (View.Piece (Elt F) S1x2x64x2304 .f32)) (LS0 : List (View.Piece (Elt F) S2x64x2304 .f32)) (LS1 : List (View.Piece (Elt F) S1160x2304 .f32)), { LS2 : List (View.Piece (Elt F) S576x2304 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (arg8.view.loc (c : Thread nD τ) ↦[arg8.view.set]{fullShare} arg8.view.writes (Elt F) (harg8.unread xs0) LS0) ∗ (arg9.view.loc (c : Thread nD τ) ↦[arg9.view.set]{fullShare} arg9.view.writes (Elt F) (harg9.unread xs1) LS1) ∗ (arg10.view.loc (c : Thread nD τ) ↦[arg10.view.set]{fullShare} arg10.view.writes (Elt F) (harg10.unread xs2) LS2)) -∗ K ⟨⟩))
          ⊢ wp frame (wpE (defs₀ (F := F)) Variants.none c none) E (cc0__convgru_step_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__convgru_step_kernel_eq_skeleton]; unfold cc0__convgru_step_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1; obtain rfl := harg10.eq_unread hfs2
    sl_exec (disch := first | sl_exact hc0 | sl_exact hc1 | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexact HS0
    isplitl [HS1]; · iexact HS1
    iexact HS2

end Cert.ReferenceIdeal.Hand

end
-- ==== Proof.RI.Main.lean ====
import proofs.«130420_g2000206920649175_pallasbulk_1279_2_alg».proof.Proof.RI.Base

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem forall_cons_of {α : Type _} {p : α → Prop} {a : α} {l : List α} (h : p a) (hl : l.Forall p) : (a :: l).Forall p :=
  (List.forall_cons p a l).mpr ⟨h, hl⟩

theorem forall_flatten_of {α : Type _} {p : α → Prop} {L : List (List α)} (h : L.Forall fun l => l.Forall p) :
    ∀ a ∈ L.flatten, p a := fun a ha => by
  obtain ⟨l, hl, hal⟩ := List.mem_flatten.mp ha
  exact List.forall_iff_forall_mem.mp (List.forall_iff_forall_mem.mp h l hl) a hal

abbrev args : List (Ref sig .tc) := [main_arg0, main_arg1, main_arg2]

abbrev KeepsArgs (op : HloOp τ sig (Elt F)) : Prop := ∀ r ∈ args, Proc.devRef (τ := τ) .tc r ∉ op.writes

theorem keeps_cons {op : HloOp τ sig (Elt F)} {l : List (HloOp τ sig (Elt F))} (y : Ref sig .tc) (hw : op.writes = {Proc.devRef (τ := τ) .tc y}) (h : ∀ r ∈ args, r ≠ y) (hl : l.Forall KeepsArgs) : (op :: l).Forall KeepsArgs :=
  forall_cons_of (fun r hr hm => h r hr (Proc.devRef_injective _ (Finset.mem_singleton.mp (hw ▸ hm)))) hl

theorem hostOps0_fresh : (hostOps0 : List (HloOp τ sig (Elt F))).Forall fun op => op.fresh = ∅ := by
  repeat (first | refine forall_cons_of rfl ?_ | exact trivial)
theorem hostOps0_1_fresh : (hostOps0_1 : List (HloOp τ sig (Elt F))).Forall fun op => op.fresh = ∅ := by
  repeat (first | refine forall_cons_of rfl ?_ | exact trivial)
theorem hostOps0_2_fresh : (hostOps0_2 : List (HloOp τ sig (Elt F))).Forall fun op => op.fresh = ∅ := by
  repeat (first | refine forall_cons_of rfl ?_ | exact trivial)
theorem hostOps0_3_fresh : (hostOps0_3 : List (HloOp τ sig (Elt F))).Forall fun op => op.fresh = ∅ := by
  repeat (first | refine forall_cons_of rfl ?_ | exact trivial)
set_option maxHeartbeats 40000000 in
theorem hostOps0_4_fresh : (hostOps0_4 : List (HloOp τ sig (Elt F))).Forall fun op => op.fresh = ∅ := by
  repeat (first | refine forall_cons_of rfl ?_ | exact trivial)
theorem hostOps0_5_fresh : (hostOps0_5 : List (HloOp τ sig (Elt F))).Forall fun op => op.fresh = ∅ := by
  repeat (first | refine forall_cons_of rfl ?_ | exact trivial)
theorem hostOps0_6_fresh : (hostOps0_6 : List (HloOp τ sig (Elt F))).Forall fun op => op.fresh = ∅ := by
  repeat (first | refine forall_cons_of rfl ?_ | exact trivial)
theorem hostOps1_fresh : (hostOps1 : List (HloOp τ sig (Elt F))).Forall fun op => op.fresh = ∅ := by
  repeat (first | refine forall_cons_of rfl ?_ | exact trivial)

theorem hostOps0_keeps : (hostOps0 : List (HloOp τ sig (Elt F))).Forall KeepsArgs := by
  repeat (first | refine keeps_cons _ rfl (by decide) ?_ | exact trivial)
theorem hostOps0_1_keeps : (hostOps0_1 : List (HloOp τ sig (Elt F))).Forall KeepsArgs := by
  repeat (first | refine keeps_cons _ rfl (by decide) ?_ | exact trivial)
theorem hostOps0_2_keeps : (hostOps0_2 : List (HloOp τ sig (Elt F))).Forall KeepsArgs := by
  repeat (first | refine keeps_cons _ rfl (by decide) ?_ | exact trivial)
theorem hostOps0_3_keeps : (hostOps0_3 : List (HloOp τ sig (Elt F))).Forall KeepsArgs := by
  repeat (first | refine keeps_cons _ rfl (by decide) ?_ | exact trivial)
set_option maxHeartbeats 40000000 in
theorem hostOps0_4_keeps : (hostOps0_4 : List (HloOp τ sig (Elt F))).Forall KeepsArgs := by
  repeat (first | refine keeps_cons _ rfl (by decide) ?_ | exact trivial)
theorem hostOps0_5_keeps : (hostOps0_5 : List (HloOp τ sig (Elt F))).Forall KeepsArgs := by
  repeat (first | refine keeps_cons _ rfl (by decide) ?_ | exact trivial)
theorem hostOps0_6_keeps : (hostOps0_6 : List (HloOp τ sig (Elt F))).Forall KeepsArgs := by
  repeat (first | refine keeps_cons _ rfl (by decide) ?_ | exact trivial)
theorem hostOps1_keeps : (hostOps1 : List (HloOp τ sig (Elt F))).Forall KeepsArgs := by
  repeat (first | refine keeps_cons _ rfl (by decide) ?_ | exact trivial)

theorem preOps_sub : (preOps : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

theorem preOps_fresh : (preOps : List (List (HloOp τ sig (Elt F)))).Forall fun ops => ops.Forall fun op => op.fresh = ∅ :=
  ⟨hostOps0_fresh, hostOps0_1_fresh, hostOps0_2_fresh, hostOps0_3_fresh, hostOps0_4_fresh, hostOps0_5_fresh, hostOps0_6_fresh⟩

theorem preOps_keeps : (preOps : List (List (HloOp τ sig (Elt F)))).Forall fun ops => ops.Forall KeepsArgs :=
  ⟨hostOps0_keeps, hostOps0_1_keeps, hostOps0_2_keeps, hostOps0_3_keeps, hostOps0_4_keeps, hostOps0_5_keeps, hostOps0_6_keeps⟩

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1] preOps_sub preOps_fresh main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl
  all_goals intro w; fin_cases w <;> simp only [StableHlo.unary_writes, StableHlo.reshape_writes, Finset.mem_singleton] <;> exact StableHlo.devRef_ne_of_ne (by decide)

theorem V_arg (c : Dev nD) (r : Ref sig .tc) (hr : r ∈ args) : V m c r = m ((c : Thread nD τ).loc r) :=
  StableHlo.after_of_forall_not_mem (b := Proc.devRef .tc r) _ _ (fun op hop => forall_flatten_of (preOps_keeps (F := F)) op hop r hr)

theorem V_main_arg0 (c : Dev nD) : V m c main_arg0 = m ((c : Thread nD τ).loc main_arg0) := V_arg m c main_arg0 (by decide)
theorem V_main_arg1 (c : Dev nD) : V m c main_arg1 = m ((c : Thread nD τ).loc main_arg1) := V_arg m c main_arg1 (by decide)
theorem V_main_arg2 (c : Dev nD) : V m c main_arg2 = m ((c : Thread nD τ).loc main_arg2) := V_arg m c main_arg2 (by decide)

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _
      (fun op hop => forall_flatten_of (L := [hostOps1]) (p := KeepsArgs) hostOps1_keeps op hop main_arg0 (by decide)),
    Pipeline.withArrays_of_ne _ c (V0 m c) _ main_arg0 (by exact (by decide : ∀ w, Pipeline.arrRef spec0 w ≠ main_arg0))]
  exact V_main_arg0 m c

theorem before0_0_of {c : Dev nD} (dat : Dat τ (Elt F) Unit ℕ (UR sig nD τ) ℕ cfg0 c) (hA : dat.A 0 = V m c (Pipeline.arrRef spec0 0)) (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1)) (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2)) (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3)) (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c) (hA : ∀ c w, (dats 0 c).A w = V m c (Pipeline.arrRef spec0 w)) (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).1 2).trans (((dats 0 c).arrAt_in 2 rfl _).trans ((hA c 2).trans (V_main_arg1 m c))),
     ((h c).1 3).trans (((dats 0 c).arrAt_in 3 rfl _).trans ((hA c 3).trans (V_main_arg2 m c)))⟩) h

end Cert.ReferenceIdeal.Hand

end
-- ==== Proof.RI.Frame.lean ====
import proofs.«130420_g2000206920649175_pallasbulk_1279_2_alg».proof.Proof.RI.RunC
import proofs.«130420_g2000206920649175_pallasbulk_1279_2_alg».proof.Proof.RI.Main

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole)
include c i arg2 harg2 arg3 harg3 arg4 harg4 arg5 harg5 arg6 harg6 arg7 harg7 arg8 harg8 arg9 harg9 arg10 harg10

section
variable (hc0 : cond0_0 i) (hc1 : ¬cond0_1 i) (x0 : Vec F S9x2304 .f32) (x1 : Vec F S1x1x64x2304 .f32) (x2 : Vec F S2x192x1160 .f32) (x3 : Vec F S2x64x576 .f32)
include hc0 hc1 x0 x1 x2 x3

def out0_A_4  : Vec F S1x1x64x2304 .f32 :=
  VO0_4.read (Elt F) (VO0_4.writes (Elt F) VO0_4.junk (kernelRun0_A c i arg2 harg2 arg3 harg3 arg4 harg4 arg5 harg5 arg6 harg6 arg7 harg7 arg8 harg8 arg9 harg9 arg10 harg10 hc0 hc1 x0 x1 x2 x3).1)

theorem cover0_A_4 (y : S1x1x64x2304.Idx) :
    ∃ pc ∈ (kernelRun0_A c i arg2 harg2 arg3 harg3 arg4 harg4 arg5 harg5 arg6 harg6 arg7 harg7 arg8 harg8 arg9 harg9 arg10 harg10 hc0 hc1 x0 x1 x2 x3).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).1 S1x1x64x2304.size (by sl_kernel_rfl) y

end

section
variable (hc0 : ¬cond0_0 i) (hc1 : ¬cond0_1 i) (x0 : Vec F S9x2304 .f32) (x1 : Vec F S1x1x64x2304 .f32) (x2 : Vec F S2x192x1160 .f32) (x3 : Vec F S2x64x576 .f32) (xs0 : Vec F S2x64x2304 .f32) (xs1 : Vec F S1160x2304 .f32) (xs2 : Vec F S576x2304 .f32)
include hc0 hc1 x0 x1 x2 x3 xs0 xs1 xs2

def out0_B_4  : Vec F S1x1x64x2304 .f32 :=
  VO0_4.read (Elt F) (VO0_4.writes (Elt F) VO0_4.junk (kernelRun0_B c i arg2 harg2 arg3 harg3 arg4 harg4 arg5 harg5 arg6 harg6 arg7 harg7 arg8 harg8 arg9 harg9 arg10 harg10 hc0 hc1 x0 x1 x2 x3 xs0 xs1 xs2).1)

theorem cover0_B_4 (y : S1x1x64x2304.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2).1 S1x1x64x2304.size (by sl_kernel_rfl) y

end

section
variable (hc0 : ¬cond0_0 i) (hc1 : cond0_1 i) (x0 : Vec F S9x2304 .f32) (x1 : Vec F S1x1x64x2304 .f32) (x2 : Vec F S2x192x1160 .f32) (x3 : Vec F S2x64x576 .f32) (xs0 : Vec F S2x64x2304 .f32) (xs1 : Vec F S1160x2304 .f32) (xs2 : Vec F S576x2304 .f32)
include hc0 hc1 x0 x1 x2 x3 xs0 xs1 xs2

def out0_C_4  : Vec F S1x1x64x2304 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 hc0 hc1 x0 x1 x2 x3 xs0 xs1 xs2).1)

theorem cover0_C_4 (y : S1x1x64x2304.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2).1 S1x1x64x2304.size (by sl_kernel_rfl) y

def out0_C_5  : Vec F S1x2x64x2304 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 x3 xs0 xs1 xs2).2.1)

theorem cover0_C_5 (y : S1x2x64x2304.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2).2.1 S1x1x64x2304.size (by sl_kernel_rfl) y

end

end

def out0_idle_5 : Vec F S1x2x64x2304 .f32 := VO0_5.read (Elt F) VO0_5.junk

section
variable (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole)
include c i arg2 harg2 arg3 harg3 arg4 harg4 arg5 harg5 arg6 harg6 arg7 harg7

section
variable (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i) (x0 : Vec F S9x2304 .f32) (x1 : Vec F S1x1x64x2304 .f32) (x2 : Vec F S2x192x1160 .f32) (x3 : Vec F S2x64x576 .f32)
include arg8 harg8 arg9 harg9 arg10 harg10 hc0 hc1 x0 x1 x2 x3

def sout0_A_0  : Vec F S2x64x2304 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3).2.1)

theorem scover0_A_0 (y : S2x64x2304.Idx) :
    ∃ pc ∈ (kernelRun0_A c i arg2 harg2 arg3 harg3 arg4 harg4 arg5 harg5 arg6 harg6 arg7 harg7 arg8 harg8 arg9 harg9 arg10 harg10 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.1 S2x64x2304.size (by sl_kernel_rfl) y

def sout0_A_1  : Vec F S1160x2304 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3).2.2.1)

theorem scover0_A_1 (y : S1160x2304.Idx) :
    ∃ pc ∈ (kernelRun0_A c i arg2 harg2 arg3 harg3 arg4 harg4 arg5 harg5 arg6 harg6 arg7 harg7 arg8 harg8 arg9 harg9 arg10 harg10 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.2.1 S1160x2304.size (by sl_kernel_rfl) y

def sout0_A_2  : Vec F S576x2304 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 hc0 hc1 x0 x1 x2 x3).2.2.2.1)

theorem scover0_A_2 (y : S576x2304.Idx) :
    ∃ pc ∈ (kernelRun0_A c i arg2 harg2 arg3 harg3 arg4 harg4 arg5 harg5 arg6 harg6 arg7 harg7 arg8 harg8 arg9 harg9 arg10 harg10 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.2.2.1 S576x2304.size (by sl_kernel_rfl) y

end

section
variable (hc0 : ¬cond0_0 i) (hc1 : ¬cond0_1 i) (x0 : Vec F S9x2304 .f32) (x1 : Vec F S1x1x64x2304 .f32) (x2 : Vec F S2x192x1160 .f32) (x3 : Vec F S2x64x576 .f32) (xs0 : Vec F S2x64x2304 .f32) (xs1 : Vec F S1160x2304 .f32) (xs2 : Vec F S576x2304 .f32)
include hc0 hc1 x0 x1 x2 x3 xs0 xs1 xs2

def sout0_B_0  : Vec F S2x64x2304 .f32 :=
  scM0_0.view.read (Elt F) (scM0_0.view.writes (Elt F) ((Memref.isWhole_whole _).unread xs0) (kernelRun0_B c i arg2 harg2 arg3 harg3 arg4 harg4 arg5 harg5 arg6 harg6 arg7 harg7 scM0_0 (Memref.isWhole_whole _) scM0_1 (Memref.isWhole_whole _) scM0_2 (Memref.isWhole_whole _) hc0 hc1 x0 x1 x2 x3 xs0 xs1 xs2).2.1)

def sout0_B_1  : Vec F S1160x2304 .f32 :=
  scM0_1.view.read (Elt F) (scM0_1.view.writes (Elt F) ((Memref.isWhole_whole _).unread xs1) (kernelRun0_B c i arg2 harg2 arg3 harg3 arg4 harg4 arg5 harg5 arg6 harg6 arg7 harg7 scM0_0 (Memref.isWhole_whole _) scM0_1 (Memref.isWhole_whole _) scM0_2 (Memref.isWhole_whole _) hc0 hc1 x0 x1 x2 x3 xs0 xs1 xs2).2.2.1)

def sout0_B_2  : Vec F S576x2304 .f32 :=
  scM0_2.view.read (Elt F) (scM0_2.view.writes (Elt F) ((Memref.isWhole_whole _).unread xs2) (kernelRun0_B c i arg2 harg2 arg3 harg3 arg4 harg4 arg5 harg5 arg6 harg6 arg7 harg7 scM0_0 (Memref.isWhole_whole _) scM0_1 (Memref.isWhole_whole _) scM0_2 (Memref.isWhole_whole _) hc0 hc1 x0 x1 x2 x3 xs0 xs1 xs2).2.2.2.1)

end

section
variable (hc0 : ¬cond0_0 i) (hc1 : cond0_1 i) (x0 : Vec F S9x2304 .f32) (x1 : Vec F S1x1x64x2304 .f32) (x2 : Vec F S2x192x1160 .f32) (x3 : Vec F S2x64x576 .f32) (xs0 : Vec F S2x64x2304 .f32) (xs1 : Vec F S1160x2304 .f32) (xs2 : Vec F S576x2304 .f32)
include hc0 hc1 x0 x1 x2 x3 xs0 xs1 xs2

def sout0_C_0  : Vec F S2x64x2304 .f32 :=
  scM0_0.view.read (Elt F) (scM0_0.view.writes (Elt F) ((Memref.isWhole_whole _).unread xs0) (kernelRun0_C c i arg2 harg2 arg3 harg3 arg4 harg4 arg5 harg5 arg6 harg6 arg7 harg7 scM0_0 (Memref.isWhole_whole _) scM0_1 (Memref.isWhole_whole _) scM0_2 (Memref.isWhole_whole _) hc0 hc1 x0 x1 x2 x3 xs0 xs1 xs2).2.2.1)

def sout0_C_1  : Vec F S1160x2304 .f32 :=
  scM0_1.view.read (Elt F) (scM0_1.view.writes (Elt F) ((Memref.isWhole_whole _).unread xs1) (kernelRun0_C c i arg2 harg2 arg3 harg3 arg4 harg4 arg5 harg5 arg6 harg6 arg7 harg7 scM0_0 (Memref.isWhole_whole _) scM0_1 (Memref.isWhole_whole _) scM0_2 (Memref.isWhole_whole _) hc0 hc1 x0 x1 x2 x3 xs0 xs1 xs2).2.2.2.1)

def sout0_C_2  : Vec F S576x2304 .f32 :=
  scM0_2.view.read (Elt F) (scM0_2.view.writes (Elt F) ((Memref.isWhole_whole _).unread xs2) (kernelRun0_C c i arg2 harg2 arg3 harg3 arg4 harg4 arg5 harg5 arg6 harg6 arg7 harg7 scM0_0 (Memref.isWhole_whole _) scM0_1 (Memref.isWhole_whole _) scM0_2 (Memref.isWhole_whole _) hc0 hc1 x0 x1 x2 x3 xs0 xs1 xs2).2.2.2.2.1)

end

end

def outsAt0 (c : Dev nD) : (n : ℕ) → n < cfg0.N → Vec F S1x1x64x2304 .f32 × Vec F S1x2x64x2304 .f32 × Vec F S2x64x2304 .f32 × Vec F S1160x2304 .f32 × Vec F S576x2304 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), out0_idle_5, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 32 = 0 then
      if h1 : (n + 1) % 32 = 31 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), out0_idle_5, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 32 = 31 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_idle_5, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2)

theorem outsAt0_A (c : Dev nD) (t : Fin cfg0.N) (h0 : t.val % 32 = 0) (h1 : ¬t.val % 32 = 31) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), out0_idle_5, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_idle_5, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2.1) ∗ owns (c : Thread nD τ) scM0_2 fullShare ((outsAt0 m c (n - 1) (by omega)).2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt N64
  rw [show (dats m 0 c).leavesExact 0 t = owns (c : Thread nD τ) (ms0_0 t) fullShare ((dats m 0 c).after 0 t) from by
        unfold Dat.leavesExact; rw [liveAt0_0 t], after0_0]
  rw [show (dats m 0 c).leavesExact 1 t = owns (c : Thread nD τ) (ms0_1 t) fullShare ((dats m 0 c).after 1 t) from by
        unfold Dat.leavesExact; rw [liveAt0_1 t], after0_1]
  rw [show (dats m 0 c).leavesExact 2 t = owns (c : Thread nD τ) (ms0_2 t) fullShare ((dats m 0 c).after 2 t) from by
        unfold Dat.leavesExact; rw [liveAt0_2 t], after0_2]
  rw [show (dats m 0 c).leavesExact 3 t = owns (c : Thread nD τ) (ms0_3 t) fullShare ((dats m 0 c).after 3 t) from by
        unfold Dat.leavesExact; rw [liveAt0_3 t], after0_3]
  rw [show (dats m 0 c).leavesExact 4 t = owns (c : Thread nD τ) (ms0_4 t) fullShare ((dats m 0 c).after 4 t) from by
        unfold Dat.leavesExact; rw [liveAt0_4 t], after0_4]
  by_cases h0 : t.val % 32 = 0
  · by_cases h1 : t.val % 32 = 31
    · exfalso; omega
    · rw [Dat.leavesExact_idle (dats m 0 c) 5 t (idleAt0_5 t (fun h => h1 ((hcond0_1 t).mp h))) (noFlush0_5 t (fun h => h1 ((hcond0_1 t).mp h)))]
      rw [outsAt0_A m c t h0 h1]
      unfold out0_A_4 sout0_A_0 sout0_A_1 sout0_A_2; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        isplitl [HS1]; · iexact HS1
        isplitl [HS2]; · iexact HS2
        iintro ⟨H0, H1, H2, H3, ⟨%e4, H4⟩, H5, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 _ _ _ _ _ _ _ _ _ _ _ _ _ _ _ _ _ _ _ _ _ _ _ _ _ _)
            unfold owns; iexists _; isplitr
            swap; · iexact HS2
            ipureintro; exact View.read_writes_of_cover _ _ _ _ _ (scover0_A_2 _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 _ _ _ _ _ _ _ _ _ _ _ _ _ _ _ _ _ _ _ _ _ _ _ _ _ _)
        iexists _; iexact H5
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexists _; iexact HS0
        isplitl [HS1]; · iexists _; iexact HS1
        isplitl [HS2]; · iexists _; iexact HS2
        iintro ⟨H0, H1, H2, H3, ⟨%e4, H4⟩, H5, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 _ _ _ _ _ _ _ _ _ _ _ _ _ _ _ _ _ _ _ _ _ _ _ _ _ _)
            unfold owns; iexists _; isplitr
            swap; · iexact HS2
            ipureintro; exact View.read_writes_of_cover _ _ _ _ _ (scover0_A_2 _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 _ _ _ _ _ _ _ _ _ _ _ _ _ _ _ _ _ _ _ _ _ _ _ _ _ _)
        iexists _; iexact H5
  · have hz : t.val ≠ 0 := fun hz => h0 (by rw [hz])
    by_cases h1 : t.val % 32 = 31
    · rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt0_C m c t h0 h1]
      unfold out0_C_4 out0_C_5 sout0_C_0 sout0_C_1 sout0_C_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) _ _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      isplitl [HS2]; · iexact HS2
      iintro ⟨H0, H1, H2, H3, ⟨%e4, H4⟩, ⟨%e5, H5⟩, HS0, HS1, HS2⟩
      isplitl [HS0 HS1 HS2 Hg]
      · isplitl [HS0 HS1 HS2]
        · isplitl [HS0]
          · unfold owns; iexists _; isplitr
            swap; · iexact HS0
            ipureintro; rfl
          isplitl [HS1]
          · unfold owns; iexists _; isplitr
            swap; · iexact HS1
            ipureintro; rfl
          unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 _ _ _ _ _ _ _ _ _ _ _ _ _ _ _ _ _ _ _ _ _ _ _ _ _ _ _ _ _)
      unfold owns; iexists _; isplitr
      swap; · iexact H5
      ipureintro; exact View.read_writes_of_cover _ _ _ _ _ (cover0_C_5 _ _ _ _ _ _ _ _ _ _ _ _ _ _ _ _ _ _ _ _ _ _ _ _ _ _ _ _ _)
    · rw [Dat.leavesExact_idle (dats m 0 c) 5 t (idleAt0_5 t (fun h => h1 ((hcond0_1 t).mp h))) (noFlush0_5 t (fun h => h1 ((hcond0_1 t).mp h)))]
      rw [outsAt0_B m c t h0 h1]
      unfold out0_B_4 sout0_B_0 sout0_B_1 sout0_B_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _).2.2.2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      isplitl [HS2]; · iexact HS2
      iintro ⟨H0, H1, H2, H3, ⟨%e4, H4⟩, H5, HS0, HS1, HS2⟩
      isplitl [HS0 HS1 HS2 Hg]
      · isplitl [HS0 HS1 HS2]
        · isplitl [HS0]
          · unfold owns; iexists _; isplitr
            swap; · iexact HS0
            ipureintro; rfl
          isplitl [HS1]
          · unfold owns; iexists _; isplitr
            swap; · iexact HS1
            ipureintro; rfl
          unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 _ _ _ _ _ _ _ _ _ _ _ _ _ _ _ _ _ _ _ _ _ _ _ _ _ _ _ _ _)
      iexists _; iexact H5

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 64 := N64; omega)

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.ReferenceIdeal.Hand

end
-- ==== Proof.Spec.lean ====
import Idealize.ShloMosaic.PureOps.Ideal
import Mathlib.Algebra.BigOperators.Fin

noncomputable section

namespace Cert.Spec

open scoped BigOperators
open Idealize.ShloMosaic

abbrev Row := Fin 2304 → EReal

def amt : Fin 9 → ℕ := ![25, 24, 23, 1, 0, 2303, 2281, 2280, 2279]

def rot (a : ℕ) (v : Row) : Row := fun n => v ⟨(n.val + 2304 - a % 2304) % 2304, Nat.mod_lt _ (by decide)⟩

def tap (M : Fin 9 → Row) (i : Fin 9) (v : Row) : Row := fun n => rot (amt i) v n * M i n

def acc (W : Fin 192 → Fin 1160 → EReal) (M : Fin 9 → Row) (xin h : Fin 64 → Row) (o : Fin 192) (n : Fin 2304) : EReal :=
  W o ⟨1152, by decide⟩
    + ∑ i : Fin 9, ((∑ c : Fin 64, W o ⟨128 * i.val + c.val, by omega⟩ * tap M i (xin c) n)
                    + (∑ c : Fin 64, W o ⟨128 * i.val + 64 + c.val, by omega⟩ * tap M i (h c) n))

def gated (W : Fin 192 → Fin 1160 → EReal) (M : Fin 9 → Row) (xin h : Fin 64 → Row) (c : Fin 64) : Row :=
  fun n => h c n * Ideal.logistic (acc W M xin h ⟨c.val, by omega⟩ n)

def cand (W : Fin 192 → Fin 1160 → EReal) (W2 : Fin 64 → Fin 576 → EReal) (M : Fin 9 → Row) (xin h : Fin 64 → Row) (c : Fin 64) : Row :=
  fun n => Ideal.tanh (acc W M xin h ⟨128 + c.val, by omega⟩ n
    + ∑ i : Fin 9, ∑ c' : Fin 64, W2 c ⟨64 * i.val + c'.val, by omega⟩ * tap M i (gated W M xin h c') n)

def upd (W : Fin 192 → Fin 1160 → EReal) (M : Fin 9 → Row) (xin h : Fin 64 → Row) (c : Fin 64) : Row :=
  fun n => Ideal.logistic (acc W M xin h ⟨64 + c.val, by omega⟩ n)

def next (W : Fin 192 → Fin 1160 → EReal) (W2 : Fin 64 → Fin 576 → EReal) (M : Fin 9 → Row) (xin h : Fin 64 → Row) (c : Fin 64) : Row :=
  fun n => h c n + upd W M xin h c n * (cand W W2 M xin h c n - h c n)

def pad (x : Fin 32 → Row) : Fin 64 → Row := fun c => if h : c.val < 32 then x ⟨c.val, h⟩ else fun _ => 0

def next0 (W1 : Fin 2 → Fin 192 → Fin 1160 → EReal) (W2 : Fin 2 → Fin 64 → Fin 576 → EReal) (M : Fin 9 → Row) (x : Fin 32 → Row) (h0 : Fin 64 → Row) : Fin 64 → Row :=
  next (W1 0) (W2 0) M (pad x) h0

def next1 (W1 : Fin 2 → Fin 192 → Fin 1160 → EReal) (W2 : Fin 2 → Fin 64 → Fin 576 → EReal) (M : Fin 9 → Row) (x : Fin 32 → Row) (h0 h1 : Fin 64 → Row) : Fin 64 → Row :=
  next (W1 1) (W2 1) M (next0 W1 W2 M x h0) h1

end Cert.Spec

end
-- ==== Proof.SpecSeq.lean ====
import proofs.«130420_g2000206920649175_pallasbulk_1279_2_alg».proof.Proof.Spec

noncomputable section

namespace Cert.Spec

def zeroState : Fin 64 → Row := fun _ _ => 0

def states (W1 : Fin 2 → Fin 192 → Fin 1160 → EReal) (W2 : Fin 2 → Fin 64 → Fin 576 → EReal) (M : Fin 9 → Row) (X : ℕ → Fin 32 → Row) : ℕ → (Fin 64 → Row) × (Fin 64 → Row)
  | 0 => (next0 W1 W2 M (X 0) zeroState, next1 W1 W2 M (X 0) zeroState zeroState)
  | τ + 1 =>
    (next0 W1 W2 M (X (τ + 1)) (states W1 W2 M X τ).1,
     next1 W1 W2 M (X (τ + 1)) (states W1 W2 M X τ).1 (states W1 W2 M X τ).2)

theorem states_zero (W1 W2 M X) :
    states W1 W2 M X 0 = (next0 W1 W2 M (X 0) zeroState, next1 W1 W2 M (X 0) zeroState zeroState) := rfl

theorem states_succ (W1 W2 M X) (τ : ℕ) :
    states W1 W2 M X (τ + 1) = (next0 W1 W2 M (X (τ + 1)) (states W1 W2 M X τ).1,
      next1 W1 W2 M (X (τ + 1)) (states W1 W2 M X τ).1 (states W1 W2 M X τ).2) := rfl

end Cert.Spec

end
-- ==== Proof.SpecOut.lean ====
import proofs.«130420_g2000206920649175_pallasbulk_1279_2_alg».proof.Proof.SpecSeq
import Idealize.ShloMosaic.Lib.ValueIdx

noncomputable section

namespace Cert.Spec

open Idealize.ShloMosaic Idealize.ShloMosaic.ValueIdx

section
variable (W1 : Fin 2 → Fin 192 → Fin 1160 → EReal) (W2 : Fin 2 → Fin 64 → Fin 576 → EReal) (M : Fin 9 → Row) (X : ℕ → ℕ → Fin 32 → Row)
include W1 W2 M X

def Gy  : (⟨4, ![2, 32, 64, 2304]⟩ : Shape).Idx → EReal :=
  fun j => (states W1 W2 M (X (j 0).val) (j 1).val).2 ⟨(j 2).val, (j 2).isLt⟩ ⟨(j 3).val, (j 3).isLt⟩

def Glast  : (⟨4, ![2, 2, 64, 2304]⟩ : Shape).Idx → EReal :=
  fun j => if (j 1).val = 0 then (states W1 W2 M (X (j 0).val) 31).1 ⟨(j 2).val, (j 2).isLt⟩ ⟨(j 3).val, (j 3).isLt⟩
    else (states W1 W2 M (X (j 0).val) 31).2 ⟨(j 2).val, (j 2).isLt⟩ ⟨(j 3).val, (j 3).isLt⟩

end

theorem Gy_apply (W1 W2 M X) (b : Fin 2) (t : Fin 32) (ch : Fin 64) (n : Fin 2304) :
    Gy W1 W2 M X (ix4 b t ch n) = (states W1 W2 M (X b.val) t.val).2 ch n := rfl

theorem Glast_apply0 (W1 W2 M X) (b : Fin 2) (ch : Fin 64) (n : Fin 2304) :
    Glast W1 W2 M X (ix4 b (0 : Fin 2) ch n) = (states W1 W2 M (X b.val) 31).1 ch n := rfl

theorem Glast_apply1 (W1 W2 M X) (b : Fin 2) (ch : Fin 64) (n : Fin 2304) :
    Glast W1 W2 M X (ix4 b (1 : Fin 2) ch n) = (states W1 W2 M (X b.val) 31).2 ch n := rfl

end Cert.Spec

end
-- ==== Proof.KI.Params.lean ====
import proofs.«130420_g2000206920649175_pallasbulk_1279_2_alg».proof.Proof.KI.Base
import proofs.«130420_g2000206920649175_pallasbulk_1279_2_alg».proof.Proof.SpecOut
import Idealize.ShloMosaic.Lib.ValueIdx

noncomputable section

namespace Cert.KernelIdeal.Par

open Idealize.ShloMosaic Idealize.ShloMosaic.TcCoe Idealize.ShloMosaic.ValueIdx
open Idealize.SL.Sem
open Cert.KernelIdeal Cert.KernelIdeal.Gen Cert.KernelIdeal.Hand
open Cert.Spec (Row)

variable (m : (ℓ : Loc nD τ sig) → Buf (Elt Ideal) ℓ) (c : Dev nD)

def A0 : S32x8x32x24x24.Idx → EReal := m ((c : Thread nD τ).loc main_arg0)
def A1 : S2x192x1160.Idx → EReal := m ((c : Thread nD τ).loc main_arg1)
def A2 : S2x64x576.Idx → EReal := m ((c : Thread nD τ).loc main_arg2)

def W1p : Fin 2 → Fin 192 → Fin 1160 → EReal := fun l o k => A1 m c (ix3 l o k)
def W2p : Fin 2 → Fin 64 → Fin 576 → EReal := fun l c' k => A2 m c (ix3 l c' k)

def Xp : ℕ → ℕ → Fin 32 → Row := fun b t ch n =>
  A0 m c (ix5 (⟨t % 32, Nat.mod_lt _ (by decide)⟩ : Fin 32) (⟨(4 * b + n.val / 576) % 8, Nat.mod_lt _ (by decide)⟩ : Fin 8) ch
    (⟨n.val % 576 / 24, by omega⟩ : Fin 24) (⟨n.val % 24, Nat.mod_lt _ (by decide)⟩ : Fin 24))

def Mp : Fin 9 → Row := fun i n => (V m c main_v256 : S16x2304.Idx → EReal) (ix2 (⟨i.val, by omega⟩ : Fin 16) n)

def st (s0 : S2x64x2304.Idx → EReal) : (Fin 64 → Row) × (Fin 64 → Row) :=
  (fun ch n => s0 (ix3 (0 : Fin 2) ch n), fun ch n => s0 (ix3 (1 : Fin 2) ch n))

def headOk (s1 : S1168x2304.Idx → EReal) : Prop :=
  (∀ n : Fin 2304, s1 (ix2 (0 : Fin 1168) n) = 1) ∧ (∀ k : Fin 1168, 1 ≤ k.val → k.val < 16 → ∀ n : Fin 2304, s1 (ix2 k n) = 0)

end Cert.KernelIdeal.Par

end
-- ==== Proof.KI.Facts.lean ====
import proofs.«130420_g2000206920649175_pallasbulk_1279_2_alg».proof.Proof.KI.Frame
import proofs.«130420_g2000206920649175_pallasbulk_1279_2_alg».proof.Proof.KI.Params

noncomputable section

namespace Cert.KernelIdeal.Par

open Idealize.ShloMosaic Idealize.ShloMosaic.TcCoe Idealize.ShloMosaic.ValueIdx
open Idealize.SL.Sem
open Cert.KernelIdeal Cert.KernelIdeal.Gen Cert.KernelIdeal.Hand
open Cert.Spec (Row)

variable (m : (ℓ : Loc nD τ sig) → Buf (Elt Ideal) ℓ) (c : Dev nD)

abbrev blk0 (t : Fin cfg0.N) : S16x2304.Idx → EReal := iblk (F := Ideal) m c 0 t
abbrev blk1 (t : Fin cfg0.N) : S1x1x32x2304.Idx → EReal := iblk (F := Ideal) m c 1 t
abbrev blk2 (t : Fin cfg0.N) : S192x880.Idx → EReal := iblk (F := Ideal) m c 2 t
abbrev blk3 (t : Fin cfg0.N) : S192x1168.Idx → EReal := iblk (F := Ideal) m c 3 t
abbrev blk4 (t : Fin cfg0.N) : S2x64x576.Idx → EReal := iblk (F := Ideal) m c 4 t

structure BlocksOk (W1 : Fin 2 → Fin 192 → Fin 1160 → EReal) (W2 : Fin 2 → Fin 64 → Fin 576 → EReal) (M : Fin 9 → Row)
    (x : Fin 32 → Row) (x0 : S16x2304.Idx → EReal) (x1 : S1x1x32x2304.Idx → EReal) (x2 : S192x880.Idx → EReal)
    (x3 : S192x1168.Idx → EReal) (x4 : S2x64x576.Idx → EReal) : Prop where
  mask : ∀ (i : Fin 9) (n : Fin 2304), x0 (ix2 (⟨i.val, by omega⟩ : Fin 16) n) = M i n
  xin : ∀ (ch : Fin 32) (n : Fin 2304), x1 (ix4 (0 : Fin 1) (0 : Fin 1) ch n) = x ch n
  w0b : ∀ o : Fin 192, x2 (ix2 o (⟨0, by decide⟩ : Fin 880)) = W1 0 o ⟨1152, by decide⟩
  w0x : ∀ (o : Fin 192) (i : Fin 9) (ch : Fin 32),
    x2 (ix2 o (⟨16 + 96 * i.val + ch.val, by omega⟩ : Fin 880)) = W1 0 o ⟨128 * i.val + ch.val, by omega⟩
  w0h : ∀ (o : Fin 192) (i : Fin 9) (ch : Fin 64),
    x2 (ix2 o (⟨16 + 96 * i.val + 32 + ch.val, by omega⟩ : Fin 880)) = W1 0 o ⟨128 * i.val + 64 + ch.val, by omega⟩
  w1b : ∀ o : Fin 192, x3 (ix2 o (⟨0, by decide⟩ : Fin 1168)) = W1 1 o ⟨1152, by decide⟩
  w1x : ∀ (o : Fin 192) (i : Fin 9) (ch : Fin 64),
    x3 (ix2 o (⟨16 + 128 * i.val + ch.val, by omega⟩ : Fin 1168)) = W1 1 o ⟨128 * i.val + ch.val, by omega⟩
  w1h : ∀ (o : Fin 192) (i : Fin 9) (ch : Fin 64),
    x3 (ix2 o (⟨16 + 128 * i.val + 64 + ch.val, by omega⟩ : Fin 1168)) = W1 1 o ⟨128 * i.val + 64 + ch.val, by omega⟩
  w2 : ∀ (l : Fin 2) (ch : Fin 64) (k : Fin 576), x4 (ix3 l ch k) = W2 l ch k

def HostIn : Prop := ∀ t : Fin cfg0.N,
  BlocksOk (W1p m c) (W2p m c) (Mp m c) (Xp m c (t.val / 32) (t.val % 32)) (blk0 m c t) (blk1 m c t) (blk2 m c t)
    (blk3 m c t) (blk4 m c t)

abbrev yAt (n : ℕ) (hn : n < cfg0.N) : S1x1x64x2304.Idx → EReal := (outsAt0 (F := Ideal) m c n hn).1
abbrev lastAt (n : ℕ) (hn : n < cfg0.N) : S1x2x64x2304.Idx → EReal := (outsAt0 (F := Ideal) m c n hn).2.1
abbrev hAt (n : ℕ) (hn : n < cfg0.N) : S2x64x2304.Idx → EReal := (outsAt0 (F := Ideal) m c n hn).2.2.1
abbrev paAt (n : ℕ) (hn : n < cfg0.N) : S1168x2304.Idx → EReal := (outsAt0 (F := Ideal) m c n hn).2.2.2.1

structure StepFacts : Prop where

  first : ∀ (t : Fin cfg0.N), t.val % 32 = 0 →
    st (hAt m c t.val t.isLt)
        = (Spec.next0 (W1p m c) (W2p m c) (Mp m c) (Xp m c (t.val / 32) (t.val % 32)) Spec.zeroState,
           Spec.next1 (W1p m c) (W2p m c) (Mp m c) (Xp m c (t.val / 32) (t.val % 32)) Spec.zeroState Spec.zeroState)
      ∧ headOk (paAt m c t.val t.isLt)

  later : ∀ (t : Fin cfg0.N) (h0 : ¬ t.val % 32 = 0),
    headOk (paAt m c (t.val - 1) (Nat.lt_of_le_of_lt (Nat.sub_le _ _) t.isLt)) →
    st (hAt m c t.val t.isLt)
        = (Spec.next0 (W1p m c) (W2p m c) (Mp m c) (Xp m c (t.val / 32) (t.val % 32))
              (st (hAt m c (t.val - 1) (Nat.lt_of_le_of_lt (Nat.sub_le _ _) t.isLt))).1,
           Spec.next1 (W1p m c) (W2p m c) (Mp m c) (Xp m c (t.val / 32) (t.val % 32))
              (st (hAt m c (t.val - 1) (Nat.lt_of_le_of_lt (Nat.sub_le _ _) t.isLt))).1
              (st (hAt m c (t.val - 1) (Nat.lt_of_le_of_lt (Nat.sub_le _ _) t.isLt))).2)
      ∧ headOk (paAt m c t.val t.isLt)

  yblk : ∀ (t : Fin cfg0.N) (ch : Fin 64) (n : Fin 2304),
    yAt m c t.val t.isLt (ix4 (0 : Fin 1) (0 : Fin 1) ch n) = (st (hAt m c t.val t.isLt)).2 ch n

  lastblk : ∀ (t : Fin cfg0.N), t.val % 32 = 31 → ∀ (l : Fin 2) (ch : Fin 64) (n : Fin 2304),
    lastAt m c t.val t.isLt (ix4 (0 : Fin 1) l ch n) = hAt m c t.val t.isLt (ix3 l ch n)

end Cert.KernelIdeal.Par

end
-- ==== Proof.RI.Params.lean ====
import proofs.«130420_g2000206920649175_pallasbulk_1279_2_alg».proof.Proof.RI.Base
import proofs.«130420_g2000206920649175_pallasbulk_1279_2_alg».proof.Proof.SpecOut
import Idealize.ShloMosaic.Lib.ValueIdx

noncomputable section

namespace Cert.ReferenceIdeal.Par

open Idealize.ShloMosaic Idealize.ShloMosaic.TcCoe Idealize.ShloMosaic.ValueIdx
open Idealize.SL.Sem
open Cert.ReferenceIdeal Cert.ReferenceIdeal.Gen Cert.ReferenceIdeal.Hand
open Cert.Spec (Row)

variable (m : (ℓ : Loc nD τ sig) → Buf (Elt Ideal) ℓ) (c : Dev nD)

def A0 : S32x8x32x24x24.Idx → EReal := m ((c : Thread nD τ).loc main_arg0)
def A1 : S2x192x1160.Idx → EReal := m ((c : Thread nD τ).loc main_arg1)
def A2 : S2x64x576.Idx → EReal := m ((c : Thread nD τ).loc main_arg2)

def W1p : Fin 2 → Fin 192 → Fin 1160 → EReal := fun l o k => A1 m c (ix3 l o k)
def W2p : Fin 2 → Fin 64 → Fin 576 → EReal := fun l c' k => A2 m c (ix3 l c' k)

def Xp : ℕ → ℕ → Fin 32 → Row := fun b t ch n =>
  A0 m c (ix5 (⟨t % 32, Nat.mod_lt _ (by decide)⟩ : Fin 32) (⟨(4 * b + n.val / 576) % 8, Nat.mod_lt _ (by decide)⟩ : Fin 8) ch
    (⟨n.val % 576 / 24, by omega⟩ : Fin 24) (⟨n.val % 24, Nat.mod_lt _ (by decide)⟩ : Fin 24))

def Mp : Fin 9 → Row := fun i n => (V m c main_v187 : S9x2304.Idx → EReal) (ix2 i n)

def st (s0 : S2x64x2304.Idx → EReal) : (Fin 64 → Row) × (Fin 64 → Row) :=
  (fun ch n => s0 (ix3 (0 : Fin 2) ch n), fun ch n => s0 (ix3 (1 : Fin 2) ch n))

def headOk (s1 : S1160x2304.Idx → EReal) : Prop :=
  (∀ n : Fin 2304, s1 (ix2 (⟨1152, by decide⟩ : Fin 1160) n) = 1) ∧ (∀ k : Fin 1160, 1153 ≤ k.val → ∀ n : Fin 2304, s1 (ix2 k n) = 0)

end Cert.ReferenceIdeal.Par

end
-- ==== Proof.RI.Facts.lean ====
import proofs.«130420_g2000206920649175_pallasbulk_1279_2_alg».proof.Proof.RI.Frame
import proofs.«130420_g2000206920649175_pallasbulk_1279_2_alg».proof.Proof.RI.Params

noncomputable section

namespace Cert.ReferenceIdeal.Par

open Idealize.ShloMosaic Idealize.ShloMosaic.TcCoe Idealize.ShloMosaic.ValueIdx
open Idealize.SL.Sem
open Cert.ReferenceIdeal Cert.ReferenceIdeal.Gen Cert.ReferenceIdeal.Hand
open Cert.Spec (Row)

variable (m : (ℓ : Loc nD τ sig) → Buf (Elt Ideal) ℓ) (c : Dev nD)

abbrev blk0 (t : Fin cfg0.N) : S9x2304.Idx → EReal := iblk (F := Ideal) m c 0 t
abbrev blk1 (t : Fin cfg0.N) : S1x1x64x2304.Idx → EReal := iblk (F := Ideal) m c 1 t
abbrev blk2 (t : Fin cfg0.N) : S2x192x1160.Idx → EReal := iblk (F := Ideal) m c 2 t
abbrev blk3 (t : Fin cfg0.N) : S2x64x576.Idx → EReal := iblk (F := Ideal) m c 3 t

structure BlocksOk (W1 : Fin 2 → Fin 192 → Fin 1160 → EReal) (W2 : Fin 2 → Fin 64 → Fin 576 → EReal) (M : Fin 9 → Row)
    (x : Fin 32 → Row) (x0 : S9x2304.Idx → EReal) (x1 : S1x1x64x2304.Idx → EReal) (x2 : S2x192x1160.Idx → EReal)
    (x3 : S2x64x576.Idx → EReal) : Prop where
  mask : ∀ (i : Fin 9) (n : Fin 2304), x0 (ix2 i n) = M i n
  xin : ∀ (ch : Fin 64) (n : Fin 2304), x1 (ix4 (0 : Fin 1) (0 : Fin 1) ch n) = Spec.pad x ch n
  w1 : ∀ (l : Fin 2) (o : Fin 192) (k : Fin 1160), x2 (ix3 l o k) = W1 l o k
  w2 : ∀ (l : Fin 2) (ch : Fin 64) (k : Fin 576), x3 (ix3 l ch k) = W2 l ch k

def HostIn : Prop := ∀ t : Fin cfg0.N,
  BlocksOk (W1p m c) (W2p m c) (Mp m c) (Xp m c (t.val / 32) (t.val % 32)) (blk0 m c t) (blk1 m c t) (blk2 m c t)
    (blk3 m c t)

abbrev yAt (n : ℕ) (hn : n < cfg0.N) : S1x1x64x2304.Idx → EReal := (outsAt0 (F := Ideal) m c n hn).1
abbrev lastAt (n : ℕ) (hn : n < cfg0.N) : S1x2x64x2304.Idx → EReal := (outsAt0 (F := Ideal) m c n hn).2.1
abbrev hAt (n : ℕ) (hn : n < cfg0.N) : S2x64x2304.Idx → EReal := (outsAt0 (F := Ideal) m c n hn).2.2.1
abbrev p1At (n : ℕ) (hn : n < cfg0.N) : S1160x2304.Idx → EReal := (outsAt0 (F := Ideal) m c n hn).2.2.2.1

def Fin2 (s : (Fin 64 → Row) × (Fin 64 → Row)) : Prop :=
  (∀ ch n, ∃ r : ℝ, s.1 ch n = (r : EReal)) ∧ (∀ ch n, ∃ r : ℝ, s.2 ch n = (r : EReal))

structure StepFacts : Prop where

  first : ∀ (t : Fin cfg0.N), t.val % 32 = 0 →
    st (hAt m c t.val t.isLt)
        = (Spec.next0 (W1p m c) (W2p m c) (Mp m c) (Xp m c (t.val / 32) (t.val % 32)) Spec.zeroState,
           Spec.next1 (W1p m c) (W2p m c) (Mp m c) (Xp m c (t.val / 32) (t.val % 32)) Spec.zeroState Spec.zeroState)
      ∧ headOk (p1At m c t.val t.isLt)

  later : ∀ (t : Fin cfg0.N) (h0 : ¬ t.val % 32 = 0),
    headOk (p1At m c (t.val - 1) (Nat.lt_of_le_of_lt (Nat.sub_le _ _) t.isLt)) →
    Fin2 (st (hAt m c (t.val - 1) (Nat.lt_of_le_of_lt (Nat.sub_le _ _) t.isLt))) →
    st (hAt m c t.val t.isLt)
        = (Spec.next0 (W1p m c) (W2p m c) (Mp m c) (Xp m c (t.val / 32) (t.val % 32))
              (st (hAt m c (t.val - 1) (Nat.lt_of_le_of_lt (Nat.sub_le _ _) t.isLt))).1,
           Spec.next1 (W1p m c) (W2p m c) (Mp m c) (Xp m c (t.val / 32) (t.val % 32))
              (st (hAt m c (t.val - 1) (Nat.lt_of_le_of_lt (Nat.sub_le _ _) t.isLt))).1
              (st (hAt m c (t.val - 1) (Nat.lt_of_le_of_lt (Nat.sub_le _ _) t.isLt))).2)
      ∧ headOk (p1At m c t.val t.isLt)

  yblk : ∀ (t : Fin cfg0.N) (ch : Fin 64) (n : Fin 2304),
    yAt m c t.val t.isLt (ix4 (0 : Fin 1) (0 : Fin 1) ch n) = (st (hAt m c t.val t.isLt)).2 ch n

  lastblk : ∀ (t : Fin cfg0.N), t.val % 32 = 31 → ∀ (l : Fin 2) (ch : Fin 64) (n : Fin 2304),
    lastAt m c t.val t.isLt (ix4 (0 : Fin 1) l ch n) = hAt m c t.val t.isLt (ix3 l ch n)

end Cert.ReferenceIdeal.Par

end
-- ==== Proof.Tail.lean ====
import Idealize.ShloMosaic.PureOps.ShapeOps

namespace Cert.Tail

open Idealize.ShloMosaic

variable {F : FTy → Type} [FloatOps F]

def tailY (y : (⟨4, ![2, 32, 64, 2304]⟩ : Shape).Idx → Elt F .f32) : (⟨5, ![32, 8, 64, 24, 24]⟩ : Shape).Idx → Elt F .f32 :=
  fun i => shapeCast (⟨5, ![32, 8, 64, 24, 24]⟩ : Shape)
    (transpose (⟨5, ![32, 2, 4, 64, 576]⟩ : Shape) [1, 0, 3, 2, 4]
      (fun j => shapeCast (⟨5, ![2, 32, 64, 4, 576]⟩ : Shape) y (by decide) j) (by decide)) (by decide) i

def tailL (l : (⟨4, ![2, 2, 64, 2304]⟩ : Shape).Idx → Elt F .f32) : (⟨5, ![8, 2, 64, 24, 24]⟩ : Shape).Idx → Elt F .f32 :=
  fun i => shapeCast (⟨5, ![8, 2, 64, 24, 24]⟩ : Shape)
    (transpose (⟨5, ![2, 4, 2, 64, 576]⟩ : Shape) [0, 3, 1, 2, 4]
      (fun j => shapeCast (⟨5, ![2, 2, 64, 4, 576]⟩ : Shape) l (by decide) j) (by decide)) (by decide) i

end Cert.Tail
-- ==== Proof.KI.HostInW0.lean ====
import proofs.«130420_g2000206920649175_pallasbulk_1279_2_alg».proof.Proof.KI.Main
import proofs.«130420_g2000206920649175_pallasbulk_1279_2_alg».proof.Proof.KI.Params
import Idealize.ShloMosaic.Lib.StableHlo.Run
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.HostIn

open Idealize.ShloMosaic Idealize.ShloMosaic.TcCoe Idealize.ShloMosaic.Tactic
open Idealize.ShloMosaic.StableHlo Idealize.ShloMosaic.ValueIdx
open Cert.KernelIdeal Cert.KernelIdeal.Gen Cert.KernelIdeal.Hand

-- The shape of 192 rows by `n` columns.
abbrev Cols (n : ℕ) : Shape := ⟨2, ![192, n]⟩

theorem slab_slices (l : Fin 2) : S2x192x1160.Slices ![l.val, 0, 0] S1x192x1160 := by
  match l with
  | 0 => exact slices_S2x192x1160_S1x192x1160_0_0_0
  | 1 => exact slices_S2x192x1160_S1x192x1160_1_0_0

theorem cols_slices (a n : ℕ) (h : a + n ≤ 1160) : S192x1160.Slices ![0, a] (Cols n) :=
  ⟨rfl, fun b => match b with
    | ⟨0, _⟩ => by show 0 + 192 ≤ 192; omega
    | ⟨1, _⟩ => h⟩

section Repack
variable {α : Type} {X T K : ℕ}

-- Layer `l`'s 192 × 1160 gate weights.
def lay (l : Fin 2) (w : S2x192x1160.Idx → α) : S192x1160.Idx → α :=
  shapeCast S192x1160 (extractStridedSlice S1x192x1160 ![l.val, 0, 0] w (slab_slices l)) shapeCasts_S1x192x1160_S192x1160

theorem lay_apply (l : Fin 2) (w : S2x192x1160.Idx → α) (o : Fin 192) (k : Fin 1160) :
    lay l w (ix2 o k) = w (ix3 l o k) := by
  unfold lay
  refine (shapeCast_1ab_ab_apply _ _ o k).trans ?_
  exact extractStridedSlice_apply _ _ _ _ (ix3 l o k)
    (fun a => match a with
      | ⟨0, _⟩ => rfl
      | ⟨1, _⟩ => by show o.val = 0 + o.val; omega
      | ⟨2, _⟩ => by show k.val = 0 + k.val; omega)

variable (hcT : Shape.Concatenates [Cols X, S192x64] (Cols T) 1)

-- One tap's block of columns: `X` input columns from column `a`, then 64 state columns from column `a + 64`.
def tap (x : S192x1160.Idx → α) (a : ℕ) (h1 : a + X ≤ 1160) (h2 : a + 64 + 64 ≤ 1160) : (Cols T).Idx → α :=
  concatenate (Cols T) 1 [⟨Cols X, extractStridedSlice (Cols X) ![0, a] x (cols_slices a X h1)⟩, ⟨S192x64, extractStridedSlice S192x64 ![0, a + 64] x (cols_slices (a + 64) 64 h2)⟩] hcT

theorem tap_lo (x : S192x1160.Idx → α) (a : ℕ) (h1 : a + X ≤ 1160) (h2 : a + 64 + 64 ≤ 1160) (o : Fin 192) (r : Fin T) (hr : r.val < X) (k : Fin 1160) (hk : k.val = a + r.val) :
    tap hcT x a h1 h2 (ix2 o r) = x (ix2 o k) := by
  unfold tap
  refine (concatenate_pair_apply_left (t := Cols T) (s₁ := Cols X) (s₂ := S192x64) (1 : Fin 2) _ _ _ (ix2 o r) rfl
    (ix2 o (⟨r.val, hr⟩ : Fin X)) (fun b => match b with | ⟨0, _⟩ => rfl | ⟨1, _⟩ => rfl)).trans ?_
  exact extractStridedSlice_apply _ _ _ _ (ix2 o k)
    (fun b => match b with
      | ⟨0, _⟩ => by show o.val = 0 + o.val; omega
      | ⟨1, _⟩ => hk)

theorem tap_hi (hT : T = X + 64) (x : S192x1160.Idx → α) (a : ℕ) (h1 : a + X ≤ 1160) (h2 : a + 64 + 64 ≤ 1160) (o : Fin 192) (r : Fin T) (hr : X ≤ r.val) (k : Fin 1160) (hk : k.val + X = a + 64 + r.val) :
    tap hcT x a h1 h2 (ix2 o r) = x (ix2 o k) := by
  unfold tap
  have hr2 := r.isLt
  refine (concatenate_pair_apply_right (t := Cols T) (s₁ := Cols X) (s₂ := S192x64) (1 : Fin 2) _ _ _ (ix2 o r) rfl rfl
    (ix2 o (⟨r.val - X, by omega⟩ : Fin 64))
    (fun b hb => match b, hb with | ⟨0, _⟩, _ => rfl | ⟨1, _⟩, hb => absurd rfl hb)
    (by show (r.val - X) + X = r.val; omega)).trans ?_
  exact extractStridedSlice_apply _ _ _ _ (ix2 o k)
    (fun b => match b with
      | ⟨0, _⟩ => by show o.val = 0 + o.val; omega
      | ⟨1, _⟩ => by show k.val = a + 64 + (r.val - X); omega)

variable (hcK : Shape.Concatenates [S192x1, S192x15, Cols T, Cols T, Cols T, Cols T, Cols T, Cols T, Cols T, Cols T, Cols T] (Cols K) 1)

-- The repacked row: the bias column, fifteen zero columns, then the nine taps' blocks.
def cat (b : S192x1.Idx → α) (z : S192x15.Idx → α) (p : Fin 9 → (Cols T).Idx → α) : (Cols K).Idx → α :=
  concatenate (Cols K) 1
    [⟨S192x1, b⟩, ⟨S192x15, z⟩, ⟨Cols T, p 0⟩, ⟨Cols T, p 1⟩, ⟨Cols T, p 2⟩, ⟨Cols T, p 3⟩, ⟨Cols T, p 4⟩,
     ⟨Cols T, p 5⟩, ⟨Cols T, p 6⟩, ⟨Cols T, p 7⟩, ⟨Cols T, p 8⟩] hcK

theorem cat_bias (b : S192x1.Idx → α) (z : S192x15.Idx → α) (p : Fin 9 → (Cols T).Idx → α) (o : Fin 192) (j : Fin K) (hj : j.val = 0) :
    cat hcK b z p (ix2 o j) = b (ix2 o (0 : Fin 1)) := by
  unfold cat
  exact concatenate_apply_piece (t := Cols K) (1 : Fin 2) _ _ (ix2 o j) 0 (by show 0 < 11; omega) S192x1 b rfl rfl 0 rfl (ix2 o (0 : Fin 1))
    (fun b hb => match b, hb with | ⟨0, _⟩, _ => rfl | ⟨1, _⟩, hb => absurd rfl hb)
    (by show 0 + 0 = j.val; omega)

theorem cat_tap (b : S192x1.Idx → α) (z : S192x15.Idx → α) (p : Fin 9 → (Cols T).Idx → α) (o : Fin 192) (i : Fin 9) (r : Fin T) (j : Fin K) (hj : j.val = 16 + i.val * T + r.val) :
    cat hcK b z p (ix2 o j) = p i (ix2 o r) := by
  unfold cat
  refine concatenate_apply_piece (t := Cols K) (1 : Fin 2) _ _ (ix2 o j) (2 + i.val) (by have := i.isLt; show 2 + i.val < 11; omega)
    (Cols T) (p i) ?_ rfl (1 + (15 + (List.replicate i.val T).sum)) ?_ (ix2 o r)
    (fun b hb => match b, hb with | ⟨0, _⟩, _ => rfl | ⟨1, _⟩, hb => absurd rfl hb)
    (by show 1 + (15 + (List.replicate i.val T).sum) + r.val = j.val; rw [List.sum_replicate_nat]; omega)
  · fin_cases i <;> rfl
  · fin_cases i <;> rfl

variable (hX : X ≤ 64) (l : Fin 2)

-- Tap `i`'s block starts at column `128 i` of the layer's weights.
def taps (w : S2x192x1160.Idx → α) : Fin 9 → (Cols T).Idx → α := fun i =>
  tap hcT (lay l w) (128 * i.val) (by omega) (by omega)

def repack (w : S2x192x1160.Idx → EReal) : (Cols K).Idx → EReal :=
  cat hcK (extractStridedSlice S192x1 ![0, 1152] (lay l w) slices_S192x1160_S192x1_0_1152)
    (broadcastInDim S192x15 ![] bcast_S_S192x15 (constant (F := Ideal) S_ .f32 0x00000000#32))
    (taps hcT hX l w)

theorem repack_bias (w : S2x192x1160.Idx → EReal) (o : Fin 192) (j : Fin K) (hj : j.val = 0) :
    repack hcT hcK hX l w (ix2 o j) = w (ix3 l o (⟨1152, by decide⟩ : Fin 1160)) := by
  unfold repack
  rw [cat_bias _ _ _ _ o j hj, ← lay_apply l w o (⟨1152, by decide⟩ : Fin 1160)]
  exact extractStridedSlice_apply _ _ _ _ (ix2 o (⟨1152, by decide⟩ : Fin 1160))
    (fun b => match b with
      | ⟨0, _⟩ => by show o.val = 0 + o.val; omega
      | ⟨1, _⟩ => rfl)

theorem repack_x (w : S2x192x1160.Idx → EReal) (o : Fin 192) (i : Fin 9) (ch : Fin X) (j : Fin K) (k : Fin 1160) (hT : T = X + 64) (hj : j.val = 16 + i.val * T + ch.val) (hk : k.val = 128 * i.val + ch.val) :
    repack hcT hcK hX l w (ix2 o j) = w (ix3 l o k) := by
  unfold repack
  rw [cat_tap _ _ _ _ o i (⟨ch.val, by omega⟩ : Fin T) j hj, ← lay_apply l w o k]
  exact tap_lo hcT (lay l w) (128 * i.val) _ _ o ⟨ch.val, by omega⟩ ch.isLt k hk

theorem repack_h (w : S2x192x1160.Idx → EReal) (o : Fin 192) (i : Fin 9) (ch : Fin 64) (j : Fin K) (k : Fin 1160) (hT : T = X + 64) (hj : j.val = 16 + i.val * T + X + ch.val) (hk : k.val = 128 * i.val + 64 + ch.val) :
    repack hcT hcK hX l w (ix2 o j) = w (ix3 l o k) := by
  unfold repack
  rw [cat_tap _ _ _ _ o i (⟨X + ch.val, by omega⟩ : Fin T) j (by show j.val = 16 + i.val * T + (X + ch.val); omega), ← lay_apply l w o k]
  exact tap_hi _ hT _ _ _ _ o _ (by show X ≤ X + ch.val; omega) k (by show k.val + X = 128 * i.val + 64 + (X + ch.val); omega)

end Repack

-- The two layers' repacked gate weights.
def repack0 : (S2x192x1160.Idx → EReal) → S192x880.Idx → EReal :=
  repack (X := 32) concatenates_S192x32_S192x64_S192x96_d1 concatenates_S192x1_S192x15_S192x96_S192x96_S192x96_S192x96_S192x96_S192x96_S192x96_S192x96_S192x96_S192x880_d1 (by decide) 0

def repack1 : (S2x192x1160.Idx → EReal) → S192x1168.Idx → EReal :=
  repack (X := 64) concatenates_S192x64_S192x64_S192x128_d1 concatenates_S192x1_S192x15_S192x128_S192x128_S192x128_S192x128_S192x128_S192x128_S192x128_S192x128_S192x128_S192x1168_d1 (by decide) 1

end Cert.KernelIdeal.HostIn

end
-- ==== Proof.KI.HostInW.lean ====
import proofs.«130420_g2000206920649175_pallasbulk_1279_2_alg».proof.Proof.KI.HostInW0

set_option maxRecDepth 16384

noncomputable section

namespace Cert.KernelIdeal.HostIn

open Idealize.ShloMosaic Idealize.ShloMosaic.TcCoe Idealize.ShloMosaic.Tactic
open Idealize.ShloMosaic.StableHlo Idealize.ShloMosaic.ValueIdx
open Cert.KernelIdeal Cert.KernelIdeal.Gen Cert.KernelIdeal.Hand

theorem nary11_result' {Val : EltTy → Type} {x0 x1 x2 x3 x4 x5 x6 x7 x8 x9 x10 y : Ref sig .tc} (f : ((k : Fin 11) → ((![x0, x1, x2, x3, x4, x5, x6, x7, x8, x9, x10] : Fin 11 → Ref sig .tc) k).ty.Contents Val) → y.ty.Contents Val) (hxs hy) (F : Valuation τ sig Val) :
    (StableHlo.nary (τ := τ) ![x0, x1, x2, x3, x4, x5, x6, x7, x8, x9, x10] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3))
          (Fin.cons (F (Proc.devRef .tc x4)) (Fin.cons (F (Proc.devRef .tc x5)) (Fin.cons (F (Proc.devRef .tc x6)) (Fin.cons (F (Proc.devRef .tc x7))
          (Fin.cons (F (Proc.devRef .tc x8)) (Fin.cons (F (Proc.devRef .tc x9)) (Fin.cons (F (Proc.devRef .tc x10)) (fun i => i.elim0)))))))))))) := by
  rw [StableHlo.nary_result]; congr 1; funext k; fin_cases k <;> rfl

macro "after_results11" : tactic =>
  `(tactic| (simp (disch := decide) only [StableHlo.after_cons, StableHlo.after_nil,
      StableHlo.nullary_result', StableHlo.unary_result', StableHlo.binary_result', StableHlo.ternary_result', StableHlo.reshape_result', nary11_result',
      StableHlo.nullary_result_ne', StableHlo.unary_result_ne', StableHlo.binary_result_ne', StableHlo.ternary_result_ne', StableHlo.reshape_result_ne',
      StableHlo.nary_result_ne']))

set_option maxHeartbeats 4000000 in
theorem v32_stretch (W : Valuation τ sig (Elt Ideal)) :
    (StableHlo.after (hostOps0 (F := Ideal)) W (Proc.devRef .tc main_v32) : S192x880.Idx → EReal)
      = repack0 (W (Proc.devRef .tc main_arg1) : S2x192x1160.Idx → EReal) := by
  simp only [hostOps0]
  after_results11
  rfl

set_option maxHeartbeats 4000000 in
theorem v65_stretch (W : Valuation τ sig (Elt Ideal)) :
    (StableHlo.after (hostOps0 (F := Ideal)) W (Proc.devRef .tc main_v65) : S192x1168.Idx → EReal)
      = repack1 (W (Proc.devRef .tc main_arg1) : S2x192x1160.Idx → EReal) := by
  simp only [hostOps0]
  after_results11
  rfl

set_option maxHeartbeats 4000000 in
theorem v66_stretch (W : Valuation τ sig (Elt Ideal)) :
    (StableHlo.after (hostOps0 (F := Ideal)) W (Proc.devRef .tc main_v66) : S2x64x576.Idx → EReal)
      = (W (Proc.devRef .tc main_arg2) : S2x64x576.Idx → EReal) := by
  simp only [hostOps0]
  after_results11
  rfl

set_option maxHeartbeats 4000000 in
theorem keep (W : Valuation τ sig (Elt Ideal)) (r : Ref sig .tc) (hr : r ∈ [main_v32, main_v65, main_v66])
    (ops) (hops : ops ∈ [hostOps0_1 (F := Ideal), hostOps0_2, hostOps0_3, hostOps0_4]) :
    StableHlo.after ops W (Proc.devRef .tc r) = W (Proc.devRef .tc r) := by
  simp only [List.mem_cons, List.mem_nil_iff, or_false] at hr hops
  rcases hops with rfl | rfl | rfl | rfl <;> rcases hr with rfl | rfl | rfl <;>
    (simp only [hostOps0_1, hostOps0_2, hostOps0_3, hostOps0_4]; after_results_simp)

variable (m : (ℓ : Loc nD τ sig) → Buf (Elt Ideal) ℓ) (c : Dev nD)

theorem V0_split : V0 m c = StableHlo.after hostOps0_4 (StableHlo.after hostOps0_3 (StableHlo.after hostOps0_2
    (StableHlo.after hostOps0_1 (StableHlo.after hostOps0 (fun b => m (c, b)))))) := by
  have hf : List.flatten (preOps (F := Ideal)) = hostOps0 ++ (hostOps0_1 ++ (hostOps0_2 ++ (hostOps0_3 ++ (hostOps0_4 ++ [])))) := by
    simp only [preOps, List.flatten_cons, List.flatten_nil]
  show StableHlo.after (List.flatten (preOps (F := Ideal))) _ = _
  rw [hf]
  simp only [StableHlo.after_append, StableHlo.after_nil]

open Cert.KernelIdeal.Par

theorem V_v32 : (V m c main_v32 : S192x880.Idx → EReal) = repack0 (A1 m c) := by
  have h := congrFun (V0_split m c) (Proc.devRef .tc main_v32)
  rwa [keep, keep, keep, keep, v32_stretch] at h <;> simp

theorem V_v65 : (V m c main_v65 : S192x1168.Idx → EReal) = repack1 (A1 m c) := by
  have h := congrFun (V0_split m c) (Proc.devRef .tc main_v65)
  rwa [keep, keep, keep, keep, v65_stretch] at h <;> simp

theorem V_v66 : (V m c main_v66 : S2x64x576.Idx → EReal) = A2 m c := by
  have h := congrFun (V0_split m c) (Proc.devRef .tc main_v66)
  rwa [keep, keep, keep, keep, v66_stretch] at h <;> simp

theorem V_w0b (o : Fin 192) (j : Fin 880) (hj : j.val = 0) :
    (V m c main_v32 : S192x880.Idx → EReal) (ix2 o j) = W1p m c 0 o ⟨1152, by decide⟩ := by
  rw [V_v32]; exact repack_bias _ _ _ _ _ o j hj

theorem V_w0x (o : Fin 192) (i : Fin 9) (ch : Fin 32) (j : Fin 880) (k : Fin 1160) (hj : j.val = 16 + 96 * i.val + ch.val) (hk : k.val = 128 * i.val + ch.val) :
    (V m c main_v32 : S192x880.Idx → EReal) (ix2 o j) = W1p m c 0 o k := by
  rw [V_v32]; exact repack_x _ _ _ _ _ o i ch j k rfl (by omega) hk

theorem V_w0h (o : Fin 192) (i : Fin 9) (ch : Fin 64) (j : Fin 880) (k : Fin 1160) (hj : j.val = 16 + 96 * i.val + 32 + ch.val) (hk : k.val = 128 * i.val + 64 + ch.val) :
    (V m c main_v32 : S192x880.Idx → EReal) (ix2 o j) = W1p m c 0 o k := by
  rw [V_v32]; exact repack_h _ _ _ _ _ o i ch j k rfl (by omega) hk

theorem V_w1b (o : Fin 192) (j : Fin 1168) (hj : j.val = 0) :
    (V m c main_v65 : S192x1168.Idx → EReal) (ix2 o j) = W1p m c 1 o ⟨1152, by decide⟩ := by
  rw [V_v65]; exact repack_bias _ _ _ _ _ o j hj

theorem V_w1x (o : Fin 192) (i : Fin 9) (ch : Fin 64) (j : Fin 1168) (k : Fin 1160) (hj : j.val = 16 + 128 * i.val + ch.val) (hk : k.val = 128 * i.val + ch.val) :
    (V m c main_v65 : S192x1168.Idx → EReal) (ix2 o j) = W1p m c 1 o k := by
  rw [V_v65]; exact repack_x _ _ _ _ _ o i ch j k rfl (by omega) hk

theorem V_w1h (o : Fin 192) (i : Fin 9) (ch : Fin 64) (j : Fin 1168) (k : Fin 1160) (hj : j.val = 16 + 128 * i.val + 64 + ch.val) (hk : k.val = 128 * i.val + 64 + ch.val) :
    (V m c main_v65 : S192x1168.Idx → EReal) (ix2 o j) = W1p m c 1 o k := by
  rw [V_v65]; exact repack_h _ _ _ _ _ o i ch j k rfl (by omega) hk

theorem V_w2 (l : Fin 2) (ch : Fin 64) (k : Fin 576) :
    (V m c main_v66 : S2x64x576.Idx → EReal) (ix3 l ch k) = W2p m c l ch k := by
  rw [V_v66]; rfl

end Cert.KernelIdeal.HostIn

end
-- ==== Proof.KI.HostInX.lean ====
import proofs.«130420_g2000206920649175_pallasbulk_1279_2_alg».proof.Proof.KI.HostInW
import Idealize.ShloMosaic.Lib.StableHlo.Run
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.HostIn

open Idealize.ShloMosaic Idealize.ShloMosaic.TcCoe Idealize.ShloMosaic.Tactic
open Idealize.ShloMosaic.StableHlo Idealize.ShloMosaic.ValueIdx
open Cert.KernelIdeal Cert.KernelIdeal.Gen Cert.KernelIdeal.Hand

section Relay
variable {α : Type}

def relay (x : S32x8x32x24x24.Idx → α) : S2x32x32x2304.Idx → α :=
  shapeCast S2x32x32x2304
    (transpose S2x32x32x4x576 [0, 2, 3, 1, 4]
      (shapeCast S2x4x32x32x576
        (transpose S8x32x32x24x24 [1, 0, 2, 3, 4] x transposes_S32x8x32x24x24_S8x32x32x24x24_1_0_2_3_4)
        shapeCasts_S8x32x32x24x24_S2x4x32x32x576)
      transposes_S2x4x32x32x576_S2x32x32x4x576_0_2_3_1_4)
    shapeCasts_S2x32x32x4x576_S2x32x32x2304

theorem relay_apply (x : S32x8x32x24x24.Idx → α) (b : Fin 2) (t : Fin 32) (ch : Fin 32) (n : Fin 2304) (t' : Fin 32) (B : Fin 8) (r : Fin 24) (cc : Fin 24) (ht : t'.val = t.val) (hB : B.val = 4 * b.val + n.val / 576) (hr : r.val = n.val % 576 / 24) (hc : cc.val = n.val % 24) :
    relay x (ix4 b t ch n) = x (ix5 t' B ch r cc) := by
  unfold relay
  have hb := b.isLt
  have hn := n.isLt
  have hg : n.val / 576 < 4 := by omega
  have hp : n.val % 576 < 576 := Nat.mod_lt _ (by decide)

  refine (shapeCast_apply _ _ (ix4 b t ch n) (ix5 b t ch (⟨n.val / 576, hg⟩ : Fin 4) (⟨n.val % 576, hp⟩ : Fin 576)) (by
    rw [Shape.rowMajor_val_five, Shape.rowMajor_val_four]
    show (((b.val * 32 + t.val) * 32 + ch.val) * 4 + n.val / 576) * 576 + n.val % 576 = ((b.val * 32 + t.val) * 32 + ch.val) * 2304 + n.val
    omega)).trans ?_

  refine (transpose_apply _ _ _ _ (ix5 b (⟨n.val / 576, hg⟩ : Fin 4) t ch (⟨n.val % 576, hp⟩ : Fin 576))
    (fun a => match a with | ⟨0, _⟩ => rfl | ⟨1, _⟩ => rfl | ⟨2, _⟩ => rfl | ⟨3, _⟩ => rfl | ⟨4, _⟩ => rfl)).trans ?_

  refine (shapeCast_apply _ _ _ (ix5 B t ch r cc) (by
    rw [Shape.rowMajor_val_five, Shape.rowMajor_val_five]
    show (((B.val * 32 + t.val) * 32 + ch.val) * 24 + r.val) * 24 + cc.val
      = (((b.val * 4 + n.val / 576) * 32 + t.val) * 32 + ch.val) * 576 + n.val % 576
    omega)).trans ?_

  exact transpose_apply _ _ _ _ (ix5 t' B ch r cc)
    (fun a => match a with | ⟨0, _⟩ => rfl | ⟨1, _⟩ => ht | ⟨2, _⟩ => rfl | ⟨3, _⟩ => rfl | ⟨4, _⟩ => rfl)

end Relay

set_option maxHeartbeats 4000000 in
theorem v261_stretch (W : Valuation τ sig (Elt Ideal)) :
    (StableHlo.after (hostOps0_4 (F := Ideal)) W (Proc.devRef .tc main_v261) : S2x32x32x2304.Idx → EReal)
      = relay (W (Proc.devRef .tc main_arg0) : S32x8x32x24x24.Idx → EReal) := by
  simp only [hostOps0_4]
  after_results_simp
  rfl

theorem keep_arg0 (ops : List (HloOp τ sig (Elt Ideal))) (hk : ops.Forall fun op => ∀ r ∈ mainArgs, Proc.devRef (τ := τ) .tc r ∉ op.writes) (W : Valuation τ sig (Elt Ideal)) :
    StableHlo.after ops W (Proc.devRef .tc main_arg0) = W (Proc.devRef .tc main_arg0) :=
  StableHlo.after_of_forall_not_mem ops W (fun op hop => List.forall_iff_forall_mem.mp hk op hop main_arg0 (by decide))

variable (m : (ℓ : Loc nD τ sig) → Buf (Elt Ideal) ℓ) (c : Dev nD)

open Cert.KernelIdeal.Par

theorem V_v261 : (V m c main_v261 : S2x32x32x2304.Idx → EReal) = relay (A0 m c) := by
  have h := congrFun (V0_split m c) (Proc.devRef .tc main_v261)
  rw [v261_stretch, keep_arg0 _ hostOps0_3_keeps, keep_arg0 _ hostOps0_2_keeps, keep_arg0 _ hostOps0_1_keeps,
    keep_arg0 _ hostOps0_keeps] at h
  exact h

theorem V_xin (b : Fin 2) (t : Fin 32) (ch : Fin 32) (n : Fin 2304) :
    (V m c main_v261 : S2x32x32x2304.Idx → EReal) (ix4 b t ch n) = Xp m c b.val t.val ch n := by
  rw [V_v261]
  have hb := b.isLt
  have ht := t.isLt
  have hn := n.isLt
  exact relay_apply _ b t ch n _ _ _ _ (by show t.val % 32 = t.val; omega)
    (by show (4 * b.val + n.val / 576) % 8 = 4 * b.val + n.val / 576; omega) rfl rfl

end Cert.KernelIdeal.HostIn

end
-- ==== Proof.KI.HostIn.lean ====
import proofs.«130420_g2000206920649175_pallasbulk_1279_2_alg».proof.Proof.KI.Facts
import proofs.«130420_g2000206920649175_pallasbulk_1279_2_alg».proof.Proof.KI.HostInW
import proofs.«130420_g2000206920649175_pallasbulk_1279_2_alg».proof.Proof.KI.HostInX

set_option maxRecDepth 16384

noncomputable section

namespace Cert.KernelIdeal.Par

open Idealize.ShloMosaic Idealize.ShloMosaic.TcCoe Idealize.ShloMosaic.ValueIdx
open Idealize.SL.Sem
open Cert.KernelIdeal Cert.KernelIdeal.Gen Cert.KernelIdeal.Hand Cert.KernelIdeal.HostIn
open Cert.Spec (Row)

theorem idx_facts0 : ∀ t : Fin cfg0.N, win0_0.index t (0 : Fin 2) = 0 ∧ win0_0.index t (1 : Fin 2) = 0 :=
  (by decide +kernel : ∀ t : Fin grid0.N, _)
theorem idx_facts1 : ∀ t : Fin cfg0.N, win0_1.index t (0 : Fin 4) = t.val / 32 ∧ win0_1.index t (1 : Fin 4) = t.val % 32
    ∧ win0_1.index t (2 : Fin 4) = 0 ∧ win0_1.index t (3 : Fin 4) = 0 :=
  (by decide +kernel : ∀ t : Fin grid0.N, _)
theorem idx_facts2 : ∀ t : Fin cfg0.N, win0_2.index t (0 : Fin 2) = 0 ∧ win0_2.index t (1 : Fin 2) = 0 :=
  (by decide +kernel : ∀ t : Fin grid0.N, _)
theorem idx_facts3 : ∀ t : Fin cfg0.N, win0_3.index t (0 : Fin 2) = 0 ∧ win0_3.index t (1 : Fin 2) = 0 :=
  (by decide +kernel : ∀ t : Fin grid0.N, _)
theorem idx_facts4 : ∀ t : Fin cfg0.N, win0_4.index t (0 : Fin 3) = 0 ∧ win0_4.index t (1 : Fin 3) = 0 ∧ win0_4.index t (2 : Fin 3) = 0 :=
  (by decide +kernel : ∀ t : Fin grid0.N, _)

variable (m : (ℓ : Loc nD τ sig) → Buf (Elt Ideal) ℓ) (c : Dev nD)

theorem blk0_apply (t : Fin cfg0.N) (y : S16x2304.Idx) :
    blk0 m c t y = (V m c main_v256 : S16x2304.Idx → EReal) y := by
  obtain ⟨e0, e1⟩ := idx_facts0 t
  show (V m c main_v256 : S16x2304.Idx → EReal) (((cfg0.win 0).blk t).view.emb y) = _
  refine congrArg (V m c main_v256 : S16x2304.Idx → EReal) (funext fun a => Fin.ext ?_)
  match a with
  | ⟨0, _⟩ => show win0_0.index t (0 : Fin 2) * 16 + 1 * (y 0).val = (y 0).val; omega
  | ⟨1, _⟩ => show win0_0.index t (1 : Fin 2) * 2304 + 1 * (y 1).val = (y 1).val; omega

theorem blk1_apply (t : Fin cfg0.N) (ch : Fin 32) (n : Fin 2304) (b : Fin 2) (t' : Fin 32) (hb : b.val = t.val / 32) (ht : t'.val = t.val % 32) :
    blk1 m c t (ix4 (0 : Fin 1) (0 : Fin 1) ch n) = (V m c main_v261 : S2x32x32x2304.Idx → EReal) (ix4 b t' ch n) := by
  obtain ⟨e0, e1, e2, e3⟩ := idx_facts1 t
  show (V m c main_v261 : S2x32x32x2304.Idx → EReal) (((cfg0.win 1).blk t).view.emb (ix4 (0 : Fin 1) (0 : Fin 1) ch n)) = _
  refine congrArg (V m c main_v261 : S2x32x32x2304.Idx → EReal) (funext fun a => Fin.ext ?_)
  match a with
  | ⟨0, _⟩ => show win0_1.index t (0 : Fin 4) * 1 + 1 * 0 = b.val; omega
  | ⟨1, _⟩ => show win0_1.index t (1 : Fin 4) * 1 + 1 * 0 = t'.val; omega
  | ⟨2, _⟩ => show win0_1.index t (2 : Fin 4) * 32 + 1 * ch.val = ch.val; omega
  | ⟨3, _⟩ => show win0_1.index t (3 : Fin 4) * 2304 + 1 * n.val = n.val; omega

theorem blk2_apply (t : Fin cfg0.N) (y : S192x880.Idx) :
    blk2 m c t y = (V m c main_v32 : S192x880.Idx → EReal) y := by
  obtain ⟨e0, e1⟩ := idx_facts2 t
  show (V m c main_v32 : S192x880.Idx → EReal) (((cfg0.win 2).blk t).view.emb y) = _
  refine congrArg (V m c main_v32 : S192x880.Idx → EReal) (funext fun a => Fin.ext ?_)
  match a with
  | ⟨0, _⟩ => show win0_2.index t (0 : Fin 2) * 192 + 1 * (y 0).val = (y 0).val; omega
  | ⟨1, _⟩ => show win0_2.index t (1 : Fin 2) * 880 + 1 * (y 1).val = (y 1).val; omega

theorem blk3_apply (t : Fin cfg0.N) (y : S192x1168.Idx) :
    blk3 m c t y = (V m c main_v65 : S192x1168.Idx → EReal) y := by
  obtain ⟨e0, e1⟩ := idx_facts3 t
  show (V m c main_v65 : S192x1168.Idx → EReal) (((cfg0.win 3).blk t).view.emb y) = _
  refine congrArg (V m c main_v65 : S192x1168.Idx → EReal) (funext fun a => Fin.ext ?_)
  match a with
  | ⟨0, _⟩ => show win0_3.index t (0 : Fin 2) * 192 + 1 * (y 0).val = (y 0).val; omega
  | ⟨1, _⟩ => show win0_3.index t (1 : Fin 2) * 1168 + 1 * (y 1).val = (y 1).val; omega

theorem blk4_apply (t : Fin cfg0.N) (y : S2x64x576.Idx) :
    blk4 m c t y = (V m c main_v66 : S2x64x576.Idx → EReal) y := by
  obtain ⟨e0, e1, e2⟩ := idx_facts4 t
  show (V m c main_v66 : S2x64x576.Idx → EReal) (((cfg0.win 4).blk t).view.emb y) = _
  refine congrArg (V m c main_v66 : S2x64x576.Idx → EReal) (funext fun a => Fin.ext ?_)
  match a with
  | ⟨0, _⟩ => show win0_4.index t (0 : Fin 3) * 2 + 1 * (y 0).val = (y 0).val; omega
  | ⟨1, _⟩ => show win0_4.index t (1 : Fin 3) * 64 + 1 * (y 1).val = (y 1).val; omega
  | ⟨2, _⟩ => show win0_4.index t (2 : Fin 3) * 576 + 1 * (y 2).val = (y 2).val; omega

theorem hostIn : HostIn m c := fun t =>
  have htN : t.val < 64 := N64 ▸ t.isLt
  { mask := fun i n => blk0_apply m c t _
    xin := fun ch n =>
      (blk1_apply m c t ch n (⟨t.val / 32, by omega⟩ : Fin 2) (⟨t.val % 32, Nat.mod_lt _ (by decide)⟩ : Fin 32) rfl rfl).trans
        (V_xin m c _ _ ch n)
    w0b := fun o => (blk2_apply m c t _).trans (V_w0b m c o _ rfl)
    w0x := fun o i ch => (blk2_apply m c t _).trans (V_w0x m c o i ch _ _ rfl rfl)
    w0h := fun o i ch => (blk2_apply m c t _).trans (V_w0h m c o i ch _ _ rfl rfl)
    w1b := fun o => (blk3_apply m c t _).trans (V_w1b m c o _ rfl)
    w1x := fun o i ch => (blk3_apply m c t _).trans (V_w1x m c o i ch _ _ rfl rfl)
    w1h := fun o i ch => (blk3_apply m c t _).trans (V_w1h m c o i ch _ _ rfl rfl)
    w2 := fun l ch k => (blk4_apply m c t _).trans (V_w2 m c l ch k) }

end Cert.KernelIdeal.Par

end
-- ==== Proof.LibPlainProduct.lean ====
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : ℕ}

abbrev contracted (M K N : ℕ) : (DotDims.plain M K N).contr.Idx ≃ Fin K :=
  contrEquiv1 (DotDims.plain M K N) K rfl rfl

theorem lhsIdx_plain (p : Fin M) (j : Fin N) (k : Fin K) :
    (DotDims.plain M K N).lhsIdx (ix2 p j) ((contracted M K N).symm k) = ix2 p k :=
  funext fun ax => Fin.ext (by
    match ax with
    | ⟨0, _⟩ => rfl
    | ⟨1, _⟩ => exact contrEquiv1_symm_val (DotDims.plain M K N) K rfl rfl k)

theorem rhsIdx_plain (p : Fin M) (j : Fin N) (k : Fin K) :
    (DotDims.plain M K N).rhsIdx (ix2 p j) ((contracted M K N).symm k) = ix2 k j :=
  funext fun ax => Fin.ext (by
    match ax with
    | ⟨0, _⟩ => exact contrEquiv1_symm_val (DotDims.plain M K N) K rfl rfl k
    | ⟨1, _⟩ => rfl)

theorem matmul_zero_plain_apply {φ₁ φ₂ : FTy} (a : FVec Ideal ⟨2, ![M, K]⟩ φ₁) (w : FVec Ideal ⟨2, ![K, N]⟩ φ₂) (prec : Option ContractPrecision) (p : Fin M) (j : Fin N) :
    FloatOps.matmul (DotDims.plain M K N) prec a w (constant ⟨2, ![M, N]⟩ .f32 0x00000000#32) (ix2 p j)
      = ∑ k : Fin K, a (ix2 p k) * w (ix2 k j) := by
  rw [Ideal.matmul_constant_zero_apply, ← Equiv.sum_comp (contracted M K N).symm]
  exact Finset.sum_congr rfl fun k _ => by rw [lhsIdx_plain, rhsIdx_plain]

theorem dotGeneral_plain_apply {φ₁ φ₂ : FTy} (a : FVec Ideal ⟨2, ![M, K]⟩ φ₁) (w : FVec Ideal ⟨2, ![K, N]⟩ φ₂) (prec : Option ContractPrecision) (sched : HostSchedule) (p : Fin M) (j : Fin N) :
    FloatOps.dotGeneral (DotDims.plain M K N) prec sched a w (ix2 p j) = ∑ k : Fin K, a (ix2 p k) * w (ix2 k j) := by
  rw [Ideal.dotGeneral_apply, ← Equiv.sum_comp (contracted M K N).symm]
  exact Finset.sum_congr rfl fun k _ => by rw [lhsIdx_plain, rhsIdx_plain]

end Cert.LibPlainProduct

end
-- ==== Proof.KI.Pay0.lean ====
import proofs.«130420_g2000206920649175_pallasbulk_1279_2_alg».proof.Proof.Gen.KernelIdeal.Skeleton
import proofs.«130420_g2000206920649175_pallasbulk_1279_2_alg».proof.Proof.Spec
import proofs.«130420_g2000206920649175_pallasbulk_1279_2_alg».proof.Proof.LibPlainProduct
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

noncomputable section

open scoped BigOperators

namespace Cert.KernelIdeal.Pay0

open Idealize.ShloMosaic Idealize.ShloMosaic.ValueIdx Cert.KernelIdeal.Gen

theorem rot_zero (v : Spec.Row) : Spec.rot 0 v = v := by
  funext n
  show v ⟨(n.val + 2304 - 0 % 2304) % 2304, _⟩ = v n
  refine congrArg v (Fin.ext ?_)
  show (n.val + 2304 - 0 % 2304) % 2304 = n.val
  have := n.isLt
  omega

theorem rotate_apply {R : ℕ} (sb : BitVec 32) (a : ℕ) (hsb : sb.toNat = a) (x : (⟨2, ![R, 2304]⟩ : Shape).Idx → EReal) (hr : (⟨2, ![R, 2304]⟩ : Shape).Rotates 1 none) (r : Fin R) (n : Fin 2304) :
    dynamicRotate 1 sb none x hr (ix2 r n) = Spec.rot a (fun n' => x (ix2 r n')) n := by
  refine (dynamicRotate_apply (1 : Fin 2) sb x hr (ix2 r n)
    (ix2 r (⟨(n.val + 2304 - a % 2304) % 2304, Nat.mod_lt _ (by decide)⟩ : Fin 2304)) (by
      intro b
      match b with
      | ⟨0, _⟩ => rfl
      | ⟨1, _⟩ => show (n.val + 2304 - a % 2304) % 2304 = (n.val + 2304 - sb.toNat % 2304) % 2304; rw [hsb])).trans ?_
  rfl

theorem maskRows_apply {R : ℕ} (m : (⟨2, ![1, 2304]⟩ : Shape).Idx → EReal) (h1 : (⟨2, ![1, 2304]⟩ : Shape).ShapeCasts ⟨2, ![1, 2304]⟩) (hb : (⟨2, ![1, 2304]⟩ : Shape).Broadcasts ⟨2, ![R, 2304]⟩) (r : Fin R) (n : Fin 2304) :
    broadcastTo ⟨2, ![R, 2304]⟩ (shapeCast ⟨2, ![1, 2304]⟩ m h1) hb (ix2 r n) = m (ix2 (0 : Fin 1) n) := by
  refine (broadcastTo_1b_ab_apply _ hb r n).trans ?_
  rw [shapeCast_self]

theorem tapForm_apply {R : ℕ} (sb : BitVec 32) (a : ℕ) (hsb : sb.toNat = a) (x : FVec Ideal ⟨2, ![R, 2304]⟩ .bf16) (m : FVec Ideal ⟨2, ![1, 2304]⟩ .bf16) (hr : (⟨2, ![R, 2304]⟩ : Shape).Rotates 1 none) (h1 : (⟨2, ![1, 2304]⟩ : Shape).ShapeCasts ⟨2, ![1, 2304]⟩) (hb : (⟨2, ![1, 2304]⟩ : Shape).Broadcasts ⟨2, ![R, 2304]⟩) (h2 : (⟨2, ![R, 2304]⟩ : Shape).ShapeCasts ⟨2, ![R, 2304]⟩) (r : Fin R) (n : Fin 2304) :
    shapeCast ⟨2, ![R, 2304]⟩
        (mulf (dynamicRotate 1 sb none x hr) (broadcastTo ⟨2, ![R, 2304]⟩ (shapeCast ⟨2, ![1, 2304]⟩ m h1) hb)) h2 (ix2 r n)
      = Spec.rot a (fun n' => x (ix2 r n')) n * m (ix2 (0 : Fin 1) n) := by
  rw [shapeCast_self]
  show dynamicRotate 1 sb none x hr (ix2 r n) * broadcastTo ⟨2, ![R, 2304]⟩ (shapeCast ⟨2, ![1, 2304]⟩ m h1) hb (ix2 r n) = _
  rw [rotate_apply sb a hsb x hr r n, maskRows_apply m h1 hb r n]

theorem tapForm0_apply {R : ℕ} (x : FVec Ideal ⟨2, ![R, 2304]⟩ .bf16) (m : FVec Ideal ⟨2, ![1, 2304]⟩ .bf16) (h1 : (⟨2, ![1, 2304]⟩ : Shape).ShapeCasts ⟨2, ![1, 2304]⟩) (hb : (⟨2, ![1, 2304]⟩ : Shape).Broadcasts ⟨2, ![R, 2304]⟩) (h2 : (⟨2, ![R, 2304]⟩ : Shape).ShapeCasts ⟨2, ![R, 2304]⟩) (r : Fin R) (n : Fin 2304) :
    shapeCast ⟨2, ![R, 2304]⟩
        (mulf x (broadcastTo ⟨2, ![R, 2304]⟩ (shapeCast ⟨2, ![1, 2304]⟩ m h1) hb)) h2 (ix2 r n)
      = Spec.rot 0 (fun n' => x (ix2 r n')) n * m (ix2 (0 : Fin 1) n) := by
  rw [shapeCast_self, rot_zero]
  show x (ix2 r n) * broadcastTo ⟨2, ![R, 2304]⟩ (shapeCast ⟨2, ![1, 2304]⟩ m h1) hb (ix2 r n) = _
  rw [maskRows_apply m h1 hb r n]

theorem tap3_apply (v8 : FVec Ideal S96x2304 .bf16) (v36 : Vec Ideal S1x2304 .bf16) (r : Fin 96) (n : Fin 2304) :
    k0_pay16 v8 v36 (ix2 r n)
      = Spec.rot (Spec.amt 3) (fun n' => v8 (ix2 r n')) n * v36 (ix2 (0 : Fin 1) n) :=
  tapForm_apply 1#32 (Spec.amt 3) rfl v8 v36 _ _ _ _ r n

theorem acc_apply (v82 : Vec Ideal S192x880 .bf16) (v84 : Vec Ideal S880x2304 .bf16) (o : Fin 192) (n : Fin 2304) :
    k0_pay23 v82 v84 (ix2 o n) = ∑ k : Fin 880, v82 (ix2 o k) * v84 (ix2 k n) := by
  unfold k0_pay23
  rw [shapeCast_self]
  exact Cert.LibPlainProduct.matmul_zero_plain_apply (M := 192) (K := 880) (N := 2304) (φ₁ := .bf16) (φ₂ := .bf16) v82 v84 none o n

theorem tap4_apply (v8 : FVec Ideal S96x2304 .bf16) (v43 : Vec Ideal S1x2304 .bf16) (r : Fin 96) (n : Fin 2304) :
    k0_pay17 v8 v43 (ix2 r n)
      = Spec.rot (Spec.amt 4) (fun n' => v8 (ix2 r n')) n * v43 (ix2 (0 : Fin 1) n) :=
  tapForm0_apply v8 v43 _ _ _ r n

theorem tap5_apply (v8 : FVec Ideal S96x2304 .bf16) (v51 : Vec Ideal S1x2304 .bf16) (r : Fin 96) (n : Fin 2304) :
    k0_pay18 v8 v51 (ix2 r n)
      = Spec.rot (Spec.amt 5) (fun n' => v8 (ix2 r n')) n * v51 (ix2 (0 : Fin 1) n) :=
  tapForm_apply 2303#32 (Spec.amt 5) rfl v8 v51 _ _ _ _ r n

theorem tap7_apply (v8 : FVec Ideal S96x2304 .bf16) (v67 : Vec Ideal S1x2304 .bf16) (r : Fin 96) (n : Fin 2304) :
    k0_pay21 v8 v67 (ix2 r n)
      = Spec.rot (Spec.amt 7) (fun n' => v8 (ix2 r n')) n * v67 (ix2 (0 : Fin 1) n) :=
  tapForm_apply 2280#32 (Spec.amt 7) rfl v8 v67 _ _ _ _ r n

theorem tap8_apply (v8 : FVec Ideal S96x2304 .bf16) (v75 : Vec Ideal S1x2304 .bf16) (r : Fin 96) (n : Fin 2304) :
    k0_pay22 v8 v75 (ix2 r n)
      = Spec.rot (Spec.amt 8) (fun n' => v8 (ix2 r n')) n * v75 (ix2 (0 : Fin 1) n) :=
  tapForm_apply 2279#32 (Spec.amt 8) rfl v8 v75 _ _ _ _ r n

theorem tap6_apply (v8 : FVec Ideal S96x2304 .bf16) (v59 : Vec Ideal S1x2304 .bf16) (r : Fin 96) (n : Fin 2304) :
    k0_pay20 (k0_pay19 v8 v59) (ix2 r n)
      = Spec.rot (Spec.amt 6) (fun n' => v8 (ix2 r n')) n * v59 (ix2 (0 : Fin 1) n) := by
  unfold k0_pay20 k0_pay19
  exact tapForm_apply 2281#32 (Spec.amt 6) rfl v8 v59 _ _ _ _ r n

theorem tap0_apply (v3 : Vec Ideal S1x1x32x2304 .bf16) (v5 : Vec Ideal S1x64x2304 .f32) (v12 : Vec Ideal S1x2304 .bf16) (r : Fin 96) (n : Fin 2304) :
    k0_pay11 v3 v5 v12 (ix2 r n)
      = Spec.rot (Spec.amt 0) (fun n' => k0_pay9 v3 v5 (ix2 r n')) n * v12 (ix2 (0 : Fin 1) n) :=
  tapForm_apply 25#32 (Spec.amt 0) rfl (k0_pay9 v3 v5) v12 _ _ _ _ r n

theorem tap1_apply (v3 : Vec Ideal S1x1x32x2304 .bf16) (v5 : Vec Ideal S1x64x2304 .f32) (v20 : Vec Ideal S1x2304 .bf16) (r : Fin 96) (n : Fin 2304) :
    k0_pay12 v3 v5 v20 (ix2 r n)
      = Spec.rot (Spec.amt 1) (fun n' => k0_pay9 v3 v5 (ix2 r n')) n * v20 (ix2 (0 : Fin 1) n) :=
  tapForm_apply 24#32 (Spec.amt 1) rfl (k0_pay9 v3 v5) v20 _ _ _ _ r n

theorem tap2_apply (v3 : Vec Ideal S1x1x32x2304 .bf16) (v5 : Vec Ideal S1x64x2304 .f32) (v28 : Vec Ideal S1x2304 .bf16) (r : Fin 96) (n : Fin 2304) :
    k0_pay15 (k0_pay13 v3 v5) (k0_pay14 v28) (ix2 r n)
      = Spec.rot (Spec.amt 2) (fun n' => k0_pay9 v3 v5 (ix2 r n')) n * v28 (ix2 (0 : Fin 1) n) := by
  unfold k0_pay15 k0_pay13 k0_pay14
  exact tapForm_apply 23#32 (Spec.amt 2) rfl (k0_pay9 v3 v5) v28 _ _ _ _ r n

theorem state_apply (v5 : Vec Ideal S1x64x2304 .f32) (c : Fin 64) (n : Fin 2304) :
    k0_pay8 v5 (ix2 c n) = v5 (ix3 (0 : Fin 1) c n) :=
  shapeCast_1ab_ab_apply v5 _ c n

theorem stack_input_apply (v3 : Vec Ideal S1x1x32x2304 .bf16) (v5 : Vec Ideal S1x64x2304 .f32) (r : Fin 32) (n : Fin 2304) :
    k0_pay9 v3 v5 (ix2 (⟨r.val, by omega⟩ : Fin 96) n) = v3 (ix4 (0 : Fin 1) (0 : Fin 1) r n) := by
  unfold k0_pay9
  refine (concatenate_pair_apply_left (t := S96x2304) (s₁ := S32x2304) (s₂ := S64x2304) (0 : Fin 2) _ _ _ (ix2 (⟨r.val, by omega⟩ : Fin 96) n) rfl (ix2 r n) (by
    intro b
    match b with
    | ⟨0, _⟩ => rfl
    | ⟨1, _⟩ => rfl)).trans ?_
  exact shapeCast_apply v3 _ (ix2 r n) (ix4 (0 : Fin 1) (0 : Fin 1) r n) (by
    rw [Shape.rowMajor_val_four, Shape.rowMajor_val_two]
    show ((0 * 1 + 0) * 32 + r.val) * 2304 + n.val = r.val * 2304 + n.val
    omega)

theorem stack_state_apply (v3 : Vec Ideal S1x1x32x2304 .bf16) (v5 : Vec Ideal S1x64x2304 .f32) (c : Fin 64) (n : Fin 2304) :
    k0_pay9 v3 v5 (ix2 (⟨32 + c.val, by omega⟩ : Fin 96) n) = v5 (ix3 (0 : Fin 1) c n) := by
  unfold k0_pay9
  refine (concatenate_pair_apply_right (t := S96x2304) (s₁ := S32x2304) (s₂ := S64x2304) (0 : Fin 2) _ _ _ (ix2 (⟨32 + c.val, by omega⟩ : Fin 96) n) rfl rfl (ix2 c n) (by
    intro b hb
    match b, hb with
    | ⟨0, _⟩, hb => exact absurd rfl hb
    | ⟨1, _⟩, _ => rfl) (by
    show c.val + 32 = 32 + c.val
    omega)).trans ?_
  exact state_apply v5 c n

theorem accSlice_apply (v82 : Vec Ideal S192x880 .bf16) (v84 : Vec Ideal S880x2304 .bf16) (off : ℕ) (h : S192x2304.Slices ![off, 0] S64x2304) (c : Fin 64) (o : Fin 192) (ho : o.val = off + c.val) (n : Fin 2304) :
    extractStridedSlice S64x2304 ![off, 0] (k0_pay23 v82 v84) h (ix2 c n)
      = ∑ k : Fin 880, v82 (ix2 o k) * v84 (ix2 k n) :=
  (slice2_axis0_apply off _ h c n o ho).trans (acc_apply v82 v84 o n)

theorem candIn_apply (v82 : Vec Ideal S192x880 .bf16) (v84 : Vec Ideal S880x2304 .bf16) (c : Fin 64) (n : Fin 2304) :
    k0_pay25 v82 v84 (ix2 c n)
      = ∑ k : Fin 880, v82 (ix2 (⟨128 + c.val, by omega⟩ : Fin 192) k) * v84 (ix2 k n) := by
  unfold k0_pay25
  exact accSlice_apply v82 v84 128 _ c _ rfl n

theorem update_apply (v82 : Vec Ideal S192x880 .bf16) (v84 : Vec Ideal S880x2304 .bf16) (c : Fin 64) (n : Fin 2304) :
    k0_pay24 v82 v84 (ix2 c n)
      = Ideal.logistic (∑ k : Fin 880, v82 (ix2 (⟨64 + c.val, by omega⟩ : Fin 192) k) * v84 (ix2 k n)) :=
  congrArg Ideal.logistic (accSlice_apply v82 v84 64 _ c _ rfl n)

theorem gated_apply (v6 : FVec Ideal S64x2304 .f32) (v82 : Vec Ideal S192x880 .bf16) (v84 : Vec Ideal S880x2304 .bf16) (c : Fin 64) (n : Fin 2304) :
    k0_pay26 v6 v82 v84 (ix2 c n)
      = v6 (ix2 c n) * Ideal.logistic (∑ k : Fin 880, v82 (ix2 (⟨c.val, by omega⟩ : Fin 192) k) * v84 (ix2 k n)) :=
  congrArg (fun z => v6 (ix2 c n) * Ideal.logistic z) (accSlice_apply v82 v84 0 _ c _ (Nat.zero_add _).symm n)

theorem gtap0_apply (v6 : FVec Ideal S64x2304 .f32) (v82 : Vec Ideal S192x880 .bf16) (v84 : Vec Ideal S880x2304 .bf16) (v94 : Vec Ideal S1x2304 .bf16) (c : Fin 64) (n : Fin 2304) :
    k0_pay27 v6 v82 v84 v94 (ix2 c n)
      = Spec.rot (Spec.amt 0) (fun n' => k0_pay26 v6 v82 v84 (ix2 c n')) n * v94 (ix2 (0 : Fin 1) n) :=
  tapForm_apply 25#32 (Spec.amt 0) rfl (k0_pay26 v6 v82 v84) v94 _ _ _ _ c n

theorem gtap1_apply (v92 : FVec Ideal S64x2304 .bf16) (v102 : Vec Ideal S1x2304 .bf16) (c : Fin 64) (n : Fin 2304) :
    k0_pay28 v92 v102 (ix2 c n)
      = Spec.rot (Spec.amt 1) (fun n' => v92 (ix2 c n')) n * v102 (ix2 (0 : Fin 1) n) :=
  tapForm_apply 24#32 (Spec.amt 1) rfl v92 v102 _ _ _ _ c n

theorem gtap2_apply (v92 : FVec Ideal S64x2304 .bf16) (v110 : Vec Ideal S1x2304 .bf16) (c : Fin 64) (n : Fin 2304) :
    k0_pay29 v92 v110 (ix2 c n)
      = Spec.rot (Spec.amt 2) (fun n' => v92 (ix2 c n')) n * v110 (ix2 (0 : Fin 1) n) :=
  tapForm_apply 23#32 (Spec.amt 2) rfl v92 v110 _ _ _ _ c n

theorem gtap3_apply (v92 : FVec Ideal S64x2304 .bf16) (v118 : Vec Ideal S1x2304 .bf16) (c : Fin 64) (n : Fin 2304) :
    k0_pay30 v92 v118 (ix2 c n)
      = Spec.rot (Spec.amt 3) (fun n' => v92 (ix2 c n')) n * v118 (ix2 (0 : Fin 1) n) :=
  tapForm_apply 1#32 (Spec.amt 3) rfl v92 v118 _ _ _ _ c n

theorem gtap4_apply (v92 : FVec Ideal S64x2304 .bf16) (v125 : Vec Ideal S1x2304 .bf16) (c : Fin 64) (n : Fin 2304) :
    k0_pay31 v92 v125 (ix2 c n)
      = Spec.rot (Spec.amt 4) (fun n' => v92 (ix2 c n')) n * v125 (ix2 (0 : Fin 1) n) :=
  tapForm0_apply v92 v125 _ _ _ c n

theorem gtap5_apply (v92 : FVec Ideal S64x2304 .bf16) (v133 : Vec Ideal S1x2304 .bf16) (c : Fin 64) (n : Fin 2304) :
    k0_pay34 (k0_pay32 v92) (k0_pay33 v133) (ix2 c n)
      = Spec.rot (Spec.amt 5) (fun n' => v92 (ix2 c n')) n * v133 (ix2 (0 : Fin 1) n) := by
  unfold k0_pay34 k0_pay32 k0_pay33
  exact tapForm_apply 2303#32 (Spec.amt 5) rfl v92 v133 _ _ _ _ c n

theorem gtap6_apply (v92 : FVec Ideal S64x2304 .bf16) (v141 : Vec Ideal S1x2304 .bf16) (c : Fin 64) (n : Fin 2304) :
    k0_pay35 v92 v141 (ix2 c n)
      = Spec.rot (Spec.amt 6) (fun n' => v92 (ix2 c n')) n * v141 (ix2 (0 : Fin 1) n) :=
  tapForm_apply 2281#32 (Spec.amt 6) rfl v92 v141 _ _ _ _ c n

theorem gtap7_apply (v92 : FVec Ideal S64x2304 .bf16) (v149 : Vec Ideal S1x2304 .bf16) (c : Fin 64) (n : Fin 2304) :
    k0_pay36 v92 v149 (ix2 c n)
      = Spec.rot (Spec.amt 7) (fun n' => v92 (ix2 c n')) n * v149 (ix2 (0 : Fin 1) n) :=
  tapForm_apply 2280#32 (Spec.amt 7) rfl v92 v149 _ _ _ _ c n

theorem gtap8_apply (v92 : FVec Ideal S64x2304 .bf16) (v157 : Vec Ideal S1x2304 .bf16) (c : Fin 64) (n : Fin 2304) :
    k0_pay37 v92 v157 (ix2 c n)
      = Spec.rot (Spec.amt 8) (fun n' => v92 (ix2 c n')) n * v157 (ix2 (0 : Fin 1) n) :=
  tapForm_apply 2279#32 (Spec.amt 8) rfl v92 v157 _ _ _ _ c n

theorem candWeights_apply (v9 : Vec Ideal S1x64x576 .bf16) (c : Fin 64) (k : Fin 576) :
    k0_pay10 v9 (ix2 c k) = v9 (ix3 (0 : Fin 1) c k) :=
  shapeCast_1ab_ab_apply v9 _ c k

theorem dot2_plain : dot_S64x576_S576x2304_S64x2304_1_0_0_1_n_n = DotDims.plain 64 576 2304 := rfl

theorem newState_apply (v6 : FVec Ideal S64x2304 .f32) (v10 : FVec Ideal S64x576 .bf16) (v89 v90 : FVec Ideal S64x2304 .f32) (v164 : Vec Ideal S576x2304 .bf16) (c : Fin 64) (n : Fin 2304) :
    k0_pay38 v6 v10 v89 v90 v164 (ix2 c n)
      = v6 (ix2 c n) + v89 (ix2 c n)
          * (Ideal.tanh (v90 (ix2 c n) + ∑ k : Fin 576, v10 (ix2 c k) * v164 (ix2 k n)) - v6 (ix2 c n)) := by
  unfold k0_pay38
  rw [dot2_plain]
  exact congrArg (fun z => v6 (ix2 c n) + v89 (ix2 c n) * (Ideal.tanh (v90 (ix2 c n) + z) - v6 (ix2 c n)))
    (Cert.LibPlainProduct.matmul_zero_plain_apply (M := 64) (K := 576) (N := 2304) (φ₁ := .bf16) (φ₂ := .bf16) v10 v164 none c n)

theorem newStateBlock_apply (v170 : FVec Ideal S64x2304 .f32) (u : Fin 1) (c : Fin 64) (n : Fin 2304) :
    k0_pay39 v170 (ix3 u c n) = v170 (ix2 c n) :=
  shapeCast_ab_1ab_apply v170 _ u c n

end Cert.KernelIdeal.Pay0

end
-- ==== Proof.KI.Pay1.lean ====
import proofs.«130420_g2000206920649175_pallasbulk_1279_2_alg».proof.Proof.KI.Pay0

noncomputable section

namespace Cert.KernelIdeal.Pay1

open scoped BigOperators
open Idealize.ShloMosaic Idealize.ShloMosaic.ValueIdx
open Cert.KernelIdeal Cert.KernelIdeal.Gen

theorem f32_zero : (Scalar.ofBits .f32 0x00000000#32 : Ideal .f32) = 0 := by
  show Ideal.ofBits .f32 0x00000000#32 = 0
  simp [Ideal.ofBits, Ideal.ieee]

theorem bf16_zero : (Scalar.ofBits .bf16 0x0000#16 : Ideal .bf16) = 0 := by
  show Ideal.ofBits .bf16 0x0000#16 = 0
  simp [Ideal.ofBits, Ideal.ieee]

theorem bf16_one : (Scalar.ofBits .bf16 0x3F80#16 : Ideal .bf16) = 1 := by
  show Ideal.ofBits .bf16 0x3F80#16 = 1
  simp [Ideal.ofBits, Ideal.ieee, -EReal.coe_mul]; norm_num

theorem pay4_apply (i : S2x64x2304.Idx) : k0_pay4 (F := Ideal) i = 0 := by
  unfold k0_pay4
  rw [shapeCast_self]
  exact f32_zero

theorem pay5_apply (i : S1168x2304.Idx) : k0_pay5 (F := Ideal) i = 0 := by
  unfold k0_pay5
  rw [shapeCast_self]
  exact bf16_zero

theorem pay7_apply (i : S1x2304.Idx) : k0_pay7 (F := Ideal) i = 1 := by
  unfold k0_pay7
  rw [shapeCast_self]
  exact bf16_one

theorem cast2to4_apply (x : S64x2304.Idx → EReal) (h : S64x2304.ShapeCasts S1x1x64x2304) (u v : Fin 1) (c : Fin 64) (n : Fin 2304) :
    shapeCast S1x1x64x2304 x h (ix4 u v c n) = x (ix2 c n) := by
  refine shapeCast_apply x h (ix4 u v c n) (ix2 c n) ?_
  have hu : u.val = 0 := by omega
  have hv : v.val = 0 := by omega
  rw [Shape.rowMajor_val_two, Shape.rowMajor_val_four]
  show c.val * 2304 + n.val = ((u.val * 1 + v.val) * 64 + c.val) * 2304 + n.val
  omega

theorem pay1_apply (v340 : FVec Ideal S64x2304 .f32) (u v : Fin 1) (c : Fin 64) (n : Fin 2304) :
    k0_pay1 v340 (ix4 u v c n) = v340 (ix2 c n) :=
  cast2to4_apply v340 _ u v c n

theorem cast3to4_apply (x : (⟨3, ![1, 64, 2304]⟩ : Shape).Idx → EReal) (h1 : S1x64x2304.ShapeCasts S64x2304) (h2 : S64x2304.ShapeCasts S1x1x64x2304) (u v : Fin 1) (c : Fin 64) (n : Fin 2304) :
    shapeCast S1x1x64x2304 (shapeCast S64x2304 x h1) h2 (ix4 u v c n) = x (ix3 0 c n) :=
  (cast2to4_apply _ h2 u v c n).trans (shapeCast_1ab_ab_apply x h1 c n)

theorem pay2_apply (v350 : Vec Ideal S1x64x2304 .f32) (u v : Fin 1) (c : Fin 64) (n : Fin 2304) :
    k0_pay2 v350 (ix4 u v c n) = v350 (ix3 0 c n) :=
  cast3to4_apply v350 _ _ u v c n

theorem pay3_apply (v355 : Vec Ideal S1x64x2304 .f32) (u v : Fin 1) (c : Fin 64) (n : Fin 2304) :
    k0_pay3 v355 (ix4 u v c n) = v355 (ix3 0 c n) :=
  cast3to4_apply v355 _ _ u v c n

theorem pay40_apply (v174 : Vec Ideal S1x64x2304 .f32) (c : Fin 64) (n : Fin 2304) :
    k0_pay40 v174 (ix2 c n) = v174 (ix3 0 c n) :=
  shapeCast_1ab_ab_apply v174 _ c n

theorem pay42_apply (v179 : Vec Ideal S1x64x576 .bf16) (c : Fin 64) (k : Fin 576) :
    k0_pay42 v179 (ix2 c k) = v179 (ix3 0 c k) :=
  shapeCast_1ab_ab_apply v179 _ c k

theorem stack_lo (v170 : FVec Ideal S64x2304 .f32) (v174 : Vec Ideal S1x64x2304 .f32) (r : Fin 128) (c : Fin 64) (hr : r.val = c.val) (n : Fin 2304) :
    k0_pay41 v170 v174 (ix2 r n) = v170 (ix2 c n) := by
  unfold k0_pay41
  refine (concatenate_pair_apply_left (t := S128x2304) (s₁ := S64x2304) (s₂ := S64x2304) 0 _ _ _ (ix2 r n) rfl (ix2 c n) (fun b => ?_)).trans rfl
  match b with
  | ⟨0, _⟩ => exact hr.symm
  | ⟨1, _⟩ => rfl

theorem stack_hi (v170 : FVec Ideal S64x2304 .f32) (v174 : Vec Ideal S1x64x2304 .f32) (r : Fin 128) (c : Fin 64) (hr : r.val = 64 + c.val) (n : Fin 2304) :
    k0_pay41 v170 v174 (ix2 r n) = v174 (ix3 0 c n) := by
  unfold k0_pay41
  refine (concatenate_pair_apply_right (t := S128x2304) (s₁ := S64x2304) (s₂ := S64x2304) 0 _ _ _ (ix2 r n) rfl rfl (ix2 c n) (fun b hb => ?_) ?_).trans
    (pay40_apply v174 c n)
  · match b, hb with
    | ⟨0, _⟩, hb => exact absurd rfl hb
    | ⟨1, _⟩, _ => rfl
  · show c.val + 64 = r.val
    omega

theorem tap0_apply (v170 : FVec Ideal S64x2304 .f32) (v174 : Vec Ideal S1x64x2304 .f32) (v182 : Vec Ideal S1x2304 .bf16) (r : Fin 128) (n : Fin 2304) :
    k0_pay43 v170 v174 v182 (ix2 r n)
      = Spec.rot (Spec.amt 0) (fun n' => k0_pay41 v170 v174 (ix2 r n')) n * v182 (ix2 0 n) :=
  Pay0.tapForm_apply 25#32 (Spec.amt 0) rfl (k0_pay41 v170 v174) v182 _ _ _ _ r n

theorem tap1_apply (v170 : FVec Ideal S64x2304 .f32) (v174 : Vec Ideal S1x64x2304 .f32) (v190 : Vec Ideal S1x2304 .bf16) (r : Fin 128) (n : Fin 2304) :
    k0_pay44 v170 v174 v190 (ix2 r n)
      = Spec.rot (Spec.amt 1) (fun n' => k0_pay41 v170 v174 (ix2 r n')) n * v190 (ix2 0 n) :=
  Pay0.tapForm_apply 24#32 (Spec.amt 1) rfl (k0_pay41 v170 v174) v190 _ _ _ _ r n

theorem tap2_apply (v170 : FVec Ideal S64x2304 .f32) (v174 : Vec Ideal S1x64x2304 .f32) (v198 : Vec Ideal S1x2304 .bf16) (r : Fin 128) (n : Fin 2304) :
    k0_pay45 v170 v174 v198 (ix2 r n)
      = Spec.rot (Spec.amt 2) (fun n' => k0_pay41 v170 v174 (ix2 r n')) n * v198 (ix2 0 n) := by
  unfold k0_pay45
  rw [mulf_apply, Pay0.rotate_apply 23#32 (Spec.amt 2) rfl, Pay0.maskRows_apply]

theorem pay46_eq (v201 : FVec Ideal S128x2304 .bf16) : k0_pay46 v201 = v201 :=
  shapeCast_self v201 _

theorem tap3_apply (v178 : FVec Ideal S128x2304 .bf16) (v206 : Vec Ideal S1x2304 .bf16) (r : Fin 128) (n : Fin 2304) :
    k0_pay47 v178 v206 (ix2 r n) = Spec.rot (Spec.amt 3) (fun n' => v178 (ix2 r n')) n * v206 (ix2 0 n) :=
  Pay0.tapForm_apply 1#32 (Spec.amt 3) rfl v178 v206 _ _ _ _ r n

theorem tap4_apply (v178 : FVec Ideal S128x2304 .bf16) (v213 : Vec Ideal S1x2304 .bf16) (r : Fin 128) (n : Fin 2304) :
    k0_pay48 v178 v213 (ix2 r n) = Spec.rot (Spec.amt 4) (fun n' => v178 (ix2 r n')) n * v213 (ix2 0 n) :=
  Pay0.tapForm0_apply v178 v213 _ _ _ r n

theorem tap5_apply (v178 : FVec Ideal S128x2304 .bf16) (v221 : Vec Ideal S1x2304 .bf16) (r : Fin 128) (n : Fin 2304) :
    k0_pay49 v178 v221 (ix2 r n) = Spec.rot (Spec.amt 5) (fun n' => v178 (ix2 r n')) n * v221 (ix2 0 n) :=
  Pay0.tapForm_apply 2303#32 (Spec.amt 5) rfl v178 v221 _ _ _ _ r n

theorem tap6_apply (v178 : FVec Ideal S128x2304 .bf16) (v229 : Vec Ideal S1x2304 .bf16) (r : Fin 128) (n : Fin 2304) :
    k0_pay50 v178 v229 (ix2 r n) = Spec.rot (Spec.amt 6) (fun n' => v178 (ix2 r n')) n * v229 (ix2 0 n) :=
  Pay0.tapForm_apply 2281#32 (Spec.amt 6) rfl v178 v229 _ _ _ _ r n

theorem tap7_apply (v178 : FVec Ideal S128x2304 .bf16) (v237 : Vec Ideal S1x2304 .bf16) (r : Fin 128) (n : Fin 2304) :
    k0_pay52 (k0_pay51 v178) v237 (ix2 r n)
      = Spec.rot (Spec.amt 7) (fun n' => v178 (ix2 r n')) n * v237 (ix2 0 n) := by
  unfold k0_pay52 k0_pay51
  exact Pay0.tapForm_apply 2280#32 (Spec.amt 7) rfl v178 v237 _ _ _ _ r n

theorem tap8_apply (v178 : FVec Ideal S128x2304 .bf16) (v245 : Vec Ideal S1x2304 .bf16) (r : Fin 128) (n : Fin 2304) :
    k0_pay53 v178 v245 (ix2 r n) = Spec.rot (Spec.amt 8) (fun n' => v178 (ix2 r n')) n * v245 (ix2 0 n) :=
  Pay0.tapForm_apply 2279#32 (Spec.amt 8) rfl v178 v245 _ _ _ _ r n

theorem dot1_plain : dot_S192x1168_S1168x2304_S192x2304_1_0_0_1_n_n = DotDims.plain 192 1168 2304 := rfl

theorem acc_apply (v252 : Vec Ideal S192x1168 .bf16) (v254 : Vec Ideal S1168x2304 .bf16) (o : Fin 192) (n : Fin 2304) :
    k0_pay54 v252 v254 (ix2 o n) = ∑ k : Fin 1168, v252 (ix2 o k) * v254 (ix2 k n) := by
  unfold k0_pay54
  rw [dot1_plain, shapeCast_self]
  exact Cert.LibPlainProduct.matmul_zero_plain_apply (M := 192) (K := 1168) (N := 2304) (φ₁ := .bf16) (φ₂ := .bf16) v252 v254 none o n

theorem accSlice_apply (v252 : Vec Ideal S192x1168 .bf16) (v254 : Vec Ideal S1168x2304 .bf16) (off : ℕ) (h : S192x2304.Slices ![off, 0] S64x2304) (c : Fin 64) (o : Fin 192) (ho : o.val = off + c.val) (n : Fin 2304) :
    extractStridedSlice S64x2304 ![off, 0] (k0_pay54 v252 v254) h (ix2 c n)
      = ∑ k : Fin 1168, v252 (ix2 o k) * v254 (ix2 k n) :=
  (slice2_axis0_apply off (k0_pay54 v252 v254) h c n o ho).trans (acc_apply v252 v254 o n)

theorem upd_apply (v252 : Vec Ideal S192x1168 .bf16) (v254 : Vec Ideal S1168x2304 .bf16) (c : Fin 64) (o : Fin 192) (ho : o.val = 64 + c.val) (n : Fin 2304) :
    k0_pay55 v252 v254 (ix2 c n) = Ideal.logistic (∑ k : Fin 1168, v252 (ix2 o k) * v254 (ix2 k n)) :=
  congrArg Ideal.logistic (accSlice_apply v252 v254 64 _ c o ho n)

theorem outx_apply (v252 : Vec Ideal S192x1168 .bf16) (v254 : Vec Ideal S1168x2304 .bf16) (c : Fin 64) (o : Fin 192) (ho : o.val = 128 + c.val) (n : Fin 2304) :
    k0_pay56 v252 v254 (ix2 c n) = ∑ k : Fin 1168, v252 (ix2 o k) * v254 (ix2 k n) := by
  unfold k0_pay56
  exact accSlice_apply v252 v254 128 _ c o ho n

theorem gated_apply (v175 : FVec Ideal S64x2304 .f32) (v252 : Vec Ideal S192x1168 .bf16) (v254 : Vec Ideal S1168x2304 .bf16) (c : Fin 64) (o : Fin 192) (ho : o.val = c.val) (n : Fin 2304) :
    k0_pay57 v175 v252 v254 (ix2 c n)
      = v175 (ix2 c n) * Ideal.logistic (∑ k : Fin 1168, v252 (ix2 o k) * v254 (ix2 k n)) :=
  congrArg (fun z => v175 (ix2 c n) * Ideal.logistic z) (accSlice_apply v252 v254 0 _ c o (by omega) n)

theorem gtap0_apply (v175 : FVec Ideal S64x2304 .f32) (v252 : Vec Ideal S192x1168 .bf16) (v254 : Vec Ideal S1168x2304 .bf16) (v264 : Vec Ideal S1x2304 .bf16) (c : Fin 64) (n : Fin 2304) :
    k0_pay58 v175 v252 v254 v264 (ix2 c n)
      = Spec.rot (Spec.amt 0) (fun n' => k0_pay57 v175 v252 v254 (ix2 c n')) n * v264 (ix2 0 n) :=
  Pay0.tapForm_apply 25#32 (Spec.amt 0) rfl (k0_pay57 v175 v252 v254) v264 _ _ _ _ c n

theorem pay59_apply (v175 : FVec Ideal S64x2304 .f32) (v252 : Vec Ideal S192x1168 .bf16) (v254 : Vec Ideal S1168x2304 .bf16) (c : Fin 64) (n : Fin 2304) :
    k0_pay59 v175 v252 v254 (ix2 c n)
      = Spec.rot (Spec.amt 1) (fun n' => k0_pay57 v175 v252 v254 (ix2 c n')) n := by
  unfold k0_pay59
  exact Pay0.rotate_apply 24#32 (Spec.amt 1) rfl (k0_pay57 v175 v252 v254) _ c n

theorem pay60_eq (v272 : Vec Ideal S1x2304 .bf16) : k0_pay60 v272 = v272 :=
  shapeCast_self v272 _

theorem pay61_apply (v271 : FVec Ideal S64x2304 .bf16) (v273 : FVec Ideal S1x2304 .bf16) (c : Fin 64) (n : Fin 2304) :
    k0_pay61 v271 v273 (ix2 c n) = v271 (ix2 c n) * v273 (ix2 0 n) := by
  unfold k0_pay61
  rw [shapeCast_self, mulf_apply, broadcastTo_1b_ab_apply]

theorem gtap2_apply (v262 : FVec Ideal S64x2304 .bf16) (v280 : Vec Ideal S1x2304 .bf16) (c : Fin 64) (n : Fin 2304) :
    k0_pay62 v262 v280 (ix2 c n) = Spec.rot (Spec.amt 2) (fun n' => v262 (ix2 c n')) n * v280 (ix2 0 n) :=
  Pay0.tapForm_apply 23#32 (Spec.amt 2) rfl v262 v280 _ _ _ _ c n

theorem gtap3_apply (v262 : FVec Ideal S64x2304 .bf16) (v288 : Vec Ideal S1x2304 .bf16) (c : Fin 64) (n : Fin 2304) :
    k0_pay63 v262 v288 (ix2 c n) = Spec.rot (Spec.amt 3) (fun n' => v262 (ix2 c n')) n * v288 (ix2 0 n) :=
  Pay0.tapForm_apply 1#32 (Spec.amt 3) rfl v262 v288 _ _ _ _ c n

theorem gtap4_apply (v262 : FVec Ideal S64x2304 .bf16) (v295 : Vec Ideal S1x2304 .bf16) (c : Fin 64) (n : Fin 2304) :
    k0_pay64 v262 v295 (ix2 c n) = Spec.rot (Spec.amt 4) (fun n' => v262 (ix2 c n')) n * v295 (ix2 0 n) :=
  Pay0.tapForm0_apply v262 v295 _ _ _ c n

theorem gtap5_apply (v262 : FVec Ideal S64x2304 .bf16) (v303 : Vec Ideal S1x2304 .bf16) (c : Fin 64) (n : Fin 2304) :
    k0_pay65 v262 v303 (ix2 c n) = Spec.rot (Spec.amt 5) (fun n' => v262 (ix2 c n')) n * v303 (ix2 0 n) := by
  unfold k0_pay65
  rw [mulf_apply, Pay0.rotate_apply 2303#32 (Spec.amt 5) rfl, Pay0.maskRows_apply]

theorem pay66_eq (v306 : FVec Ideal S64x2304 .bf16) : k0_pay66 v306 = v306 :=
  shapeCast_self v306 _

theorem gtap6_apply (v262 : FVec Ideal S64x2304 .bf16) (v311 : Vec Ideal S1x2304 .bf16) (c : Fin 64) (n : Fin 2304) :
    k0_pay67 v262 v311 (ix2 c n) = Spec.rot (Spec.amt 6) (fun n' => v262 (ix2 c n')) n * v311 (ix2 0 n) :=
  Pay0.tapForm_apply 2281#32 (Spec.amt 6) rfl v262 v311 _ _ _ _ c n

theorem gtap7_apply (v262 : FVec Ideal S64x2304 .bf16) (v319 : Vec Ideal S1x2304 .bf16) (c : Fin 64) (n : Fin 2304) :
    k0_pay68 v262 v319 (ix2 c n) = Spec.rot (Spec.amt 7) (fun n' => v262 (ix2 c n')) n * v319 (ix2 0 n) :=
  Pay0.tapForm_apply 2280#32 (Spec.amt 7) rfl v262 v319 _ _ _ _ c n

theorem gtap8_apply (v262 : FVec Ideal S64x2304 .bf16) (v327 : Vec Ideal S1x2304 .bf16) (c : Fin 64) (n : Fin 2304) :
    k0_pay69 v262 v327 (ix2 c n) = Spec.rot (Spec.amt 8) (fun n' => v262 (ix2 c n')) n * v327 (ix2 0 n) :=
  Pay0.tapForm_apply 2279#32 (Spec.amt 8) rfl v262 v327 _ _ _ _ c n

section
variable (v175 : FVec Ideal S64x2304 .f32) (v180 : FVec Ideal S64x576 .bf16) (v259 v260 : FVec Ideal S64x2304 .f32) (v334 : Vec Ideal S576x2304 .bf16)
include v175 v180 v259 v260 v334

theorem newState_apply (c : Fin 64) (n : Fin 2304) :
    k0_pay70 v175 v180 v259 v260 v334 (ix2 c n)
      = v175 (ix2 c n) + v259 (ix2 c n)
          * (Ideal.tanh (v260 (ix2 c n) + ∑ k : Fin 576, v180 (ix2 c k) * v334 (ix2 k n)) - v175 (ix2 c n)) := by
  unfold k0_pay70
  rw [Pay0.dot2_plain]
  exact congrArg (fun z => v175 (ix2 c n) + v259 (ix2 c n) * (Ideal.tanh (v260 (ix2 c n) + z) - v175 (ix2 c n)))
    (Cert.LibPlainProduct.matmul_zero_plain_apply (M := 64) (K := 576) (N := 2304) (φ₁ := .bf16) (φ₂ := .bf16) v180 v334 none c n)

theorem pay71_apply (u : Fin 1) (c : Fin 64) (n : Fin 2304) :
    k0_pay71 v175 v180 v259 v260 v334 (ix3 u c n) = k0_pay70 v175 v180 v259 v260 v334 (ix2 c n) :=
  shapeCast_ab_1ab_apply (k0_pay70 v175 v180 v259 v260 v334) _ u c n

end

end Cert.KernelIdeal.Pay1

end
-- ==== Proof.LibBlockSum.lean ====
import Mathlib.Algebra.BigOperators.Fin
import Mathlib.Algebra.BigOperators.Intervals

open scoped BigOperators

namespace BlockSum

variable {M : Type*} [AddCommMonoid M]

theorem sum_range_mul (f : ℕ → M) (a b : ℕ) :
    ∑ i ∈ Finset.range (a * b), f i = ∑ s ∈ Finset.range a, ∑ x ∈ Finset.range b, f (b * s + x) := by
  induction a with
  | zero => simp
  | succ a ih =>
    rw [Nat.succ_mul, Finset.sum_range_add, ih, Finset.sum_range_succ, Nat.mul_comm a b]

theorem sum_fin_mul (f : ℕ → M) (a b : ℕ) :
    ∑ i : Fin (a * b), f i.val = ∑ s ∈ Finset.range a, ∑ x : Fin b, f (b * s + x.val) := by
  rw [Fin.sum_univ_eq_sum_range (fun i => f i) (a * b), sum_range_mul]
  refine Finset.sum_congr rfl fun s _ => ?_
  rw [← Fin.sum_univ_eq_sum_range (fun x => f (b * s + x)) b]

end BlockSum
-- ==== Proof.SpecLayout.lean ====
import proofs.«130420_g2000206920649175_pallasbulk_1279_2_alg».proof.Proof.Spec
import proofs.«130420_g2000206920649175_pallasbulk_1279_2_alg».proof.Proof.LibBlockSum
import Mathlib.Algebra.BigOperators.Fin

noncomputable section

namespace Cert.Spec

open scoped BigOperators

section General

variable {α : Type*} [AddCommMonoid α]

theorem sum_fin_blocks (f : ℕ → α) (a b : ℕ) :
    ∑ k : Fin (a * b), f k.val = ∑ s : Fin a, ∑ x : Fin b, f (b * s.val + x.val) := by
  rw [BlockSum.sum_fin_mul f a b]
  exact (Fin.sum_univ_eq_sum_range (fun s => ∑ x : Fin b, f (b * s + x.val)) a).symm

theorem sum_fin_split (f : ℕ → α) (m n : ℕ) :
    ∑ k : Fin (m + n), f k.val = ∑ k : Fin m, f k.val + ∑ k : Fin n, f (m + k.val) := by
  rw [Fin.sum_univ_add]
  rfl

theorem sum_fin_head (f : ℕ → α) (n : ℕ) (h0 : ∀ k, 1 ≤ k → k < 1 + n → f k = 0) :
    ∑ k : Fin (1 + n), f k.val = f 0 := by
  rw [sum_fin_split f 1 n, Fin.sum_univ_one,
    Finset.sum_eq_zero (fun k _ => h0 (1 + k.val) (by omega) (by omega)), add_zero]
  rfl

end General

theorem layout2 (wr pr : ℕ → EReal) (W2 : Fin 64 → Fin 576 → EReal) (M : Fin 9 → Row) (g : Fin 64 → Row) (c : Fin 64) (n : Fin 2304) (hw : ∀ k (hk : k < 576), wr k = W2 c ⟨k, hk⟩) (hp : ∀ (i : Fin 9) (c' : Fin 64), pr (64 * i.val + c'.val) = tap M i (g c') n) :
    ∑ k : Fin 576, wr k.val * pr k.val
      = ∑ i : Fin 9, ∑ c' : Fin 64, W2 c ⟨64 * i.val + c'.val, by omega⟩ * tap M i (g c') n := by
  refine (sum_fin_blocks (fun k => wr k * pr k) 9 64).trans ?_
  refine Finset.sum_congr rfl fun i _ => Finset.sum_congr rfl fun c' _ => ?_
  show wr (64 * i.val + c'.val) * pr (64 * i.val + c'.val) = _
  rw [hw _ (by omega), hp]

section
variable (wr pr : ℕ → EReal) (W : Fin 192 → Fin 1160 → EReal) (M : Fin 9 → Row) (xin h : Fin 64 → Row) (o : Fin 192) (n : Fin 2304)
include wr pr W M xin h o n

theorem layoutR (hw : ∀ k (hk : k < 1160), wr k = W o ⟨k, hk⟩) (hx : ∀ (i : Fin 9) (c : Fin 64), pr (128 * i.val + c.val) = tap M i (xin c) n) (hh : ∀ (i : Fin 9) (c : Fin 64), pr (128 * i.val + 64 + c.val) = tap M i (h c) n) (h1 : pr 1152 = 1) (h0 : ∀ k, 1153 ≤ k → k < 1160 → pr k = 0) :
    ∑ k : Fin 1160, wr k.val * pr k.val = acc W M xin h o n := by
  have hT : ∑ k : Fin (1 + 7), wr (1152 + k.val) * pr (1152 + k.val) = W o ⟨1152, by decide⟩ := by
    rw [sum_fin_head (fun k => wr (1152 + k) * pr (1152 + k)) 7 (fun k hk1 hk2 => by
      show wr _ * pr _ = 0
      rw [h0 _ (by omega) (by omega), mul_zero])]
    show wr 1152 * pr 1152 = _
    rw [h1, mul_one, hw 1152 (by decide)]
  have hB : ∑ k : Fin (9 * 128), wr k.val * pr k.val
      = ∑ i : Fin 9, ((∑ c : Fin 64, W o ⟨128 * i.val + c.val, by omega⟩ * tap M i (xin c) n)
                      + (∑ c : Fin 64, W o ⟨128 * i.val + 64 + c.val, by omega⟩ * tap M i (h c) n)) := by
    refine (sum_fin_blocks (fun k => wr k * pr k) 9 128).trans ?_
    refine Finset.sum_congr rfl fun i _ => ?_
    refine (sum_fin_split (fun x => wr (128 * i.val + x) * pr (128 * i.val + x)) 64 64).trans ?_
    congr 1
    · refine Finset.sum_congr rfl fun c _ => ?_
      show wr (128 * i.val + c.val) * pr (128 * i.val + c.val) = _
      rw [hw _ (by omega), hx]
    · refine Finset.sum_congr rfl fun c _ => ?_
      show wr (128 * i.val + (64 + c.val)) * pr (128 * i.val + (64 + c.val)) = _
      rw [← Nat.add_assoc, hw _ (by omega), hh]
  refine (sum_fin_split (fun k => wr k * pr k) (9 * 128) (1 + 7)).trans ?_
  rw [acc, ← hB, ← hT, add_comm]

theorem layoutK1 (hb : wr 0 = W o ⟨1152, by decide⟩) (hwx : ∀ (i : Fin 9) (c : Fin 64), wr (16 + 128 * i.val + c.val) = W o ⟨128 * i.val + c.val, by omega⟩) (hwh : ∀ (i : Fin 9) (c : Fin 64),
      wr (16 + 128 * i.val + 64 + c.val) = W o ⟨128 * i.val + 64 + c.val, by omega⟩) (hx : ∀ (i : Fin 9) (c : Fin 64), pr (16 + 128 * i.val + c.val) = tap M i (xin c) n) (hh : ∀ (i : Fin 9) (c : Fin 64), pr (16 + 128 * i.val + 64 + c.val) = tap M i (h c) n) (h1 : pr 0 = 1) (h0 : ∀ k, 1 ≤ k → k < 16 → pr k = 0) :
    ∑ k : Fin 1168, wr k.val * pr k.val = acc W M xin h o n := by
  have hT : ∑ k : Fin (1 + 15), wr k.val * pr k.val = W o ⟨1152, by decide⟩ := by
    rw [sum_fin_head (fun k => wr k * pr k) 15 (fun k hk1 hk2 => by
      show wr _ * pr _ = 0
      rw [h0 _ hk1 (by omega), mul_zero])]
    show wr 0 * pr 0 = _
    rw [h1, mul_one, hb]
  have hB : ∑ k : Fin (9 * 128), wr (16 + k.val) * pr (16 + k.val)
      = ∑ i : Fin 9, ((∑ c : Fin 64, W o ⟨128 * i.val + c.val, by omega⟩ * tap M i (xin c) n)
                      + (∑ c : Fin 64, W o ⟨128 * i.val + 64 + c.val, by omega⟩ * tap M i (h c) n)) := by
    refine (sum_fin_blocks (fun k => wr (16 + k) * pr (16 + k)) 9 128).trans ?_
    refine Finset.sum_congr rfl fun i _ => ?_
    refine (sum_fin_split (fun x => wr (16 + (128 * i.val + x)) * pr (16 + (128 * i.val + x))) 64 64).trans ?_
    congr 1
    · refine Finset.sum_congr rfl fun c _ => ?_
      show wr (16 + (128 * i.val + c.val)) * pr (16 + (128 * i.val + c.val)) = _
      rw [← Nat.add_assoc, hwx, hx]
    · refine Finset.sum_congr rfl fun c _ => ?_
      show wr (16 + (128 * i.val + (64 + c.val))) * pr (16 + (128 * i.val + (64 + c.val))) = _
      rw [← Nat.add_assoc, ← Nat.add_assoc, hwh, hh]
  refine (sum_fin_split (fun k => wr k * pr k) (1 + 15) (9 * 128)).trans ?_
  rw [acc, ← hB, ← hT]

end

theorem pad_of_lt (x : Fin 32 → Row) (c : Fin 64) (hc : c.val < 32) : pad x c = x ⟨c.val, hc⟩ := dif_pos hc

theorem pad_of_not_lt (x : Fin 32 → Row) (c : Fin 64) (hc : ¬ c.val < 32) : pad x c = fun _ => 0 := dif_neg hc

theorem tap_zero_row (M : Fin 9 → Row) (i : Fin 9) (n : Fin 2304) : tap M i (fun _ => 0) n = 0 := by
  show (0 : EReal) * M i n = 0
  exact zero_mul _

theorem sum_pad_cols (W : Fin 192 → Fin 1160 → EReal) (M : Fin 9 → Row) (x : Fin 32 → Row) (o : Fin 192) (n : Fin 2304) (i : Fin 9) :
    ∑ c : Fin 64, W o ⟨128 * i.val + c.val, by omega⟩ * tap M i (pad x c) n
      = ∑ c : Fin 32, W o ⟨128 * i.val + c.val, by omega⟩ * tap M i (x c) n := by
  refine (Fin.sum_univ_add (a := 32) (b := 32) _).trans ?_
  refine (congrArg₂ (· + ·) (Finset.sum_congr rfl fun c _ => ?_) (Finset.sum_eq_zero fun c _ => ?_)).trans
    (add_zero _)
  · rw [pad_of_lt x (Fin.castAdd 32 c) c.isLt]
    rfl
  · rw [pad_of_not_lt x (Fin.natAdd 32 c) (by show ¬ 32 + c.val < 32; omega), tap_zero_row, mul_zero]

theorem layoutK0 (wr pr : ℕ → EReal) (W : Fin 192 → Fin 1160 → EReal) (M : Fin 9 → Row) (x : Fin 32 → Row) (h : Fin 64 → Row) (o : Fin 192) (n : Fin 2304) (hb : wr 0 = W o ⟨1152, by decide⟩) (hwx : ∀ (i : Fin 9) (c : Fin 32), wr (16 + 96 * i.val + c.val) = W o ⟨128 * i.val + c.val, by omega⟩) (hwh : ∀ (i : Fin 9) (c : Fin 64),
      wr (16 + 96 * i.val + 32 + c.val) = W o ⟨128 * i.val + 64 + c.val, by omega⟩) (hx : ∀ (i : Fin 9) (c : Fin 32), pr (16 + 96 * i.val + c.val) = tap M i (x c) n) (hh : ∀ (i : Fin 9) (c : Fin 64), pr (16 + 96 * i.val + 32 + c.val) = tap M i (h c) n) (h1 : pr 0 = 1) (h0 : ∀ k, 1 ≤ k → k < 16 → pr k = 0) :
    ∑ k : Fin 880, wr k.val * pr k.val = acc W M (pad x) h o n := by
  have hT : ∑ k : Fin (1 + 15), wr k.val * pr k.val = W o ⟨1152, by decide⟩ := by
    rw [sum_fin_head (fun k => wr k * pr k) 15 (fun k hk1 hk2 => by
      show wr _ * pr _ = 0
      rw [h0 _ hk1 (by omega), mul_zero])]
    show wr 0 * pr 0 = _
    rw [h1, mul_one, hb]
  have hB : ∑ k : Fin (9 * 96), wr (16 + k.val) * pr (16 + k.val)
      = ∑ i : Fin 9, ((∑ c : Fin 64, W o ⟨128 * i.val + c.val, by omega⟩ * tap M i (pad x c) n)
                      + (∑ c : Fin 64, W o ⟨128 * i.val + 64 + c.val, by omega⟩ * tap M i (h c) n)) := by
    refine (sum_fin_blocks (fun k => wr (16 + k) * pr (16 + k)) 9 96).trans ?_
    refine Finset.sum_congr rfl fun i _ => ?_
    refine (sum_fin_split (fun x => wr (16 + (96 * i.val + x)) * pr (16 + (96 * i.val + x))) 32 64).trans ?_
    rw [sum_pad_cols]
    congr 1
    · refine Finset.sum_congr rfl fun c _ => ?_
      show wr (16 + (96 * i.val + c.val)) * pr (16 + (96 * i.val + c.val)) = _
      rw [← Nat.add_assoc, hwx, hx]
    · refine Finset.sum_congr rfl fun c _ => ?_
      show wr (16 + (96 * i.val + (32 + c.val))) * pr (16 + (96 * i.val + (32 + c.val))) = _
      rw [← Nat.add_assoc, ← Nat.add_assoc, hwh, hh]
  refine (sum_fin_split (fun k => wr k * pr k) (1 + 15) (9 * 96)).trans ?_
  rw [acc, ← hB, ← hT]

end Cert.Spec

end
-- ==== Proof.KI.Layer.lean ====
import proofs.«130420_g2000206920649175_pallasbulk_1279_2_alg».proof.Proof.KI.Pay0
import proofs.«130420_g2000206920649175_pallasbulk_1279_2_alg».proof.Proof.KI.Pay1
import proofs.«130420_g2000206920649175_pallasbulk_1279_2_alg».proof.Proof.SpecLayout

set_option pp.maxSteps 5000
set_option pp.deepTerms false

noncomputable section

open scoped BigOperators

namespace Cert.KernelIdeal.Layer

open Idealize.ShloMosaic Idealize.ShloMosaic.ValueIdx Cert.KernelIdeal.Gen
open Cert.Spec (Row)

def rowFn {K : ℕ} (f : Fin K → EReal) : ℕ → EReal := fun k => if hk : k < K then f ⟨k, hk⟩ else 0

theorem rowFn_val {K : ℕ} (f : Fin K → EReal) (k : Fin K) : rowFn f k.val = f k := dif_pos k.isLt

theorem rowFn_of_lt {K : ℕ} (f : Fin K → EReal) (k : ℕ) (hk : k < K) : rowFn f k = f ⟨k, hk⟩ := dif_pos hk

theorem sum_rowFn {K : ℕ} (a b : Fin K → EReal) :
    ∑ k : Fin K, a k * b k = ∑ k : Fin K, rowFn a k.val * rowFn b k.val :=
  Finset.sum_congr rfl fun k _ => by rw [rowFn_val, rowFn_val]

variable (W : Fin 192 → Fin 1160 → EReal) (W2 : Fin 64 → Fin 576 → EReal) (M : Fin 9 → Row)

section Layer0

variable (x : Fin 32 → Row) (h : Fin 64 → Row)
  (v82 : Vec Ideal S192x880 .bf16) (v84 : Vec Ideal S880x2304 .bf16)
  (hb : ∀ o : Fin 192, v82 (ix2 o (⟨0, by decide⟩ : Fin 880)) = W o ⟨1152, by decide⟩)
  (hwx : ∀ (o : Fin 192) (i : Fin 9) (ch : Fin 32),
    v82 (ix2 o (⟨16 + 96 * i.val + ch.val, by omega⟩ : Fin 880)) = W o ⟨128 * i.val + ch.val, by omega⟩)
  (hwh : ∀ (o : Fin 192) (i : Fin 9) (ch : Fin 64),
    v82 (ix2 o (⟨16 + 96 * i.val + 32 + ch.val, by omega⟩ : Fin 880)) = W o ⟨128 * i.val + 64 + ch.val, by omega⟩)
  (h1 : ∀ n : Fin 2304, v84 (ix2 (⟨0, by decide⟩ : Fin 880) n) = 1)
  (h0 : ∀ k : Fin 880, 1 ≤ k.val → k.val < 16 → ∀ n : Fin 2304, v84 (ix2 k n) = 0)
  (hx : ∀ (i : Fin 9) (ch : Fin 32) (n : Fin 2304),
    v84 (ix2 (⟨16 + 96 * i.val + ch.val, by omega⟩ : Fin 880) n) = Spec.tap M i (x ch) n)
  (hh : ∀ (i : Fin 9) (ch : Fin 64) (n : Fin 2304),
    v84 (ix2 (⟨16 + 96 * i.val + 32 + ch.val, by omega⟩ : Fin 880) n) = Spec.tap M i (h ch) n)

include hb hwx hwh h1 h0 hx hh

theorem acc0 (o : Fin 192) (n : Fin 2304) :
    ∑ k : Fin 880, v82 (ix2 o k) * v84 (ix2 k n) = Spec.acc W M (Spec.pad x) h o n := by
  rw [sum_rowFn (fun k => v82 (ix2 o k)) (fun k => v84 (ix2 k n))]
  exact Spec.layoutK0 _ _ W M x h o n
    ((rowFn_of_lt _ 0 (by decide)).trans (hb o))
    (fun i c => (rowFn_of_lt _ _ (by have := i.isLt; have := c.isLt; omega)).trans (hwx o i c))
    (fun i c => (rowFn_of_lt _ _ (by have := i.isLt; have := c.isLt; omega)).trans (hwh o i c))
    (fun i c => (rowFn_of_lt _ _ (by have := i.isLt; have := c.isLt; omega)).trans (hx i c n))
    (fun i c => (rowFn_of_lt _ _ (by have := i.isLt; have := c.isLt; omega)).trans (hh i c n))
    ((rowFn_of_lt _ 0 (by decide)).trans (h1 n))
    (fun k hk1 hk2 => (rowFn_of_lt _ k (by omega)).trans (h0 ⟨k, by omega⟩ hk1 hk2 n))

theorem upd0 (c : Fin 64) (n : Fin 2304) :
    k0_pay24 (F := Ideal) v82 v84 (ix2 c n) = Spec.upd W M (Spec.pad x) h c n := by
  rw [Pay0.update_apply, acc0 W M x h v82 v84 hb hwx hwh h1 h0 hx hh]
  rfl

theorem candIn0 (c : Fin 64) (n : Fin 2304) :
    k0_pay25 (F := Ideal) v82 v84 (ix2 c n) = Spec.acc W M (Spec.pad x) h ⟨128 + c.val, by omega⟩ n := by
  rw [Pay0.candIn_apply, acc0 W M x h v82 v84 hb hwx hwh h1 h0 hx hh]

theorem gated0 (v6 : FVec Ideal S64x2304 .f32) (hv6 : ∀ (c : Fin 64) (n : Fin 2304), v6 (ix2 c n) = h c n) (c : Fin 64) (n : Fin 2304) :
    k0_pay26 (F := Ideal) v6 v82 v84 (ix2 c n) = Spec.gated W M (Spec.pad x) h c n := by
  rw [Pay0.gated_apply, acc0 W M x h v82 v84 hb hwx hwh h1 h0 hx hh, hv6]
  rfl

end Layer0

section Layer1

variable (xin h : Fin 64 → Row)
  (v252 : Vec Ideal S192x1168 .bf16) (v254 : Vec Ideal S1168x2304 .bf16)
  (hb : ∀ o : Fin 192, v252 (ix2 o (⟨0, by decide⟩ : Fin 1168)) = W o ⟨1152, by decide⟩)
  (hwx : ∀ (o : Fin 192) (i : Fin 9) (ch : Fin 64),
    v252 (ix2 o (⟨16 + 128 * i.val + ch.val, by omega⟩ : Fin 1168)) = W o ⟨128 * i.val + ch.val, by omega⟩)
  (hwh : ∀ (o : Fin 192) (i : Fin 9) (ch : Fin 64),
    v252 (ix2 o (⟨16 + 128 * i.val + 64 + ch.val, by omega⟩ : Fin 1168)) = W o ⟨128 * i.val + 64 + ch.val, by omega⟩)
  (h1 : ∀ n : Fin 2304, v254 (ix2 (⟨0, by decide⟩ : Fin 1168) n) = 1)
  (h0 : ∀ k : Fin 1168, 1 ≤ k.val → k.val < 16 → ∀ n : Fin 2304, v254 (ix2 k n) = 0)
  (hx : ∀ (i : Fin 9) (ch : Fin 64) (n : Fin 2304),
    v254 (ix2 (⟨16 + 128 * i.val + ch.val, by omega⟩ : Fin 1168) n) = Spec.tap M i (xin ch) n)
  (hh : ∀ (i : Fin 9) (ch : Fin 64) (n : Fin 2304),
    v254 (ix2 (⟨16 + 128 * i.val + 64 + ch.val, by omega⟩ : Fin 1168) n) = Spec.tap M i (h ch) n)

include hb hwx hwh h1 h0 hx hh

theorem acc1 (o : Fin 192) (n : Fin 2304) :
    ∑ k : Fin 1168, v252 (ix2 o k) * v254 (ix2 k n) = Spec.acc W M xin h o n := by
  rw [sum_rowFn (fun k => v252 (ix2 o k)) (fun k => v254 (ix2 k n))]
  exact Spec.layoutK1 _ _ W M xin h o n
    ((rowFn_of_lt _ 0 (by decide)).trans (hb o))
    (fun i c => (rowFn_of_lt _ _ (by have := i.isLt; have := c.isLt; omega)).trans (hwx o i c))
    (fun i c => (rowFn_of_lt _ _ (by have := i.isLt; have := c.isLt; omega)).trans (hwh o i c))
    (fun i c => (rowFn_of_lt _ _ (by have := i.isLt; have := c.isLt; omega)).trans (hx i c n))
    (fun i c => (rowFn_of_lt _ _ (by have := i.isLt; have := c.isLt; omega)).trans (hh i c n))
    ((rowFn_of_lt _ 0 (by decide)).trans (h1 n))
    (fun k hk1 hk2 => (rowFn_of_lt _ k (by omega)).trans (h0 ⟨k, by omega⟩ hk1 hk2 n))

theorem upd1 (c : Fin 64) (n : Fin 2304) :
    k0_pay55 (F := Ideal) v252 v254 (ix2 c n) = Spec.upd W M xin h c n := by
  rw [Pay1.upd_apply v252 v254 c ⟨64 + c.val, by omega⟩ rfl n, acc1 W M xin h v252 v254 hb hwx hwh h1 h0 hx hh]
  rfl

theorem candIn1 (c : Fin 64) (n : Fin 2304) :
    k0_pay56 (F := Ideal) v252 v254 (ix2 c n) = Spec.acc W M xin h ⟨128 + c.val, by omega⟩ n := by
  rw [Pay1.outx_apply v252 v254 c ⟨128 + c.val, by omega⟩ rfl n, acc1 W M xin h v252 v254 hb hwx hwh h1 h0 hx hh]

theorem gated1 (v175 : FVec Ideal S64x2304 .f32) (hv : ∀ (c : Fin 64) (n : Fin 2304), v175 (ix2 c n) = h c n) (c : Fin 64) (n : Fin 2304) :
    k0_pay57 (F := Ideal) v175 v252 v254 (ix2 c n) = Spec.gated W M xin h c n := by
  rw [Pay1.gated_apply v175 v252 v254 c ⟨c.val, by omega⟩ rfl n, acc1 W M xin h v252 v254 hb hwx hwh h1 h0 hx hh, hv]
  rfl

end Layer1

section NewState

variable (xin h : Fin 64 → Row)

theorem cand2 (v10 : FVec Ideal S64x576 .bf16) (v164 : Vec Ideal S576x2304 .bf16) (hw : ∀ (c : Fin 64) (k : Fin 576), v10 (ix2 c k) = W2 c k) (hp : ∀ (i : Fin 9) (c' : Fin 64) (n : Fin 2304),
      v164 (ix2 (⟨64 * i.val + c'.val, by omega⟩ : Fin 576) n) = Spec.tap M i (Spec.gated W M xin h c') n) (c : Fin 64) (n : Fin 2304) :
    ∑ k : Fin 576, v10 (ix2 c k) * v164 (ix2 k n)
      = ∑ i : Fin 9, ∑ c' : Fin 64, W2 c ⟨64 * i.val + c'.val, by omega⟩ * Spec.tap M i (Spec.gated W M xin h c') n := by
  rw [sum_rowFn (fun k => v10 (ix2 c k)) (fun k => v164 (ix2 k n))]
  exact Spec.layout2 _ _ W2 M (Spec.gated W M xin h) c n
    (fun k hk => (rowFn_of_lt _ k hk).trans (hw c ⟨k, hk⟩))
    (fun i c' => (rowFn_of_lt _ _ (by have := i.isLt; have := c'.isLt; omega)).trans (hp i c' n))

theorem next_form (c : Fin 64) (n : Fin 2304) :
    Spec.next W W2 M xin h c n
      = h c n + Spec.upd W M xin h c n
          * (Ideal.tanh (Spec.acc W M xin h ⟨128 + c.val, by omega⟩ n
              + ∑ i : Fin 9, ∑ c' : Fin 64, W2 c ⟨64 * i.val + c'.val, by omega⟩ * Spec.tap M i (Spec.gated W M xin h c') n)
            - h c n) := rfl

theorem new0 (v6 : FVec Ideal S64x2304 .f32) (v10 : FVec Ideal S64x576 .bf16) (v89 v90 : FVec Ideal S64x2304 .f32) (v164 : Vec Ideal S576x2304 .bf16) (hv6 : ∀ (c : Fin 64) (n : Fin 2304), v6 (ix2 c n) = h c n) (hw : ∀ (c : Fin 64) (k : Fin 576), v10 (ix2 c k) = W2 c k) (hu : ∀ (c : Fin 64) (n : Fin 2304), v89 (ix2 c n) = Spec.upd W M xin h c n) (ha : ∀ (c : Fin 64) (n : Fin 2304), v90 (ix2 c n) = Spec.acc W M xin h ⟨128 + c.val, by omega⟩ n) (hp : ∀ (i : Fin 9) (c' : Fin 64) (n : Fin 2304),
      v164 (ix2 (⟨64 * i.val + c'.val, by omega⟩ : Fin 576) n) = Spec.tap M i (Spec.gated W M xin h c') n) (c : Fin 64) (n : Fin 2304) :
    k0_pay38 (F := Ideal) v6 v10 v89 v90 v164 (ix2 c n) = Spec.next W W2 M xin h c n := by
  rw [Pay0.newState_apply, hv6, hu, ha, cand2 W W2 M xin h v10 v164 hw hp, next_form]

theorem new1 (v175 : FVec Ideal S64x2304 .f32) (v180 : FVec Ideal S64x576 .bf16) (v259 v260 : FVec Ideal S64x2304 .f32) (v334 : Vec Ideal S576x2304 .bf16) (hv : ∀ (c : Fin 64) (n : Fin 2304), v175 (ix2 c n) = h c n) (hw : ∀ (c : Fin 64) (k : Fin 576), v180 (ix2 c k) = W2 c k) (hu : ∀ (c : Fin 64) (n : Fin 2304), v259 (ix2 c n) = Spec.upd W M xin h c n) (ha : ∀ (c : Fin 64) (n : Fin 2304), v260 (ix2 c n) = Spec.acc W M xin h ⟨128 + c.val, by omega⟩ n) (hp : ∀ (i : Fin 9) (c' : Fin 64) (n : Fin 2304),
      v334 (ix2 (⟨64 * i.val + c'.val, by omega⟩ : Fin 576) n) = Spec.tap M i (Spec.gated W M xin h c') n) (c : Fin 64) (n : Fin 2304) :
    k0_pay70 (F := Ideal) v175 v180 v259 v260 v334 (ix2 c n) = Spec.next W W2 M xin h c n := by
  rw [Pay1.newState_apply, hv, hu, ha, cand2 W W2 M xin h v180 v334 hw hp, next_form]

end NewState

end Cert.KernelIdeal.Layer

end
-- ==== Proof.KI.Rows.lean ====
import Idealize.ShloMosaic.Lib.WritesUnit
import Idealize.ShloMosaic.Lib.ValueIdx
import Idealize.ShloMosaic.Lib.Pipeline.Value
import Idealize.ShloMosaic.Lib.WholeRead

namespace Cert.KernelIdeal.Rows

open Idealize.ShloMosaic Idealize.ShloMosaic.ValueIdx

variable {sig : RefSig} {κ : Kind} {sp : Space} {e : EltTy} {Val : EltTy → Type}

theorem unit_idx_eq {s : Shape} (off size : Fin s.rank → ℕ) (inb : ∀ a, off a + size a ≤ s.size a) (x : (Rect.unit (s := s) off size inb).shape.Idx) (y : s.Idx) (h : ∀ a, (y a).val = off a + (x a).val) :
    (Rect.unit (s := s) off size inb).toLoadRect.idx x = y :=
  funext fun a => Fin.ext (by
    show off a + 1 * (x a).val = (y a).val
    rw [h a, Nat.one_mul])

section Rank2

variable {T C : ℕ} (v : View sig κ sp (⟨2, ![T, C]⟩ : Shape) e) (f : v.ty.Contents Val)

section
variable (o H : ℕ) (inb : ∀ a : Fin 2, (![o, 0] : Fin 2 → ℕ) a + (![H, C] : Fin 2 → ℕ) a ≤ (![T, C] : Fin 2 → ℕ) a) (w : (Rect.unit (s := ⟨2, ![T, C]⟩) ![o, 0] ![H, C] inb).shape.Idx → Val e) (L : List (View.Piece Val (⟨2, ![T, C]⟩ : Shape) e)) (k : ℕ) (hk : k < T) (n : Fin C)
include o H inb w L k hk n

theorem skip (h : k < o ∨ o + H ≤ k) :
    v.read Val (v.writes Val f ((⟨Rect.unit (s := ⟨2, ![T, C]⟩) ![o, 0] ![H, C] inb, w⟩ : View.Piece Val _ e) :: L))
        (ix2 (⟨k, hk⟩ : Fin T) n)
      = v.read Val (v.writes Val f L) (ix2 (⟨k, hk⟩ : Fin T) n) :=
  View.read_writes_cons_rows_of_not_mem v f inb w L (ix2 (⟨k, hk⟩ : Fin T) n) rfl rfl h

theorem hit (r : Fin H) (hr : k = o + r.val) :
    v.read Val (v.writes Val f ((⟨Rect.unit (s := ⟨2, ![T, C]⟩) ![o, 0] ![H, C] inb, w⟩ : View.Piece Val _ e) :: L))
        (ix2 (⟨k, hk⟩ : Fin T) n)
      = w (ix2 r n) :=
  View.read_writes_cons_rows_of_mem v f inb w L (ix2 (⟨k, hk⟩ : Fin T) n) (ix2 r n) rfl hr rfl

end

theorem load (o H : ℕ) (inb : ∀ a : Fin 2, (![o, 0] : Fin 2 → ℕ) a + (![H, C] : Fin 2 → ℕ) a ≤ (![T, C] : Fin 2 → ℕ) a) (r : Fin H) (n : Fin C) (k : ℕ) (hk : k < T) (hr : k = o + r.val) :
    v.readAt Val (Rect.unit (s := ⟨2, ![T, C]⟩) ![o, 0] ![H, C] inb).toLoadRect f (ix2 r n)
      = v.read Val f (ix2 (⟨k, hk⟩ : Fin T) n) :=
  by
    show v.read Val f ((Rect.unit (s := ⟨2, ![T, C]⟩) ![o, 0] ![H, C] inb).toLoadRect.idx (ix2 r n)) = _
    exact congrArg (v.read Val f)
      (unit_idx_eq (s := ⟨2, ![T, C]⟩) ![o, 0] ![H, C] inb (ix2 r n) (ix2 (⟨k, hk⟩ : Fin T) n)
        (Fin.forall_fin_two.mpr ⟨hr, (Nat.zero_add _).symm⟩))

end Rank2

theorem load_unread {T C : ℕ} {m : Memref sig κ sp (⟨2, ![T, C]⟩ : Shape) e} (hm : m.IsWhole) (X : (⟨2, ![T, C]⟩ : Shape).Idx → Val e) (o H : ℕ) (inb : ∀ a : Fin 2, (![o, 0] : Fin 2 → ℕ) a + (![H, C] : Fin 2 → ℕ) a ≤ (![T, C] : Fin 2 → ℕ) a) (r : Fin H) (n : Fin C) (k : ℕ) (hk : k < T) (hr : k = o + r.val) :
    m.view.readAt Val (Rect.unit (s := ⟨2, ![T, C]⟩) ![o, 0] ![H, C] inb).toLoadRect (hm.unread X) (ix2 r n)
      = X (ix2 (⟨k, hk⟩ : Fin T) n) :=
  (load m.view (hm.unread X) o H inb r n k hk hr).trans (congrFun (hm.read_unread X) _)

theorem load3 {A B C : ℕ} (v : View sig κ sp (⟨3, ![A, B, C]⟩ : Shape) e) (f : v.ty.Contents Val) (l : ℕ) (hl : l < A) (inb : ∀ a : Fin 3, (![l, 0, 0] : Fin 3 → ℕ) a + (![1, B, C] : Fin 3 → ℕ) a ≤ (![A, B, C] : Fin 3 → ℕ) a) (u : Fin 1) (b : Fin B) (n : Fin C) :
    v.readAt Val (Rect.unit (s := ⟨3, ![A, B, C]⟩) ![l, 0, 0] ![1, B, C] inb).toLoadRect f (ix3 u b n)
      = v.read Val f (ix3 (⟨l, hl⟩ : Fin A) b n) :=
  by
    show v.read Val f ((Rect.unit (s := ⟨3, ![A, B, C]⟩) ![l, 0, 0] ![1, B, C] inb).toLoadRect.idx (ix3 u b n)) = _
    exact congrArg (v.read Val f)
      (unit_idx_eq (s := ⟨3, ![A, B, C]⟩) ![l, 0, 0] ![1, B, C] inb (ix3 u b n) (ix3 (⟨l, hl⟩ : Fin A) b n) (by
        intro a
        match a with
        | ⟨0, _⟩ => show l = l + u.val; omega
        | ⟨1, _⟩ => exact (Nat.zero_add _).symm
        | ⟨2, _⟩ => exact (Nat.zero_add _).symm))

theorem load3_unread {A B C : ℕ} {m : Memref sig κ sp (⟨3, ![A, B, C]⟩ : Shape) e} (hm : m.IsWhole) (X : (⟨3, ![A, B, C]⟩ : Shape).Idx → Val e) (l : ℕ) (hl : l < A) (inb : ∀ a : Fin 3, (![l, 0, 0] : Fin 3 → ℕ) a + (![1, B, C] : Fin 3 → ℕ) a ≤ (![A, B, C] : Fin 3 → ℕ) a) (u : Fin 1) (b : Fin B) (n : Fin C) :
    m.view.readAt Val (Rect.unit (s := ⟨3, ![A, B, C]⟩) ![l, 0, 0] ![1, B, C] inb).toLoadRect (hm.unread X) (ix3 u b n)
      = X (ix3 (⟨l, hl⟩ : Fin A) b n) :=
  (load3 m.view (hm.unread X) l hl inb u b n).trans (congrFun (hm.read_unread X) _)

theorem load_whole {S : Shape} {m : Memref sig κ sp S e} (hm : m.IsWhole) (X : S.Idx → Val e) {off : Fin S.rank → ℕ} (hz : off = fun _ => 0) (inb : ∀ a, off a + S.size a ≤ S.size a) :
    m.view.readAt Val (Rect.unit (s := S) off S.size inb).toLoadRect (hm.unread X) = X := by
  rw [View.readAt_eq_ld, hm.read_unread, View.ld_unit_zero hz]

theorem hit3 {A B C : ℕ} (v : View sig κ sp (⟨3, ![A, B, C]⟩ : Shape) e) (f : v.ty.Contents Val) (l : ℕ) (hl : l < A) (inb : ∀ a : Fin 3, (![l, 0, 0] : Fin 3 → ℕ) a + (![1, B, C] : Fin 3 → ℕ) a ≤ (![A, B, C] : Fin 3 → ℕ) a) (w : (Rect.unit (s := ⟨3, ![A, B, C]⟩) ![l, 0, 0] ![1, B, C] inb).shape.Idx → Val e) (L : List (View.Piece Val (⟨3, ![A, B, C]⟩ : Shape) e)) (b : Fin B) (n : Fin C) :
    v.read Val (v.writes Val f ((⟨Rect.unit (s := ⟨3, ![A, B, C]⟩) ![l, 0, 0] ![1, B, C] inb, w⟩ : View.Piece Val _ e) :: L))
        (ix3 (⟨l, hl⟩ : Fin A) b n)
      = w (ix3 (0 : Fin 1) b n) :=
  View.read_writes_cons_unit_of_mem v f inb w L (ix3 (⟨l, hl⟩ : Fin A) b n) (ix3 (0 : Fin 1) b n) rfl (by
    intro a
    match a with
    | ⟨0, _⟩ => exact (Nat.add_zero _).symm
    | ⟨1, _⟩ => exact (Nat.zero_add _).symm
    | ⟨2, _⟩ => exact (Nat.zero_add _).symm)

theorem skip3 {A B C : ℕ} (v : View sig κ sp (⟨3, ![A, B, C]⟩ : Shape) e) (f : v.ty.Contents Val) (l : ℕ) (inb : ∀ a : Fin 3, (![l, 0, 0] : Fin 3 → ℕ) a + (![1, B, C] : Fin 3 → ℕ) a ≤ (![A, B, C] : Fin 3 → ℕ) a) (w : (Rect.unit (s := ⟨3, ![A, B, C]⟩) ![l, 0, 0] ![1, B, C] inb).shape.Idx → Val e) (L : List (View.Piece Val (⟨3, ![A, B, C]⟩ : Shape) e)) (l' : ℕ) (hl' : l' < A) (hne : l' ≠ l) (b : Fin B) (n : Fin C) :
    v.read Val (v.writes Val f ((⟨Rect.unit (s := ⟨3, ![A, B, C]⟩) ![l, 0, 0] ![1, B, C] inb, w⟩ : View.Piece Val _ e) :: L))
        (ix3 (⟨l', hl'⟩ : Fin A) b n)
      = v.read Val (v.writes Val f L) (ix3 (⟨l', hl'⟩ : Fin A) b n) :=
  View.read_writes_cons_unit_of_not_mem v f inb w L (ix3 (⟨l', hl'⟩ : Fin A) b n) rfl (0 : Fin 3) (by
    show l' < l ∨ l + 1 ≤ l'
    omega)

end Cert.KernelIdeal.Rows
-- ==== Proof.KI.Taps.lean ====
import proofs.«130420_g2000206920649175_pallasbulk_1279_2_alg».proof.Proof.KI.Layer
import proofs.«130420_g2000206920649175_pallasbulk_1279_2_alg».proof.Proof.KI.Rows
import Idealize.ShloMosaic.Lib.WritesUnit

noncomputable section

open scoped BigOperators

namespace Cert.KernelIdeal.Taps

open Idealize.ShloMosaic Idealize.ShloMosaic.ValueIdx Cert.KernelIdeal.Gen
open Cert.Spec (Row)

section Geometry

variable {sig : RefSig} {κ : Kind} {sp : Space} {e : EltTy} {Val : EltTy → Type}

abbrev tapOff (base stride : ℕ) (i : Fin 9) : Fin 2 → ℕ := ![base + stride * i.val, 0]

abbrev tapPieces {K : ℕ} (R base stride : ℕ) (inb : ∀ (i : Fin 9) (a : Fin 2), tapOff base stride i a + (![R, 2304] : Fin 2 → ℕ) a ≤ (⟨2, ![K, 2304]⟩ : Shape).size a) (P : Fin 9 → (⟨2, ![R, 2304]⟩ : Shape).Idx → Val e) : List (View.Piece Val (⟨2, ![K, 2304]⟩ : Shape) e) :=
  View.tilePieces (s := (⟨2, ![K, 2304]⟩ : Shape)) ![R, 2304] (tapOff base stride) inb P 9 le_rfl

variable {K : ℕ} (v : View sig κ sp (⟨2, ![K, 2304]⟩ : Shape) e) (f : v.ty.Contents Val)

theorem read_tap (R base stride : ℕ) (hR : R ≤ stride) (inb) (P : Fin 9 → (⟨2, ![R, 2304]⟩ : Shape).Idx → Val e) (L0 : List (View.Piece Val (⟨2, ![K, 2304]⟩ : Shape) e)) (i : Fin 9) (r : Fin R) (n : Fin 2304) (k : Fin K) (hk : k.val = base + stride * i.val + r.val) :
    v.read Val (v.writes Val f (tapPieces R base stride inb P ++ L0)) (ix2 k n) = P i (ix2 r n) := by
  rw [View.writes_append]
  refine View.read_tilePieces v _ _ _ inb P 9 le_rfl (ix2 k n) i i.isLt (ix2 r n)
    (Fin.forall_fin_two.mpr ⟨hk, (Nat.zero_add _).symm⟩) 0 (fun i' hi' => ?_)
  have hne : i'.val ≠ i.val := fun h => hi' (Fin.ext h)
  show k.val < base + stride * i'.val ∨ base + stride * i'.val + R ≤ k.val
  have hr := r.isLt
  rcases Nat.lt_or_gt_of_ne hne with h | h
  · right
    have := Nat.mul_le_mul_left stride (Nat.succ_le_of_lt h)
    rw [Nat.mul_succ] at this
    omega
  · left
    have := Nat.mul_le_mul_left stride (Nat.succ_le_of_lt h)
    rw [Nat.mul_succ] at this
    omega

theorem read_tiles_of_lt {NT : ℕ} (tsz : Fin 2 → ℕ) (off : Fin NT → Fin 2 → ℕ) (inb) (P : Fin NT → (⟨2, tsz⟩ : Shape).Idx → Val e) (y : (⟨2, ![K, 2304]⟩ : Shape).Idx) (h : ∀ i : Fin NT, (y 0).val < off i 0) :
    ∀ (j : ℕ) (hj : j ≤ NT),
      v.read Val (v.writes Val f (View.tilePieces (s := (⟨2, ![K, 2304]⟩ : Shape)) tsz off inb P j hj)) y = v.read Val f y
  | 0, _ => rfl
  | j + 1, hj => by
    rw [View.tilePieces_succ,
      View.read_writes_cons_unit_of_not_mem v f (inb ⟨j, hj⟩) (P ⟨j, hj⟩) _ y rfl 0 (Or.inl (h _))]
    exact read_tiles_of_lt tsz off inb P y h j (Nat.le_of_succ_le hj)

theorem read_below (R base stride : ℕ) (inb) (P : Fin 9 → (⟨2, ![R, 2304]⟩ : Shape).Idx → Val e) (L0 : List (View.Piece Val (⟨2, ![K, 2304]⟩ : Shape) e)) (k : Fin K) (n : Fin 2304) (hk : k.val < base) :
    v.read Val (v.writes Val f (tapPieces R base stride inb P ++ L0)) (ix2 k n)
      = v.read Val (v.writes Val f L0) (ix2 k n) := by
  rw [View.writes_append]
  exact read_tiles_of_lt v _ _ _ inb P (ix2 k n) (fun i => by show k.val < base + stride * i.val; omega) 9 le_rfl

end Geometry

abbrev Masks : Type := Fin 9 → Vec Ideal S1x2304 .bf16

def T84 (v3 : Vec Ideal S1x1x32x2304 .bf16) (v5 : Vec Ideal S1x64x2304 .f32) (mk : Masks) :
    Fin 9 → (⟨2, ![96, 2304]⟩ : Shape).Idx → EReal
  | ⟨0, _⟩ => k0_pay11 (F := Ideal) v3 v5 (mk 0)
  | ⟨1, _⟩ => k0_pay12 (F := Ideal) v3 v5 (mk 1)
  | ⟨2, _⟩ => k0_pay15 (F := Ideal) (k0_pay13 v3 v5) (k0_pay14 (mk 2))
  | ⟨3, _⟩ => k0_pay16 (F := Ideal) (k0_pay9 v3 v5) (mk 3)
  | ⟨4, _⟩ => k0_pay17 (F := Ideal) (k0_pay9 v3 v5) (mk 4)
  | ⟨5, _⟩ => k0_pay18 (F := Ideal) (k0_pay9 v3 v5) (mk 5)
  | ⟨6, _⟩ => k0_pay20 (F := Ideal) (k0_pay19 (k0_pay9 v3 v5) (mk 6))
  | ⟨7, _⟩ => k0_pay21 (F := Ideal) (k0_pay9 v3 v5) (mk 7)
  | ⟨8, _⟩ => k0_pay22 (F := Ideal) (k0_pay9 v3 v5) (mk 8)

def T164 (v6 : FVec Ideal S64x2304 .f32) (v82 : Vec Ideal S192x880 .bf16) (v84 : Vec Ideal S880x2304 .bf16) (mk : Masks) :
    Fin 9 → (⟨2, ![64, 2304]⟩ : Shape).Idx → EReal
  | ⟨0, _⟩ => k0_pay27 (F := Ideal) v6 v82 v84 (mk 0)
  | ⟨1, _⟩ => k0_pay28 (F := Ideal) (k0_pay26 v6 v82 v84) (mk 1)
  | ⟨2, _⟩ => k0_pay29 (F := Ideal) (k0_pay26 v6 v82 v84) (mk 2)
  | ⟨3, _⟩ => k0_pay30 (F := Ideal) (k0_pay26 v6 v82 v84) (mk 3)
  | ⟨4, _⟩ => k0_pay31 (F := Ideal) (k0_pay26 v6 v82 v84) (mk 4)
  | ⟨5, _⟩ => k0_pay34 (F := Ideal) (k0_pay32 (k0_pay26 v6 v82 v84)) (k0_pay33 (mk 5))
  | ⟨6, _⟩ => k0_pay35 (F := Ideal) (k0_pay26 v6 v82 v84) (mk 6)
  | ⟨7, _⟩ => k0_pay36 (F := Ideal) (k0_pay26 v6 v82 v84) (mk 7)
  | ⟨8, _⟩ => k0_pay37 (F := Ideal) (k0_pay26 v6 v82 v84) (mk 8)

def T254 (v170 : FVec Ideal S64x2304 .f32) (v174 : Vec Ideal S1x64x2304 .f32) (mk : Masks) :
    Fin 9 → (⟨2, ![128, 2304]⟩ : Shape).Idx → EReal
  | ⟨0, _⟩ => k0_pay43 (F := Ideal) v170 v174 (mk 0)
  | ⟨1, _⟩ => k0_pay44 (F := Ideal) v170 v174 (mk 1)
  | ⟨2, _⟩ => k0_pay46 (F := Ideal) (k0_pay45 v170 v174 (mk 2))
  | ⟨3, _⟩ => k0_pay47 (F := Ideal) (k0_pay41 v170 v174) (mk 3)
  | ⟨4, _⟩ => k0_pay48 (F := Ideal) (k0_pay41 v170 v174) (mk 4)
  | ⟨5, _⟩ => k0_pay49 (F := Ideal) (k0_pay41 v170 v174) (mk 5)
  | ⟨6, _⟩ => k0_pay50 (F := Ideal) (k0_pay41 v170 v174) (mk 6)
  | ⟨7, _⟩ => k0_pay52 (F := Ideal) (k0_pay51 (k0_pay41 v170 v174)) (mk 7)
  | ⟨8, _⟩ => k0_pay53 (F := Ideal) (k0_pay41 v170 v174) (mk 8)

def T334 (v175 : FVec Ideal S64x2304 .f32) (v252 : Vec Ideal S192x1168 .bf16) (v254 : Vec Ideal S1168x2304 .bf16) (mk : Masks) :
    Fin 9 → (⟨2, ![64, 2304]⟩ : Shape).Idx → EReal
  | ⟨0, _⟩ => k0_pay58 (F := Ideal) v175 v252 v254 (mk 0)
  | ⟨1, _⟩ => k0_pay61 (F := Ideal) (k0_pay59 v175 v252 v254) (k0_pay60 (mk 1))
  | ⟨2, _⟩ => k0_pay62 (F := Ideal) (k0_pay57 v175 v252 v254) (mk 2)
  | ⟨3, _⟩ => k0_pay63 (F := Ideal) (k0_pay57 v175 v252 v254) (mk 3)
  | ⟨4, _⟩ => k0_pay64 (F := Ideal) (k0_pay57 v175 v252 v254) (mk 4)
  | ⟨5, _⟩ => k0_pay66 (F := Ideal) (k0_pay65 (k0_pay57 v175 v252 v254) (mk 5))
  | ⟨6, _⟩ => k0_pay67 (F := Ideal) (k0_pay57 v175 v252 v254) (mk 6)
  | ⟨7, _⟩ => k0_pay68 (F := Ideal) (k0_pay57 v175 v252 v254) (mk 7)
  | ⟨8, _⟩ => k0_pay69 (F := Ideal) (k0_pay57 v175 v252 v254) (mk 8)

theorem T84_apply (v3 : Vec Ideal S1x1x32x2304 .bf16) (v5 : Vec Ideal S1x64x2304 .f32) (mk : Masks) (i : Fin 9) (r : Fin 96) (n : Fin 2304) :
    T84 v3 v5 mk i (ix2 r n)
      = Spec.rot (Spec.amt i) (fun n' => k0_pay9 (F := Ideal) v3 v5 (ix2 r n')) n * mk i (ix2 (0 : Fin 1) n) :=
  match i with
  | ⟨0, _⟩ => Pay0.tap0_apply v3 v5 (mk 0) r n
  | ⟨1, _⟩ => Pay0.tap1_apply v3 v5 (mk 1) r n
  | ⟨2, _⟩ => Pay0.tap2_apply v3 v5 (mk 2) r n
  | ⟨3, _⟩ => Pay0.tap3_apply (k0_pay9 v3 v5) (mk 3) r n
  | ⟨4, _⟩ => Pay0.tap4_apply (k0_pay9 v3 v5) (mk 4) r n
  | ⟨5, _⟩ => Pay0.tap5_apply (k0_pay9 v3 v5) (mk 5) r n
  | ⟨6, _⟩ => Pay0.tap6_apply (k0_pay9 v3 v5) (mk 6) r n
  | ⟨7, _⟩ => Pay0.tap7_apply (k0_pay9 v3 v5) (mk 7) r n
  | ⟨8, _⟩ => Pay0.tap8_apply (k0_pay9 v3 v5) (mk 8) r n

theorem T164_apply (v6 : FVec Ideal S64x2304 .f32) (v82 : Vec Ideal S192x880 .bf16) (v84 : Vec Ideal S880x2304 .bf16) (mk : Masks) (i : Fin 9) (c : Fin 64) (n : Fin 2304) :
    T164 v6 v82 v84 mk i (ix2 c n)
      = Spec.rot (Spec.amt i) (fun n' => k0_pay26 (F := Ideal) v6 v82 v84 (ix2 c n')) n * mk i (ix2 (0 : Fin 1) n) :=
  match i with
  | ⟨0, _⟩ => Pay0.gtap0_apply v6 v82 v84 (mk 0) c n
  | ⟨1, _⟩ => Pay0.gtap1_apply (k0_pay26 v6 v82 v84) (mk 1) c n
  | ⟨2, _⟩ => Pay0.gtap2_apply (k0_pay26 v6 v82 v84) (mk 2) c n
  | ⟨3, _⟩ => Pay0.gtap3_apply (k0_pay26 v6 v82 v84) (mk 3) c n
  | ⟨4, _⟩ => Pay0.gtap4_apply (k0_pay26 v6 v82 v84) (mk 4) c n
  | ⟨5, _⟩ => Pay0.gtap5_apply (k0_pay26 v6 v82 v84) (mk 5) c n
  | ⟨6, _⟩ => Pay0.gtap6_apply (k0_pay26 v6 v82 v84) (mk 6) c n
  | ⟨7, _⟩ => Pay0.gtap7_apply (k0_pay26 v6 v82 v84) (mk 7) c n
  | ⟨8, _⟩ => Pay0.gtap8_apply (k0_pay26 v6 v82 v84) (mk 8) c n

theorem T254_apply (v170 : FVec Ideal S64x2304 .f32) (v174 : Vec Ideal S1x64x2304 .f32) (mk : Masks) (i : Fin 9) (r : Fin 128) (n : Fin 2304) :
    T254 v170 v174 mk i (ix2 r n)
      = Spec.rot (Spec.amt i) (fun n' => k0_pay41 (F := Ideal) v170 v174 (ix2 r n')) n * mk i (ix2 (0 : Fin 1) n) :=
  match i with
  | ⟨0, _⟩ => Pay1.tap0_apply v170 v174 (mk 0) r n
  | ⟨1, _⟩ => Pay1.tap1_apply v170 v174 (mk 1) r n
  | ⟨2, _⟩ => (congrFun (Pay1.pay46_eq (k0_pay45 v170 v174 (mk 2))) (ix2 r n)).trans (Pay1.tap2_apply v170 v174 (mk 2) r n)
  | ⟨3, _⟩ => Pay1.tap3_apply (k0_pay41 v170 v174) (mk 3) r n
  | ⟨4, _⟩ => Pay1.tap4_apply (k0_pay41 v170 v174) (mk 4) r n
  | ⟨5, _⟩ => Pay1.tap5_apply (k0_pay41 v170 v174) (mk 5) r n
  | ⟨6, _⟩ => Pay1.tap6_apply (k0_pay41 v170 v174) (mk 6) r n
  | ⟨7, _⟩ => Pay1.tap7_apply (k0_pay41 v170 v174) (mk 7) r n
  | ⟨8, _⟩ => Pay1.tap8_apply (k0_pay41 v170 v174) (mk 8) r n

theorem T334_apply (v175 : FVec Ideal S64x2304 .f32) (v252 : Vec Ideal S192x1168 .bf16) (v254 : Vec Ideal S1168x2304 .bf16) (mk : Masks) (i : Fin 9) (c : Fin 64) (n : Fin 2304) :
    T334 v175 v252 v254 mk i (ix2 c n)
      = Spec.rot (Spec.amt i) (fun n' => k0_pay57 (F := Ideal) v175 v252 v254 (ix2 c n')) n * mk i (ix2 (0 : Fin 1) n) :=
  match i with
  | ⟨0, _⟩ => Pay1.gtap0_apply v175 v252 v254 (mk 0) c n
  | ⟨1, _⟩ => by
    show k0_pay61 (F := Ideal) (k0_pay59 v175 v252 v254) (k0_pay60 (mk 1)) (ix2 c n) = _
    rw [Pay1.pay61_apply, Pay1.pay59_apply, Pay1.pay60_eq]
    rfl
  | ⟨2, _⟩ => Pay1.gtap2_apply (k0_pay57 v175 v252 v254) (mk 2) c n
  | ⟨3, _⟩ => Pay1.gtap3_apply (k0_pay57 v175 v252 v254) (mk 3) c n
  | ⟨4, _⟩ => Pay1.gtap4_apply (k0_pay57 v175 v252 v254) (mk 4) c n
  | ⟨5, _⟩ => (congrFun (Pay1.pay66_eq (k0_pay65 (k0_pay57 v175 v252 v254) (mk 5))) (ix2 c n)).trans
      (Pay1.gtap5_apply (k0_pay57 v175 v252 v254) (mk 5) c n)
  | ⟨6, _⟩ => Pay1.gtap6_apply (k0_pay57 v175 v252 v254) (mk 6) c n
  | ⟨7, _⟩ => Pay1.gtap7_apply (k0_pay57 v175 v252 v254) (mk 7) c n
  | ⟨8, _⟩ => Pay1.gtap8_apply (k0_pay57 v175 v252 v254) (mk 8) c n

section Layers

variable (W : Fin 192 → Fin 1160 → EReal) (W2 : Fin 64 → Fin 576 → EReal) (M : Fin 9 → Row)
  (mk : Masks) (hmk : ∀ (i : Fin 9) (n : Fin 2304), mk i (ix2 (0 : Fin 1) n) = M i n)

include hmk

theorem layer0 (x : Fin 32 → Row) (h : Fin 64 → Row) (v3 : Vec Ideal S1x1x32x2304 .bf16) (hv3 : ∀ (ch : Fin 32) (n : Fin 2304), v3 (ix4 (0 : Fin 1) (0 : Fin 1) ch n) = x ch n) (v5 : Vec Ideal S1x64x2304 .f32) (hv5 : ∀ (c : Fin 64) (n : Fin 2304), v5 (ix3 (0 : Fin 1) c n) = h c n) (v9 : Vec Ideal S1x64x576 .bf16) (hv9 : ∀ (c : Fin 64) (k : Fin 576), v9 (ix3 (0 : Fin 1) c k) = W2 c k) (v82 : Vec Ideal S192x880 .bf16) (hb : ∀ o : Fin 192, v82 (ix2 o (⟨0, by decide⟩ : Fin 880)) = W o ⟨1152, by decide⟩) (hwx : ∀ (o : Fin 192) (i : Fin 9) (ch : Fin 32),
      v82 (ix2 o (⟨16 + 96 * i.val + ch.val, by omega⟩ : Fin 880)) = W o ⟨128 * i.val + ch.val, by omega⟩) (hwh : ∀ (o : Fin 192) (i : Fin 9) (ch : Fin 64),
      v82 (ix2 o (⟨16 + 96 * i.val + 32 + ch.val, by omega⟩ : Fin 880)) = W o ⟨128 * i.val + 64 + ch.val, by omega⟩) (v84 : Vec Ideal S880x2304 .bf16) (h1 : ∀ n : Fin 2304, v84 (ix2 (⟨0, by decide⟩ : Fin 880) n) = 1) (h0 : ∀ k : Fin 880, 1 ≤ k.val → k.val < 16 → ∀ n : Fin 2304, v84 (ix2 k n) = 0) (ht : ∀ (i : Fin 9) (r : Fin 96) (n : Fin 2304),
      v84 (ix2 (⟨16 + 96 * i.val + r.val, by omega⟩ : Fin 880) n) = T84 v3 v5 mk i (ix2 r n)) (v164 : Vec Ideal S576x2304 .bf16) (hg : ∀ (i : Fin 9) (c : Fin 64) (n : Fin 2304),
      v164 (ix2 (⟨64 * i.val + c.val, by omega⟩ : Fin 576) n) = T164 (k0_pay8 v5) v82 v84 mk i (ix2 c n)) (c : Fin 64) (n : Fin 2304) :
    k0_pay38 (F := Ideal) (k0_pay8 v5) (k0_pay10 v9) (k0_pay24 v82 v84) (k0_pay25 v82 v84) v164 (ix2 c n)
      = Spec.next W W2 M (Spec.pad x) h c n := by
  have hx : ∀ (i : Fin 9) (ch : Fin 32) (n : Fin 2304),
      v84 (ix2 (⟨16 + 96 * i.val + ch.val, by omega⟩ : Fin 880) n) = Spec.tap M i (x ch) n := by
    intro i ch n
    refine (ht i ⟨ch.val, by omega⟩ n).trans ?_
    rw [T84_apply, hmk]
    exact congrArg (fun v => Spec.rot (Spec.amt i) v n * M i n)
      (funext fun n' => (Pay0.stack_input_apply v3 v5 ch n').trans (hv3 ch n'))
  have hh : ∀ (i : Fin 9) (ch : Fin 64) (n : Fin 2304),
      v84 (ix2 (⟨16 + 96 * i.val + 32 + ch.val, by omega⟩ : Fin 880) n) = Spec.tap M i (h ch) n := by
    intro i ch n
    have e : (⟨16 + 96 * i.val + 32 + ch.val, by omega⟩ : Fin 880)
        = ⟨16 + 96 * i.val + (⟨32 + ch.val, by omega⟩ : Fin 96).val, by omega⟩ :=
      Fin.ext (by show 16 + 96 * i.val + 32 + ch.val = 16 + 96 * i.val + (32 + ch.val); omega)
    rw [e, ht i ⟨32 + ch.val, by omega⟩ n, T84_apply, hmk]
    exact congrArg (fun v => Spec.rot (Spec.amt i) v n * M i n)
      (funext fun n' => (Pay0.stack_state_apply v3 v5 ch n').trans (hv5 ch n'))
  have hv6 : ∀ (c : Fin 64) (n : Fin 2304), k0_pay8 (F := Ideal) v5 (ix2 c n) = h c n :=
    fun c n => (Pay0.state_apply v5 c n).trans (hv5 c n)
  have hp : ∀ (i : Fin 9) (c' : Fin 64) (n : Fin 2304),
      v164 (ix2 (⟨64 * i.val + c'.val, by omega⟩ : Fin 576) n)
        = Spec.tap M i (Spec.gated W M (Spec.pad x) h c') n := by
    intro i c' n
    rw [hg, T164_apply, hmk]
    exact congrArg (fun v => Spec.rot (Spec.amt i) v n * M i n)
      (funext fun n' => Layer.gated0 W M x h v82 v84 hb hwx hwh h1 h0 hx hh (k0_pay8 v5) hv6 c' n')
  exact Layer.new0 W W2 M (Spec.pad x) h (k0_pay8 v5) (k0_pay10 v9) (k0_pay24 v82 v84) (k0_pay25 v82 v84) v164 hv6
    (fun c k => (Pay0.candWeights_apply v9 c k).trans (hv9 c k))
    (fun c n => Layer.upd0 W M x h v82 v84 hb hwx hwh h1 h0 hx hh c n)
    (fun c n => Layer.candIn0 W M x h v82 v84 hb hwx hwh h1 h0 hx hh c n)
    hp c n

theorem layer1 (xin h : Fin 64 → Row) (v170 : FVec Ideal S64x2304 .f32) (hv170 : ∀ (c : Fin 64) (n : Fin 2304), v170 (ix2 c n) = xin c n) (v174 : Vec Ideal S1x64x2304 .f32) (hv174 : ∀ (c : Fin 64) (n : Fin 2304), v174 (ix3 (0 : Fin 1) c n) = h c n) (v179 : Vec Ideal S1x64x576 .bf16) (hv179 : ∀ (c : Fin 64) (k : Fin 576), v179 (ix3 (0 : Fin 1) c k) = W2 c k) (v252 : Vec Ideal S192x1168 .bf16) (hb : ∀ o : Fin 192, v252 (ix2 o (⟨0, by decide⟩ : Fin 1168)) = W o ⟨1152, by decide⟩) (hwx : ∀ (o : Fin 192) (i : Fin 9) (ch : Fin 64),
      v252 (ix2 o (⟨16 + 128 * i.val + ch.val, by omega⟩ : Fin 1168)) = W o ⟨128 * i.val + ch.val, by omega⟩) (hwh : ∀ (o : Fin 192) (i : Fin 9) (ch : Fin 64),
      v252 (ix2 o (⟨16 + 128 * i.val + 64 + ch.val, by omega⟩ : Fin 1168)) = W o ⟨128 * i.val + 64 + ch.val, by omega⟩) (v254 : Vec Ideal S1168x2304 .bf16) (h1 : ∀ n : Fin 2304, v254 (ix2 (⟨0, by decide⟩ : Fin 1168) n) = 1) (h0 : ∀ k : Fin 1168, 1 ≤ k.val → k.val < 16 → ∀ n : Fin 2304, v254 (ix2 k n) = 0) (ht : ∀ (i : Fin 9) (r : Fin 128) (n : Fin 2304),
      v254 (ix2 (⟨16 + 128 * i.val + r.val, by omega⟩ : Fin 1168) n) = T254 v170 v174 mk i (ix2 r n)) (v334 : Vec Ideal S576x2304 .bf16) (hg : ∀ (i : Fin 9) (c : Fin 64) (n : Fin 2304),
      v334 (ix2 (⟨64 * i.val + c.val, by omega⟩ : Fin 576) n) = T334 (k0_pay40 v174) v252 v254 mk i (ix2 c n)) (c : Fin 64) (n : Fin 2304) :
    k0_pay70 (F := Ideal) (k0_pay40 v174) (k0_pay42 v179) (k0_pay55 v252 v254) (k0_pay56 v252 v254) v334 (ix2 c n)
      = Spec.next W W2 M xin h c n := by
  have hx : ∀ (i : Fin 9) (ch : Fin 64) (n : Fin 2304),
      v254 (ix2 (⟨16 + 128 * i.val + ch.val, by omega⟩ : Fin 1168) n) = Spec.tap M i (xin ch) n := by
    intro i ch n
    refine (ht i ⟨ch.val, by omega⟩ n).trans ?_
    rw [T254_apply, hmk]
    exact congrArg (fun v => Spec.rot (Spec.amt i) v n * M i n)
      (funext fun n' => (Pay1.stack_lo v170 v174 ⟨ch.val, by omega⟩ ch rfl n').trans (hv170 ch n'))
  have hh : ∀ (i : Fin 9) (ch : Fin 64) (n : Fin 2304),
      v254 (ix2 (⟨16 + 128 * i.val + 64 + ch.val, by omega⟩ : Fin 1168) n) = Spec.tap M i (h ch) n := by
    intro i ch n
    have e : (⟨16 + 128 * i.val + 64 + ch.val, by omega⟩ : Fin 1168)
        = ⟨16 + 128 * i.val + (⟨64 + ch.val, by omega⟩ : Fin 128).val, by omega⟩ :=
      Fin.ext (by show 16 + 128 * i.val + 64 + ch.val = 16 + 128 * i.val + (64 + ch.val); omega)
    rw [e, ht i ⟨64 + ch.val, by omega⟩ n, T254_apply, hmk]
    exact congrArg (fun v => Spec.rot (Spec.amt i) v n * M i n)
      (funext fun n' => (Pay1.stack_hi v170 v174 ⟨64 + ch.val, by omega⟩ ch rfl n').trans (hv174 ch n'))
  have hv : ∀ (c : Fin 64) (n : Fin 2304), k0_pay40 (F := Ideal) v174 (ix2 c n) = h c n :=
    fun c n => (Pay1.pay40_apply v174 c n).trans (hv174 c n)
  have hp : ∀ (i : Fin 9) (c' : Fin 64) (n : Fin 2304),
      v334 (ix2 (⟨64 * i.val + c'.val, by omega⟩ : Fin 576) n) = Spec.tap M i (Spec.gated W M xin h c') n := by
    intro i c' n
    rw [hg, T334_apply, hmk]
    exact congrArg (fun v => Spec.rot (Spec.amt i) v n * M i n)
      (funext fun n' => Layer.gated1 W M xin h v252 v254 hb hwx hwh h1 h0 hx hh (k0_pay40 v174) hv c' n')
  exact Layer.new1 W W2 M xin h (k0_pay40 v174) (k0_pay42 v179) (k0_pay55 v252 v254) (k0_pay56 v252 v254) v334 hv
    (fun c k => (Pay1.pay42_apply v179 c k).trans (hv179 c k))
    (fun c n => Layer.upd1 W M xin h v252 v254 hb hwx hwh h1 h0 hx hh c n)
    (fun c n => Layer.candIn1 W M xin h v252 v254 hb hwx hwh h1 h0 hx hh c n)
    hp c n

end Layers

end Cert.KernelIdeal.Taps

end
-- ==== Proof.KI.StepA.lean ====
import proofs.«130420_g2000206920649175_pallasbulk_1279_2_alg».proof.Proof.KI.Taps
import proofs.«130420_g2000206920649175_pallasbulk_1279_2_alg».proof.Proof.KI.Facts

set_option quotPrecheck false

noncomputable section

namespace Cert.KernelIdeal.Par

open Idealize.ShloMosaic Idealize.ShloMosaic.TcCoe Idealize.ShloMosaic.ValueIdx
open Idealize.SL.Sem
open Cert.KernelIdeal Cert.KernelIdeal.Gen Cert.KernelIdeal.Hand Cert.KernelIdeal.Taps
open Cert.Spec (Row)

theorem inb_mask (j : ℕ) (hj : j < 16) :
    ∀ a : Fin 2, (![j, 0] : Fin 2 → ℕ) a + S1x2304.size a ≤ S16x2304.size a :=
  Fin.forall_fin_two.mpr ⟨by show j + 1 ≤ 16; omega, by show 0 + 2304 ≤ 2304; omega⟩

def masksOf (arg2 : Memref sig .tc .vmem S16x2304 .bf16) (harg2 : arg2.IsWhole) (x0 : Vec Ideal S16x2304 .bf16) : Masks :=
  fun j => View.readAt (Elt Ideal) arg2.view
    (Rect.unit (s := S16x2304) ![j.val, 0] S1x2304.size (inb_mask j.val (by omega))).toLoadRect (harg2.unread x0)

theorem masksOf_apply (arg2 : Memref sig .tc .vmem S16x2304 .bf16) (harg2 : arg2.IsWhole) (x0 : Vec Ideal S16x2304 .bf16) (j : Fin 9) (n : Fin 2304) :
    masksOf arg2 harg2 x0 j (ix2 (0 : Fin 1) n) = x0 (ix2 (⟨j.val, by omega⟩ : Fin 16) n) :=
  Rows.load_unread harg2 x0 j.val 1 _ (0 : Fin 1) n j.val (by omega) rfl

theorem stA_ext (s : S2x64x2304.Idx → EReal) (a b : Fin 64 → Row) (ha : ∀ (ch : Fin 64) (n : Fin 2304), s (ix3 (0 : Fin 2) ch n) = a ch n) (hb : ∀ (ch : Fin 64) (n : Fin 2304), s (ix3 (1 : Fin 2) ch n) = b ch n) : st s = (a, b) :=
  Prod.ext (funext fun ch => funext fun n => ha ch n) (funext fun ch => funext fun n => hb ch n)

theorem stA_snd (s : S2x64x2304.Idx → EReal) (ch : Fin 64) (n : Fin 2304) : (st s).2 ch n = s (ix3 (1 : Fin 2) ch n) := rfl

theorem read_whole_store {sig' : RefSig} {κ : Kind} {sp : Space} {e : EltTy} {S : Shape} (v : View sig' κ sp S e) (f : v.ty.Contents (Elt Ideal)) (off : Fin S.rank → ℕ) (hz : ∀ a, off a = 0) (inb : ∀ a, off a + S.size a ≤ S.size a) (w : (Rect.unit (s := S) off S.size inb).shape.Idx → Elt Ideal e) (L : List (View.Piece (Elt Ideal) S e)) (y : S.Idx) :
    v.read (Elt Ideal) (v.writes (Elt Ideal) f ((⟨Rect.unit (s := S) off S.size inb, w⟩ : View.Piece (Elt Ideal) S e) :: L)) y = w y :=
  View.read_writes_cons_unit_of_mem v f inb w L y y rfl (fun a => by rw [hz a, Nat.zero_add])

theorem onesRow_zero (old : S2x2304.Idx → EReal) (h : S2x2304.Slices ![0, 0] S1x2304) (n : Fin 2304) :
    updateSlice old (k0_pay7 (F := Ideal)) ![0, 0] h (ix2 (0 : Fin 2) n) = 1 := by
  unfold updateSlice
  rw [dif_pos (Fin.forall_fin_two.mpr ⟨⟨Nat.le_refl _, by show (0 : ℕ) < 0 + 1; omega⟩, ⟨Nat.zero_le _, by show n.val < 0 + 2304; omega⟩⟩)]
  exact Pay1.pay7_apply _

theorem onesRow_one (old : S2x2304.Idx → EReal) (h : S2x2304.Slices ![0, 0] S1x2304) (n : Fin 2304) :
    updateSlice old (k0_pay7 (F := Ideal)) ![0, 0] h (ix2 (1 : Fin 2) n) = old (ix2 (1 : Fin 2) n) := by
  unfold updateSlice
  rw [dif_neg (fun hin => absurd (hin 0).2 (by show ¬ ((1 : ℕ) < 0 + 1); omega))]

theorem hz2 : ∀ a : Fin 2, (![0, 0] : Fin 2 → ℕ) a = 0 := by decide
theorem hz3 : ∀ a : Fin 3, (![0, 0, 0] : Fin 3 → ℕ) a = 0 := by decide
theorem hz4 : ∀ a : Fin 4, (![0, 0, 0, 0] : Fin 4 → ℕ) a = 0 := by decide
theorem hzf2 : (![0, 0] : Fin 2 → ℕ) = fun _ => 0 := funext hz2
theorem hzf4 : (![0, 0, 0, 0] : Fin 4 → ℕ) = fun _ => 0 := funext hz4

section FirstStep

variable {c : Dev nD} {i : grid0.Coords} {arg2 : Memref sig .tc .vmem S16x2304 .bf16} {harg2 : arg2.IsWhole} {arg3 : Memref sig .tc .vmem S1x1x32x2304 .bf16} {harg3 : arg3.IsWhole} {arg4 : Memref sig .tc .vmem S192x880 .bf16} {harg4 : arg4.IsWhole} {arg5 : Memref sig .tc .vmem S192x1168 .bf16} {harg5 : arg5.IsWhole} {arg6 : Memref sig .tc .vmem S2x64x576 .bf16} {harg6 : arg6.IsWhole} {arg7 : Memref sig .tc .vmem S1x1x64x2304 .f32} {harg7 : arg7.IsWhole} {arg8 : Memref sig .tc .vmem S1x2x64x2304 .f32} {harg8 : arg8.IsWhole} {arg9 : Memref sig .tc .vmem S2x64x2304 .f32} {harg9 : arg9.IsWhole} {arg10 : Memref sig .tc .vmem S1168x2304 .bf16} {harg10 : arg10.IsWhole} {arg11 : Memref sig .tc .vmem S576x2304 .bf16} {harg11 : arg11.IsWhole} {hc0 : cond0_0 i} {hc1 : ¬cond0_1 i}
  {x0 : Vec Ideal S16x2304 .bf16} {x1 : Vec Ideal S1x1x32x2304 .bf16} {x2 : Vec Ideal S192x880 .bf16} {x3 : Vec Ideal S192x1168 .bf16} {x4 : Vec Ideal S2x64x576 .bf16}

local notation "X1" => View.readAt (Elt Ideal) arg3.view (Rect.unit (s := S1x1x32x2304) ![0, 0, 0, 0] S1x1x32x2304.size inb_S1x1x32x2304_S1x1x32x2304_0_0_0_0).toLoadRect (harg3.unread x1)

local notation "W10" => View.readAt (Elt Ideal) arg4.view (Rect.unit (s := S192x880) ![0, 0] S192x880.size inb_S192x880_S192x880_0_0).toLoadRect (harg4.unread x2)
local notation "W11" => View.readAt (Elt Ideal) arg5.view (Rect.unit (s := S192x1168) ![0, 0] S192x1168.size inb_S192x1168_S192x1168_0_0).toLoadRect (harg5.unread x3)

local notation "W20" => View.readAt (Elt Ideal) arg6.view (Rect.unit (s := S2x64x576) ![0, 0, 0] S1x64x576.size inb_S2x64x576_S1x64x576_0_0_0).toLoadRect (harg6.unread x4)
local notation "W21" => View.readAt (Elt Ideal) arg6.view (Rect.unit (s := S2x64x576) ![1, 0, 0] S1x64x576.size inb_S2x64x576_S1x64x576_1_0_0).toLoadRect (harg6.unread x4)
local notation "MK" => masksOf arg2 harg2 x0

local notation "V5" => kernelRun0_A.sl.v5 (F := Ideal) c arg9
local notation "V174" => kernelRun0_A.sl.v174 (F := Ideal) c arg2 harg2 arg3 harg3 arg4 harg4 arg6 harg6 arg9 arg10 arg11 x0 x1 x2 x4
local notation "V84" => kernelRun0_A.sl.v84 (F := Ideal) c arg2 harg2 arg3 harg3 arg9 arg10 x0 x1
local notation "V164" => kernelRun0_A.sl.v164 (F := Ideal) c arg2 harg2 arg3 harg3 arg4 harg4 arg9 arg10 arg11 x0 x1 x2
local notation "V254" => kernelRun0_A.sl.v254 (F := Ideal) c arg2 harg2 arg3 harg3 arg4 harg4 arg6 harg6 arg9 arg10 arg11 x0 x1 x2 x4
local notation "V334" => kernelRun0_A.sl.v334 (F := Ideal) c arg2 harg2 arg3 harg3 arg4 harg4 arg5 harg5 arg6 harg6 arg9 arg10 arg11 x0 x1 x2 x3 x4
local notation "H0N" => kernelRun0_A.sl.r_11 (F := Ideal) c arg2 harg2 arg3 harg3 arg4 harg4 arg6 harg6 arg9 arg10 arg11 x0 x1 x2 x4

local notation "ONES" => (⟨Rect.unit (s := S1168x2304) ![0, 0] S2x2304.size inb_S1168x2304_S2x2304_0_0, updateSlice (kernelRun0_A.sl.old (F := Ideal) c arg10) (k0_pay7 (F := Ideal)) ![0, 0] slices_S2x2304_S1x2304_0_0⟩ : View.Piece (Elt Ideal) S1168x2304 .bf16)

theorem listA_84 : kernelRun0_A.sl.HS1_11 (F := Ideal) c arg2 harg2 arg3 harg3 arg9 arg10 x0 x1
    = tapPieces (K := 1168) 96 16 96 (fun j a => by fin_cases j <;> fin_cases a <;> decide) (T84 X1 V5 MK) ++ (ONES :: kernelRun0_A.sl.HS1_1 (F := Ideal)) := by
  unfold kernelRun0_A.sl.HS1_11 kernelRun0_A.sl.HS1_8 kernelRun0_A.sl.HS1_4
  rfl

theorem listA_164 : kernelRun0_A.sl.HS2_10 (F := Ideal) c arg2 harg2 arg3 harg3 arg4 harg4 arg9 arg10 x0 x1 x2
    = tapPieces (K := 576) 64 0 64 (fun j a => by fin_cases j <;> fin_cases a <;> decide) (T164 (k0_pay8 V5) W10 V84 MK) ++ kernelRun0_A.sl.HS2_1 (F := Ideal) := by
  unfold kernelRun0_A.sl.HS2_10 kernelRun0_A.sl.HS2_6 kernelRun0_A.sl.HS2_2
  rfl

theorem listA_254 : kernelRun0_A.sl.HS1_20 (F := Ideal) c arg2 harg2 arg3 harg3 arg4 harg4 arg6 harg6 arg9 arg10 arg11 x0 x1 x2 x4
    = tapPieces (K := 1168) 128 16 128 (fun j a => by fin_cases j <;> fin_cases a <;> decide) (T254 H0N V174 MK) ++ kernelRun0_A.sl.HS1_11 (F := Ideal) c arg2 harg2 arg3 harg3 arg9 arg10 x0 x1 := by
  unfold kernelRun0_A.sl.HS1_20 kernelRun0_A.sl.HS1_18 kernelRun0_A.sl.HS1_13
  rfl

theorem listA_334 : kernelRun0_A.sl.HS2_19 (F := Ideal) c arg2 harg2 arg3 harg3 arg4 harg4 arg5 harg5 arg6 harg6 arg9 arg10 arg11 x0 x1 x2 x3 x4
    = tapPieces (K := 576) 64 0 64 (fun j a => by fin_cases j <;> fin_cases a <;> decide) (T334 (k0_pay40 V174) W11 V254 MK) ++ kernelRun0_A.sl.HS2_10 (F := Ideal) c arg2 harg2 arg3 harg3 arg4 harg4 arg9 arg10 x0 x1 x2 := by
  unfold kernelRun0_A.sl.HS2_19 kernelRun0_A.sl.HS2_15 kernelRun0_A.sl.HS2_11
  rfl

theorem listA_S1 : (kernelRun0_A (F := Ideal) c i arg2 harg2 arg3 harg3 arg4 harg4 arg5 harg5 arg6 harg6 arg7 harg7 arg8 harg8 arg9 harg9 arg10 harg10 arg11 harg11 hc0 hc1 x0 x1 x2 x3 x4).2.2.1 = kernelRun0_A.sl.HS1_20 (F := Ideal) c arg2 harg2 arg3 harg3 arg4 harg4 arg6 harg6 arg9 arg10 arg11 x0 x1 x2 x4 := by
  unfold kernelRun0_A
  rfl

theorem v5A (ch : Fin 64) (n : Fin 2304) : V5 (ix3 (0 : Fin 1) ch n) = 0 := by
  unfold kernelRun0_A.sl.v5 kernelRun0_A.sl.HS0_1 View.readCov
  exact (Rows.load3 arg9.view _ 0 (by decide) _ (0 : Fin 1) ch n).trans
    ((read_whole_store arg9.view _ _ hz3 _ _ _ _).trans (Pay1.pay4_apply _))

theorem v174A (ch : Fin 64) (n : Fin 2304) : V174 (ix3 (0 : Fin 1) ch n) = 0 := by
  unfold kernelRun0_A.sl.v174 kernelRun0_A.sl.HS0_2 kernelRun0_A.sl.HS0_1 View.readCov
  exact (Rows.load3 arg9.view _ 1 (by decide) _ (0 : Fin 1) ch n).trans
    ((Rows.skip3 arg9.view _ 0 _ _ _ 1 (by decide) (by decide) ch n).trans
      ((read_whole_store arg9.view _ _ hz3 _ _ _ _).trans (Pay1.pay4_apply _)))

theorem headA {κ : Kind} {sp : Space} (v : View sig κ sp S1168x2304 .bf16) (k : ℕ) (hk : k < 16) (n : Fin 2304) :
    v.read (Elt Ideal) (v.writes (Elt Ideal) v.junk (ONES :: kernelRun0_A.sl.HS1_1 (F := Ideal))) (ix2 (⟨k, by omega⟩ : Fin 1168) n)
      = if k = 0 then 1 else 0 := by
  rcases Nat.lt_or_ge k 2 with h2 | h2
  · rcases Nat.eq_zero_or_pos k with rfl | hpos
    · rw [if_pos rfl]
      exact (Rows.hit v _ 0 2 _ _ _ 0 (by omega) n (0 : Fin 2) rfl).trans (onesRow_zero _ _ n)
    · obtain rfl : k = 1 := by omega
      rw [if_neg (by decide)]
      refine (Rows.hit v _ 0 2 _ _ _ 1 (by omega) n (1 : Fin 2) rfl).trans ((onesRow_one _ _ n).trans ?_)
      unfold kernelRun0_A.sl.old kernelRun0_A.sl.HS1_1 View.readCov
      exact (Rows.load arg10.view _ 0 2 _ (1 : Fin 2) n 1 (by omega) rfl).trans
        ((read_whole_store arg10.view _ _ hz2 _ _ _ _).trans (Pay1.pay5_apply _))
  · rw [if_neg (by omega)]
    refine (Rows.skip v _ 0 2 _ _ _ k (by omega) n (Or.inr (by omega))).trans ?_
    unfold kernelRun0_A.sl.HS1_1
    exact (read_whole_store v _ _ hz2 _ _ _ _).trans (Pay1.pay5_apply _)

theorem v84A_tap (j : Fin 9) (r : Fin 96) (n : Fin 2304) :
    V84 (ix2 (⟨16 + 96 * j.val + r.val, by omega⟩ : Fin 880) n) = T84 X1 V5 MK j (ix2 r n) := by
  unfold kernelRun0_A.sl.v84 View.readCov
  refine (Rows.load arg10.view _ 0 880 _ (⟨16 + 96 * j.val + r.val, by omega⟩ : Fin 880) n (16 + 96 * j.val + r.val) (by omega)
    (Nat.zero_add _).symm).trans ?_
  rw [listA_84]
  exact read_tap arg10.view _ 96 16 96 (le_refl _) _ _ _ j r n _ rfl

theorem v84A_head (k : ℕ) (hk : k < 16) (n : Fin 2304) :
    V84 (ix2 (⟨k, by omega⟩ : Fin 880) n) = if k = 0 then 1 else 0 := by
  unfold kernelRun0_A.sl.v84 View.readCov
  refine (Rows.load arg10.view _ 0 880 _ (⟨k, by omega⟩ : Fin 880) n k (by omega) (Nat.zero_add _).symm).trans ?_
  rw [listA_84]
  exact (read_below arg10.view _ 96 16 96 _ _ _ ⟨k, by omega⟩ n hk).trans (headA arg10.view k hk n)

theorem v164A_tap (j : Fin 9) (r : Fin 64) (n : Fin 2304) :
    V164 (ix2 (⟨64 * j.val + r.val, by omega⟩ : Fin 576) n) = T164 (k0_pay8 V5) W10 V84 MK j (ix2 r n) := by
  unfold kernelRun0_A.sl.v164 View.readCov
  refine (Rows.load arg11.view _ 0 576 _ (⟨64 * j.val + r.val, by omega⟩ : Fin 576) n (64 * j.val + r.val) (by omega)
    (Nat.zero_add _).symm).trans ?_
  rw [listA_164]
  exact read_tap arg11.view _ 64 0 64 (le_refl _) _ _ _ j r n _ (by show 64 * j.val + r.val = 0 + 64 * j.val + r.val; omega)

theorem v254A_tap (j : Fin 9) (r : Fin 128) (n : Fin 2304) :
    V254 (ix2 (⟨16 + 128 * j.val + r.val, by omega⟩ : Fin 1168) n) = T254 H0N V174 MK j (ix2 r n) := by
  unfold kernelRun0_A.sl.v254 View.readCov
  refine (Rows.load arg10.view _ 0 1168 _ (⟨16 + 128 * j.val + r.val, by omega⟩ : Fin 1168) n (16 + 128 * j.val + r.val) (by omega)
    (Nat.zero_add _).symm).trans ?_
  rw [listA_254]
  exact read_tap arg10.view _ 128 16 128 (le_refl _) _ _ _ j r n _ rfl

theorem v254A_head (k : ℕ) (hk : k < 16) (n : Fin 2304) :
    V254 (ix2 (⟨k, by omega⟩ : Fin 1168) n) = if k = 0 then 1 else 0 := by
  unfold kernelRun0_A.sl.v254 View.readCov
  refine (Rows.load arg10.view _ 0 1168 _ (⟨k, by omega⟩ : Fin 1168) n k (by omega) (Nat.zero_add _).symm).trans ?_
  rw [listA_254]
  refine (read_below arg10.view _ 128 16 128 _ _ _ ⟨k, by omega⟩ n hk).trans ?_
  rw [listA_84]
  exact (read_below arg10.view _ 96 16 96 _ _ _ ⟨k, by omega⟩ n hk).trans (headA arg10.view k hk n)

theorem v334A_tap (j : Fin 9) (r : Fin 64) (n : Fin 2304) :
    V334 (ix2 (⟨64 * j.val + r.val, by omega⟩ : Fin 576) n) = T334 (k0_pay40 V174) W11 V254 MK j (ix2 r n) := by
  unfold kernelRun0_A.sl.v334 View.readCov
  refine (Rows.load arg11.view _ 0 576 _ (⟨64 * j.val + r.val, by omega⟩ : Fin 576) n (64 * j.val + r.val) (by omega)
    (Nat.zero_add _).symm).trans ?_
  rw [listA_334]
  exact read_tap arg11.view _ 64 0 64 (le_refl _) _ _ _ j r n _ (by show 64 * j.val + r.val = 0 + 64 * j.val + r.val; omega)

section Value

variable {W1 : Fin 2 → Fin 192 → Fin 1160 → EReal} {W2 : Fin 2 → Fin 64 → Fin 576 → EReal} {M : Fin 9 → Row}
  {x : Fin 32 → Row} (hb : BlocksOk W1 W2 M x x0 x1 x2 x3 x4)

include hb

theorem h0nA (ch : Fin 64) (n : Fin 2304) : H0N (ix2 ch n) = Spec.next0 W1 W2 M x Spec.zeroState ch n := by
  have hX1 : X1 = x1 := Rows.load_whole harg3 x1 hzf4 _
  have hW : W10 = x2 := Rows.load_whole harg4 x2 hzf2 _
  exact layer0 (W1 0) (W2 0) M MK (fun j n => (masksOf_apply arg2 harg2 x0 j n).trans (hb.mask j n)) x Spec.zeroState
    X1 (fun ch n => (congrFun hX1 _).trans (hb.xin ch n))
    V5 v5A
    W20 (fun ch k => (Rows.load3_unread harg6 x4 0 (by decide) _ (0 : Fin 1) ch k).trans (hb.w2 0 ch k))
    W10 (fun o => (congrFun hW _).trans (hb.w0b o)) (fun o j ch => (congrFun hW _).trans (hb.w0x o j ch))
    (fun o j ch => (congrFun hW _).trans (hb.w0h o j ch))
    V84 (fun n => (v84A_head 0 (by decide) n).trans (if_pos rfl))
    (fun k hk1 hk2 n => (v84A_head k.val hk2 n).trans (if_neg (by omega)))
    v84A_tap
    V164 v164A_tap ch n

theorem h1nA (ch : Fin 64) (n : Fin 2304) :
    kernelRun0_A.sl.r_23 (F := Ideal) c arg2 harg2 arg3 harg3 arg4 harg4 arg5 harg5 arg6 harg6 arg9 arg10 arg11 x0 x1 x2 x3 x4 (ix2 ch n) = Spec.next1 W1 W2 M x Spec.zeroState Spec.zeroState ch n := by
  have hW : W11 = x3 := Rows.load_whole harg5 x3 hzf2 _
  exact layer1 (W1 1) (W2 1) M MK (fun j n => (masksOf_apply arg2 harg2 x0 j n).trans (hb.mask j n))
    (Spec.next0 W1 W2 M x Spec.zeroState) Spec.zeroState
    H0N (h0nA hb)
    V174 v174A
    W21 (fun ch k => (Rows.load3_unread harg6 x4 1 (by decide) _ (0 : Fin 1) ch k).trans (hb.w2 1 ch k))
    W11 (fun o => (congrFun hW _).trans (hb.w1b o)) (fun o j ch => (congrFun hW _).trans (hb.w1x o j ch))
    (fun o j ch => (congrFun hW _).trans (hb.w1h o j ch))
    V254 (fun n => (v254A_head 0 (by decide) n).trans (if_pos rfl))
    (fun k hk1 hk2 n => (v254A_head k.val hk2 n).trans (if_neg (by omega)))
    v254A_tap
    V334 v334A_tap ch n

variable (c i arg2 harg2 arg3 harg3 arg4 harg4 arg5 harg5 arg6 harg6 arg7 harg7 arg8 harg8 arg9 harg9 arg10 harg10 arg11 harg11 hc0 hc1 x0 x1 x2 x3 x4 W1 W2 M x)

theorem stepA :
    st (sout0_A_0 (F := Ideal) c i arg2 harg2 arg3 harg3 arg4 harg4 arg5 harg5 arg6 harg6 arg7 harg7 arg8 harg8 arg9 harg9 arg10 harg10 arg11 harg11 hc0 hc1 x0 x1 x2 x3 x4)
        = (Spec.next0 W1 W2 M x Spec.zeroState, Spec.next1 W1 W2 M x Spec.zeroState Spec.zeroState)
      ∧ headOk (sout0_A_1 (F := Ideal) c i arg2 harg2 arg3 harg3 arg4 harg4 arg5 harg5 arg6 harg6 arg7 harg7 arg8 harg8 arg9 harg9 arg10 harg10 arg11 harg11 hc0 hc1 x0 x1 x2 x3 x4)
      ∧ ∀ (ch : Fin 64) (n : Fin 2304),
          out0_A_5 (F := Ideal) c i arg2 harg2 arg3 harg3 arg4 harg4 arg5 harg5 arg6 harg6 arg7 harg7 arg8 harg8 arg9 harg9 arg10 harg10 arg11 harg11 hc0 hc1 x0 x1 x2 x3 x4 (ix4 (0 : Fin 1) (0 : Fin 1) ch n) = (st (sout0_A_0 (F := Ideal) c i arg2 harg2 arg3 harg3 arg4 harg4 arg5 harg5 arg6 harg6 arg7 harg7 arg8 harg8 arg9 harg9 arg10 harg10 arg11 harg11 hc0 hc1 x0 x1 x2 x3 x4)).2 ch n := by
  have hhi : ∀ (ch : Fin 64) (n : Fin 2304),
      sout0_A_0 (F := Ideal) c i arg2 harg2 arg3 harg3 arg4 harg4 arg5 harg5 arg6 harg6 arg7 harg7 arg8 harg8 arg9 harg9 arg10 harg10 arg11 harg11 hc0 hc1 x0 x1 x2 x3 x4 (ix3 (1 : Fin 2) ch n) = kernelRun0_A.sl.r_23 (F := Ideal) c arg2 harg2 arg3 harg3 arg4 harg4 arg5 harg5 arg6 harg6 arg9 arg10 arg11 x0 x1 x2 x3 x4 (ix2 ch n) := fun ch n =>
    (Rows.hit3 VS0_0 _ 1 (by decide) _ _ _ ch n).trans (Pay1.pay71_apply _ _ _ _ _ 0 ch n)
  refine ⟨stA_ext _ _ _ (fun ch n => ((Rows.skip3 VS0_0 _ 1 _ _ _ 0 (by decide) (by decide) ch n).trans
      ((Rows.hit3 VS0_0 _ 0 (by decide) _ _ _ ch n).trans (Pay0.newStateBlock_apply _ 0 ch n))).trans (h0nA hb ch n))
    (fun ch n => (hhi ch n).trans (h1nA hb ch n)), ?_, fun ch n =>
      ((read_whole_store VO0_5 _ _ hz4 _ _ _ _).trans (Pay1.pay1_apply _ 0 0 ch n)).trans ((hhi ch n).symm.trans (stA_snd _ ch n).symm)⟩
  have hrow : ∀ (k : ℕ) (hk : k < 16) (n : Fin 2304),
      sout0_A_1 (F := Ideal) c i arg2 harg2 arg3 harg3 arg4 harg4 arg5 harg5 arg6 harg6 arg7 harg7 arg8 harg8 arg9 harg9 arg10 harg10 arg11 harg11 hc0 hc1 x0 x1 x2 x3 x4 (ix2 (⟨k, by omega⟩ : Fin 1168) n) = if k = 0 then 1 else 0 := by
    intro k hk n
    unfold sout0_A_1
    rw [listA_S1, listA_254]
    refine (read_below VS0_1 _ 128 16 128 _ _ _ ⟨k, by omega⟩ n hk).trans ?_
    rw [listA_84]
    exact (read_below VS0_1 _ 96 16 96 _ _ _ ⟨k, by omega⟩ n hk).trans (headA VS0_1 k hk n)
  exact ⟨fun n => (hrow 0 (by decide) n).trans (if_pos rfl), fun k hk1 hk2 n => (hrow k.val hk2 n).trans (if_neg (by omega))⟩

end Value

end FirstStep

end Cert.KernelIdeal.Par

end
-- ==== Proof.KI.StepB.lean ====
import proofs.«130420_g2000206920649175_pallasbulk_1279_2_alg».proof.Proof.KI.Facts
import proofs.«130420_g2000206920649175_pallasbulk_1279_2_alg».proof.Proof.KI.Layer
import proofs.«130420_g2000206920649175_pallasbulk_1279_2_alg».proof.Proof.KI.Rows

set_option maxRecDepth 16384

namespace Cert.KernelIdeal.Par

open Idealize.ShloMosaic Idealize.ShloMosaic.TcCoe Idealize.ShloMosaic.ValueIdx
open Idealize.SL.Sem
open Cert.KernelIdeal Cert.KernelIdeal.Gen Cert.KernelIdeal.Hand
open Cert.Spec (Row)

theorem zero2 : (![0, 0] : Fin 2 → ℕ) = fun _ => 0 := by decide

theorem zero4 : (![0, 0, 0, 0] : Fin 4 → ℕ) = fun _ => 0 := by decide

theorem st_ext (s : S2x64x2304.Idx → EReal) (a b : Fin 64 → Row)
    (ha : ∀ (ch : Fin 64) (n : Fin 2304), s (ix3 (0 : Fin 2) ch n) = a ch n)
    (hb : ∀ (ch : Fin 64) (n : Fin 2304), s (ix3 (1 : Fin 2) ch n) = b ch n) : st s = (a, b) :=
  Prod.ext (funext fun ch => funext fun n => ha ch n) (funext fun ch => funext fun n => hb ch n)

theorem st_snd (s : S2x64x2304.Idx → EReal) (ch : Fin 64) (n : Fin 2304) : (st s).2 ch n = s (ix3 (1 : Fin 2) ch n) := rfl

namespace StepB

variable {c : Dev nD} {arg2 : Memref sig .tc .vmem S16x2304 .bf16} {harg2 : arg2.IsWhole} {arg3 : Memref sig .tc .vmem S1x1x32x2304 .bf16} {harg3 : arg3.IsWhole} {arg4 : Memref sig .tc .vmem S192x880 .bf16} {harg4 : arg4.IsWhole} {arg5 : Memref sig .tc .vmem S192x1168 .bf16} {harg5 : arg5.IsWhole} {arg6 : Memref sig .tc .vmem S2x64x576 .bf16} {harg6 : arg6.IsWhole} {arg9 : Memref sig .tc .vmem S2x64x2304 .f32} {harg9 : arg9.IsWhole} {arg10 : Memref sig .tc .vmem S1168x2304 .bf16} {harg10 : arg10.IsWhole} {arg11 : Memref sig .tc .vmem S576x2304 .bf16}
    {x0 : Vec Ideal S16x2304 .bf16} {x1 : Vec Ideal S1x1x32x2304 .bf16} {x2 : Vec Ideal S192x880 .bf16} {x3 : Vec Ideal S192x1168 .bf16} {x4 : Vec Ideal S2x64x576 .bf16} {xs0 : Vec Ideal S2x64x2304 .f32} {xs1 : Vec Ideal S1168x2304 .bf16}
    {W1 : Fin 2 → Fin 192 → Fin 1160 → EReal} {W2 : Fin 2 → Fin 64 → Fin 576 → EReal} {M : Fin 9 → Row} {x : Fin 32 → Row}
    (hB : BlocksOk W1 W2 M x x0 x1 x2 x3 x4) (hH : headOk xs1)

local notation "rdA" => (arg10.view.read (Elt Ideal) (arg10.view.writes (Elt Ideal) (harg10.unread xs1) (kernelRun0_B.sl.HS1_9 (F := Ideal) c arg2 harg2 arg3 harg3 arg9 harg9 x0 x1 xs0)))
local notation "rdB" => (arg11.view.read (Elt Ideal) (arg11.view.writes (Elt Ideal) (arg11.view.junk (Val := Elt Ideal)) (kernelRun0_B.sl.HS2_9 (F := Ideal) c arg2 harg2 arg3 harg3 arg4 harg4 arg9 harg9 arg10 harg10 x0 x1 x2 xs0 xs1)))
local notation "rdC" => (arg10.view.read (Elt Ideal) (arg10.view.writes (Elt Ideal) (harg10.unread xs1) (kernelRun0_B.sl.HS1_18 (F := Ideal) c arg2 harg2 arg3 harg3 arg4 harg4 arg6 harg6 arg9 harg9 arg10 harg10 arg11 x0 x1 x2 x4 xs0 xs1)))
local notation "rdD" => (arg11.view.read (Elt Ideal) (arg11.view.writes (Elt Ideal) (arg11.view.junk (Val := Elt Ideal)) (kernelRun0_B.sl.HS2_18 (F := Ideal) c arg2 harg2 arg3 harg3 arg4 harg4 arg5 harg5 arg6 harg6 arg9 harg9 arg10 harg10 arg11 x0 x1 x2 x3 x4 xs0 xs1)))
set_option quotPrecheck false in
local notation "v84T" => (View.readAt (Elt Ideal) arg10.view (Rect.unit (s := S1168x2304) ![0, 0] S880x2304.size inb_S1168x2304_S880x2304_0_0).toLoadRect (arg10.view.writes (Elt Ideal) (harg10.unread xs1) (kernelRun0_B.sl.HS1_9 (F := Ideal) c arg2 harg2 arg3 harg3 arg9 harg9 x0 x1 xs0)))

theorem r_eq (ch : Fin 64) (n : Fin 2304) : kernelRun0_B.sl.r c arg9 harg9 xs0 (ix2 ch n) = xs0 (ix3 (0 : Fin 2) ch n) :=
  (Pay0.state_apply _ ch n).trans (Rows.load3_unread harg9 xs0 0 (by decide) _ 0 ch n)

theorem r12_eq (ch : Fin 64) (n : Fin 2304) : kernelRun0_B.sl.r_12 c arg9 harg9 xs0 (ix2 ch n) = xs0 (ix3 (1 : Fin 2) ch n) :=
  (Pay1.pay40_apply _ ch n).trans (Rows.load3_unread harg9 xs0 1 (by decide) _ 0 ch n)

-- The sixteen constant rows lie below every stored block.
theorem pA_low (k : ℕ) (hk : k < 16) (n : Fin 2304) :
    rdA (ix2 (⟨k, by omega⟩ : Fin 1168) n) = xs1 (ix2 (⟨k, by omega⟩ : Fin 1168) n) := by
  unfold kernelRun0_B.sl.HS1_9 kernelRun0_B.sl.HS1_6 kernelRun0_B.sl.HS1_2
  iterate 9 refine (Rows.skip (h := by omega) ..).trans ?_
  exact congrFun (harg10.read_unread xs1) _

theorem pC_low (k : ℕ) (hk : k < 16) (n : Fin 2304) :
    rdC (ix2 (⟨k, by omega⟩ : Fin 1168) n) = xs1 (ix2 (⟨k, by omega⟩ : Fin 1168) n) := by
  unfold kernelRun0_B.sl.HS1_18 kernelRun0_B.sl.HS1_16 kernelRun0_B.sl.HS1_11
  iterate 9 refine (Rows.skip (h := by omega) ..).trans ?_
  exact pA_low k hk n

theorem v84_eq (k : Fin 880) (n : Fin 2304) : v84T (ix2 k n) = rdA (ix2 (⟨k.val, by omega⟩ : Fin 1168) n) :=
  Rows.load arg10.view _ 0 880 _ k n k.val (by omega) (Nat.zero_add _).symm

theorem v254_eq (k : Fin 1168) (n : Fin 2304) : kernelRun0_B.sl.v254 c arg2 harg2 arg3 harg3 arg4 harg4 arg6 harg6 arg9 harg9 arg10 harg10 arg11 x0 x1 x2 x4 xs0 xs1 (ix2 k n) = rdC (ix2 k n) :=
  Rows.load arg10.view _ 0 1168 _ k n k.val k.isLt (Nat.zero_add _).symm

include hB

-- Row `16 + 96 j + r` of the first patch array after layer 0's stores: the masked tap `j` of row `r` of the stack.
theorem pA (j : Fin 9) (r : Fin 96) (k : Fin 1168) (hk : k.val = 16 + 96 * j.val + r.val) (n : Fin 2304) :
    rdA (ix2 k n) = Spec.tap M j (fun n' => kernelRun0_B.sl.r_1 c arg3 harg3 arg9 harg9 x1 xs0 (ix2 r n')) n := by
  obtain ⟨k, _⟩ := k
  subst hk
  unfold kernelRun0_B.sl.HS1_9 kernelRun0_B.sl.HS1_6 kernelRun0_B.sl.HS1_2 kernelRun0_B.sl.r_3 kernelRun0_B.sl.r_4 kernelRun0_B.sl.r_5
  match j with
  | 0 | 1 | 2 | 3 | 4 | 5 | 6 | 7 | 8 =>
    repeat refine (Rows.skip (h := by omega) ..).trans ?_
    refine (Rows.hit (r := r) (hr := by omega) ..).trans ?_
    first | rw [Pay0.tap0_apply] | rw [Pay0.tap1_apply] | rw [Pay0.tap2_apply] | rw [Pay0.tap3_apply] | rw [Pay0.tap4_apply] | rw [Pay0.tap5_apply] | rw [Pay0.tap6_apply] | rw [Pay0.tap7_apply] | rw [Pay0.tap8_apply]
    exact congrArg (_ * ·) ((Rows.load_unread harg2 x0 _ 1 _ 0 n _ (by decide) rfl).trans (hB.mask ⟨_, by decide⟩ n))

theorem pB (j : Fin 9) (r : Fin 64) (n : Fin 2304) :
    rdB (ix2 (⟨64 * j.val + r.val, by omega⟩ : Fin 576) n) = Spec.tap M j (fun n' => kernelRun0_B.sl.r_8 c arg2 harg2 arg3 harg3 arg4 harg4 arg9 harg9 arg10 harg10 x0 x1 x2 xs0 xs1 (ix2 r n')) n := by
  unfold kernelRun0_B.sl.HS2_9 kernelRun0_B.sl.HS2_5 kernelRun0_B.sl.HS2_1 kernelRun0_B.sl.r_9 kernelRun0_B.sl.r_10
  match j with
  | 0 | 1 | 2 | 3 | 4 | 5 | 6 | 7 | 8 =>
    repeat refine (Rows.skip (h := by omega) ..).trans ?_
    refine (Rows.hit (r := r) (hr := by omega) ..).trans ?_
    first | rw [Pay0.gtap0_apply] | rw [Pay0.gtap1_apply] | rw [Pay0.gtap2_apply] | rw [Pay0.gtap3_apply] | rw [Pay0.gtap4_apply] | rw [Pay0.gtap5_apply] | rw [Pay0.gtap6_apply] | rw [Pay0.gtap7_apply] | rw [Pay0.gtap8_apply]
    exact congrArg (_ * ·) ((Rows.load_unread harg2 x0 _ 1 _ 0 n _ (by decide) rfl).trans (hB.mask ⟨_, by decide⟩ n))

theorem pC (j : Fin 9) (r : Fin 128) (k : Fin 1168) (hk : k.val = 16 + 128 * j.val + r.val) (n : Fin 2304) :
    rdC (ix2 k n) = Spec.tap M j (fun n' => kernelRun0_B.sl.r_13 c arg2 harg2 arg3 harg3 arg4 harg4 arg6 harg6 arg9 harg9 arg10 harg10 arg11 x0 x1 x2 x4 xs0 xs1 (ix2 r n')) n := by
  obtain ⟨k, _⟩ := k
  subst hk
  unfold kernelRun0_B.sl.HS1_18 kernelRun0_B.sl.HS1_16 kernelRun0_B.sl.HS1_11 kernelRun0_B.sl.r_15 kernelRun0_B.sl.r_16
  match j with
  | 0 | 1 | 2 | 3 | 4 | 5 | 6 | 7 | 8 =>
    repeat refine (Rows.skip (h := by omega) ..).trans ?_
    refine (Rows.hit (r := r) (hr := by omega) ..).trans ?_
    first | rw [Pay1.tap0_apply] | rw [Pay1.tap1_apply] | rw [Pay1.pay46_eq, Pay1.tap2_apply] | rw [Pay1.tap3_apply] | rw [Pay1.tap4_apply] | rw [Pay1.tap5_apply] | rw [Pay1.tap6_apply] | rw [Pay1.tap7_apply] | rw [Pay1.tap8_apply]
    exact congrArg (_ * ·) ((Rows.load_unread harg2 x0 _ 1 _ 0 n _ (by decide) rfl).trans (hB.mask ⟨_, by decide⟩ n))

theorem pD (j : Fin 9) (r : Fin 64) (n : Fin 2304) :
    rdD (ix2 (⟨64 * j.val + r.val, by omega⟩ : Fin 576) n) = Spec.tap M j (fun n' => kernelRun0_B.sl.r_19 c arg2 harg2 arg3 harg3 arg4 harg4 arg5 harg5 arg6 harg6 arg9 harg9 arg10 harg10 arg11 x0 x1 x2 x3 x4 xs0 xs1 (ix2 r n')) n := by
  unfold kernelRun0_B.sl.HS2_18 kernelRun0_B.sl.HS2_14 kernelRun0_B.sl.HS2_10 kernelRun0_B.sl.r_20 kernelRun0_B.sl.r_21 kernelRun0_B.sl.r_22
  match j with
  | 0 | 1 | 2 | 3 | 4 | 5 | 6 | 7 | 8 =>
    repeat refine (Rows.skip (h := by omega) ..).trans ?_
    refine (Rows.hit (r := r) (hr := by omega) ..).trans ?_
    first | rw [Pay1.gtap0_apply] | rw [Pay1.pay61_apply, Pay1.pay59_apply, Pay1.pay60_eq] | rw [Pay1.gtap2_apply] | rw [Pay1.gtap3_apply] | rw [Pay1.gtap4_apply] | rw [Pay1.pay66_eq, Pay1.gtap5_apply] | rw [Pay1.gtap6_apply] | rw [Pay1.gtap7_apply] | rw [Pay1.gtap8_apply]
    exact congrArg (_ * ·) ((Rows.load_unread harg2 x0 _ 1 _ 0 n _ (by decide) rfl).trans (hB.mask ⟨_, by decide⟩ n))

theorem l0_hx (j : Fin 9) (ch : Fin 32) (n : Fin 2304) :
    v84T (ix2 (⟨16 + 96 * j.val + ch.val, by omega⟩ : Fin 880) n) = Spec.tap M j (x ch) n := by
  refine (v84_eq _ n).trans ?_
  refine (pA hB j ⟨ch.val, by omega⟩ _ rfl n).trans ?_
  exact congrArg (Spec.tap M j · n) (funext fun n' => (Pay0.stack_input_apply _ _ ch n').trans ((congrFun (Rows.load_whole harg3 x1 zero4 _) _).trans (hB.xin ch n')))

theorem l0_hh (j : Fin 9) (ch : Fin 64) (n : Fin 2304) :
    v84T (ix2 (⟨16 + 96 * j.val + 32 + ch.val, by omega⟩ : Fin 880) n) = Spec.tap M j ((st xs0).1 ch) n := by
  refine (v84_eq _ n).trans ?_
  refine (pA hB j ⟨32 + ch.val, by omega⟩ _ (Nat.add_assoc ..) n).trans ?_
  exact congrArg (Spec.tap M j · n) (funext fun n' => (Pay0.stack_state_apply _ _ ch n').trans (Rows.load3_unread harg9 xs0 0 (by decide) _ 0 ch n'))

theorem l1_hh (j : Fin 9) (ch : Fin 64) (n : Fin 2304) :
    kernelRun0_B.sl.v254 c arg2 harg2 arg3 harg3 arg4 harg4 arg6 harg6 arg9 harg9 arg10 harg10 arg11 x0 x1 x2 x4 xs0 xs1 (ix2 (⟨16 + 128 * j.val + 64 + ch.val, by omega⟩ : Fin 1168) n) = Spec.tap M j ((st xs0).2 ch) n := by
  refine (v254_eq _ n).trans ?_
  refine (pC hB j ⟨64 + ch.val, by omega⟩ _ (Nat.add_assoc ..) n).trans ?_
  exact congrArg (Spec.tap M j · n) (funext fun n' => (Pay1.stack_hi _ _ ⟨64 + ch.val, by omega⟩ ch rfl n').trans (Rows.load3_unread harg9 xs0 1 (by decide) _ 0 ch n'))

omit hB
include hH

-- An array that keeps the sixteen constant rows keeps their bias row of ones and their zero rows.
theorem head_of (s : S1168x2304.Idx → EReal) (h : ∀ (k : ℕ) (hk : k < 16) (n : Fin 2304), s (ix2 (⟨k, by omega⟩ : Fin 1168) n) = xs1 (ix2 (⟨k, by omega⟩ : Fin 1168) n)) : headOk s :=
  ⟨fun n => (h 0 (by decide) n).trans (hH.1 n), fun k hk1 hk2 n => (h k.val hk2 n).trans (hH.2 k hk1 hk2 n)⟩

theorem l0_h1 (n : Fin 2304) : v84T (ix2 (⟨0, by decide⟩ : Fin 880) n) = 1 :=
  (v84_eq _ n).trans ((pA_low 0 (by decide) n).trans (hH.1 n))

theorem l0_h0 (k : Fin 880) (hk1 : 1 ≤ k.val) (hk2 : k.val < 16) (n : Fin 2304) : v84T (ix2 k n) = 0 :=
  (v84_eq k n).trans ((pA_low k.val hk2 n).trans (hH.2 ⟨k.val, by omega⟩ hk1 hk2 n))

theorem l1_head : headOk (kernelRun0_B.sl.v254 c arg2 harg2 arg3 harg3 arg4 harg4 arg6 harg6 arg9 harg9 arg10 harg10 arg11 x0 x1 x2 x4 xs0 xs1) :=
  head_of hH _ fun k hk n => (v254_eq _ n).trans (pC_low k hk n)

include hB

theorem r6_eq (ch : Fin 64) (n : Fin 2304) :
    kernelRun0_B.sl.r_6 c arg2 harg2 arg3 harg3 arg4 harg4 arg9 harg9 arg10 harg10 x0 x1 x2 xs0 xs1 (ix2 ch n) = Spec.upd (W1 0) M (Spec.pad x) (st xs0).1 ch n := by
  unfold kernelRun0_B.sl.r_6
  rw [Rows.load_whole harg4 x2 zero2]
  exact Layer.upd0 (W1 0) M x (st xs0).1 x2 v84T hB.w0b hB.w0x hB.w0h (l0_h1 hH) (l0_h0 hH) (l0_hx hB) (l0_hh hB) ch n

theorem r7_eq (ch : Fin 64) (n : Fin 2304) :
    kernelRun0_B.sl.r_7 c arg2 harg2 arg3 harg3 arg4 harg4 arg9 harg9 arg10 harg10 x0 x1 x2 xs0 xs1 (ix2 ch n) = Spec.acc (W1 0) M (Spec.pad x) (st xs0).1 ⟨128 + ch.val, by omega⟩ n := by
  unfold kernelRun0_B.sl.r_7
  rw [Rows.load_whole harg4 x2 zero2]
  exact Layer.candIn0 (W1 0) M x (st xs0).1 x2 v84T hB.w0b hB.w0x hB.w0h (l0_h1 hH) (l0_h0 hH) (l0_hx hB) (l0_hh hB) ch n

theorem r8_eq (ch : Fin 64) (n : Fin 2304) :
    kernelRun0_B.sl.r_8 c arg2 harg2 arg3 harg3 arg4 harg4 arg9 harg9 arg10 harg10 x0 x1 x2 xs0 xs1 (ix2 ch n) = Spec.gated (W1 0) M (Spec.pad x) (st xs0).1 ch n := by
  unfold kernelRun0_B.sl.r_8
  rw [Rows.load_whole harg4 x2 zero2]
  exact Layer.gated0 (W1 0) M x (st xs0).1 x2 v84T hB.w0b hB.w0x hB.w0h (l0_h1 hH) (l0_h0 hH) (l0_hx hB) (l0_hh hB) _ r_eq ch n

theorem l0_hp (j : Fin 9) (c' : Fin 64) (n : Fin 2304) :
    kernelRun0_B.sl.v164 c arg2 harg2 arg3 harg3 arg4 harg4 arg9 harg9 arg10 harg10 arg11 x0 x1 x2 xs0 xs1 (ix2 (⟨64 * j.val + c'.val, by omega⟩ : Fin 576) n)
      = Spec.tap M j (Spec.gated (W1 0) M (Spec.pad x) (st xs0).1 c') n := by
  refine (Rows.load arg11.view _ 0 576 _ _ n _ (by omega) (Nat.zero_add _).symm).trans ?_
  refine (pB hB j c' n).trans ?_
  exact congrArg (Spec.tap M j · n) (funext fun n' => r8_eq hB hH c' n')

theorem r11_eq (ch : Fin 64) (n : Fin 2304) :
    kernelRun0_B.sl.r_11 c arg2 harg2 arg3 harg3 arg4 harg4 arg6 harg6 arg9 harg9 arg10 harg10 arg11 x0 x1 x2 x4 xs0 xs1 (ix2 ch n) = Spec.next0 W1 W2 M x (st xs0).1 ch n :=
  Layer.new0 (W1 0) (W2 0) M (Spec.pad x) (st xs0).1 _ _ _ _ _ r_eq
    (fun ch k => (Pay0.candWeights_apply _ ch k).trans ((Rows.load3_unread harg6 x4 0 (by decide) _ 0 ch k).trans (hB.w2 0 ch k)))
    (r6_eq hB hH) (r7_eq hB hH) (l0_hp hB hH) ch n

theorem l1_hx (j : Fin 9) (ch : Fin 64) (n : Fin 2304) :
    kernelRun0_B.sl.v254 c arg2 harg2 arg3 harg3 arg4 harg4 arg6 harg6 arg9 harg9 arg10 harg10 arg11 x0 x1 x2 x4 xs0 xs1 (ix2 (⟨16 + 128 * j.val + ch.val, by omega⟩ : Fin 1168) n) = Spec.tap M j ((Spec.next0 W1 W2 M x (st xs0).1) ch) n := by
  refine (v254_eq _ n).trans ?_
  refine (pC hB j ⟨ch.val, by omega⟩ _ rfl n).trans ?_
  exact congrArg (Spec.tap M j · n) (funext fun n' => (Pay1.stack_lo _ _ ⟨ch.val, by omega⟩ ch rfl n').trans (r11_eq hB hH ch n'))

theorem r17_eq (ch : Fin 64) (n : Fin 2304) :
    kernelRun0_B.sl.r_17 c arg2 harg2 arg3 harg3 arg4 harg4 arg5 harg5 arg6 harg6 arg9 harg9 arg10 harg10 arg11 x0 x1 x2 x3 x4 xs0 xs1 (ix2 ch n) = Spec.upd (W1 1) M (Spec.next0 W1 W2 M x (st xs0).1) (st xs0).2 ch n := by
  unfold kernelRun0_B.sl.r_17
  rw [Rows.load_whole harg5 x3 zero2]
  exact Layer.upd1 (W1 1) M _ (st xs0).2 x3 _ hB.w1b hB.w1x hB.w1h (l1_head hH).1 (l1_head hH).2 (l1_hx hB hH) (l1_hh hB) ch n

theorem r18_eq (ch : Fin 64) (n : Fin 2304) :
    kernelRun0_B.sl.r_18 c arg2 harg2 arg3 harg3 arg4 harg4 arg5 harg5 arg6 harg6 arg9 harg9 arg10 harg10 arg11 x0 x1 x2 x3 x4 xs0 xs1 (ix2 ch n) = Spec.acc (W1 1) M (Spec.next0 W1 W2 M x (st xs0).1) (st xs0).2 ⟨128 + ch.val, by omega⟩ n := by
  unfold kernelRun0_B.sl.r_18
  rw [Rows.load_whole harg5 x3 zero2]
  exact Layer.candIn1 (W1 1) M _ (st xs0).2 x3 _ hB.w1b hB.w1x hB.w1h (l1_head hH).1 (l1_head hH).2 (l1_hx hB hH) (l1_hh hB) ch n

theorem r19_eq (ch : Fin 64) (n : Fin 2304) :
    kernelRun0_B.sl.r_19 c arg2 harg2 arg3 harg3 arg4 harg4 arg5 harg5 arg6 harg6 arg9 harg9 arg10 harg10 arg11 x0 x1 x2 x3 x4 xs0 xs1 (ix2 ch n) = Spec.gated (W1 1) M (Spec.next0 W1 W2 M x (st xs0).1) (st xs0).2 ch n := by
  unfold kernelRun0_B.sl.r_19
  rw [Rows.load_whole harg5 x3 zero2]
  exact Layer.gated1 (W1 1) M _ (st xs0).2 x3 _ hB.w1b hB.w1x hB.w1h (l1_head hH).1 (l1_head hH).2 (l1_hx hB hH) (l1_hh hB) _ r12_eq ch n

theorem l1_hp (j : Fin 9) (c' : Fin 64) (n : Fin 2304) :
    kernelRun0_B.sl.v334 c arg2 harg2 arg3 harg3 arg4 harg4 arg5 harg5 arg6 harg6 arg9 harg9 arg10 harg10 arg11 x0 x1 x2 x3 x4 xs0 xs1 (ix2 (⟨64 * j.val + c'.val, by omega⟩ : Fin 576) n)
      = Spec.tap M j (Spec.gated (W1 1) M (Spec.next0 W1 W2 M x (st xs0).1) (st xs0).2 c') n := by
  refine (Rows.load arg11.view _ 0 576 _ _ n _ (by omega) (Nat.zero_add _).symm).trans ?_
  refine (pD hB j c' n).trans ?_
  exact congrArg (Spec.tap M j · n) (funext fun n' => r19_eq hB hH c' n')

theorem r23_eq (ch : Fin 64) (n : Fin 2304) :
    kernelRun0_B.sl.r_23 c arg2 harg2 arg3 harg3 arg4 harg4 arg5 harg5 arg6 harg6 arg9 harg9 arg10 harg10 arg11 x0 x1 x2 x3 x4 xs0 xs1 (ix2 ch n) = Spec.next1 W1 W2 M x (st xs0).1 (st xs0).2 ch n :=
  Layer.new1 (W1 1) (W2 1) M _ (st xs0).2 _ _ _ _ _ r12_eq
    (fun ch k => (Pay1.pay42_apply _ ch k).trans ((Rows.load3_unread harg6 x4 1 (by decide) _ 0 ch k).trans (hB.w2 1 ch k)))
    (r17_eq hB hH) (r18_eq hB hH) (l1_hp hB hH) ch n

end StepB

theorem stepB (c : Dev nD) (i : grid0.Coords) (arg2 : Memref sig .tc .vmem S16x2304 .bf16) (harg2 : arg2.IsWhole) (arg3 : Memref sig .tc .vmem S1x1x32x2304 .bf16) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x64x2304 .f32) (harg7 : arg7.IsWhole) (arg8 : Memref sig .tc .vmem S1x2x64x2304 .f32) (harg8 : arg8.IsWhole) (hc0 : ¬cond0_0 i) (hc1 : ¬cond0_1 i)
    (W1 : Fin 2 → Fin 192 → Fin 1160 → EReal) (W2 : Fin 2 → Fin 64 → Fin 576 → EReal) (M : Fin 9 → Row) (x : Fin 32 → Row)
    (x0 : S16x2304.Idx → EReal) (x1 : S1x1x32x2304.Idx → EReal) (x2 : S192x880.Idx → EReal) (x3 : S192x1168.Idx → EReal) (x4 : S2x64x576.Idx → EReal)
    (xs0 : S2x64x2304.Idx → EReal) (xs1 : S1168x2304.Idx → EReal) (xs2 : S576x2304.Idx → EReal)
    (hB : BlocksOk W1 W2 M x x0 x1 x2 x3 x4) (hH : headOk xs1) :
    st (sout0_B_0 (F := Ideal) c i arg2 harg2 arg3 harg3 arg4 harg4 arg5 harg5 arg6 harg6 arg7 harg7 arg8 harg8 hc0 hc1 x0 x1 x2 x3 x4 xs0 xs1 xs2) = (Spec.next0 W1 W2 M x (st xs0).1, Spec.next1 W1 W2 M x (st xs0).1 (st xs0).2)
      ∧ headOk (sout0_B_1 (F := Ideal) c i arg2 harg2 arg3 harg3 arg4 harg4 arg5 harg5 arg6 harg6 arg7 harg7 arg8 harg8 hc0 hc1 x0 x1 x2 x3 x4 xs0 xs1 xs2)
      ∧ ∀ (ch : Fin 64) (n : Fin 2304), out0_B_5 (F := Ideal) c i arg2 harg2 arg3 harg3 arg4 harg4 arg5 harg5 arg6 harg6 arg7 harg7 arg8 harg8 scM0_0 (Memref.isWhole_whole cc0_scratch0) scM0_1 (Memref.isWhole_whole cc0_scratch1) scM0_2 (Memref.isWhole_whole cc0_scratch2) hc0 hc1 x0 x1 x2 x3 x4 xs0 xs1 xs2 (ix4 (0 : Fin 1) (0 : Fin 1) ch n) = (st (sout0_B_0 (F := Ideal) c i arg2 harg2 arg3 harg3 arg4 harg4 arg5 harg5 arg6 harg6 arg7 harg7 arg8 harg8 hc0 hc1 x0 x1 x2 x3 x4 xs0 xs1 xs2)).2 ch n := by
  refine ⟨st_ext _ _ _ (fun ch n => ?_) (fun ch n => ?_), StepB.head_of hH _ StepB.pC_low, fun ch n => Eq.trans ?_ (st_snd _ ch n).symm⟩
  · refine (Rows.skip3 _ _ 1 _ _ _ 0 (by decide) (by decide) ch n).trans ?_
    refine (Rows.hit3 _ _ 0 (by decide) _ _ _ ch n).trans ?_
    exact (Pay0.newStateBlock_apply _ 0 ch n).trans (StepB.r11_eq hB hH ch n)
  · refine (Rows.hit3 _ _ 1 (by decide) _ _ _ ch n).trans ?_
    exact (Pay1.pay71_apply _ _ _ _ _ 0 ch n).trans (StepB.r23_eq hB hH ch n)
  · refine ((congrFun ((View.read_writes_junk_eq_canon VO0_5 _).trans (View.canon_unit_zero (S := S1x1x64x2304) zero4 _ _)) _).trans (Pay1.pay1_apply _ 0 0 ch n)).trans ?_
    exact Eq.symm ((Rows.hit3 _ _ 1 (by decide) _ _ _ ch n).trans (Pay1.pay71_apply _ _ _ _ _ 0 ch n))

end Cert.KernelIdeal.Par
-- ==== Proof.KI.StepC.lean ====
import proofs.«130420_g2000206920649175_pallasbulk_1279_2_alg».proof.Proof.KI.Facts
import proofs.«130420_g2000206920649175_pallasbulk_1279_2_alg».proof.Proof.KI.Layer
import proofs.«130420_g2000206920649175_pallasbulk_1279_2_alg».proof.Proof.KI.Rows
import proofs.«130420_g2000206920649175_pallasbulk_1279_2_alg».proof.Proof.KI.StepB

noncomputable section

namespace Cert.KernelIdeal.Par

open Idealize.ShloMosaic Idealize.ShloMosaic.TcCoe Idealize.ShloMosaic.ValueIdx
open Idealize.SL.Sem
open Cert.KernelIdeal Cert.KernelIdeal.Gen Cert.KernelIdeal.Hand
open Cert.Spec (Row)

section Slab4

variable {sig : RefSig} {κ : Kind} {sp : Space} {e : EltTy} {Val : EltTy → Type} {B C : ℕ}
    (v : View sig κ sp (⟨4, ![1, 2, B, C]⟩ : Shape) e) (f : v.ty.Contents Val) (l : ℕ)
    (inb : ∀ a : Fin 4, (![0, l, 0, 0] : Fin 4 → ℕ) a + (![1, 1, B, C] : Fin 4 → ℕ) a ≤ (![1, 2, B, C] : Fin 4 → ℕ) a)
    (w : (Rect.unit (s := ⟨4, ![1, 2, B, C]⟩) ![0, l, 0, 0] ![1, 1, B, C] inb).shape.Idx → Val e)
    (L : List (View.Piece Val (⟨4, ![1, 2, B, C]⟩ : Shape) e))

-- Under a newest store of slab `l` alone, slab `l` reads that store's payload.
theorem slab4_hit (hl : l < 2) (b : Fin B) (n : Fin C) :
    v.read Val (v.writes Val f ((⟨Rect.unit (s := ⟨4, ![1, 2, B, C]⟩) ![0, l, 0, 0] ![1, 1, B, C] inb, w⟩ : View.Piece Val _ e) :: L))
        (ix4 (0 : Fin 1) (⟨l, hl⟩ : Fin 2) b n)
      = w (ix4 (0 : Fin 1) (0 : Fin 1) b n) :=
  View.read_writes_cons_unit_of_mem v f inb w L _ (ix4 (0 : Fin 1) (0 : Fin 1) b n) rfl (by
    intro a
    match a with
    | ⟨0, _⟩ => rfl
    | ⟨1, _⟩ => exact (Nat.add_zero _).symm
    | ⟨2, _⟩ | ⟨3, _⟩ => exact (Nat.zero_add _).symm)

-- The other slab reads what the older stores left.
theorem slab4_skip (l' : ℕ) (hl' : l' < 2) (hne : l' ≠ l) (b : Fin B) (n : Fin C) :
    v.read Val (v.writes Val f ((⟨Rect.unit (s := ⟨4, ![1, 2, B, C]⟩) ![0, l, 0, 0] ![1, 1, B, C] inb, w⟩ : View.Piece Val _ e) :: L))
        (ix4 (0 : Fin 1) (⟨l', hl'⟩ : Fin 2) b n)
      = v.read Val (v.writes Val f L) (ix4 (0 : Fin 1) (⟨l', hl'⟩ : Fin 2) b n) :=
  View.read_writes_cons_unit_of_not_mem v f inb w L _ rfl (1 : Fin 4) (by
    show l' < l ∨ l + 1 ≤ l'
    omega)

end Slab4

namespace StepC

variable {c : Dev nD} {i : grid0.Coords} {arg2 : Memref sig .tc .vmem S16x2304 .bf16} {harg2 : arg2.IsWhole} {arg3 : Memref sig .tc .vmem S1x1x32x2304 .bf16} {harg3 : arg3.IsWhole} {arg4 : Memref sig .tc .vmem S192x880 .bf16} {harg4 : arg4.IsWhole} {arg5 : Memref sig .tc .vmem S192x1168 .bf16} {harg5 : arg5.IsWhole} {arg6 : Memref sig .tc .vmem S2x64x576 .bf16} {harg6 : arg6.IsWhole} {arg7 : Memref sig .tc .vmem S1x1x64x2304 .f32} {harg7 : arg7.IsWhole} {arg8 : Memref sig .tc .vmem S1x2x64x2304 .f32} {harg8 : arg8.IsWhole} {arg9 : Memref sig .tc .vmem S2x64x2304 .f32} {harg9 : arg9.IsWhole} {arg10 : Memref sig .tc .vmem S1168x2304 .bf16} {harg10 : arg10.IsWhole} {arg11 : Memref sig .tc .vmem S576x2304 .bf16} {harg11 : arg11.IsWhole} {hc0 : ¬cond0_0 i} {hc1 : cond0_1 i}
    {x0 : Vec Ideal S16x2304 .bf16} {x1 : Vec Ideal S1x1x32x2304 .bf16} {x2 : Vec Ideal S192x880 .bf16} {x3 : Vec Ideal S192x1168 .bf16} {x4 : Vec Ideal S2x64x576 .bf16} {xs0 : Vec Ideal S2x64x2304 .f32} {xs1 : Vec Ideal S1168x2304 .bf16} {xs2 : Vec Ideal S576x2304 .bf16}
    {W1 : Fin 2 → Fin 192 → Fin 1160 → EReal} {W2 : Fin 2 → Fin 64 → Fin 576 → EReal} {M : Fin 9 → Row} {x : Fin 32 → Row}

local notation "rdA" => (arg10.view.read (Elt Ideal) (arg10.view.writes (Elt Ideal) (harg10.unread xs1) (kernelRun0_C.sl.HS1_9 c arg2 harg2 arg3 harg3 arg9 harg9 x0 x1 xs0)))
local notation "rdC" => (arg10.view.read (Elt Ideal) (arg10.view.writes (Elt Ideal) (harg10.unread xs1) (kernelRun0_C.sl.HS1_18 c arg2 harg2 arg3 harg3 arg4 harg4 arg6 harg6 arg9 harg9 arg10 harg10 arg11 x0 x1 x2 x4 xs0 xs1)))
set_option quotPrecheck false in
local notation "v84T" => (View.readAt (Elt Ideal) arg10.view (Rect.unit (s := S1168x2304) ![0, 0] S880x2304.size inb_S1168x2304_S880x2304_0_0).toLoadRect (arg10.view.writes (Elt Ideal) (harg10.unread xs1) (kernelRun0_C.sl.HS1_9 c arg2 harg2 arg3 harg3 arg9 harg9 x0 x1 xs0)))

theorem r_eq (ch : Fin 64) (n : Fin 2304) : kernelRun0_C.sl.r c arg9 harg9 xs0 (ix2 ch n) = xs0 (ix3 0 ch n) :=
  (Pay0.state_apply _ ch n).trans (Rows.load3_unread harg9 xs0 0 (by decide) _ 0 ch n)

-- No store of the step reaches the sixteen constant rows.
theorem pA_low (k : ℕ) (hk : k < 16) (n : Fin 2304) :
    rdA (ix2 (⟨k, by omega⟩ : Fin 1168) n) = xs1 (ix2 (⟨k, by omega⟩ : Fin 1168) n) := by
  repeat refine (Rows.skip _ _ _ _ _ _ _ _ _ _ (by omega)).trans ?_
  exact congrFun (harg10.read_unread xs1) _

theorem pC_low (k : ℕ) (hk : k < 16) (n : Fin 2304) :
    rdC (ix2 (⟨k, by omega⟩ : Fin 1168) n) = xs1 (ix2 (⟨k, by omega⟩ : Fin 1168) n) := by
  repeat refine (Rows.skip _ _ _ _ _ _ _ _ _ _ (by omega)).trans ?_
  exact congrFun (harg10.read_unread xs1) _

theorem v84_eq (k : Fin 880) (n : Fin 2304) : v84T (ix2 k n) = rdA (ix2 (⟨k.val, by omega⟩ : Fin 1168) n) :=
  Rows.load arg10.view _ 0 880 _ k n k.val (by omega) (Nat.zero_add _).symm

theorem v254_eq (k : Fin 1168) (n : Fin 2304) : kernelRun0_C.sl.v254 c arg2 harg2 arg3 harg3 arg4 harg4 arg6 harg6 arg9 harg9 arg10 harg10 arg11 x0 x1 x2 x4 xs0 xs1 (ix2 k n) = rdC (ix2 k n) :=
  Rows.load arg10.view _ 0 1168 _ k n k.val k.isLt (Nat.zero_add _).symm

theorem r12_eq (ch : Fin 64) (n : Fin 2304) : kernelRun0_C.sl.r_12 c arg9 harg9 xs0 (ix2 ch n) = xs0 (ix3 1 ch n) :=
  (Pay1.pay40_apply _ ch n).trans (Rows.load3_unread harg9 xs0 1 (by decide) _ 0 ch n)

-- The state array after the step's two stores, over whatever it held: slab 0 is layer 0's new state.
theorem s0_lo (f : arg9.view.ty.Contents (Elt Ideal)) (ch : Fin 64) (n : Fin 2304) :
    arg9.view.read (Elt Ideal) (arg9.view.writes (Elt Ideal) f (kernelRun0_C.sl.HS0_2 c arg2 harg2 arg3 harg3 arg4 harg4 arg5 harg5 arg6 harg6 arg9 harg9 arg10 harg10 arg11 x0 x1 x2 x3 x4 xs0 xs1)) (ix3 (⟨0, by decide⟩ : Fin 2) ch n)
      = kernelRun0_C.sl.r_11 c arg2 harg2 arg3 harg3 arg4 harg4 arg6 harg6 arg9 harg9 arg10 harg10 arg11 x0 x1 x2 x4 xs0 xs1 (ix2 ch n) :=
  (Rows.skip3 _ _ 1 _ _ _ 0 (by decide) (by decide) ch n).trans
    ((Rows.hit3 _ _ 0 (by decide) _ _ _ ch n).trans (Pay0.newStateBlock_apply _ 0 ch n))

-- Slab 1 is layer 1's new state.
theorem s0_hi (f : arg9.view.ty.Contents (Elt Ideal)) (ch : Fin 64) (n : Fin 2304) :
    arg9.view.read (Elt Ideal) (arg9.view.writes (Elt Ideal) f (kernelRun0_C.sl.HS0_2 c arg2 harg2 arg3 harg3 arg4 harg4 arg5 harg5 arg6 harg6 arg9 harg9 arg10 harg10 arg11 x0 x1 x2 x3 x4 xs0 xs1)) (ix3 (⟨1, by decide⟩ : Fin 2) ch n)
      = kernelRun0_C.sl.r_23 c arg2 harg2 arg3 harg3 arg4 harg4 arg5 harg5 arg6 harg6 arg9 harg9 arg10 harg10 arg11 x0 x1 x2 x3 x4 xs0 xs1 (ix2 ch n) :=
  (Rows.hit3 _ _ 1 (by decide) _ _ _ ch n).trans (Pay1.pay71_apply _ _ _ _ _ 0 ch n)

theorem y_eq (ch : Fin 64) (n : Fin 2304) :
    out0_C_5 c i arg2 harg2 arg3 harg3 arg4 harg4 arg5 harg5 arg6 harg6 arg7 harg7 arg8 harg8 arg9 harg9 arg10 harg10 arg11 harg11 hc0 hc1 x0 x1 x2 x3 x4 xs0 xs1 xs2 (ix4 0 0 ch n) = kernelRun0_C.sl.r_23 c arg2 harg2 arg3 harg3 arg4 harg4 arg5 harg5 arg6 harg6 arg9 harg9 arg10 harg10 arg11 x0 x1 x2 x3 x4 xs0 xs1 (ix2 ch n) :=
  (congrFun ((View.read_writes_junk_eq_canon VO0_5 _).trans (View.canon_unit_zero (S := S1x1x64x2304) zero4 _ _)) _).trans
    (Pay1.pay1_apply _ 0 0 ch n)

-- Each slab of the last-state block is the reload of that slab of the state array.
theorem last_lo (ch : Fin 64) (n : Fin 2304) :
    out0_C_6 c i arg2 harg2 arg3 harg3 arg4 harg4 arg5 harg5 arg6 harg6 arg7 harg7 arg8 harg8 arg9 harg9 arg10 harg10 arg11 harg11 hc0 hc1 x0 x1 x2 x3 x4 xs0 xs1 xs2 (ix4 0 (⟨0, by decide⟩ : Fin 2) ch n) = kernelRun0_C.sl.r_11 c arg2 harg2 arg3 harg3 arg4 harg4 arg6 harg6 arg9 harg9 arg10 harg10 arg11 x0 x1 x2 x4 xs0 xs1 (ix2 ch n) :=
  (slab4_skip VO0_6 _ 1 _ _ _ 0 (by decide) (by decide) ch n).trans ((slab4_hit VO0_6 _ 0 _ _ _ (by decide) ch n).trans
    ((Pay1.pay2_apply _ 0 0 ch n).trans ((Rows.load3 arg9.view _ 0 (by decide) _ 0 ch n).trans (s0_lo _ ch n))))

theorem last_hi (ch : Fin 64) (n : Fin 2304) :
    out0_C_6 c i arg2 harg2 arg3 harg3 arg4 harg4 arg5 harg5 arg6 harg6 arg7 harg7 arg8 harg8 arg9 harg9 arg10 harg10 arg11 harg11 hc0 hc1 x0 x1 x2 x3 x4 xs0 xs1 xs2 (ix4 0 (⟨1, by decide⟩ : Fin 2) ch n) = kernelRun0_C.sl.r_23 c arg2 harg2 arg3 harg3 arg4 harg4 arg5 harg5 arg6 harg6 arg9 harg9 arg10 harg10 arg11 x0 x1 x2 x3 x4 xs0 xs1 (ix2 ch n) :=
  (slab4_hit VO0_6 _ 1 _ _ _ (by decide) ch n).trans
    ((Pay1.pay3_apply _ 0 0 ch n).trans ((Rows.load3 arg9.view _ 1 (by decide) _ 0 ch n).trans (s0_hi _ ch n)))

-- Tap 1 of layer 1's gated state as it is stored: the rotated rows times the mask row.
theorem gtap1_stored (v175 : FVec Ideal S64x2304 .f32) (v252 : Vec Ideal S192x1168 .bf16) (v254 : Vec Ideal S1168x2304 .bf16)
    (v272 : Vec Ideal S1x2304 .bf16) (r : Fin 64) (n : Fin 2304) :
    k0_pay61 (k0_pay59 v175 v252 v254) (k0_pay60 v272) (ix2 r n)
      = Spec.rot (Spec.amt 1) (fun n' => k0_pay57 v175 v252 v254 (ix2 r n')) n * v272 (ix2 0 n) := by
  rw [Pay1.pay61_apply, Pay1.pay59_apply, Pay1.pay60_eq]

section

variable (hH : headOk xs1)

include hH

theorem l0_h1 (n : Fin 2304) : v84T (ix2 (⟨0, by decide⟩ : Fin 880) n) = 1 :=
  (v84_eq _ n).trans ((pA_low 0 (by decide) n).trans (hH.1 n))

theorem l0_h0 (k : Fin 880) (hk1 : 1 ≤ k.val) (hk2 : k.val < 16) (n : Fin 2304) : v84T (ix2 k n) = 0 :=
  (v84_eq k n).trans ((pA_low k.val hk2 n).trans (hH.2 ⟨k.val, by omega⟩ hk1 hk2 n))

theorem l1_h1 (n : Fin 2304) : kernelRun0_C.sl.v254 c arg2 harg2 arg3 harg3 arg4 harg4 arg6 harg6 arg9 harg9 arg10 harg10 arg11 x0 x1 x2 x4 xs0 xs1 (ix2 (⟨0, by decide⟩ : Fin 1168) n) = 1 :=
  (v254_eq _ n).trans ((pC_low 0 (by decide) n).trans (hH.1 n))

theorem l1_h0 (k : Fin 1168) (hk1 : 1 ≤ k.val) (hk2 : k.val < 16) (n : Fin 2304) : kernelRun0_C.sl.v254 c arg2 harg2 arg3 harg3 arg4 harg4 arg6 harg6 arg9 harg9 arg10 harg10 arg11 x0 x1 x2 x4 xs0 xs1 (ix2 k n) = 0 :=
  (v254_eq k n).trans ((pC_low k.val hk2 n).trans (hH.2 k hk1 hk2 n))

end

variable (hB : BlocksOk W1 W2 M x x0 x1 x2 x3 x4)

include hB

-- Row `r` of block `j` of a patch array is tap `j` of row `r` of the stored stack: the one store whose rows hold it.
theorem pA (j : Fin 9) (r : Fin 96) (n : Fin 2304) :
    rdA (ix2 (⟨16 + 96 * j.val + r.val, by omega⟩ : Fin 1168) n) = Spec.tap M j (fun n' => kernelRun0_C.sl.r_1 c arg3 harg3 arg9 harg9 x1 xs0 (ix2 r n')) n := by
  refine Eq.trans ?_ (congrArg (fun z : EReal => _ * z) (hB.mask j n))
  match j with
  | ⟨0, _⟩ | ⟨1, _⟩ | ⟨2, _⟩ | ⟨3, _⟩ | ⟨4, _⟩ | ⟨5, _⟩ | ⟨6, _⟩ | ⟨7, _⟩ | ⟨8, _⟩ =>
    dsimp only
    repeat refine (Rows.skip _ _ _ _ _ _ _ _ _ _ (by omega)).trans ?_
    refine (Rows.hit _ _ _ _ _ _ _ _ _ _ r (by omega)).trans ?_
    first | erw [Pay0.tap0_apply] | erw [Pay0.tap1_apply] | erw [Pay0.tap2_apply] | erw [Pay0.tap3_apply] | erw [Pay0.tap4_apply] | erw [Pay0.tap5_apply] | erw [Pay0.tap6_apply] | erw [Pay0.tap7_apply] | erw [Pay0.tap8_apply]
    exact congrArg (fun z : EReal => _ * z) (Rows.load_unread harg2 x0 _ 1 _ 0 n _ (by omega) rfl)

theorem pB (j : Fin 9) (r : Fin 64) (n : Fin 2304) :
    kernelRun0_C.sl.v164 c arg2 harg2 arg3 harg3 arg4 harg4 arg9 harg9 arg10 harg10 arg11 x0 x1 x2 xs0 xs1 (ix2 (⟨64 * j.val + r.val, by omega⟩ : Fin 576) n) = Spec.tap M j (fun n' => kernelRun0_C.sl.r_8 c arg2 harg2 arg3 harg3 arg4 harg4 arg9 harg9 arg10 harg10 x0 x1 x2 xs0 xs1 (ix2 r n')) n := by
  refine Eq.trans ?_ (congrArg (fun z : EReal => _ * z) (hB.mask j n))
  refine (Rows.load arg11.view _ 0 576 _ _ n _ (by omega) (Nat.zero_add _).symm).trans ?_
  match j with
  | ⟨0, _⟩ | ⟨1, _⟩ | ⟨2, _⟩ | ⟨3, _⟩ | ⟨4, _⟩ | ⟨5, _⟩ | ⟨6, _⟩ | ⟨7, _⟩ | ⟨8, _⟩ =>
    dsimp only
    repeat refine (Rows.skip _ _ _ _ _ _ _ _ _ _ (by omega)).trans ?_
    refine (Rows.hit _ _ _ _ _ _ _ _ _ _ r (by omega)).trans ?_
    first | erw [Pay0.gtap0_apply] | erw [Pay0.gtap1_apply] | erw [Pay0.gtap2_apply] | erw [Pay0.gtap3_apply] | erw [Pay0.gtap4_apply] | erw [Pay0.gtap5_apply] | erw [Pay0.gtap6_apply] | erw [Pay0.gtap7_apply] | erw [Pay0.gtap8_apply]
    exact congrArg (fun z : EReal => _ * z) (Rows.load_unread harg2 x0 _ 1 _ 0 n _ (by omega) rfl)

theorem pC (j : Fin 9) (r : Fin 128) (n : Fin 2304) :
    rdC (ix2 (⟨16 + 128 * j.val + r.val, by omega⟩ : Fin 1168) n) = Spec.tap M j (fun n' => kernelRun0_C.sl.r_13 c arg2 harg2 arg3 harg3 arg4 harg4 arg6 harg6 arg9 harg9 arg10 harg10 arg11 x0 x1 x2 x4 xs0 xs1 (ix2 r n')) n := by
  refine Eq.trans ?_ (congrArg (fun z : EReal => _ * z) (hB.mask j n))
  match j with
  | ⟨0, _⟩ | ⟨1, _⟩ | ⟨2, _⟩ | ⟨3, _⟩ | ⟨4, _⟩ | ⟨5, _⟩ | ⟨6, _⟩ | ⟨7, _⟩ | ⟨8, _⟩ =>
    dsimp only
    repeat refine (Rows.skip _ _ _ _ _ _ _ _ _ _ (by omega)).trans ?_
    refine (Rows.hit _ _ _ _ _ _ _ _ _ _ r (by omega)).trans ?_
    first | erw [Pay1.tap0_apply] | erw [Pay1.tap1_apply] | (erw [Pay1.pay46_eq]; refine (Pay1.tap2_apply _ _ _ r n).trans ?_) | erw [Pay1.tap3_apply] | erw [Pay1.tap4_apply] | erw [Pay1.tap5_apply] | erw [Pay1.tap6_apply] | erw [Pay1.tap7_apply] | erw [Pay1.tap8_apply]
    exact congrArg (fun z : EReal => _ * z) (Rows.load_unread harg2 x0 _ 1 _ 0 n _ (by omega) rfl)

theorem pD (j : Fin 9) (r : Fin 64) (n : Fin 2304) :
    kernelRun0_C.sl.v334 c arg2 harg2 arg3 harg3 arg4 harg4 arg5 harg5 arg6 harg6 arg9 harg9 arg10 harg10 arg11 x0 x1 x2 x3 x4 xs0 xs1 (ix2 (⟨64 * j.val + r.val, by omega⟩ : Fin 576) n) = Spec.tap M j (fun n' => kernelRun0_C.sl.r_19 c arg2 harg2 arg3 harg3 arg4 harg4 arg5 harg5 arg6 harg6 arg9 harg9 arg10 harg10 arg11 x0 x1 x2 x3 x4 xs0 xs1 (ix2 r n')) n := by
  refine Eq.trans ?_ (congrArg (fun z : EReal => _ * z) (hB.mask j n))
  refine (Rows.load arg11.view _ 0 576 _ _ n _ (by omega) (Nat.zero_add _).symm).trans ?_
  match j with
  | ⟨0, _⟩ | ⟨1, _⟩ | ⟨2, _⟩ | ⟨3, _⟩ | ⟨4, _⟩ | ⟨5, _⟩ | ⟨6, _⟩ | ⟨7, _⟩ | ⟨8, _⟩ =>
    dsimp only
    repeat refine (Rows.skip _ _ _ _ _ _ _ _ _ _ (by omega)).trans ?_
    refine (Rows.hit _ _ _ _ _ _ _ _ _ _ r (by omega)).trans ?_
    first | erw [Pay1.gtap0_apply] | erw [gtap1_stored] | erw [Pay1.gtap2_apply] | erw [Pay1.gtap3_apply] | erw [Pay1.gtap4_apply] | (erw [Pay1.pay66_eq]; refine (Pay1.gtap5_apply _ _ r n).trans ?_) | erw [Pay1.gtap6_apply] | erw [Pay1.gtap7_apply] | erw [Pay1.gtap8_apply]
    exact congrArg (fun z : EReal => _ * z) (Rows.load_unread harg2 x0 _ 1 _ 0 n _ (by omega) rfl)

theorem l0_hx (j : Fin 9) (ch : Fin 32) (n : Fin 2304) :
    v84T (ix2 (⟨16 + 96 * j.val + ch.val, by omega⟩ : Fin 880) n) = Spec.tap M j (x ch) n :=
  (v84_eq _ n).trans ((pA hB j ⟨ch.val, by omega⟩ n).trans
    (congrArg (Spec.tap M j · n) (funext fun n' =>
      (Pay0.stack_input_apply _ _ ch n').trans ((congrFun (Rows.load_whole harg3 x1 zero4 _) _).trans (hB.xin ch n')))))

theorem l0_hh (j : Fin 9) (ch : Fin 64) (n : Fin 2304) :
    v84T (ix2 (⟨16 + 96 * j.val + 32 + ch.val, by omega⟩ : Fin 880) n) = Spec.tap M j ((st xs0).1 ch) n :=
  (v84_eq _ n).trans ((congrArg (fun k : Fin 1168 => rdA (ix2 k n)) (Fin.ext (Nat.add_assoc _ 32 _))).trans
    ((pA hB j ⟨32 + ch.val, by omega⟩ n).trans (congrArg (Spec.tap M j · n) (funext fun n' =>
      (Pay0.stack_state_apply _ _ ch n').trans (Rows.load3_unread harg9 xs0 0 (by decide) _ 0 ch n')))))

theorem l1_hh (j : Fin 9) (ch : Fin 64) (n : Fin 2304) :
    kernelRun0_C.sl.v254 c arg2 harg2 arg3 harg3 arg4 harg4 arg6 harg6 arg9 harg9 arg10 harg10 arg11 x0 x1 x2 x4 xs0 xs1 (ix2 (⟨16 + 128 * j.val + 64 + ch.val, by omega⟩ : Fin 1168) n) = Spec.tap M j ((st xs0).2 ch) n :=
  (v254_eq _ n).trans ((congrArg (fun k : Fin 1168 => rdC (ix2 k n)) (Fin.ext (Nat.add_assoc _ 64 _))).trans
    ((pC hB j ⟨64 + ch.val, by omega⟩ n).trans (congrArg (Spec.tap M j · n) (funext fun n' =>
      (Pay1.stack_hi _ _ _ ch rfl n').trans (Rows.load3_unread harg9 xs0 1 (by decide) _ 0 ch n')))))

variable (hH : headOk xs1)

include hH

theorem r6_eq (ch : Fin 64) (n : Fin 2304) :
    kernelRun0_C.sl.r_6 c arg2 harg2 arg3 harg3 arg4 harg4 arg9 harg9 arg10 harg10 x0 x1 x2 xs0 xs1 (ix2 ch n) = Spec.upd (W1 0) M (Spec.pad x) (st xs0).1 ch n := by
  unfold kernelRun0_C.sl.r_6
  rw [Rows.load_whole harg4 x2 zero2]
  exact Layer.upd0 _ _ _ _ _ _ hB.w0b hB.w0x hB.w0h (l0_h1 hH) (l0_h0 hH) (l0_hx hB) (l0_hh hB) ch n

theorem r7_eq (ch : Fin 64) (n : Fin 2304) :
    kernelRun0_C.sl.r_7 c arg2 harg2 arg3 harg3 arg4 harg4 arg9 harg9 arg10 harg10 x0 x1 x2 xs0 xs1 (ix2 ch n) = Spec.acc (W1 0) M (Spec.pad x) (st xs0).1 ⟨128 + ch.val, by omega⟩ n := by
  unfold kernelRun0_C.sl.r_7
  rw [Rows.load_whole harg4 x2 zero2]
  exact Layer.candIn0 _ _ _ _ _ _ hB.w0b hB.w0x hB.w0h (l0_h1 hH) (l0_h0 hH) (l0_hx hB) (l0_hh hB) ch n

theorem r8_eq (ch : Fin 64) (n : Fin 2304) :
    kernelRun0_C.sl.r_8 c arg2 harg2 arg3 harg3 arg4 harg4 arg9 harg9 arg10 harg10 x0 x1 x2 xs0 xs1 (ix2 ch n) = Spec.gated (W1 0) M (Spec.pad x) (st xs0).1 ch n := by
  unfold kernelRun0_C.sl.r_8
  rw [Rows.load_whole harg4 x2 zero2]
  exact Layer.gated0 _ _ _ _ _ _ hB.w0b hB.w0x hB.w0h (l0_h1 hH) (l0_h0 hH) (l0_hx hB) (l0_hh hB) _ r_eq ch n

theorem r11_eq (ch : Fin 64) (n : Fin 2304) :
    kernelRun0_C.sl.r_11 c arg2 harg2 arg3 harg3 arg4 harg4 arg6 harg6 arg9 harg9 arg10 harg10 arg11 x0 x1 x2 x4 xs0 xs1 (ix2 ch n) = Spec.next0 W1 W2 M x (st xs0).1 ch n :=
  Layer.new0 _ _ _ _ _ _ _ _ _ _ r_eq
    (fun ch k => (Pay0.candWeights_apply _ ch k).trans ((Rows.load3_unread harg6 x4 0 (by decide) _ 0 ch k).trans (hB.w2 0 ch k)))
    (r6_eq hB hH) (r7_eq hB hH)
    (fun j c' n => (pB hB j c' n).trans (congrArg (Spec.tap M j · n) (funext (r8_eq hB hH c')))) ch n

theorem l1_hx (j : Fin 9) (ch : Fin 64) (n : Fin 2304) :
    kernelRun0_C.sl.v254 c arg2 harg2 arg3 harg3 arg4 harg4 arg6 harg6 arg9 harg9 arg10 harg10 arg11 x0 x1 x2 x4 xs0 xs1 (ix2 (⟨16 + 128 * j.val + ch.val, by omega⟩ : Fin 1168) n)
      = Spec.tap M j (Spec.next0 W1 W2 M x (st xs0).1 ch) n :=
  (v254_eq _ n).trans ((pC hB j ⟨ch.val, by omega⟩ n).trans
    (congrArg (Spec.tap M j · n) (funext fun n' => (Pay1.stack_lo _ _ _ ch rfl n').trans (r11_eq hB hH ch n'))))

theorem r17_eq (ch : Fin 64) (n : Fin 2304) :
    kernelRun0_C.sl.r_17 c arg2 harg2 arg3 harg3 arg4 harg4 arg5 harg5 arg6 harg6 arg9 harg9 arg10 harg10 arg11 x0 x1 x2 x3 x4 xs0 xs1 (ix2 ch n) = Spec.upd (W1 1) M (Spec.next0 W1 W2 M x (st xs0).1) (st xs0).2 ch n := by
  unfold kernelRun0_C.sl.r_17
  rw [Rows.load_whole harg5 x3 zero2]
  exact Layer.upd1 _ _ _ _ _ _ hB.w1b hB.w1x hB.w1h (l1_h1 hH) (l1_h0 hH) (l1_hx hB hH) (l1_hh hB) ch n

theorem r18_eq (ch : Fin 64) (n : Fin 2304) :
    kernelRun0_C.sl.r_18 c arg2 harg2 arg3 harg3 arg4 harg4 arg5 harg5 arg6 harg6 arg9 harg9 arg10 harg10 arg11 x0 x1 x2 x3 x4 xs0 xs1 (ix2 ch n) = Spec.acc (W1 1) M (Spec.next0 W1 W2 M x (st xs0).1) (st xs0).2 ⟨128 + ch.val, by omega⟩ n := by
  unfold kernelRun0_C.sl.r_18
  rw [Rows.load_whole harg5 x3 zero2]
  exact Layer.candIn1 _ _ _ _ _ _ hB.w1b hB.w1x hB.w1h (l1_h1 hH) (l1_h0 hH) (l1_hx hB hH) (l1_hh hB) ch n

theorem r19_eq (ch : Fin 64) (n : Fin 2304) :
    kernelRun0_C.sl.r_19 c arg2 harg2 arg3 harg3 arg4 harg4 arg5 harg5 arg6 harg6 arg9 harg9 arg10 harg10 arg11 x0 x1 x2 x3 x4 xs0 xs1 (ix2 ch n) = Spec.gated (W1 1) M (Spec.next0 W1 W2 M x (st xs0).1) (st xs0).2 ch n := by
  unfold kernelRun0_C.sl.r_19
  rw [Rows.load_whole harg5 x3 zero2]
  exact Layer.gated1 _ _ _ _ _ _ hB.w1b hB.w1x hB.w1h (l1_h1 hH) (l1_h0 hH) (l1_hx hB hH) (l1_hh hB) _ r12_eq ch n

theorem r23_eq (ch : Fin 64) (n : Fin 2304) :
    kernelRun0_C.sl.r_23 c arg2 harg2 arg3 harg3 arg4 harg4 arg5 harg5 arg6 harg6 arg9 harg9 arg10 harg10 arg11 x0 x1 x2 x3 x4 xs0 xs1 (ix2 ch n) = Spec.next1 W1 W2 M x (st xs0).1 (st xs0).2 ch n :=
  Layer.new1 _ _ _ _ _ _ _ _ _ _ r12_eq
    (fun ch k => (Pay1.pay42_apply _ ch k).trans ((Rows.load3_unread harg6 x4 1 (by decide) _ 0 ch k).trans (hB.w2 1 ch k)))
    (r17_eq hB hH) (r18_eq hB hH)
    (fun j c' n => (pD hB j c' n).trans (congrArg (Spec.tap M j · n) (funext (r19_eq hB hH c')))) ch n

end StepC

-- A last time step: the two new states are the specification's, the constant rows are kept, the output block is layer 1's new state, the last-state block is the state array.
theorem stepC (c : Dev nD) (i : grid0.Coords) (arg2 : Memref sig .tc .vmem S16x2304 .bf16) (harg2 : arg2.IsWhole) (arg3 : Memref sig .tc .vmem S1x1x32x2304 .bf16) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x64x2304 .f32) (harg7 : arg7.IsWhole) (arg8 : Memref sig .tc .vmem S1x2x64x2304 .f32) (harg8 : arg8.IsWhole) (hc0 : ¬cond0_0 i) (hc1 : cond0_1 i)
    (x0 : Vec Ideal S16x2304 .bf16) (x1 : Vec Ideal S1x1x32x2304 .bf16) (x2 : Vec Ideal S192x880 .bf16) (x3 : Vec Ideal S192x1168 .bf16) (x4 : Vec Ideal S2x64x576 .bf16) (xs0 : Vec Ideal S2x64x2304 .f32) (xs1 : Vec Ideal S1168x2304 .bf16) (xs2 : Vec Ideal S576x2304 .bf16)
    (W1 : Fin 2 → Fin 192 → Fin 1160 → EReal) (W2 : Fin 2 → Fin 64 → Fin 576 → EReal) (M : Fin 9 → Row) (x : Fin 32 → Row)
    (hb : BlocksOk W1 W2 M x x0 x1 x2 x3 x4) (hh : headOk xs1) :
    st (sout0_C_0 (F := Ideal) c i arg2 harg2 arg3 harg3 arg4 harg4 arg5 harg5 arg6 harg6 arg7 harg7 arg8 harg8 hc0 hc1 x0 x1 x2 x3 x4 xs0 xs1 xs2) = (Spec.next0 W1 W2 M x (st xs0).1, Spec.next1 W1 W2 M x (st xs0).1 (st xs0).2)
      ∧ headOk (sout0_C_1 (F := Ideal) c i arg2 harg2 arg3 harg3 arg4 harg4 arg5 harg5 arg6 harg6 arg7 harg7 arg8 harg8 hc0 hc1 x0 x1 x2 x3 x4 xs0 xs1 xs2)
      ∧ (∀ (ch : Fin 64) (n : Fin 2304), out0_C_5 (F := Ideal) c i arg2 harg2 arg3 harg3 arg4 harg4 arg5 harg5 arg6 harg6 arg7 harg7 arg8 harg8 scM0_0 (Memref.isWhole_whole cc0_scratch0) scM0_1 (Memref.isWhole_whole cc0_scratch1) scM0_2 (Memref.isWhole_whole cc0_scratch2) hc0 hc1 x0 x1 x2 x3 x4 xs0 xs1 xs2 (ix4 (0 : Fin 1) (0 : Fin 1) ch n) = (st (sout0_C_0 (F := Ideal) c i arg2 harg2 arg3 harg3 arg4 harg4 arg5 harg5 arg6 harg6 arg7 harg7 arg8 harg8 hc0 hc1 x0 x1 x2 x3 x4 xs0 xs1 xs2)).2 ch n)
      ∧ ∀ (l : Fin 2) (ch : Fin 64) (n : Fin 2304), out0_C_6 (F := Ideal) c i arg2 harg2 arg3 harg3 arg4 harg4 arg5 harg5 arg6 harg6 arg7 harg7 arg8 harg8 scM0_0 (Memref.isWhole_whole cc0_scratch0) scM0_1 (Memref.isWhole_whole cc0_scratch1) scM0_2 (Memref.isWhole_whole cc0_scratch2) hc0 hc1 x0 x1 x2 x3 x4 xs0 xs1 xs2 (ix4 (0 : Fin 1) l ch n) = (sout0_C_0 (F := Ideal) c i arg2 harg2 arg3 harg3 arg4 harg4 arg5 harg5 arg6 harg6 arg7 harg7 arg8 harg8 hc0 hc1 x0 x1 x2 x3 x4 xs0 xs1 xs2) (ix3 l ch n) := by
  refine ⟨st_ext _ _ _ (fun ch n => (StepC.s0_lo _ ch n).trans (StepC.r11_eq hb hh ch n))
      (fun ch n => (StepC.s0_hi _ ch n).trans (StepC.r23_eq hb hh ch n)),
    ⟨fun n => (StepC.pC_low 0 (by decide) n).trans (hh.1 n),
      fun k hk1 hk2 n => (StepC.pC_low k.val hk2 n).trans (hh.2 k hk1 hk2 n)⟩,
    fun ch n => (StepC.y_eq ch n).trans ((StepC.s0_hi _ ch n).symm.trans (st_snd _ ch n).symm), fun l ch n => ?_⟩
  match l with
  | ⟨0, _⟩ => exact (StepC.last_lo ch n).trans (StepC.s0_lo _ ch n).symm
  | ⟨1, _⟩ => exact (StepC.last_hi ch n).trans (StepC.s0_hi _ ch n).symm

end Cert.KernelIdeal.Par

end
-- ==== Proof.KI.Step.lean ====
import proofs.«130420_g2000206920649175_pallasbulk_1279_2_alg».proof.Proof.KI.Facts
import proofs.«130420_g2000206920649175_pallasbulk_1279_2_alg».proof.Proof.KI.StepA
import proofs.«130420_g2000206920649175_pallasbulk_1279_2_alg».proof.Proof.KI.StepB
import proofs.«130420_g2000206920649175_pallasbulk_1279_2_alg».proof.Proof.KI.StepC

set_option maxRecDepth 16384

noncomputable section

namespace Cert.KernelIdeal.Par

open Idealize.ShloMosaic Idealize.ShloMosaic.TcCoe Idealize.ShloMosaic.ValueIdx
open Idealize.SL.Sem
open Cert.KernelIdeal Cert.KernelIdeal.Gen Cert.KernelIdeal.Hand
open Cert.Spec (Row)

variable (m : (ℓ : Loc nD τ sig) → Buf (Elt Ideal) ℓ) (c : Dev nD)

theorem point_first (hI : HostIn m c) (t : Fin cfg0.N) (h0 : t.val % 32 = 0) :
    st (hAt m c t.val t.isLt)
        = (Spec.next0 (W1p m c) (W2p m c) (Mp m c) (Xp m c (t.val / 32) (t.val % 32)) Spec.zeroState,
           Spec.next1 (W1p m c) (W2p m c) (Mp m c) (Xp m c (t.val / 32) (t.val % 32)) Spec.zeroState Spec.zeroState)
      ∧ headOk (paAt m c t.val t.isLt)
      ∧ ∀ (ch : Fin 64) (n : Fin 2304),
          yAt m c t.val t.isLt (ix4 (0 : Fin 1) (0 : Fin 1) ch n) = (st (hAt m c t.val t.isLt)).2 ch n := by
  have h1 : ¬ t.val % 32 = 31 := by omega
  have hA := stepA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (blk0 m c t) (blk1 m c t) (blk2 m c t) (blk3 m c t) (blk4 m c t) (W1p m c) (W2p m c) (Mp m c) (Xp m c (t.val / 32) (t.val % 32)) (hI t)
  show st (outsAt0 m c t.val t.isLt).2.2.1 = _ ∧ headOk (outsAt0 m c t.val t.isLt).2.2.2.1
    ∧ ∀ (ch : Fin 64) (n : Fin 2304), (outsAt0 m c t.val t.isLt).1 (ix4 (0 : Fin 1) (0 : Fin 1) ch n)
        = (st (outsAt0 m c t.val t.isLt).2.2.1).2 ch n
  rw [outsAt0_A m c t h0 h1]
  dsimp only
  exact hA

theorem point_middle (hI : HostIn m c) (t : Fin cfg0.N) (h0 : ¬ t.val % 32 = 0) (h1 : ¬ t.val % 32 = 31) (hH : headOk (paAt m c (t.val - 1) (Nat.lt_of_le_of_lt (Nat.sub_le _ _) t.isLt))) :
    st (hAt m c t.val t.isLt)
        = (Spec.next0 (W1p m c) (W2p m c) (Mp m c) (Xp m c (t.val / 32) (t.val % 32))
              (st (hAt m c (t.val - 1) (Nat.lt_of_le_of_lt (Nat.sub_le _ _) t.isLt))).1,
           Spec.next1 (W1p m c) (W2p m c) (Mp m c) (Xp m c (t.val / 32) (t.val % 32))
              (st (hAt m c (t.val - 1) (Nat.lt_of_le_of_lt (Nat.sub_le _ _) t.isLt))).1
              (st (hAt m c (t.val - 1) (Nat.lt_of_le_of_lt (Nat.sub_le _ _) t.isLt))).2)
      ∧ headOk (paAt m c t.val t.isLt)
      ∧ ∀ (ch : Fin 64) (n : Fin 2304),
          yAt m c t.val t.isLt (ix4 (0 : Fin 1) (0 : Fin 1) ch n) = (st (hAt m c t.val t.isLt)).2 ch n := by
  have hB := stepB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (fun h => h1 ((hcond0_1 t).mp h)) (W1p m c) (W2p m c) (Mp m c) (Xp m c (t.val / 32) (t.val % 32)) (blk0 m c t) (blk1 m c t) (blk2 m c t) (blk3 m c t) (blk4 m c t)
    (hAt m c (t.val - 1) (Nat.lt_of_le_of_lt (Nat.sub_le _ _) t.isLt)) (paAt m c (t.val - 1) (Nat.lt_of_le_of_lt (Nat.sub_le _ _) t.isLt)) (outsAt0 (F := Ideal) m c (t.val - 1) (Nat.lt_of_le_of_lt (Nat.sub_le _ _) t.isLt)).2.2.2.2 (hI t) hH
  show st (outsAt0 m c t.val t.isLt).2.2.1 = _ ∧ headOk (outsAt0 m c t.val t.isLt).2.2.2.1
    ∧ ∀ (ch : Fin 64) (n : Fin 2304), (outsAt0 m c t.val t.isLt).1 (ix4 (0 : Fin 1) (0 : Fin 1) ch n)
        = (st (outsAt0 m c t.val t.isLt).2.2.1).2 ch n
  rw [outsAt0_B m c t h0 h1]
  dsimp only
  exact hB

theorem point_last (hI : HostIn m c) (t : Fin cfg0.N) (h0 : ¬ t.val % 32 = 0) (h1 : t.val % 32 = 31) (hH : headOk (paAt m c (t.val - 1) (Nat.lt_of_le_of_lt (Nat.sub_le _ _) t.isLt))) :
    st (hAt m c t.val t.isLt)
        = (Spec.next0 (W1p m c) (W2p m c) (Mp m c) (Xp m c (t.val / 32) (t.val % 32))
              (st (hAt m c (t.val - 1) (Nat.lt_of_le_of_lt (Nat.sub_le _ _) t.isLt))).1,
           Spec.next1 (W1p m c) (W2p m c) (Mp m c) (Xp m c (t.val / 32) (t.val % 32))
              (st (hAt m c (t.val - 1) (Nat.lt_of_le_of_lt (Nat.sub_le _ _) t.isLt))).1
              (st (hAt m c (t.val - 1) (Nat.lt_of_le_of_lt (Nat.sub_le _ _) t.isLt))).2)
      ∧ headOk (paAt m c t.val t.isLt)
      ∧ (∀ (ch : Fin 64) (n : Fin 2304),
          yAt m c t.val t.isLt (ix4 (0 : Fin 1) (0 : Fin 1) ch n) = (st (hAt m c t.val t.isLt)).2 ch n)
      ∧ ∀ (l : Fin 2) (ch : Fin 64) (n : Fin 2304),
          lastAt m c t.val t.isLt (ix4 (0 : Fin 1) l ch n) = hAt m c t.val t.isLt (ix3 l ch n) := by
  have hC := stepC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (blk0 m c t) (blk1 m c t) (blk2 m c t) (blk3 m c t) (blk4 m c t)
    (hAt m c (t.val - 1) (Nat.lt_of_le_of_lt (Nat.sub_le _ _) t.isLt)) (paAt m c (t.val - 1) (Nat.lt_of_le_of_lt (Nat.sub_le _ _) t.isLt)) (outsAt0 (F := Ideal) m c (t.val - 1) (Nat.lt_of_le_of_lt (Nat.sub_le _ _) t.isLt)).2.2.2.2 (W1p m c) (W2p m c) (Mp m c) (Xp m c (t.val / 32) (t.val % 32)) (hI t) hH
  show st (outsAt0 m c t.val t.isLt).2.2.1 = _ ∧ headOk (outsAt0 m c t.val t.isLt).2.2.2.1
    ∧ (∀ (ch : Fin 64) (n : Fin 2304), (outsAt0 m c t.val t.isLt).1 (ix4 (0 : Fin 1) (0 : Fin 1) ch n)
        = (st (outsAt0 m c t.val t.isLt).2.2.1).2 ch n)
    ∧ ∀ (l : Fin 2) (ch : Fin 64) (n : Fin 2304), (outsAt0 m c t.val t.isLt).2.1 (ix4 (0 : Fin 1) l ch n)
        = (outsAt0 m c t.val t.isLt).2.2.1 (ix3 l ch n)
  rw [outsAt0_C m c t h0 h1]
  dsimp only
  exact hC

theorem head_at (hI : HostIn m c) : ∀ (n : ℕ) (hn : n < cfg0.N), headOk (paAt m c n hn) := by
  intro n
  induction n with
  | zero => intro hn; exact (point_first m c hI ⟨0, hn⟩ (Nat.zero_mod _)).2.1
  | succ k ih =>
    intro hn
    have hk : headOk (paAt m c ((⟨k + 1, hn⟩ : Fin cfg0.N).val - 1) (Nat.lt_of_le_of_lt (Nat.sub_le _ _) hn)) :=
      ih (Nat.lt_of_succ_lt hn)
    by_cases h0 : (k + 1) % 32 = 0
    · exact (point_first m c hI ⟨k + 1, hn⟩ h0).2.1
    · by_cases h1 : (k + 1) % 32 = 31
      · exact (point_last m c hI ⟨k + 1, hn⟩ h0 h1 hk).2.1
      · exact (point_middle m c hI ⟨k + 1, hn⟩ h0 h1 hk).2.1

theorem head_before (hI : HostIn m c) (t : Fin cfg0.N) :
    headOk (paAt m c (t.val - 1) (Nat.lt_of_le_of_lt (Nat.sub_le _ _) t.isLt)) :=
  head_at m c hI (t.val - 1) _

theorem stepFacts (hI : HostIn m c) : StepFacts m c where
  first t h0 := ⟨(point_first m c hI t h0).1, (point_first m c hI t h0).2.1⟩
  later t h0 hH := by
    by_cases h1 : t.val % 32 = 31
    · exact ⟨(point_last m c hI t h0 h1 hH).1, (point_last m c hI t h0 h1 hH).2.1⟩
    · exact ⟨(point_middle m c hI t h0 h1 hH).1, (point_middle m c hI t h0 h1 hH).2.1⟩
  yblk t ch n := by
    by_cases h0 : t.val % 32 = 0
    · exact (point_first m c hI t h0).2.2 ch n
    · by_cases h1 : t.val % 32 = 31
      · exact (point_last m c hI t h0 h1 (head_before m c hI t)).2.2.1 ch n
      · exact (point_middle m c hI t h0 h1 (head_before m c hI t)).2.2 ch n
  lastblk t h1 l ch n :=
    (point_last m c hI t (by omega) h1 (head_before m c hI t)).2.2.2 l ch n

end Cert.KernelIdeal.Par

end
-- ==== Proof.KI.Value.lean ====
import proofs.«130420_g2000206920649175_pallasbulk_1279_2_alg».proof.Proof.KI.Facts
import proofs.«130420_g2000206920649175_pallasbulk_1279_2_alg».proof.Proof.KI.Body
import proofs.«130420_g2000206920649175_pallasbulk_1279_2_alg».proof.Proof.Tail
import Idealize.ShloMosaic.Lib.Pipeline.Value

set_option maxRecDepth 16384

noncomputable section

namespace Cert.Spec

theorem states_of_steps {N : ℕ} (W1 : Fin 2 → Fin 192 → Fin 1160 → EReal) (W2 : Fin 2 → Fin 64 → Fin 576 → EReal) (M : Fin 9 → Row) (X : ℕ → ℕ → Fin 32 → Row) (H : (n : ℕ) → n < N → (Fin 64 → Row) × (Fin 64 → Row)) (P : (n : ℕ) → n < N → Prop) (first : ∀ (n : ℕ) (hn : n < N), n % 32 = 0 →
      H n hn = (next0 W1 W2 M (X (n / 32) (n % 32)) zeroState, next1 W1 W2 M (X (n / 32) (n % 32)) zeroState zeroState)
        ∧ P n hn) (later : ∀ (n : ℕ) (hn : n < N), ¬ n % 32 = 0 → P (n - 1) (Nat.lt_of_le_of_lt (Nat.sub_le _ _) hn) →
      H n hn = (next0 W1 W2 M (X (n / 32) (n % 32)) (H (n - 1) (Nat.lt_of_le_of_lt (Nat.sub_le _ _) hn)).1,
                next1 W1 W2 M (X (n / 32) (n % 32)) (H (n - 1) (Nat.lt_of_le_of_lt (Nat.sub_le _ _) hn)).1
                  (H (n - 1) (Nat.lt_of_le_of_lt (Nat.sub_le _ _) hn)).2)
        ∧ P n hn) :
    ∀ (n : ℕ) (hn : n < N), H n hn = states W1 W2 M (X (n / 32)) (n % 32) ∧ P n hn := by
  intro n
  induction n with
  | zero =>
    intro hn
    obtain ⟨e, p⟩ := first 0 hn (Nat.zero_mod _)
    refine ⟨?_, p⟩
    rw [e, Nat.zero_mod, Nat.zero_div]
    rfl
  | succ k ih =>
    intro hn
    obtain ⟨ek, pk⟩ := ih (Nat.lt_of_succ_lt hn)
    by_cases h0 : (k + 1) % 32 = 0
    · obtain ⟨e, p⟩ := first (k + 1) hn h0
      refine ⟨?_, p⟩
      rw [e, h0]
      rfl
    · obtain ⟨e, p⟩ := later (k + 1) hn h0 pk
      refine ⟨?_, p⟩
      have hd : (k + 1) / 32 = k / 32 := by omega
      have hm : (k + 1) % 32 = k % 32 + 1 := by omega
      have eb : H (k + 1 - 1) (Nat.lt_of_le_of_lt (Nat.sub_le _ _) hn) = states W1 W2 M (X (k / 32)) (k % 32) := ek
      rw [e, eb, hd, hm, states_succ]

end Cert.Spec

namespace Cert.Spec

open Idealize.ShloMosaic Idealize.ShloMosaic.ValueIdx

section
variable (W1 : Fin 2 → Fin 192 → Fin 1160 → EReal) (W2 : Fin 2 → Fin 64 → Fin 576 → EReal) (M : Fin 9 → Row) (X : ℕ → ℕ → Fin 32 → Row)
include W1 W2 M X

theorem Gy_at (j : (⟨4, ![2, 32, 64, 2304]⟩ : Shape).Idx) (b s : ℕ) (ch : Fin 64) (n : Fin 2304) (h0 : (j 0).val = b) (h1 : (j 1).val = s) (h2 : (j 2).val = ch.val) (h3 : (j 3).val = n.val) :
    Gy W1 W2 M X j = (states W1 W2 M (X b) s).2 ch n := by
  subst h0; subst h1
  have ha : (⟨(j 2).val, (j 2).isLt⟩ : Fin 64) = ch := Fin.ext h2
  have hb : (⟨(j 3).val, (j 3).isLt⟩ : Fin 2304) = n := Fin.ext h3
  show (states W1 W2 M (X (j 0).val) (j 1).val).2 ⟨(j 2).val, (j 2).isLt⟩ ⟨(j 3).val, (j 3).isLt⟩ = _
  rw [ha, hb]

theorem Glast_at (j : (⟨4, ![2, 2, 64, 2304]⟩ : Shape).Idx) (b : ℕ) (l : Fin 2) (ch : Fin 64) (n : Fin 2304) (h0 : (j 0).val = b) (h1 : (j 1).val = l.val) (h2 : (j 2).val = ch.val) (h3 : (j 3).val = n.val) :
    Glast W1 W2 M X j = if l.val = 0 then (states W1 W2 M (X b) 31).1 ch n else (states W1 W2 M (X b) 31).2 ch n := by
  subst h0
  have ha : (⟨(j 2).val, (j 2).isLt⟩ : Fin 64) = ch := Fin.ext h2
  have hb : (⟨(j 3).val, (j 3).isLt⟩ : Fin 2304) = n := Fin.ext h3
  show (if (j 1).val = 0 then (states W1 W2 M (X (j 0).val) 31).1 ⟨(j 2).val, (j 2).isLt⟩ ⟨(j 3).val, (j 3).isLt⟩
    else (states W1 W2 M (X (j 0).val) 31).2 ⟨(j 2).val, (j 2).isLt⟩ ⟨(j 3).val, (j 3).isLt⟩) = _
  rw [ha, hb, h1]

end

end Cert.Spec

namespace Cert.KernelIdeal.Par

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Hand
open Cert.Spec (Row)

variable (m : (ℓ : Loc nD τ sig) → Buf (Elt Ideal) ℓ) (ρ : Dev nD → PrngReg)

theorem state_at (c : Dev nD) (hs : StepFacts m c) (n : ℕ) (hn : n < cfg0.N) :
    st (hAt m c n hn) = Spec.states (W1p m c) (W2p m c) (Mp m c) (Xp m c (n / 32)) (n % 32) ∧ headOk (paAt m c n hn) :=
  Spec.states_of_steps (W1p m c) (W2p m c) (Mp m c) (Xp m c) (fun n hn => st (hAt m c n hn))
    (fun n hn => headOk (paAt m c n hn)) (fun n hn h => hs.first ⟨n, hn⟩ h) (fun n hn h p => hs.later ⟨n, hn⟩ h p) n hn

theorem idx_y : ∀ t : Fin cfg0.N, win0_5.index t (0 : Fin 4) = t.val / 32 ∧ win0_5.index t (1 : Fin 4) = t.val % 32
    ∧ win0_5.index t (2 : Fin 4) = 0 ∧ win0_5.index t (3 : Fin 4) = 0 :=
  (by decide +kernel : ∀ t : Fin grid0.N, win0_5.index t (0 : Fin 4) = t.val / 32 ∧ win0_5.index t (1 : Fin 4) = t.val % 32
    ∧ win0_5.index t (2 : Fin 4) = 0 ∧ win0_5.index t (3 : Fin 4) = 0)

theorem idx_l : ∀ t : Fin cfg0.N, win0_6.index t (0 : Fin 4) = t.val / 32 ∧ win0_6.index t (1 : Fin 4) = 0
    ∧ win0_6.index t (2 : Fin 4) = 0 ∧ win0_6.index t (3 : Fin 4) = 0 :=
  (by decide +kernel : ∀ t : Fin grid0.N, win0_6.index t (0 : Fin 4) = t.val / 32 ∧ win0_6.index t (1 : Fin 4) = 0
    ∧ win0_6.index t (2 : Fin 4) = 0 ∧ win0_6.index t (3 : Fin 4) = 0)

abbrev GyK (c : Dev nD) : Buf (Elt Ideal) ((c : Thread nD τ).loc main_v262_0) :=
  Spec.Gy (W1p m c) (W2p m c) (Mp m c) (Xp m c)
abbrev GlK (c : Dev nD) : Buf (Elt Ideal) ((c : Thread nD τ).loc main_v262_1) :=
  Spec.Glast (W1p m c) (W2p m c) (Mp m c) (Xp m c)

theorem flushed_y (c : Dev nD) (hs : StepFacts m c) (t : Fin cfg0.N) :
    (dats (F := Ideal) m 0 c).flushed 5 t = ((cfg0.win 5).blk t).view.read (Elt Ideal) (GyK m c) := by
  show (cfg0.win 5).cut (grid0.coords t) ((dats m 0 c).after 5 t) = _
  rw [after0_5]
  obtain ⟨e0, e1, e2, e3⟩ := idx_y t
  obtain ⟨hst, -⟩ := state_at m c hs t.val t.isLt
  refine funext fun (y : S1x1x64x2304.Idx) => ?_
  have hy0 : (y 0).val = 0 := by have h : (y 0).val < 1 := (y 0).isLt; omega
  have hy1 : (y 1).val = 0 := by have h : (y 1).val < 1 := (y 1).isLt; omega
  have hy : y = ix4 (0 : Fin 1) (0 : Fin 1) (y 2) (y 3) := by
    funext a
    match a with
    | ⟨0, _⟩ => exact Fin.ext hy0
    | ⟨1, _⟩ => exact Fin.ext hy1
    | ⟨2, _⟩ => rfl
    | ⟨3, _⟩ => rfl
  have hL : yAt m c t.val t.isLt y = (Spec.states (W1p m c) (W2p m c) (Mp m c) (Xp m c (t.val / 32)) (t.val % 32)).2 (y 2) (y 3) := by
    rw [← hst]
    exact (congrArg (yAt m c t.val t.isLt) hy).trans (hs.yblk t (y 2) (y 3))
  refine Eq.trans hL (Eq.symm ?_)
  refine Spec.Gy_at (W1p m c) (W2p m c) (Mp m c) (Xp m c) (((cfg0.win 5).blk t).view.emb y) (t.val / 32) (t.val % 32) (y 2) (y 3) ?_ ?_ ?_ ?_
  · show win0_5.index t (0 : Fin 4) * 1 + 1 * (y 0).val = _
    omega
  · show win0_5.index t (1 : Fin 4) * 1 + 1 * (y 1).val = _
    omega
  · show win0_5.index t (2 : Fin 4) * 64 + 1 * (y 2).val = _
    omega
  · show win0_5.index t (3 : Fin 4) * 2304 + 1 * (y 3).val = _
    omega

theorem mem_blk_y (t : Fin cfg0.N) (i : S2x32x64x2304.Idx) :
    i ∈ ((cfg0.win 5).blk t).view.set ↔ ∀ a : Fin 4, win0_5.index t a * S1x1x64x2304.size a ≤ (i a).val
      ∧ (i a).val < win0_5.index t a * S1x1x64x2304.size a + S1x1x64x2304.size a := by
  show i ∈ ((View.whole main_v262_0).slice (win0_5.rect t)).set ↔ _
  rw [View.set_slice_whole, Rect.mem_set_unit]
  exact Iff.rfl

theorem cover_y (i : S2x32x64x2304.Idx) :
    ∃ t : Fin cfg0.N, (cfg0.win 5).flush t = true ∧ i ∈ ((cfg0.win 5).blk t).view.set := by
  have h0 : (i 0).val < 2 := (i 0).isLt
  have h1 : (i 1).val < 32 := (i 1).isLt
  have h2 : (i 2).val < 64 := (i 2).isLt
  have h3 : (i 3).val < 2304 := (i 3).isLt
  have hN : 32 * (i 0).val + (i 1).val < cfg0.N := by rw [N64]; omega
  obtain ⟨e0, e1, e2, e3⟩ := idx_y ⟨32 * (i 0).val + (i 1).val, hN⟩
  have hv : (⟨32 * (i 0).val + (i 1).val, hN⟩ : Fin cfg0.N).val = 32 * (i 0).val + (i 1).val := rfl
  refine ⟨⟨32 * (i 0).val + (i 1).val, hN⟩, flush0_5 _, ?_⟩
  rw [mem_blk_y]
  intro a
  match a with
  | ⟨0, _⟩ =>
    show win0_5.index ⟨32 * (i 0).val + (i 1).val, hN⟩ (0 : Fin 4) * 1 ≤ (i 0).val
      ∧ (i 0).val < win0_5.index ⟨32 * (i 0).val + (i 1).val, hN⟩ (0 : Fin 4) * 1 + 1
    omega
  | ⟨1, _⟩ =>
    show win0_5.index ⟨32 * (i 0).val + (i 1).val, hN⟩ (1 : Fin 4) * 1 ≤ (i 1).val
      ∧ (i 1).val < win0_5.index ⟨32 * (i 0).val + (i 1).val, hN⟩ (1 : Fin 4) * 1 + 1
    omega
  | ⟨2, _⟩ =>
    show win0_5.index ⟨32 * (i 0).val + (i 1).val, hN⟩ (2 : Fin 4) * 64 ≤ (i 2).val
      ∧ (i 2).val < win0_5.index ⟨32 * (i 0).val + (i 1).val, hN⟩ (2 : Fin 4) * 64 + 64
    omega
  | ⟨3, _⟩ =>
    show win0_5.index ⟨32 * (i 0).val + (i 1).val, hN⟩ (3 : Fin 4) * 2304 ≤ (i 3).val
      ∧ (i 3).val < win0_5.index ⟨32 * (i 0).val + (i 1).val, hN⟩ (3 : Fin 4) * 2304 + 2304
    omega

theorem final_y (c : Dev nD) (hs : StepFacts m c) : (dats (F := Ideal) m 0 c).arrAt 5 cfg0.N = GyK m c :=
  (dats m 0 c).arrAt_eq_of_cover 5 (GyK m c) (fun t _ => flushed_y m c hs t) cover_y

theorem st_at (s0 : S2x64x2304.Idx → EReal) (l : Fin 2) (ch : Fin 64) (n : Fin 2304) :
    s0 (ix3 l ch n) = if l.val = 0 then (st s0).1 ch n else (st s0).2 ch n := by
  match l with
  | ⟨0, _⟩ => rfl
  | ⟨1, _⟩ => rfl

theorem flushed_l (c : Dev nD) (hs : StepFacts m c) (t : Fin cfg0.N) (hf : (cfg0.win 6).flush t = true) :
    (dats (F := Ideal) m 0 c).flushed 6 t = ((cfg0.win 6).blk t).view.read (Elt Ideal) (GlK m c) := by
  have h31 : t.val % 32 = 31 := (flush0_6 t).mp hf
  show (cfg0.win 6).cut (grid0.coords t) ((dats m 0 c).after 6 t) = _
  rw [after0_6]
  obtain ⟨e0, e1, e2, e3⟩ := idx_l t
  obtain ⟨hst, -⟩ := state_at m c hs t.val t.isLt
  rw [h31] at hst
  refine funext fun (y : S1x2x64x2304.Idx) => ?_
  have hy0 : (y 0).val = 0 := by have h : (y 0).val < 1 := (y 0).isLt; omega
  have hy : y = ix4 (0 : Fin 1) (y 1) (y 2) (y 3) := by
    funext a
    match a with
    | ⟨0, _⟩ => exact Fin.ext hy0
    | ⟨1, _⟩ => rfl
    | ⟨2, _⟩ => rfl
    | ⟨3, _⟩ => rfl
  have hL : lastAt m c t.val t.isLt y
      = if (y 1).val = 0 then (Spec.states (W1p m c) (W2p m c) (Mp m c) (Xp m c (t.val / 32)) 31).1 (y 2) (y 3)
        else (Spec.states (W1p m c) (W2p m c) (Mp m c) (Xp m c (t.val / 32)) 31).2 (y 2) (y 3) := by
    rw [← hst]
    exact ((congrArg (lastAt m c t.val t.isLt) hy).trans (hs.lastblk t h31 (y 1) (y 2) (y 3))).trans
      (st_at (hAt m c t.val t.isLt) (y 1) (y 2) (y 3))
  refine Eq.trans hL (Eq.symm ?_)
  refine Spec.Glast_at (W1p m c) (W2p m c) (Mp m c) (Xp m c) (((cfg0.win 6).blk t).view.emb y) (t.val / 32) (y 1) (y 2) (y 3) ?_ ?_ ?_ ?_
  · show win0_6.index t (0 : Fin 4) * 1 + 1 * (y 0).val = _
    omega
  · show win0_6.index t (1 : Fin 4) * 2 + 1 * (y 1).val = _
    omega
  · show win0_6.index t (2 : Fin 4) * 64 + 1 * (y 2).val = _
    omega
  · show win0_6.index t (3 : Fin 4) * 2304 + 1 * (y 3).val = _
    omega

theorem mem_blk_l (t : Fin cfg0.N) (i : S2x2x64x2304.Idx) :
    i ∈ ((cfg0.win 6).blk t).view.set ↔ ∀ a : Fin 4, win0_6.index t a * S1x2x64x2304.size a ≤ (i a).val
      ∧ (i a).val < win0_6.index t a * S1x2x64x2304.size a + S1x2x64x2304.size a := by
  show i ∈ ((View.whole main_v262_1).slice (win0_6.rect t)).set ↔ _
  rw [View.set_slice_whole, Rect.mem_set_unit]
  exact Iff.rfl

theorem cover_l (i : S2x2x64x2304.Idx) :
    ∃ t : Fin cfg0.N, (cfg0.win 6).flush t = true ∧ i ∈ ((cfg0.win 6).blk t).view.set := by
  have h0 : (i 0).val < 2 := (i 0).isLt
  have h1 : (i 1).val < 2 := (i 1).isLt
  have h2 : (i 2).val < 64 := (i 2).isLt
  have h3 : (i 3).val < 2304 := (i 3).isLt
  have hN : 32 * (i 0).val + 31 < cfg0.N := by rw [N64]; omega
  obtain ⟨e0, e1, e2, e3⟩ := idx_l ⟨32 * (i 0).val + 31, hN⟩
  have hv : (⟨32 * (i 0).val + 31, hN⟩ : Fin cfg0.N).val = 32 * (i 0).val + 31 := rfl
  refine ⟨⟨32 * (i 0).val + 31, hN⟩, (flush0_6 _).mpr (by rw [hv]; omega), ?_⟩
  rw [mem_blk_l]
  intro a
  match a with
  | ⟨0, _⟩ =>
    show win0_6.index ⟨32 * (i 0).val + 31, hN⟩ (0 : Fin 4) * 1 ≤ (i 0).val
      ∧ (i 0).val < win0_6.index ⟨32 * (i 0).val + 31, hN⟩ (0 : Fin 4) * 1 + 1
    omega
  | ⟨1, _⟩ =>
    show win0_6.index ⟨32 * (i 0).val + 31, hN⟩ (1 : Fin 4) * 2 ≤ (i 1).val
      ∧ (i 1).val < win0_6.index ⟨32 * (i 0).val + 31, hN⟩ (1 : Fin 4) * 2 + 2
    omega
  | ⟨2, _⟩ =>
    show win0_6.index ⟨32 * (i 0).val + 31, hN⟩ (2 : Fin 4) * 64 ≤ (i 2).val
      ∧ (i 2).val < win0_6.index ⟨32 * (i 0).val + 31, hN⟩ (2 : Fin 4) * 64 + 64
    omega
  | ⟨3, _⟩ =>
    show win0_6.index ⟨32 * (i 0).val + 31, hN⟩ (3 : Fin 4) * 2304 ≤ (i 3).val
      ∧ (i 3).val < win0_6.index ⟨32 * (i 0).val + 31, hN⟩ (3 : Fin 4) * 2304 + 2304
    omega

theorem final_l (c : Dev nD) (hs : StepFacts m c) : (dats (F := Ideal) m 0 c).arrAt 6 cfg0.N = GlK m c :=
  (dats m 0 c).arrAt_eq_of_cover 6 (GlK m c) (flushed_l m c hs) cover_l

theorem tail_first (W : Valuation τ sig (Elt Ideal)) :
    StableHlo.after (hostOps1 (F := Ideal)) W (Proc.devRef .tc main_v265)
      = Cert.Tail.tailY (F := Ideal) (W (Proc.devRef .tc main_v262_0)) := by
  after_results
  rfl

theorem tail_second (W : Valuation τ sig (Elt Ideal)) :
    StableHlo.after (hostOps1 (F := Ideal)) W (Proc.devRef .tc main_v268)
      = Cert.Tail.tailL (F := Ideal) (W (Proc.devRef .tc main_v262_1)) := by
  after_results
  rfl

theorem tail_y (c : Dev nD) (hs : StepFacts m c) :
    Pipeline.afterTail₀ cfgs (dats (F := Ideal) m) 0 (V0 m) [hostOps1] c main_v265
      = Cert.Tail.tailY (F := Ideal) (Spec.Gy (W1p m c) (W2p m c) (Mp m c) (Xp m c)) := by
  unfold Pipeline.afterTail₀
  show StableHlo.after hostOps1 _ (Proc.devRef .tc main_v265) = _
  rw [tail_first]
  exact congrArg (Cert.Tail.tailY (F := Ideal))
    ((Pipeline.withArrays_arr spec0 launch0.win.arr_inj c _ _ 5).trans (final_y m c hs))

theorem tail_l (c : Dev nD) (hs : StepFacts m c) :
    Pipeline.afterTail₀ cfgs (dats (F := Ideal) m) 0 (V0 m) [hostOps1] c main_v268
      = Cert.Tail.tailL (F := Ideal) (Spec.Glast (W1p m c) (W2p m c) (Mp m c) (Xp m c)) := by
  unfold Pipeline.afterTail₀
  show StableHlo.after hostOps1 _ (Proc.devRef .tc main_v268) = _
  rw [tail_second]
  exact congrArg (Cert.Tail.tailL (F := Ideal))
    ((Pipeline.withArrays_arr spec0 launch0.win.arr_inj c _ _ 6).trans (final_l m c hs))

theorem run_value (hs : ∀ c, StepFacts m c) :
    θ_run (defs (F := Ideal)) (onTc (τ := τ) (main (F := Ideal))) ⟨m, fun _ => 0, ρ⟩ (fun r => ∀ c : Dev nD,
      r.2.mem ((c.tc : Thread nD τ).loc main_v265)
          = Cert.Tail.tailY (F := Ideal) (Spec.Gy (W1p m c) (W2p m c) (Mp m c) (Xp m c))
      ∧ r.2.mem ((c.tc : Thread nD τ).loc main_v268)
          = Cert.Tail.tailL (F := Ideal) (Spec.Glast (W1p m c) (W2p m c) (Mp m c) (Xp m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v265 (Pipeline.mem_restRefs_of main_v265 (by decide) (by decide))).trans (tail_y m c (hs c)),
     ((h c).2 main_v268 (Pipeline.mem_restRefs_of main_v268 (by decide) (by decide))).trans (tail_l m c (hs c)),
     ((h c).2 main_arg0 (Pipeline.mem_restRefs_of main_arg0 (by decide) (by decide))).trans
       (W_main_arg m (dats m) c main_arg0 (by decide) (by decide)),
     ((h c).2 main_arg1 (Pipeline.mem_restRefs_of main_arg1 (by decide) (by decide))).trans
       (W_main_arg m (dats m) c main_arg1 (by decide) (by decide)),
     ((h c).2 main_arg2 (Pipeline.mem_restRefs_of main_arg2 (by decide) (by decide))).trans
       (W_main_arg m (dats m) c main_arg2 (by decide) (by decide))⟩) (run_main m ρ)

end Cert.KernelIdeal.Par

end
-- ==== Proof.RI.HostIn.lean ====
import proofs.«130420_g2000206920649175_pallasbulk_1279_2_alg».proof.Proof.RI.Facts
import proofs.«130420_g2000206920649175_pallasbulk_1279_2_alg».proof.Proof.RI.Main
import Idealize.ShloMosaic.Lib.ValueIdx
import Idealize.ShloMosaic.Lib.ValueLayout
import Idealize.ShloMosaic.Lib.Pipeline.Value
import Idealize.ShloMosaic.Lib.Pipeline.Frame
import Idealize.ShloMosaic.Lib.KernelVsHost

set_option maxRecDepth 16384

noncomputable section

namespace Cert.ReferenceIdeal.Par

open Idealize.ShloMosaic Idealize.ShloMosaic.TcCoe Idealize.ShloMosaic.ValueIdx Idealize.ShloMosaic.Tactic
open Idealize.SL.Sem
open Cert.ReferenceIdeal Cert.ReferenceIdeal.Gen Cert.ReferenceIdeal.Hand
open Cert.Spec (Row)

variable (m : (ℓ : Loc nD τ sig) → Buf (Elt Ideal) ℓ) (c : Dev nD)

theorem idx_facts : ∀ t : Fin cfg0.N,
    win0_0.index t (0 : Fin 2) = 0 ∧ win0_0.index t (1 : Fin 2) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0 :=
  (by decide +kernel : ∀ t : Fin grid0.N, _)

theorem idx_facts1 : ∀ t : Fin cfg0.N,
    win0_1.index t (0 : Fin 4) = t.val / 32 ∧ win0_1.index t (1 : Fin 4) = t.val % 32
    ∧ win0_1.index t (2 : Fin 4) = 0 ∧ win0_1.index t (3 : Fin 4) = 0 :=
  (by decide +kernel : ∀ t : Fin grid0.N, _)

theorem blk2_apply (t : Fin cfg0.N) (l : Fin 2) (o : Fin 192) (k : Fin 1160) :
    blk2 m c t (ix3 l o k) = (V m c main_arg1 : S2x192x1160.Idx → EReal) (ix3 l o k) := by
  obtain ⟨-, -, e0, e1, e2, -⟩ := idx_facts t
  show (V m c main_arg1 : S2x192x1160.Idx → EReal) (((cfg0.win 2).blk t).view.emb (ix3 l o k)) = _
  refine congrArg _ ?_
  funext a; apply Fin.ext
  match a with
  | ⟨0, _⟩ => show win0_2.index t (0 : Fin 3) * 2 + 1 * l.val = l.val; omega
  | ⟨1, _⟩ => show win0_2.index t (1 : Fin 3) * 192 + 1 * o.val = o.val; omega
  | ⟨2, _⟩ => show win0_2.index t (2 : Fin 3) * 1160 + 1 * k.val = k.val; omega

theorem blk3_apply (t : Fin cfg0.N) (l : Fin 2) (ch : Fin 64) (k : Fin 576) :
    blk3 m c t (ix3 l ch k) = (V m c main_arg2 : S2x64x576.Idx → EReal) (ix3 l ch k) := by
  obtain ⟨-, -, -, -, -, e0, e1, e2⟩ := idx_facts t
  show (V m c main_arg2 : S2x64x576.Idx → EReal) (((cfg0.win 3).blk t).view.emb (ix3 l ch k)) = _
  refine congrArg _ ?_
  funext a; apply Fin.ext
  match a with
  | ⟨0, _⟩ => show win0_3.index t (0 : Fin 3) * 2 + 1 * l.val = l.val; omega
  | ⟨1, _⟩ => show win0_3.index t (1 : Fin 3) * 64 + 1 * ch.val = ch.val; omega
  | ⟨2, _⟩ => show win0_3.index t (2 : Fin 3) * 576 + 1 * k.val = k.val; omega

theorem blk0_apply (t : Fin cfg0.N) (i : Fin 9) (n : Fin 2304) :
    blk0 m c t (ix2 i n) = (V m c main_v187 : S9x2304.Idx → EReal) (ix2 i n) := by
  obtain ⟨e0, e1, -⟩ := idx_facts t
  show (V m c main_v187 : S9x2304.Idx → EReal) (((cfg0.win 0).blk t).view.emb (ix2 i n)) = _
  refine congrArg _ ?_
  funext a; apply Fin.ext
  match a with
  | ⟨0, _⟩ => show win0_0.index t (0 : Fin 2) * 9 + 1 * i.val = i.val; omega
  | ⟨1, _⟩ => show win0_0.index t (1 : Fin 2) * 2304 + 1 * n.val = n.val; omega

theorem mask_field (t : Fin cfg0.N) (i : Fin 9) (n : Fin 2304) : blk0 m c t (ix2 i n) = Mp m c i n :=
  blk0_apply m c t i n

theorem w1_field (t : Fin cfg0.N) (l : Fin 2) (o : Fin 192) (k : Fin 1160) : blk2 m c t (ix3 l o k) = W1p m c l o k := by
  rw [blk2_apply, V_main_arg1]; rfl

theorem w2_field (t : Fin cfg0.N) (l : Fin 2) (ch : Fin 64) (k : Fin 576) : blk3 m c t (ix3 l ch k) = W2p m c l ch k := by
  rw [blk3_apply, V_main_arg2]; rfl

theorem last3 : (hostOps0_4 (F := Ideal)).drop 257 =
    [ StableHlo.unary main_arg0 main_v188 ((transpose S8x32x32x24x24 [1, 0, 2, 3, 4] · transposes_S32x8x32x24x24_S8x32x32x24x24_1_0_2_3_4) : (⟨S32x8x32x24x24, .f32⟩ : BufTy).Contents (Elt Ideal) → (⟨S8x32x32x24x24, .f32⟩ : BufTy).Contents (Elt Ideal)),
      StableHlo.reshape main_v188 main_v189 rfl shapeCasts_S8x32x32x24x24_S2x4x32x32x576,
      StableHlo.nullary main_c_73 (constantI S_ 32 0#32) ] := rfl

def Wpre : Valuation τ sig (Elt Ideal) :=
  StableHlo.after ((hostOps0_4 (F := Ideal)).take 257) (StableHlo.after hostOps0_3 (StableHlo.after hostOps0_2 (StableHlo.after hostOps0_1 (StableHlo.after hostOps0 (fun b => m (c, b))))))

theorem V0_split : V0 m c = StableHlo.after hostOps0_6 (StableHlo.after hostOps0_5 (StableHlo.after ((hostOps0_4 (F := Ideal)).drop 257) (Wpre m c))) := by
  have hf : List.flatten (preOps (F := Ideal)) = hostOps0 ++ (hostOps0_1 ++ (hostOps0_2 ++ (hostOps0_3 ++ (((hostOps0_4 (F := Ideal)).take 257 ++ (hostOps0_4 (F := Ideal)).drop 257) ++ (hostOps0_5 ++ (hostOps0_6 ++ [])))))) := by
    rw [List.take_append_drop]
    simp only [preOps, List.flatten_cons, List.flatten_nil]
  show StableHlo.after (List.flatten (preOps (F := Ideal))) _ = _
  rw [hf]
  simp only [StableHlo.after_append, StableHlo.after_nil, Wpre]

def relay (x : S32x8x32x24x24.Idx → EReal) : S2x32x64x2304.Idx → EReal :=
  shapeCast S2x32x64x2304
    (transpose S2x32x64x4x576 [0, 2, 3, 1, 4]
      (pad S2x4x32x64x576 ![0, 0, 0, 0, 0] ![0, 0, 0, 32, 0] ![0, 0, 0, 0, 0]
        (shapeCast S2x4x32x32x576
          (transpose S8x32x32x24x24 [1, 0, 2, 3, 4] x transposes_S32x8x32x24x24_S8x32x32x24x24_1_0_2_3_4)
          shapeCasts_S8x32x32x24x24_S2x4x32x32x576)
        (sitofp (F := Ideal) .f32 (constantI S_ 32 0#32))
        pads_S2x4x32x32x576_S2x4x32x64x576_000_000_000_0320_000 h_S_)
      transposes_S2x4x32x64x576_S2x32x64x4x576_0_2_3_1_4)
    shapeCasts_S2x32x64x4x576_S2x32x64x2304

theorem xb_eq_V : (V m c main_v192 : S2x32x64x2304.Idx → EReal) = relay (V m c main_arg0 : S32x8x32x24x24.Idx → EReal) := by
  unfold relay
  dsimp only [V]
  rw [V0_split m c, last3]
  generalize Wpre m c = W
  simp only [hostOps0_5, hostOps0_6]
  after_results
  rfl

theorem xb_eq : (V m c main_v192 : S2x32x64x2304.Idx → EReal) = relay (A0 m c) :=
  (xb_eq_V m c).trans (congrArg relay (V_main_arg0 m c))

theorem relay_apply (x : S32x8x32x24x24.Idx → EReal) (b : Fin 2) (s : Fin 32) (ch : Fin 64) (n : Fin 2304) :
    relay x (ix4 b s ch n)
      = if h : ch.val < 32 then
          x (ix5 s ⟨4 * b.val + n.val / 576, by have := b.isLt; have := n.isLt; omega⟩ ⟨ch.val, h⟩
              ⟨(n.val % 576) / 24, by omega⟩ ⟨n.val % 24, Nat.mod_lt _ (by decide)⟩)
        else 0 := by
  unfold relay
  have hb := b.isLt
  have hs := s.isLt
  have hn := n.isLt
  have hg : n.val / 576 < 4 := by omega
  have hp : n.val % 576 < 576 := Nat.mod_lt _ (by decide)

  refine (shapeCast_apply _ _ (ix4 b s ch n) (ix5 b s ch (⟨n.val / 576, hg⟩ : Fin 4) (⟨n.val % 576, hp⟩ : Fin 576)) (by
    rw [Shape.rowMajor_val_five, Shape.rowMajor_val_four]
    show (((b.val * 32 + s.val) * 64 + ch.val) * 4 + n.val / 576) * 576 + n.val % 576 = ((b.val * 32 + s.val) * 64 + ch.val) * 2304 + n.val
    omega)).trans ?_

  refine (transpose_apply _ _ _ _ (ix5 b (⟨n.val / 576, hg⟩ : Fin 4) s ch (⟨n.val % 576, hp⟩ : Fin 576))
    (fun a => match a with | ⟨0, _⟩ => rfl | ⟨1, _⟩ => rfl | ⟨2, _⟩ => rfl | ⟨3, _⟩ => rfl | ⟨4, _⟩ => rfl)).trans ?_
  by_cases h : ch.val < 32
  · rw [dif_pos h]

    refine (pad_apply_of_inside _ _ _ _ _ _ _ _ (ix5 b (⟨n.val / 576, hg⟩ : Fin 4) s (⟨ch.val, h⟩ : Fin 32) (⟨n.val % 576, hp⟩ : Fin 576))
      (fun a => match a with
        | ⟨0, _⟩ => by show b.val = 0 + b.val * (0 + 1); omega
        | ⟨1, _⟩ => by show n.val / 576 = 0 + n.val / 576 * (0 + 1); omega
        | ⟨2, _⟩ => by show s.val = 0 + s.val * (0 + 1); omega
        | ⟨3, _⟩ => by show ch.val = 0 + ch.val * (0 + 1); omega
        | ⟨4, _⟩ => by show n.val % 576 = 0 + n.val % 576 * (0 + 1); omega)).trans ?_

    refine (shapeCast_apply _ _ _ (ix5 (⟨4 * b.val + n.val / 576, by omega⟩ : Fin 8) s (⟨ch.val, h⟩ : Fin 32)
        (⟨(n.val % 576) / 24, by omega⟩ : Fin 24) (⟨n.val % 24, Nat.mod_lt _ (by decide)⟩ : Fin 24)) (by
      rw [Shape.rowMajor_val_five, Shape.rowMajor_val_five]
      show ((((4 * b.val + n.val / 576) * 32 + s.val) * 32 + ch.val) * 24 + (n.val % 576) / 24) * 24 + n.val % 24
        = (((b.val * 4 + n.val / 576) * 32 + s.val) * 32 + ch.val) * 576 + n.val % 576
      omega)).trans ?_

    exact transpose_apply _ _ _ _ _
      (fun a => match a with | ⟨0, _⟩ => rfl | ⟨1, _⟩ => rfl | ⟨2, _⟩ => rfl | ⟨3, _⟩ => rfl | ⟨4, _⟩ => rfl)
  · rw [dif_neg h]

    refine (pad_apply_of_not_inside _ _ _ _ _ _ _ (ix5 b (⟨n.val / 576, hg⟩ : Fin 4) s ch (⟨n.val % 576, hp⟩ : Fin 576)) (3 : Fin 5) (by
      show ¬(0 ≤ ch.val ∧ (ch.val - 0) % (0 + 1) = 0 ∧ (ch.val - 0) / (0 + 1) < 32)
      omega)).trans ?_
    exact sitofp_zero (φ := .f32)

theorem relay_pad (t : ℕ) (ht : t < 64) (ch : Fin 64) (n : Fin 2304) :
    relay (A0 m c) (ix4 (⟨t / 32, by omega⟩ : Fin 2) (⟨t % 32, Nat.mod_lt _ (by decide)⟩ : Fin 32) ch n)
      = Spec.pad (Xp m c (t / 32) (t % 32)) ch n := by
  have hn := n.isLt
  rw [relay_apply]
  unfold Spec.pad
  by_cases h : ch.val < 32
  · rw [dif_pos h, dif_pos h]
    show A0 m c _ = A0 m c _
    refine congrArg _ ?_
    funext a; apply Fin.ext
    match a with
    | ⟨0, _⟩ => show t % 32 = t % 32 % 32; omega
    | ⟨1, _⟩ => show 4 * (t / 32) + n.val / 576 = (4 * (t / 32) + n.val / 576) % 8; omega
    | ⟨2, _⟩ => rfl
    | ⟨3, _⟩ => rfl
    | ⟨4, _⟩ => rfl
  · rw [dif_neg h, dif_neg h]

theorem emb1 (t : Fin cfg0.N) (ch : Fin 64) (n : Fin 2304) (h0 : t.val / 32 < 2) (h1 : t.val % 32 < 32) :
    ((cfg0.win 1).blk t).view.emb (ix4 (0 : Fin 1) (0 : Fin 1) ch n)
      = ix4 (⟨t.val / 32, h0⟩ : Fin 2) (⟨t.val % 32, h1⟩ : Fin 32) ch n := by
  obtain ⟨e0, e1, e2, e3⟩ := idx_facts1 t
  funext a; apply Fin.ext
  match a with
  | ⟨0, _⟩ => show win0_1.index t (0 : Fin 4) * 1 + 1 * 0 = t.val / 32; omega
  | ⟨1, _⟩ => show win0_1.index t (1 : Fin 4) * 1 + 1 * 0 = t.val % 32; omega
  | ⟨2, _⟩ => show win0_1.index t (2 : Fin 4) * 64 + 1 * ch.val = ch.val; omega
  | ⟨3, _⟩ => show win0_1.index t (3 : Fin 4) * 2304 + 1 * n.val = n.val; omega

theorem read1 (W : Valuation τ sig (Elt Ideal)) (t : Fin cfg0.N) (ch : Fin 64) (n : Fin 2304) (h0 : t.val / 32 < 2) (h1 : t.val % 32 < 32) :
    ((cfg0.win 1).blk t).view.read (Elt Ideal) (W (Proc.devRef .tc (Pipeline.arrRef spec0 1))) (ix4 (0 : Fin 1) (0 : Fin 1) ch n)
      = (W (Proc.devRef .tc main_v192) : S2x32x64x2304.Idx → EReal)
          (ix4 (⟨t.val / 32, h0⟩ : Fin 2) (⟨t.val % 32, h1⟩ : Fin 32) ch n) := by
  show (W (Proc.devRef .tc main_v192) : S2x32x64x2304.Idx → EReal) (((cfg0.win 1).blk t).view.emb (ix4 (0 : Fin 1) (0 : Fin 1) ch n)) = _
  rw [emb1 t ch n h0 h1]

theorem blk1_apply (t : Fin cfg0.N) (ch : Fin 64) (n : Fin 2304) (h0 : t.val / 32 < 2) (h1 : t.val % 32 < 32) :
    blk1 m c t (ix4 (0 : Fin 1) (0 : Fin 1) ch n)
      = (V m c main_v192 : S2x32x64x2304.Idx → EReal) (ix4 (⟨t.val / 32, h0⟩ : Fin 2) (⟨t.val % 32, h1⟩ : Fin 32) ch n) :=
  read1 (V0 m c) t ch n h0 h1

theorem xin_field (t : Fin cfg0.N) (ch : Fin 64) (n : Fin 2304) :
    blk1 m c t (ix4 (0 : Fin 1) (0 : Fin 1) ch n) = Spec.pad (Xp m c (t.val / 32) (t.val % 32)) ch n :=
  have ht : t.val < 64 := lt_of_lt_of_eq t.isLt N64
  (blk1_apply m c t ch n (by omega) (Nat.mod_lt _ (by decide))).trans
    ((congrFun (xb_eq m c) _).trans (relay_pad m c t.val ht ch n))

theorem hostIn : HostIn m c := fun t =>
  { mask := mask_field m c t
    xin := xin_field m c t
    w1 := w1_field m c t
    w2 := w2_field m c t }

end Cert.ReferenceIdeal.Par

end
-- ==== Proof.RI.Pay0.lean ====
import proofs.«130420_g2000206920649175_pallasbulk_1279_2_alg».proof.Proof.Gen.ReferenceIdeal.Skeleton
import proofs.«130420_g2000206920649175_pallasbulk_1279_2_alg».proof.Proof.Spec
import proofs.«130420_g2000206920649175_pallasbulk_1279_2_alg».proof.Proof.LibPlainProduct
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

noncomputable section

namespace Cert.ReferenceIdeal.Pay0

open scoped BigOperators
open Idealize.ShloMosaic Idealize.ShloMosaic.ValueIdx Idealize.SL.Sem Cert.ReferenceIdeal.Gen

theorem rot_apply (sb : BitVec 32) (x : FVec Ideal S64x2304 .f32) (h : S64x2304.Rotates 1 none) (r : Fin 64) (n : Fin 2304) :
    dynamicRotate 1 sb none x h (ix2 r n) = Cert.Spec.rot sb.toNat (fun n' => x (ix2 r n')) n := by
  refine (dynamicRotate_apply (1 : Fin 2) sb x h (ix2 r n)
    (ix2 r (⟨(n.val + 2304 - sb.toNat % 2304) % 2304, Nat.mod_lt _ (by decide)⟩ : Fin 2304)) (fun b => ?_)).trans rfl
  match b with
  | ⟨0, _⟩ => rfl
  | ⟨1, _⟩ => rfl

theorem rot_amt4 (v : Cert.Spec.Row) (n : Fin 2304) : Cert.Spec.rot (Cert.Spec.amt 4) v n = v n := by
  show v ⟨(n.val + 2304 - 0 % 2304) % 2304, _⟩ = v n
  refine congrArg v (Fin.ext ?_)
  show (n.val + 2304 - 0 % 2304) % 2304 = n.val
  have := n.isLt
  omega

theorem castSelf_apply {s : Shape} (x : FVec Ideal s .f32) (h : s.ShapeCasts s) (i : s.Idx) : shapeCast s x h i = x i :=
  congrFun (shapeCast_self x h) i

theorem maskRow_apply (m : FVec Ideal S1x2304 .f32) (h1 : S1x2304.ShapeCasts S1x2304) (h2 : S1x2304.Broadcasts S64x2304) (r : Fin 64) (n : Fin 2304) :
    broadcastTo S64x2304 (shapeCast S1x2304 m h1) h2 (ix2 r n) = m (ix2 (0 : Fin 1) n) := by
  rw [shapeCast_self]
  exact broadcastTo_1b_ab_apply m h2 r n

theorem mask_apply (x : FVec Ideal S64x2304 .f32) (m : FVec Ideal S1x2304 .f32) (h1 : S1x2304.ShapeCasts S1x2304) (h2 : S1x2304.Broadcasts S64x2304) (h3 : S64x2304.ShapeCasts S64x2304) (r : Fin 64) (n : Fin 2304) :
    shapeCast S64x2304 (mulf x (broadcastTo S64x2304 (shapeCast S1x2304 m h1) h2)) h3 (ix2 r n)
      = x (ix2 r n) * m (ix2 (0 : Fin 1) n) := by
  rw [castSelf_apply, mulf_apply, maskRow_apply]

section
variable (sb : BitVec 32) (x : FVec Ideal S64x2304 .f32) (m : FVec Ideal S1x2304 .f32) (hr : S64x2304.Rotates 1 none) (h1 : S1x2304.ShapeCasts S1x2304) (h2 : S1x2304.Broadcasts S64x2304)
include sb x m hr h1 h2

theorem rotMask0_apply (r : Fin 64) (n : Fin 2304) :
    mulf (dynamicRotate 1 sb none x hr) (broadcastTo S64x2304 (shapeCast S1x2304 m h1) h2) (ix2 r n)
      = Cert.Spec.rot sb.toNat (fun n' => x (ix2 r n')) n * m (ix2 (0 : Fin 1) n) := by
  rw [mulf_apply, rot_apply, maskRow_apply]

theorem rotMask_apply (h3 : S64x2304.ShapeCasts S64x2304) (r : Fin 64) (n : Fin 2304) :
    shapeCast S64x2304 (mulf (dynamicRotate 1 sb none x hr) (broadcastTo S64x2304 (shapeCast S1x2304 m h1) h2)) h3 (ix2 r n)
      = Cert.Spec.rot sb.toNat (fun n' => x (ix2 r n')) n * m (ix2 (0 : Fin 1) n) := by
  rw [castSelf_apply, rotMask0_apply]

end

theorem plain_apply {M K N : ℕ} (d : DotDims ⟨2, ![M, K]⟩ ⟨2, ![K, N]⟩ ⟨2, ![M, N]⟩) (hd : d = DotDims.plain M K N) (a : FVec Ideal ⟨2, ![M, K]⟩ .f32) (w : FVec Ideal ⟨2, ![K, N]⟩ .f32) (p : Fin M) (j : Fin N) :
    matmul d none a w (constant ⟨2, ![M, N]⟩ .f32 0x00000000#32) (ix2 p j) = ∑ k : Fin K, a (ix2 p k) * w (ix2 k j) := by
  subst hd
  exact Cert.LibPlainProduct.matmul_zero_plain_apply a w none p j

theorem inCast_apply (v3 : Vec Ideal S1x1x64x2304 .f32) (r : Fin 64) (n : Fin 2304) :
    k0_pay10 (F := Ideal) v3 (ix2 r n) = v3 (ix4 (0 : Fin 1) (0 : Fin 1) r n) := by
  unfold k0_pay10
  exact shapeCast_apply v3 _ (ix2 r n) (ix4 (0 : Fin 1) (0 : Fin 1) r n) (by
    rw [Shape.rowMajor_val_four, Shape.rowMajor_val_two]
    show ((0 * 1 + 0) * 64 + r.val) * 2304 + n.val = r.val * 2304 + n.val
    omega)

theorem stCast_apply (v5 : Vec Ideal S1x64x2304 .f32) (r : Fin 64) (n : Fin 2304) :
    k0_pay11 (F := Ideal) v5 (ix2 r n) = v5 (ix3 (0 : Fin 1) r n) :=
  shapeCast_1ab_ab_apply v5 _ r n

theorem tapIn_0_apply (v3 : Vec Ideal S1x1x64x2304 .f32) (v8 : Vec Ideal S1x2304 .f32) (r : Fin 64) (n : Fin 2304) :
    k0_pay12 (F := Ideal) v3 v8 (ix2 r n)
      = Cert.Spec.rot (Cert.Spec.amt 0) (fun n' => k0_pay10 (F := Ideal) v3 (ix2 r n')) n * v8 (ix2 (0 : Fin 1) n) :=
  rotMask_apply 25#32 (k0_pay10 (F := Ideal) v3) v8 _ _ _ _ r n

theorem tapIn_1_apply (v3 : Vec Ideal S1x1x64x2304 .f32) (v24 : Vec Ideal S1x2304 .f32) (r : Fin 64) (n : Fin 2304) :
    k0_pay14 (F := Ideal) v3 v24 (ix2 r n)
      = Cert.Spec.rot (Cert.Spec.amt 1) (fun n' => k0_pay10 (F := Ideal) v3 (ix2 r n')) n * v24 (ix2 (0 : Fin 1) n) :=
  rotMask_apply 24#32 (k0_pay10 (F := Ideal) v3) v24 _ _ _ _ r n

section
variable (x : FVec Ideal S64x2304 .f32) (m : Vec Ideal S1x2304 .f32) (r : Fin 64) (n : Fin 2304)

theorem tapIn_2_apply :
    k0_pay16 (F := Ideal) x m (ix2 r n)
      = Cert.Spec.rot (Cert.Spec.amt 2) (fun n' => x (ix2 r n')) n * m (ix2 (0 : Fin 1) n) :=
  rotMask_apply 23#32 x m _ _ _ _ r n

theorem tapIn_3_apply :
    k0_pay18 (F := Ideal) x m (ix2 r n)
      = Cert.Spec.rot (Cert.Spec.amt 3) (fun n' => x (ix2 r n')) n * m (ix2 (0 : Fin 1) n) :=
  rotMask_apply 1#32 x m _ _ _ _ r n

theorem tapIn_4_apply :
    k0_pay21 (F := Ideal) x m (ix2 r n)
      = Cert.Spec.rot (Cert.Spec.amt 4) (fun n' => x (ix2 r n')) n * m (ix2 (0 : Fin 1) n) := by
  unfold k0_pay21
  refine (mask_apply x m _ _ _ r n).trans ?_
  rw [rot_amt4]

theorem tapIn_5_apply :
    k0_pay23 (F := Ideal) x m (ix2 r n)
      = Cert.Spec.rot (Cert.Spec.amt 5) (fun n' => x (ix2 r n')) n * m (ix2 (0 : Fin 1) n) :=
  rotMask_apply 2303#32 x m _ _ _ _ r n

theorem tapIn_6_apply :
    k0_pay26 (F := Ideal) x m (ix2 r n)
      = Cert.Spec.rot (Cert.Spec.amt 6) (fun n' => x (ix2 r n')) n * m (ix2 (0 : Fin 1) n) :=
  rotMask_apply 2281#32 x m _ _ _ _ r n

theorem tapIn_7_apply :
    k0_pay28 (F := Ideal) x m (ix2 r n)
      = Cert.Spec.rot (Cert.Spec.amt 7) (fun n' => x (ix2 r n')) n * m (ix2 (0 : Fin 1) n) :=
  rotMask_apply 2280#32 x m _ _ _ _ r n

end

theorem tapIn_8_apply (v4 : FVec Ideal S64x2304 .f32) (c2279_i32 : BitVec 32) (hc : c2279_i32 = 2279#32) (v134 : Vec Ideal S1x2304 .f32) (r : Fin 64) (n : Fin 2304) :
    k0_pay30 (F := Ideal) v4 c2279_i32 v134 (ix2 r n)
      = Cert.Spec.rot (Cert.Spec.amt 8) (fun n' => v4 (ix2 r n')) n * v134 (ix2 (0 : Fin 1) n) := by
  subst hc
  unfold k0_pay30
  exact rotMask_apply 2279#32 v4 v134 _ _ _ _ r n

theorem tapSt_0_apply (v5 : Vec Ideal S1x64x2304 .f32) (v16 : Vec Ideal S1x2304 .f32) (r : Fin 64) (n : Fin 2304) :
    k0_pay13 (F := Ideal) v5 v16 (ix2 r n)
      = Cert.Spec.rot (Cert.Spec.amt 0) (fun n' => k0_pay11 (F := Ideal) v5 (ix2 r n')) n * v16 (ix2 (0 : Fin 1) n) :=
  rotMask_apply 25#32 (k0_pay11 (F := Ideal) v5) v16 _ _ _ _ r n

section
variable (x : FVec Ideal S64x2304 .f32) (m : Vec Ideal S1x2304 .f32) (r : Fin 64) (n : Fin 2304)

theorem tapSt_1_apply :
    k0_pay15 (F := Ideal) x m (ix2 r n)
      = Cert.Spec.rot (Cert.Spec.amt 1) (fun n' => x (ix2 r n')) n * m (ix2 (0 : Fin 1) n) :=
  rotMask_apply 24#32 x m _ _ _ _ r n

theorem tapSt_2_apply :
    k0_pay17 (F := Ideal) x m (ix2 r n)
      = Cert.Spec.rot (Cert.Spec.amt 2) (fun n' => x (ix2 r n')) n * m (ix2 (0 : Fin 1) n) :=
  rotMask_apply 23#32 x m _ _ _ _ r n

end

theorem tapSt_3_rot_apply (v6 : FVec Ideal S64x2304 .f32) (r : Fin 64) (n : Fin 2304) :
    k0_pay19 (F := Ideal) v6 (ix2 r n) = Cert.Spec.rot (Cert.Spec.amt 3) (fun n' => v6 (ix2 r n')) n := by
  unfold k0_pay19
  exact rot_apply 1#32 v6 _ r n

section
variable (x : FVec Ideal S64x2304 .f32) (m : Vec Ideal S1x2304 .f32) (r : Fin 64) (n : Fin 2304)

theorem tapSt_3_mask_apply :
    k0_pay20 (F := Ideal) x m (ix2 r n) = x (ix2 r n) * m (ix2 (0 : Fin 1) n) :=
  mask_apply x m _ _ _ r n

theorem tapSt_3_apply :
    k0_pay20 (F := Ideal) (k0_pay19 (F := Ideal) x) m (ix2 r n)
      = Cert.Spec.rot (Cert.Spec.amt 3) (fun n' => x (ix2 r n')) n * m (ix2 (0 : Fin 1) n) := by
  rw [tapSt_3_mask_apply, tapSt_3_rot_apply]

theorem tapSt_4_apply :
    k0_pay22 (F := Ideal) x m (ix2 r n)
      = Cert.Spec.rot (Cert.Spec.amt 4) (fun n' => x (ix2 r n')) n * m (ix2 (0 : Fin 1) n) := by
  unfold k0_pay22
  refine (mask_apply x m _ _ _ r n).trans ?_
  rw [rot_amt4]

theorem tapSt_5_apply :
    k0_pay24 (F := Ideal) x m (ix2 r n)
      = Cert.Spec.rot (Cert.Spec.amt 5) (fun n' => x (ix2 r n')) n * m (ix2 (0 : Fin 1) n) :=
  rotMask0_apply 2303#32 x m _ _ _ r n

end

theorem tapSt_5_store_apply (v97 : FVec Ideal S64x2304 .f32) (i : S64x2304.Idx) : k0_pay25 (F := Ideal) v97 i = v97 i := by
  unfold k0_pay25
  exact castSelf_apply v97 _ i

section
variable (x : FVec Ideal S64x2304 .f32) (m : Vec Ideal S1x2304 .f32) (r : Fin 64) (n : Fin 2304)

theorem tapSt_6_apply :
    k0_pay27 (F := Ideal) x m (ix2 r n)
      = Cert.Spec.rot (Cert.Spec.amt 6) (fun n' => x (ix2 r n')) n * m (ix2 (0 : Fin 1) n) :=
  rotMask_apply 2281#32 x m _ _ _ _ r n

theorem tapSt_7_apply :
    k0_pay29 (F := Ideal) x m (ix2 r n)
      = Cert.Spec.rot (Cert.Spec.amt 7) (fun n' => x (ix2 r n')) n * m (ix2 (0 : Fin 1) n) :=
  rotMask_apply 2280#32 x m _ _ _ _ r n

theorem tapSt_8_apply :
    k0_pay31 (F := Ideal) x m (ix2 r n)
      = Cert.Spec.rot (Cert.Spec.amt 8) (fun n' => x (ix2 r n')) n * m (ix2 (0 : Fin 1) n) :=
  rotMask_apply 2279#32 x m _ _ _ _ r n

end

theorem dot192_eq : dot_S192x1160_S1160x2304_S192x2304_1_0_0_1_n_n = DotDims.plain 192 1160 2304 := rfl

theorem dot64_eq : dot_S64x576_S576x2304_S64x2304_1_0_0_1_n_n = DotDims.plain 64 576 2304 := rfl

theorem gates_apply (v149 : Vec Ideal S1x192x1160 .f32) (v151 : Vec Ideal S1160x2304 .f32) (o : Fin 192) (n : Fin 2304) :
    k0_pay32 (F := Ideal) v149 v151 (ix2 o n) = ∑ k : Fin 1160, v149 (ix3 (0 : Fin 1) o k) * v151 (ix2 k n) := by
  unfold k0_pay32
  refine (plain_apply _ dot192_eq _ v151 o n).trans ?_
  exact Finset.sum_congr rfl fun k _ => congrArg (· * v151 (ix2 k n)) (shapeCast_1ab_ab_apply v149 _ o k)

theorem upd_apply (v149 : Vec Ideal S1x192x1160 .f32) (v151 : Vec Ideal S1160x2304 .f32) (c : Fin 64) (n : Fin 2304) :
    k0_pay33 (F := Ideal) v149 v151 (ix2 c n)
      = Ideal.logistic (k0_pay32 (F := Ideal) v149 v151 (ix2 (⟨64 + c.val, by omega⟩ : Fin 192) n)) := by
  unfold k0_pay33
  exact congrArg Ideal.logistic
    (slice2_axis0_apply 64 (k0_pay32 (F := Ideal) v149 v151) _ c n (⟨64 + c.val, by omega⟩ : Fin 192) rfl)

theorem candIn_apply (v149 : Vec Ideal S1x192x1160 .f32) (v151 : Vec Ideal S1160x2304 .f32) (c : Fin 64) (n : Fin 2304) :
    k0_pay34 (F := Ideal) v149 v151 (ix2 c n)
      = k0_pay32 (F := Ideal) v149 v151 (ix2 (⟨128 + c.val, by omega⟩ : Fin 192) n) := by
  unfold k0_pay34
  exact slice2_axis0_apply 128 (k0_pay32 (F := Ideal) v149 v151) _ c n (⟨128 + c.val, by omega⟩ : Fin 192) rfl

theorem gated_apply (v6 : FVec Ideal S64x2304 .f32) (v149 : Vec Ideal S1x192x1160 .f32) (v151 : Vec Ideal S1160x2304 .f32) (c : Fin 64) (n : Fin 2304) :
    k0_pay35 (F := Ideal) v6 v149 v151 (ix2 c n)
      = v6 (ix2 c n) * Ideal.logistic (k0_pay32 (F := Ideal) v149 v151 (ix2 (⟨c.val, by omega⟩ : Fin 192) n)) := by
  unfold k0_pay35
  exact congrArg (fun t => v6 (ix2 c n) * Ideal.logistic t)
    (slice2_axis0_apply 0 (k0_pay32 (F := Ideal) v149 v151) _ c n (⟨c.val, by omega⟩ : Fin 192) (Nat.zero_add _).symm)

theorem tapG_0_apply (v6 : FVec Ideal S64x2304 .f32) (v149 : Vec Ideal S1x192x1160 .f32) (v151 : Vec Ideal S1160x2304 .f32) (v160 : Vec Ideal S1x2304 .f32) (r : Fin 64) (n : Fin 2304) :
    k0_pay36 (F := Ideal) v6 v149 v151 v160 (ix2 r n)
      = Cert.Spec.rot (Cert.Spec.amt 0) (fun n' => k0_pay35 (F := Ideal) v6 v149 v151 (ix2 r n')) n * v160 (ix2 (0 : Fin 1) n) :=
  rotMask_apply 25#32 (k0_pay35 (F := Ideal) v6 v149 v151) v160 _ _ _ _ r n

theorem tapG_1_rot_apply (v6 : FVec Ideal S64x2304 .f32) (v149 : Vec Ideal S1x192x1160 .f32) (v151 : Vec Ideal S1160x2304 .f32) (r : Fin 64) (n : Fin 2304) :
    k0_pay37 (F := Ideal) v6 v149 v151 (ix2 r n) = Cert.Spec.rot (Cert.Spec.amt 1) (fun n' => k0_pay35 (F := Ideal) v6 v149 v151 (ix2 r n')) n := by
  unfold k0_pay37
  exact rot_apply 24#32 (k0_pay35 (F := Ideal) v6 v149 v151) _ r n

theorem tapG_1_mask_apply (v167 : FVec Ideal S64x2304 .f32) (v168 : Vec Ideal S1x2304 .f32) (r : Fin 64) (n : Fin 2304) :
    k0_pay38 (F := Ideal) v167 v168 (ix2 r n) = v167 (ix2 r n) * v168 (ix2 (0 : Fin 1) n) :=
  mask_apply v167 v168 _ _ _ r n

theorem tapG_1_apply (v6 : FVec Ideal S64x2304 .f32) (v149 : Vec Ideal S1x192x1160 .f32) (v151 : Vec Ideal S1160x2304 .f32) (v168 : Vec Ideal S1x2304 .f32) (r : Fin 64) (n : Fin 2304) :
    k0_pay38 (F := Ideal) (k0_pay37 (F := Ideal) v6 v149 v151) v168 (ix2 r n)
      = Cert.Spec.rot (Cert.Spec.amt 1) (fun n' => k0_pay35 (F := Ideal) v6 v149 v151 (ix2 r n')) n * v168 (ix2 (0 : Fin 1) n) := by
  rw [tapG_1_mask_apply, tapG_1_rot_apply]

section
variable (x : FVec Ideal S64x2304 .f32) (m : Vec Ideal S1x2304 .f32) (r : Fin 64) (n : Fin 2304)

theorem tapG_2_apply :
    k0_pay39 (F := Ideal) x m (ix2 r n)
      = Cert.Spec.rot (Cert.Spec.amt 2) (fun n' => x (ix2 r n')) n * m (ix2 (0 : Fin 1) n) :=
  rotMask_apply 23#32 x m _ _ _ _ r n

theorem tapG_3_apply :
    k0_pay40 (F := Ideal) x m (ix2 r n)
      = Cert.Spec.rot (Cert.Spec.amt 3) (fun n' => x (ix2 r n')) n * m (ix2 (0 : Fin 1) n) :=
  rotMask_apply 1#32 x m _ _ _ _ r n

theorem tapG_4_apply :
    k0_pay41 (F := Ideal) x m (ix2 r n)
      = Cert.Spec.rot (Cert.Spec.amt 4) (fun n' => x (ix2 r n')) n * m (ix2 (0 : Fin 1) n) := by
  unfold k0_pay41
  refine (mask_apply x m _ _ _ r n).trans ?_
  rw [rot_amt4]

theorem tapG_5_apply :
    k0_pay42 (F := Ideal) x m (ix2 r n)
      = Cert.Spec.rot (Cert.Spec.amt 5) (fun n' => x (ix2 r n')) n * m (ix2 (0 : Fin 1) n) :=
  rotMask0_apply 2303#32 x m _ _ _ r n

end

theorem tapG_5_store_apply (v202 : FVec Ideal S64x2304 .f32) (i : S64x2304.Idx) : k0_pay43 (F := Ideal) v202 i = v202 i := by
  unfold k0_pay43
  exact castSelf_apply v202 _ i

section
variable (x : FVec Ideal S64x2304 .f32) (m : Vec Ideal S1x2304 .f32) (r : Fin 64) (n : Fin 2304)

theorem tapG_6_apply :
    k0_pay44 (F := Ideal) x m (ix2 r n)
      = Cert.Spec.rot (Cert.Spec.amt 6) (fun n' => x (ix2 r n')) n * m (ix2 (0 : Fin 1) n) :=
  rotMask_apply 2281#32 x m _ _ _ _ r n

theorem tapG_7_apply :
    k0_pay45 (F := Ideal) x m (ix2 r n)
      = Cert.Spec.rot (Cert.Spec.amt 7) (fun n' => x (ix2 r n')) n * m (ix2 (0 : Fin 1) n) :=
  rotMask_apply 2280#32 x m _ _ _ _ r n

theorem tapG_8_apply :
    k0_pay46 (F := Ideal) x m (ix2 r n)
      = Cert.Spec.rot (Cert.Spec.amt 8) (fun n' => x (ix2 r n')) n * m (ix2 (0 : Fin 1) n) :=
  rotMask_apply 2279#32 x m _ _ _ _ r n

end

theorem cand_apply (v157 : FVec Ideal S64x2304 .f32) (v230 : Vec Ideal S1x64x576 .f32) (v232 : Vec Ideal S576x2304 .f32) (c : Fin 64) (n : Fin 2304) :
    k0_pay47 (F := Ideal) v157 v230 v232 (ix2 c n)
      = Ideal.tanh (v157 (ix2 c n) + ∑ k : Fin 576, v230 (ix3 (0 : Fin 1) c k) * v232 (ix2 k n)) := by
  unfold k0_pay47
  refine congrArg (fun t => Ideal.tanh (v157 (ix2 c n) + t)) ((plain_apply _ dot64_eq _ v232 c n).trans ?_)
  exact Finset.sum_congr rfl fun k _ => congrArg (· * v232 (ix2 k n)) (shapeCast_1ab_ab_apply v230 _ c k)

theorem newState_apply (v6 v156 v235 : FVec Ideal S64x2304 .f32) (cst_117 : Ideal .f32) (i : S64x2304.Idx) :
    k0_pay48 (F := Ideal) v6 v156 v235 cst_117 i = v6 i * (cst_117 - v156 i) + v235 i * v156 i := by
  unfold k0_pay48
  rfl

theorem newStateStore_apply (v6 v156 v235 : FVec Ideal S64x2304 .f32) (cst_117 : Ideal .f32) (u : Fin 1) (c : Fin 64) (n : Fin 2304) :
    k0_pay49 (F := Ideal) v6 v156 v235 cst_117 (ix3 u c n) = k0_pay48 (F := Ideal) v6 v156 v235 cst_117 (ix2 c n) :=
  shapeCast_ab_1ab_apply (k0_pay48 (F := Ideal) v6 v156 v235 cst_117) _ u c n

end Cert.ReferenceIdeal.Pay0

end
-- ==== Proof.RI.Pay1.lean ====
import proofs.«130420_g2000206920649175_pallasbulk_1279_2_alg».proof.Proof.RI.Pay0
import Idealize.ShloMosaic.Lib.IdealHost

noncomputable section

namespace Cert.ReferenceIdeal.Pay1

open scoped BigOperators
open Idealize.ShloMosaic Idealize.ShloMosaic.ValueIdx Idealize.SL.Sem Cert.ReferenceIdeal.Gen
open Cert.ReferenceIdeal.Pay0

theorem stCast_apply (v244 : Vec Ideal S1x64x2304 .f32) (r : Fin 64) (n : Fin 2304) :
    k0_pay50 (F := Ideal) v244 (ix2 r n) = v244 (ix3 (0 : Fin 1) r n) :=
  shapeCast_1ab_ab_apply v244 _ r n

theorem tapIn_0_apply (v6 v156 v235 : FVec Ideal S64x2304 .f32) (cst_117 : Ideal .f32) (v247 : Vec Ideal S1x2304 .f32) (r : Fin 64) (n : Fin 2304) :
    k0_pay51 (F := Ideal) v6 v156 v235 cst_117 v247 (ix2 r n)
      = Cert.Spec.rot (Cert.Spec.amt 0) (fun n' => k0_pay48 (F := Ideal) v6 v156 v235 cst_117 (ix2 r n')) n * v247 (ix2 (0 : Fin 1) n) :=
  rotMask_apply 25#32 (k0_pay48 (F := Ideal) v6 v156 v235 cst_117) v247 _ _ _ _ r n

theorem tapIn_1_apply (v6 v156 v235 : FVec Ideal S64x2304 .f32) (cst_117 : Ideal .f32) (v263 : Vec Ideal S1x2304 .f32) (r : Fin 64) (n : Fin 2304) :
    k0_pay53 (F := Ideal) v6 v156 v235 cst_117 v263 (ix2 r n)
      = Cert.Spec.rot (Cert.Spec.amt 1) (fun n' => k0_pay48 (F := Ideal) v6 v156 v235 cst_117 (ix2 r n')) n * v263 (ix2 (0 : Fin 1) n) :=
  rotMask_apply 24#32 (k0_pay48 (F := Ideal) v6 v156 v235 cst_117) v263 _ _ _ _ r n

section
variable (x : FVec Ideal S64x2304 .f32) (m : Vec Ideal S1x2304 .f32) (r : Fin 64) (n : Fin 2304)

theorem tapIn_2_apply :
    k0_pay55 (F := Ideal) x m (ix2 r n)
      = Cert.Spec.rot (Cert.Spec.amt 2) (fun n' => x (ix2 r n')) n * m (ix2 (0 : Fin 1) n) :=
  rotMask_apply 23#32 x m _ _ _ _ r n

theorem tapIn_3_apply :
    k0_pay57 (F := Ideal) x m (ix2 r n)
      = Cert.Spec.rot (Cert.Spec.amt 3) (fun n' => x (ix2 r n')) n * m (ix2 (0 : Fin 1) n) :=
  rotMask_apply 1#32 x m _ _ _ _ r n

theorem tapIn_4_apply :
    k0_pay60 (F := Ideal) x m (ix2 r n)
      = Cert.Spec.rot (Cert.Spec.amt 4) (fun n' => x (ix2 r n')) n * m (ix2 (0 : Fin 1) n) := by
  unfold k0_pay60
  refine (mask_apply x m _ _ _ r n).trans ?_
  rw [rot_amt4]

theorem tapIn_5_apply :
    k0_pay62 (F := Ideal) x m (ix2 r n)
      = Cert.Spec.rot (Cert.Spec.amt 5) (fun n' => x (ix2 r n')) n * m (ix2 (0 : Fin 1) n) :=
  rotMask_apply 2303#32 x m _ _ _ _ r n

theorem tapIn_6_apply :
    k0_pay64 (F := Ideal) x m (ix2 r n)
      = Cert.Spec.rot (Cert.Spec.amt 6) (fun n' => x (ix2 r n')) n * m (ix2 (0 : Fin 1) n) :=
  rotMask_apply 2281#32 x m _ _ _ _ r n

theorem tapIn_7_apply :
    k0_pay66 (F := Ideal) x m (ix2 r n)
      = Cert.Spec.rot (Cert.Spec.amt 7) (fun n' => x (ix2 r n')) n * m (ix2 (0 : Fin 1) n) :=
  rotMask_apply 2280#32 x m _ _ _ _ r n

end

theorem tapIn_8_rot_apply (v240 : FVec Ideal S64x2304 .f32) (r : Fin 64) (n : Fin 2304) :
    k0_pay68 (F := Ideal) v240 (ix2 r n) = Cert.Spec.rot (Cert.Spec.amt 8) (fun n' => v240 (ix2 r n')) n := by
  unfold k0_pay68
  exact rot_apply 2279#32 v240 _ r n

section
variable (x : FVec Ideal S64x2304 .f32) (m : Vec Ideal S1x2304 .f32) (r : Fin 64) (n : Fin 2304)

theorem tapIn_8_mask_apply :
    k0_pay69 (F := Ideal) x m (ix2 r n) = x (ix2 r n) * m (ix2 (0 : Fin 1) n) :=
  mask_apply x m _ _ _ r n

theorem tapIn_8_apply :
    k0_pay69 (F := Ideal) (k0_pay68 (F := Ideal) x) m (ix2 r n)
      = Cert.Spec.rot (Cert.Spec.amt 8) (fun n' => x (ix2 r n')) n * m (ix2 (0 : Fin 1) n) := by
  rw [tapIn_8_mask_apply, tapIn_8_rot_apply]

end

theorem tapSt_0_apply (v244 : Vec Ideal S1x64x2304 .f32) (v255 : Vec Ideal S1x2304 .f32) (r : Fin 64) (n : Fin 2304) :
    k0_pay52 (F := Ideal) v244 v255 (ix2 r n)
      = Cert.Spec.rot (Cert.Spec.amt 0) (fun n' => k0_pay50 (F := Ideal) v244 (ix2 r n')) n * v255 (ix2 (0 : Fin 1) n) :=
  rotMask_apply 25#32 (k0_pay50 (F := Ideal) v244) v255 _ _ _ _ r n

theorem tapSt_1_apply (v245 : FVec Ideal S64x2304 .f32) (c24_i32_139 : BitVec 32) (hc : c24_i32_139 = 24#32) (v271 : Vec Ideal S1x2304 .f32) (r : Fin 64) (n : Fin 2304) :
    k0_pay54 (F := Ideal) v245 c24_i32_139 v271 (ix2 r n)
      = Cert.Spec.rot (Cert.Spec.amt 1) (fun n' => v245 (ix2 r n')) n * v271 (ix2 (0 : Fin 1) n) := by
  subst hc
  unfold k0_pay54
  exact rotMask_apply 24#32 v245 v271 _ _ _ _ r n

theorem tapSt_2_apply (v245 : FVec Ideal S64x2304 .f32) (v287 : Vec Ideal S1x2304 .f32) (r : Fin 64) (n : Fin 2304) :
    k0_pay56 (F := Ideal) v245 v287 (ix2 r n)
      = Cert.Spec.rot (Cert.Spec.amt 2) (fun n' => v245 (ix2 r n')) n * v287 (ix2 (0 : Fin 1) n) :=
  rotMask_apply 23#32 v245 v287 _ _ _ _ r n

theorem tapSt_3_rot_apply (v245 : FVec Ideal S64x2304 .f32) (r : Fin 64) (n : Fin 2304) :
    k0_pay58 (F := Ideal) v245 (ix2 r n) = Cert.Spec.rot (Cert.Spec.amt 3) (fun n' => v245 (ix2 r n')) n := by
  unfold k0_pay58
  exact rot_apply 1#32 v245 _ r n

section
variable (x : FVec Ideal S64x2304 .f32) (m : Vec Ideal S1x2304 .f32) (r : Fin 64) (n : Fin 2304)

theorem tapSt_3_mask_apply :
    k0_pay59 (F := Ideal) x m (ix2 r n) = x (ix2 r n) * m (ix2 (0 : Fin 1) n) :=
  mask_apply x m _ _ _ r n

theorem tapSt_3_apply :
    k0_pay59 (F := Ideal) (k0_pay58 (F := Ideal) x) m (ix2 r n)
      = Cert.Spec.rot (Cert.Spec.amt 3) (fun n' => x (ix2 r n')) n * m (ix2 (0 : Fin 1) n) := by
  rw [tapSt_3_mask_apply, tapSt_3_rot_apply]

theorem tapSt_4_apply :
    k0_pay61 (F := Ideal) x m (ix2 r n)
      = Cert.Spec.rot (Cert.Spec.amt 4) (fun n' => x (ix2 r n')) n * m (ix2 (0 : Fin 1) n) := by
  unfold k0_pay61
  refine (mask_apply x m _ _ _ r n).trans ?_
  rw [rot_amt4]

theorem tapSt_5_apply :
    k0_pay63 (F := Ideal) x m (ix2 r n)
      = Cert.Spec.rot (Cert.Spec.amt 5) (fun n' => x (ix2 r n')) n * m (ix2 (0 : Fin 1) n) :=
  rotMask_apply 2303#32 x m _ _ _ _ r n

theorem tapSt_6_apply :
    k0_pay65 (F := Ideal) x m (ix2 r n)
      = Cert.Spec.rot (Cert.Spec.amt 6) (fun n' => x (ix2 r n')) n * m (ix2 (0 : Fin 1) n) :=
  rotMask_apply 2281#32 x m _ _ _ _ r n

theorem tapSt_7_apply :
    k0_pay67 (F := Ideal) x m (ix2 r n)
      = Cert.Spec.rot (Cert.Spec.amt 7) (fun n' => x (ix2 r n')) n * m (ix2 (0 : Fin 1) n) :=
  rotMask_apply 2280#32 x m _ _ _ _ r n

theorem tapSt_8_apply :
    k0_pay70 (F := Ideal) x m (ix2 r n)
      = Cert.Spec.rot (Cert.Spec.amt 8) (fun n' => x (ix2 r n')) n * m (ix2 (0 : Fin 1) n) :=
  rotMask_apply 2279#32 x m _ _ _ _ r n

end

theorem gates_apply (v388 : Vec Ideal S1x192x1160 .f32) (v390 : Vec Ideal S1160x2304 .f32) (o : Fin 192) (n : Fin 2304) :
    k0_pay71 (F := Ideal) v388 v390 (ix2 o n) = ∑ k : Fin 1160, v388 (ix3 (0 : Fin 1) o k) * v390 (ix2 k n) := by
  unfold k0_pay71
  refine (plain_apply _ dot192_eq _ v390 o n).trans ?_
  exact Finset.sum_congr rfl fun k _ => congrArg (· * v390 (ix2 k n)) (shapeCast_1ab_ab_apply v388 _ o k)

theorem upd_apply (v388 : Vec Ideal S1x192x1160 .f32) (v390 : Vec Ideal S1160x2304 .f32) (c : Fin 64) (n : Fin 2304) :
    k0_pay72 (F := Ideal) v388 v390 (ix2 c n)
      = Ideal.logistic (k0_pay71 (F := Ideal) v388 v390 (ix2 (⟨64 + c.val, by omega⟩ : Fin 192) n)) := by
  unfold k0_pay72
  exact congrArg Ideal.logistic
    (slice2_axis0_apply 64 (k0_pay71 (F := Ideal) v388 v390) _ c n (⟨64 + c.val, by omega⟩ : Fin 192) rfl)

theorem candIn_apply (v388 : Vec Ideal S1x192x1160 .f32) (v390 : Vec Ideal S1160x2304 .f32) (c : Fin 64) (n : Fin 2304) :
    k0_pay73 (F := Ideal) v388 v390 (ix2 c n)
      = k0_pay71 (F := Ideal) v388 v390 (ix2 (⟨128 + c.val, by omega⟩ : Fin 192) n) := by
  unfold k0_pay73
  exact slice2_axis0_apply 128 (k0_pay71 (F := Ideal) v388 v390) _ c n (⟨128 + c.val, by omega⟩ : Fin 192) rfl

theorem gated_apply (v245 : FVec Ideal S64x2304 .f32) (v388 : Vec Ideal S1x192x1160 .f32) (v390 : Vec Ideal S1160x2304 .f32) (c : Fin 64) (n : Fin 2304) :
    k0_pay74 (F := Ideal) v245 v388 v390 (ix2 c n)
      = v245 (ix2 c n) * Ideal.logistic (k0_pay71 (F := Ideal) v388 v390 (ix2 (⟨c.val, by omega⟩ : Fin 192) n)) := by
  unfold k0_pay74
  exact congrArg (fun t => v245 (ix2 c n) * Ideal.logistic t)
    (slice2_axis0_apply 0 (k0_pay71 (F := Ideal) v388 v390) _ c n (⟨c.val, by omega⟩ : Fin 192) (Nat.zero_add _).symm)

theorem tapG_0_apply (v245 : FVec Ideal S64x2304 .f32) (v388 : Vec Ideal S1x192x1160 .f32) (v390 : Vec Ideal S1160x2304 .f32) (v399 : Vec Ideal S1x2304 .f32) (r : Fin 64) (n : Fin 2304) :
    k0_pay75 (F := Ideal) v245 v388 v390 v399 (ix2 r n)
      = Cert.Spec.rot (Cert.Spec.amt 0) (fun n' => k0_pay74 (F := Ideal) v245 v388 v390 (ix2 r n')) n * v399 (ix2 (0 : Fin 1) n) :=
  rotMask_apply 25#32 (k0_pay74 (F := Ideal) v245 v388 v390) v399 _ _ _ _ r n

theorem tapG_1_rot_apply (v245 : FVec Ideal S64x2304 .f32) (v388 : Vec Ideal S1x192x1160 .f32) (v390 : Vec Ideal S1160x2304 .f32) (r : Fin 64) (n : Fin 2304) :
    k0_pay76 (F := Ideal) v245 v388 v390 (ix2 r n) = Cert.Spec.rot (Cert.Spec.amt 1) (fun n' => k0_pay74 (F := Ideal) v245 v388 v390 (ix2 r n')) n := by
  unfold k0_pay76
  exact rot_apply 24#32 (k0_pay74 (F := Ideal) v245 v388 v390) _ r n

theorem tapG_1_mask_apply (v406 : FVec Ideal S64x2304 .f32) (v407 : Vec Ideal S1x2304 .f32) (r : Fin 64) (n : Fin 2304) :
    k0_pay77 (F := Ideal) v406 v407 (ix2 r n) = v406 (ix2 r n) * v407 (ix2 (0 : Fin 1) n) :=
  mask_apply v406 v407 _ _ _ r n

theorem tapG_1_apply (v245 : FVec Ideal S64x2304 .f32) (v388 : Vec Ideal S1x192x1160 .f32) (v390 : Vec Ideal S1160x2304 .f32) (v407 : Vec Ideal S1x2304 .f32) (r : Fin 64) (n : Fin 2304) :
    k0_pay77 (F := Ideal) (k0_pay76 (F := Ideal) v245 v388 v390) v407 (ix2 r n)
      = Cert.Spec.rot (Cert.Spec.amt 1) (fun n' => k0_pay74 (F := Ideal) v245 v388 v390 (ix2 r n')) n * v407 (ix2 (0 : Fin 1) n) := by
  rw [tapG_1_mask_apply, tapG_1_rot_apply]

section
variable (x : FVec Ideal S64x2304 .f32) (m : Vec Ideal S1x2304 .f32) (r : Fin 64) (n : Fin 2304)

theorem tapG_2_apply :
    k0_pay78 (F := Ideal) x m (ix2 r n)
      = Cert.Spec.rot (Cert.Spec.amt 2) (fun n' => x (ix2 r n')) n * m (ix2 (0 : Fin 1) n) :=
  rotMask_apply 23#32 x m _ _ _ _ r n

theorem tapG_3_apply :
    k0_pay79 (F := Ideal) x m (ix2 r n)
      = Cert.Spec.rot (Cert.Spec.amt 3) (fun n' => x (ix2 r n')) n * m (ix2 (0 : Fin 1) n) :=
  rotMask_apply 1#32 x m _ _ _ _ r n

theorem tapG_4_apply :
    k0_pay80 (F := Ideal) x m (ix2 r n)
      = Cert.Spec.rot (Cert.Spec.amt 4) (fun n' => x (ix2 r n')) n * m (ix2 (0 : Fin 1) n) := by
  unfold k0_pay80
  refine (mask_apply x m _ _ _ r n).trans ?_
  rw [rot_amt4]

theorem tapG_5_apply :
    k0_pay81 (F := Ideal) x m (ix2 r n)
      = Cert.Spec.rot (Cert.Spec.amt 5) (fun n' => x (ix2 r n')) n * m (ix2 (0 : Fin 1) n) :=
  rotMask0_apply 2303#32 x m _ _ _ r n

end

theorem tapG_5_store_apply (v441 : FVec Ideal S64x2304 .f32) (i : S64x2304.Idx) : k0_pay82 (F := Ideal) v441 i = v441 i := by
  unfold k0_pay82
  exact castSelf_apply v441 _ i

section
variable (x : FVec Ideal S64x2304 .f32) (m : Vec Ideal S1x2304 .f32) (r : Fin 64) (n : Fin 2304)

theorem tapG_6_apply :
    k0_pay83 (F := Ideal) x m (ix2 r n)
      = Cert.Spec.rot (Cert.Spec.amt 6) (fun n' => x (ix2 r n')) n * m (ix2 (0 : Fin 1) n) :=
  rotMask_apply 2281#32 x m _ _ _ _ r n

theorem tapG_7_apply :
    k0_pay84 (F := Ideal) x m (ix2 r n)
      = Cert.Spec.rot (Cert.Spec.amt 7) (fun n' => x (ix2 r n')) n * m (ix2 (0 : Fin 1) n) :=
  rotMask_apply 2280#32 x m _ _ _ _ r n

theorem tapG_8_apply :
    k0_pay85 (F := Ideal) x m (ix2 r n)
      = Cert.Spec.rot (Cert.Spec.amt 8) (fun n' => x (ix2 r n')) n * m (ix2 (0 : Fin 1) n) :=
  rotMask_apply 2279#32 x m _ _ _ _ r n

end

theorem cand_apply (v396 : FVec Ideal S64x2304 .f32) (v469 : Vec Ideal S1x64x576 .f32) (v471 : Vec Ideal S576x2304 .f32) (c : Fin 64) (n : Fin 2304) :
    k0_pay86 (F := Ideal) v396 v469 v471 (ix2 c n)
      = Ideal.tanh (v396 (ix2 c n) + ∑ k : Fin 576, v469 (ix3 (0 : Fin 1) c k) * v471 (ix2 k n)) := by
  unfold k0_pay86
  refine congrArg (fun t => Ideal.tanh (v396 (ix2 c n) + t)) ((plain_apply _ dot64_eq _ v471 c n).trans ?_)
  exact Finset.sum_congr rfl fun k _ => congrArg (· * v471 (ix2 k n)) (shapeCast_1ab_ab_apply v469 _ c k)

theorem oneMinus_apply (v395 : FVec Ideal S64x2304 .f32) (i : S64x2304.Idx) :
    k0_pay87 (F := Ideal) v395 i = 1 - v395 i := by
  unfold k0_pay87
  show Ideal.ofBits .f32 0x3F800000#32 - v395 i = _
  rw [Ideal.ofBits_one_f32]

theorem cst_one : (Scalar.ofBits .f32 0x3F800000#32 : Ideal .f32) = 1 := by
  show Ideal.ofBits .f32 0x3F800000#32 = 1
  exact Ideal.ofBits_one_f32

theorem newState_apply (v245 v395 v474 v476 : FVec Ideal S64x2304 .f32) (i : S64x2304.Idx) :
    k0_pay1 (F := Ideal) v245 v395 v474 v476 i = v245 i * v476 i + v474 i * v395 i := by
  unfold k0_pay1
  rfl

theorem newStateStore_apply (v245 v395 v474 v476 : FVec Ideal S64x2304 .f32) (u : Fin 1) (c : Fin 64) (n : Fin 2304) :
    k0_pay2 (F := Ideal) v245 v395 v474 v476 (ix3 u c n) = k0_pay1 (F := Ideal) v245 v395 v474 v476 (ix2 c n) :=
  shapeCast_ab_1ab_apply (k0_pay1 (F := Ideal) v245 v395 v474 v476) _ u c n

theorem cast_ab_11ab_apply {a b : ℕ} (x : FVec Ideal ⟨2, ![a, b]⟩ .f32) (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

theorem newStateOut_apply (v245 v395 v474 v476 : FVec Ideal S64x2304 .f32) (u u' : Fin 1) (c : Fin 64) (n : Fin 2304) :
    k0_pay3 (F := Ideal) v245 v395 v474 v476 (ix4 u u' c n) = k0_pay1 (F := Ideal) v245 v395 v474 v476 (ix2 c n) :=
  cast_ab_11ab_apply (k0_pay1 (F := Ideal) v245 v395 v474 v476) _ u u' c n

theorem last0_apply (v489 : Vec Ideal S1x64x2304 .f32) (u u' : Fin 1) (c : Fin 64) (n : Fin 2304) :
    k0_pay4 (F := Ideal) v489 (ix4 u u' c n) = v489 (ix3 (0 : Fin 1) c n) := by
  unfold k0_pay4
  refine (cast_ab_11ab_apply _ _ u u' c n).trans ?_
  exact shapeCast_1ab_ab_apply v489 _ c n

theorem last1_apply (v494 : Vec Ideal S1x64x2304 .f32) (u u' : Fin 1) (c : Fin 64) (n : Fin 2304) :
    k0_pay5 (F := Ideal) v494 (ix4 u u' c n) = v494 (ix3 (0 : Fin 1) c n) := by
  unfold k0_pay5
  refine (cast_ab_11ab_apply _ _ u u' c n).trans ?_
  exact shapeCast_1ab_ab_apply v494 _ c n

theorem zeroState_apply (j : S2x64x2304.Idx) : k0_pay6 (F := Ideal) j = 0 := by
  unfold k0_pay6
  show shapeCast S2x64x2304 (broadcast S2x64x2304 (Ideal.ofBits .f32 0x00000000#32)) _ j = 0
  rw [shapeCast_self, broadcast_apply, Ideal.ofBits_zero_f32]

theorem zeroPatch1_apply (j : S1160x2304.Idx) : k0_pay7 (F := Ideal) j = 0 := by
  unfold k0_pay7
  show shapeCast S1160x2304 (broadcast S1160x2304 (Ideal.ofBits .f32 0x00000000#32)) _ j = 0
  rw [shapeCast_self, broadcast_apply, Ideal.ofBits_zero_f32]

theorem zeroPatch2_apply (j : S576x2304.Idx) : k0_pay8 (F := Ideal) j = 0 := by
  unfold k0_pay8
  show shapeCast S576x2304 (broadcast S576x2304 (Ideal.ofBits .f32 0x00000000#32)) _ j = 0
  rw [shapeCast_self, broadcast_apply, Ideal.ofBits_zero_f32]

theorem onesRow_apply (j : S1x2304.Idx) : k0_pay9 (F := Ideal) j = 1 := by
  unfold k0_pay9
  show shapeCast S1x2304 (broadcast S1x2304 (Ideal.ofBits .f32 0x3F800000#32)) _ j = 1
  rw [shapeCast_self, broadcast_apply, Ideal.ofBits_one_f32]

end Cert.ReferenceIdeal.Pay1

end
-- ==== Proof.SpecAlgebra.lean ====
import proofs.«130420_g2000206920649175_pallasbulk_1279_2_alg».proof.Proof.Spec
import Mathlib.Data.EReal.Operations
import Mathlib.Algebra.BigOperators.Fin
import Mathlib.Tactic.Ring

noncomputable section

namespace Cert.Spec

open scoped BigOperators
open Idealize.ShloMosaic

theorem logistic_real (x : EReal) : ∃ r : ℝ, Ideal.logistic x = (r : EReal) := by
  induction x using EReal.rec with
  | bot => exact ⟨0, by rw [Ideal.logistic_bot, EReal.coe_zero]⟩
  | coe r => exact ⟨_, Ideal.logistic_coe r⟩
  | top => exact ⟨1, by rw [Ideal.logistic_top, EReal.coe_one]⟩

theorem tanh_real (x : EReal) : ∃ r : ℝ, Ideal.tanh x = (r : EReal) := by
  induction x using EReal.rec with
  | bot => exact ⟨-1, by rw [Ideal.tanh_bot, EReal.coe_neg, EReal.coe_one]⟩
  | coe r => exact ⟨_, Ideal.tanh_coe r⟩
  | top => exact ⟨1, by rw [Ideal.tanh_top, EReal.coe_one]⟩

theorem update_forms (h u o : ℝ) :
    (h : EReal) * (1 - (u : EReal)) + (o : EReal) * (u : EReal) = (h : EReal) + (u : EReal) * ((o : EReal) - (h : EReal)) := by
  rw [← EReal.coe_one, ← EReal.coe_sub, ← EReal.coe_mul, ← EReal.coe_mul, ← EReal.coe_add, ← EReal.coe_sub,
    ← EReal.coe_mul, ← EReal.coe_add]
  congr 1; ring

theorem update_forms' (h u o : EReal) (hh : ∃ r : ℝ, h = r) (hu : ∃ r : ℝ, u = r) (ho : ∃ r : ℝ, o = r) :
    h * (1 - u) + o * u = h + u * (o - h) := by
  obtain ⟨h', rfl⟩ := hh; obtain ⟨u', rfl⟩ := hu; obtain ⟨o', rfl⟩ := ho
  exact update_forms h' u' o'

theorem upd_real (W M xin h) (c : Fin 64) (n : Fin 2304) : ∃ r : ℝ, upd W M xin h c n = (r : EReal) :=
  logistic_real _

theorem cand_real (W W2 M xin h) (c : Fin 64) (n : Fin 2304) : ∃ r : ℝ, cand W W2 M xin h c n = (r : EReal) :=
  tanh_real _

section
variable (W : Fin 192 → Fin 1160 → EReal) (W2 : Fin 64 → Fin 576 → EReal) (M : Fin 9 → Row) (xin h : Fin 64 → Row) (hh : ∀ c n, ∃ r : ℝ, h c n = (r : EReal)) (c : Fin 64) (n : Fin 2304)
include W W2 M xin h hh c n

theorem next_real  :
    ∃ r : ℝ, next W W2 M xin h c n = (r : EReal) := by
  obtain ⟨a, ha⟩ := hh c n
  obtain ⟨u, hu⟩ := upd_real W M xin h c n
  obtain ⟨o, ho⟩ := cand_real W W2 M xin h c n
  refine ⟨a + u * (o - a), ?_⟩
  show h c n + upd W M xin h c n * (cand W W2 M xin h c n - h c n) = _
  rw [ha, hu, ho, EReal.coe_add, EReal.coe_mul, EReal.coe_sub]

theorem next_alt  :
    h c n * (1 - upd W M xin h c n) + cand W W2 M xin h c n * upd W M xin h c n = next W W2 M xin h c n :=
  update_forms' _ _ _ (hh c n) (upd_real W M xin h c n) (cand_real W W2 M xin h c n)

end

theorem rot_zero (a : ℕ) : rot a (fun _ => (0 : EReal)) = fun _ => 0 := rfl

theorem tap_zero (M : Fin 9 → Row) (i : Fin 9) (n : Fin 2304) : tap M i (fun _ => 0) n = 0 := by
  show (0 : EReal) * M i n = 0
  exact zero_mul _

theorem sum_split (F : Fin 64 → EReal) :
    ∑ c : Fin 64, F c = ∑ c : Fin 32, F ⟨c.val, by omega⟩ + ∑ c : Fin 32, F ⟨32 + c.val, by omega⟩ :=
  Fin.sum_univ_add (a := 32) (b := 32) (fun c : Fin (32 + 32) => F c)

theorem pad_lo (x : Fin 32 → Row) (c : Fin 32) : pad x ⟨c.val, by omega⟩ = x c := by
  show (if h : c.val < 32 then x ⟨c.val, h⟩ else fun _ => 0) = x c
  rw [dif_pos c.isLt]

theorem pad_hi (x : Fin 32 → Row) (c : Fin 32) : pad x ⟨32 + c.val, by omega⟩ = fun _ => 0 := by
  show (if h : 32 + c.val < 32 then x ⟨32 + c.val, h⟩ else fun _ => 0) = fun _ => 0
  rw [dif_neg (by omega)]

theorem sum_pad (g : Fin 64 → EReal) (M : Fin 9 → Row) (i : Fin 9) (n : Fin 2304) (x : Fin 32 → Row) :
    ∑ c : Fin 64, g c * tap M i (pad x c) n = ∑ c : Fin 32, g ⟨c.val, by omega⟩ * tap M i (x c) n := by
  rw [sum_split (fun c => g c * tap M i (pad x c) n)]
  have hhi : ∑ c : Fin 32, g ⟨32 + c.val, by omega⟩ * tap M i (pad x ⟨32 + c.val, by omega⟩) n = 0 := by
    refine Finset.sum_eq_zero (fun c _ => ?_)
    rw [pad_hi, tap_zero, mul_zero]
  rw [hhi, add_zero]
  refine Finset.sum_congr rfl (fun c _ => ?_)
  rw [pad_lo]

theorem amt_four : amt 4 = 0 := rfl

theorem rot_amt4 (v : Row) : rot (amt 4) v = v := by
  rw [amt_four]; funext n
  show v ⟨(n.val + 2304 - 0 % 2304) % 2304, _⟩ = v n
  congr 1; apply Fin.ext
  show (n.val + 2304 - 0 % 2304) % 2304 = n.val
  have := n.isLt; omega

end Cert.Spec

end
-- ==== Proof.RI.Layer.lean ====
import proofs.«130420_g2000206920649175_pallasbulk_1279_2_alg».proof.Proof.RI.Pay1
import proofs.«130420_g2000206920649175_pallasbulk_1279_2_alg».proof.Proof.SpecAlgebra
import proofs.«130420_g2000206920649175_pallasbulk_1279_2_alg».proof.Proof.SpecLayout

noncomputable section

namespace Cert.ReferenceIdeal.Layer

open scoped BigOperators
open Idealize.ShloMosaic Idealize.ShloMosaic.ValueIdx Idealize.SL.Sem Cert.ReferenceIdeal.Gen
open Cert.Spec

structure Patch1 (M : Fin 9 → Row) (xin h : Fin 64 → Row) (P : S1160x2304.Idx → EReal) : Prop where
  x : ∀ (i : Fin 9) (c : Fin 64) (n : Fin 2304), P (ix2 (⟨128 * i.val + c.val, by omega⟩ : Fin 1160) n) = tap M i (xin c) n
  s : ∀ (i : Fin 9) (c : Fin 64) (n : Fin 2304), P (ix2 (⟨128 * i.val + 64 + c.val, by omega⟩ : Fin 1160) n) = tap M i (h c) n
  one : ∀ n : Fin 2304, P (ix2 (⟨1152, by decide⟩ : Fin 1160) n) = 1
  zero : ∀ k : Fin 1160, 1153 ≤ k.val → ∀ n : Fin 2304, P (ix2 k n) = 0

structure Patch2 (M : Fin 9 → Row) (g : Fin 64 → Row) (Q : S576x2304.Idx → EReal) : Prop where
  g : ∀ (i : Fin 9) (c : Fin 64) (n : Fin 2304), Q (ix2 (⟨64 * i.val + c.val, by omega⟩ : Fin 576) n) = tap M i (g c) n

theorem sum_acc (W : Fin 192 → Fin 1160 → EReal) (M : Fin 9 → Row) (xin h : Fin 64 → Row) (w : Fin 1160 → EReal) (P : S1160x2304.Idx → EReal) (o : Fin 192) (n : Fin 2304) (hw : ∀ k, w k = W o k) (hP : Patch1 M xin h P) :
    ∑ k : Fin 1160, w k * P (ix2 k n) = acc W M xin h o n := by
  refine (Finset.sum_congr rfl fun k _ => ?_).trans
    (layoutR (fun k => if hk : k < 1160 then w ⟨k, hk⟩ else 0) (fun k => if hk : k < 1160 then P (ix2 ⟨k, hk⟩ n) else 0)
      W M xin h o n ?_ ?_ ?_ ?_ ?_)
  · show w k * P (ix2 k n) = (if hk : k.val < 1160 then w ⟨k.val, hk⟩ else 0) * (if hk : k.val < 1160 then P (ix2 ⟨k.val, hk⟩ n) else 0)
    rw [dif_pos k.isLt, dif_pos k.isLt]
  · intro k hk
    show (if hk : k < 1160 then w ⟨k, hk⟩ else 0) = _
    rw [dif_pos hk]; exact hw _
  · intro i c
    show (if hk : 128 * i.val + c.val < 1160 then P (ix2 ⟨128 * i.val + c.val, hk⟩ n) else 0) = _
    rw [dif_pos (show 128 * i.val + c.val < 1160 by omega)]; exact hP.x i c n
  · intro i c
    show (if hk : 128 * i.val + 64 + c.val < 1160 then P (ix2 ⟨128 * i.val + 64 + c.val, hk⟩ n) else 0) = _
    rw [dif_pos (show 128 * i.val + 64 + c.val < 1160 by omega)]; exact hP.s i c n
  · show (if hk : 1152 < 1160 then P (ix2 ⟨1152, hk⟩ n) else 0) = _
    rw [dif_pos (show 1152 < 1160 by decide)]; exact hP.one n
  · intro k hk1 hk2
    show (if hk : k < 1160 then P (ix2 ⟨k, hk⟩ n) else 0) = _
    rw [dif_pos hk2]; exact hP.zero ⟨k, hk2⟩ hk1 n

theorem sum_cand (W2 : Fin 64 → Fin 576 → EReal) (M : Fin 9 → Row) (g : Fin 64 → Row) (w : Fin 576 → EReal) (Q : S576x2304.Idx → EReal) (c : Fin 64) (n : Fin 2304) (hw : ∀ k, w k = W2 c k) (hQ : Patch2 M g Q) :
    ∑ k : Fin 576, w k * Q (ix2 k n) = ∑ i : Fin 9, ∑ c' : Fin 64, W2 c ⟨64 * i.val + c'.val, by omega⟩ * tap M i (g c') n := by
  refine (Finset.sum_congr rfl fun k _ => ?_).trans
    (layout2 (fun k => if hk : k < 576 then w ⟨k, hk⟩ else 0) (fun k => if hk : k < 576 then Q (ix2 ⟨k, hk⟩ n) else 0)
      W2 M g c n ?_ ?_)
  · show w k * Q (ix2 k n) = (if hk : k.val < 576 then w ⟨k.val, hk⟩ else 0) * (if hk : k.val < 576 then Q (ix2 ⟨k.val, hk⟩ n) else 0)
    rw [dif_pos k.isLt, dif_pos k.isLt]
  · intro k hk
    show (if hk : k < 576 then w ⟨k, hk⟩ else 0) = _
    rw [dif_pos hk]; exact hw _
  · intro i c'
    show (if hk : 64 * i.val + c'.val < 576 then Q (ix2 ⟨64 * i.val + c'.val, hk⟩ n) else 0) = _
    rw [dif_pos (show 64 * i.val + c'.val < 576 by omega)]; exact hQ.g i c' n

section L0

variable (W : Fin 192 → Fin 1160 → EReal) (W2 : Fin 64 → Fin 576 → EReal) (M : Fin 9 → Row) (xin h : Fin 64 → Row)
  (v6 : FVec Ideal S64x2304 .f32) (v149 : Vec Ideal S1x192x1160 .f32) (P : Vec Ideal S1160x2304 .f32)
  (v230 : Vec Ideal S1x64x576 .f32) (Q : Vec Ideal S576x2304 .f32) (cst : Ideal .f32)

theorem acc0 (hw : ∀ o k, v149 (ix3 (0 : Fin 1) o k) = W o k) (hP : Patch1 M xin h P) (o : Fin 192) (n : Fin 2304) :
    k0_pay32 (F := Ideal) v149 P (ix2 o n) = acc W M xin h o n :=
  (Pay0.gates_apply v149 P o n).trans (sum_acc W M xin h (fun k => v149 (ix3 (0 : Fin 1) o k)) P o n (hw o) hP)

theorem gated0 (hv : ∀ c n, v6 (ix2 c n) = h c n) (hw : ∀ o k, v149 (ix3 (0 : Fin 1) o k) = W o k) (hP : Patch1 M xin h P) (c : Fin 64) (n : Fin 2304) : k0_pay35 (F := Ideal) v6 v149 P (ix2 c n) = gated W M xin h c n := by
  refine (Pay0.gated_apply v6 v149 P c n).trans ?_
  rw [hv c n, acc0 W M xin h v149 P hw hP]
  rfl

theorem upd0 (hw : ∀ o k, v149 (ix3 (0 : Fin 1) o k) = W o k) (hP : Patch1 M xin h P) (c : Fin 64) (n : Fin 2304) :
    k0_pay33 (F := Ideal) v149 P (ix2 c n) = upd W M xin h c n := by
  refine (Pay0.upd_apply v149 P c n).trans ?_
  rw [acc0 W M xin h v149 P hw hP]
  rfl

theorem cand0 (hw : ∀ o k, v149 (ix3 (0 : Fin 1) o k) = W o k) (hw2 : ∀ c k, v230 (ix3 (0 : Fin 1) c k) = W2 c k) (hP : Patch1 M xin h P) (hQ : Patch2 M (gated W M xin h) Q) (c : Fin 64) (n : Fin 2304) :
    k0_pay47 (F := Ideal) (k0_pay34 (F := Ideal) v149 P) v230 Q (ix2 c n) = cand W W2 M xin h c n := by
  refine (Pay0.cand_apply (k0_pay34 (F := Ideal) v149 P) v230 Q c n).trans ?_
  rw [Pay0.candIn_apply v149 P c n, acc0 W M xin h v149 P hw hP,
    sum_cand W2 M (gated W M xin h) (fun k => v230 (ix3 (0 : Fin 1) c k)) Q c n (hw2 c) hQ]
  rfl

theorem next0 (hv : ∀ c n, v6 (ix2 c n) = h c n) (hw : ∀ o k, v149 (ix3 (0 : Fin 1) o k) = W o k) (hw2 : ∀ c k, v230 (ix3 (0 : Fin 1) c k) = W2 c k) (hP : Patch1 M xin h P) (hQ : Patch2 M (gated W M xin h) Q) (hc : cst = 1) (hfin : ∀ c n, ∃ r : ℝ, h c n = (r : EReal)) (c : Fin 64) (n : Fin 2304) :
    k0_pay48 (F := Ideal) v6 (k0_pay33 (F := Ideal) v149 P) (k0_pay47 (F := Ideal) (k0_pay34 (F := Ideal) v149 P) v230 Q) cst (ix2 c n)
      = next W W2 M xin h c n := by
  refine (Pay0.newState_apply v6 _ _ cst (ix2 c n)).trans ?_
  rw [hv c n, upd0 W M xin h v149 P hw hP c n, cand0 W W2 M xin h v149 P v230 Q hw hw2 hP hQ c n, hc]
  exact next_alt W W2 M xin h hfin c n

end L0

section L1

variable (W : Fin 192 → Fin 1160 → EReal) (W2 : Fin 64 → Fin 576 → EReal) (M : Fin 9 → Row) (xin h : Fin 64 → Row)
  (v245 : FVec Ideal S64x2304 .f32) (v388 : Vec Ideal S1x192x1160 .f32) (P : Vec Ideal S1160x2304 .f32)
  (v469 : Vec Ideal S1x64x576 .f32) (Q : Vec Ideal S576x2304 .f32)

theorem acc1 (hw : ∀ o k, v388 (ix3 (0 : Fin 1) o k) = W o k) (hP : Patch1 M xin h P) (o : Fin 192) (n : Fin 2304) :
    k0_pay71 (F := Ideal) v388 P (ix2 o n) = acc W M xin h o n :=
  (Pay1.gates_apply v388 P o n).trans (sum_acc W M xin h (fun k => v388 (ix3 (0 : Fin 1) o k)) P o n (hw o) hP)

theorem gated1 (hv : ∀ c n, v245 (ix2 c n) = h c n) (hw : ∀ o k, v388 (ix3 (0 : Fin 1) o k) = W o k) (hP : Patch1 M xin h P) (c : Fin 64) (n : Fin 2304) : k0_pay74 (F := Ideal) v245 v388 P (ix2 c n) = gated W M xin h c n := by
  refine (Pay1.gated_apply v245 v388 P c n).trans ?_
  rw [hv c n, acc1 W M xin h v388 P hw hP]
  rfl

theorem upd1 (hw : ∀ o k, v388 (ix3 (0 : Fin 1) o k) = W o k) (hP : Patch1 M xin h P) (c : Fin 64) (n : Fin 2304) :
    k0_pay72 (F := Ideal) v388 P (ix2 c n) = upd W M xin h c n := by
  refine (Pay1.upd_apply v388 P c n).trans ?_
  rw [acc1 W M xin h v388 P hw hP]
  rfl

theorem cand1 (hw : ∀ o k, v388 (ix3 (0 : Fin 1) o k) = W o k) (hw2 : ∀ c k, v469 (ix3 (0 : Fin 1) c k) = W2 c k) (hP : Patch1 M xin h P) (hQ : Patch2 M (gated W M xin h) Q) (c : Fin 64) (n : Fin 2304) :
    k0_pay86 (F := Ideal) (k0_pay73 (F := Ideal) v388 P) v469 Q (ix2 c n) = cand W W2 M xin h c n := by
  refine (Pay1.cand_apply (k0_pay73 (F := Ideal) v388 P) v469 Q c n).trans ?_
  rw [Pay1.candIn_apply v388 P c n, acc1 W M xin h v388 P hw hP,
    sum_cand W2 M (gated W M xin h) (fun k => v469 (ix3 (0 : Fin 1) c k)) Q c n (hw2 c) hQ]
  rfl

theorem next1 (hv : ∀ c n, v245 (ix2 c n) = h c n) (hw : ∀ o k, v388 (ix3 (0 : Fin 1) o k) = W o k) (hw2 : ∀ c k, v469 (ix3 (0 : Fin 1) c k) = W2 c k) (hP : Patch1 M xin h P) (hQ : Patch2 M (gated W M xin h) Q) (hfin : ∀ c n, ∃ r : ℝ, h c n = (r : EReal)) (c : Fin 64) (n : Fin 2304) :
    k0_pay1 (F := Ideal) v245 (k0_pay72 (F := Ideal) v388 P) (k0_pay86 (F := Ideal) (k0_pay73 (F := Ideal) v388 P) v469 Q)
        (k0_pay87 (F := Ideal) (k0_pay72 (F := Ideal) v388 P)) (ix2 c n)
      = next W W2 M xin h c n := by
  refine (Pay1.newState_apply v245 _ _ _ (ix2 c n)).trans ?_
  rw [Pay1.oneMinus_apply, hv c n, upd1 W M xin h v388 P hw hP c n, cand1 W W2 M xin h v388 P v469 Q hw hw2 hP hQ c n]
  exact next_alt W W2 M xin h hfin c n

end L1

end Cert.ReferenceIdeal.Layer

end
-- ==== Proof.LibTileRead.lean ====
import Idealize.ShloMosaic.Lib.WritesUnit

namespace Cert.LibTileRead

open Idealize.ShloMosaic

variable {sig : RefSig} {κ : Kind} {sp : Space} {s : Shape} {e : EltTy} {Val : EltTy → Type} {NT : ℕ}
  (v : View sig κ sp s e) (f : v.ty.Contents Val) (tsz : Fin s.rank → ℕ) (off : Fin NT → Fin s.rank → ℕ)
  (inb : ∀ i a, off i a + tsz a ≤ s.size a) (P : Fin NT → (⟨s.rank, tsz⟩ : Shape).Idx → Val e)

theorem read_tilePieces_of_miss (j : ℕ) (hj : j ≤ NT) (y : s.Idx) (ax : Fin s.rank) (hdis : ∀ i' : Fin NT, (y ax).val < off i' ax ∨ off i' ax + tsz ax ≤ (y ax).val) :
    v.read Val (v.writes Val f (View.tilePieces tsz off inb P j hj)) y = v.read Val f y := by
  induction j with
  | zero => rfl
  | succ j ih =>
    rw [View.tilePieces_succ,
      View.read_writes_cons_unit_of_not_mem v f (inb ⟨j, hj⟩) (P ⟨j, hj⟩) _ y rfl ax (hdis ⟨j, hj⟩)]
    exact ih (Nat.le_of_succ_le hj)

theorem read_tilePieces_append (j : ℕ) (hj : j ≤ NT) (T : List (View.Piece Val s e)) (y : s.Idx) (i : Fin NT) (hi : i.val < j) (x : (⟨s.rank, tsz⟩ : Shape).Idx) (hx : ∀ a, (y a).val = off i a + (x a).val) (ax : Fin s.rank) (hdis : ∀ i' : Fin NT, i' ≠ i → (y ax).val < off i' ax ∨ off i' ax + tsz ax ≤ (y ax).val) :
    v.read Val (v.writes Val f (View.tilePieces tsz off inb P j hj ++ T)) y = P i x := by
  rw [View.writes_append]
  exact View.read_tilePieces v (v.writes Val f T) tsz off inb P j hj y i hi x hx ax hdis

theorem read_tilePieces_append_of_miss (j : ℕ) (hj : j ≤ NT) (T : List (View.Piece Val s e)) (y : s.Idx) (ax : Fin s.rank) (hdis : ∀ i' : Fin NT, (y ax).val < off i' ax ∨ off i' ax + tsz ax ≤ (y ax).val) :
    v.read Val (v.writes Val f (View.tilePieces tsz off inb P j hj ++ T)) y = v.read Val (v.writes Val f T) y := by
  rw [View.writes_append]
  exact read_tilePieces_of_miss v (v.writes Val f T) tsz off inb P j hj y ax hdis

end Cert.LibTileRead
-- ==== Proof.RI.Tiles.lean ====
import proofs.«130420_g2000206920649175_pallasbulk_1279_2_alg».proof.Proof.RI.Pay1
import proofs.«130420_g2000206920649175_pallasbulk_1279_2_alg».proof.Proof.LibTileRead

noncomputable section

namespace Cert.ReferenceIdeal.Tiles

open scoped BigOperators
open Idealize.ShloMosaic Idealize.ShloMosaic.ValueIdx Idealize.SL.Sem Cert.ReferenceIdeal.Gen
open Cert.Spec

def off64 (K : ℕ) : Fin K → Fin 2 → ℕ := fun i => ![64 * i.val, 0]

theorem inb18 : ∀ (i : Fin 18) (a : Fin 2), off64 18 i a + S64x2304.size a ≤ S1160x2304.size a := by decide

theorem inb9 : ∀ (i : Fin 9) (a : Fin 2), off64 9 i a + S64x2304.size a ≤ S576x2304.size a := by decide

theorem tap_close (M : Fin 9 → Row) (i : Fin 9) (src : Fin 2304 → EReal) (row : Row) (n : Fin 2304) (hsrc : ∀ n', src n' = row n') (mk : EReal) (hmk : mk = M i n) : rot (amt i) src n * mk = tap M i row n := by
  rw [show src = row from funext hsrc, hmk]
  rfl

section Read

variable {F : FTy → Type} [FloatOps F] {sig : RefSig} {κ : Kind} {sp : Space}

theorem read18 (v : View sig κ sp S1160x2304 .f32) (f : v.ty.Contents (Elt F)) (P : Fin 18 → (⟨S1160x2304.rank, S64x2304.size⟩ : Shape).Idx → Elt F .f32) (T : List (View.Piece (Elt F) S1160x2304 .f32)) (i : Fin 18) (r : Fin 64) (n : Fin 2304) (hk : 64 * i.val + r.val < 1160) :
    v.read (Elt F) (v.writes (Elt F) f (View.tilePieces (s := S1160x2304) S64x2304.size (off64 18) inb18 P 18 (Nat.le_refl 18) ++ T))
        (ix2 (⟨64 * i.val + r.val, hk⟩ : Fin 1160) n)
      = P i (ix2 r n) := by
  refine Cert.LibTileRead.read_tilePieces_append v f S64x2304.size (off64 18) inb18 P 18 (Nat.le_refl 18) T _ i i.isLt
    (ix2 r n) (Fin.forall_fin_two.mpr ⟨rfl, (Nat.zero_add _).symm⟩) (0 : Fin 2) ?_
  intro i' hne
  have h1 : i'.val ≠ i.val := fun h => hne (Fin.ext h)
  have hr := r.isLt
  show 64 * i.val + r.val < 64 * i'.val ∨ 64 * i'.val + 64 ≤ 64 * i.val + r.val
  omega

theorem rest18 (v : View sig κ sp S1160x2304 .f32) (f : v.ty.Contents (Elt F)) (P : Fin 18 → (⟨S1160x2304.rank, S64x2304.size⟩ : Shape).Idx → Elt F .f32) (T : List (View.Piece (Elt F) S1160x2304 .f32)) (k : Fin 1160) (hk : 1152 ≤ k.val) (n : Fin 2304) :
    v.read (Elt F) (v.writes (Elt F) f (View.tilePieces (s := S1160x2304) S64x2304.size (off64 18) inb18 P 18 (Nat.le_refl 18) ++ T)) (ix2 k n)
      = v.read (Elt F) (v.writes (Elt F) f T) (ix2 k n) := by
  refine Cert.LibTileRead.read_tilePieces_append_of_miss v f S64x2304.size (off64 18) inb18 P 18 (Nat.le_refl 18) T _ (0 : Fin 2) ?_
  intro i'
  have := i'.isLt
  show k.val < 64 * i'.val ∨ 64 * i'.val + 64 ≤ k.val
  omega

theorem read9 (v : View sig κ sp S576x2304 .f32) (f : v.ty.Contents (Elt F)) (P : Fin 9 → (⟨S576x2304.rank, S64x2304.size⟩ : Shape).Idx → Elt F .f32) (T : List (View.Piece (Elt F) S576x2304 .f32)) (i : Fin 9) (r : Fin 64) (n : Fin 2304) (hk : 64 * i.val + r.val < 576) :
    v.read (Elt F) (v.writes (Elt F) f (View.tilePieces (s := S576x2304) S64x2304.size (off64 9) inb9 P 9 (Nat.le_refl 9) ++ T))
        (ix2 (⟨64 * i.val + r.val, hk⟩ : Fin 576) n)
      = P i (ix2 r n) := by
  refine Cert.LibTileRead.read_tilePieces_append v f S64x2304.size (off64 9) inb9 P 9 (Nat.le_refl 9) T _ i i.isLt
    (ix2 r n) (Fin.forall_fin_two.mpr ⟨rfl, (Nat.zero_add _).symm⟩) (0 : Fin 2) ?_
  intro i' hne
  have h1 : i'.val ≠ i.val := fun h => hne (Fin.ext h)
  have hr := r.isLt
  show 64 * i.val + r.val < 64 * i'.val ∨ 64 * i'.val + 64 ≤ 64 * i.val + r.val
  omega

end Read

-- A tile read at one of its rows is the tap of the source row, once the payload is a rotation times a mask row.
theorem tap18 {sig : RefSig} {κ : Kind} {sp : Space} (v : View sig κ sp S1160x2304 .f32) (f : v.ty.Contents (Elt Ideal)) (P : Fin 18 → (⟨S1160x2304.rank, S64x2304.size⟩ : Shape).Idx → Elt Ideal .f32) (T : List (View.Piece (Elt Ideal) S1160x2304 .f32)) (M : Fin 9 → Row) (j : Fin 18) (k : Fin 9) (c : Fin 64) (n : Fin 2304) (hk : 64 * j.val + c.val < 1160) {src : Fin 2304 → EReal} {row : Row} {mk : EReal}
    (e : P j (ix2 c n) = rot (amt k) src n * mk) (hsrc : ∀ n', src n' = row n') (hmk : mk = M k n) :
    v.read (Elt Ideal) (v.writes (Elt Ideal) f (View.tilePieces (s := S1160x2304) S64x2304.size (off64 18) inb18 P 18 (Nat.le_refl 18) ++ T)) (ix2 (⟨64 * j.val + c.val, hk⟩ : Fin 1160) n) = tap M k row n :=
  (read18 v f P T j c n hk).trans (e.trans (tap_close M k _ row n hsrc _ hmk))

theorem tap9 {sig : RefSig} {κ : Kind} {sp : Space} (v : View sig κ sp S576x2304 .f32) (f : v.ty.Contents (Elt Ideal)) (P : Fin 9 → (⟨S576x2304.rank, S64x2304.size⟩ : Shape).Idx → Elt Ideal .f32) (T : List (View.Piece (Elt Ideal) S576x2304 .f32)) (M : Fin 9 → Row) (j k : Fin 9) (c : Fin 64) (n : Fin 2304) (hk : 64 * j.val + c.val < 576) {src : Fin 2304 → EReal} {row : Row} {mk : EReal}
    (e : P j (ix2 c n) = rot (amt k) src n * mk) (hsrc : ∀ n', src n' = row n') (hmk : mk = M k n) :
    v.read (Elt Ideal) (v.writes (Elt Ideal) f (View.tilePieces (s := S576x2304) S64x2304.size (off64 9) inb9 P 9 (Nat.le_refl 9) ++ T)) (ix2 (⟨64 * j.val + c.val, hk⟩ : Fin 576) n) = tap M k row n :=
  (read9 v f P T j c n hk).trans (e.trans (tap_close M k _ row n hsrc _ hmk))

section Lists

variable {F : FTy → Type} [FloatOps F]

def pay0 (v3 : Vec F S1x1x64x2304 .f32) (v5 : Vec F S1x64x2304 .f32) (m : Fin 9 → Vec F S1x2304 .f32) :
    Fin 18 → (⟨S1160x2304.rank, S64x2304.size⟩ : Shape).Idx → Elt F .f32 :=
  (![k0_pay12 v3 (m 0),
    k0_pay13 v5 (m 0),
    k0_pay14 v3 (m 1),
    k0_pay15 (k0_pay11 v5) (m 1),
    k0_pay16 (k0_pay10 v3) (m 2),
    k0_pay17 (k0_pay11 v5) (m 2),
    k0_pay18 (k0_pay10 v3) (m 3),
    k0_pay20 (k0_pay19 (k0_pay11 v5)) (m 3),
    k0_pay21 (k0_pay10 v3) (m 4),
    k0_pay22 (k0_pay11 v5) (m 4),
    k0_pay23 (k0_pay10 v3) (m 5),
    k0_pay25 (k0_pay24 (k0_pay11 v5) (m 5)),
    k0_pay26 (k0_pay10 v3) (m 6),
    k0_pay27 (k0_pay11 v5) (m 6),
    k0_pay28 (k0_pay10 v3) (m 7),
    k0_pay29 (k0_pay11 v5) (m 7),
    k0_pay30 (k0_pay10 v3) 2279#32 (m 8),
    k0_pay31 (k0_pay11 v5) (m 8)] : Fin 18 → S64x2304.Idx → F .f32)

def tiles0 (v3 : Vec F S1x1x64x2304 .f32) (v5 : Vec F S1x64x2304 .f32) (m : Fin 9 → Vec F S1x2304 .f32) (T : List (View.Piece (Elt F) S1160x2304 .f32)) : List (View.Piece (Elt F) S1160x2304 .f32) :=
  View.tilePieces (s := S1160x2304) S64x2304.size (off64 18) inb18 (pay0 v3 v5 m) 18 (Nat.le_refl 18) ++ T

def gpay0 (v6 : FVec F S64x2304 .f32) (v149 : Vec F S1x192x1160 .f32) (v151 : Vec F S1160x2304 .f32) (m : Fin 9 → Vec F S1x2304 .f32) :
    Fin 9 → (⟨S576x2304.rank, S64x2304.size⟩ : Shape).Idx → Elt F .f32 :=
  (![k0_pay36 v6 v149 v151 (m 0),
    k0_pay38 (k0_pay37 v6 v149 v151) (m 1),
    k0_pay39 (k0_pay35 v6 v149 v151) (m 2),
    k0_pay40 (k0_pay35 v6 v149 v151) (m 3),
    k0_pay41 (k0_pay35 v6 v149 v151) (m 4),
    k0_pay43 (k0_pay42 (k0_pay35 v6 v149 v151) (m 5)),
    k0_pay44 (k0_pay35 v6 v149 v151) (m 6),
    k0_pay45 (k0_pay35 v6 v149 v151) (m 7),
    k0_pay46 (k0_pay35 v6 v149 v151) (m 8)] : Fin 9 → S64x2304.Idx → F .f32)

def gtiles0 (v6 : FVec F S64x2304 .f32) (v149 : Vec F S1x192x1160 .f32) (v151 : Vec F S1160x2304 .f32) (m : Fin 9 → Vec F S1x2304 .f32) (T : List (View.Piece (Elt F) S576x2304 .f32)) : List (View.Piece (Elt F) S576x2304 .f32) :=
  View.tilePieces (s := S576x2304) S64x2304.size (off64 9) inb9 (gpay0 v6 v149 v151 m) 9 (Nat.le_refl 9) ++ T

def pay1 (v6 v156 v235 : FVec F S64x2304 .f32) (cst : F .f32) (v244 : Vec F S1x64x2304 .f32) (m : Fin 9 → Vec F S1x2304 .f32) :
    Fin 18 → (⟨S1160x2304.rank, S64x2304.size⟩ : Shape).Idx → Elt F .f32 :=
  (![k0_pay51 v6 v156 v235 cst (m 0),
    k0_pay52 v244 (m 0),
    k0_pay53 v6 v156 v235 cst (m 1),
    k0_pay54 (k0_pay50 v244) 24#32 (m 1),
    k0_pay55 (k0_pay48 v6 v156 v235 cst) (m 2),
    k0_pay56 (k0_pay50 v244) (m 2),
    k0_pay57 (k0_pay48 v6 v156 v235 cst) (m 3),
    k0_pay59 (k0_pay58 (k0_pay50 v244)) (m 3),
    k0_pay60 (k0_pay48 v6 v156 v235 cst) (m 4),
    k0_pay61 (k0_pay50 v244) (m 4),
    k0_pay62 (k0_pay48 v6 v156 v235 cst) (m 5),
    k0_pay63 (k0_pay50 v244) (m 5),
    k0_pay64 (k0_pay48 v6 v156 v235 cst) (m 6),
    k0_pay65 (k0_pay50 v244) (m 6),
    k0_pay66 (k0_pay48 v6 v156 v235 cst) (m 7),
    k0_pay67 (k0_pay50 v244) (m 7),
    k0_pay69 (k0_pay68 (k0_pay48 v6 v156 v235 cst)) (m 8),
    k0_pay70 (k0_pay50 v244) (m 8)] : Fin 18 → S64x2304.Idx → F .f32)

def tiles1 (v6 v156 v235 : FVec F S64x2304 .f32) (cst : F .f32) (v244 : Vec F S1x64x2304 .f32) (m : Fin 9 → Vec F S1x2304 .f32) (T : List (View.Piece (Elt F) S1160x2304 .f32)) : List (View.Piece (Elt F) S1160x2304 .f32) :=
  View.tilePieces (s := S1160x2304) S64x2304.size (off64 18) inb18 (pay1 v6 v156 v235 cst v244 m) 18 (Nat.le_refl 18) ++ T

def gpay1 (v245 : FVec F S64x2304 .f32) (v388 : Vec F S1x192x1160 .f32) (v390 : Vec F S1160x2304 .f32) (m : Fin 9 → Vec F S1x2304 .f32) :
    Fin 9 → (⟨S576x2304.rank, S64x2304.size⟩ : Shape).Idx → Elt F .f32 :=
  (![k0_pay75 v245 v388 v390 (m 0),
    k0_pay77 (k0_pay76 v245 v388 v390) (m 1),
    k0_pay78 (k0_pay74 v245 v388 v390) (m 2),
    k0_pay79 (k0_pay74 v245 v388 v390) (m 3),
    k0_pay80 (k0_pay74 v245 v388 v390) (m 4),
    k0_pay82 (k0_pay81 (k0_pay74 v245 v388 v390) (m 5)),
    k0_pay83 (k0_pay74 v245 v388 v390) (m 6),
    k0_pay84 (k0_pay74 v245 v388 v390) (m 7),
    k0_pay85 (k0_pay74 v245 v388 v390) (m 8)] : Fin 9 → S64x2304.Idx → F .f32)

def gtiles1 (v245 : FVec F S64x2304 .f32) (v388 : Vec F S1x192x1160 .f32) (v390 : Vec F S1160x2304 .f32) (m : Fin 9 → Vec F S1x2304 .f32) (T : List (View.Piece (Elt F) S576x2304 .f32)) : List (View.Piece (Elt F) S576x2304 .f32) :=
  View.tilePieces (s := S576x2304) S64x2304.size (off64 9) inb9 (gpay1 v245 v388 v390 m) 9 (Nat.le_refl 9) ++ T

end Lists

section Rows0

variable {sig : RefSig} {κ : Kind} {sp : Space} (M : Fin 9 → Row) (xin h : Fin 64 → Row)
  (v3 : Vec Ideal S1x1x64x2304 .f32) (v5 : Vec Ideal S1x64x2304 .f32) (m : Fin 9 → Vec Ideal S1x2304 .f32)
  (v : View sig κ sp S1160x2304 .f32) (f : v.ty.Contents (Elt Ideal)) (T : List (View.Piece (Elt Ideal) S1160x2304 .f32))

theorem tiles0_x (hx : ∀ c n, v3 (ix4 (0 : Fin 1) (0 : Fin 1) c n) = xin c n) (hm : ∀ k n, m k (ix2 (0 : Fin 1) n) = M k n) (i : Fin 9) (c : Fin 64) (n : Fin 2304) :
    v.read (Elt Ideal) (v.writes (Elt Ideal) f (tiles0 (F := Ideal) v3 v5 m T)) (ix2 (⟨128 * i.val + c.val, by omega⟩ : Fin 1160) n)
      = tap M i (xin c) n := by
  have hr := fun n' => (Pay0.inCast_apply v3 c n').trans (hx c n')
  unfold tiles0
  fin_cases i
  · exact tap18 v f _ T M 0 0 c n _ (Pay0.tapIn_0_apply v3 (m 0) c n) hr (hm 0 n)
  · exact tap18 v f _ T M 2 1 c n _ (Pay0.tapIn_1_apply v3 (m 1) c n) hr (hm 1 n)
  · exact tap18 v f _ T M 4 2 c n _ (Pay0.tapIn_2_apply _ (m 2) c n) hr (hm 2 n)
  · exact tap18 v f _ T M 6 3 c n _ (Pay0.tapIn_3_apply _ (m 3) c n) hr (hm 3 n)
  · exact tap18 v f _ T M 8 4 c n _ (Pay0.tapIn_4_apply _ (m 4) c n) hr (hm 4 n)
  · exact tap18 v f _ T M 10 5 c n _ (Pay0.tapIn_5_apply _ (m 5) c n) hr (hm 5 n)
  · exact tap18 v f _ T M 12 6 c n _ (Pay0.tapIn_6_apply _ (m 6) c n) hr (hm 6 n)
  · exact tap18 v f _ T M 14 7 c n _ (Pay0.tapIn_7_apply _ (m 7) c n) hr (hm 7 n)
  · exact tap18 v f _ T M 16 8 c n _ (Pay0.tapIn_8_apply _ 2279#32 rfl (m 8) c n) hr (hm 8 n)

theorem tiles0_s (hs : ∀ c n, v5 (ix3 (0 : Fin 1) c n) = h c n) (hm : ∀ k n, m k (ix2 (0 : Fin 1) n) = M k n) (i : Fin 9) (c : Fin 64) (n : Fin 2304) :
    v.read (Elt Ideal) (v.writes (Elt Ideal) f (tiles0 (F := Ideal) v3 v5 m T)) (ix2 (⟨128 * i.val + 64 + c.val, by omega⟩ : Fin 1160) n)
      = tap M i (h c) n := by
  have hr := fun n' => (Pay0.stCast_apply v5 c n').trans (hs c n')
  unfold tiles0
  fin_cases i
  · exact tap18 v f _ T M 1 0 c n _ (Pay0.tapSt_0_apply v5 (m 0) c n) hr (hm 0 n)
  · exact tap18 v f _ T M 3 1 c n _ (Pay0.tapSt_1_apply _ (m 1) c n) hr (hm 1 n)
  · exact tap18 v f _ T M 5 2 c n _ (Pay0.tapSt_2_apply _ (m 2) c n) hr (hm 2 n)
  · exact tap18 v f _ T M 7 3 c n _ (Pay0.tapSt_3_apply _ (m 3) c n) hr (hm 3 n)
  · exact tap18 v f _ T M 9 4 c n _ (Pay0.tapSt_4_apply _ (m 4) c n) hr (hm 4 n)
  · exact tap18 v f _ T M 11 5 c n _ ((Pay0.tapSt_5_store_apply (k0_pay24 (F := Ideal) _ (m 5)) (ix2 c n)).trans (Pay0.tapSt_5_apply _ (m 5) c n)) hr (hm 5 n)
  · exact tap18 v f _ T M 13 6 c n _ (Pay0.tapSt_6_apply _ (m 6) c n) hr (hm 6 n)
  · exact tap18 v f _ T M 15 7 c n _ (Pay0.tapSt_7_apply _ (m 7) c n) hr (hm 7 n)
  · exact tap18 v f _ T M 17 8 c n _ (Pay0.tapSt_8_apply _ (m 8) c n) hr (hm 8 n)

theorem tiles0_rest (k : Fin 1160) (hk : 1152 ≤ k.val) (n : Fin 2304) :
    v.read (Elt Ideal) (v.writes (Elt Ideal) f (tiles0 (F := Ideal) v3 v5 m T)) (ix2 k n)
      = v.read (Elt Ideal) (v.writes (Elt Ideal) f T) (ix2 k n) := by
  unfold tiles0
  exact rest18 v f _ T k hk n

end Rows0

section Gated0

variable {sig : RefSig} {κ : Kind} {sp : Space} (M : Fin 9 → Row) (g : Fin 64 → Row)
  (v6 : FVec Ideal S64x2304 .f32) (v149 : Vec Ideal S1x192x1160 .f32) (v151 : Vec Ideal S1160x2304 .f32) (m : Fin 9 → Vec Ideal S1x2304 .f32)
  (v : View sig κ sp S576x2304 .f32) (f : v.ty.Contents (Elt Ideal)) (T : List (View.Piece (Elt Ideal) S576x2304 .f32))

theorem gtiles0_g (hg : ∀ c n, k0_pay35 (F := Ideal) v6 v149 v151 (ix2 c n) = g c n) (hm : ∀ k n, m k (ix2 (0 : Fin 1) n) = M k n) (i : Fin 9) (c : Fin 64) (n : Fin 2304) :
    v.read (Elt Ideal) (v.writes (Elt Ideal) f (gtiles0 (F := Ideal) v6 v149 v151 m T)) (ix2 (⟨64 * i.val + c.val, by omega⟩ : Fin 576) n)
      = tap M i (g c) n := by
  unfold gtiles0
  fin_cases i
  · exact tap9 v f _ T M 0 0 c n _ (Pay0.tapG_0_apply v6 v149 v151 (m 0) c n) (hg c) (hm 0 n)
  · exact tap9 v f _ T M 1 1 c n _ (Pay0.tapG_1_apply v6 v149 v151 (m 1) c n) (hg c) (hm 1 n)
  · exact tap9 v f _ T M 2 2 c n _ (Pay0.tapG_2_apply _ (m 2) c n) (hg c) (hm 2 n)
  · exact tap9 v f _ T M 3 3 c n _ (Pay0.tapG_3_apply _ (m 3) c n) (hg c) (hm 3 n)
  · exact tap9 v f _ T M 4 4 c n _ (Pay0.tapG_4_apply _ (m 4) c n) (hg c) (hm 4 n)
  · exact tap9 v f _ T M 5 5 c n _ ((Pay0.tapG_5_store_apply (k0_pay42 (F := Ideal) _ (m 5)) (ix2 c n)).trans (Pay0.tapG_5_apply _ (m 5) c n)) (hg c) (hm 5 n)
  · exact tap9 v f _ T M 6 6 c n _ (Pay0.tapG_6_apply _ (m 6) c n) (hg c) (hm 6 n)
  · exact tap9 v f _ T M 7 7 c n _ (Pay0.tapG_7_apply _ (m 7) c n) (hg c) (hm 7 n)
  · exact tap9 v f _ T M 8 8 c n _ (Pay0.tapG_8_apply _ (m 8) c n) (hg c) (hm 8 n)

end Gated0

section Rows1

variable {sig : RefSig} {κ : Kind} {sp : Space} (M : Fin 9 → Row) (xin h : Fin 64 → Row)
  (v6 v156 v235 : FVec Ideal S64x2304 .f32) (cst : Ideal .f32) (v244 : Vec Ideal S1x64x2304 .f32) (m : Fin 9 → Vec Ideal S1x2304 .f32)
  (v : View sig κ sp S1160x2304 .f32) (f : v.ty.Contents (Elt Ideal)) (T : List (View.Piece (Elt Ideal) S1160x2304 .f32))

theorem tiles1_x (hx : ∀ c n, k0_pay48 (F := Ideal) v6 v156 v235 cst (ix2 c n) = xin c n) (hm : ∀ k n, m k (ix2 (0 : Fin 1) n) = M k n) (i : Fin 9) (c : Fin 64) (n : Fin 2304) :
    v.read (Elt Ideal) (v.writes (Elt Ideal) f (tiles1 (F := Ideal) v6 v156 v235 cst v244 m T)) (ix2 (⟨128 * i.val + c.val, by omega⟩ : Fin 1160) n)
      = tap M i (xin c) n := by
  unfold tiles1
  fin_cases i
  · exact tap18 v f _ T M 0 0 c n _ (Pay1.tapIn_0_apply v6 v156 v235 cst (m 0) c n) (hx c) (hm 0 n)
  · exact tap18 v f _ T M 2 1 c n _ (Pay1.tapIn_1_apply v6 v156 v235 cst (m 1) c n) (hx c) (hm 1 n)
  · exact tap18 v f _ T M 4 2 c n _ (Pay1.tapIn_2_apply _ (m 2) c n) (hx c) (hm 2 n)
  · exact tap18 v f _ T M 6 3 c n _ (Pay1.tapIn_3_apply _ (m 3) c n) (hx c) (hm 3 n)
  · exact tap18 v f _ T M 8 4 c n _ (Pay1.tapIn_4_apply _ (m 4) c n) (hx c) (hm 4 n)
  · exact tap18 v f _ T M 10 5 c n _ (Pay1.tapIn_5_apply _ (m 5) c n) (hx c) (hm 5 n)
  · exact tap18 v f _ T M 12 6 c n _ (Pay1.tapIn_6_apply _ (m 6) c n) (hx c) (hm 6 n)
  · exact tap18 v f _ T M 14 7 c n _ (Pay1.tapIn_7_apply _ (m 7) c n) (hx c) (hm 7 n)
  · exact tap18 v f _ T M 16 8 c n _ (Pay1.tapIn_8_apply _ (m 8) c n) (hx c) (hm 8 n)

theorem tiles1_s (hs : ∀ c n, v244 (ix3 (0 : Fin 1) c n) = h c n) (hm : ∀ k n, m k (ix2 (0 : Fin 1) n) = M k n) (i : Fin 9) (c : Fin 64) (n : Fin 2304) :
    v.read (Elt Ideal) (v.writes (Elt Ideal) f (tiles1 (F := Ideal) v6 v156 v235 cst v244 m T)) (ix2 (⟨128 * i.val + 64 + c.val, by omega⟩ : Fin 1160) n)
      = tap M i (h c) n := by
  have hr := fun n' => (Pay1.stCast_apply v244 c n').trans (hs c n')
  unfold tiles1
  fin_cases i
  · exact tap18 v f _ T M 1 0 c n _ (Pay1.tapSt_0_apply v244 (m 0) c n) hr (hm 0 n)
  · exact tap18 v f _ T M 3 1 c n _ (Pay1.tapSt_1_apply _ 24#32 rfl (m 1) c n) hr (hm 1 n)
  · exact tap18 v f _ T M 5 2 c n _ (Pay1.tapSt_2_apply _ (m 2) c n) hr (hm 2 n)
  · exact tap18 v f _ T M 7 3 c n _ (Pay1.tapSt_3_apply _ (m 3) c n) hr (hm 3 n)
  · exact tap18 v f _ T M 9 4 c n _ (Pay1.tapSt_4_apply _ (m 4) c n) hr (hm 4 n)
  · exact tap18 v f _ T M 11 5 c n _ (Pay1.tapSt_5_apply _ (m 5) c n) hr (hm 5 n)
  · exact tap18 v f _ T M 13 6 c n _ (Pay1.tapSt_6_apply _ (m 6) c n) hr (hm 6 n)
  · exact tap18 v f _ T M 15 7 c n _ (Pay1.tapSt_7_apply _ (m 7) c n) hr (hm 7 n)
  · exact tap18 v f _ T M 17 8 c n _ (Pay1.tapSt_8_apply _ (m 8) c n) hr (hm 8 n)

theorem tiles1_rest (k : Fin 1160) (hk : 1152 ≤ k.val) (n : Fin 2304) :
    v.read (Elt Ideal) (v.writes (Elt Ideal) f (tiles1 (F := Ideal) v6 v156 v235 cst v244 m T)) (ix2 k n)
      = v.read (Elt Ideal) (v.writes (Elt Ideal) f T) (ix2 k n) := by
  unfold tiles1
  exact rest18 v f _ T k hk n

end Rows1

section Gated1

variable {sig : RefSig} {κ : Kind} {sp : Space} (M : Fin 9 → Row) (g : Fin 64 → Row)
  (v245 : FVec Ideal S64x2304 .f32) (v388 : Vec Ideal S1x192x1160 .f32) (v390 : Vec Ideal S1160x2304 .f32) (m : Fin 9 → Vec Ideal S1x2304 .f32)
  (v : View sig κ sp S576x2304 .f32) (f : v.ty.Contents (Elt Ideal)) (T : List (View.Piece (Elt Ideal) S576x2304 .f32))

theorem gtiles1_g (hg : ∀ c n, k0_pay74 (F := Ideal) v245 v388 v390 (ix2 c n) = g c n) (hm : ∀ k n, m k (ix2 (0 : Fin 1) n) = M k n) (i : Fin 9) (c : Fin 64) (n : Fin 2304) :
    v.read (Elt Ideal) (v.writes (Elt Ideal) f (gtiles1 (F := Ideal) v245 v388 v390 m T)) (ix2 (⟨64 * i.val + c.val, by omega⟩ : Fin 576) n)
      = tap M i (g c) n := by
  unfold gtiles1
  fin_cases i
  · exact tap9 v f _ T M 0 0 c n _ (Pay1.tapG_0_apply v245 v388 v390 (m 0) c n) (hg c) (hm 0 n)
  · exact tap9 v f _ T M 1 1 c n _ (Pay1.tapG_1_apply v245 v388 v390 (m 1) c n) (hg c) (hm 1 n)
  · exact tap9 v f _ T M 2 2 c n _ (Pay1.tapG_2_apply _ (m 2) c n) (hg c) (hm 2 n)
  · exact tap9 v f _ T M 3 3 c n _ (Pay1.tapG_3_apply _ (m 3) c n) (hg c) (hm 3 n)
  · exact tap9 v f _ T M 4 4 c n _ (Pay1.tapG_4_apply _ (m 4) c n) (hg c) (hm 4 n)
  · exact tap9 v f _ T M 5 5 c n _ ((Pay1.tapG_5_store_apply (k0_pay81 (F := Ideal) _ (m 5)) (ix2 c n)).trans (Pay1.tapG_5_apply _ (m 5) c n)) (hg c) (hm 5 n)
  · exact tap9 v f _ T M 6 6 c n _ (Pay1.tapG_6_apply _ (m 6) c n) (hg c) (hm 6 n)
  · exact tap9 v f _ T M 7 7 c n _ (Pay1.tapG_7_apply _ (m 7) c n) (hg c) (hm 7 n)
  · exact tap9 v f _ T M 8 8 c n _ (Pay1.tapG_8_apply _ (m 8) c n) (hg c) (hm 8 n)

end Gated1

end Cert.ReferenceIdeal.Tiles

end
-- ==== Proof.RI.Loads.lean ====
import proofs.«130420_g2000206920649175_pallasbulk_1279_2_alg».proof.Proof.Gen.ReferenceIdeal.Skeleton
import Idealize.ShloMosaic.Lib.Pipeline.Frame
import Idealize.ShloMosaic.Lib.Pipeline.Value
import Idealize.ShloMosaic.Lib.Exec.Geometry
import Idealize.ShloMosaic.Lib.ValueIdx

noncomputable section

namespace Cert.ReferenceIdeal.Loads

open Idealize.ShloMosaic Idealize.ShloMosaic.ValueIdx Idealize.SL.Sem
open Cert.ReferenceIdeal Cert.ReferenceIdeal.Gen

section General

variable {sig' : RefSig} {κ : Kind} {sp : Space} {s : Shape} {e : EltTy} {Val : EltTy → Type}

theorem readAt_unit_apply (v : View sig' κ sp s e) (f : v.ty.Contents Val) {off size : Fin s.rank → ℕ} (inb : ∀ a, off a + size a ≤ s.size a) (x : (Rect.unit off size inb).shape.Idx) (y : s.Idx) (hx : ∀ a, (y a).val = off a + (x a).val) :
    v.readAt Val (Rect.unit off size inb).toLoadRect f x = v.read Val f y := by
  have hy : (Rect.unit off size inb).emb x = y := funext fun a => Fin.ext (by
    show off a + 1 * (x a).val = (y a).val
    rw [hx a, Nat.one_mul])
  exact congrArg (v.read Val f) hy

theorem readAt_unit_unread (m : Memref sig' κ sp s e) (h : m.IsWhole) (X : s.Idx → Val e) {off size : Fin s.rank → ℕ} (inb : ∀ a, off a + size a ≤ s.size a) (x : (Rect.unit off size inb).shape.Idx) (y : s.Idx) (hx : ∀ a, (y a).val = off a + (x a).val) :
    m.view.readAt Val (Rect.unit off size inb).toLoadRect (h.unread X) x = X y :=
  (readAt_unit_apply m.view (h.unread X) inb x y hx).trans (congrFun (h.read_unread X) y)

end General

theorem input (arg3 : Memref sig .tc .vmem S1x1x64x2304 .f32) (harg3 : arg3.IsWhole) (x1 : Vec Ideal S1x1x64x2304 .f32) (c : Fin 64) (n : Fin 2304) :
    (View.readAt (Elt Ideal) arg3.view (Rect.unit (s := S1x1x64x2304) ![0, 0, 0, 0] S1x1x64x2304.size inb_S1x1x64x2304_S1x1x64x2304_0_0_0_0).toLoadRect (harg3.unread x1) : Vec Ideal S1x1x64x2304 .f32)
        (ix4 (0 : Fin 1) (0 : Fin 1) c n) = x1 (ix4 (0 : Fin 1) (0 : Fin 1) c n) :=
  readAt_unit_unread arg3 harg3 x1 _ (ix4 (0 : Fin 1) (0 : Fin 1) c n) (ix4 (0 : Fin 1) (0 : Fin 1) c n)
    (fun a => match a with | ⟨0, _⟩ => (Nat.zero_add _).symm | ⟨1, _⟩ => (Nat.zero_add _).symm | ⟨2, _⟩ => (Nat.zero_add _).symm | ⟨3, _⟩ => (Nat.zero_add _).symm)

theorem inbM : ∀ (k : Fin 9) (a : Fin 2), (![k.val, 0] : Fin 2 → ℕ) a + S1x2304.size a ≤ S9x2304.size a := by decide

-- Mask row k as a step loads it.
def mload (arg2 : Memref sig .tc .vmem S9x2304 .f32) (g : arg2.view.ty.Contents (Elt Ideal)) (k : Fin 9) : Vec Ideal S1x2304 .f32 :=
  View.readAt (Elt Ideal) arg2.view (Rect.unit (s := S9x2304) ![k.val, 0] S1x2304.size (inbM k)).toLoadRect g

theorem mask (arg2 : Memref sig .tc .vmem S9x2304 .f32) (harg2 : arg2.IsWhole) (x0 : Vec Ideal S9x2304 .f32) (k : Fin 9) (n : Fin 2304) :
    mload arg2 (harg2.unread x0) k (ix2 (0 : Fin 1) n) = x0 (ix2 k n) :=
  readAt_unit_unread arg2 harg2 x0 _ (ix2 (0 : Fin 1) n) (ix2 k n) (fun a => match a with | ⟨0, _⟩ => (Nat.add_zero _).symm | ⟨1, _⟩ => (Nat.zero_add _).symm)

theorem w1_0 (arg4 : Memref sig .tc .vmem S2x192x1160 .f32) (harg4 : arg4.IsWhole) (x2 : Vec Ideal S2x192x1160 .f32) (o : Fin 192) (k : Fin 1160) :
    (View.readAt (Elt Ideal) arg4.view (Rect.unit (s := S2x192x1160) ![0, 0, 0] S1x192x1160.size inb_S2x192x1160_S1x192x1160_0_0_0).toLoadRect (harg4.unread x2) : Vec Ideal S1x192x1160 .f32)
        (ix3 (0 : Fin 1) o k) = x2 (ix3 (0 : Fin 2) o k) :=
  readAt_unit_unread arg4 harg4 x2 _ (ix3 (0 : Fin 1) o k) (ix3 (0 : Fin 2) o k)
    (fun a => match a with | ⟨0, _⟩ => rfl | ⟨1, _⟩ => (Nat.zero_add _).symm | ⟨2, _⟩ => (Nat.zero_add _).symm)

theorem w2_0 (arg5 : Memref sig .tc .vmem S2x64x576 .f32) (harg5 : arg5.IsWhole) (x3 : Vec Ideal S2x64x576 .f32) (c : Fin 64) (k : Fin 576) :
    (View.readAt (Elt Ideal) arg5.view (Rect.unit (s := S2x64x576) ![0, 0, 0] S1x64x576.size inb_S2x64x576_S1x64x576_0_0_0).toLoadRect (harg5.unread x3) : Vec Ideal S1x64x576 .f32)
        (ix3 (0 : Fin 1) c k) = x3 (ix3 (0 : Fin 2) c k) :=
  readAt_unit_unread arg5 harg5 x3 _ (ix3 (0 : Fin 1) c k) (ix3 (0 : Fin 2) c k)
    (fun a => match a with | ⟨0, _⟩ => rfl | ⟨1, _⟩ => (Nat.zero_add _).symm | ⟨2, _⟩ => (Nat.zero_add _).symm)

theorem w1_1 (arg4 : Memref sig .tc .vmem S2x192x1160 .f32) (harg4 : arg4.IsWhole) (x2 : Vec Ideal S2x192x1160 .f32) (o : Fin 192) (k : Fin 1160) :
    (View.readAt (Elt Ideal) arg4.view (Rect.unit (s := S2x192x1160) ![1, 0, 0] S1x192x1160.size inb_S2x192x1160_S1x192x1160_1_0_0).toLoadRect (harg4.unread x2) : Vec Ideal S1x192x1160 .f32)
        (ix3 (0 : Fin 1) o k) = x2 (ix3 (1 : Fin 2) o k) :=
  readAt_unit_unread arg4 harg4 x2 _ (ix3 (0 : Fin 1) o k) (ix3 (1 : Fin 2) o k)
    (fun a => match a with | ⟨0, _⟩ => rfl | ⟨1, _⟩ => (Nat.zero_add _).symm | ⟨2, _⟩ => (Nat.zero_add _).symm)

theorem w2_1 (arg5 : Memref sig .tc .vmem S2x64x576 .f32) (harg5 : arg5.IsWhole) (x3 : Vec Ideal S2x64x576 .f32) (c : Fin 64) (k : Fin 576) :
    (View.readAt (Elt Ideal) arg5.view (Rect.unit (s := S2x64x576) ![1, 0, 0] S1x64x576.size inb_S2x64x576_S1x64x576_1_0_0).toLoadRect (harg5.unread x3) : Vec Ideal S1x64x576 .f32)
        (ix3 (0 : Fin 1) c k) = x3 (ix3 (1 : Fin 2) c k) :=
  readAt_unit_unread arg5 harg5 x3 _ (ix3 (0 : Fin 1) c k) (ix3 (1 : Fin 2) c k)
    (fun a => match a with | ⟨0, _⟩ => rfl | ⟨1, _⟩ => (Nat.zero_add _).symm | ⟨2, _⟩ => (Nat.zero_add _).symm)

section
variable (arg8 : Memref sig .tc .vmem S2x64x2304 .f32) (harg8 : arg8.IsWhole) (xs0 : Vec Ideal S2x64x2304 .f32) (c : Fin 64) (n : Fin 2304)
include arg8 harg8 xs0 c n

theorem state0  :
    (View.readAt (Elt Ideal) arg8.view (Rect.unit (s := S2x64x2304) ![0, 0, 0] S1x64x2304.size inb_S2x64x2304_S1x64x2304_0_0_0).toLoadRect (harg8.unread xs0) : Vec Ideal S1x64x2304 .f32)
        (ix3 (0 : Fin 1) c n) = xs0 (ix3 (0 : Fin 2) c n) :=
  readAt_unit_unread arg8 harg8 xs0 _ (ix3 (0 : Fin 1) c n) (ix3 (0 : Fin 2) c n)
    (fun a => match a with | ⟨0, _⟩ => rfl | ⟨1, _⟩ => (Nat.zero_add _).symm | ⟨2, _⟩ => (Nat.zero_add _).symm)

theorem state1  :
    (View.readAt (Elt Ideal) arg8.view (Rect.unit (s := S2x64x2304) ![1, 0, 0] S1x64x2304.size inb_S2x64x2304_S1x64x2304_1_0_0).toLoadRect (harg8.unread xs0) : Vec Ideal S1x64x2304 .f32)
        (ix3 (0 : Fin 1) c n) = xs0 (ix3 (1 : Fin 2) c n) :=
  readAt_unit_unread arg8 harg8 xs0 _ (ix3 (0 : Fin 1) c n) (ix3 (1 : Fin 2) c n)
    (fun a => match a with | ⟨0, _⟩ => rfl | ⟨1, _⟩ => (Nat.zero_add _).symm | ⟨2, _⟩ => (Nat.zero_add _).symm)

end

theorem patch1 (arg9 : Memref sig .tc .vmem S1160x2304 .f32) (g : arg9.view.ty.Contents (Elt Ideal)) :
    (View.readAt (Elt Ideal) arg9.view (Rect.unit (s := S1160x2304) ![0, 0] S1160x2304.size inb_S1160x2304_S1160x2304_0_0).toLoadRect g : Vec Ideal S1160x2304 .f32)
      = arg9.view.read (Elt Ideal) g :=
  View.ld_unit_zero (funext fun a => match a with | ⟨0, _⟩ => rfl | ⟨1, _⟩ => rfl) inb_S1160x2304_S1160x2304_0_0 (arg9.view.read (Elt Ideal) g)

theorem patch1_cov (arg9 : Memref sig .tc .vmem S1160x2304 .f32) (L : List (View.Piece (Elt Ideal) S1160x2304 .f32)) :
    (arg9.view.readCov L (Rect.unit (s := S1160x2304) ![0, 0] S1160x2304.size inb_S1160x2304_S1160x2304_0_0).toLoadRect : Vec Ideal S1160x2304 .f32)
      = arg9.view.read (Elt Ideal) (arg9.view.writes (Elt Ideal) arg9.view.junk L) :=
  patch1 arg9 _

theorem patch2 (arg10 : Memref sig .tc .vmem S576x2304 .f32) (g : arg10.view.ty.Contents (Elt Ideal)) :
    (View.readAt (Elt Ideal) arg10.view (Rect.unit (s := S576x2304) ![0, 0] S576x2304.size inb_S576x2304_S576x2304_0_0).toLoadRect g : Vec Ideal S576x2304 .f32)
      = arg10.view.read (Elt Ideal) g :=
  View.ld_unit_zero (funext fun a => match a with | ⟨0, _⟩ => rfl | ⟨1, _⟩ => rfl) inb_S576x2304_S576x2304_0_0 (arg10.view.read (Elt Ideal) g)

theorem patch2_cov (arg10 : Memref sig .tc .vmem S576x2304 .f32) (L : List (View.Piece (Elt Ideal) S576x2304 .f32)) :
    (arg10.view.readCov L (Rect.unit (s := S576x2304) ![0, 0] S576x2304.size inb_S576x2304_S576x2304_0_0).toLoadRect : Vec Ideal S576x2304 .f32)
      = arg10.view.read (Elt Ideal) (arg10.view.writes (Elt Ideal) arg10.view.junk L) :=
  patch2 arg10 _

end Cert.ReferenceIdeal.Loads

end
-- ==== Proof.RI.StepA.lean ====
import proofs.«130420_g2000206920649175_pallasbulk_1279_2_alg».proof.Proof.RI.Facts
import proofs.«130420_g2000206920649175_pallasbulk_1279_2_alg».proof.Proof.RI.Layer
import proofs.«130420_g2000206920649175_pallasbulk_1279_2_alg».proof.Proof.RI.Tiles
import proofs.«130420_g2000206920649175_pallasbulk_1279_2_alg».proof.Proof.RI.Loads
import Idealize.ShloMosaic.Lib.WritesUnit

noncomputable section

namespace Cert.ReferenceIdeal.Par.A

open Idealize.ShloMosaic Idealize.ShloMosaic.TcCoe Idealize.ShloMosaic.ValueIdx
open Idealize.SL.Sem
open Cert.ReferenceIdeal Cert.ReferenceIdeal.Gen Cert.ReferenceIdeal.Hand
open Cert.Spec (Row)

abbrev tailA : List (View.Piece (Elt Ideal) S1160x2304 .f32) :=
  [⟨Rect.unit (s := S1160x2304) ![1152, 0] S1x2304.size inb_S1160x2304_S1x2304_1152_0, k0_pay9 (F := Ideal)⟩,
   ⟨Rect.unit (s := S1160x2304) ![0, 0] S1160x2304.size inb_S1160x2304_S1160x2304_0_0, k0_pay7 (F := Ideal)⟩]

-- The reset and the row of ones leave the constant rows set.
theorem tailA_ok {sig' : RefSig} {κ : Kind} {sp : Space} (v : View sig' κ sp S1160x2304 .f32) (f : v.ty.Contents (Elt Ideal)) :
    headOk (v.read (Elt Ideal) (v.writes (Elt Ideal) f tailA)) :=
  ⟨fun n => (View.read_writes_cons_unit_of_mem v f _ _ _ (ix2 (⟨1152, by decide⟩ : Fin 1160) n) (ix2 (0 : Fin 1) n) rfl
      (fun a => match a with | ⟨0, _⟩ => rfl | ⟨1, _⟩ => (Nat.zero_add _).symm)).trans (Pay1.onesRow_apply _),
   fun k hk n => (View.read_writes_cons_unit_of_not_mem v f _ _ _ (ix2 k n) rfl ⟨0, by decide⟩ (Or.inr hk)).trans
      ((View.read_writes_cons_unit_of_mem v f _ _ _ (ix2 k n) (ix2 k n) rfl
        (fun a => match a with | ⟨0, _⟩ => (Nat.zero_add _).symm | ⟨1, _⟩ => (Nat.zero_add _).symm)).trans (Pay1.zeroPatch1_apply _))⟩

-- Constant rows that agree from row 1152 on with rows that are set are set.
theorem headOk_of {P Q : S1160x2304.Idx → EReal} (h : ∀ k : Fin 1160, 1152 ≤ k.val → ∀ n : Fin 2304, P (ix2 k n) = Q (ix2 k n))
    (hQ : headOk Q) : headOk P :=
  ⟨fun n => (h ⟨1152, by decide⟩ (Nat.le_refl _) n).trans (hQ.1 n), fun k hk n => (h k (by omega) n).trans (hQ.2 k hk n)⟩

variable {c : Dev nD} {i : grid0.Coords} {arg2 : Memref sig .tc .vmem S9x2304 .f32} {harg2 : arg2.IsWhole} {arg3 : Memref sig .tc .vmem S1x1x64x2304 .f32} {harg3 : arg3.IsWhole} {arg4 : Memref sig .tc .vmem S2x192x1160 .f32} {harg4 : arg4.IsWhole} {arg5 : Memref sig .tc .vmem S2x64x576 .f32} {harg5 : arg5.IsWhole} {arg6 : Memref sig .tc .vmem S1x1x64x2304 .f32} {harg6 : arg6.IsWhole} {arg7 : Memref sig .tc .vmem S1x2x64x2304 .f32} {harg7 : arg7.IsWhole} {arg8 : Memref sig .tc .vmem S2x64x2304 .f32} {harg8 : arg8.IsWhole} {arg9 : Memref sig .tc .vmem S1160x2304 .f32} {harg9 : arg9.IsWhole} {arg10 : Memref sig .tc .vmem S576x2304 .f32} {harg10 : arg10.IsWhole} {hc0 : cond0_0 i} {hc1 : ¬cond0_1 i}
  {x0 : Vec Ideal S9x2304 .f32} {x1 : Vec Ideal S1x1x64x2304 .f32} {x2 : Vec Ideal S2x192x1160 .f32} {x3 : Vec Ideal S2x64x576 .f32}
  {W1 : Fin 2 → Fin 192 → Fin 1160 → EReal} {W2 : Fin 2 → Fin 64 → Fin 576 → EReal} {M : Fin 9 → Row} {x : Fin 32 → Row}

-- Both layers load zero states: the reset filled the state scratch, and layer 0's store misses layer 1's slab.
theorem v5_A (ch : Fin 64) (n : Fin 2304) : kernelRun0_A.sl.v5 (F := Ideal) c arg8 (ix3 (0 : Fin 1) ch n) = 0 :=
  (Loads.readAt_unit_apply arg8.view _ inb_S2x64x2304_S1x64x2304_0_0_0 (ix3 (0 : Fin 1) ch n) (ix3 (0 : Fin 2) ch n) (fun a => match a with | ⟨0, _⟩ => rfl | ⟨1, _⟩ => (Nat.zero_add _).symm | ⟨2, _⟩ => (Nat.zero_add _).symm)).trans
    ((View.read_writes_cons_unit_of_mem arg8.view _ _ _ _ (ix3 (0 : Fin 2) ch n) (ix3 (0 : Fin 2) ch n) rfl (fun a => match a with | ⟨0, _⟩ => (Nat.zero_add _).symm | ⟨1, _⟩ => (Nat.zero_add _).symm | ⟨2, _⟩ => (Nat.zero_add _).symm)).trans (Pay1.zeroState_apply _))

theorem v244_A (ch : Fin 64) (n : Fin 2304) : kernelRun0_A.sl.v244 (F := Ideal) c arg2 harg2 arg3 harg3 arg4 harg4 arg5 harg5 arg8 arg9 arg10 x0 x1 x2 x3 (ix3 (0 : Fin 1) ch n) = 0 :=
  (Loads.readAt_unit_apply arg8.view _ inb_S2x64x2304_S1x64x2304_1_0_0 (ix3 (0 : Fin 1) ch n) (ix3 (1 : Fin 2) ch n) (fun a => match a with | ⟨0, _⟩ => rfl | ⟨1, _⟩ => (Nat.zero_add _).symm | ⟨2, _⟩ => (Nat.zero_add _).symm)).trans
    ((View.read_writes_cons_unit_of_not_mem arg8.view _ _ _ _ (ix3 (1 : Fin 2) ch n) rfl (0 : Fin 3) (Or.inr (Nat.le_refl 1))).trans
      ((View.read_writes_cons_unit_of_mem arg8.view _ _ _ _ (ix3 (1 : Fin 2) ch n) (ix3 (1 : Fin 2) ch n) rfl (fun a => match a with | ⟨0, _⟩ => (Nat.zero_add _).symm | ⟨1, _⟩ => (Nat.zero_add _).symm | ⟨2, _⟩ => (Nat.zero_add _).symm)).trans (Pay1.zeroState_apply _)))

section
variable {sig' : RefSig} {κ : Kind} {sp : Space} (v : View sig' κ sp S1160x2304 .f32) (f : v.ty.Contents (Elt Ideal))

-- The tile stores leave the constant rows as the first stores set them.
theorem rest0 : headOk (v.read (Elt Ideal) (v.writes (Elt Ideal) f (kernelRun0_A.sl.HS1_20 (F := Ideal) c arg2 harg2 arg3 harg3 arg8 x0 x1))) := by
  exact headOk_of (Tiles.tiles0_rest _ _ (Loads.mload arg2 (harg2.unread x0)) v f _) (tailA_ok v f)

theorem rest1 : headOk (v.read (Elt Ideal) (v.writes (Elt Ideal) f (kernelRun0_A.sl.HS1_38 (F := Ideal) c arg2 harg2 arg3 harg3 arg4 harg4 arg5 harg5 arg8 arg9 arg10 x0 x1 x2 x3))) := by
  exact headOk_of (Tiles.tiles1_rest _ _ _ _ _ (Loads.mload arg2 (harg2.unread x0)) v f _) (rest0 v f)

end

theorem r1_apply (ch : Fin 64) (n : Fin 2304) : (kernelRun0_A.sl.r_1 (F := Ideal) c arg8) (ix2 ch n) = Spec.zeroState ch n :=
  (Pay0.stCast_apply _ ch n).trans (v5_A ch n)

theorem r12_apply (ch : Fin 64) (n : Fin 2304) : (kernelRun0_A.sl.r_12 (F := Ideal) c arg2 harg2 arg3 harg3 arg4 harg4 arg5 harg5 arg8 arg9 arg10 x0 x1 x2 x3) (ix2 ch n) = Spec.zeroState ch n :=
  (Pay1.stCast_apply _ ch n).trans (v244_A ch n)

theorem zero_fin (ch : Fin 64) (n : Fin 2304) : ∃ r : ℝ, Spec.zeroState ch n = (r : EReal) :=
  ⟨0, EReal.coe_zero.symm⟩

-- A loaded mask row is the block's row, which is the mask.
theorem hm (hb : BlocksOk W1 W2 M x x0 x1 x2 x3) (k : Fin 9) (n : Fin 2304) : Loads.mload arg2 (harg2.unread x0) k (ix2 (0 : Fin 1) n) = M k n :=
  (Loads.mask arg2 harg2 x0 k n).trans (hb.mask k n)

section
variable (hb : BlocksOk W1 W2 M x x0 x1 x2 x3)
include hb

-- Layer 0's first patch matrix: the input's taps and the zero state's, over the constant rows.
theorem patch0 : Layer.Patch1 M (Spec.pad x) Spec.zeroState (kernelRun0_A.sl.v151 (F := Ideal) c arg2 harg2 arg3 harg3 arg8 arg9 x0 x1) := by
  refine (congrArg _ (Loads.patch1_cov arg9 _)).mpr ⟨?_, ?_, (rest0 _ _).1, (rest0 _ _).2⟩
  · exact Tiles.tiles0_x M _ _ _ (Loads.mload arg2 (harg2.unread x0)) _ _ _ (fun c n => (Loads.input arg3 harg3 x1 c n).trans (hb.xin c n)) (hm hb)
  · exact Tiles.tiles0_s M _ _ _ (Loads.mload arg2 (harg2.unread x0)) _ _ _ v5_A (hm hb)

-- Layer 0's second patch matrix: the taps of the gated state.
theorem patchQ0 : Layer.Patch2 M (Spec.gated (W1 0) M (Spec.pad x) Spec.zeroState) (kernelRun0_A.sl.v232 (F := Ideal) c arg2 harg2 arg3 harg3 arg4 harg4 arg8 arg9 arg10 x0 x1 x2) := by
  refine (congrArg _ (Loads.patch2_cov arg10 _)).mpr ?_
  exact ⟨Tiles.gtiles0_g M _ _ _ _ (Loads.mload arg2 (harg2.unread x0)) _ _ _ (Layer.gated0 _ M _ _ _ _ _ r1_apply (fun o k => (Loads.w1_0 arg4 harg4 x2 o k).trans (hb.w1 0 o k)) (patch0 hb)) (hm hb)⟩

theorem next0 (ch : Fin 64) (n : Fin 2304) :
    k0_pay48 (kernelRun0_A.sl.r_1 (F := Ideal) c arg8) (kernelRun0_A.sl.r_5 (F := Ideal) c arg2 harg2 arg3 harg3 arg4 harg4 arg8 arg9 x0 x1 x2) (kernelRun0_A.sl.r_10 (F := Ideal) c arg2 harg2 arg3 harg3 arg4 harg4 arg5 harg5 arg8 arg9 arg10 x0 x1 x2 x3) (kernelRun0_A.sl.cst_117 (F := Ideal)) (ix2 ch n) = Spec.next0 W1 W2 M x Spec.zeroState ch n :=
  Layer.next0 (W1 0) (W2 0) M _ _ _ _ _ _ _ _ r1_apply (fun o k => (Loads.w1_0 arg4 harg4 x2 o k).trans (hb.w1 0 o k)) (fun ch k => (Loads.w2_0 arg5 harg5 x3 ch k).trans (hb.w2 0 ch k)) (patch0 hb) (patchQ0 hb) Pay1.cst_one zero_fin ch n

-- Layer 1's first patch matrix: its input rows are layer 0's new state.
theorem patch1 : Layer.Patch1 M (Spec.next0 W1 W2 M x Spec.zeroState) Spec.zeroState (kernelRun0_A.sl.v390 (F := Ideal) c arg2 harg2 arg3 harg3 arg4 harg4 arg5 harg5 arg8 arg9 arg10 x0 x1 x2 x3) := by
  refine (congrArg _ (Loads.patch1_cov arg9 _)).mpr ⟨?_, ?_, (rest1 _ _).1, (rest1 _ _).2⟩
  · exact Tiles.tiles1_x M _ _ _ _ _ _ (Loads.mload arg2 (harg2.unread x0)) _ _ _ (next0 hb) (hm hb)
  · exact Tiles.tiles1_s M _ _ _ _ _ _ (Loads.mload arg2 (harg2.unread x0)) _ _ _ v244_A (hm hb)

-- Layer 1's second patch matrix.
theorem patchQ1 : Layer.Patch2 M (Spec.gated (W1 1) M (Spec.next0 W1 W2 M x Spec.zeroState) Spec.zeroState) (kernelRun0_A.sl.v471 (F := Ideal) c arg2 harg2 arg3 harg3 arg4 harg4 arg5 harg5 arg8 arg9 arg10 x0 x1 x2 x3) := by
  refine (congrArg _ (Loads.patch2_cov arg10 _)).mpr ?_
  exact ⟨Tiles.gtiles1_g M _ _ _ _ (Loads.mload arg2 (harg2.unread x0)) _ _ _ (Layer.gated1 _ M _ _ _ _ _ r12_apply (fun o k => (Loads.w1_1 arg4 harg4 x2 o k).trans (hb.w1 1 o k)) (patch1 hb)) (hm hb)⟩

theorem next1 (ch : Fin 64) (n : Fin 2304) :
    k0_pay1 (kernelRun0_A.sl.r_12 (F := Ideal) c arg2 harg2 arg3 harg3 arg4 harg4 arg5 harg5 arg8 arg9 arg10 x0 x1 x2 x3) (kernelRun0_A.sl.r_17 (F := Ideal) c arg2 harg2 arg3 harg3 arg4 harg4 arg5 harg5 arg8 arg9 arg10 x0 x1 x2 x3) (kernelRun0_A.sl.r_23 (F := Ideal) c arg2 harg2 arg3 harg3 arg4 harg4 arg5 harg5 arg8 arg9 arg10 x0 x1 x2 x3) (kernelRun0_A.sl.r_24 (F := Ideal) c arg2 harg2 arg3 harg3 arg4 harg4 arg5 harg5 arg8 arg9 arg10 x0 x1 x2 x3) (ix2 ch n) = Spec.next1 W1 W2 M x Spec.zeroState Spec.zeroState ch n :=
  Layer.next1 (W1 1) (W2 1) M _ _ _ _ _ _ _ r12_apply (fun o k => (Loads.w1_1 arg4 harg4 x2 o k).trans (hb.w1 1 o k)) (fun ch k => (Loads.w2_1 arg5 harg5 x3 ch k).trans (hb.w2 1 ch k)) (patch1 hb) (patchQ1 hb) zero_fin ch n

end

variable (c i arg2 harg2 arg3 harg3 arg4 harg4 arg5 harg5 arg6 harg6 arg7 harg7 arg8 harg8 arg9 harg9 arg10 harg10 hc0 hc1 x0 x1 x2 x3 W1 W2 M x)

-- A first step: the new states from the zero state, and the constant rows are set.
theorem stepA {sig' : RefSig} {κ : Kind} {sp : Space} (v0 : View sig' κ sp S2x64x2304 .f32) (f0 : v0.ty.Contents (Elt Ideal))
    {sig'' : RefSig} {κ' : Kind} {sp' : Space} (v1 : View sig'' κ' sp' S1160x2304 .f32) (f1 : v1.ty.Contents (Elt Ideal))
    (hb : BlocksOk W1 W2 M x x0 x1 x2 x3) :
    st (v0.read (Elt Ideal) (v0.writes (Elt Ideal) f0 (kernelRun0_A (F := Ideal) c i arg2 harg2 arg3 harg3 arg4 harg4 arg5 harg5 arg6 harg6 arg7 harg7 arg8 harg8 arg9 harg9 arg10 harg10 hc0 hc1 x0 x1 x2 x3).2.1))
        = (Spec.next0 W1 W2 M x Spec.zeroState, Spec.next1 W1 W2 M x Spec.zeroState Spec.zeroState)
      ∧ headOk (v1.read (Elt Ideal) (v1.writes (Elt Ideal) f1 (kernelRun0_A (F := Ideal) c i arg2 harg2 arg3 harg3 arg4 harg4 arg5 harg5 arg6 harg6 arg7 harg7 arg8 harg8 arg9 harg9 arg10 harg10 hc0 hc1 x0 x1 x2 x3).2.2.1)) := by
  refine ⟨Prod.ext (funext fun ch => funext fun n => ?_) (funext fun ch => funext fun n => ?_), rest1 v1 f1⟩
  · refine (View.read_writes_cons_unit_of_not_mem v0 _ _ _ _ (ix3 (0 : Fin 2) ch n) rfl (0 : Fin 3) (Or.inl Nat.zero_lt_one)).trans ?_
    refine (View.read_writes_cons_unit_of_mem v0 _ _ _ _ (ix3 (0 : Fin 2) ch n) (ix3 (0 : Fin 1) ch n) rfl ?_).trans ?_
    · exact fun a => match a with | ⟨0, _⟩ => rfl | ⟨1, _⟩ => (Nat.zero_add _).symm | ⟨2, _⟩ => (Nat.zero_add _).symm
    exact (Pay0.newStateStore_apply _ _ _ _ (0 : Fin 1) ch n).trans (next0 hb ch n)
  · refine (View.read_writes_cons_unit_of_mem v0 _ _ _ _ (ix3 (1 : Fin 2) ch n) (ix3 (0 : Fin 1) ch n) rfl ?_).trans ?_
    · exact fun a => match a with | ⟨0, _⟩ => rfl | ⟨1, _⟩ => (Nat.zero_add _).symm | ⟨2, _⟩ => (Nat.zero_add _).symm
    exact (Pay1.newStateStore_apply _ _ _ _ (0 : Fin 1) ch n).trans (next1 hb ch n)

-- The per-step output block is layer 1's slab of the new state.
theorem yblkA {sig' : RefSig} {κ : Kind} {sp : Space} (v : View sig' κ sp S1x1x64x2304 .f32) (f : v.ty.Contents (Elt Ideal))
    {sig'' : RefSig} {κ' : Kind} {sp' : Space} (v0 : View sig'' κ' sp' S2x64x2304 .f32) (f0 : v0.ty.Contents (Elt Ideal))
    (ch : Fin 64) (n : Fin 2304) :
    v.read (Elt Ideal) (v.writes (Elt Ideal) f (kernelRun0_A (F := Ideal) c i arg2 harg2 arg3 harg3 arg4 harg4 arg5 harg5 arg6 harg6 arg7 harg7 arg8 harg8 arg9 harg9 arg10 harg10 hc0 hc1 x0 x1 x2 x3).1) (ix4 (0 : Fin 1) (0 : Fin 1) ch n)
      = v0.read (Elt Ideal) (v0.writes (Elt Ideal) f0 (kernelRun0_A (F := Ideal) c i arg2 harg2 arg3 harg3 arg4 harg4 arg5 harg5 arg6 harg6 arg7 harg7 arg8 harg8 arg9 harg9 arg10 harg10 hc0 hc1 x0 x1 x2 x3).2.1) (ix3 (1 : Fin 2) ch n) := by
  refine (View.read_writes_cons_unit_of_mem v _ _ _ _ (ix4 (0 : Fin 1) (0 : Fin 1) ch n) (ix4 (0 : Fin 1) (0 : Fin 1) ch n) rfl ?_).trans ?_
  · exact fun a => match a with | ⟨0, _⟩ => rfl | ⟨1, _⟩ => rfl | ⟨2, _⟩ => (Nat.zero_add _).symm | ⟨3, _⟩ => (Nat.zero_add _).symm
  refine ((Pay1.newStateOut_apply _ _ _ _ (0 : Fin 1) (0 : Fin 1) ch n).trans (Pay1.newStateStore_apply _ _ _ _ (0 : Fin 1) ch n).symm).trans (Eq.symm ?_)
  refine (View.read_writes_cons_unit_of_mem v0 _ _ _ _ (ix3 (1 : Fin 2) ch n) (ix3 (0 : Fin 1) ch n) rfl ?_).trans rfl
  exact fun a => match a with | ⟨0, _⟩ => rfl | ⟨1, _⟩ => (Nat.zero_add _).symm | ⟨2, _⟩ => (Nat.zero_add _).symm

theorem stepA_frame (hb : BlocksOk W1 W2 M x x0 x1 x2 x3) :
    st (sout0_A_0 c i arg2 harg2 arg3 harg3 arg4 harg4 arg5 harg5 arg6 harg6 arg7 harg7 scM0_0 (Memref.isWhole_whole _) scM0_1 (Memref.isWhole_whole _) scM0_2 (Memref.isWhole_whole _) hc0 hc1 x0 x1 x2 x3)
        = (Spec.next0 W1 W2 M x Spec.zeroState, Spec.next1 W1 W2 M x Spec.zeroState Spec.zeroState)
      ∧ headOk (sout0_A_1 c i arg2 harg2 arg3 harg3 arg4 harg4 arg5 harg5 arg6 harg6 arg7 harg7 scM0_0 (Memref.isWhole_whole _) scM0_1 (Memref.isWhole_whole _) scM0_2 (Memref.isWhole_whole _) hc0 hc1 x0 x1 x2 x3) :=
  stepA c i arg2 harg2 arg3 harg3 arg4 harg4 arg5 harg5 arg6 harg6 arg7 harg7 scM0_0 (Memref.isWhole_whole _) scM0_1 (Memref.isWhole_whole _) scM0_2 (Memref.isWhole_whole _) hc0 hc1 x0 x1 x2 x3 W1 W2 M x VS0_0 VS0_0.junk VS0_1 VS0_1.junk hb

theorem yblkA_frame (ch : Fin 64) (n : Fin 2304) :
    out0_A_4 c i arg2 harg2 arg3 harg3 arg4 harg4 arg5 harg5 arg6 harg6 arg7 harg7 scM0_0 (Memref.isWhole_whole _) scM0_1 (Memref.isWhole_whole _) scM0_2 (Memref.isWhole_whole _) hc0 hc1 x0 x1 x2 x3 (ix4 (0 : Fin 1) (0 : Fin 1) ch n)
      = sout0_A_0 c i arg2 harg2 arg3 harg3 arg4 harg4 arg5 harg5 arg6 harg6 arg7 harg7 scM0_0 (Memref.isWhole_whole _) scM0_1 (Memref.isWhole_whole _) scM0_2 (Memref.isWhole_whole _) hc0 hc1 x0 x1 x2 x3 (ix3 (1 : Fin 2) ch n) :=
  yblkA c i arg2 harg2 arg3 harg3 arg4 harg4 arg5 harg5 arg6 harg6 arg7 harg7 scM0_0 (Memref.isWhole_whole _) scM0_1 (Memref.isWhole_whole _) scM0_2 (Memref.isWhole_whole _) hc0 hc1 x0 x1 x2 x3 VO0_4 VO0_4.junk VS0_0 VS0_0.junk ch n

end Cert.ReferenceIdeal.Par.A

end
-- ==== Proof.RI.StepB.lean ====
import proofs.«130420_g2000206920649175_pallasbulk_1279_2_alg».proof.Proof.RI.Facts
import proofs.«130420_g2000206920649175_pallasbulk_1279_2_alg».proof.Proof.RI.Layer
import proofs.«130420_g2000206920649175_pallasbulk_1279_2_alg».proof.Proof.RI.Tiles
import proofs.«130420_g2000206920649175_pallasbulk_1279_2_alg».proof.Proof.RI.Loads

noncomputable section

namespace Cert.ReferenceIdeal.Par.B

open Idealize.ShloMosaic Idealize.ShloMosaic.TcCoe Idealize.ShloMosaic.ValueIdx
open Idealize.SL.Sem
open Cert.ReferenceIdeal Cert.ReferenceIdeal.Gen Cert.ReferenceIdeal.Hand
open Cert.Spec (Row)

variable {c : Dev nD} {i : grid0.Coords} {arg2 : Memref sig .tc .vmem S9x2304 .f32} {harg2 : arg2.IsWhole} {arg3 : Memref sig .tc .vmem S1x1x64x2304 .f32} {harg3 : arg3.IsWhole} {arg4 : Memref sig .tc .vmem S2x192x1160 .f32} {harg4 : arg4.IsWhole} {arg5 : Memref sig .tc .vmem S2x64x576 .f32} {harg5 : arg5.IsWhole} {arg6 : Memref sig .tc .vmem S1x1x64x2304 .f32} {harg6 : arg6.IsWhole} {arg7 : Memref sig .tc .vmem S1x2x64x2304 .f32} {harg7 : arg7.IsWhole} {arg8 : Memref sig .tc .vmem S2x64x2304 .f32} {harg8 : arg8.IsWhole} {arg9 : Memref sig .tc .vmem S1160x2304 .f32} {harg9 : arg9.IsWhole} {arg10 : Memref sig .tc .vmem S576x2304 .f32} {harg10 : arg10.IsWhole} {hc0 : ¬cond0_0 i} {hc1 : ¬cond0_1 i}
  {x0 : Vec Ideal S9x2304 .f32} {x1 : Vec Ideal S1x1x64x2304 .f32} {x2 : Vec Ideal S2x192x1160 .f32} {x3 : Vec Ideal S2x64x576 .f32} {xs0 : Vec Ideal S2x64x2304 .f32} {xs1 : Vec Ideal S1160x2304 .f32} {xs2 : Vec Ideal S576x2304 .f32}
  {W1 : Fin 2 → Fin 192 → Fin 1160 → EReal} {W2 : Fin 2 → Fin 64 → Fin 576 → EReal} {M : Fin 9 → Row} {x : Fin 32 → Row}

-- A loaded mask row is the block's row, which is the mask.
theorem hm (hb : BlocksOk W1 W2 M x x0 x1 x2 x3) (k : Fin 9) (n : Fin 2304) : Loads.mload arg2 (harg2.unread x0) k (ix2 (0 : Fin 1) n) = M k n :=
  (Loads.mask arg2 harg2 x0 k n).trans (hb.mask k n)

-- The tile stores leave rows from 1152 on as the step found them.
theorem rest0 (k : Fin 1160) (hk : 1152 ≤ k.val) (n : Fin 2304) :
    arg9.view.read (Elt Ideal) (arg9.view.writes (Elt Ideal) (harg9.unread xs1) (kernelRun0_B.sl.HS1_18 (F := Ideal) c arg2 harg2 arg3 harg3 arg8 harg8 x0 x1 xs0)) (ix2 k n) = xs1 (ix2 k n) := by
  exact (Tiles.tiles0_rest _ _ (Loads.mload arg2 (harg2.unread x0)) _ _ _ k hk n).trans (congrFun (harg9.read_unread xs1) _)

theorem rest1 (k : Fin 1160) (hk : 1152 ≤ k.val) (n : Fin 2304) :
    arg9.view.read (Elt Ideal) (arg9.view.writes (Elt Ideal) (harg9.unread xs1) (kernelRun0_B.sl.HS1_36 (F := Ideal) c arg2 harg2 arg3 harg3 arg4 harg4 arg5 harg5 arg8 harg8 arg9 harg9 arg10 x0 x1 x2 x3 xs0 xs1)) (ix2 k n) = xs1 (ix2 k n) := by
  exact (Tiles.tiles1_rest _ _ _ _ _ (Loads.mload arg2 (harg2.unread x0)) _ _ _ k hk n).trans (rest0 k hk n)

theorem r1_apply (ch : Fin 64) (n : Fin 2304) : (kernelRun0_B.sl.r_1 (F := Ideal) c arg8 harg8 xs0) (ix2 ch n) = (st xs0).1 ch n :=
  (Pay0.stCast_apply _ ch n).trans (Loads.state0 arg8 harg8 xs0 ch n)

theorem r12_apply (ch : Fin 64) (n : Fin 2304) : (kernelRun0_B.sl.r_12 (F := Ideal) c arg8 harg8 xs0) (ix2 ch n) = (st xs0).2 ch n :=
  (Pay1.stCast_apply _ ch n).trans (Loads.state1 arg8 harg8 xs0 ch n)

section
variable (hb : BlocksOk W1 W2 M x x0 x1 x2 x3) (hh : headOk xs1)
include hb hh

-- Layer 0's first patch matrix: the input's and the state's taps, over the constant rows the step found.
theorem patch0 :
    Layer.Patch1 M (Spec.pad x) (st xs0).1 (View.readAt (Elt Ideal) arg9.view (Rect.unit (s := S1160x2304) ![0, 0] S1160x2304.size inb_S1160x2304_S1160x2304_0_0).toLoadRect (arg9.view.writes (Elt Ideal) (harg9.unread xs1) (kernelRun0_B.sl.HS1_18 (F := Ideal) c arg2 harg2 arg3 harg3 arg8 harg8 x0 x1 xs0))) := by
  refine (congrArg _ (Loads.patch1 arg9 _)).mpr ⟨?_, ?_, fun n => (rest0 ⟨1152, by decide⟩ (Nat.le_refl _) n).trans (hh.1 n), fun k hk n => (rest0 k (by omega) n).trans (hh.2 k hk n)⟩
  · exact Tiles.tiles0_x M _ _ _ (Loads.mload arg2 (harg2.unread x0)) _ _ _ (fun c n => (Loads.input arg3 harg3 x1 c n).trans (hb.xin c n)) (hm hb)
  · exact Tiles.tiles0_s M _ _ _ (Loads.mload arg2 (harg2.unread x0)) _ _ _ (Loads.state0 arg8 harg8 xs0) (hm hb)

-- Layer 0's second patch matrix: the taps of the gated state.
theorem patchQ0 :
    Layer.Patch2 M (Spec.gated (W1 0) M (Spec.pad x) (st xs0).1) (kernelRun0_B.sl.v232 (F := Ideal) c arg2 harg2 arg3 harg3 arg4 harg4 arg8 harg8 arg9 harg9 arg10 x0 x1 x2 xs0 xs1) := by
  refine (congrArg _ (Loads.patch2_cov arg10 _)).mpr ?_
  exact ⟨Tiles.gtiles0_g M _ _ _ _ (Loads.mload arg2 (harg2.unread x0)) _ _ _ (Layer.gated0 _ M _ _ _ _ _ r1_apply (fun o k => (Loads.w1_0 arg4 harg4 x2 o k).trans (hb.w1 0 o k)) (patch0 hb hh)) (hm hb)⟩

variable (hf : Fin2 (st xs0))
include hf

theorem next0 (ch : Fin 64) (n : Fin 2304) :
    k0_pay48 (kernelRun0_B.sl.r_1 (F := Ideal) c arg8 harg8 xs0) (kernelRun0_B.sl.r_5 (F := Ideal) c arg2 harg2 arg3 harg3 arg4 harg4 arg8 harg8 arg9 harg9 x0 x1 x2 xs0 xs1) (kernelRun0_B.sl.r_10 (F := Ideal) c arg2 harg2 arg3 harg3 arg4 harg4 arg5 harg5 arg8 harg8 arg9 harg9 arg10 x0 x1 x2 x3 xs0 xs1) (kernelRun0_B.sl.cst_117 (F := Ideal)) (ix2 ch n) = Spec.next0 W1 W2 M x (st xs0).1 ch n :=
  Layer.next0 (W1 0) (W2 0) M _ _ _ _ _ _ _ _ r1_apply (fun o k => (Loads.w1_0 arg4 harg4 x2 o k).trans (hb.w1 0 o k)) (fun ch k => (Loads.w2_0 arg5 harg5 x3 ch k).trans (hb.w2 0 ch k)) (patch0 hb hh) (patchQ0 hb hh) Pay1.cst_one hf.1 ch n

-- Layer 1's first patch matrix: its input rows are layer 0's new state.
theorem patch1 :
    Layer.Patch1 M (Spec.next0 W1 W2 M x (st xs0).1) (st xs0).2 (kernelRun0_B.sl.v390 (F := Ideal) c arg2 harg2 arg3 harg3 arg4 harg4 arg5 harg5 arg8 harg8 arg9 harg9 arg10 x0 x1 x2 x3 xs0 xs1) := by
  refine (congrArg _ (Loads.patch1 arg9 _)).mpr ⟨?_, ?_, fun n => (rest1 ⟨1152, by decide⟩ (Nat.le_refl _) n).trans (hh.1 n), fun k hk n => (rest1 k (by omega) n).trans (hh.2 k hk n)⟩
  · exact Tiles.tiles1_x M _ _ _ _ _ _ (Loads.mload arg2 (harg2.unread x0)) _ _ _ (next0 hb hh hf) (hm hb)
  · exact Tiles.tiles1_s M _ _ _ _ _ _ (Loads.mload arg2 (harg2.unread x0)) _ _ _ (Loads.state1 arg8 harg8 xs0) (hm hb)

-- Layer 1's second patch matrix.
theorem patchQ1 :
    Layer.Patch2 M (Spec.gated (W1 1) M (Spec.next0 W1 W2 M x (st xs0).1) (st xs0).2) (kernelRun0_B.sl.v471 (F := Ideal) c arg2 harg2 arg3 harg3 arg4 harg4 arg5 harg5 arg8 harg8 arg9 harg9 arg10 x0 x1 x2 x3 xs0 xs1) := by
  refine (congrArg _ (Loads.patch2_cov arg10 _)).mpr ?_
  exact ⟨Tiles.gtiles1_g M _ _ _ _ (Loads.mload arg2 (harg2.unread x0)) _ _ _ (Layer.gated1 _ M _ _ _ _ _ r12_apply (fun o k => (Loads.w1_1 arg4 harg4 x2 o k).trans (hb.w1 1 o k)) (patch1 hb hh hf)) (hm hb)⟩

theorem next1 (ch : Fin 64) (n : Fin 2304) :
    k0_pay1 (kernelRun0_B.sl.r_12 (F := Ideal) c arg8 harg8 xs0) (kernelRun0_B.sl.r_17 (F := Ideal) c arg2 harg2 arg3 harg3 arg4 harg4 arg5 harg5 arg8 harg8 arg9 harg9 arg10 x0 x1 x2 x3 xs0 xs1) (kernelRun0_B.sl.r_23 (F := Ideal) c arg2 harg2 arg3 harg3 arg4 harg4 arg5 harg5 arg8 harg8 arg9 harg9 arg10 x0 x1 x2 x3 xs0 xs1) (kernelRun0_B.sl.r_24 (F := Ideal) c arg2 harg2 arg3 harg3 arg4 harg4 arg5 harg5 arg8 harg8 arg9 harg9 arg10 x0 x1 x2 x3 xs0 xs1) (ix2 ch n) = Spec.next1 W1 W2 M x (st xs0).1 (st xs0).2 ch n :=
  Layer.next1 (W1 1) (W2 1) M _ _ _ _ _ _ _ r12_apply (fun o k => (Loads.w1_1 arg4 harg4 x2 o k).trans (hb.w1 1 o k)) (fun ch k => (Loads.w2_1 arg5 harg5 x3 ch k).trans (hb.w2 1 ch k)) (patch1 hb hh hf) (patchQ1 hb hh hf) hf.2 ch n

end

variable (c i arg2 harg2 arg3 harg3 arg4 harg4 arg5 harg5 arg6 harg6 arg7 harg7 arg8 harg8 arg9 harg9 arg10 harg10 hc0 hc1 x0 x1 x2 x3 xs0 xs1 xs2 W1 W2 M x)

-- A middle step: the state scratch holds the two new states, and the constant rows stay.
theorem stepB (hb : BlocksOk W1 W2 M x x0 x1 x2 x3) (hh : headOk xs1) (hf : Fin2 (st xs0)) :
    st (arg8.view.read (Elt Ideal) (arg8.view.writes (Elt Ideal) (harg8.unread xs0) (kernelRun0_B (F := Ideal) c i arg2 harg2 arg3 harg3 arg4 harg4 arg5 harg5 arg6 harg6 arg7 harg7 arg8 harg8 arg9 harg9 arg10 harg10 hc0 hc1 x0 x1 x2 x3 xs0 xs1 xs2).2.1))
        = ((Spec.next0 W1 W2 M x (st xs0).1), Spec.next1 W1 W2 M x (st xs0).1 (st xs0).2)
      ∧ headOk (arg9.view.read (Elt Ideal) (arg9.view.writes (Elt Ideal) (harg9.unread xs1) (kernelRun0_B (F := Ideal) c i arg2 harg2 arg3 harg3 arg4 harg4 arg5 harg5 arg6 harg6 arg7 harg7 arg8 harg8 arg9 harg9 arg10 harg10 hc0 hc1 x0 x1 x2 x3 xs0 xs1 xs2).2.2.1)) := by
  refine ⟨Prod.ext (funext fun ch => funext fun n => ?_) (funext fun ch => funext fun n => ?_), fun n => (rest1 ⟨1152, by decide⟩ (Nat.le_refl _) n).trans (hh.1 n), fun k hk n => (rest1 k (by omega) n).trans (hh.2 k hk n)⟩
  · refine (View.read_writes_cons_unit_of_not_mem arg8.view _ _ _ _ (ix3 (0 : Fin 2) ch n) rfl (0 : Fin 3) (Or.inl Nat.zero_lt_one)).trans ?_
    refine (View.read_writes_cons_unit_of_mem arg8.view _ _ _ _ (ix3 (0 : Fin 2) ch n) (ix3 (0 : Fin 1) ch n) rfl ?_).trans ?_
    · exact fun a => match a with | ⟨0, _⟩ => rfl | ⟨1, _⟩ => (Nat.zero_add _).symm | ⟨2, _⟩ => (Nat.zero_add _).symm
    exact (Pay0.newStateStore_apply _ _ _ _ (0 : Fin 1) ch n).trans (next0 hb hh hf ch n)
  · refine (View.read_writes_cons_unit_of_mem arg8.view _ _ _ _ (ix3 (1 : Fin 2) ch n) (ix3 (0 : Fin 1) ch n) rfl ?_).trans ?_
    · exact fun a => match a with | ⟨0, _⟩ => rfl | ⟨1, _⟩ => (Nat.zero_add _).symm | ⟨2, _⟩ => (Nat.zero_add _).symm
    exact (Pay1.newStateStore_apply _ _ _ _ (0 : Fin 1) ch n).trans (next1 hb hh hf ch n)

-- The per-step output block is layer 1's slab of the new state.
theorem yblkB {sig' : RefSig} {κ : Kind} {sp : Space} (v : View sig' κ sp S1x1x64x2304 .f32) (f : v.ty.Contents (Elt Ideal))
    (ch : Fin 64) (n : Fin 2304) :
    v.read (Elt Ideal) (v.writes (Elt Ideal) f (kernelRun0_B (F := Ideal) c i arg2 harg2 arg3 harg3 arg4 harg4 arg5 harg5 arg6 harg6 arg7 harg7 arg8 harg8 arg9 harg9 arg10 harg10 hc0 hc1 x0 x1 x2 x3 xs0 xs1 xs2).1) (ix4 (0 : Fin 1) (0 : Fin 1) ch n)
      = arg8.view.read (Elt Ideal) (arg8.view.writes (Elt Ideal) (harg8.unread xs0) (kernelRun0_B (F := Ideal) c i arg2 harg2 arg3 harg3 arg4 harg4 arg5 harg5 arg6 harg6 arg7 harg7 arg8 harg8 arg9 harg9 arg10 harg10 hc0 hc1 x0 x1 x2 x3 xs0 xs1 xs2).2.1) (ix3 (1 : Fin 2) ch n) := by
  refine (View.read_writes_cons_unit_of_mem v _ _ _ _ (ix4 (0 : Fin 1) (0 : Fin 1) ch n) (ix4 (0 : Fin 1) (0 : Fin 1) ch n) rfl ?_).trans ?_
  · exact fun a => match a with | ⟨0, _⟩ => rfl | ⟨1, _⟩ => rfl | ⟨2, _⟩ => (Nat.zero_add _).symm | ⟨3, _⟩ => (Nat.zero_add _).symm
  refine ((Pay1.newStateOut_apply _ _ _ _ (0 : Fin 1) (0 : Fin 1) ch n).trans (Pay1.newStateStore_apply _ _ _ _ (0 : Fin 1) ch n).symm).trans (Eq.symm ?_)
  refine (View.read_writes_cons_unit_of_mem arg8.view _ _ _ _ (ix3 (1 : Fin 2) ch n) (ix3 (0 : Fin 1) ch n) rfl ?_).trans rfl
  exact fun a => match a with | ⟨0, _⟩ => rfl | ⟨1, _⟩ => (Nat.zero_add _).symm | ⟨2, _⟩ => (Nat.zero_add _).symm

theorem stepB_frame (hb : BlocksOk W1 W2 M x x0 x1 x2 x3) (hh : headOk xs1) (hf : Fin2 (st xs0)) :
    st (sout0_B_0 c i arg2 harg2 arg3 harg3 arg4 harg4 arg5 harg5 arg6 harg6 arg7 harg7 hc0 hc1 x0 x1 x2 x3 xs0 xs1 xs2)
        = ((Spec.next0 W1 W2 M x (st xs0).1), Spec.next1 W1 W2 M x (st xs0).1 (st xs0).2)
      ∧ headOk (sout0_B_1 c i arg2 harg2 arg3 harg3 arg4 harg4 arg5 harg5 arg6 harg6 arg7 harg7 hc0 hc1 x0 x1 x2 x3 xs0 xs1 xs2) :=
  stepB c i arg2 harg2 arg3 harg3 arg4 harg4 arg5 harg5 arg6 harg6 arg7 harg7 scM0_0 (Memref.isWhole_whole _) scM0_1 (Memref.isWhole_whole _) scM0_2 (Memref.isWhole_whole _) hc0 hc1 x0 x1 x2 x3 xs0 xs1 xs2 W1 W2 M x hb hh hf

theorem yblkB_frame (ch : Fin 64) (n : Fin 2304) :
    out0_B_4 c i arg2 harg2 arg3 harg3 arg4 harg4 arg5 harg5 arg6 harg6 arg7 harg7 scM0_0 (Memref.isWhole_whole _) scM0_1 (Memref.isWhole_whole _) scM0_2 (Memref.isWhole_whole _) hc0 hc1 x0 x1 x2 x3 xs0 xs1 xs2 (ix4 (0 : Fin 1) (0 : Fin 1) ch n)
      = sout0_B_0 c i arg2 harg2 arg3 harg3 arg4 harg4 arg5 harg5 arg6 harg6 arg7 harg7 hc0 hc1 x0 x1 x2 x3 xs0 xs1 xs2 (ix3 (1 : Fin 2) ch n) :=
  yblkB c i arg2 harg2 arg3 harg3 arg4 harg4 arg5 harg5 arg6 harg6 arg7 harg7 scM0_0 (Memref.isWhole_whole _) scM0_1 (Memref.isWhole_whole _) scM0_2 (Memref.isWhole_whole _) hc0 hc1 x0 x1 x2 x3 xs0 xs1 xs2 VO0_4 VO0_4.junk ch n

end Cert.ReferenceIdeal.Par.B

end
-- ==== Proof.RI.StepC.lean ====
import proofs.«130420_g2000206920649175_pallasbulk_1279_2_alg».proof.Proof.RI.Facts
import proofs.«130420_g2000206920649175_pallasbulk_1279_2_alg».proof.Proof.RI.Layer
import proofs.«130420_g2000206920649175_pallasbulk_1279_2_alg».proof.Proof.RI.Tiles
import proofs.«130420_g2000206920649175_pallasbulk_1279_2_alg».proof.Proof.RI.Loads

noncomputable section

namespace Cert.ReferenceIdeal.Par.C

open Idealize.ShloMosaic Idealize.ShloMosaic.TcCoe Idealize.ShloMosaic.ValueIdx
open Idealize.SL.Sem
open Cert.ReferenceIdeal Cert.ReferenceIdeal.Gen Cert.ReferenceIdeal.Hand
open Cert.Spec (Row)

variable {c : Dev nD} {i : grid0.Coords} {arg2 : Memref sig .tc .vmem S9x2304 .f32} {harg2 : arg2.IsWhole} {arg3 : Memref sig .tc .vmem S1x1x64x2304 .f32} {harg3 : arg3.IsWhole} {arg4 : Memref sig .tc .vmem S2x192x1160 .f32} {harg4 : arg4.IsWhole} {arg5 : Memref sig .tc .vmem S2x64x576 .f32} {harg5 : arg5.IsWhole} {arg6 : Memref sig .tc .vmem S1x1x64x2304 .f32} {harg6 : arg6.IsWhole} {arg7 : Memref sig .tc .vmem S1x2x64x2304 .f32} {harg7 : arg7.IsWhole} {arg8 : Memref sig .tc .vmem S2x64x2304 .f32} {harg8 : arg8.IsWhole} {arg9 : Memref sig .tc .vmem S1160x2304 .f32} {harg9 : arg9.IsWhole} {arg10 : Memref sig .tc .vmem S576x2304 .f32} {harg10 : arg10.IsWhole} {hc0 : ¬cond0_0 i} {hc1 : cond0_1 i}
  {x0 : Vec Ideal S9x2304 .f32} {x1 : Vec Ideal S1x1x64x2304 .f32} {x2 : Vec Ideal S2x192x1160 .f32} {x3 : Vec Ideal S2x64x576 .f32} {xs0 : Vec Ideal S2x64x2304 .f32} {xs1 : Vec Ideal S1160x2304 .f32} {xs2 : Vec Ideal S576x2304 .f32}
  {W1 : Fin 2 → Fin 192 → Fin 1160 → EReal} {W2 : Fin 2 → Fin 64 → Fin 576 → EReal} {M : Fin 9 → Row} {x : Fin 32 → Row}

-- A loaded mask row is the block's row, which is the mask.
theorem hm (hb : BlocksOk W1 W2 M x x0 x1 x2 x3) (k : Fin 9) (n : Fin 2304) : Loads.mload arg2 (harg2.unread x0) k (ix2 (0 : Fin 1) n) = M k n :=
  (Loads.mask arg2 harg2 x0 k n).trans (hb.mask k n)

-- The tile stores leave rows from 1152 on as the step found them.
theorem rest0 (k : Fin 1160) (hk : 1152 ≤ k.val) (n : Fin 2304) :
    arg9.view.read (Elt Ideal) (arg9.view.writes (Elt Ideal) (harg9.unread xs1) (kernelRun0_C.sl.HS1_18 (F := Ideal) c arg2 harg2 arg3 harg3 arg8 harg8 x0 x1 xs0)) (ix2 k n) = xs1 (ix2 k n) := by
  exact (Tiles.tiles0_rest _ _ (Loads.mload arg2 (harg2.unread x0)) _ _ _ k hk n).trans (congrFun (harg9.read_unread xs1) _)

theorem rest1 (k : Fin 1160) (hk : 1152 ≤ k.val) (n : Fin 2304) :
    arg9.view.read (Elt Ideal) (arg9.view.writes (Elt Ideal) (harg9.unread xs1) (kernelRun0_C.sl.HS1_36 (F := Ideal) c arg2 harg2 arg3 harg3 arg4 harg4 arg5 harg5 arg8 harg8 arg9 harg9 arg10 x0 x1 x2 x3 xs0 xs1)) (ix2 k n) = xs1 (ix2 k n) := by
  exact (Tiles.tiles1_rest _ _ _ _ _ (Loads.mload arg2 (harg2.unread x0)) _ _ _ k hk n).trans (rest0 k hk n)

theorem r1_apply (ch : Fin 64) (n : Fin 2304) : (kernelRun0_C.sl.r_1 (F := Ideal) c arg8 harg8 xs0) (ix2 ch n) = (st xs0).1 ch n :=
  (Pay0.stCast_apply _ ch n).trans (Loads.state0 arg8 harg8 xs0 ch n)

theorem r12_apply (ch : Fin 64) (n : Fin 2304) : (kernelRun0_C.sl.r_12 (F := Ideal) c arg8 harg8 xs0) (ix2 ch n) = (st xs0).2 ch n :=
  (Pay1.stCast_apply _ ch n).trans (Loads.state1 arg8 harg8 xs0 ch n)

section
variable (hb : BlocksOk W1 W2 M x x0 x1 x2 x3) (hh : headOk xs1)
include hb hh

-- Layer 0's first patch matrix: the input's and the state's taps, over the constant rows the step found.
theorem patch0 :
    Layer.Patch1 M (Spec.pad x) (st xs0).1 (View.readAt (Elt Ideal) arg9.view (Rect.unit (s := S1160x2304) ![0, 0] S1160x2304.size inb_S1160x2304_S1160x2304_0_0).toLoadRect (arg9.view.writes (Elt Ideal) (harg9.unread xs1) (kernelRun0_C.sl.HS1_18 (F := Ideal) c arg2 harg2 arg3 harg3 arg8 harg8 x0 x1 xs0))) := by
  refine (congrArg _ (Loads.patch1 arg9 _)).mpr ⟨?_, ?_, fun n => (rest0 ⟨1152, by decide⟩ (Nat.le_refl _) n).trans (hh.1 n), fun k hk n => (rest0 k (by omega) n).trans (hh.2 k hk n)⟩
  · exact Tiles.tiles0_x M _ _ _ (Loads.mload arg2 (harg2.unread x0)) _ _ _ (fun c n => (Loads.input arg3 harg3 x1 c n).trans (hb.xin c n)) (hm hb)
  · exact Tiles.tiles0_s M _ _ _ (Loads.mload arg2 (harg2.unread x0)) _ _ _ (Loads.state0 arg8 harg8 xs0) (hm hb)

-- Layer 0's second patch matrix: the taps of the gated state.
theorem patchQ0 :
    Layer.Patch2 M (Spec.gated (W1 0) M (Spec.pad x) (st xs0).1) (kernelRun0_C.sl.v232 (F := Ideal) c arg2 harg2 arg3 harg3 arg4 harg4 arg8 harg8 arg9 harg9 arg10 x0 x1 x2 xs0 xs1) := by
  refine (congrArg _ (Loads.patch2_cov arg10 _)).mpr ?_
  exact ⟨Tiles.gtiles0_g M _ _ _ _ (Loads.mload arg2 (harg2.unread x0)) _ _ _ (Layer.gated0 _ M _ _ _ _ _ r1_apply (fun o k => (Loads.w1_0 arg4 harg4 x2 o k).trans (hb.w1 0 o k)) (patch0 hb hh)) (hm hb)⟩

variable (hf : Fin2 (st xs0))
include hf

theorem next0 (ch : Fin 64) (n : Fin 2304) :
    k0_pay48 (kernelRun0_C.sl.r_1 (F := Ideal) c arg8 harg8 xs0) (kernelRun0_C.sl.r_5 (F := Ideal) c arg2 harg2 arg3 harg3 arg4 harg4 arg8 harg8 arg9 harg9 x0 x1 x2 xs0 xs1) (kernelRun0_C.sl.r_10 (F := Ideal) c arg2 harg2 arg3 harg3 arg4 harg4 arg5 harg5 arg8 harg8 arg9 harg9 arg10 x0 x1 x2 x3 xs0 xs1) (kernelRun0_C.sl.cst_117 (F := Ideal)) (ix2 ch n) = Spec.next0 W1 W2 M x (st xs0).1 ch n :=
  Layer.next0 (W1 0) (W2 0) M _ _ _ _ _ _ _ _ r1_apply (fun o k => (Loads.w1_0 arg4 harg4 x2 o k).trans (hb.w1 0 o k)) (fun ch k => (Loads.w2_0 arg5 harg5 x3 ch k).trans (hb.w2 0 ch k)) (patch0 hb hh) (patchQ0 hb hh) Pay1.cst_one hf.1 ch n

-- Layer 1's first patch matrix: its input rows are layer 0's new state.
theorem patch1 :
    Layer.Patch1 M (Spec.next0 W1 W2 M x (st xs0).1) (st xs0).2 (kernelRun0_C.sl.v390 (F := Ideal) c arg2 harg2 arg3 harg3 arg4 harg4 arg5 harg5 arg8 harg8 arg9 harg9 arg10 x0 x1 x2 x3 xs0 xs1) := by
  refine (congrArg _ (Loads.patch1 arg9 _)).mpr ⟨?_, ?_, fun n => (rest1 ⟨1152, by decide⟩ (Nat.le_refl _) n).trans (hh.1 n), fun k hk n => (rest1 k (by omega) n).trans (hh.2 k hk n)⟩
  · exact Tiles.tiles1_x M _ _ _ _ _ _ (Loads.mload arg2 (harg2.unread x0)) _ _ _ (next0 hb hh hf) (hm hb)
  · exact Tiles.tiles1_s M _ _ _ _ _ _ (Loads.mload arg2 (harg2.unread x0)) _ _ _ (Loads.state1 arg8 harg8 xs0) (hm hb)

-- Layer 1's second patch matrix.
theorem patchQ1 :
    Layer.Patch2 M (Spec.gated (W1 1) M (Spec.next0 W1 W2 M x (st xs0).1) (st xs0).2) (kernelRun0_C.sl.v471 (F := Ideal) c arg2 harg2 arg3 harg3 arg4 harg4 arg5 harg5 arg8 harg8 arg9 harg9 arg10 x0 x1 x2 x3 xs0 xs1) := by
  refine (congrArg _ (Loads.patch2_cov arg10 _)).mpr ?_
  exact ⟨Tiles.gtiles1_g M _ _ _ _ (Loads.mload arg2 (harg2.unread x0)) _ _ _ (Layer.gated1 _ M _ _ _ _ _ r12_apply (fun o k => (Loads.w1_1 arg4 harg4 x2 o k).trans (hb.w1 1 o k)) (patch1 hb hh hf)) (hm hb)⟩

theorem next1 (ch : Fin 64) (n : Fin 2304) :
    k0_pay1 (kernelRun0_C.sl.r_12 (F := Ideal) c arg8 harg8 xs0) (kernelRun0_C.sl.r_17 (F := Ideal) c arg2 harg2 arg3 harg3 arg4 harg4 arg5 harg5 arg8 harg8 arg9 harg9 arg10 x0 x1 x2 x3 xs0 xs1) (kernelRun0_C.sl.r_23 (F := Ideal) c arg2 harg2 arg3 harg3 arg4 harg4 arg5 harg5 arg8 harg8 arg9 harg9 arg10 x0 x1 x2 x3 xs0 xs1) (kernelRun0_C.sl.r_24 (F := Ideal) c arg2 harg2 arg3 harg3 arg4 harg4 arg5 harg5 arg8 harg8 arg9 harg9 arg10 x0 x1 x2 x3 xs0 xs1) (ix2 ch n) = Spec.next1 W1 W2 M x (st xs0).1 (st xs0).2 ch n :=
  Layer.next1 (W1 1) (W2 1) M _ _ _ _ _ _ _ r12_apply (fun o k => (Loads.w1_1 arg4 harg4 x2 o k).trans (hb.w1 1 o k)) (fun ch k => (Loads.w2_1 arg5 harg5 x3 ch k).trans (hb.w2 1 ch k)) (patch1 hb hh hf) (patchQ1 hb hh hf) hf.2 ch n

end

-- Two slab stores read at a slab: that slab's store.
theorem two0 {sig' : RefSig} {κ : Kind} {sp : Space} (v : View sig' κ sp S2x64x2304 .f32) (f : v.ty.Contents (Elt Ideal))
    (wA wB : FVec Ideal S1x64x2304 .f32) (ch : Fin 64) (n : Fin 2304) :
    v.read (Elt Ideal) (v.writes (Elt Ideal) f [⟨Rect.unit (s := S2x64x2304) ![1, 0, 0] S1x64x2304.size inb_S2x64x2304_S1x64x2304_1_0_0, wA⟩,
       ⟨Rect.unit (s := S2x64x2304) ![0, 0, 0] S1x64x2304.size inb_S2x64x2304_S1x64x2304_0_0_0, wB⟩]) (ix3 (0 : Fin 2) ch n)
      = wB (ix3 (0 : Fin 1) ch n) := by
  refine (View.read_writes_cons_unit_of_not_mem v _ _ _ _ (ix3 (0 : Fin 2) ch n) rfl (0 : Fin 3) (Or.inl Nat.zero_lt_one)).trans ?_
  refine (View.read_writes_cons_unit_of_mem v _ _ _ _ (ix3 (0 : Fin 2) ch n) (ix3 (0 : Fin 1) ch n) rfl ?_).trans ?_
  · exact fun a => match a with | ⟨0, _⟩ => rfl | ⟨1, _⟩ => (Nat.zero_add _).symm | ⟨2, _⟩ => (Nat.zero_add _).symm
  rfl

theorem two1 {sig' : RefSig} {κ : Kind} {sp : Space} (v : View sig' κ sp S2x64x2304 .f32) (f : v.ty.Contents (Elt Ideal))
    (wA wB : FVec Ideal S1x64x2304 .f32) (ch : Fin 64) (n : Fin 2304) :
    v.read (Elt Ideal) (v.writes (Elt Ideal) f [⟨Rect.unit (s := S2x64x2304) ![1, 0, 0] S1x64x2304.size inb_S2x64x2304_S1x64x2304_1_0_0, wA⟩,
       ⟨Rect.unit (s := S2x64x2304) ![0, 0, 0] S1x64x2304.size inb_S2x64x2304_S1x64x2304_0_0_0, wB⟩]) (ix3 (1 : Fin 2) ch n)
      = wA (ix3 (0 : Fin 1) ch n) := by
  refine (View.read_writes_cons_unit_of_mem v _ _ _ _ (ix3 (1 : Fin 2) ch n) (ix3 (0 : Fin 1) ch n) rfl ?_).trans ?_
  · exact fun a => match a with | ⟨0, _⟩ => rfl | ⟨1, _⟩ => (Nat.zero_add _).symm | ⟨2, _⟩ => (Nat.zero_add _).symm
  rfl

-- A slab of the last-state block is the load of that slab of the state scratch after its two stores.
theorem last0 {sig' : RefSig} {κ : Kind} {sp : Space} (v : View sig' κ sp S1x2x64x2304 .f32) (f : v.ty.Contents (Elt Ideal))
    (ch : Fin 64) (n : Fin 2304) :
    v.read (Elt Ideal) (v.writes (Elt Ideal) f (kernelRun0_C (F := Ideal) c i arg2 harg2 arg3 harg3 arg4 harg4 arg5 harg5 arg6 harg6 arg7 harg7 arg8 harg8 arg9 harg9 arg10 harg10 hc0 hc1 x0 x1 x2 x3 xs0 xs1 xs2).2.1) (ix4 (0 : Fin 1) (0 : Fin 2) ch n)
      = arg8.view.read (Elt Ideal) (arg8.view.writes (Elt Ideal) (harg8.unread xs0) (kernelRun0_C (F := Ideal) c i arg2 harg2 arg3 harg3 arg4 harg4 arg5 harg5 arg6 harg6 arg7 harg7 arg8 harg8 arg9 harg9 arg10 harg10 hc0 hc1 x0 x1 x2 x3 xs0 xs1 xs2).2.2.1) (ix3 (0 : Fin 2) ch n) := by
  refine (View.read_writes_cons_unit_of_not_mem v _ _ _ _ (ix4 (0 : Fin 1) (0 : Fin 2) ch n) rfl (1 : Fin 4) (Or.inl Nat.zero_lt_one)).trans ?_
  refine (View.read_writes_cons_unit_of_mem v _ _ _ _ (ix4 (0 : Fin 1) (0 : Fin 2) ch n) (ix4 (0 : Fin 1) (0 : Fin 1) ch n) rfl ?_).trans ?_
  · exact fun a => match a with | ⟨0, _⟩ => rfl | ⟨1, _⟩ => rfl | ⟨2, _⟩ => (Nat.zero_add _).symm | ⟨3, _⟩ => (Nat.zero_add _).symm
  refine (Pay1.last0_apply _ (0 : Fin 1) (0 : Fin 1) ch n).trans ?_
  refine (Loads.readAt_unit_apply arg8.view _ inb_S2x64x2304_S1x64x2304_0_0_0 (ix3 (0 : Fin 1) ch n) (ix3 (0 : Fin 2) ch n) (fun a => match a with | ⟨0, _⟩ => rfl | ⟨1, _⟩ => (Nat.zero_add _).symm | ⟨2, _⟩ => (Nat.zero_add _).symm)).trans ?_
  exact (two0 arg8.view _ _ _ ch n).trans (two0 arg8.view _ _ _ ch n).symm

theorem last1 {sig' : RefSig} {κ : Kind} {sp : Space} (v : View sig' κ sp S1x2x64x2304 .f32) (f : v.ty.Contents (Elt Ideal))
    (ch : Fin 64) (n : Fin 2304) :
    v.read (Elt Ideal) (v.writes (Elt Ideal) f (kernelRun0_C (F := Ideal) c i arg2 harg2 arg3 harg3 arg4 harg4 arg5 harg5 arg6 harg6 arg7 harg7 arg8 harg8 arg9 harg9 arg10 harg10 hc0 hc1 x0 x1 x2 x3 xs0 xs1 xs2).2.1) (ix4 (0 : Fin 1) (1 : Fin 2) ch n)
      = arg8.view.read (Elt Ideal) (arg8.view.writes (Elt Ideal) (harg8.unread xs0) (kernelRun0_C (F := Ideal) c i arg2 harg2 arg3 harg3 arg4 harg4 arg5 harg5 arg6 harg6 arg7 harg7 arg8 harg8 arg9 harg9 arg10 harg10 hc0 hc1 x0 x1 x2 x3 xs0 xs1 xs2).2.2.1) (ix3 (1 : Fin 2) ch n) := by
  refine (View.read_writes_cons_unit_of_mem v _ _ _ _ (ix4 (0 : Fin 1) (1 : Fin 2) ch n) (ix4 (0 : Fin 1) (0 : Fin 1) ch n) rfl ?_).trans ?_
  · exact fun a => match a with | ⟨0, _⟩ => rfl | ⟨1, _⟩ => rfl | ⟨2, _⟩ => (Nat.zero_add _).symm | ⟨3, _⟩ => (Nat.zero_add _).symm
  refine (Pay1.last1_apply _ (0 : Fin 1) (0 : Fin 1) ch n).trans ?_
  refine (Loads.readAt_unit_apply arg8.view _ inb_S2x64x2304_S1x64x2304_1_0_0 (ix3 (0 : Fin 1) ch n) (ix3 (1 : Fin 2) ch n) (fun a => match a with | ⟨0, _⟩ => rfl | ⟨1, _⟩ => (Nat.zero_add _).symm | ⟨2, _⟩ => (Nat.zero_add _).symm)).trans ?_
  exact (two1 arg8.view _ _ _ ch n).trans (two1 arg8.view _ _ _ ch n).symm

variable (c i arg2 harg2 arg3 harg3 arg4 harg4 arg5 harg5 arg6 harg6 arg7 harg7 arg8 harg8 arg9 harg9 arg10 harg10 hc0 hc1 x0 x1 x2 x3 xs0 xs1 xs2 W1 W2 M x)

-- A last step: the state scratch holds the two new states, and the constant rows stay.
theorem stepC (hb : BlocksOk W1 W2 M x x0 x1 x2 x3) (hh : headOk xs1) (hf : Fin2 (st xs0)) :
    st (arg8.view.read (Elt Ideal) (arg8.view.writes (Elt Ideal) (harg8.unread xs0) (kernelRun0_C (F := Ideal) c i arg2 harg2 arg3 harg3 arg4 harg4 arg5 harg5 arg6 harg6 arg7 harg7 arg8 harg8 arg9 harg9 arg10 harg10 hc0 hc1 x0 x1 x2 x3 xs0 xs1 xs2).2.2.1))
        = ((Spec.next0 W1 W2 M x (st xs0).1), Spec.next1 W1 W2 M x (st xs0).1 (st xs0).2)
      ∧ headOk (arg9.view.read (Elt Ideal) (arg9.view.writes (Elt Ideal) (harg9.unread xs1) (kernelRun0_C (F := Ideal) c i arg2 harg2 arg3 harg3 arg4 harg4 arg5 harg5 arg6 harg6 arg7 harg7 arg8 harg8 arg9 harg9 arg10 harg10 hc0 hc1 x0 x1 x2 x3 xs0 xs1 xs2).2.2.2.1)) := by
  refine ⟨Prod.ext (funext fun ch => funext fun n => ?_) (funext fun ch => funext fun n => ?_), fun n => (rest1 ⟨1152, by decide⟩ (Nat.le_refl _) n).trans (hh.1 n), fun k hk n => (rest1 k (by omega) n).trans (hh.2 k hk n)⟩
  · exact (two0 arg8.view _ _ _ ch n).trans ((Pay0.newStateStore_apply _ _ _ _ (0 : Fin 1) ch n).trans (next0 hb hh hf ch n))
  · exact (two1 arg8.view _ _ _ ch n).trans ((Pay1.newStateStore_apply _ _ _ _ (0 : Fin 1) ch n).trans (next1 hb hh hf ch n))

-- The per-step output block is layer 1's slab of the new state.
theorem yblkC {sig' : RefSig} {κ : Kind} {sp : Space} (v : View sig' κ sp S1x1x64x2304 .f32) (f : v.ty.Contents (Elt Ideal))
    (ch : Fin 64) (n : Fin 2304) :
    v.read (Elt Ideal) (v.writes (Elt Ideal) f (kernelRun0_C (F := Ideal) c i arg2 harg2 arg3 harg3 arg4 harg4 arg5 harg5 arg6 harg6 arg7 harg7 arg8 harg8 arg9 harg9 arg10 harg10 hc0 hc1 x0 x1 x2 x3 xs0 xs1 xs2).1) (ix4 (0 : Fin 1) (0 : Fin 1) ch n)
      = arg8.view.read (Elt Ideal) (arg8.view.writes (Elt Ideal) (harg8.unread xs0) (kernelRun0_C (F := Ideal) c i arg2 harg2 arg3 harg3 arg4 harg4 arg5 harg5 arg6 harg6 arg7 harg7 arg8 harg8 arg9 harg9 arg10 harg10 hc0 hc1 x0 x1 x2 x3 xs0 xs1 xs2).2.2.1) (ix3 (1 : Fin 2) ch n) := by
  refine (View.read_writes_cons_unit_of_mem v _ _ _ _ (ix4 (0 : Fin 1) (0 : Fin 1) ch n) (ix4 (0 : Fin 1) (0 : Fin 1) ch n) rfl ?_).trans (((Pay1.newStateOut_apply _ _ _ _ (0 : Fin 1) (0 : Fin 1) ch n).trans (Pay1.newStateStore_apply _ _ _ _ (0 : Fin 1) ch n).symm).trans (two1 arg8.view _ _ _ ch n).symm)
  exact fun a => match a with | ⟨0, _⟩ => rfl | ⟨1, _⟩ => rfl | ⟨2, _⟩ => (Nat.zero_add _).symm | ⟨3, _⟩ => (Nat.zero_add _).symm

-- The last-state block is the state scratch as the step left it.
theorem lastblkC {sig' : RefSig} {κ : Kind} {sp : Space} (v : View sig' κ sp S1x2x64x2304 .f32) (f : v.ty.Contents (Elt Ideal))
    (l : Fin 2) (ch : Fin 64) (n : Fin 2304) :
    v.read (Elt Ideal) (v.writes (Elt Ideal) f (kernelRun0_C (F := Ideal) c i arg2 harg2 arg3 harg3 arg4 harg4 arg5 harg5 arg6 harg6 arg7 harg7 arg8 harg8 arg9 harg9 arg10 harg10 hc0 hc1 x0 x1 x2 x3 xs0 xs1 xs2).2.1) (ix4 (0 : Fin 1) l ch n)
      = arg8.view.read (Elt Ideal) (arg8.view.writes (Elt Ideal) (harg8.unread xs0) (kernelRun0_C (F := Ideal) c i arg2 harg2 arg3 harg3 arg4 harg4 arg5 harg5 arg6 harg6 arg7 harg7 arg8 harg8 arg9 harg9 arg10 harg10 hc0 hc1 x0 x1 x2 x3 xs0 xs1 xs2).2.2.1) (ix3 l ch n) :=
  match l with
  | ⟨0, _⟩ => last0 v f ch n
  | ⟨1, _⟩ => last1 v f ch n

theorem stepC_frame (hb : BlocksOk W1 W2 M x x0 x1 x2 x3) (hh : headOk xs1) (hf : Fin2 (st xs0)) :
    st (sout0_C_0 c i arg2 harg2 arg3 harg3 arg4 harg4 arg5 harg5 arg6 harg6 arg7 harg7 hc0 hc1 x0 x1 x2 x3 xs0 xs1 xs2)
        = ((Spec.next0 W1 W2 M x (st xs0).1), Spec.next1 W1 W2 M x (st xs0).1 (st xs0).2)
      ∧ headOk (sout0_C_1 c i arg2 harg2 arg3 harg3 arg4 harg4 arg5 harg5 arg6 harg6 arg7 harg7 hc0 hc1 x0 x1 x2 x3 xs0 xs1 xs2) :=
  stepC c i arg2 harg2 arg3 harg3 arg4 harg4 arg5 harg5 arg6 harg6 arg7 harg7 scM0_0 (Memref.isWhole_whole _) scM0_1 (Memref.isWhole_whole _) scM0_2 (Memref.isWhole_whole _) hc0 hc1 x0 x1 x2 x3 xs0 xs1 xs2 W1 W2 M x hb hh hf

theorem yblkC_frame (ch : Fin 64) (n : Fin 2304) :
    out0_C_4 c i arg2 harg2 arg3 harg3 arg4 harg4 arg5 harg5 arg6 harg6 arg7 harg7 scM0_0 (Memref.isWhole_whole _) scM0_1 (Memref.isWhole_whole _) scM0_2 (Memref.isWhole_whole _) hc0 hc1 x0 x1 x2 x3 xs0 xs1 xs2 (ix4 (0 : Fin 1) (0 : Fin 1) ch n)
      = sout0_C_0 c i arg2 harg2 arg3 harg3 arg4 harg4 arg5 harg5 arg6 harg6 arg7 harg7 hc0 hc1 x0 x1 x2 x3 xs0 xs1 xs2 (ix3 (1 : Fin 2) ch n) :=
  yblkC c i arg2 harg2 arg3 harg3 arg4 harg4 arg5 harg5 arg6 harg6 arg7 harg7 scM0_0 (Memref.isWhole_whole _) scM0_1 (Memref.isWhole_whole _) scM0_2 (Memref.isWhole_whole _) hc0 hc1 x0 x1 x2 x3 xs0 xs1 xs2 VO0_4 VO0_4.junk ch n

theorem lastblkC_frame (l : Fin 2) (ch : Fin 64) (n : Fin 2304) :
    out0_C_5 c i arg2 harg2 arg3 harg3 arg4 harg4 arg5 harg5 arg6 harg6 arg7 harg7 scM0_0 (Memref.isWhole_whole _) scM0_1 (Memref.isWhole_whole _) scM0_2 (Memref.isWhole_whole _) hc0 hc1 x0 x1 x2 x3 xs0 xs1 xs2 (ix4 (0 : Fin 1) l ch n)
      = sout0_C_0 c i arg2 harg2 arg3 harg3 arg4 harg4 arg5 harg5 arg6 harg6 arg7 harg7 hc0 hc1 x0 x1 x2 x3 xs0 xs1 xs2 (ix3 l ch n) :=
  lastblkC c i arg2 harg2 arg3 harg3 arg4 harg4 arg5 harg5 arg6 harg6 arg7 harg7 scM0_0 (Memref.isWhole_whole _) scM0_1 (Memref.isWhole_whole _) scM0_2 (Memref.isWhole_whole _) hc0 hc1 x0 x1 x2 x3 xs0 xs1 xs2 VO0_5 VO0_5.junk l ch n

end Cert.ReferenceIdeal.Par.C

end
-- ==== Proof.RI.Step.lean ====
import proofs.«130420_g2000206920649175_pallasbulk_1279_2_alg».proof.Proof.RI.StepA
import proofs.«130420_g2000206920649175_pallasbulk_1279_2_alg».proof.Proof.RI.StepB
import proofs.«130420_g2000206920649175_pallasbulk_1279_2_alg».proof.Proof.RI.StepC

set_option maxRecDepth 16384

noncomputable section

namespace Cert.ReferenceIdeal.Par

open Idealize.ShloMosaic Idealize.ShloMosaic.TcCoe Idealize.ShloMosaic.ValueIdx
open Idealize.SL.Sem
open Cert.ReferenceIdeal Cert.ReferenceIdeal.Gen Cert.ReferenceIdeal.Hand
open Cert.Spec (Row)

variable (m : (ℓ : Loc nD τ sig) → Buf (Elt Ideal) ℓ) (c : Dev nD)

theorem stepFacts (hin : HostIn m c) : StepFacts m c := by
  refine ⟨fun t h0 => ?_, fun t h0 hh hf => ?_, fun t ch n => ?_, fun t h1 l ch n => ?_⟩
  · have h1 : ¬ t.val % 32 = 31 := by omega
    show st (outsAt0 (F := Ideal) m c t.val t.isLt).2.2.1 = _ ∧ headOk (outsAt0 (F := Ideal) m c t.val t.isLt).2.2.2.1
    rw [outsAt0_A m c t h0 h1]
    dsimp only
    exact A.stepA_frame c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (iblk (F := Ideal) m c 0 t) (iblk (F := Ideal) m c 1 t) (iblk (F := Ideal) m c 2 t) (iblk (F := Ideal) m c 3 t) (W1p m c) (W2p m c) (Mp m c) (Xp m c (t.val / 32) (t.val % 32)) (hin t)
  · show st (outsAt0 (F := Ideal) m c t.val t.isLt).2.2.1 = _ ∧ headOk (outsAt0 (F := Ideal) m c t.val t.isLt).2.2.2.1
    by_cases h1 : t.val % 32 = 31
    · rw [outsAt0_C m c t h0 h1]
      dsimp only
      exact C.stepC_frame c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk (F := Ideal) m c 0 t) (iblk (F := Ideal) m c 1 t) (iblk (F := Ideal) m c 2 t) (iblk (F := Ideal) m c 3 t) (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2 (W1p m c) (W2p m c) (Mp m c) (Xp m c (t.val / 32) (t.val % 32)) (hin t) hh hf
    · rw [outsAt0_B m c t h0 h1]
      dsimp only
      exact B.stepB_frame c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fun h => h1 ((hcond0_1 t).mp h)) (iblk (F := Ideal) m c 0 t) (iblk (F := Ideal) m c 1 t) (iblk (F := Ideal) m c 2 t) (iblk (F := Ideal) m c 3 t) (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2 (W1p m c) (W2p m c) (Mp m c) (Xp m c (t.val / 32) (t.val % 32)) (hin t) hh hf
  · show (outsAt0 (F := Ideal) m c t.val t.isLt).1 (ix4 (0 : Fin 1) (0 : Fin 1) ch n) = (outsAt0 (F := Ideal) m c t.val t.isLt).2.2.1 (ix3 (1 : Fin 2) ch n)
    by_cases h0 : t.val % 32 = 0
    · have h1 : ¬ t.val % 32 = 31 := by omega
      rw [outsAt0_A m c t h0 h1]
      dsimp only
      exact A.yblkA_frame c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (iblk (F := Ideal) m c 0 t) (iblk (F := Ideal) m c 1 t) (iblk (F := Ideal) m c 2 t) (iblk (F := Ideal) m c 3 t) ch n
    · by_cases h1 : t.val % 32 = 31
      · rw [outsAt0_C m c t h0 h1]
        dsimp only
        exact C.yblkC_frame c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk (F := Ideal) m c 0 t) (iblk (F := Ideal) m c 1 t) (iblk (F := Ideal) m c 2 t) (iblk (F := Ideal) m c 3 t) (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2 ch n
      · rw [outsAt0_B m c t h0 h1]
        dsimp only
        exact B.yblkB_frame c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fun h => h1 ((hcond0_1 t).mp h)) (iblk (F := Ideal) m c 0 t) (iblk (F := Ideal) m c 1 t) (iblk (F := Ideal) m c 2 t) (iblk (F := Ideal) m c 3 t) (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2 ch n
  · have h0 : ¬ t.val % 32 = 0 := by omega
    show (outsAt0 (F := Ideal) m c t.val t.isLt).2.1 (ix4 (0 : Fin 1) l ch n) = (outsAt0 (F := Ideal) m c t.val t.isLt).2.2.1 (ix3 l ch n)
    rw [outsAt0_C m c t h0 h1]
    dsimp only
    exact C.lastblkC_frame c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk (F := Ideal) m c 0 t) (iblk (F := Ideal) m c 1 t) (iblk (F := Ideal) m c 2 t) (iblk (F := Ideal) m c 3 t) (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2 l ch n

end Cert.ReferenceIdeal.Par

end
-- ==== Proof.SpecSeqAlgebra.lean ====
import proofs.«130420_g2000206920649175_pallasbulk_1279_2_alg».proof.Proof.SpecSeq
import proofs.«130420_g2000206920649175_pallasbulk_1279_2_alg».proof.Proof.SpecAlgebra

noncomputable section

namespace Cert.Spec

theorem zeroState_real (c : Fin 64) (n : Fin 2304) : ∃ r : ℝ, zeroState c n = (r : EReal) :=
  ⟨0, by show (0 : EReal) = _; rw [EReal.coe_zero]⟩

theorem next0_real (W1 : Fin 2 → Fin 192 → Fin 1160 → EReal) (W2 : Fin 2 → Fin 64 → Fin 576 → EReal) (M : Fin 9 → Row) (x : Fin 32 → Row) (h0 : Fin 64 → Row) (hh : ∀ c n, ∃ r : ℝ, h0 c n = (r : EReal)) (c : Fin 64) (n : Fin 2304) :
    ∃ r : ℝ, next0 W1 W2 M x h0 c n = (r : EReal) :=
  next_real (W1 0) (W2 0) M (pad x) h0 hh c n

theorem next1_real (W1 : Fin 2 → Fin 192 → Fin 1160 → EReal) (W2 : Fin 2 → Fin 64 → Fin 576 → EReal) (M : Fin 9 → Row) (x : Fin 32 → Row) (h0 h1 : Fin 64 → Row) (hh : ∀ c n, ∃ r : ℝ, h1 c n = (r : EReal)) (c : Fin 64) (n : Fin 2304) :
    ∃ r : ℝ, next1 W1 W2 M x h0 h1 c n = (r : EReal) :=
  next_real (W1 1) (W2 1) M (next0 W1 W2 M x h0) h1 hh c n

theorem states_real (W1 : Fin 2 → Fin 192 → Fin 1160 → EReal) (W2 : Fin 2 → Fin 64 → Fin 576 → EReal) (M : Fin 9 → Row) (X : ℕ → Fin 32 → Row) (τ : ℕ) :
    (∀ c n, ∃ r : ℝ, (states W1 W2 M X τ).1 c n = (r : EReal))
      ∧ (∀ c n, ∃ r : ℝ, (states W1 W2 M X τ).2 c n = (r : EReal)) := by
  induction τ with
  | zero =>
    rw [states_zero]
    exact ⟨next0_real W1 W2 M (X 0) zeroState zeroState_real,
      next1_real W1 W2 M (X 0) zeroState zeroState zeroState_real⟩
  | succ τ ih =>
    rw [states_succ]
    exact ⟨next0_real W1 W2 M (X (τ + 1)) _ ih.1, next1_real W1 W2 M (X (τ + 1)) _ _ ih.2⟩

end Cert.Spec

end
-- ==== Proof.RI.ValueStates.lean ====
import proofs.«130420_g2000206920649175_pallasbulk_1279_2_alg».proof.Proof.RI.Facts
import proofs.«130420_g2000206920649175_pallasbulk_1279_2_alg».proof.Proof.SpecSeqAlgebra

noncomputable section

namespace Cert.ReferenceIdeal.Par

open Idealize.ShloMosaic Idealize.ShloMosaic.TcCoe Idealize.ShloMosaic.ValueIdx
open Idealize.SL.Sem
open Cert.ReferenceIdeal Cert.ReferenceIdeal.Gen Cert.ReferenceIdeal.Hand
open Cert.Spec (Row)

variable (m : (ℓ : Loc nD τ sig) → Buf (Elt Ideal) ℓ) (c : Dev nD)

abbrev specAt (n : ℕ) : (Fin 64 → Row) × (Fin 64 → Row) :=
  Spec.states (W1p m c) (W2p m c) (Mp m c) (Xp m c (n / 32)) (n % 32)

theorem specAt_fin2 (n : ℕ) : Fin2 (specAt m c n) :=
  Spec.states_real (W1p m c) (W2p m c) (Mp m c) (Xp m c (n / 32)) (n % 32)

theorem later_succ (hs : StepFacts m c) (k : ℕ) (hn : k + 1 < cfg0.N) (h0 : ¬ (k + 1) % 32 = 0) (hh : headOk (p1At m c k (Nat.lt_of_succ_lt hn))) (hf : Fin2 (st (hAt m c k (Nat.lt_of_succ_lt hn)))) :
    st (hAt m c (k + 1) hn)
        = (Spec.next0 (W1p m c) (W2p m c) (Mp m c) (Xp m c ((k + 1) / 32) ((k + 1) % 32))
              (st (hAt m c k (Nat.lt_of_succ_lt hn))).1,
           Spec.next1 (W1p m c) (W2p m c) (Mp m c) (Xp m c ((k + 1) / 32) ((k + 1) % 32))
              (st (hAt m c k (Nat.lt_of_succ_lt hn))).1 (st (hAt m c k (Nat.lt_of_succ_lt hn))).2)
      ∧ headOk (p1At m c (k + 1) hn) :=
  hs.later ⟨k + 1, hn⟩ h0 hh hf

theorem states_inv (hs : StepFacts m c) : ∀ (n : ℕ) (hn : n < cfg0.N),
    st (hAt m c n hn) = specAt m c n ∧ headOk (p1At m c n hn)
  | 0, hn => by
    have h := hs.first ⟨0, hn⟩ (Nat.zero_mod _)
    refine ⟨h.1.trans ?_, h.2⟩
    show _ = Spec.states (W1p m c) (W2p m c) (Mp m c) (Xp m c (0 / 32)) (0 % 32)
    rw [Nat.zero_mod, Spec.states_zero]
  | k + 1, hn => by
    by_cases h0 : (k + 1) % 32 = 0
    · have h := hs.first ⟨k + 1, hn⟩ h0
      refine ⟨h.1.trans ?_, h.2⟩
      show _ = Spec.states (W1p m c) (W2p m c) (Mp m c) (Xp m c ((k + 1) / 32)) ((k + 1) % 32)
      rw [h0, Spec.states_zero]
    · have ih := states_inv hs k (Nat.lt_of_succ_lt hn)
      have hf : Fin2 (st (hAt m c k (Nat.lt_of_succ_lt hn))) := by rw [ih.1]; exact specAt_fin2 m c k
      have h := later_succ m c hs k hn h0 ih.2 hf
      refine ⟨h.1.trans ?_, h.2⟩
      rw [ih.1]
      have hd : (k + 1) / 32 = k / 32 := by omega
      have hm : (k + 1) % 32 = k % 32 + 1 := by omega
      show _ = Spec.states (W1p m c) (W2p m c) (Mp m c) (Xp m c ((k + 1) / 32)) ((k + 1) % 32)
      rw [hd, hm, Spec.states_succ]

theorem states_fin2 (hs : StepFacts m c) (n : ℕ) (hn : n < cfg0.N) : Fin2 (st (hAt m c n hn)) := by
  rw [(states_inv m c hs n hn).1]; exact specAt_fin2 m c n

end Cert.ReferenceIdeal.Par

end
-- ==== Proof.RI.ValueTail.lean ====
import proofs.«130420_g2000206920649175_pallasbulk_1279_2_alg».proof.Proof.RI.Main
import proofs.«130420_g2000206920649175_pallasbulk_1279_2_alg».proof.Proof.Tail
import Idealize.ShloMosaic.Lib.ValueIdx

set_option maxRecDepth 16384

noncomputable section

namespace Cert.ReferenceIdeal.Par

open Idealize.ShloMosaic Idealize.ShloMosaic.TcCoe Idealize.ShloMosaic.ValueIdx
open Idealize.SL.Sem
open Idealize.ShloMosaic.Pipeline (Dat Cfg Window)
open Cert.ReferenceIdeal Cert.ReferenceIdeal.Gen Cert.ReferenceIdeal.Hand

variable {F : FTy → Type} [FloatOps F]

theorem tail_v196 (W : Valuation τ sig (Elt F)) :
    StableHlo.after hostOps1 W (Proc.devRef .tc main_v196) = Cert.Tail.tailY (W (Proc.devRef .tc main_v193_0)) := by
  show StableHlo.after hostOps1 _ (Proc.devRef .tc main_v196) = _
  after_results
  rfl

theorem tail_v199 (W : Valuation τ sig (Elt F)) :
    StableHlo.after hostOps1 W (Proc.devRef .tc main_v199) = Cert.Tail.tailL (W (Proc.devRef .tc main_v193_1)) := by
  show StableHlo.after hostOps1 _ (Proc.devRef .tc main_v199) = _
  after_results
  rfl

theorem idx4 : ∀ t : Fin cfg0.N, win0_4.index t (0 : Fin 4) = t.val / 32 ∧ win0_4.index t (1 : Fin 4) = t.val % 32
    ∧ win0_4.index t (2 : Fin 4) = 0 ∧ win0_4.index t (3 : Fin 4) = 0 :=
  (by decide +kernel : ∀ t : Fin grid0.N, win0_4.index t (0 : Fin 4) = t.val / 32 ∧ win0_4.index t (1 : Fin 4) = t.val % 32
    ∧ win0_4.index t (2 : Fin 4) = 0 ∧ win0_4.index t (3 : Fin 4) = 0)

theorem idx5 : ∀ t : Fin cfg0.N, win0_5.index t (0 : Fin 4) = t.val / 32 ∧ win0_5.index t (1 : Fin 4) = 0
    ∧ win0_5.index t (2 : Fin 4) = 0 ∧ win0_5.index t (3 : Fin 4) = 0 :=
  (by decide +kernel : ∀ t : Fin grid0.N, win0_5.index t (0 : Fin 4) = t.val / 32 ∧ win0_5.index t (1 : Fin 4) = 0
    ∧ win0_5.index t (2 : Fin 4) = 0 ∧ win0_5.index t (3 : Fin 4) = 0)

theorem emb4 (t : Fin cfg0.N) (ch : Fin 64) (n : Fin 2304) (h0 : t.val / 32 < 2) (h1 : t.val % 32 < 32) :
    ((cfg0.win 4).blk t).view.emb (ix4 (0 : Fin 1) (0 : Fin 1) ch n)
      = ix4 (⟨t.val / 32, h0⟩ : Fin 2) (⟨t.val % 32, h1⟩ : Fin 32) ch n := by
  obtain ⟨e0, e1, e2, e3⟩ := idx4 t
  funext a; apply Fin.ext
  match a with
  | ⟨0, _⟩ => show win0_4.index t (0 : Fin 4) * 1 + 1 * 0 = t.val / 32; omega
  | ⟨1, _⟩ => show win0_4.index t (1 : Fin 4) * 1 + 1 * 0 = t.val % 32; omega
  | ⟨2, _⟩ => show win0_4.index t (2 : Fin 4) * 64 + 1 * ch.val = ch.val; omega
  | ⟨3, _⟩ => show win0_4.index t (3 : Fin 4) * 2304 + 1 * n.val = n.val; omega

theorem emb5 (t : Fin cfg0.N) (l : Fin 2) (ch : Fin 64) (n : Fin 2304) (h0 : t.val / 32 < 2) :
    ((cfg0.win 5).blk t).view.emb (ix4 (0 : Fin 1) l ch n) = ix4 (⟨t.val / 32, h0⟩ : Fin 2) l ch n := by
  obtain ⟨e0, e1, e2, e3⟩ := idx5 t
  funext a; apply Fin.ext
  match a with
  | ⟨0, _⟩ => show win0_5.index t (0 : Fin 4) * 1 + 1 * 0 = t.val / 32; omega
  | ⟨1, _⟩ => show win0_5.index t (1 : Fin 4) * 2 + 1 * l.val = l.val; omega
  | ⟨2, _⟩ => show win0_5.index t (2 : Fin 4) * 64 + 1 * ch.val = ch.val; omega
  | ⟨3, _⟩ => show win0_5.index t (3 : Fin 4) * 2304 + 1 * n.val = n.val; omega

theorem mem_blk4 (t : Fin cfg0.N) (i : S2x32x64x2304.Idx) :
    i ∈ ((cfg0.win 4).blk t).view.set ↔ ∀ a : Fin 4, win0_4.index t a * S1x1x64x2304.size a ≤ (i a).val ∧ (i a).val < win0_4.index t a * S1x1x64x2304.size a + S1x1x64x2304.size a := by
  show i ∈ ((View.whole main_v193_0).slice (win0_4.rect t)).set ↔ _
  rw [View.set_slice_whole, Rect.mem_set_unit]
  exact Iff.rfl

theorem mem_blk5 (t : Fin cfg0.N) (i : S2x2x64x2304.Idx) :
    i ∈ ((cfg0.win 5).blk t).view.set ↔ ∀ a : Fin 4, win0_5.index t a * S1x2x64x2304.size a ≤ (i a).val ∧ (i a).val < win0_5.index t a * S1x2x64x2304.size a + S1x2x64x2304.size a := by
  show i ∈ ((View.whole main_v193_1).slice (win0_5.rect t)).set ↔ _
  rw [View.set_slice_whole, Rect.mem_set_unit]
  exact Iff.rfl

theorem cover4 (i : S2x32x64x2304.Idx) :
    ∃ t : Fin cfg0.N, (cfg0.win 4).flush t = true ∧ i ∈ ((cfg0.win 4).blk t).view.set := by
  have h0 : (i 0).val < 2 := (i 0).isLt
  have h1 : (i 1).val < 32 := (i 1).isLt
  have h2 : (i 2).val < 64 := (i 2).isLt
  have h3 : (i 3).val < 2304 := (i 3).isLt
  have hN : cfg0.N = 64 := N64
  refine ⟨⟨32 * (i 0).val + (i 1).val, by omega⟩, flush0_4 _, ?_⟩
  rw [mem_blk4]
  obtain ⟨e0, e1, e2, e3⟩ := idx4 ⟨32 * (i 0).val + (i 1).val, by omega⟩
  have d0 : (32 * (i 0).val + (i 1).val) / 32 = (i 0).val := by omega
  have d1 : (32 * (i 0).val + (i 1).val) % 32 = (i 1).val := by omega
  dsimp only at e0 e1
  rw [d0] at e0
  rw [d1] at e1
  intro a
  match a with
  | ⟨0, _⟩ => show win0_4.index _ (0 : Fin 4) * 1 ≤ (i 0).val ∧ (i 0).val < win0_4.index _ (0 : Fin 4) * 1 + 1; omega
  | ⟨1, _⟩ => show win0_4.index _ (1 : Fin 4) * 1 ≤ (i 1).val ∧ (i 1).val < win0_4.index _ (1 : Fin 4) * 1 + 1; omega
  | ⟨2, _⟩ => show win0_4.index _ (2 : Fin 4) * 64 ≤ (i 2).val ∧ (i 2).val < win0_4.index _ (2 : Fin 4) * 64 + 64; omega
  | ⟨3, _⟩ => show win0_4.index _ (3 : Fin 4) * 2304 ≤ (i 3).val ∧ (i 3).val < win0_4.index _ (3 : Fin 4) * 2304 + 2304; omega

theorem cover5 (i : S2x2x64x2304.Idx) :
    ∃ t : Fin cfg0.N, (cfg0.win 5).flush t = true ∧ i ∈ ((cfg0.win 5).blk t).view.set := by
  have h0 : (i 0).val < 2 := (i 0).isLt
  have h1 : (i 1).val < 2 := (i 1).isLt
  have h2 : (i 2).val < 64 := (i 2).isLt
  have h3 : (i 3).val < 2304 := (i 3).isLt
  have hN : cfg0.N = 64 := N64
  refine ⟨⟨32 * (i 0).val + 31, by omega⟩, (flush0_5 _).mpr (by dsimp only; omega), ?_⟩
  rw [mem_blk5]
  obtain ⟨e0, e1, e2, e3⟩ := idx5 ⟨32 * (i 0).val + 31, by omega⟩
  have d0 : (32 * (i 0).val + 31) / 32 = (i 0).val := by omega
  dsimp only at e0
  rw [d0] at e0
  intro a
  match a with
  | ⟨0, _⟩ => show win0_5.index _ (0 : Fin 4) * 1 ≤ (i 0).val ∧ (i 0).val < win0_5.index _ (0 : Fin 4) * 1 + 1; omega
  | ⟨1, _⟩ => show win0_5.index _ (1 : Fin 4) * 2 ≤ (i 1).val ∧ (i 1).val < win0_5.index _ (1 : Fin 4) * 2 + 2; omega
  | ⟨2, _⟩ => show win0_5.index _ (2 : Fin 4) * 64 ≤ (i 2).val ∧ (i 2).val < win0_5.index _ (2 : Fin 4) * 64 + 64; omega
  | ⟨3, _⟩ => show win0_5.index _ (3 : Fin 4) * 2304 ≤ (i 3).val ∧ (i 3).val < win0_5.index _ (3 : Fin 4) * 2304 + 2304; omega

end Cert.ReferenceIdeal.Par

end
-- ==== Proof.RI.Value.lean ====
import proofs.«130420_g2000206920649175_pallasbulk_1279_2_alg».proof.Proof.RI.ValueStates
import proofs.«130420_g2000206920649175_pallasbulk_1279_2_alg».proof.Proof.RI.ValueTail
import Idealize.ShloMosaic.Lib.Pipeline.Value

set_option maxRecDepth 16384

noncomputable section

namespace Cert.ReferenceIdeal.Par

open Idealize.ShloMosaic Idealize.ShloMosaic.TcCoe Idealize.ShloMosaic.ValueIdx
open Idealize.SL.Sem
open Idealize.ShloMosaic.Pipeline (Dat Cfg Window)
open Cert.ReferenceIdeal Cert.ReferenceIdeal.Gen Cert.ReferenceIdeal.Hand
open Cert.Spec (Row)

variable (m : (ℓ : Loc nD τ sig) → Buf (Elt Ideal) ℓ) (ρ : Dev nD → PrngReg)

abbrev GyP (c : Dev nD) : S2x32x64x2304.Idx → EReal := Spec.Gy (W1p m c) (W2p m c) (Mp m c) (Xp m c)

abbrev GlP (c : Dev nD) : S2x2x64x2304.Idx → EReal := Spec.Glast (W1p m c) (W2p m c) (Mp m c) (Xp m c)

theorem flushed4_eq (c : Dev nD) (hs : StepFacts m c) (t : Fin cfg0.N) :
    (dats m 0 c).flushed 4 t = ((cfg0.win 4).blk t).view.read (Elt Ideal) (GyP m c) := by
  show (cfg0.win 4).cut (grid0.coords t) ((dats m 0 c).after 4 t) = _
  rw [after0_4]
  have hN : t.val < 64 := lt_of_lt_of_eq t.isLt N64
  funext j
  obtain ⟨a, b, ch, n, rfl⟩ : ∃ (a : Fin 1) (b : Fin 1) (ch : Fin 64) (n : Fin 2304), j = ix4 a b ch n :=
    ⟨j 0, j 1, j 2, j 3, eq_ix4 j⟩
  obtain rfl : a = 0 := Subsingleton.elim _ _
  obtain rfl : b = 0 := Subsingleton.elim _ _
  show yAt m c t.val t.isLt (ix4 (0 : Fin 1) (0 : Fin 1) ch n)
    = GyP m c (((cfg0.win 4).blk t).view.emb (ix4 (0 : Fin 1) (0 : Fin 1) ch n))
  rw [emb4 t ch n (by omega) (Nat.mod_lt _ (by decide)), hs.yblk t ch n, (states_inv m c hs t.val t.isLt).1]
  rfl

theorem flushed5_eq (c : Dev nD) (hs : StepFacts m c) (t : Fin cfg0.N) (hf : (cfg0.win 5).flush t = true) :
    (dats m 0 c).flushed 5 t = ((cfg0.win 5).blk t).view.read (Elt Ideal) (GlP m c) := by
  have h31 : t.val % 32 = 31 := (flush0_5 t).mp hf
  show (cfg0.win 5).cut (grid0.coords t) ((dats m 0 c).after 5 t) = _
  rw [after0_5]
  have hN : t.val < 64 := lt_of_lt_of_eq t.isLt N64
  funext j
  obtain ⟨a, l, ch, n, rfl⟩ : ∃ (a : Fin 1) (l : Fin 2) (ch : Fin 64) (n : Fin 2304), j = ix4 a l ch n :=
    ⟨j 0, j 1, j 2, j 3, eq_ix4 j⟩
  obtain rfl : a = 0 := Subsingleton.elim _ _
  show lastAt m c t.val t.isLt (ix4 (0 : Fin 1) l ch n)
    = GlP m c (((cfg0.win 5).blk t).view.emb (ix4 (0 : Fin 1) l ch n))
  rw [emb5 t l ch n (by omega), hs.lastblk t h31 l ch n]
  have hst : st (hAt m c t.val t.isLt)
      = Spec.states (W1p m c) (W2p m c) (Mp m c) (Xp m c (t.val / 32)) 31 := by
    rw [(states_inv m c hs t.val t.isLt).1]
    show Spec.states (W1p m c) (W2p m c) (Mp m c) (Xp m c (t.val / 32)) (t.val % 32) = _
    rw [h31]
  have hl : l.val = 0 ∨ l.val = 1 := by have := l.isLt; omega
  rcases hl with hl | hl
  · obtain rfl : l = 0 := Fin.ext hl
    exact (congrFun (congrFun (congrArg Prod.fst hst) ch) n).trans rfl
  · obtain rfl : l = 1 := Fin.ext hl
    exact (congrFun (congrFun (congrArg Prod.snd hst) ch) n).trans rfl

theorem final_y (c : Dev nD) (hs : StepFacts m c) : (dats m 0 c).arrAt 4 cfg0.N = GyP m c :=
  (dats m 0 c).arrAt_eq_of_cover 4 (GyP m c) (fun t _ => flushed4_eq m c hs t) cover4

theorem final_last (c : Dev nD) (hs : StepFacts m c) : (dats m 0 c).arrAt 5 cfg0.N = GlP m c :=
  (dats m 0 c).arrAt_eq_of_cover 5 (GlP m c) (fun t hf => flushed5_eq m c hs t hf) cover5

theorem afterTail_v196 (c : Dev nD) :
    Pipeline.afterTail₀ cfgs (dats m) 0 (V0 m) [hostOps1] c main_v196 = Cert.Tail.tailY ((dats m 0 c).arrAt 4 cfg0.N) := by
  unfold Pipeline.afterTail₀
  show StableHlo.after hostOps1 _ (Proc.devRef .tc main_v196) = _
  rw [tail_v196]
  exact congrArg Cert.Tail.tailY (Pipeline.withArrays_arr spec0 launch0.win.arr_inj c _ _ 4)

theorem afterTail_v199 (c : Dev nD) :
    Pipeline.afterTail₀ cfgs (dats m) 0 (V0 m) [hostOps1] c main_v199 = Cert.Tail.tailL ((dats m 0 c).arrAt 5 cfg0.N) := by
  unfold Pipeline.afterTail₀
  show StableHlo.after hostOps1 _ (Proc.devRef .tc main_v199) = _
  rw [tail_v199]
  exact congrArg Cert.Tail.tailL (Pipeline.withArrays_arr spec0 launch0.win.arr_inj c _ _ 5)

theorem run_value (hs : ∀ c, StepFacts m c) :
    θ_run (defs (F := Ideal)) (onTc (τ := τ) (main (F := Ideal))) ⟨m, fun _ => 0, ρ⟩ (fun r => ∀ c : Dev nD,
      r.2.mem ((c.tc : Thread nD τ).loc main_v196)
          = Cert.Tail.tailY (F := Ideal) (Spec.Gy (W1p m c) (W2p m c) (Mp m c) (Xp m c))
      ∧ r.2.mem ((c.tc : Thread nD τ).loc main_v199)
          = Cert.Tail.tailL (F := Ideal) (Spec.Glast (W1p m c) (W2p m c) (Mp m c) (Xp m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v196 (Pipeline.mem_restRefs_of main_v196 (by decide) (by decide))).trans
        ((afterTail_v196 m c).trans (congrArg (Cert.Tail.tailY (F := Ideal)) (final_y m c (hs c)))),
     ((h c).2 main_v199 (Pipeline.mem_restRefs_of main_v199 (by decide) (by decide))).trans
        ((afterTail_v199 m c).trans (congrArg (Cert.Tail.tailL (F := Ideal)) (final_last m c (hs c)))),
     ((h c).2 main_arg0 (Pipeline.mem_restRefs_of main_arg0 (by decide) (by decide))).trans (W_main_arg0 m (dats m) c),
     ((h c).1 2).trans (((dats m 0 c).arrAt_in 2 rfl _).trans ((A_eq m c 2).trans (V_main_arg1 m c))),
     ((h c).1 3).trans (((dats m 0 c).arrAt_in 3 rfl _).trans ((A_eq m c 3).trans (V_main_arg2 m c)))⟩)
    (run_main m ρ)

end Cert.ReferenceIdeal.Par

end
-- ==== Proof.LibMask.lean ====
import Idealize.ShloMosaic.Lib.Pipeline.Value
import Idealize.ShloMosaic.Lib.ValueIdx
import Idealize.ShloMosaic.Lib.ValueLayout
import Idealize.ShloMosaic.Lib.StableHlo.Predicate

set_option maxRecDepth 8192

noncomputable section

namespace Cert.Mask

open Idealize.ShloMosaic Idealize.ShloMosaic.ValueIdx

abbrev S_ : Shape := ⟨0, ![]⟩
abbrev S576 : Shape := ⟨1, ![576]⟩
abbrev S1x576 : Shape := ⟨2, ![1, 576]⟩
abbrev S9x576 : Shape := ⟨2, ![9, 576]⟩
abbrev S1x9x1x576 : Shape := ⟨4, ![1, 9, 1, 576]⟩
abbrev S1x9x4x576 : Shape := ⟨4, ![1, 9, 4, 576]⟩
abbrev S9x2304 : Shape := ⟨2, ![9, 2304]⟩
abbrev S7x2304 : Shape := ⟨2, ![7, 2304]⟩
abbrev S16x2304 : Shape := ⟨2, ![16, 2304]⟩

def inside (i : Fin 9) (p : ℕ) : Prop :=
  1 ≤ p / 24 + i.val / 3 ∧ p / 24 + i.val / 3 ≤ 24 ∧ 1 ≤ p % 24 + i.val % 3 ∧ p % 24 + i.val % 3 ≤ 24

instance (i : Fin 9) (p : ℕ) : Decidable (inside i p) := by unfold inside; infer_instance

def maskAt (i : Fin 9) (n : Fin 2304) : EReal := if inside i (n.val % 576) then 1 else 0

def sgnW (x : BitVec 32) : BitVec 32 := if x = 0 then 0 else if x.msb then -1 else 1

def quotW (x : BitVec 32) : BitVec 32 :=
  Scalar.select (IntOp.andi (IntOp.cmpi .ne (sgnW x) (sgnW 24#32)) (IntOp.cmpi .ne (IntOp.remsi .host x 24#32) 0#32))
    (IntOp.subi (IntOp.divsi .host x 24#32) 1#32) (IntOp.divsi .host x 24#32)

def dvsW : BitVec 32 := Scalar.select (IntOp.cmpi .eq 24#32 0#32) 1#32 24#32

def remW (x : BitVec 32) : BitVec 32 :=
  Scalar.select
    (IntOp.andi (IntOp.cmpi .ne (IntOp.cmpi .slt (IntOp.remsi .host x dvsW) 0#32) (IntOp.cmpi .slt dvsW 0#32))
      (IntOp.cmpi .ne (IntOp.remsi .host x dvsW) 0#32))
    (IntOp.addi (IntOp.remsi .host x dvsW) dvsW) (IntOp.remsi .host x dvsW)

def tapW (oy ox q r : BitVec 32) : BitVec 1 :=
  IntOp.andi
    (IntOp.andi
      (IntOp.andi (IntOp.cmpi .sge (IntOp.addi q oy) 0#32) (IntOp.cmpi .slt (IntOp.addi q oy) 24#32))
      (IntOp.cmpi .sge (IntOp.addi r ox) 0#32))
    (IntOp.cmpi .slt (IntOp.addi r ox) 24#32)

def sel9 {β : Type} (u0 u1 u2 u3 u4 u5 u6 u7 u8 : β) : ℕ → β
  | 0 => u0 | 1 => u1 | 2 => u2 | 3 => u3 | 4 => u4 | 5 => u5 | 6 => u6 | 7 => u7 | _ => u8

def bitW (i : Fin 9) (p : ℕ) : BitVec 1 :=
  tapW (sel9 4294967295#32 4294967295#32 4294967295#32 0#32 0#32 0#32 1#32 1#32 1#32 i.val)
    (sel9 4294967295#32 0#32 1#32 4294967295#32 0#32 1#32 4294967295#32 0#32 1#32 i.val)
    (quotW (BitVec.ofNat 32 p)) (remW (BitVec.ofNat 32 p))

theorem bitW_eq : ∀ (i : Fin 9) (p : Fin 576), bitW i p.val = BitVec.ofBool (decide (inside i p.val)) := by
  decide +kernel

section Chain

variable (hb : S_.BroadcastsInDim S576 (![] : Fin 0 → Fin S576.rank))

def floorDiv (x : IVec S576 32) (c : IVec S_ 32) : IVec S576 32 :=
  select
    (andi (cmpi .ne (signi x) (broadcastInDim S576 ![] hb (signi (id c))))
      (cmpi .ne (Host.remsi x (broadcastInDim S576 ![] hb (id c))) (broadcastInDim S576 ![] hb (constantI S_ 32 0#32))))
    (subi (Host.divsi x (broadcastInDim S576 ![] hb (id c))) (broadcastInDim S576 ![] hb (constantI S_ 32 1#32)))
    (Host.divsi x (broadcastInDim S576 ![] hb (id c)))

def dvs (c : IVec S_ 32) : IVec S_ 32 := select (cmpi .eq (id c) (constantI S_ 32 0#32)) (constantI S_ 32 1#32) (id c)

def remainder (x : IVec S576 32) (c : IVec S_ 32) : IVec S576 32 :=
  select
    (andi
      (cmpi .ne
        (cmpi .slt (Host.remsi x (broadcastInDim S576 ![] hb (dvs c))) (broadcastInDim S576 ![] hb (constantI S_ 32 0#32)))
        (broadcastInDim S576 ![] hb (cmpi .slt (dvs c) (constantI S_ 32 0#32))))
      (cmpi .ne (Host.remsi x (broadcastInDim S576 ![] hb (dvs c))) (broadcastInDim S576 ![] hb (constantI S_ 32 0#32))))
    (addi (Host.remsi x (broadcastInDim S576 ![] hb (dvs c))) (broadcastInDim S576 ![] hb (dvs c)))
    (Host.remsi x (broadcastInDim S576 ![] hb (dvs c)))

def tap (oy ox : BitVec 32) (R C : IVec S576 32) : IVec S576 1 :=
  andi
    (andi
      (andi
        (cmpi .sge (addi R (broadcastInDim S576 ![] hb (constantI S_ 32 oy))) (broadcastInDim S576 ![] hb (constantI S_ 32 0#32)))
        (cmpi .slt (addi R (broadcastInDim S576 ![] hb (constantI S_ 32 oy))) (broadcastInDim S576 ![] hb (constantI S_ 32 24#32))))
      (cmpi .sge (addi C (broadcastInDim S576 ![] hb (constantI S_ 32 ox))) (broadcastInDim S576 ![] hb (constantI S_ 32 0#32))))
    (cmpi .slt (addi C (broadcastInDim S576 ![] hb (constantI S_ 32 ox))) (broadcastInDim S576 ![] hb (constantI S_ 32 24#32)))

theorem floorDiv_apply (x : IVec S576 32) (j : S576.Idx) : floorDiv hb x (constantI S_ 32 24#32) j = quotW (x j) := rfl

theorem remainder_apply (x : IVec S576 32) (j : S576.Idx) : remainder hb x (constantI S_ 32 24#32) j = remW (x j) := rfl

theorem tap_apply (oy ox : BitVec 32) (R C : IVec S576 32) (j : S576.Idx) : tap hb oy ox R C j = tapW oy ox (R j) (C j) := rfl

def rowsOf : IVec S576 32 := floorDiv hb (iotaInDim S576 32 0) (constantI S_ 32 24#32)

def colsOf : IVec S576 32 := remainder hb (iotaInDim S576 32 0) (constantI S_ 32 24#32)

variable (hb1 : S576.BroadcastsInDim S1x576 (![1] : Fin 1 → Fin S1x576.rank))
variable (hc : Shape.Concatenates [S1x576, S1x576, S1x576, S1x576, S1x576, S1x576, S1x576, S1x576, S1x576] S9x576 0)

def pieces {α : Type} (u0 u1 u2 u3 u4 u5 u6 u7 u8 : S576.Idx → α) : List ((s : Shape) × (s.Idx → α)) :=
  [⟨S1x576, broadcastInDim S1x576 ![1] hb1 u0⟩, ⟨S1x576, broadcastInDim S1x576 ![1] hb1 u1⟩, ⟨S1x576, broadcastInDim S1x576 ![1] hb1 u2⟩,
   ⟨S1x576, broadcastInDim S1x576 ![1] hb1 u3⟩, ⟨S1x576, broadcastInDim S1x576 ![1] hb1 u4⟩, ⟨S1x576, broadcastInDim S1x576 ![1] hb1 u5⟩,
   ⟨S1x576, broadcastInDim S1x576 ![1] hb1 u6⟩, ⟨S1x576, broadcastInDim S1x576 ![1] hb1 u7⟩, ⟨S1x576, broadcastInDim S1x576 ![1] hb1 u8⟩]

def stack {α : Type} (u0 u1 u2 u3 u4 u5 u6 u7 u8 : S576.Idx → α) : S9x576.Idx → α :=
  concatenate S9x576 0 (pieces hb1 u0 u1 u2 u3 u4 u5 u6 u7 u8) hc

theorem row1_apply {α : Type} (u : S576.Idx → α) (p : Fin 576) :
    broadcastInDim S1x576 ![1] hb1 u (ix2 (0 : Fin 1) p) = u (ix1 p) :=
  broadcastInDim_apply _ _ _ _ (ix1 p) (fun a => match a with | ⟨0, _⟩ => rfl)

theorem stack_apply {α : Type} (u0 u1 u2 u3 u4 u5 u6 u7 u8 : S576.Idx → α) (i : Fin 9) (p : Fin 576) :
    stack hb1 hc u0 u1 u2 u3 u4 u5 u6 u7 u8 (ix2 i p) = sel9 u0 u1 u2 u3 u4 u5 u6 u7 u8 i.val (ix1 p) := by
  have piece : ∀ (k : Nat) (hk : k < 9) (u : S576.Idx → α),
      (pieces hb1 u0 u1 u2 u3 u4 u5 u6 u7 u8)[k]? = some ⟨S1x576, broadcastInDim S1x576 ![1] hb1 u⟩ →
      stack hb1 hc u0 u1 u2 u3 u4 u5 u6 u7 u8 (ix2 (⟨k, hk⟩ : Fin 9) p) = u (ix1 p) := by
    intro k hk u hx
    have hlen : (pieces hb1 u0 u1 u2 u3 u4 u5 u6 u7 u8).length = 9 := rfl
    have hk' : k < (pieces hb1 u0 u1 u2 u3 u4 u5 u6 u7 u8).length := by rw [hlen]; exact hk
    have hx' : (pieces hb1 u0 u1 u2 u3 u4 u5 u6 u7 u8)[k] = ⟨S1x576, broadcastInDim S1x576 ![1] hb1 u⟩ := by
      rw [List.getElem?_eq_getElem hk'] at hx; exact Option.some.inj hx
    have hpre : ((((pieces hb1 u0 u1 u2 u3 u4 u5 u6 u7 u8).take k).map (·.1)).map
        fun s => if h : s.rank = S9x576.rank then s.size ((0 : Fin S9x576.rank).cast h.symm) else 0).sum = k := by
      interval_cases k <;> rfl
    unfold stack
    rw [concatenate_apply_piece 0 (pieces hb1 u0 u1 u2 u3 u4 u5 u6 u7 u8) hc (ix2 (⟨k, hk⟩ : Fin 9) p) k hk' S1x576
      (broadcastInDim S1x576 ![1] hb1 u) hx' rfl k hpre (ix2 (0 : Fin 1) p)
      (fun b hb' => match b, hb' with | ⟨0, _⟩, hb' => absurd rfl hb' | ⟨1, _⟩, _ => rfl) rfl]
    exact row1_apply hb1 u p
  match i with
  | ⟨0, _⟩ => exact piece 0 _ u0 rfl
  | ⟨1, _⟩ => exact piece 1 _ u1 rfl
  | ⟨2, _⟩ => exact piece 2 _ u2 rfl
  | ⟨3, _⟩ => exact piece 3 _ u3 rfl
  | ⟨4, _⟩ => exact piece 4 _ u4 rfl
  | ⟨5, _⟩ => exact piece 5 _ u5 rfl
  | ⟨6, _⟩ => exact piece 6 _ u6 rfl
  | ⟨7, _⟩ => exact piece 7 _ u7 rfl
  | ⟨8, _⟩ => exact piece 8 _ u8 rfl
  | ⟨k + 9, h⟩ => exact absurd h (by omega)

def bits (R C : IVec S576 32) : IVec S9x576 1 :=
  stack hb1 hc
    (tap hb 4294967295#32 4294967295#32 R C) (tap hb 4294967295#32 0#32 R C) (tap hb 4294967295#32 1#32 R C)
    (tap hb 0#32 4294967295#32 R C) (tap hb 0#32 0#32 R C) (tap hb 0#32 1#32 R C)
    (tap hb 1#32 4294967295#32 R C) (tap hb 1#32 0#32 R C) (tap hb 1#32 1#32 R C)

theorem tap_rowcol (oy ox : BitVec 32) (p : Fin 576) :
    tap hb oy ox (rowsOf hb) (colsOf hb) (ix1 p)
      = tapW oy ox (quotW (BitVec.ofNat 32 p.val)) (remW (BitVec.ofNat 32 p.val)) := by
  rw [tap_apply, rowsOf, colsOf, floorDiv_apply, remainder_apply]
  rfl

theorem bits_apply (i : Fin 9) (p : Fin 576) :
    bits hb hb1 hc (rowsOf hb) (colsOf hb) (ix2 i p) = BitVec.ofBool (decide (inside i p.val)) := by
  rw [← bitW_eq i p, bits, stack_apply]
  match i with
  | ⟨0, _⟩ => exact tap_rowcol hb _ _ p
  | ⟨1, _⟩ => exact tap_rowcol hb _ _ p
  | ⟨2, _⟩ => exact tap_rowcol hb _ _ p
  | ⟨3, _⟩ => exact tap_rowcol hb _ _ p
  | ⟨4, _⟩ => exact tap_rowcol hb _ _ p
  | ⟨5, _⟩ => exact tap_rowcol hb _ _ p
  | ⟨6, _⟩ => exact tap_rowcol hb _ _ p
  | ⟨7, _⟩ => exact tap_rowcol hb _ _ p
  | ⟨8, _⟩ => exact tap_rowcol hb _ _ p
  | ⟨k + 9, h⟩ => exact absurd h (by omega)

end Chain

section Layout

theorem uitofp_bit {s : Shape} (φ : FTy) (x : IVec s 1) (j : s.Idx) (P : Prop) [Decidable P] (h : x j = BitVec.ofBool (decide P)) : (uitofp φ x : FVec Ideal s φ) j = if P then (1 : EReal) else 0 := by
  show (((x j).toNat : ℝ) : EReal) = _
  rw [h]
  by_cases hP : P
  · simp [hP]
  · simp [hP]

variable (h1 : S9x576.ShapeCasts S1x9x1x576)
variable (hbt : S1x9x1x576.BroadcastsInDim S1x9x4x576 (![0, 1, 2, 3] : Fin 4 → Fin S1x9x4x576.rank))
variable (h2 : S1x9x4x576.ShapeCasts S9x2304)

def tile {α : Type} (x : S9x576.Idx → α) : S9x2304.Idx → α :=
  shapeCast S9x2304 (broadcastInDim S1x9x4x576 ![0, 1, 2, 3] hbt (shapeCast S1x9x1x576 x h1)) h2

theorem tile_apply {α : Type} (x : S9x576.Idx → α) (i : Fin 9) (n : Fin 2304) :
    tile h1 hbt h2 x (ix2 i n) = x (ix2 i ⟨n.val % 576, Nat.mod_lt _ (by decide)⟩) := by
  have hi := i.isLt
  have hn := n.isLt
  have hq : n.val / 576 < 4 := by omega
  have hr : n.val % 576 < 576 := Nat.mod_lt _ (by decide)
  unfold tile
  refine (shapeCast_apply _ _ (ix2 i n) (ix4 (0 : Fin 1) i ⟨n.val / 576, hq⟩ ⟨n.val % 576, hr⟩)
    (by rw [Shape.rowMajor_val_four, Shape.rowMajor_val_two]
        show ((0 * 9 + i.val) * 4 + n.val / 576) * 576 + n.val % 576 = i.val * 2304 + n.val
        omega)).trans ?_
  refine (broadcastInDim_apply _ _ _ _ (ix4 (0 : Fin 1) i (0 : Fin 1) ⟨n.val % 576, hr⟩)
    (fun a => match a with | ⟨0, _⟩ => rfl | ⟨1, _⟩ => rfl | ⟨2, _⟩ => rfl | ⟨3, _⟩ => rfl)).trans ?_
  exact shapeCast_apply _ _ _ (ix2 i ⟨n.val % 576, hr⟩)
    (by rw [Shape.rowMajor_val_four, Shape.rowMajor_val_two]
        show i.val * 576 + n.val % 576 = ((0 * 9 + i.val) * 1 + 0) * 576 + n.val % 576
        omega)

variable (hz : S_.BroadcastsInDim S7x2304 (![] : Fin 0 → Fin S7x2304.rank))
variable (hcc : Shape.Concatenates [S9x2304, S7x2304] S16x2304 0)

def pad16 (a : IVec S9x2304 1) : IVec S16x2304 1 :=
  concatenate S16x2304 0 [⟨S9x2304, a⟩, ⟨S7x2304, broadcastInDim S7x2304 ![] hz (constantI S_ 1 0#1)⟩] hcc

theorem pad16_apply (a : IVec S9x2304 1) (i : Fin 9) (n : Fin 2304) :
    pad16 hz hcc a (ix2 (⟨i.val, by omega⟩ : Fin 16) n) = a (ix2 i n) :=
  concatenate_pair_apply_left 0 a _ hcc _ rfl (ix2 i n) (fun b => match b with | ⟨0, _⟩ => rfl | ⟨1, _⟩ => rfl)

variable (hb : S_.BroadcastsInDim S576 (![] : Fin 0 → Fin S576.rank))
variable (hb1 : S576.BroadcastsInDim S1x576 (![1] : Fin 1 → Fin S1x576.rank))
variable (hc : Shape.Concatenates [S1x576, S1x576, S1x576, S1x576, S1x576, S1x576, S1x576, S1x576, S1x576] S9x576 0)

def table : IVec S9x576 1 := bits hb hb1 hc (rowsOf hb) (colsOf hb)

def wide16 {F : FTy → Type} [FloatOps F] (φ : FTy) : FVec F S16x2304 φ :=
  uitofp φ (pad16 hz hcc (tile h1 hbt h2 (table hb hb1 hc)))

def wide9 {F : FTy → Type} [FloatOps F] (φ : FTy) : FVec F S9x2304 φ :=
  tile h1 hbt h2 (uitofp φ (table hb hb1 hc) : FVec F S9x576 φ)

theorem wide16_apply (φ : FTy) (i : Fin 9) (n : Fin 2304) :
    (wide16 h1 hbt h2 hz hcc hb hb1 hc φ : FVec Ideal S16x2304 φ) (ix2 (⟨i.val, by omega⟩ : Fin 16) n) = maskAt i n := by
  unfold wide16 maskAt
  exact uitofp_bit φ _ _ (inside i (n.val % 576))
    (by rw [pad16_apply, tile_apply, table]; exact bits_apply hb hb1 hc i ⟨n.val % 576, Nat.mod_lt _ (by decide)⟩)

theorem wide9_apply (φ : FTy) (i : Fin 9) (n : Fin 2304) :
    (wide9 h1 hbt h2 hb hb1 hc φ : FVec Ideal S9x2304 φ) (ix2 i n) = maskAt i n := by
  unfold wide9 maskAt
  rw [tile_apply]
  exact uitofp_bit φ _ _ (inside i (n.val % 576))
    (by rw [table]; exact bits_apply hb hb1 hc i ⟨n.val % 576, Nat.mod_lt _ (by decide)⟩)

end Layout

end Cert.Mask

end
-- ==== Proof.KI.Masks.lean ====
import proofs.«130420_g2000206920649175_pallasbulk_1279_2_alg».proof.Proof.KI.Params
import proofs.«130420_g2000206920649175_pallasbulk_1279_2_alg».proof.Proof.LibMask

set_option maxRecDepth 16384

noncomputable section

namespace Cert.KernelIdeal.Masks

open Idealize.ShloMosaic Idealize.ShloMosaic.TcCoe Idealize.ShloMosaic.ValueIdx Idealize.ShloMosaic.StableHlo
open Cert.KernelIdeal Cert.KernelIdeal.Gen Cert.KernelIdeal.Hand

variable {F : FTy → Type} [FloatOps F]

def stack1 {α : Type} (p0 p1 p2 p3 p4 p5 p6 p7 p8 : S1x576.Idx → α) : S9x576.Idx → α :=
  concatenate S9x576 0 [⟨S1x576, p0⟩, ⟨S1x576, p1⟩, ⟨S1x576, p2⟩, ⟨S1x576, p3⟩, ⟨S1x576, p4⟩, ⟨S1x576, p5⟩, ⟨S1x576, p6⟩,
    ⟨S1x576, p7⟩, ⟨S1x576, p8⟩] concatenates_S1x576_S1x576_S1x576_S1x576_S1x576_S1x576_S1x576_S1x576_S1x576_S9x576_d0

theorem v250_result (Fv : Valuation τ sig (Elt F)) :
    (StableHlo.nary ![main_v241, main_v242, main_v243, main_v244, main_v245, main_v246, main_v247, main_v248, main_v249] main_v250
        (fun u => concatenate S9x576 0 [⟨S1x576, u 0⟩, ⟨S1x576, u 1⟩, ⟨S1x576, u 2⟩, ⟨S1x576, u 3⟩, ⟨S1x576, u 4⟩, ⟨S1x576, u 5⟩, ⟨S1x576, u 6⟩, ⟨S1x576, u 7⟩, ⟨S1x576, u 8⟩] concatenates_S1x576_S1x576_S1x576_S1x576_S1x576_S1x576_S1x576_S1x576_S1x576_S9x576_d0)).result
        Fv (no_index (Proc.devRef .tc main_v250))
      = stack1 (α := BitVec 1) (Fv (Proc.devRef .tc main_v241)) (Fv (Proc.devRef .tc main_v242)) (Fv (Proc.devRef .tc main_v243))
          (Fv (Proc.devRef .tc main_v244)) (Fv (Proc.devRef .tc main_v245)) (Fv (Proc.devRef .tc main_v246))
          (Fv (Proc.devRef .tc main_v247)) (Fv (Proc.devRef .tc main_v248)) (Fv (Proc.devRef .tc main_v249)) :=
  nary_result _ _ _ _ _ Fv

def pad2 {α : Type} (a : S9x2304.Idx → α) (b : S7x2304.Idx → α) : S16x2304.Idx → α :=
  concatenate S16x2304 0 [⟨S9x2304, a⟩, ⟨S7x2304, b⟩] concatenates_S9x2304_S7x2304_S16x2304_d0

theorem pad2_eq {α : Type} (a : S9x2304.Idx → α) (b : S7x2304.Idx → α) (h : Shape.Concatenates [S9x2304, S7x2304] S16x2304 0) :
    concatenate S16x2304 0 [⟨S9x2304, a⟩, ⟨S7x2304, b⟩] h = pad2 a b := rfl

macro "fold_results" : tactic =>
  `(tactic| (simp (disch := decide) only [StableHlo.after_cons, StableHlo.after_nil, v250_result, pad2_eq,
      StableHlo.nullary_result', StableHlo.unary_result', StableHlo.binary_result', StableHlo.ternary_result',
      StableHlo.reshape_result',
      StableHlo.nullary_result_ne', StableHlo.unary_result_ne', StableHlo.binary_result_ne', StableHlo.ternary_result_ne',
      StableHlo.reshape_result_ne', StableHlo.nary_result_ne']))

theorem s0_v67 (W : Valuation τ sig (Elt F)) :
    (StableHlo.after hostOps0 W (Proc.devRef .tc main_v67) : IVec S576 32) = iotaInDim S576 32 0 := by
  fold_results

theorem s0_c (W : Valuation τ sig (Elt F)) :
    (StableHlo.after hostOps0 W (Proc.devRef .tc main_c) : IVec S_ 32) = constantI S_ 32 24#32 := by
  fold_results

theorem s1_v68 (W : Valuation τ sig (Elt F)) :
    (StableHlo.after hostOps0_1 W (Proc.devRef .tc main_v68) : IVec S576 32)
      = Mask.floorDiv bcast_S_S576 (W (Proc.devRef .tc main_v67)) (W (Proc.devRef .tc main_c)) := by
  fold_results
  rfl

theorem s1_v67 (W : Valuation τ sig (Elt F)) :
    StableHlo.after hostOps0_1 W (Proc.devRef .tc main_v67) = W (Proc.devRef .tc main_v67) := by
  fold_results

theorem s2_c1 (W : Valuation τ sig (Elt F)) :
    (StableHlo.after hostOps0_2 W (Proc.devRef .tc main_c_1) : IVec S_ 32) = constantI S_ 32 24#32 := by
  fold_results

theorem s2_v67 (W : Valuation τ sig (Elt F)) :
    StableHlo.after hostOps0_2 W (Proc.devRef .tc main_v67) = W (Proc.devRef .tc main_v67) := by
  fold_results

theorem s2_v68 (W : Valuation τ sig (Elt F)) :
    StableHlo.after hostOps0_2 W (Proc.devRef .tc main_v68) = W (Proc.devRef .tc main_v68) := by
  fold_results

theorem s3_v69 (W : Valuation τ sig (Elt F)) :
    (StableHlo.after hostOps0_3 W (Proc.devRef .tc main_v69) : IVec S576 32)
      = Mask.remainder bcast_S_S576 (W (Proc.devRef .tc main_v67)) (W (Proc.devRef .tc main_c_1)) := by
  fold_results
  simp only [StableHlo.TRef.ofBuf, StableHlo.TRef.toBuf, cast_eq]
  rfl

theorem s3_v68 (W : Valuation τ sig (Elt F)) :
    StableHlo.after hostOps0_3 W (Proc.devRef .tc main_v68) = W (Proc.devRef .tc main_v68) := by
  fold_results

set_option maxHeartbeats 4000000 in
theorem s4_v256 (W : Valuation τ sig (Elt F)) :
    (StableHlo.after hostOps0_4 W (Proc.devRef .tc main_v256) : FVec F S16x2304 .bf16)
      = uitofp .bf16 (Mask.pad16 bcast_S_S7x2304 concatenates_S9x2304_S7x2304_S16x2304_d0
          (Mask.tile shapeCasts_S9x576_S1x9x1x576 bcast_S1x9x1x576_S1x9x4x576_0_1_2_3 shapeCasts_S1x9x4x576_S9x2304
            (Mask.bits bcast_S_S576 bcast_S576_S1x576_1 concatenates_S1x576_S1x576_S1x576_S1x576_S1x576_S1x576_S1x576_S1x576_S1x576_S9x576_d0
              (W (Proc.devRef .tc main_v68)) (W (Proc.devRef .tc main_v69))))) := by
  fold_results
  rfl

variable (m : (ℓ : Loc nD τ sig) → Buf (Elt F) ℓ)

theorem V_v256 (c : Dev nD) :
    (V m c main_v256 : FVec F S16x2304 .bf16)
      = Mask.wide16 shapeCasts_S9x576_S1x9x1x576 bcast_S1x9x1x576_S1x9x4x576_0_1_2_3 shapeCasts_S1x9x4x576_S9x2304
          bcast_S_S7x2304 concatenates_S9x2304_S7x2304_S16x2304_d0 bcast_S_S576 bcast_S576_S1x576_1
          concatenates_S1x576_S1x576_S1x576_S1x576_S1x576_S1x576_S1x576_S1x576_S1x576_S9x576_d0 .bf16 := by
  have e : List.flatten (preOps (F := F)) = hostOps0 ++ (hostOps0_1 ++ (hostOps0_2 ++ (hostOps0_3 ++ hostOps0_4))) := by
    simp only [preOps, List.flatten_cons, List.flatten_nil, List.append_nil]
  show StableHlo.after (List.flatten (preOps (F := F))) (fun b => m (c, b)) (Proc.devRef .tc main_v256) = _
  rw [e, StableHlo.after_append, StableHlo.after_append, StableHlo.after_append, StableHlo.after_append,
    s4_v256, s3_v69, s3_v68, s2_c1, s2_v67, s2_v68, s1_v68, s1_v67, s0_v67, s0_c]
  rfl

end Cert.KernelIdeal.Masks

namespace Cert.KernelIdeal.Par

open Idealize.ShloMosaic Idealize.ShloMosaic.TcCoe Idealize.ShloMosaic.ValueIdx
open Idealize.SL.Sem
open Cert.KernelIdeal Cert.KernelIdeal.Gen Cert.KernelIdeal.Hand

theorem Mp_closed (m : (ℓ : Loc nD τ sig) → Buf (Elt Ideal) ℓ) (c : Dev nD) : Mp m c = Cert.Mask.maskAt := by
  funext i n
  exact (congrFun (Cert.KernelIdeal.Masks.V_v256 (F := Ideal) m c) (ix2 (⟨i.val, by omega⟩ : Fin 16) n)).trans
    (Cert.Mask.wide16_apply _ _ _ _ _ _ _ _ .bf16 i n)

end Cert.KernelIdeal.Par

end
-- ==== Proof.RI.MasksRest.lean ====
import proofs.«130420_g2000206920649175_pallasbulk_1279_2_alg».proof.Proof.RI.Main
import proofs.«130420_g2000206920649175_pallasbulk_1279_2_alg».proof.Proof.LibMask

set_option maxRecDepth 16384

noncomputable section

namespace Cert.ReferenceIdeal.Par

open Idealize.ShloMosaic Idealize.ShloMosaic.TcCoe Idealize.ShloMosaic.StableHlo
open Cert.ReferenceIdeal Cert.ReferenceIdeal.Gen Cert.ReferenceIdeal.Hand

variable {F : FTy → Type} [FloatOps F]

abbrev tapOps : List (HloOp τ sig (Elt F)) := List.take 243 hostOps0_4

abbrev restOps : List (HloOp τ sig (Elt F)) := List.drop 243 hostOps0_4

theorem hostOps0_4_split : (hostOps0_4 : List (HloOp τ sig (Elt F))) = tapOps ++ restOps :=
  (List.take_append_drop 243 hostOps0_4).symm

def stack1 {α : Type} (p0 p1 p2 p3 p4 p5 p6 p7 p8 : S1x576.Idx → α) : S9x576.Idx → α :=
  concatenate S9x576 0 [⟨S1x576, p0⟩, ⟨S1x576, p1⟩, ⟨S1x576, p2⟩, ⟨S1x576, p3⟩, ⟨S1x576, p4⟩, ⟨S1x576, p5⟩, ⟨S1x576, p6⟩,
    ⟨S1x576, p7⟩, ⟨S1x576, p8⟩] concatenates_S1x576_S1x576_S1x576_S1x576_S1x576_S1x576_S1x576_S1x576_S1x576_S9x576_d0

theorem v183_result (Fv : Valuation τ sig (Elt F)) :
    (StableHlo.nary ![main_v174, main_v175, main_v176, main_v177, main_v178, main_v179, main_v180, main_v181, main_v182] main_v183
        (fun u => concatenate S9x576 0 [⟨S1x576, u 0⟩, ⟨S1x576, u 1⟩, ⟨S1x576, u 2⟩, ⟨S1x576, u 3⟩, ⟨S1x576, u 4⟩, ⟨S1x576, u 5⟩, ⟨S1x576, u 6⟩, ⟨S1x576, u 7⟩, ⟨S1x576, u 8⟩] concatenates_S1x576_S1x576_S1x576_S1x576_S1x576_S1x576_S1x576_S1x576_S1x576_S9x576_d0)).result
        Fv (no_index (Proc.devRef .tc main_v183))
      = stack1 (α := BitVec 1) (Fv (Proc.devRef .tc main_v174)) (Fv (Proc.devRef .tc main_v175)) (Fv (Proc.devRef .tc main_v176))
          (Fv (Proc.devRef .tc main_v177)) (Fv (Proc.devRef .tc main_v178)) (Fv (Proc.devRef .tc main_v179))
          (Fv (Proc.devRef .tc main_v180)) (Fv (Proc.devRef .tc main_v181)) (Fv (Proc.devRef .tc main_v182)) :=
  nary_result _ _ _ _ _ Fv

theorem rest_v187 (W : Valuation τ sig (Elt F)) :
    StableHlo.after restOps W (Proc.devRef .tc main_v187)
      = Cert.Mask.tile shapeCasts_S9x576_S1x9x1x576 bcast_S1x9x1x576_S1x9x4x576_0_1_2_3 shapeCasts_S1x9x4x576_S9x2304
          (uitofp .f32 (Cert.Mask.stack bcast_S576_S1x576_1 concatenates_S1x576_S1x576_S1x576_S1x576_S1x576_S1x576_S1x576_S1x576_S1x576_S9x576_d0
            (W (Proc.devRef .tc main_v21)) (W (Proc.devRef .tc main_v40)) (W (Proc.devRef .tc main_v59))
            (W (Proc.devRef .tc main_v78)) (W (Proc.devRef .tc main_v97)) (W (Proc.devRef .tc main_v116))
            (W (Proc.devRef .tc main_v135)) (W (Proc.devRef .tc main_v154)) (W (Proc.devRef .tc main_v173))) : FVec F Cert.Mask.S9x576 .f32) := by
  show StableHlo.after (List.drop 243 hostOps0_4) W (Proc.devRef .tc main_v187) = _
  simp only [hostOps0_4, List.drop_succ_cons, List.drop_zero]
  simp (disch := decide) only [after_cons, after_nil, v183_result,
      nullary_result', unary_result', binary_result', reshape_result',
      nullary_result_ne', unary_result_ne', binary_result_ne', reshape_result_ne', nary_result_ne']
  rfl

end Cert.ReferenceIdeal.Par

end
-- ==== Proof.RI.MasksTapsA.lean ====
import proofs.«130420_g2000206920649175_pallasbulk_1279_2_alg».proof.Proof.RI.MasksRest

set_option maxRecDepth 16384

noncomputable section

namespace Cert.ReferenceIdeal.Par

open Idealize.ShloMosaic Idealize.ShloMosaic.TcCoe Idealize.ShloMosaic.StableHlo
open Cert.ReferenceIdeal Cert.ReferenceIdeal.Gen Cert.ReferenceIdeal.Hand

variable {F : FTy → Type} [FloatOps F]

set_option maxHeartbeats 4000000 in
theorem tap0 (W : Valuation τ sig (Elt F)) :
    StableHlo.after tapOps W (Proc.devRef .tc main_v21)
      = Cert.Mask.tap bcast_S_S576 4294967295#32 4294967295#32 (W (Proc.devRef .tc main_v1)) (W (Proc.devRef .tc main_v2)) := by
  show StableHlo.after (List.take 243 hostOps0_4) W (Proc.devRef .tc main_v21) = _
  simp only [hostOps0_4, List.take_succ_cons, List.take_zero]
  after_results_simp
  rfl

set_option maxHeartbeats 4000000 in
theorem tap1 (W : Valuation τ sig (Elt F)) :
    StableHlo.after tapOps W (Proc.devRef .tc main_v40)
      = Cert.Mask.tap bcast_S_S576 4294967295#32 0#32 (W (Proc.devRef .tc main_v1)) (W (Proc.devRef .tc main_v2)) := by
  show StableHlo.after (List.take 243 hostOps0_4) W (Proc.devRef .tc main_v40) = _
  simp only [hostOps0_4, List.take_succ_cons, List.take_zero]
  after_results_simp
  rfl

set_option maxHeartbeats 4000000 in
theorem tap2 (W : Valuation τ sig (Elt F)) :
    StableHlo.after tapOps W (Proc.devRef .tc main_v59)
      = Cert.Mask.tap bcast_S_S576 4294967295#32 1#32 (W (Proc.devRef .tc main_v1)) (W (Proc.devRef .tc main_v2)) := by
  show StableHlo.after (List.take 243 hostOps0_4) W (Proc.devRef .tc main_v59) = _
  simp only [hostOps0_4, List.take_succ_cons, List.take_zero]
  after_results_simp
  rfl

end Cert.ReferenceIdeal.Par

end
-- ==== Proof.RI.MasksTapsB.lean ====
import proofs.«130420_g2000206920649175_pallasbulk_1279_2_alg».proof.Proof.RI.MasksRest

set_option maxRecDepth 16384

noncomputable section

namespace Cert.ReferenceIdeal.Par

open Idealize.ShloMosaic Idealize.ShloMosaic.TcCoe Idealize.ShloMosaic.StableHlo
open Cert.ReferenceIdeal Cert.ReferenceIdeal.Gen Cert.ReferenceIdeal.Hand

variable {F : FTy → Type} [FloatOps F]

set_option maxHeartbeats 4000000 in
theorem tap3 (W : Valuation τ sig (Elt F)) :
    StableHlo.after tapOps W (Proc.devRef .tc main_v78)
      = Cert.Mask.tap bcast_S_S576 0#32 4294967295#32 (W (Proc.devRef .tc main_v1)) (W (Proc.devRef .tc main_v2)) := by
  show StableHlo.after (List.take 243 hostOps0_4) W (Proc.devRef .tc main_v78) = _
  simp only [hostOps0_4, List.take_succ_cons, List.take_zero]
  after_results_simp
  rfl

set_option maxHeartbeats 4000000 in
theorem tap4 (W : Valuation τ sig (Elt F)) :
    StableHlo.after tapOps W (Proc.devRef .tc main_v97)
      = Cert.Mask.tap bcast_S_S576 0#32 0#32 (W (Proc.devRef .tc main_v1)) (W (Proc.devRef .tc main_v2)) := by
  show StableHlo.after (List.take 243 hostOps0_4) W (Proc.devRef .tc main_v97) = _
  simp only [hostOps0_4, List.take_succ_cons, List.take_zero]
  after_results_simp
  rfl

set_option maxHeartbeats 4000000 in
theorem tap5 (W : Valuation τ sig (Elt F)) :
    StableHlo.after tapOps W (Proc.devRef .tc main_v116)
      = Cert.Mask.tap bcast_S_S576 0#32 1#32 (W (Proc.devRef .tc main_v1)) (W (Proc.devRef .tc main_v2)) := by
  show StableHlo.after (List.take 243 hostOps0_4) W (Proc.devRef .tc main_v116) = _
  simp only [hostOps0_4, List.take_succ_cons, List.take_zero]
  after_results_simp
  rfl

end Cert.ReferenceIdeal.Par

end
-- ==== Proof.RI.MasksTapsC.lean ====
import proofs.«130420_g2000206920649175_pallasbulk_1279_2_alg».proof.Proof.RI.MasksRest

set_option maxRecDepth 16384

noncomputable section

namespace Cert.ReferenceIdeal.Par

open Idealize.ShloMosaic Idealize.ShloMosaic.TcCoe Idealize.ShloMosaic.StableHlo
open Cert.ReferenceIdeal Cert.ReferenceIdeal.Gen Cert.ReferenceIdeal.Hand

variable {F : FTy → Type} [FloatOps F]

set_option maxHeartbeats 4000000 in
theorem tap6 (W : Valuation τ sig (Elt F)) :
    StableHlo.after tapOps W (Proc.devRef .tc main_v135)
      = Cert.Mask.tap bcast_S_S576 1#32 4294967295#32 (W (Proc.devRef .tc main_v1)) (W (Proc.devRef .tc main_v2)) := by
  show StableHlo.after (List.take 243 hostOps0_4) W (Proc.devRef .tc main_v135) = _
  simp only [hostOps0_4, List.take_succ_cons, List.take_zero]
  after_results_simp
  rfl

set_option maxHeartbeats 4000000 in
theorem tap7 (W : Valuation τ sig (Elt F)) :
    StableHlo.after tapOps W (Proc.devRef .tc main_v154)
      = Cert.Mask.tap bcast_S_S576 1#32 0#32 (W (Proc.devRef .tc main_v1)) (W (Proc.devRef .tc main_v2)) := by
  show StableHlo.after (List.take 243 hostOps0_4) W (Proc.devRef .tc main_v154) = _
  simp only [hostOps0_4, List.take_succ_cons, List.take_zero]
  after_results_simp
  rfl

set_option maxHeartbeats 4000000 in
theorem tap8 (W : Valuation τ sig (Elt F)) :
    StableHlo.after tapOps W (Proc.devRef .tc main_v173)
      = Cert.Mask.tap bcast_S_S576 1#32 1#32 (W (Proc.devRef .tc main_v1)) (W (Proc.devRef .tc main_v2)) := by
  show StableHlo.after (List.take 243 hostOps0_4) W (Proc.devRef .tc main_v173) = _
  simp only [hostOps0_4, List.take_succ_cons, List.take_zero]
  after_results_simp
  rfl

end Cert.ReferenceIdeal.Par

end
-- ==== Proof.RI.Masks.lean ====
import proofs.«130420_g2000206920649175_pallasbulk_1279_2_alg».proof.Proof.RI.MasksTapsA
import proofs.«130420_g2000206920649175_pallasbulk_1279_2_alg».proof.Proof.RI.MasksTapsB
import proofs.«130420_g2000206920649175_pallasbulk_1279_2_alg».proof.Proof.RI.MasksTapsC
import proofs.«130420_g2000206920649175_pallasbulk_1279_2_alg».proof.Proof.RI.Params

set_option maxRecDepth 16384

noncomputable section

namespace Cert.ReferenceIdeal.Par

open Idealize.ShloMosaic Idealize.ShloMosaic.TcCoe Idealize.ShloMosaic.StableHlo
open Cert.ReferenceIdeal Cert.ReferenceIdeal.Gen Cert.ReferenceIdeal.Hand

variable {F : FTy → Type} [FloatOps F]

theorem st0_v0 (W : Valuation τ sig (Elt F)) :
    StableHlo.after hostOps0 W (Proc.devRef .tc main_v0) = iotaInDim S576 32 0 := by
  after_results_simp

theorem st0_c (W : Valuation τ sig (Elt F)) :
    StableHlo.after hostOps0 W (Proc.devRef .tc main_c) = constantI S_ 32 24#32 := by
  after_results_simp

theorem st1_v1 (W : Valuation τ sig (Elt F)) :
    StableHlo.after hostOps0_1 W (Proc.devRef .tc main_v1)
      = Cert.Mask.floorDiv bcast_S_S576 (W (Proc.devRef .tc main_v0)) (W (Proc.devRef .tc main_c)) := by
  after_results_simp
  rfl
theorem st1_v0 (W : Valuation τ sig (Elt F)) :
    StableHlo.after hostOps0_1 W (Proc.devRef .tc main_v0) = W (Proc.devRef .tc main_v0) := by
  after_results_simp

theorem st2_c0 (W : Valuation τ sig (Elt F)) :
    StableHlo.after hostOps0_2 W (Proc.devRef .tc main_c_0) = constantI S_ 32 24#32 := by
  after_results_simp
theorem st2_v0 (W : Valuation τ sig (Elt F)) :
    StableHlo.after hostOps0_2 W (Proc.devRef .tc main_v0) = W (Proc.devRef .tc main_v0) := by
  after_results_simp
theorem st2_v1 (W : Valuation τ sig (Elt F)) :
    StableHlo.after hostOps0_2 W (Proc.devRef .tc main_v1) = W (Proc.devRef .tc main_v1) := by
  after_results_simp

set_option maxHeartbeats 4000000 in
theorem st3_v2 (W : Valuation τ sig (Elt F)) :
    StableHlo.after hostOps0_3 W (Proc.devRef .tc main_v2)
      = Cert.Mask.remainder bcast_S_S576 (W (Proc.devRef .tc main_v0)) (W (Proc.devRef .tc main_c_0)) := by
  after_results_simp
  rfl
theorem st3_v1 (W : Valuation τ sig (Elt F)) :
    StableHlo.after hostOps0_3 W (Proc.devRef .tc main_v1) = W (Proc.devRef .tc main_v1) := by
  after_results_simp

theorem st4_v187 (W : Valuation τ sig (Elt F)) :
    StableHlo.after hostOps0_4 W (Proc.devRef .tc main_v187)
      = Cert.Mask.tile shapeCasts_S9x576_S1x9x1x576 bcast_S1x9x1x576_S1x9x4x576_0_1_2_3 shapeCasts_S1x9x4x576_S9x2304
          (uitofp .f32 (Cert.Mask.bits bcast_S_S576 bcast_S576_S1x576_1 concatenates_S1x576_S1x576_S1x576_S1x576_S1x576_S1x576_S1x576_S1x576_S1x576_S9x576_d0
            (W (Proc.devRef .tc main_v1)) (W (Proc.devRef .tc main_v2))) : FVec F Cert.Mask.S9x576 .f32) := by
  rw [hostOps0_4_split, StableHlo.after_append, rest_v187, tap0, tap1, tap2, tap3, tap4, tap5, tap6, tap7, tap8]
  rfl

theorem st5_v187 (W : Valuation τ sig (Elt F)) :
    StableHlo.after hostOps0_5 W (Proc.devRef .tc main_v187) = W (Proc.devRef .tc main_v187) := by
  after_results_simp
theorem st6_v187 (W : Valuation τ sig (Elt F)) :
    StableHlo.after hostOps0_6 W (Proc.devRef .tc main_v187) = W (Proc.devRef .tc main_v187) := by
  after_results_simp

variable (m : (ℓ : Loc nD τ sig) → Buf (Elt F) ℓ) (c : Dev nD)

theorem V_v187 :
    (V m c main_v187 : S9x2304.Idx → Elt F .f32)
      = Cert.Mask.wide9 shapeCasts_S9x576_S1x9x1x576 bcast_S1x9x1x576_S1x9x4x576_0_1_2_3 shapeCasts_S1x9x4x576_S9x2304
          bcast_S_S576 bcast_S576_S1x576_1 concatenates_S1x576_S1x576_S1x576_S1x576_S1x576_S1x576_S1x576_S1x576_S1x576_S9x576_d0 .f32 := by
  show StableHlo.after (List.flatten (preOps (F := F))) (fun b => m (c, b)) (Proc.devRef .tc main_v187) = _
  have e : List.flatten (preOps (F := F))
      = hostOps0 ++ (hostOps0_1 ++ (hostOps0_2 ++ (hostOps0_3 ++ (hostOps0_4 ++ (hostOps0_5 ++ hostOps0_6))))) := by
    simp only [preOps, List.flatten_cons, List.flatten_nil, List.append_nil]
  rw [e, StableHlo.after_append, StableHlo.after_append, StableHlo.after_append, StableHlo.after_append,
    StableHlo.after_append, StableHlo.after_append]
  rw [st6_v187, st5_v187, st4_v187, st3_v1, st3_v2, st2_v1, st2_v0, st2_c0, st1_v1, st1_v0, st0_v0, st0_c]
  rfl

end Cert.ReferenceIdeal.Par

namespace Cert.ReferenceIdeal.Par

open Idealize.ShloMosaic Idealize.ShloMosaic.TcCoe Idealize.ShloMosaic.ValueIdx
open Cert.ReferenceIdeal Cert.ReferenceIdeal.Gen Cert.ReferenceIdeal.Hand

theorem Mp_closed (m : (ℓ : Loc nD τ sig) → Buf (Elt Ideal) ℓ) (c : Dev nD) : Mp m c = Cert.Mask.maskAt := by
  funext i n
  show (V m c main_v187 : S9x2304.Idx → EReal) (ix2 i n) = _
  rw [V_v187 (F := Ideal) m c]
  exact Cert.Mask.wide9_apply shapeCasts_S9x576_S1x9x1x576 bcast_S1x9x1x576_S1x9x4x576_0_1_2_3
    shapeCasts_S1x9x4x576_S9x2304 bcast_S_S576 bcast_S576_S1x576_1 concatenates_S1x576_S1x576_S1x576_S1x576_S1x576_S1x576_S1x576_S1x576_S1x576_S9x576_d0 .f32 i n

end Cert.ReferenceIdeal.Par

end
-- ==== Proof.BridgeMasks.lean ====
import proofs.«130420_g2000206920649175_pallasbulk_1279_2_alg».proof.Proof.KI.Masks
import proofs.«130420_g2000206920649175_pallasbulk_1279_2_alg».proof.Proof.RI.Masks

noncomputable section

namespace Cert.Bridge

open Idealize.ShloMosaic Idealize.SL.Sem

theorem Mp_eq
    (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD) (c' : Dev Cert.ReferenceIdeal.nD) :
    Cert.KernelIdeal.Par.Mp m c = Cert.ReferenceIdeal.Par.Mp m' c' :=
  (Cert.KernelIdeal.Par.Mp_closed m c).trans (Cert.ReferenceIdeal.Par.Mp_closed m' c').symm

end Cert.Bridge

end
-- ==== Proof.Claims.lean ====
import proofs.«130420_g2000206920649175_pallasbulk_1279_2_alg».proof.Defs
import proofs.«130420_g2000206920649175_pallasbulk_1279_2_alg».proof.Proof.Gen.Pre_finite_inputs
import proofs.«130420_g2000206920649175_pallasbulk_1279_2_alg».proof.Proof.KI.Facts
import proofs.«130420_g2000206920649175_pallasbulk_1279_2_alg».proof.Proof.RI.Facts
import proofs.«130420_g2000206920649175_pallasbulk_1279_2_alg».proof.Proof.Tail
import proofs.«130420_g2000206920649175_pallasbulk_1279_2_alg».proof.Proof.KI.HostIn
import proofs.«130420_g2000206920649175_pallasbulk_1279_2_alg».proof.Proof.KI.Step
import proofs.«130420_g2000206920649175_pallasbulk_1279_2_alg».proof.Proof.KI.Value
import proofs.«130420_g2000206920649175_pallasbulk_1279_2_alg».proof.Proof.RI.HostIn
import proofs.«130420_g2000206920649175_pallasbulk_1279_2_alg».proof.Proof.RI.Step
import proofs.«130420_g2000206920649175_pallasbulk_1279_2_alg».proof.Proof.RI.Value
import proofs.«130420_g2000206920649175_pallasbulk_1279_2_alg».proof.Proof.BridgeMasks

noncomputable section

namespace Cert.Proof.Claims

open Idealize.ShloMosaic Idealize.SL.Sem

abbrev MemK : Type := (ℓ : Loc Cert.KernelIdeal.nD Cert.KernelIdeal.τ Cert.KernelIdeal.sig) → Buf (Elt Ideal) ℓ
abbrev MemR : Type := (ℓ : Loc Cert.ReferenceIdeal.nD Cert.ReferenceIdeal.τ Cert.ReferenceIdeal.sig) → Buf (Elt Ideal) ℓ

abbrev Agree (m : MemK) (m' : MemR) : Prop :=
  ∀ c : Dev Cert.KernelIdeal.nD,
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)

section Parameters

theorem W1p_eq {m : MemK} {m' : MemR} (h : Agree m m') (c : Dev Cert.KernelIdeal.nD) :
    Cert.ReferenceIdeal.Par.W1p m' c = Cert.KernelIdeal.Par.W1p m c := by
  funext l o k
  exact congrFun (h c).2.1 _

theorem W2p_eq {m : MemK} {m' : MemR} (h : Agree m m') (c : Dev Cert.KernelIdeal.nD) :
    Cert.ReferenceIdeal.Par.W2p m' c = Cert.KernelIdeal.Par.W2p m c := by
  funext l ch k
  exact congrFun (h c).2.2 _

theorem Xp_eq {m : MemK} {m' : MemR} (h : Agree m m') (c : Dev Cert.KernelIdeal.nD) :
    Cert.ReferenceIdeal.Par.Xp m' c = Cert.KernelIdeal.Par.Xp m c := by
  funext b t ch n
  exact congrFun (h c).1 _

end Parameters

section Assembly

variable
  (hostInK : ∀ (m : MemK) (c : Dev Cert.KernelIdeal.nD), Cert.KernelIdeal.Par.HostIn m c)
  (stepK : ∀ (m : MemK) (c : Dev Cert.KernelIdeal.nD), Cert.KernelIdeal.Par.HostIn m c → Cert.KernelIdeal.Par.StepFacts m c)
  (runK : ∀ (m : MemK) (ρ : Dev Cert.KernelIdeal.nD → PrngReg), (∀ c, Cert.KernelIdeal.Par.StepFacts m c) →
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v265) = Cert.Tail.tailY (F := Ideal) (Cert.Spec.Gy (Cert.KernelIdeal.Par.W1p m c) (Cert.KernelIdeal.Par.W2p m c) (Cert.KernelIdeal.Par.Mp m c) (Cert.KernelIdeal.Par.Xp m c))
      ∧ r.2.mem ((c.tc : Thread Cert.KernelIdeal.nD Cert.KernelIdeal.τ).loc Cert.KernelIdeal.main_v268) = Cert.Tail.tailL (F := Ideal) (Cert.Spec.Glast (Cert.KernelIdeal.Par.W1p m c) (Cert.KernelIdeal.Par.W2p m c) (Cert.KernelIdeal.Par.Mp m c) (Cert.KernelIdeal.Par.Xp m c))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)))
  (hostInR : ∀ (m' : MemR) (c : Dev Cert.ReferenceIdeal.nD), Cert.ReferenceIdeal.Par.HostIn m' c)
  (stepR : ∀ (m' : MemR) (c : Dev Cert.ReferenceIdeal.nD), Cert.ReferenceIdeal.Par.HostIn m' c → Cert.ReferenceIdeal.Par.StepFacts m' c)
  (runR : ∀ (m' : MemR) (ρ : Dev Cert.ReferenceIdeal.nD → PrngReg), (∀ c, Cert.ReferenceIdeal.Par.StepFacts m' c) →
    θ_run (Cert.ReferenceIdeal.defs (F := Ideal)) (onTc (τ := Cert.ReferenceIdeal.τ) (Cert.ReferenceIdeal.main (F := Ideal))) ⟨m', fun _ => 0, ρ⟩ (fun r => ∀ c : Dev Cert.ReferenceIdeal.nD,
      r.2.mem ((c.tc : Thread Cert.ReferenceIdeal.nD Cert.ReferenceIdeal.τ).loc Cert.ReferenceIdeal.main_v196) = Cert.Tail.tailY (F := Ideal) (Cert.Spec.Gy (Cert.ReferenceIdeal.Par.W1p m' c) (Cert.ReferenceIdeal.Par.W2p m' c) (Cert.ReferenceIdeal.Par.Mp m' c) (Cert.ReferenceIdeal.Par.Xp m' c))
      ∧ r.2.mem ((c.tc : Thread Cert.ReferenceIdeal.nD Cert.ReferenceIdeal.τ).loc Cert.ReferenceIdeal.main_v199) = Cert.Tail.tailL (F := Ideal) (Cert.Spec.Glast (Cert.ReferenceIdeal.Par.W1p m' c) (Cert.ReferenceIdeal.Par.W2p m' c) (Cert.ReferenceIdeal.Par.Mp m' c) (Cert.ReferenceIdeal.Par.Xp m' c))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)))
  (mp_eq : ∀ (m : MemK) (m' : MemR) (c : Dev Cert.KernelIdeal.nD) (c' : Dev Cert.ReferenceIdeal.nD), Cert.KernelIdeal.Par.Mp m c = Cert.ReferenceIdeal.Par.Mp m' c')

include hostInK stepK runK hostInR stepR runR mp_eq

theorem algebraic_of :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m g m' g' _ hagree
  refine ⟨fun c => Cert.Tail.tailY (F := Ideal) (Cert.Spec.Gy (Cert.KernelIdeal.Par.W1p m c) (Cert.KernelIdeal.Par.W2p m c) (Cert.KernelIdeal.Par.Mp m c) (Cert.KernelIdeal.Par.Xp m c)),
    fun c => Cert.Tail.tailL (F := Ideal) (Cert.Spec.Glast (Cert.KernelIdeal.Par.W1p m c) (Cert.KernelIdeal.Par.W2p m c) (Cert.KernelIdeal.Par.Mp m c) (Cert.KernelIdeal.Par.Xp m c)),
    runK m g (fun c => stepK m c (hostInK m c)), ?_⟩
  refine (θ_run (Cert.ReferenceIdeal.defs (F := Ideal)) _ _).mono (fun r hr c => ?_) (runR m' g' (fun c => stepR m' c (hostInR m' c)))
  obtain ⟨hy, hl, hargs⟩ := hr c
  have e1 := W1p_eq hagree c
  have e2 := W2p_eq hagree c
  have e3 := Xp_eq hagree c
  have e4 := mp_eq m m' c c
  refine ⟨hy.trans ?_, hl.trans ?_, hargs⟩
  · rw [e1, e2, e3, ← e4]
  · rw [e1, e2, e3, ← e4]

end Assembly

theorem algebraic :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) :=
  algebraic_of Cert.KernelIdeal.Par.hostIn Cert.KernelIdeal.Par.stepFacts Cert.KernelIdeal.Par.run_value
    Cert.ReferenceIdeal.Par.hostIn Cert.ReferenceIdeal.Par.stepFacts Cert.ReferenceIdeal.Par.run_value Cert.Bridge.Mp_eq

end Cert.Proof.Claims

end
-- ==== Proof.lean ====
import proofs.«130420_g2000206920649175_pallasbulk_1279_2_alg».proof.Defs
import proofs.«130420_g2000206920649175_pallasbulk_1279_2_alg».proof.Proof.Gen.Kernel
import proofs.«130420_g2000206920649175_pallasbulk_1279_2_alg».proof.Proof.Gen.Kernel.Skeleton
import proofs.«130420_g2000206920649175_pallasbulk_1279_2_alg».proof.Proof.Gen.Kernel.Launch
import proofs.«130420_g2000206920649175_pallasbulk_1279_2_alg».proof.Proof.Gen.Kernel.Points
import proofs.«130420_g2000206920649175_pallasbulk_1279_2_alg».proof.Proof.Gen.KernelIdeal
import proofs.«130420_g2000206920649175_pallasbulk_1279_2_alg».proof.Proof.Gen.KernelIdeal.Skeleton
import proofs.«130420_g2000206920649175_pallasbulk_1279_2_alg».proof.Proof.Gen.KernelIdeal.Launch
import proofs.«130420_g2000206920649175_pallasbulk_1279_2_alg».proof.Proof.Gen.KernelIdeal.Points
import proofs.«130420_g2000206920649175_pallasbulk_1279_2_alg».proof.Proof.Gen.ReferenceIdeal
import proofs.«130420_g2000206920649175_pallasbulk_1279_2_alg».proof.Proof.Gen.ReferenceIdeal.Skeleton
import proofs.«130420_g2000206920649175_pallasbulk_1279_2_alg».proof.Proof.Gen.ReferenceIdeal.Launch
import proofs.«130420_g2000206920649175_pallasbulk_1279_2_alg».proof.Proof.Gen.ReferenceIdeal.Points
import proofs.«130420_g2000206920649175_pallasbulk_1279_2_alg».proof.Proof.Gen.Pre_finite_inputs
import Idealize.ShloMosaic.Adequacy
import Idealize.ShloMosaic.Init
import proofs.«130420_g2000206920649175_pallasbulk_1279_2_alg».proof.Proof.KB.Body
import proofs.«130420_g2000206920649175_pallasbulk_1279_2_alg».proof.Proof.KI.Body
import proofs.«130420_g2000206920649175_pallasbulk_1279_2_alg».proof.Proof.RI.Frame
import proofs.«130420_g2000206920649175_pallasbulk_1279_2_alg».proof.Proof.Claims

noncomputable section

namespace Cert.Proof

open Idealize.ShloMosaic Idealize.SL.Sem Cert.Kernel

-- Both programs are one two-layer convolutional gated recurrent unit whose inner products are laid out differently; regrouped tap by tap they are the same finite sums over the extended reals. Nothing was idealized, so `preserves` is trivial.
theorem claim : Cert.Claim := ⟨Cert.Kernel.Gen.facts, Cert.KernelIdeal.Gen.facts, Cert.ReferenceIdeal.Gen.facts, Cert.Pre_finite_inputs.Gen.facts, fun m ρ _ => Cert.Kernel.Hand.frame m ρ, fun m ρ _ => Cert.KernelIdeal.Hand.frame m ρ, fun m ρ _ => Cert.ReferenceIdeal.Hand.frame m ρ, trivial, Claims.algebraic⟩

end Cert.Proof

end
